-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S3200000 : Shape := ⟨1, ![3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part2 {F : FTy → Type} [FloatOps F] (main_arg1 : IVec S2x3200000 32) (main_v32 : IVec S_ 1) (main_c_12 : IVec S_ 32) : IVec S_ 1 :=
  let main_v33 : IVec S2x3200000 32 := broadcastInDim S2x3200000 ![] bcast_S_S2x3200000 main_c_12
  let main_v34 : IVec S2x3200000 1 := cmpi .slt main_arg1 main_v33
  let main_c_13 : IVec S_ 1 := constantI S_ 1 1#1
  let main_v35 : IVec S_ 1 := (fun x v => Host.reduce IntOp.andi x v reducesTo_S2x3200000_S_d0_1 h_S_) main_v34 main_c_13
  let main_v36 : IVec S_ 1 := andi main_v32 main_v35
  main_v36

def fn_part1 {F : FTy → Type} [FloatOps F] (main_arg1 : IVec S2x3200000 32) (main_arg5 : FVec F S16x2 .f32) (main_arg6 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x2 .f32 := Host.absf main_arg5
  let main_cst_6 : FVec F S_ .f32 := constant S_ .f32 0x7F800000#32
  let main_v20 : FVec F S16x2 .f32 := broadcastInDim S16x2 ![] bcast_S_S16x2 main_cst_6
  let main_v21 : IVec S16x2 1 := cmpf .olt main_v19 main_v20
  let main_c_7 : IVec S_ 1 := constantI S_ 1 1#1
  let main_v22 : IVec S_ 1 := (fun x v => Host.reduce IntOp.andi x v reducesTo_S16x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_c_10 : IVec S_ 32 := constantI S_ 32 0#32
  let main_v29 : IVec S2x3200000 32 := broadcastInDim S2x3200000 ![] bcast_S_S2x3200000 main_c_10
  let main_v30 : IVec S2x3200000 1 := cmpi .sge main_arg1 main_v29
  let main_c_11 : IVec S_ 1 := constantI S_ 1 1#1
  let main_v31 : IVec S_ 1 := (fun x v => Host.reduce IntOp.andi x v reducesTo_S2x3200000_S_d0_1 h_S_) main_v30 main_c_11
  let main_v32 : IVec S_ 1 := andi main_v28 main_v31
  let main_c_12 : IVec S_ 32 := constantI S_ 32 100000#32
  fn_part2 (F := F) main_arg1 main_v32 main_c_12

def fn {F : FTy → Type} [FloatOps F] (main_arg0 : FVec F S100000x1 .f32) (main_arg1 : IVec S2x3200000 32) (main_arg2 : FVec F S3200000 .f32) (main_arg3 : FVec F S1x16 .f32) (main_arg4 : FVec F S16 .f32) (main_arg5 : FVec F S16x2 .f32) (main_arg6 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_v13 main_v16
-- ==== Kernel.lean ====
abbrev S100000x1 : Shape := ⟨2, ![100000, 1]⟩
abbrev S2x3200000 : Shape := ⟨2, ![2, 3200000]⟩
abbrev S3200000 : Shape := ⟨1, ![3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S1376 : Shape := ⟨1, ![1376]⟩
abbrev S3301376 : Shape := ⟨1, ![3301376]⟩
abbrev S25792x128 : Shape := ⟨2, ![25792, 128]⟩
abbrev S25792x1 : Shape := ⟨2, ![25792, 1]⟩
abbrev S25792 : Shape := ⟨1, ![25792]⟩
abbrev S3301376x1 : Shape := ⟨2, ![3301376, 1]⟩
abbrev S1x3301376 : Shape := ⟨2, ![1, 3301376]⟩
abbrev S1x200192 : Shape := ⟨2, ![1, 200192]⟩
abbrev S1x4096 : Shape := ⟨2, ![1, 4096]⟩
abbrev S4096 : Shape := ⟨1, ![4096]⟩
abbrev S1x100096 : Shape := ⟨2, ![1, 100096]⟩
abbrev S256x128 : Shape := ⟨2, ![256, 128]⟩
abbrev S1 : Shape := ⟨1, ![1]⟩
abbrev S1x128 : Shape := ⟨2, ![1, 128]⟩
abbrev S128 : Shape := ⟨1, ![128]⟩
abbrev S1x256 : Shape := ⟨2, ![1, 256]⟩
abbrev S1x100000 : Shape := ⟨2, ![1, 100000]⟩
abbrev S100000x16 : Shape := ⟨2, ![100000, 16]⟩
abbrev S100000x2 : Shape := ⟨2, ![100000, 2]⟩
abbrev S3301376x2 : Shape := ⟨2, ![3301376, 2]⟩
abbrev S2x3301376 : Shape := ⟨2, ![2, 3301376]⟩
abbrev S2x200192 : Shape := ⟨2, ![2, 200192]⟩
abbrev S2x4096 : Shape := ⟨2, ![2, 4096]⟩
abbrev S2x100096 : Shape := ⟨2, ![2, 100096]⟩
abbrev S2x128 : Shape := ⟨2, ![2, 128]⟩
abbrev S2x256 : Shape := ⟨2, ![2, 256]⟩
abbrev S2x100000 : Shape := ⟨2, ![2, 100000]⟩
abbrev S1x2 : Shape := ⟨2, ![1, 2]⟩

abbrev nBuf : Space → Nat
  | .hbm => 172
  | .vmem => 21
  | .smem => 1
  | _ => 0

abbrev hbmTy0_0 (i : Nat) : BufTy := match i % 128 with
  | 0 => ⟨S100000x1, .f32⟩
  | 1 => ⟨S2x3200000, .i32⟩
  | 2 => ⟨S3200000, .f32⟩
  | 3 => ⟨S1x16, .f32⟩
  | 4 => ⟨S16, .f32⟩
  | 5 => ⟨S16x2, .f32⟩
  | 6 => ⟨S2, .f32⟩
  | 7 => ⟨S1x3200000, .i32⟩
  | 8 => ⟨S3200000, .i32⟩
  | 9 => ⟨S1x3200000, .i32⟩
  | 10 => ⟨S3200000, .i32⟩
  | 11 => ⟨S100000, .i32⟩
  | 12 => ⟨S3300000, .i32⟩
  | 13 => ⟨S3300000, .i32⟩
  | 14 => ⟨S_, .f32⟩
  | 15 => ⟨S100000, .f32⟩
  | 16 => ⟨S3300000, .f32⟩
  | 17 => ⟨S3300000, .i32⟩
  | 18 => ⟨S3300000, .i32⟩
  | 19 => ⟨S3300000, .i32⟩
  | 20 => ⟨S_, .i32⟩
  | 21 => ⟨S3300000, .i32⟩
  | 22 => ⟨S3300000, .i1⟩
  | 23 => ⟨S_, .i32⟩
  | 24 => ⟨S3300000, .i32⟩
  | 25 => ⟨S3300000, .i32⟩
  | 26 => ⟨S3300000, .i32⟩
  | 27 => ⟨S3300000x1, .i32⟩
  | 28 => ⟨S3300000, .i32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .i32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S1376, .i32⟩
  | 49 => ⟨S3301376, .i32⟩
  | 50 => ⟨S_, .i32⟩
  | 51 => ⟨S1376, .i32⟩
  | 52 => ⟨S3301376, .i32⟩
  | 53 => ⟨S_, .f32⟩
  | 54 => ⟨S1376, .f32⟩
  | 55 => ⟨S3301376, .f32⟩
  | 56 => ⟨S25792x128, .i32⟩
  | 57 => ⟨S25792x1, .i32⟩
  | 58 => ⟨S25792, .i32⟩
  | 59 => ⟨S_, .i32⟩
  | 60 => ⟨S25792, .i32⟩
  | 61 => ⟨S25792, .i32⟩
  | 62 => ⟨S_, .i32⟩
  | 63 => ⟨S_, .i32⟩
  | 64 => ⟨S25792, .i32⟩
  | 65 => ⟨S25792, .i32⟩
  | 66 => ⟨S25792, .i32⟩
  | 67 => ⟨S_, .i32⟩
  | 68 => ⟨S25792, .i32⟩
  | 69 => ⟨S25792, .i1⟩
  | 70 => ⟨S25792, .i32⟩
  | 71 => ⟨S25792, .i32⟩
  | 72 => ⟨S_, .i32⟩
  | 73 => ⟨S25792, .i32⟩
  | 74 => ⟨S25792, .i1⟩
  | 75 => ⟨S25792, .i1⟩
  | 76 => ⟨S_, .i32⟩
  | 77 => ⟨S25792, .i32⟩
  | 78 => ⟨S25792, .i32⟩
  | 79 => ⟨S25792, .i32⟩
  | 80 => ⟨S_, .i32⟩
  | 81 => ⟨S25792, .i32⟩
  | 82 => ⟨S3301376x1, .f32⟩
  | 83 => ⟨S1x3301376, .f32⟩
  | 84 => ⟨S1x200192, .f32⟩
  | 85 => ⟨S1x100096, .f32⟩
  | 86 => ⟨S1x100096, .f32⟩
  | 87 => ⟨S1x100096, .f32⟩
  | 88 => ⟨S1x100000, .f32⟩
  | 89 => ⟨S100000x1, .f32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S100000x1, .f32⟩
  | 100 => ⟨S100000x1, .f32⟩
  | 101 => ⟨S3301376x1, .f32⟩
  | 102 => ⟨S_, .i32⟩
  | 103 => ⟨S3301376, .i32⟩
  | 104 => ⟨S3301376, .i1⟩
  | 105 => ⟨S_, .i32⟩
  | 106 => ⟨S3301376, .i32⟩
  | 107 => ⟨S3301376, .i32⟩
  | 108 => ⟨S3301376, .i32⟩
  | 109 => ⟨S3301376x1, .i32⟩
  | 110 => ⟨S3301376x1, .f32⟩
  | 111 => ⟨S3301376x1, .f32⟩
  | 112 => ⟨S1x3301376, .f32⟩
  | 113 => ⟨S1x200192, .f32⟩
  | 114 => ⟨S1x100096, .f32⟩
  | 115 => ⟨S1x100096, .f32⟩
  | 116 => ⟨S1x100096, .f32⟩
  | 117 => ⟨S1x100000, .f32⟩
  | 118 => ⟨S100000x1, .f32⟩
  | 119 => ⟨S100000x1, .f32⟩
  | 120 => ⟨S100000x1, .f32⟩
  | 121 => ⟨S100000x16, .f32⟩
  | 122 => ⟨S1x16, .f32⟩
  | 123 => ⟨S100000x16, .f32⟩
  | 124 => ⟨S100000x16, .f32⟩
  | 125 => ⟨S_, .f32⟩
  | 126 => ⟨S100000x16, .f32⟩
  | 127 => ⟨S100000x16, .f32⟩
  | _ => ⟨S100000x1, .f32⟩

abbrev hbmTy0_1 (i : Nat) : BufTy := match i % 128 with
  | 0 => ⟨S100000x2, .f32⟩
  | 1 => ⟨S100000x1, .f32⟩
  | 2 => ⟨S100000x2, .f32⟩
  | 3 => ⟨S100000x2, .f32⟩
  | 4 => ⟨S3301376x1, .f32⟩
  | 5 => ⟨S_, .i32⟩
  | 6 => ⟨S3301376, .i32⟩
  | 7 => ⟨S3301376, .i1⟩
  | 8 => ⟨S_, .i32⟩
  | 9 => ⟨S3301376, .i32⟩
  | 10 => ⟨S3301376, .i32⟩
  | 11 => ⟨S3301376, .i32⟩
  | 12 => ⟨S3301376x1, .i32⟩
  | 13 => ⟨S3301376x2, .f32⟩
  | 14 => ⟨S3301376x2, .f32⟩
  | 15 => ⟨S3301376x2, .f32⟩
  | 16 => ⟨S2x3301376, .f32⟩
  | 17 => ⟨S2x200192, .f32⟩
  | 18 => ⟨S2x100096, .f32⟩
  | 19 => ⟨S2x100096, .f32⟩
  | 20 => ⟨S2x100096, .f32⟩
  | 21 => ⟨S2x100000, .f32⟩
  | 22 => ⟨S100000x2, .f32⟩
  | 23 => ⟨S100000x1, .f32⟩
  | 24 => ⟨S100000x2, .f32⟩
  | 25 => ⟨S100000x2, .f32⟩
  | 26 => ⟨S1x2, .f32⟩
  | 27 => ⟨S100000x2, .f32⟩
  | 28 => ⟨S100000x2, .f32⟩
  | 29 => ⟨S_, .f32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x2, .f32⟩
  | 36 => ⟨S100000x2, .f32⟩
  | 37 => ⟨S100000x2, .f32⟩
  | 38 => ⟨S_, .f32⟩
  | 39 => ⟨S100000, .f32⟩
  | 40 => ⟨S100000x1, .f32⟩
  | 41 => ⟨S100000x1, .f32⟩
  | 42 => ⟨S100000x2, .f32⟩
  | 43 => ⟨S100000x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S1x4096, .f32⟩
  | .local _ .vmem, ⟨1, _⟩ => ⟨S1x4096, .f32⟩
  | .local _ .vmem, ⟨2, _⟩ => ⟨S4096, .i32⟩
  | .local _ .vmem, ⟨3, _⟩ => ⟨S4096, .i32⟩
  | .local _ .vmem, ⟨4, _⟩ => ⟨S1x100096, .f32⟩
  | .local _ .vmem, ⟨5, _⟩ => ⟨S1x100096, .f32⟩
  | .local _ .vmem, ⟨6, _⟩ => ⟨S1x100096, .f32⟩
  | .local _ .vmem, ⟨7, _⟩ => ⟨S1x4096, .f32⟩
  | .local _ .vmem, ⟨8, _⟩ => ⟨S1x4096, .f32⟩
  | .local _ .vmem, ⟨9, _⟩ => ⟨S4096, .i32⟩
  | .local _ .vmem, ⟨10, _⟩ => ⟨S4096, .i32⟩
  | .local _ .vmem, ⟨11, _⟩ => ⟨S1x100096, .f32⟩
  | .local _ .vmem, ⟨12, _⟩ => ⟨S1x100096, .f32⟩
  | .local _ .vmem, ⟨13, _⟩ => ⟨S1x100096, .f32⟩
  | .local _ .vmem, ⟨14, _⟩ => ⟨S2x4096, .f32⟩
  | .local _ .vmem, ⟨15, _⟩ => ⟨S2x4096, .f32⟩
  | .local _ .vmem, ⟨16, _⟩ => ⟨S4096, .i32⟩
  | .local _ .vmem, ⟨17, _⟩ => ⟨S4096, .i32⟩
  | .local _ .vmem, ⟨18, _⟩ => ⟨S2x100096, .f32⟩
  | .local _ .vmem, ⟨19, _⟩ => ⟨S2x100096, .f32⟩
  | .local _ .vmem, ⟨20, _⟩ => ⟨S2x100096, .f32⟩
  | .local _ .smem, ⟨0, _⟩ => ⟨S25792, .i32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1_0 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_c : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_0 : Ref sig .tc := ⟨.hbm, 76, rfl⟩
abbrev main_call1_v12 : Ref sig .tc := ⟨.hbm, 77, rfl⟩
abbrev main_call1_v13 : Ref sig .tc := ⟨.hbm, 78, rfl⟩
abbrev main_v42 : Ref sig .tc := ⟨.hbm, 79, rfl⟩
abbrev main_c_10 : Ref sig .tc := ⟨.hbm, 80, rfl⟩
abbrev main_v43 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_11 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_12 : Ref sig .tc := ⟨.hbm, 95, rfl⟩
abbrev main_call2_v0 : Ref sig .tc := ⟨.hbm, 96, rfl⟩
abbrev main_call2_v1 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_13 : Ref sig .tc := ⟨.hbm, 102, rfl⟩
abbrev main_v61 : Ref sig .tc := ⟨.hbm, 103, rfl⟩
abbrev main_v62 : Ref sig .tc := ⟨.hbm, 104, rfl⟩
abbrev main_c_14 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_call3_cst : Ref sig .tc := ⟨.hbm, 125, rfl⟩
abbrev main_call3_v0 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_15 : Ref sig .tc := ⟨.hbm, 133, rfl⟩
abbrev main_v88 : Ref sig .tc := ⟨.hbm, 134, rfl⟩
abbrev main_v89 : Ref sig .tc := ⟨.hbm, 135, rfl⟩
abbrev main_c_16 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_call4_cst : Ref sig .tc := ⟨.hbm, 157, rfl⟩
abbrev main_call4_v0 : Ref sig .tc := ⟨.hbm, 158, rfl⟩
abbrev main_call4_cst_0 : Ref sig .tc := ⟨.hbm, 159, rfl⟩
abbrev main_call4_v1 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_call4_v5 : Ref sig .tc := ⟨.hbm, 164, rfl⟩
abbrev main_call4_v6 : Ref sig .tc := ⟨.hbm, 165, rfl⟩
abbrev main_call4_cst_1 : Ref sig .tc := ⟨.hbm, 166, rfl⟩
abbrev main_call4_v7 : Ref sig .tc := ⟨.hbm, 167, rfl⟩
abbrev main_call4_v8 : Ref sig .tc := ⟨.hbm, 168, rfl⟩
abbrev main_call4_v9 : Ref sig .tc := ⟨.hbm, 169, rfl⟩
abbrev main_call4_v10 : Ref sig .tc := ⟨.hbm, 170, rfl⟩
abbrev main_v110 : Ref sig .tc := ⟨.hbm, 171, rfl⟩
abbrev main_v44 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![2, 403], ![false, false]⟩

abbrev pre0 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c12896_i32 : BitVec 32 := 12896#32
  let v4 : BitVec 32 := Scalar.muli arg0 c12896_i32
  let arg1 : BitVec 32 := BitVec.ofNat 32 (i 1).val
  let c32_i32 : BitVec 32 := 32#32
  let v5 : BitVec 32 := Scalar.muli arg1 c32_i32
  let v6 : BitVec 32 := Scalar.addi v4 v5
  let c0_i32_1 : BitVec 32 := 0#32
  let v7 : BitVec 32 := Scalar.addi v6 c0_i32_1
  let v8 : Index := Scalar.indexCast v7
  ![v8.toNat]
def k0_mult1 (v9 : BitVec 32) : BitVec 32 :=
  v9

def k0_off2 (v9 : BitVec 32) : Fin 2 → Nat :=
  let c0_4 : Index := 0#32
  let v10 : BitVec 32 := v9
  let v23 : Index := Scalar.indexCast v10
  ![0, v23.toNat]

def k0_chk1 (v9 : BitVec 32) : Prop :=
  (128 ∣ (k0_mult1 v9).toNat) ∧
  (∀ a, (k0_off2 v9) a + S1x256.size a ≤ S1x100096.size a)
instance k0_chk1.dec : ∀ (v9 : BitVec 32), Decidable (k0_chk1 v9) := fun v9 => decidable_of_iff' _ (Iff.of_eq (k0_chk1.eq_1 v9))
theorem k0_mult1_dvd : ∀ (v9 : BitVec 32) (k0_hw1 : k0_chk1 v9), 128 ∣ (k0_mult1 v9).toNat := fun v9 k0_hw1 => k0_hw1.1
theorem k0_off2_inb : ∀ (v9 : BitVec 32) (k0_hw1 : k0_chk1 v9), ∀ a, (k0_off2 v9) a + S1x256.size a ≤ S1x100096.size a := fun v9 k0_hw1 => k0_hw1.2

def k0_off3 (i : grid0.Coords) : Fin 1 → Nat :=
  let arg0 : BitVec 32 := BitVec.ofNat 32 (i 0).val
  let c12896_i32_6 : BitVec 32 := 12896#32
  let v30 : BitVec 32 := Scalar.muli arg0 c12896_i32_6
  let arg1 : BitVec 32 := BitVec.ofNat 32 (i 1).val
  let c32_i32_7 : BitVec 32 := 32#32
  let v31 : BitVec 32 := Scalar.muli arg1 c32_i32_7
  let v32 : BitVec 32 := Scalar.addi v30 v31
  let c1_i32 : BitVec 32 := 1#32
  let v33 : BitVec 32 := Scalar.addi v32 c1_i32
  let v34 : Index := Scalar.indexCast v33
  ![v34.toNat]
def k0_mult2 (v35 : BitVec 32) : BitVec 32 :=
  v35

def k0_off4 (v35 : BitVec 32) : Fin 2 → Nat :=
  let c0_11 : Index := 0#32
  let v36 : BitVec 32 := v35
  let v49 : Index := Scalar.indexCast v36
  ![0, v49.toNat]

def k0_chk2 (v35 : BitVec 32) : Prop :=
  (128 ∣ (k0_mult2 v35).toNat) ∧
  (∀ a, (k0_off4 v35) a + S1x256.size a ≤ S1x100096.size a)
instance k0_chk2.dec : ∀ (v35 : BitVec 32), Decidable (k0_chk2 v35) := fun v35 => decidable_of_iff' _ (Iff.of_eq (k0_chk2.eq_1 v35))
theorem k0_mult2_dvd : ∀ (v35 : BitVec 32) (k0_hw2 : k0_chk2 v35), 128 ∣ (k0_mult2 v35).toNat := fun v35 k0_hw2 => k0_hw2.1
theorem k0_off4_inb : ∀ (v35 : BitVec 32) (k0_hw2 : k0_chk2 v35), ∀ a, (k0_off4 v35) a + S1x256.size a ≤ S1x100096.size a := fun v35 k0_hw2 => k0_hw2.2

def k0_off5 (i : grid0.Coords) : Fin 1 → Nat :=
  let arg0 : BitVec 32 := BitVec.ofNat 32 (i 0).val
  let c12896_i32_13 : BitVec 32 := 12896#32
  let v56 : BitVec 32 := Scalar.muli arg0 c12896_i32_13
  let arg1 : BitVec 32 := BitVec.ofNat 32 (i 1).val
  let c32_i32_14 : BitVec 32 := 32#32
  let v57 : BitVec 32 := Scalar.muli arg1 c32_i32_14
  let v58 : BitVec 32 := Scalar.addi v56 v57
  let c2_i32 : BitVec 32 := 2#32
  let v59 : BitVec 32 := Scalar.addi v58 c2_i32
  let v60 : Index := Scalar.indexCast v59
  ![v60.toNat]
def k0_mult3 (v61 : BitVec 32) : BitVec 32 :=
  v61

def k0_off6 (v61 : BitVec 32) : Fin 2 → Nat :=
  let c0_18 : Index := 0#32
  let v62 : BitVec 32 := v61
  let v75 : Index := Scalar.indexCast v62
  ![0, v75.toNat]

def k0_chk3 (v61 : BitVec 32) : Prop :=
  (128 ∣ (k0_mult3 v61).toNat) ∧
  (∀ a, (k0_off6 v61) a + S1x256.size a ≤ S1x100096.size a)
instance k0_chk3.dec : ∀ (v61 : BitVec 32), Decidable (k0_chk3 v61) := fun v61 => decidable_of_iff' _ (Iff.of_eq (k0_chk3.eq_1 v61))
theorem k0_mult3_dvd : ∀ (v61 : BitVec 32) (k0_hw3 : k0_chk3 v61), 128 ∣ (k0_mult3 v61).toNat := fun v61 k0_hw3 => k0_hw3.1
theorem k0_off6_inb : ∀ (v61 : BitVec 32) (k0_hw3 : k0_chk3 v61), ∀ a, (k0_off6 v61) a + S1x256.size a ≤ S1x100096.size a := fun v61 k0_hw3 => k0_hw3.2

def k0_off7 (i : grid0.Coords) : Fin 1 → Nat :=
  let arg0 : BitVec 32 := BitVec.ofNat 32 (i 0).val
  let c12896_i32_20 : BitVec 32 := 12896#32
  let v82 : BitVec 32 := Scalar.muli arg0 c12896_i32_20
  let arg1 : BitVec 32 := BitVec.ofNat 32 (i 1).val
  let c32_i32_21 : BitVec 32 := 32#32
  let v83 : BitVec 32 := Scalar.muli arg1 c32_i32_21
  let v84 : BitVec 32 := Scalar.addi v82 v83
  let c3_i32 : BitVec 32 := 3#32
  let v85 : BitVec 32 := Scalar.addi v84 c3_i32
  let v86 : Index := Scalar.indexCast v85
  ![v86.toNat]
def k0_mult4 (v87 : BitVec 32) : BitVec 32 :=
  v87

def k0_off8 (v87 : BitVec 32) : Fin 2 → Nat :=
  let c0_25 : Index := 0#32
  let v88 : BitVec 32 := v87
  let v101 : Index := Scalar.indexCast v88
  ![0, v101.toNat]

def k0_chk4 (v87 : BitVec 32) : Prop :=
  (128 ∣ (k0_mult4 v87).toNat) ∧
  (∀ a, (k0_off8 v87) a + S1x256.size a ≤ S1x100096.size a)
instance k0_chk4.dec : ∀ (v87 : BitVec 32), Decidable (k0_chk4 v87) := fun v87 => decidable_of_iff' _ (Iff.of_eq (k0_chk4.eq_1 v87))
theorem k0_mult4_dvd : ∀ (v87 : BitVec 32) (k0_hw4 : k0_chk4 v87), 128 ∣ (k0_mult4 v87).toNat := fun v87 k0_hw4 => k0_hw4.1
theorem k0_off8_inb : ∀ (v87 : BitVec 32) (k0_hw4 : k0_chk4 v87), ∀ a, (k0_off8 v87) a + S1x256.size a ≤ S1x100096.size a := fun v87 k0_hw4 => k0_hw4.2

def k0_off9 (i : grid0.Coords) : Fin 1 → Nat :=
  let arg0 : BitVec 32 := BitVec.ofNat 32 (i 0).val
  let c12896_i32_27 : BitVec 32 := 12896#32
  let v108 : BitVec 32 := Scalar.muli arg0 c12896_i32_27
  let arg1 : BitVec 32 := BitVec.ofNat 32 (i 1).val
  let c32_i32_28 : BitVec 32 := 32#32
  let v109 : BitVec 32 := Scalar.muli arg1 c32_i32_28
  let v110 : BitVec 32 := Scalar.addi v108 v109
  let c4_i32 : BitVec 32 := 4#32
  let v111 : BitVec 32 := Scalar.addi v110 c4_i32
  let v112 : Index := Scalar.indexCast v111
  ![v112.toNat]
def k0_mult5 (v113 : BitVec 32) : BitVec 32 :=
  v113

def k0_off10 (v113 : BitVec 32) : Fin 2 → Nat :=
  let c0_32 : Index := 0#32
  let v114 : BitVec 32 := v113
  let v127 : Index := Scalar.indexCast v114
  ![0, v127.toNat]

def k0_chk5 (v113 : BitVec 32) : Prop :=
  (128 ∣ (k0_mult5 v113).toNat) ∧
  (∀ a, (k0_off10 v113) a + S1x256.size a ≤ S1x100096.size a)
instance k0_chk5.dec : ∀ (v113 : BitVec 32), Decidable (k0_chk5 v113) := fun v113 => decidable_of_iff' _ (Iff.of_eq (k0_chk5.eq_1 v113))
theorem k0_mult5_dvd : ∀ (v113 : BitVec 32) (k0_hw5 : k0_chk5 v113), 128 ∣ (k0_mult5 v113).toNat := fun v113 k0_hw5 => k0_hw5.1
theorem k0_off10_inb : ∀ (v113 : BitVec 32) (k0_hw5 : k0_chk5 v113), ∀ a, (k0_off10 v113) a + S1x256.size a ≤ S1x100096.size a := fun v113 k0_hw5 => k0_hw5.2

def k0_off11 (i : grid0.Coords) : Fin 1 → Nat :=
  let arg0 : BitVec 32 := BitVec.ofNat 32 (i 0).val
  let c12896_i32_34 : BitVec 32 := 12896#32
  let v134 : BitVec 32 := Scalar.muli arg0 c12896_i32_34
  let arg1 : BitVec 32 := BitVec.ofNat 32 (i 1).val
  let c32_i32_35 : BitVec 32 := 32#32
  let v135 : BitVec 32 := Scalar.muli arg1 c32_i32_35
  let v136 : BitVec 32 := Scalar.addi v134 v135
  let c5_i32 : BitVec 32 := 5#32
  let v137 : BitVec 32 := Scalar.addi v136 c5_i32
  let v138 : Index := Scalar.indexCast v137
  ![v138.toNat]
def k0_mult6 (v139 : BitVec 32) : BitVec 32 :=
  v139

def k0_off12 (v139 : BitVec 32) : Fin 2 → Nat :=
  let c0_39 : Index := 0#32
  let v140 : BitVec 32 := v139
  let v153 : Index := Scalar.indexCast v140
  ![0, v153.toNat]

def k0_chk6 (v139 : BitVec 32) : Prop :=
  (128 ∣ (k0_mult6 v139).toNat) ∧
  (∀ a, (k0_off12 v139) a + S1x256.size a ≤ S1x100096.size a)
instance k0_chk6.dec : ∀ (v139 : BitVec 32), Decidable (k0_chk6 v139) := fun v139 => decidable_of_iff' _ (Iff.of_eq (k0_chk6.eq_1 v139))
theorem k0_mult6_dvd : ∀ (v139 : BitVec 32) (k0_hw6 : k0_chk6 v139), 128 ∣ (k0_mult6 v139).toNat := fun v139 k0_hw6 => k0_hw6.1
theorem k0_off12_inb : ∀ (v139 : BitVec 32) (k0_hw6 : k0_chk6 v139), ∀ a, (k0_off12 v139) a + S1x256.size a ≤ S1x100096.size a := fun v139 k0_hw6 => k0_hw6.2

def k0_off13 (i : grid0.Coords) : Fin 1 → Nat :=
  let arg0 : BitVec 32 := BitVec.ofNat 32 (i 0).val
  let c12896_i32_41 : BitVec 32 := 12896#32
  let v160 : BitVec 32 := Scalar.muli arg0 c12896_i32_41
  let arg1 : BitVec 32 := BitVec.ofNat 32 (i 1).val
  let c32_i32_42 : BitVec 32 := 32#32
  let v161 : BitVec 32 := Scalar.muli arg1 c32_i32_42
  let v162 : BitVec 32 := Scalar.addi v160 v161
  let c6_i32 : BitVec 32 := 6#32
  let v163 : BitVec 32 := Scalar.addi v162 c6_i32
  let v164 : Index := Scalar.indexCast v163
  ![v164.toNat]
def k0_mult7 (v165 : BitVec 32) : BitVec 32 :=
  v165

def k0_off14 (v165 : BitVec 32) : Fin 2 → Nat :=
  let c0_46 : Index := 0#32
  let v166 : BitVec 32 := v165
  let v179 : Index := Scalar.indexCast v166
  ![0, v179.toNat]

def k0_chk7 (v165 : BitVec 32) : Prop :=
  (128 ∣ (k0_mult7 v165).toNat) ∧
  (∀ a, (k0_off14 v165) a + S1x256.size a ≤ S1x100096.size a)
instance k0_chk7.dec : ∀ (v165 : BitVec 32), Decidable (k0_chk7 v165) := fun v165 => decidable_of_iff' _ (Iff.of_eq (k0_chk7.eq_1 v165))
theorem k0_mult7_dvd : ∀ (v165 : BitVec 32) (k0_hw7 : k0_chk7 v165), 128 ∣ (k0_mult7 v165).toNat := fun v165 k0_hw7 => k0_hw7.1
theorem k0_off14_inb : ∀ (v165 : BitVec 32) (k0_hw7 : k0_chk7 v165), ∀ a, (k0_off14 v165) a + S1x256.size a ≤ S1x100096.size a := fun v165 k0_hw7 => k0_hw7.2

def k0_off15 (i : grid0.Coords) : Fin 1 → Nat :=
  let arg0 : BitVec 32 := BitVec.ofNat 32 (i 0).val
  let c12896_i32_48 : BitVec 32 := 12896#32
  let v186 : BitVec 32 := Scalar.muli arg0 c12896_i32_48
  let arg1 : BitVec 32 := BitVec.ofNat 32 (i 1).val
  let c32_i32_49 : BitVec 32 := 32#32
  let v187 : BitVec 32 := Scalar.muli arg1 c32_i32_49
  let v188 : BitVec 32 := Scalar.addi v186 v187
  let c7_i32 : BitVec 32 := 7#32
  let v189 : BitVec 32 := Scalar.addi v188 c7_i32
  let v190 : Index := Scalar.indexCast v189
  ![v190.toNat]
def k0_mult8 (v191 : BitVec 32) : BitVec 32 :=
  v191

def k0_off16 (v191 : BitVec 32) : Fin 2 → Nat :=
  let c0_53 : Index := 0#32
  let v192 : BitVec 32 := v191
  let v205 : Index := Scalar.indexCast v192
  ![0, v205.toNat]

def k0_chk8 (v191 : BitVec 32) : Prop :=
  (128 ∣ (k0_mult8 v191).toNat) ∧
  (∀ a, (k0_off16 v191) a + S1x256.size a ≤ S1x100096.size a)
instance k0_chk8.dec : ∀ (v191 : BitVec 32), Decidable (k0_chk8 v191) := fun v191 => decidable_of_iff' _ (Iff.of_eq (k0_chk8.eq_1 v191))
theorem k0_mult8_dvd : ∀ (v191 : BitVec 32) (k0_hw8 : k0_chk8 v191), 128 ∣ (k0_mult8 v191).toNat := fun v191 k0_hw8 => k0_hw8.1
theorem k0_off16_inb : ∀ (v191 : BitVec 32) (k0_hw8 : k0_chk8 v191), ∀ a, (k0_off16 v191) a + S1x256.size a ≤ S1x100096.size a := fun v191 k0_hw8 => k0_hw8.2

def k0_off17 (i : grid0.Coords) : Fin 1 → Nat :=
  let arg0 : BitVec 32 := BitVec.ofNat 32 (i 0).val
  let c12896_i32_55 : BitVec 32 := 12896#32
  let v212 : BitVec 32 := Scalar.muli arg0 c12896_i32_55
  let arg1 : BitVec 32 := BitVec.ofNat 32 (i 1).val
  let c32_i32_56 : BitVec 32 := 32#32
  let v213 : BitVec 32 := Scalar.muli arg1 c32_i32_56
  let v214 : BitVec 32 := Scalar.addi v212 v213
  let c8_i32 : BitVec 32 := 8#32
  let v215 : BitVec 32 := Scalar.addi v214 c8_i32
  let v216 : Index := Scalar.indexCast v215
  ![v216.toNat]
def k0_mult9 (v217 : BitVec 32) : BitVec 32 :=
  v217

def k0_off18 (v217 : BitVec 32) : Fin 2 → Nat :=
  let c0_60 : Index := 0#32
  let v218 : BitVec 32 := v217
  let v231 : Index := Scalar.indexCast v218
  ![0, v231.toNat]

def k0_chk9 (v217 : BitVec 32) : Prop :=
  (128 ∣ (k0_mult9 v217).toNat) ∧
  (∀ a, (k0_off18 v217) a + S1x256.size a ≤ S1x100096.size a)
instance k0_chk9.dec : ∀ (v217 : BitVec 32), Decidable (k0_chk9 v217) := fun v217 => decidable_of_iff' _ (Iff.of_eq (k0_chk9.eq_1 v217))
theorem k0_mult9_dvd : ∀ (v217 : BitVec 32) (k0_hw9 : k0_chk9 v217), 128 ∣ (k0_mult9 v217).toNat := fun v217 k0_hw9 => k0_hw9.1
theorem k0_off18_inb : ∀ (v217 : BitVec 32) (k0_hw9 : k0_chk9 v217), ∀ a, (k0_off18 v217) a + S1x256.size a ≤ S1x100096.size a := fun v217 k0_hw9 => k0_hw9.2

def k0_off19 (i : grid0.Coords) : Fin 1 → Nat :=
  let arg0 : BitVec 32 := BitVec.ofNat 32 (i 0).val
  let c12896_i32_62 : BitVec 32 := 12896#32
  let v238 : BitVec 32 := Scalar.muli arg0 c12896_i32_62
  let arg1 : BitVec 32 := BitVec.ofNat 32 (i 1).val
  let c32_i32_63 : BitVec 32 := 32#32
  let v239 : BitVec 32 := Scalar.muli arg1 c32_i32_63
  let v240 : BitVec 32 := Scalar.addi v238 v239
  let c9_i32 : BitVec 32 := 9#32
  let v241 : BitVec 32 := Scalar.addi v240 c9_i32
  let v242 : Index := Scalar.indexCast v241
  ![v242.toNat]
def k0_mult10 (v243 : BitVec 32) : BitVec 32 :=
  v243

def k0_off20 (v243 : BitVec 32) : Fin 2 → Nat :=
  let c0_67 : Index := 0#32
  let v244 : BitVec 32 := v243
  let v257 : Index := Scalar.indexCast v244
  ![0, v257.toNat]

def k0_chk10 (v243 : BitVec 32) : Prop :=
  (128 ∣ (k0_mult10 v243).toNat) ∧
  (∀ a, (k0_off20 v243) a + S1x256.size a ≤ S1x100096.size a)
instance k0_chk10.dec : ∀ (v243 : BitVec 32), Decidable (k0_chk10 v243) := fun v243 => decidable_of_iff' _ (Iff.of_eq (k0_chk10.eq_1 v243))
theorem k0_mult10_dvd : ∀ (v243 : BitVec 32) (k0_hw10 : k0_chk10 v243), 128 ∣ (k0_mult10 v243).toNat := fun v243 k0_hw10 => k0_hw10.1
theorem k0_off20_inb : ∀ (v243 : BitVec 32) (k0_hw10 : k0_chk10 v243), ∀ a, (k0_off20 v243) a + S1x256.size a ≤ S1x100096.size a := fun v243 k0_hw10 => k0_hw10.2

def k0_off21 (i : grid0.Coords) : Fin 1 → Nat :=
  let arg0 : BitVec 32 := BitVec.ofNat 32 (i 0).val
  let c12896_i32_69 : BitVec 32 := 12896#32
  let v264 : BitVec 32 := Scalar.muli arg0 c12896_i32_69
  let arg1 : BitVec 32 := BitVec.ofNat 32 (i 1).val
  let c32_i32_70 : BitVec 32 := 32#32
  let v265 : BitVec 32 := Scalar.muli arg1 c32_i32_70
  let v266 : BitVec 32 := Scalar.addi v264 v265
  let c10_i32 : BitVec 32 := 10#32
  let v267 : BitVec 32 := Scalar.addi v266 c10_i32
  let v268 : Index := Scalar.indexCast v267
  ![v268.toNat]
def k0_mult11 (v269 : BitVec 32) : BitVec 32 :=
  v269

def k0_off22 (v269 : BitVec 32) : Fin 2 → Nat :=
  let c0_74 : Index := 0#32
  let v270 : BitVec 32 := v269
  let v283 : Index := Scalar.indexCast v270
  ![0, v283.toNat]

def k0_chk11 (v269 : BitVec 32) : Prop :=
  (128 ∣ (k0_mult11 v269).toNat) ∧
  (∀ a, (k0_off22 v269) a + S1x256.size a ≤ S1x100096.size a)
instance k0_chk11.dec : ∀ (v269 : BitVec 32), Decidable (k0_chk11 v269) := fun v269 => decidable_of_iff' _ (Iff.of_eq (k0_chk11.eq_1 v269))
theorem k0_mult11_dvd : ∀ (v269 : BitVec 32) (k0_hw11 : k0_chk11 v269), 128 ∣ (k0_mult11 v269).toNat := fun v269 k0_hw11 => k0_hw11.1
theorem k0_off22_inb : ∀ (v269 : BitVec 32) (k0_hw11 : k0_chk11 v269), ∀ a, (k0_off22 v269) a + S1x256.size a ≤ S1x100096.size a := fun v269 k0_hw11 => k0_hw11.2

def k0_off23 (i : grid0.Coords) : Fin 1 → Nat :=
  let arg0 : BitVec 32 := BitVec.ofNat 32 (i 0).val
  let c12896_i32_76 : BitVec 32 := 12896#32
  let v290 : BitVec 32 := Scalar.muli arg0 c12896_i32_76
  let arg1 : BitVec 32 := BitVec.ofNat 32 (i 1).val
  let c32_i32_77 : BitVec 32 := 32#32
  let v291 : BitVec 32 := Scalar.muli arg1 c32_i32_77
  let v292 : BitVec 32 := Scalar.addi v290 v291
  let c11_i32 : BitVec 32 := 11#32
  let v293 : BitVec 32 := Scalar.addi v292 c11_i32
  let v294 : Index := Scalar.indexCast v293
  ![v294.toNat]
def k0_mult12 (v295 : BitVec 32) : BitVec 32 :=
  v295

def k0_off24 (v295 : BitVec 32) : Fin 2 → Nat :=
  let c0_81 : Index := 0#32
  let v296 : BitVec 32 := v295
  let v309 : Index := Scalar.indexCast v296
  ![0, v309.toNat]

def k0_chk12 (v295 : BitVec 32) : Prop :=
  (128 ∣ (k0_mult12 v295).toNat) ∧
  (∀ a, (k0_off24 v295) a + S1x256.size a ≤ S1x100096.size a)
instance k0_chk12.dec : ∀ (v295 : BitVec 32), Decidable (k0_chk12 v295) := fun v295 => decidable_of_iff' _ (Iff.of_eq (k0_chk12.eq_1 v295))
theorem k0_mult12_dvd : ∀ (v295 : BitVec 32) (k0_hw12 : k0_chk12 v295), 128 ∣ (k0_mult12 v295).toNat := fun v295 k0_hw12 => k0_hw12.1
theorem k0_off24_inb : ∀ (v295 : BitVec 32) (k0_hw12 : k0_chk12 v295), ∀ a, (k0_off24 v295) a + S1x256.size a ≤ S1x100096.size a := fun v295 k0_hw12 => k0_hw12.2

def k0_off25 (i : grid0.Coords) : Fin 1 → Nat :=
  let arg0 : BitVec 32 := BitVec.ofNat 32 (i 0).val
  let c12896_i32_83 : BitVec 32 := 12896#32
  let v316 : BitVec 32 := Scalar.muli arg0 c12896_i32_83
  let arg1 : BitVec 32 := BitVec.ofNat 32 (i 1).val
  let c32_i32_84 : BitVec 32 := 32#32
  let v317 : BitVec 32 := Scalar.muli arg1 c32_i32_84
  let v318 : BitVec 32 := Scalar.addi v316 v317
  let c12_i32 : BitVec 32 := 12#32
  let v319 : BitVec 32 := Scalar.addi v318 c12_i32
  let v320 : Index := Scalar.indexCast v319
  ![v320.toNat]
def k0_mult13 (v321 : BitVec 32) : BitVec 32 :=
  v321

def k0_off26 (v321 : BitVec 32) : Fin 2 → Nat :=
  let c0_88 : Index := 0#32
  let v322 : BitVec 32 := v321
  let v335 : Index := Scalar.indexCast v322
  ![0, v335.toNat]

def k0_chk13 (v321 : BitVec 32) : Prop :=
  (128 ∣ (k0_mult13 v321).toNat) ∧
  (∀ a, (k0_off26 v321) a + S1x256.size a ≤ S1x100096.size a)
instance k0_chk13.dec : ∀ (v321 : BitVec 32), Decidable (k0_chk13 v321) := fun v321 => decidable_of_iff' _ (Iff.of_eq (k0_chk13.eq_1 v321))
theorem k0_mult13_dvd : ∀ (v321 : BitVec 32) (k0_hw13 : k0_chk13 v321), 128 ∣ (k0_mult13 v321).toNat := fun v321 k0_hw13 => k0_hw13.1
theorem k0_off26_inb : ∀ (v321 : BitVec 32) (k0_hw13 : k0_chk13 v321), ∀ a, (k0_off26 v321) a + S1x256.size a ≤ S1x100096.size a := fun v321 k0_hw13 => k0_hw13.2

def k0_off27 (i : grid0.Coords) : Fin 1 → Nat :=
  let arg0 : BitVec 32 := BitVec.ofNat 32 (i 0).val
  let c12896_i32_90 : BitVec 32 := 12896#32
  let v342 : BitVec 32 := Scalar.muli arg0 c12896_i32_90
  let arg1 : BitVec 32 := BitVec.ofNat 32 (i 1).val
  let c32_i32_91 : BitVec 32 := 32#32
  let v343 : BitVec 32 := Scalar.muli arg1 c32_i32_91
  let v344 : BitVec 32 := Scalar.addi v342 v343
  let c13_i32 : BitVec 32 := 13#32
  let v345 : BitVec 32 := Scalar.addi v344 c13_i32
  let v346 : Index := Scalar.indexCast v345
  ![v346.toNat]
def k0_mult14 (v347 : BitVec 32) : BitVec 32 :=
  v347

def k0_off28 (v347 : BitVec 32) : Fin 2 → Nat :=
  let c0_95 : Index := 0#32
  let v348 : BitVec 32 := v347
  let v361 : Index := Scalar.indexCast v348
  ![0, v361.toNat]

def k0_chk14 (v347 : BitVec 32) : Prop :=
  (128 ∣ (k0_mult14 v347).toNat) ∧
  (∀ a, (k0_off28 v347) a + S1x256.size a ≤ S1x100096.size a)
instance k0_chk14.dec : ∀ (v347 : BitVec 32), Decidable (k0_chk14 v347) := fun v347 => decidable_of_iff' _ (Iff.of_eq (k0_chk14.eq_1 v347))
theorem k0_mult14_dvd : ∀ (v347 : BitVec 32) (k0_hw14 : k0_chk14 v347), 128 ∣ (k0_mult14 v347).toNat := fun v347 k0_hw14 => k0_hw14.1
theorem k0_off28_inb : ∀ (v347 : BitVec 32) (k0_hw14 : k0_chk14 v347), ∀ a, (k0_off28 v347) a + S1x256.size a ≤ S1x100096.size a := fun v347 k0_hw14 => k0_hw14.2

def k0_off29 (i : grid0.Coords) : Fin 1 → Nat :=
  let arg0 : BitVec 32 := BitVec.ofNat 32 (i 0).val
  let c12896_i32_97 : BitVec 32 := 12896#32
  let v368 : BitVec 32 := Scalar.muli arg0 c12896_i32_97
  let arg1 : BitVec 32 := BitVec.ofNat 32 (i 1).val
  let c32_i32_98 : BitVec 32 := 32#32
  let v369 : BitVec 32 := Scalar.muli arg1 c32_i32_98
  let v370 : BitVec 32 := Scalar.addi v368 v369
  let c14_i32 : BitVec 32 := 14#32
  let v371 : BitVec 32 := Scalar.addi v370 c14_i32
  let v372 : Index := Scalar.indexCast v371
  ![v372.toNat]
def k0_mult15 (v373 : BitVec 32) : BitVec 32 :=
  v373

def k0_off30 (v373 : BitVec 32) : Fin 2 → Nat :=
  let c0_102 : Index := 0#32
  let v374 : BitVec 32 := v373
  let v387 : Index := Scalar.indexCast v374
  ![0, v387.toNat]

def k0_chk15 (v373 : BitVec 32) : Prop :=
  (128 ∣ (k0_mult15 v373).toNat) ∧
  (∀ a, (k0_off30 v373) a + S1x256.size a ≤ S1x100096.size a)
instance k0_chk15.dec : ∀ (v373 : BitVec 32), Decidable (k0_chk15 v373) := fun v373 => decidable_of_iff' _ (Iff.of_eq (k0_chk15.eq_1 v373))
theorem k0_mult15_dvd : ∀ (v373 : BitVec 32) (k0_hw15 : k0_chk15 v373), 128 ∣ (k0_mult15 v373).toNat := fun v373 k0_hw15 => k0_hw15.1
theorem k0_off30_inb : ∀ (v373 : BitVec 32) (k0_hw15 : k0_chk15 v373), ∀ a, (k0_off30 v373) a + S1x256.size a ≤ S1x100096.size a := fun v373 k0_hw15 => k0_hw15.2

def k0_off31 (i : grid0.Coords) : Fin 1 → Nat :=
  let arg0 : BitVec 32 := BitVec.ofNat 32 (i 0).val
  let c12896_i32_104 : BitVec 32 := 12896#32
  let v394 : BitVec 32 := Scalar.muli arg0 c12896_i32_104
  let arg1 : BitVec 32 := BitVec.ofNat 32 (i 1).val
  let c32_i32_105 : BitVec 32 := 32#32
  let v395 : BitVec 32 := Scalar.muli arg1 c32_i32_105
  let v396 : BitVec 32 := Scalar.addi v394 v395
  let c15_i32 : BitVec 32 := 15#32
  let v397 : BitVec 32 := Scalar.addi v396 c15_i32
  let v398 : Index := Scalar.indexCast v397
  ![v398.toNat]
def k0_mult16 (v399 : BitVec 32) : BitVec 32 :=
  v399

def k0_off32 (v399 : BitVec 32) : Fin 2 → Nat :=
  let c0_109 : Index := 0#32
  let v400 : BitVec 32 := v399
  let v413 : Index := Scalar.indexCast v400
  ![0, v413.toNat]

def k0_chk16 (v399 : BitVec 32) : Prop :=
  (128 ∣ (k0_mult16 v399).toNat) ∧
  (∀ a, (k0_off32 v399) a + S1x256.size a ≤ S1x100096.size a)
instance k0_chk16.dec : ∀ (v399 : BitVec 32), Decidable (k0_chk16 v399) := fun v399 => decidable_of_iff' _ (Iff.of_eq (k0_chk16.eq_1 v399))
theorem k0_mult16_dvd : ∀ (v399 : BitVec 32) (k0_hw16 : k0_chk16 v399), 128 ∣ (k0_mult16 v399).toNat := fun v399 k0_hw16 => k0_hw16.1
theorem k0_off32_inb : ∀ (v399 : BitVec 32) (k0_hw16 : k0_chk16 v399), ∀ a, (k0_off32 v399) a + S1x256.size a ≤ S1x100096.size a := fun v399 k0_hw16 => k0_hw16.2

def k0_off33 (i : grid0.Coords) : Fin 1 → Nat :=
  let arg0 : BitVec 32 := BitVec.ofNat 32 (i 0).val
  let c12896_i32_111 : BitVec 32 := 12896#32
  let v420 : BitVec 32 := Scalar.muli arg0 c12896_i32_111
  let arg1 : BitVec 32 := BitVec.ofNat 32 (i 1).val
  let c32_i32_112 : BitVec 32 := 32#32
  let v421 : BitVec 32 := Scalar.muli arg1 c32_i32_112
  let v422 : BitVec 32 := Scalar.addi v420 v421
  let c16_i32 : BitVec 32 := 16#32
  let v423 : BitVec 32 := Scalar.addi v422 c16_i32
  let v424 : Index := Scalar.indexCast v423
  ![v424.toNat]
def k0_mult17 (v425 : BitVec 32) : BitVec 32 :=
  v425

def k0_off34 (v425 : BitVec 32) : Fin 2 → Nat :=
  let c0_116 : Index := 0#32
  let v426 : BitVec 32 := v425
  let v439 : Index := Scalar.indexCast v426
  ![0, v439.toNat]

def k0_chk17 (v425 : BitVec 32) : Prop :=
  (128 ∣ (k0_mult17 v425).toNat) ∧
  (∀ a, (k0_off34 v425) a + S1x256.size a ≤ S1x100096.size a)
instance k0_chk17.dec : ∀ (v425 : BitVec 32), Decidable (k0_chk17 v425) := fun v425 => decidable_of_iff' _ (Iff.of_eq (k0_chk17.eq_1 v425))
theorem k0_mult17_dvd : ∀ (v425 : BitVec 32) (k0_hw17 : k0_chk17 v425), 128 ∣ (k0_mult17 v425).toNat := fun v425 k0_hw17 => k0_hw17.1
theorem k0_off34_inb : ∀ (v425 : BitVec 32) (k0_hw17 : k0_chk17 v425), ∀ a, (k0_off34 v425) a + S1x256.size a ≤ S1x100096.size a := fun v425 k0_hw17 => k0_hw17.2

def k0_off35 (i : grid0.Coords) : Fin 1 → Nat :=
  let arg0 : BitVec 32 := BitVec.ofNat 32 (i 0).val
  let c12896_i32_118 : BitVec 32 := 12896#32
  let v446 : BitVec 32 := Scalar.muli arg0 c12896_i32_118
  let arg1 : BitVec 32 := BitVec.ofNat 32 (i 1).val
  let c32_i32_119 : BitVec 32 := 32#32
  let v447 : BitVec 32 := Scalar.muli arg1 c32_i32_119
  let v448 : BitVec 32 := Scalar.addi v446 v447
  let c17_i32 : BitVec 32 := 17#32
  let v449 : BitVec 32 := Scalar.addi v448 c17_i32
  let v450 : Index := Scalar.indexCast v449
  ![v450.toNat]
def k0_mult18 (v451 : BitVec 32) : BitVec 32 :=
  v451

def k0_off36 (v451 : BitVec 32) : Fin 2 → Nat :=
  let c0_123 : Index := 0#32
  let v452 : BitVec 32 := v451
  let v465 : Index := Scalar.indexCast v452
  ![0, v465.toNat]

def k0_chk18 (v451 : BitVec 32) : Prop :=
  (128 ∣ (k0_mult18 v451).toNat) ∧
  (∀ a, (k0_off36 v451) a + S1x256.size a ≤ S1x100096.size a)
instance k0_chk18.dec : ∀ (v451 : BitVec 32), Decidable (k0_chk18 v451) := fun v451 => decidable_of_iff' _ (Iff.of_eq (k0_chk18.eq_1 v451))
theorem k0_mult18_dvd : ∀ (v451 : BitVec 32) (k0_hw18 : k0_chk18 v451), 128 ∣ (k0_mult18 v451).toNat := fun v451 k0_hw18 => k0_hw18.1
theorem k0_off36_inb : ∀ (v451 : BitVec 32) (k0_hw18 : k0_chk18 v451), ∀ a, (k0_off36 v451) a + S1x256.size a ≤ S1x100096.size a := fun v451 k0_hw18 => k0_hw18.2

def k0_off37 (i : grid0.Coords) : Fin 1 → Nat :=
  let arg0 : BitVec 32 := BitVec.ofNat 32 (i 0).val
  let c12896_i32_125 : BitVec 32 := 12896#32
  let v472 : BitVec 32 := Scalar.muli arg0 c12896_i32_125
  let arg1 : BitVec 32 := BitVec.ofNat 32 (i 1).val
  let c32_i32_126 : BitVec 32 := 32#32
  let v473 : BitVec 32 := Scalar.muli arg1 c32_i32_126
  let v474 : BitVec 32 := Scalar.addi v472 v473
  let c18_i32 : BitVec 32 := 18#32
  let v475 : BitVec 32 := Scalar.addi v474 c18_i32
  let v476 : Index := Scalar.indexCast v475
  ![v476.toNat]
def k0_mult19 (v477 : BitVec 32) : BitVec 32 :=
  v477

def k0_off38 (v477 : BitVec 32) : Fin 2 → Nat :=
  let c0_130 : Index := 0#32
  let v478 : BitVec 32 := v477
  let v491 : Index := Scalar.indexCast v478
  ![0, v491.toNat]

def k0_chk19 (v477 : BitVec 32) : Prop :=
  (128 ∣ (k0_mult19 v477).toNat) ∧
  (∀ a, (k0_off38 v477) a + S1x256.size a ≤ S1x100096.size a)
instance k0_chk19.dec : ∀ (v477 : BitVec 32), Decidable (k0_chk19 v477) := fun v477 => decidable_of_iff' _ (Iff.of_eq (k0_chk19.eq_1 v477))
theorem k0_mult19_dvd : ∀ (v477 : BitVec 32) (k0_hw19 : k0_chk19 v477), 128 ∣ (k0_mult19 v477).toNat := fun v477 k0_hw19 => k0_hw19.1
theorem k0_off38_inb : ∀ (v477 : BitVec 32) (k0_hw19 : k0_chk19 v477), ∀ a, (k0_off38 v477) a + S1x256.size a ≤ S1x100096.size a := fun v477 k0_hw19 => k0_hw19.2

def k0_off39 (i : grid0.Coords) : Fin 1 → Nat :=
  let arg0 : BitVec 32 := BitVec.ofNat 32 (i 0).val
  let c12896_i32_132 : BitVec 32 := 12896#32
  let v498 : BitVec 32 := Scalar.muli arg0 c12896_i32_132
  let arg1 : BitVec 32 := BitVec.ofNat 32 (i 1).val
  let c32_i32_133 : BitVec 32 := 32#32
  let v499 : BitVec 32 := Scalar.muli arg1 c32_i32_133
  let v500 : BitVec 32 := Scalar.addi v498 v499
  let c19_i32 : BitVec 32 := 19#32
  let v501 : BitVec 32 := Scalar.addi v500 c19_i32
  let v502 : Index := Scalar.indexCast v501
  ![v502.toNat]
def k0_mult20 (v503 : BitVec 32) : BitVec 32 :=
  v503

def k0_off40 (v503 : BitVec 32) : Fin 2 → Nat :=
  let c0_137 : Index := 0#32
  let v504 : BitVec 32 := v503
  let v517 : Index := Scalar.indexCast v504
  ![0, v517.toNat]

def k0_chk20 (v503 : BitVec 32) : Prop :=
  (128 ∣ (k0_mult20 v503).toNat) ∧
  (∀ a, (k0_off40 v503) a + S1x256.size a ≤ S1x100096.size a)
instance k0_chk20.dec : ∀ (v503 : BitVec 32), Decidable (k0_chk20 v503) := fun v503 => decidable_of_iff' _ (Iff.of_eq (k0_chk20.eq_1 v503))
theorem k0_mult20_dvd : ∀ (v503 : BitVec 32) (k0_hw20 : k0_chk20 v503), 128 ∣ (k0_mult20 v503).toNat := fun v503 k0_hw20 => k0_hw20.1
theorem k0_off40_inb : ∀ (v503 : BitVec 32) (k0_hw20 : k0_chk20 v503), ∀ a, (k0_off40 v503) a + S1x256.size a ≤ S1x100096.size a := fun v503 k0_hw20 => k0_hw20.2

def k0_off41 (i : grid0.Coords) : Fin 1 → Nat :=
  let arg0 : BitVec 32 := BitVec.ofNat 32 (i 0).val
  let c12896_i32_139 : BitVec 32 := 12896#32
  let v524 : BitVec 32 := Scalar.muli arg0 c12896_i32_139
  let arg1 : BitVec 32 := BitVec.ofNat 32 (i 1).val
  let c32_i32_140 : BitVec 32 := 32#32
  let v525 : BitVec 32 := Scalar.muli arg1 c32_i32_140
  let v526 : BitVec 32 := Scalar.addi v524 v525
  let c20_i32 : BitVec 32 := 20#32
  let v527 : BitVec 32 := Scalar.addi v526 c20_i32
  let v528 : Index := Scalar.indexCast v527
  ![v528.toNat]
def k0_mult21 (v529 : BitVec 32) : BitVec 32 :=
  v529

def k0_off42 (v529 : BitVec 32) : Fin 2 → Nat :=
  let c0_144 : Index := 0#32
  let v530 : BitVec 32 := v529
  let v543 : Index := Scalar.indexCast v530
  ![0, v543.toNat]

def k0_chk21 (v529 : BitVec 32) : Prop :=
  (128 ∣ (k0_mult21 v529).toNat) ∧
  (∀ a, (k0_off42 v529) a + S1x256.size a ≤ S1x100096.size a)
instance k0_chk21.dec : ∀ (v529 : BitVec 32), Decidable (k0_chk21 v529) := fun v529 => decidable_of_iff' _ (Iff.of_eq (k0_chk21.eq_1 v529))
theorem k0_mult21_dvd : ∀ (v529 : BitVec 32) (k0_hw21 : k0_chk21 v529), 128 ∣ (k0_mult21 v529).toNat := fun v529 k0_hw21 => k0_hw21.1
theorem k0_off42_inb : ∀ (v529 : BitVec 32) (k0_hw21 : k0_chk21 v529), ∀ a, (k0_off42 v529) a + S1x256.size a ≤ S1x100096.size a := fun v529 k0_hw21 => k0_hw21.2

def k0_off43 (i : grid0.Coords) : Fin 1 → Nat :=
  let arg0 : BitVec 32 := BitVec.ofNat 32 (i 0).val
  let c12896_i32_146 : BitVec 32 := 12896#32
  let v550 : BitVec 32 := Scalar.muli arg0 c12896_i32_146
  let arg1 : BitVec 32 := BitVec.ofNat 32 (i 1).val
  let c32_i32_147 : BitVec 32 := 32#32
  let v551 : BitVec 32 := Scalar.muli arg1 c32_i32_147
  let v552 : BitVec 32 := Scalar.addi v550 v551
  let c21_i32 : BitVec 32 := 21#32
  let v553 : BitVec 32 := Scalar.addi v552 c21_i32
  let v554 : Index := Scalar.indexCast v553
  ![v554.toNat]
def k0_mult22 (v555 : BitVec 32) : BitVec 32 :=
  v555

def k0_off44 (v555 : BitVec 32) : Fin 2 → Nat :=
  let c0_151 : Index := 0#32
  let v556 : BitVec 32 := v555
  let v569 : Index := Scalar.indexCast v556
  ![0, v569.toNat]

def k0_chk22 (v555 : BitVec 32) : Prop :=
  (128 ∣ (k0_mult22 v555).toNat) ∧
  (∀ a, (k0_off44 v555) a + S1x256.size a ≤ S1x100096.size a)
instance k0_chk22.dec : ∀ (v555 : BitVec 32), Decidable (k0_chk22 v555) := fun v555 => decidable_of_iff' _ (Iff.of_eq (k0_chk22.eq_1 v555))
theorem k0_mult22_dvd : ∀ (v555 : BitVec 32) (k0_hw22 : k0_chk22 v555), 128 ∣ (k0_mult22 v555).toNat := fun v555 k0_hw22 => k0_hw22.1
theorem k0_off44_inb : ∀ (v555 : BitVec 32) (k0_hw22 : k0_chk22 v555), ∀ a, (k0_off44 v555) a + S1x256.size a ≤ S1x100096.size a := fun v555 k0_hw22 => k0_hw22.2

def k0_off45 (i : grid0.Coords) : Fin 1 → Nat :=
  let arg0 : BitVec 32 := BitVec.ofNat 32 (i 0).val
  let c12896_i32_153 : BitVec 32 := 12896#32
  let v576 : BitVec 32 := Scalar.muli arg0 c12896_i32_153
  let arg1 : BitVec 32 := BitVec.ofNat 32 (i 1).val
  let c32_i32_154 : BitVec 32 := 32#32
  let v577 : BitVec 32 := Scalar.muli arg1 c32_i32_154
  let v578 : BitVec 32 := Scalar.addi v576 v577
  let c22_i32 : BitVec 32 := 22#32
  let v579 : BitVec 32 := Scalar.addi v578 c22_i32
  let v580 : Index := Scalar.indexCast v579
  ![v580.toNat]
def k0_mult23 (v581 : BitVec 32) : BitVec 32 :=
  v581

def k0_off46 (v581 : BitVec 32) : Fin 2 → Nat :=
  let c0_158 : Index := 0#32
  let v582 : BitVec 32 := v581
  let v595 : Index := Scalar.indexCast v582
  ![0, v595.toNat]

def k0_chk23 (v581 : BitVec 32) : Prop :=
  (128 ∣ (k0_mult23 v581).toNat) ∧
  (∀ a, (k0_off46 v581) a + S1x256.size a ≤ S1x100096.size a)
instance k0_chk23.dec : ∀ (v581 : BitVec 32), Decidable (k0_chk23 v581) := fun v581 => decidable_of_iff' _ (Iff.of_eq (k0_chk23.eq_1 v581))
theorem k0_mult23_dvd : ∀ (v581 : BitVec 32) (k0_hw23 : k0_chk23 v581), 128 ∣ (k0_mult23 v581).toNat := fun v581 k0_hw23 => k0_hw23.1
theorem k0_off46_inb : ∀ (v581 : BitVec 32) (k0_hw23 : k0_chk23 v581), ∀ a, (k0_off46 v581) a + S1x256.size a ≤ S1x100096.size a := fun v581 k0_hw23 => k0_hw23.2

def k0_off47 (i : grid0.Coords) : Fin 1 → Nat :=
  let arg0 : BitVec 32 := BitVec.ofNat 32 (i 0).val
  let c12896_i32_160 : BitVec 32 := 12896#32
  let v602 : BitVec 32 := Scalar.muli arg0 c12896_i32_160
  let arg1 : BitVec 32 := BitVec.ofNat 32 (i 1).val
  let c32_i32_161 : BitVec 32 := 32#32
  let v603 : BitVec 32 := Scalar.muli arg1 c32_i32_161
  let v604 : BitVec 32 := Scalar.addi v602 v603
  let c23_i32 : BitVec 32 := 23#32
  let v605 : BitVec 32 := Scalar.addi v604 c23_i32
  let v606 : Index := Scalar.indexCast v605
  ![v606.toNat]
def k0_mult24 (v607 : BitVec 32) : BitVec 32 :=
  v607

def k0_off48 (v607 : BitVec 32) : Fin 2 → Nat :=
  let c0_165 : Index := 0#32
  let v608 : BitVec 32 := v607
  let v621 : Index := Scalar.indexCast v608
  ![0, v621.toNat]

def k0_chk24 (v607 : BitVec 32) : Prop :=
  (128 ∣ (k0_mult24 v607).toNat) ∧
  (∀ a, (k0_off48 v607) a + S1x256.size a ≤ S1x100096.size a)
instance k0_chk24.dec : ∀ (v607 : BitVec 32), Decidable (k0_chk24 v607) := fun v607 => decidable_of_iff' _ (Iff.of_eq (k0_chk24.eq_1 v607))
theorem k0_mult24_dvd : ∀ (v607 : BitVec 32) (k0_hw24 : k0_chk24 v607), 128 ∣ (k0_mult24 v607).toNat := fun v607 k0_hw24 => k0_hw24.1
theorem k0_off48_inb : ∀ (v607 : BitVec 32) (k0_hw24 : k0_chk24 v607), ∀ a, (k0_off48 v607) a + S1x256.size a ≤ S1x100096.size a := fun v607 k0_hw24 => k0_hw24.2

def k0_off49 (i : grid0.Coords) : Fin 1 → Nat :=
  let arg0 : BitVec 32 := BitVec.ofNat 32 (i 0).val
  let c12896_i32_167 : BitVec 32 := 12896#32
  let v628 : BitVec 32 := Scalar.muli arg0 c12896_i32_167
  let arg1 : BitVec 32 := BitVec.ofNat 32 (i 1).val
  let c32_i32_168 : BitVec 32 := 32#32
  let v629 : BitVec 32 := Scalar.muli arg1 c32_i32_168
  let v630 : BitVec 32 := Scalar.addi v628 v629
  let c24_i32 : BitVec 32 := 24#32
  let v631 : BitVec 32 := Scalar.addi v630 c24_i32
  let v632 : Index := Scalar.indexCast v631
  ![v632.toNat]
def k0_mult25 (v633 : BitVec 32) : BitVec 32 :=
  v633

def k0_off50 (v633 : BitVec 32) : Fin 2 → Nat :=
  let c0_172 : Index := 0#32
  let v634 : BitVec 32 := v633
  let v647 : Index := Scalar.indexCast v634
  ![0, v647.toNat]

def k0_chk25 (v633 : BitVec 32) : Prop :=
  (128 ∣ (k0_mult25 v633).toNat) ∧
  (∀ a, (k0_off50 v633) a + S1x256.size a ≤ S1x100096.size a)
instance k0_chk25.dec : ∀ (v633 : BitVec 32), Decidable (k0_chk25 v633) := fun v633 => decidable_of_iff' _ (Iff.of_eq (k0_chk25.eq_1 v633))
theorem k0_mult25_dvd : ∀ (v633 : BitVec 32) (k0_hw25 : k0_chk25 v633), 128 ∣ (k0_mult25 v633).toNat := fun v633 k0_hw25 => k0_hw25.1
theorem k0_off50_inb : ∀ (v633 : BitVec 32) (k0_hw25 : k0_chk25 v633), ∀ a, (k0_off50 v633) a + S1x256.size a ≤ S1x100096.size a := fun v633 k0_hw25 => k0_hw25.2

def k0_off51 (i : grid0.Coords) : Fin 1 → Nat :=
  let arg0 : BitVec 32 := BitVec.ofNat 32 (i 0).val
  let c12896_i32_174 : BitVec 32 := 12896#32
  let v654 : BitVec 32 := Scalar.muli arg0 c12896_i32_174
  let arg1 : BitVec 32 := BitVec.ofNat 32 (i 1).val
  let c32_i32_175 : BitVec 32 := 32#32
  let v655 : BitVec 32 := Scalar.muli arg1 c32_i32_175
  let v656 : BitVec 32 := Scalar.addi v654 v655
  let c25_i32 : BitVec 32 := 25#32
  let v657 : BitVec 32 := Scalar.addi v656 c25_i32
  let v658 : Index := Scalar.indexCast v657
  ![v658.toNat]
def k0_mult26 (v659 : BitVec 32) : BitVec 32 :=
  v659

def k0_off52 (v659 : BitVec 32) : Fin 2 → Nat :=
  let c0_179 : Index := 0#32
  let v660 : BitVec 32 := v659
  let v673 : Index := Scalar.indexCast v660
  ![0, v673.toNat]

def k0_chk26 (v659 : BitVec 32) : Prop :=
  (128 ∣ (k0_mult26 v659).toNat) ∧
  (∀ a, (k0_off52 v659) a + S1x256.size a ≤ S1x100096.size a)
instance k0_chk26.dec : ∀ (v659 : BitVec 32), Decidable (k0_chk26 v659) := fun v659 => decidable_of_iff' _ (Iff.of_eq (k0_chk26.eq_1 v659))
theorem k0_mult26_dvd : ∀ (v659 : BitVec 32) (k0_hw26 : k0_chk26 v659), 128 ∣ (k0_mult26 v659).toNat := fun v659 k0_hw26 => k0_hw26.1
theorem k0_off52_inb : ∀ (v659 : BitVec 32) (k0_hw26 : k0_chk26 v659), ∀ a, (k0_off52 v659) a + S1x256.size a ≤ S1x100096.size a := fun v659 k0_hw26 => k0_hw26.2

def k0_off53 (i : grid0.Coords) : Fin 1 → Nat :=
  let arg0 : BitVec 32 := BitVec.ofNat 32 (i 0).val
  let c12896_i32_181 : BitVec 32 := 12896#32
  let v680 : BitVec 32 := Scalar.muli arg0 c12896_i32_181
  let arg1 : BitVec 32 := BitVec.ofNat 32 (i 1).val
  let c32_i32_182 : BitVec 32 := 32#32
  let v681 : BitVec 32 := Scalar.muli arg1 c32_i32_182
  let v682 : BitVec 32 := Scalar.addi v680 v681
  let c26_i32 : BitVec 32 := 26#32
  let v683 : BitVec 32 := Scalar.addi v682 c26_i32
  let v684 : Index := Scalar.indexCast v683
  ![v684.toNat]
def k0_mult27 (v685 : BitVec 32) : BitVec 32 :=
  v685

def k0_off54 (v685 : BitVec 32) : Fin 2 → Nat :=
  let c0_186 : Index := 0#32
  let v686 : BitVec 32 := v685
  let v699 : Index := Scalar.indexCast v686
  ![0, v699.toNat]

def k0_chk27 (v685 : BitVec 32) : Prop :=
  (128 ∣ (k0_mult27 v685).toNat) ∧
  (∀ a, (k0_off54 v685) a + S1x256.size a ≤ S1x100096.size a)
instance k0_chk27.dec : ∀ (v685 : BitVec 32), Decidable (k0_chk27 v685) := fun v685 => decidable_of_iff' _ (Iff.of_eq (k0_chk27.eq_1 v685))
theorem k0_mult27_dvd : ∀ (v685 : BitVec 32) (k0_hw27 : k0_chk27 v685), 128 ∣ (k0_mult27 v685).toNat := fun v685 k0_hw27 => k0_hw27.1
theorem k0_off54_inb : ∀ (v685 : BitVec 32) (k0_hw27 : k0_chk27 v685), ∀ a, (k0_off54 v685) a + S1x256.size a ≤ S1x100096.size a := fun v685 k0_hw27 => k0_hw27.2

def k0_off55 (i : grid0.Coords) : Fin 1 → Nat :=
  let arg0 : BitVec 32 := BitVec.ofNat 32 (i 0).val
  let c12896_i32_188 : BitVec 32 := 12896#32
  let v706 : BitVec 32 := Scalar.muli arg0 c12896_i32_188
  let arg1 : BitVec 32 := BitVec.ofNat 32 (i 1).val
  let c32_i32_189 : BitVec 32 := 32#32
  let v707 : BitVec 32 := Scalar.muli arg1 c32_i32_189
  let v708 : BitVec 32 := Scalar.addi v706 v707
  let c27_i32 : BitVec 32 := 27#32
  let v709 : BitVec 32 := Scalar.addi v708 c27_i32
  let v710 : Index := Scalar.indexCast v709
  ![v710.toNat]
def k0_mult28 (v711 : BitVec 32) : BitVec 32 :=
  v711

def k0_off56 (v711 : BitVec 32) : Fin 2 → Nat :=
  let c0_193 : Index := 0#32
  let v712 : BitVec 32 := v711
  let v725 : Index := Scalar.indexCast v712
  ![0, v725.toNat]

def k0_chk28 (v711 : BitVec 32) : Prop :=
  (128 ∣ (k0_mult28 v711).toNat) ∧
  (∀ a, (k0_off56 v711) a + S1x256.size a ≤ S1x100096.size a)
instance k0_chk28.dec : ∀ (v711 : BitVec 32), Decidable (k0_chk28 v711) := fun v711 => decidable_of_iff' _ (Iff.of_eq (k0_chk28.eq_1 v711))
theorem k0_mult28_dvd : ∀ (v711 : BitVec 32) (k0_hw28 : k0_chk28 v711), 128 ∣ (k0_mult28 v711).toNat := fun v711 k0_hw28 => k0_hw28.1
theorem k0_off56_inb : ∀ (v711 : BitVec 32) (k0_hw28 : k0_chk28 v711), ∀ a, (k0_off56 v711) a + S1x256.size a ≤ S1x100096.size a := fun v711 k0_hw28 => k0_hw28.2

def k0_off57 (i : grid0.Coords) : Fin 1 → Nat :=
  let arg0 : BitVec 32 := BitVec.ofNat 32 (i 0).val
  let c12896_i32_195 : BitVec 32 := 12896#32
  let v732 : BitVec 32 := Scalar.muli arg0 c12896_i32_195
  let arg1 : BitVec 32 := BitVec.ofNat 32 (i 1).val
  let c32_i32_196 : BitVec 32 := 32#32
  let v733 : BitVec 32 := Scalar.muli arg1 c32_i32_196
  let v734 : BitVec 32 := Scalar.addi v732 v733
  let c28_i32 : BitVec 32 := 28#32
  let v735 : BitVec 32 := Scalar.addi v734 c28_i32
  let v736 : Index := Scalar.indexCast v735
  ![v736.toNat]
def k0_mult29 (v737 : BitVec 32) : BitVec 32 :=
  v737

def k0_off58 (v737 : BitVec 32) : Fin 2 → Nat :=
  let c0_200 : Index := 0#32
  let v738 : BitVec 32 := v737
  let v751 : Index := Scalar.indexCast v738
  ![0, v751.toNat]

def k0_chk29 (v737 : BitVec 32) : Prop :=
  (128 ∣ (k0_mult29 v737).toNat) ∧
  (∀ a, (k0_off58 v737) a + S1x256.size a ≤ S1x100096.size a)
instance k0_chk29.dec : ∀ (v737 : BitVec 32), Decidable (k0_chk29 v737) := fun v737 => decidable_of_iff' _ (Iff.of_eq (k0_chk29.eq_1 v737))
theorem k0_mult29_dvd : ∀ (v737 : BitVec 32) (k0_hw29 : k0_chk29 v737), 128 ∣ (k0_mult29 v737).toNat := fun v737 k0_hw29 => k0_hw29.1
theorem k0_off58_inb : ∀ (v737 : BitVec 32) (k0_hw29 : k0_chk29 v737), ∀ a, (k0_off58 v737) a + S1x256.size a ≤ S1x100096.size a := fun v737 k0_hw29 => k0_hw29.2

def k0_off59 (i : grid0.Coords) : Fin 1 → Nat :=
  let arg0 : BitVec 32 := BitVec.ofNat 32 (i 0).val
  let c12896_i32_202 : BitVec 32 := 12896#32
  let v758 : BitVec 32 := Scalar.muli arg0 c12896_i32_202
  let arg1 : BitVec 32 := BitVec.ofNat 32 (i 1).val
  let c32_i32_203 : BitVec 32 := 32#32
  let v759 : BitVec 32 := Scalar.muli arg1 c32_i32_203
  let v760 : BitVec 32 := Scalar.addi v758 v759
  let c29_i32 : BitVec 32 := 29#32
  let v761 : BitVec 32 := Scalar.addi v760 c29_i32
  let v762 : Index := Scalar.indexCast v761
  ![v762.toNat]
def k0_mult30 (v763 : BitVec 32) : BitVec 32 :=
  v763

def k0_off60 (v763 : BitVec 32) : Fin 2 → Nat :=
  let c0_207 : Index := 0#32
  let v764 : BitVec 32 := v763
  let v777 : Index := Scalar.indexCast v764
  ![0, v777.toNat]

def k0_chk30 (v763 : BitVec 32) : Prop :=
  (128 ∣ (k0_mult30 v763).toNat) ∧
  (∀ a, (k0_off60 v763) a + S1x256.size a ≤ S1x100096.size a)
instance k0_chk30.dec : ∀ (v763 : BitVec 32), Decidable (k0_chk30 v763) := fun v763 => decidable_of_iff' _ (Iff.of_eq (k0_chk30.eq_1 v763))
theorem k0_mult30_dvd : ∀ (v763 : BitVec 32) (k0_hw30 : k0_chk30 v763), 128 ∣ (k0_mult30 v763).toNat := fun v763 k0_hw30 => k0_hw30.1
theorem k0_off60_inb : ∀ (v763 : BitVec 32) (k0_hw30 : k0_chk30 v763), ∀ a, (k0_off60 v763) a + S1x256.size a ≤ S1x100096.size a := fun v763 k0_hw30 => k0_hw30.2

def k0_off61 (i : grid0.Coords) : Fin 1 → Nat :=
  let arg0 : BitVec 32 := BitVec.ofNat 32 (i 0).val
  let c12896_i32_209 : BitVec 32 := 12896#32
  let v784 : BitVec 32 := Scalar.muli arg0 c12896_i32_209
  let arg1 : BitVec 32 := BitVec.ofNat 32 (i 1).val
  let c32_i32_210 : BitVec 32 := 32#32
  let v785 : BitVec 32 := Scalar.muli arg1 c32_i32_210
  let v786 : BitVec 32 := Scalar.addi v784 v785
  let c30_i32 : BitVec 32 := 30#32
  let v787 : BitVec 32 := Scalar.addi v786 c30_i32
  let v788 : Index := Scalar.indexCast v787
  ![v788.toNat]
def k0_mult31 (v789 : BitVec 32) : BitVec 32 :=
  v789

def k0_off62 (v789 : BitVec 32) : Fin 2 → Nat :=
  let c0_214 : Index := 0#32
  let v790 : BitVec 32 := v789
  let v803 : Index := Scalar.indexCast v790
  ![0, v803.toNat]

def k0_chk31 (v789 : BitVec 32) : Prop :=
  (128 ∣ (k0_mult31 v789).toNat) ∧
  (∀ a, (k0_off62 v789) a + S1x256.size a ≤ S1x100096.size a)
instance k0_chk31.dec : ∀ (v789 : BitVec 32), Decidable (k0_chk31 v789) := fun v789 => decidable_of_iff' _ (Iff.of_eq (k0_chk31.eq_1 v789))
theorem k0_mult31_dvd : ∀ (v789 : BitVec 32) (k0_hw31 : k0_chk31 v789), 128 ∣ (k0_mult31 v789).toNat := fun v789 k0_hw31 => k0_hw31.1
theorem k0_off62_inb : ∀ (v789 : BitVec 32) (k0_hw31 : k0_chk31 v789), ∀ a, (k0_off62 v789) a + S1x256.size a ≤ S1x100096.size a := fun v789 k0_hw31 => k0_hw31.2

def k0_off63 (i : grid0.Coords) : Fin 1 → Nat :=
  let arg0 : BitVec 32 := BitVec.ofNat 32 (i 0).val
  let c12896_i32_216 : BitVec 32 := 12896#32
  let v810 : BitVec 32 := Scalar.muli arg0 c12896_i32_216
  let arg1 : BitVec 32 := BitVec.ofNat 32 (i 1).val
  let c32_i32_217 : BitVec 32 := 32#32
  let v811 : BitVec 32 := Scalar.muli arg1 c32_i32_217
  let v812 : BitVec 32 := Scalar.addi v810 v811
  let c31_i32 : BitVec 32 := 31#32
  let v813 : BitVec 32 := Scalar.addi v812 c31_i32
  let v814 : Index := Scalar.indexCast v813
  ![v814.toNat]
def k0_mult32 (v815 : BitVec 32) : BitVec 32 :=
  v815

def k0_off64 (v815 : BitVec 32) : Fin 2 → Nat :=
  let c0_221 : Index := 0#32
  let v816 : BitVec 32 := v815
  let v829 : Index := Scalar.indexCast v816
  ![0, v829.toNat]

def k0_chk32 (v815 : BitVec 32) : Prop :=
  (128 ∣ (k0_mult32 v815).toNat) ∧
  (∀ a, (k0_off64 v815) a + S1x256.size a ≤ S1x100096.size a)
instance k0_chk32.dec : ∀ (v815 : BitVec 32), Decidable (k0_chk32 v815) := fun v815 => decidable_of_iff' _ (Iff.of_eq (k0_chk32.eq_1 v815))
theorem k0_mult32_dvd : ∀ (v815 : BitVec 32) (k0_hw32 : k0_chk32 v815), 128 ∣ (k0_mult32 v815).toNat := fun v815 k0_hw32 => k0_hw32.1
theorem k0_off64_inb : ∀ (v815 : BitVec 32) (k0_hw32 : k0_chk32 v815), ∀ a, (k0_off64 v815) a + S1x256.size a ≤ S1x100096.size a := fun v815 k0_hw32 => k0_hw32.2

def k0_cond2 (i : grid0.Coords) : BitVec 1 :=
  let arg1 : BitVec 32 := BitVec.ofNat 32 (i 1).val
  let c402_i32 : BitVec 32 := 402#32
  let v836 : BitVec 1 := Scalar.cmpi .eq arg1 c402_i32
  let v837 : BitVec 32 := Scalar.extui v836
  let c0_i32_223 : BitVec 32 := 0#32
  let v838 : BitVec 1 := Scalar.cmpi .ne v837 c0_i32_223
  v838

def cc0_transform_0 (i : grid0.Coords) : Fin 2 → Nat :=
  let arg0 : BitVec 32 := BitVec.ofNat 32 (i 0).val
  let arg1 : BitVec 32 := BitVec.ofNat 32 (i 1).val
  let c403_i32 : BitVec 32 := 403#32
  let v0 : BitVec 32 := Scalar.muli arg0 c403_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 1 → Nat :=
  let arg0 : BitVec 32 := BitVec.ofNat 32 (i 0).val
  let arg1 : BitVec 32 := BitVec.ofNat 32 (i 1).val
  let c403_i32 : BitVec 32 := 403#32
  let v0 : BitVec 32 := Scalar.muli arg0 c403_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 403], ![false, false]⟩

abbrev pre1 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c12896_i32 : BitVec 32 := 12896#32
  let v4 : BitVec 32 := Scalar.muli arg0 c12896_i32
  let arg1 : BitVec 32 := BitVec.ofNat 32 (i 1).val
  let c32_i32 : BitVec 32 := 32#32
  let v5 : BitVec 32 := Scalar.muli arg1 c32_i32
  let v6 : BitVec 32 := Scalar.addi v4 v5
  let c0_i32_1 : BitVec 32 := 0#32
  let v7 : BitVec 32 := Scalar.addi v6 c0_i32_1
  let v8 : Index := Scalar.indexCast v7
  ![v8.toNat]
def k1_mult1 (v9 : BitVec 32) : BitVec 32 :=
  v9

def k1_off2 (v9 : BitVec 32) : Fin 2 → Nat :=
  let c0_4 : Index := 0#32
  let v10 : BitVec 32 := v9
  let v23 : Index := Scalar.indexCast v10
  ![0, v23.toNat]

def k1_chk1 (v9 : BitVec 32) : Prop :=
  (128 ∣ (k1_mult1 v9).toNat) ∧
  (∀ a, (k1_off2 v9) a + S1x256.size a ≤ S1x100096.size a)
instance k1_chk1.dec : ∀ (v9 : BitVec 32), Decidable (k1_chk1 v9) := fun v9 => decidable_of_iff' _ (Iff.of_eq (k1_chk1.eq_1 v9))
theorem k1_mult1_dvd : ∀ (v9 : BitVec 32) (k1_hw1 : k1_chk1 v9), 128 ∣ (k1_mult1 v9).toNat := fun v9 k1_hw1 => k1_hw1.1
theorem k1_off2_inb : ∀ (v9 : BitVec 32) (k1_hw1 : k1_chk1 v9), ∀ a, (k1_off2 v9) a + S1x256.size a ≤ S1x100096.size a := fun v9 k1_hw1 => k1_hw1.2

def k1_off3 (i : grid1.Coords) : Fin 1 → Nat :=
  let arg0 : BitVec 32 := BitVec.ofNat 32 (i 0).val
  let c12896_i32_6 : BitVec 32 := 12896#32
  let v30 : BitVec 32 := Scalar.muli arg0 c12896_i32_6
  let arg1 : BitVec 32 := BitVec.ofNat 32 (i 1).val
  let c32_i32_7 : BitVec 32 := 32#32
  let v31 : BitVec 32 := Scalar.muli arg1 c32_i32_7
  let v32 : BitVec 32 := Scalar.addi v30 v31
  let c1_i32 : BitVec 32 := 1#32
  let v33 : BitVec 32 := Scalar.addi v32 c1_i32
  let v34 : Index := Scalar.indexCast v33
  ![v34.toNat]
def k1_mult2 (v35 : BitVec 32) : BitVec 32 :=
  v35

def k1_off4 (v35 : BitVec 32) : Fin 2 → Nat :=
  let c0_11 : Index := 0#32
  let v36 : BitVec 32 := v35
  let v49 : Index := Scalar.indexCast v36
  ![0, v49.toNat]

def k1_chk2 (v35 : BitVec 32) : Prop :=
  (128 ∣ (k1_mult2 v35).toNat) ∧
  (∀ a, (k1_off4 v35) a + S1x256.size a ≤ S1x100096.size a)
instance k1_chk2.dec : ∀ (v35 : BitVec 32), Decidable (k1_chk2 v35) := fun v35 => decidable_of_iff' _ (Iff.of_eq (k1_chk2.eq_1 v35))
theorem k1_mult2_dvd : ∀ (v35 : BitVec 32) (k1_hw2 : k1_chk2 v35), 128 ∣ (k1_mult2 v35).toNat := fun v35 k1_hw2 => k1_hw2.1
theorem k1_off4_inb : ∀ (v35 : BitVec 32) (k1_hw2 : k1_chk2 v35), ∀ a, (k1_off4 v35) a + S1x256.size a ≤ S1x100096.size a := fun v35 k1_hw2 => k1_hw2.2

def k1_off5 (i : grid1.Coords) : Fin 1 → Nat :=
  let arg0 : BitVec 32 := BitVec.ofNat 32 (i 0).val
  let c12896_i32_13 : BitVec 32 := 12896#32
  let v56 : BitVec 32 := Scalar.muli arg0 c12896_i32_13
  let arg1 : BitVec 32 := BitVec.ofNat 32 (i 1).val
  let c32_i32_14 : BitVec 32 := 32#32
  let v57 : BitVec 32 := Scalar.muli arg1 c32_i32_14
  let v58 : BitVec 32 := Scalar.addi v56 v57
  let c2_i32 : BitVec 32 := 2#32
  let v59 : BitVec 32 := Scalar.addi v58 c2_i32
  let v60 : Index := Scalar.indexCast v59
  ![v60.toNat]
def k1_mult3 (v61 : BitVec 32) : BitVec 32 :=
  v61

def k1_off6 (v61 : BitVec 32) : Fin 2 → Nat :=
  let c0_18 : Index := 0#32
  let v62 : BitVec 32 := v61
  let v75 : Index := Scalar.indexCast v62
  ![0, v75.toNat]

def k1_chk3 (v61 : BitVec 32) : Prop :=
  (128 ∣ (k1_mult3 v61).toNat) ∧
  (∀ a, (k1_off6 v61) a + S1x256.size a ≤ S1x100096.size a)
instance k1_chk3.dec : ∀ (v61 : BitVec 32), Decidable (k1_chk3 v61) := fun v61 => decidable_of_iff' _ (Iff.of_eq (k1_chk3.eq_1 v61))
theorem k1_mult3_dvd : ∀ (v61 : BitVec 32) (k1_hw3 : k1_chk3 v61), 128 ∣ (k1_mult3 v61).toNat := fun v61 k1_hw3 => k1_hw3.1
theorem k1_off6_inb : ∀ (v61 : BitVec 32) (k1_hw3 : k1_chk3 v61), ∀ a, (k1_off6 v61) a + S1x256.size a ≤ S1x100096.size a := fun v61 k1_hw3 => k1_hw3.2

def k1_off7 (i : grid1.Coords) : Fin 1 → Nat :=
  let arg0 : BitVec 32 := BitVec.ofNat 32 (i 0).val
  let c12896_i32_20 : BitVec 32 := 12896#32
  let v82 : BitVec 32 := Scalar.muli arg0 c12896_i32_20
  let arg1 : BitVec 32 := BitVec.ofNat 32 (i 1).val
  let c32_i32_21 : BitVec 32 := 32#32
  let v83 : BitVec 32 := Scalar.muli arg1 c32_i32_21
  let v84 : BitVec 32 := Scalar.addi v82 v83
  let c3_i32 : BitVec 32 := 3#32
  let v85 : BitVec 32 := Scalar.addi v84 c3_i32
  let v86 : Index := Scalar.indexCast v85
  ![v86.toNat]
def k1_mult4 (v87 : BitVec 32) : BitVec 32 :=
  v87

def k1_off8 (v87 : BitVec 32) : Fin 2 → Nat :=
  let c0_25 : Index := 0#32
  let v88 : BitVec 32 := v87
  let v101 : Index := Scalar.indexCast v88
  ![0, v101.toNat]

def k1_chk4 (v87 : BitVec 32) : Prop :=
  (128 ∣ (k1_mult4 v87).toNat) ∧
  (∀ a, (k1_off8 v87) a + S1x256.size a ≤ S1x100096.size a)
instance k1_chk4.dec : ∀ (v87 : BitVec 32), Decidable (k1_chk4 v87) := fun v87 => decidable_of_iff' _ (Iff.of_eq (k1_chk4.eq_1 v87))
theorem k1_mult4_dvd : ∀ (v87 : BitVec 32) (k1_hw4 : k1_chk4 v87), 128 ∣ (k1_mult4 v87).toNat := fun v87 k1_hw4 => k1_hw4.1
theorem k1_off8_inb : ∀ (v87 : BitVec 32) (k1_hw4 : k1_chk4 v87), ∀ a, (k1_off8 v87) a + S1x256.size a ≤ S1x100096.size a := fun v87 k1_hw4 => k1_hw4.2

def k1_off9 (i : grid1.Coords) : Fin 1 → Nat :=
  let arg0 : BitVec 32 := BitVec.ofNat 32 (i 0).val
  let c12896_i32_27 : BitVec 32 := 12896#32
  let v108 : BitVec 32 := Scalar.muli arg0 c12896_i32_27
  let arg1 : BitVec 32 := BitVec.ofNat 32 (i 1).val
  let c32_i32_28 : BitVec 32 := 32#32
  let v109 : BitVec 32 := Scalar.muli arg1 c32_i32_28
  let v110 : BitVec 32 := Scalar.addi v108 v109
  let c4_i32 : BitVec 32 := 4#32
  let v111 : BitVec 32 := Scalar.addi v110 c4_i32
  let v112 : Index := Scalar.indexCast v111
  ![v112.toNat]
def k1_mult5 (v113 : BitVec 32) : BitVec 32 :=
  v113

def k1_off10 (v113 : BitVec 32) : Fin 2 → Nat :=
  let c0_32 : Index := 0#32
  let v114 : BitVec 32 := v113
  let v127 : Index := Scalar.indexCast v114
  ![0, v127.toNat]

def k1_chk5 (v113 : BitVec 32) : Prop :=
  (128 ∣ (k1_mult5 v113).toNat) ∧
  (∀ a, (k1_off10 v113) a + S1x256.size a ≤ S1x100096.size a)
instance k1_chk5.dec : ∀ (v113 : BitVec 32), Decidable (k1_chk5 v113) := fun v113 => decidable_of_iff' _ (Iff.of_eq (k1_chk5.eq_1 v113))
theorem k1_mult5_dvd : ∀ (v113 : BitVec 32) (k1_hw5 : k1_chk5 v113), 128 ∣ (k1_mult5 v113).toNat := fun v113 k1_hw5 => k1_hw5.1
theorem k1_off10_inb : ∀ (v113 : BitVec 32) (k1_hw5 : k1_chk5 v113), ∀ a, (k1_off10 v113) a + S1x256.size a ≤ S1x100096.size a := fun v113 k1_hw5 => k1_hw5.2

def k1_off11 (i : grid1.Coords) : Fin 1 → Nat :=
  let arg0 : BitVec 32 := BitVec.ofNat 32 (i 0).val
  let c12896_i32_34 : BitVec 32 := 12896#32
  let v134 : BitVec 32 := Scalar.muli arg0 c12896_i32_34
  let arg1 : BitVec 32 := BitVec.ofNat 32 (i 1).val
  let c32_i32_35 : BitVec 32 := 32#32
  let v135 : BitVec 32 := Scalar.muli arg1 c32_i32_35
  let v136 : BitVec 32 := Scalar.addi v134 v135
  let c5_i32 : BitVec 32 := 5#32
  let v137 : BitVec 32 := Scalar.addi v136 c5_i32
  let v138 : Index := Scalar.indexCast v137
  ![v138.toNat]
def k1_mult6 (v139 : BitVec 32) : BitVec 32 :=
  v139

def k1_off12 (v139 : BitVec 32) : Fin 2 → Nat :=
  let c0_39 : Index := 0#32
  let v140 : BitVec 32 := v139
  let v153 : Index := Scalar.indexCast v140
  ![0, v153.toNat]

def k1_chk6 (v139 : BitVec 32) : Prop :=
  (128 ∣ (k1_mult6 v139).toNat) ∧
  (∀ a, (k1_off12 v139) a + S1x256.size a ≤ S1x100096.size a)
instance k1_chk6.dec : ∀ (v139 : BitVec 32), Decidable (k1_chk6 v139) := fun v139 => decidable_of_iff' _ (Iff.of_eq (k1_chk6.eq_1 v139))
theorem k1_mult6_dvd : ∀ (v139 : BitVec 32) (k1_hw6 : k1_chk6 v139), 128 ∣ (k1_mult6 v139).toNat := fun v139 k1_hw6 => k1_hw6.1
theorem k1_off12_inb : ∀ (v139 : BitVec 32) (k1_hw6 : k1_chk6 v139), ∀ a, (k1_off12 v139) a + S1x256.size a ≤ S1x100096.size a := fun v139 k1_hw6 => k1_hw6.2

def k1_off13 (i : grid1.Coords) : Fin 1 → Nat :=
  let arg0 : BitVec 32 := BitVec.ofNat 32 (i 0).val
  let c12896_i32_41 : BitVec 32 := 12896#32
  let v160 : BitVec 32 := Scalar.muli arg0 c12896_i32_41
  let arg1 : BitVec 32 := BitVec.ofNat 32 (i 1).val
  let c32_i32_42 : BitVec 32 := 32#32
  let v161 : BitVec 32 := Scalar.muli arg1 c32_i32_42
  let v162 : BitVec 32 := Scalar.addi v160 v161
  let c6_i32 : BitVec 32 := 6#32
  let v163 : BitVec 32 := Scalar.addi v162 c6_i32
  let v164 : Index := Scalar.indexCast v163
  ![v164.toNat]
def k1_mult7 (v165 : BitVec 32) : BitVec 32 :=
  v165

def k1_off14 (v165 : BitVec 32) : Fin 2 → Nat :=
  let c0_46 : Index := 0#32
  let v166 : BitVec 32 := v165
  let v179 : Index := Scalar.indexCast v166
  ![0, v179.toNat]

def k1_chk7 (v165 : BitVec 32) : Prop :=
  (128 ∣ (k1_mult7 v165).toNat) ∧
  (∀ a, (k1_off14 v165) a + S1x256.size a ≤ S1x100096.size a)
instance k1_chk7.dec : ∀ (v165 : BitVec 32), Decidable (k1_chk7 v165) := fun v165 => decidable_of_iff' _ (Iff.of_eq (k1_chk7.eq_1 v165))
theorem k1_mult7_dvd : ∀ (v165 : BitVec 32) (k1_hw7 : k1_chk7 v165), 128 ∣ (k1_mult7 v165).toNat := fun v165 k1_hw7 => k1_hw7.1
theorem k1_off14_inb : ∀ (v165 : BitVec 32) (k1_hw7 : k1_chk7 v165), ∀ a, (k1_off14 v165) a + S1x256.size a ≤ S1x100096.size a := fun v165 k1_hw7 => k1_hw7.2

def k1_off15 (i : grid1.Coords) : Fin 1 → Nat :=
  let arg0 : BitVec 32 := BitVec.ofNat 32 (i 0).val
  let c12896_i32_48 : BitVec 32 := 12896#32
  let v186 : BitVec 32 := Scalar.muli arg0 c12896_i32_48
  let arg1 : BitVec 32 := BitVec.ofNat 32 (i 1).val
  let c32_i32_49 : BitVec 32 := 32#32
  let v187 : BitVec 32 := Scalar.muli arg1 c32_i32_49
  let v188 : BitVec 32 := Scalar.addi v186 v187
  let c7_i32 : BitVec 32 := 7#32
  let v189 : BitVec 32 := Scalar.addi v188 c7_i32
  let v190 : Index := Scalar.indexCast v189
  ![v190.toNat]
def k1_mult8 (v191 : BitVec 32) : BitVec 32 :=
  v191

def k1_off16 (v191 : BitVec 32) : Fin 2 → Nat :=
  let c0_53 : Index := 0#32
  let v192 : BitVec 32 := v191
  let v205 : Index := Scalar.indexCast v192
  ![0, v205.toNat]

def k1_chk8 (v191 : BitVec 32) : Prop :=
  (128 ∣ (k1_mult8 v191).toNat) ∧
  (∀ a, (k1_off16 v191) a + S1x256.size a ≤ S1x100096.size a)
instance k1_chk8.dec : ∀ (v191 : BitVec 32), Decidable (k1_chk8 v191) := fun v191 => decidable_of_iff' _ (Iff.of_eq (k1_chk8.eq_1 v191))
theorem k1_mult8_dvd : ∀ (v191 : BitVec 32) (k1_hw8 : k1_chk8 v191), 128 ∣ (k1_mult8 v191).toNat := fun v191 k1_hw8 => k1_hw8.1
theorem k1_off16_inb : ∀ (v191 : BitVec 32) (k1_hw8 : k1_chk8 v191), ∀ a, (k1_off16 v191) a + S1x256.size a ≤ S1x100096.size a := fun v191 k1_hw8 => k1_hw8.2

def k1_off17 (i : grid1.Coords) : Fin 1 → Nat :=
  let arg0 : BitVec 32 := BitVec.ofNat 32 (i 0).val
  let c12896_i32_55 : BitVec 32 := 12896#32
  let v212 : BitVec 32 := Scalar.muli arg0 c12896_i32_55
  let arg1 : BitVec 32 := BitVec.ofNat 32 (i 1).val
  let c32_i32_56 : BitVec 32 := 32#32
  let v213 : BitVec 32 := Scalar.muli arg1 c32_i32_56
  let v214 : BitVec 32 := Scalar.addi v212 v213
  let c8_i32 : BitVec 32 := 8#32
  let v215 : BitVec 32 := Scalar.addi v214 c8_i32
  let v216 : Index := Scalar.indexCast v215
  ![v216.toNat]
def k1_mult9 (v217 : BitVec 32) : BitVec 32 :=
  v217

def k1_off18 (v217 : BitVec 32) : Fin 2 → Nat :=
  let c0_60 : Index := 0#32
  let v218 : BitVec 32 := v217
  let v231 : Index := Scalar.indexCast v218
  ![0, v231.toNat]

def k1_chk9 (v217 : BitVec 32) : Prop :=
  (128 ∣ (k1_mult9 v217).toNat) ∧
  (∀ a, (k1_off18 v217) a + S1x256.size a ≤ S1x100096.size a)
instance k1_chk9.dec : ∀ (v217 : BitVec 32), Decidable (k1_chk9 v217) := fun v217 => decidable_of_iff' _ (Iff.of_eq (k1_chk9.eq_1 v217))
theorem k1_mult9_dvd : ∀ (v217 : BitVec 32) (k1_hw9 : k1_chk9 v217), 128 ∣ (k1_mult9 v217).toNat := fun v217 k1_hw9 => k1_hw9.1
theorem k1_off18_inb : ∀ (v217 : BitVec 32) (k1_hw9 : k1_chk9 v217), ∀ a, (k1_off18 v217) a + S1x256.size a ≤ S1x100096.size a := fun v217 k1_hw9 => k1_hw9.2

def k1_off19 (i : grid1.Coords) : Fin 1 → Nat :=
  let arg0 : BitVec 32 := BitVec.ofNat 32 (i 0).val
  let c12896_i32_62 : BitVec 32 := 12896#32
  let v238 : BitVec 32 := Scalar.muli arg0 c12896_i32_62
  let arg1 : BitVec 32 := BitVec.ofNat 32 (i 1).val
  let c32_i32_63 : BitVec 32 := 32#32
  let v239 : BitVec 32 := Scalar.muli arg1 c32_i32_63
  let v240 : BitVec 32 := Scalar.addi v238 v239
  let c9_i32 : BitVec 32 := 9#32
  let v241 : BitVec 32 := Scalar.addi v240 c9_i32
  let v242 : Index := Scalar.indexCast v241
  ![v242.toNat]
def k1_mult10 (v243 : BitVec 32) : BitVec 32 :=
  v243

def k1_off20 (v243 : BitVec 32) : Fin 2 → Nat :=
  let c0_67 : Index := 0#32
  let v244 : BitVec 32 := v243
  let v257 : Index := Scalar.indexCast v244
  ![0, v257.toNat]

def k1_chk10 (v243 : BitVec 32) : Prop :=
  (128 ∣ (k1_mult10 v243).toNat) ∧
  (∀ a, (k1_off20 v243) a + S1x256.size a ≤ S1x100096.size a)
instance k1_chk10.dec : ∀ (v243 : BitVec 32), Decidable (k1_chk10 v243) := fun v243 => decidable_of_iff' _ (Iff.of_eq (k1_chk10.eq_1 v243))
theorem k1_mult10_dvd : ∀ (v243 : BitVec 32) (k1_hw10 : k1_chk10 v243), 128 ∣ (k1_mult10 v243).toNat := fun v243 k1_hw10 => k1_hw10.1
theorem k1_off20_inb : ∀ (v243 : BitVec 32) (k1_hw10 : k1_chk10 v243), ∀ a, (k1_off20 v243) a + S1x256.size a ≤ S1x100096.size a := fun v243 k1_hw10 => k1_hw10.2

def k1_off21 (i : grid1.Coords) : Fin 1 → Nat :=
  let arg0 : BitVec 32 := BitVec.ofNat 32 (i 0).val
  let c12896_i32_69 : BitVec 32 := 12896#32
  let v264 : BitVec 32 := Scalar.muli arg0 c12896_i32_69
  let arg1 : BitVec 32 := BitVec.ofNat 32 (i 1).val
  let c32_i32_70 : BitVec 32 := 32#32
  let v265 : BitVec 32 := Scalar.muli arg1 c32_i32_70
  let v266 : BitVec 32 := Scalar.addi v264 v265
  let c10_i32 : BitVec 32 := 10#32
  let v267 : BitVec 32 := Scalar.addi v266 c10_i32
  let v268 : Index := Scalar.indexCast v267
  ![v268.toNat]
def k1_mult11 (v269 : BitVec 32) : BitVec 32 :=
  v269

def k1_off22 (v269 : BitVec 32) : Fin 2 → Nat :=
  let c0_74 : Index := 0#32
  let v270 : BitVec 32 := v269
  let v283 : Index := Scalar.indexCast v270
  ![0, v283.toNat]

def k1_chk11 (v269 : BitVec 32) : Prop :=
  (128 ∣ (k1_mult11 v269).toNat) ∧
  (∀ a, (k1_off22 v269) a + S1x256.size a ≤ S1x100096.size a)
instance k1_chk11.dec : ∀ (v269 : BitVec 32), Decidable (k1_chk11 v269) := fun v269 => decidable_of_iff' _ (Iff.of_eq (k1_chk11.eq_1 v269))
theorem k1_mult11_dvd : ∀ (v269 : BitVec 32) (k1_hw11 : k1_chk11 v269), 128 ∣ (k1_mult11 v269).toNat := fun v269 k1_hw11 => k1_hw11.1
theorem k1_off22_inb : ∀ (v269 : BitVec 32) (k1_hw11 : k1_chk11 v269), ∀ a, (k1_off22 v269) a + S1x256.size a ≤ S1x100096.size a := fun v269 k1_hw11 => k1_hw11.2

def k1_off23 (i : grid1.Coords) : Fin 1 → Nat :=
  let arg0 : BitVec 32 := BitVec.ofNat 32 (i 0).val
  let c12896_i32_76 : BitVec 32 := 12896#32
  let v290 : BitVec 32 := Scalar.muli arg0 c12896_i32_76
  let arg1 : BitVec 32 := BitVec.ofNat 32 (i 1).val
  let c32_i32_77 : BitVec 32 := 32#32
  let v291 : BitVec 32 := Scalar.muli arg1 c32_i32_77
  let v292 : BitVec 32 := Scalar.addi v290 v291
  let c11_i32 : BitVec 32 := 11#32
  let v293 : BitVec 32 := Scalar.addi v292 c11_i32
  let v294 : Index := Scalar.indexCast v293
  ![v294.toNat]
def k1_mult12 (v295 : BitVec 32) : BitVec 32 :=
  v295

def k1_off24 (v295 : BitVec 32) : Fin 2 → Nat :=
  let c0_81 : Index := 0#32
  let v296 : BitVec 32 := v295
  let v309 : Index := Scalar.indexCast v296
  ![0, v309.toNat]

def k1_chk12 (v295 : BitVec 32) : Prop :=
  (128 ∣ (k1_mult12 v295).toNat) ∧
  (∀ a, (k1_off24 v295) a + S1x256.size a ≤ S1x100096.size a)
instance k1_chk12.dec : ∀ (v295 : BitVec 32), Decidable (k1_chk12 v295) := fun v295 => decidable_of_iff' _ (Iff.of_eq (k1_chk12.eq_1 v295))
theorem k1_mult12_dvd : ∀ (v295 : BitVec 32) (k1_hw12 : k1_chk12 v295), 128 ∣ (k1_mult12 v295).toNat := fun v295 k1_hw12 => k1_hw12.1
theorem k1_off24_inb : ∀ (v295 : BitVec 32) (k1_hw12 : k1_chk12 v295), ∀ a, (k1_off24 v295) a + S1x256.size a ≤ S1x100096.size a := fun v295 k1_hw12 => k1_hw12.2

def k1_off25 (i : grid1.Coords) : Fin 1 → Nat :=
  let arg0 : BitVec 32 := BitVec.ofNat 32 (i 0).val
  let c12896_i32_83 : BitVec 32 := 12896#32
  let v316 : BitVec 32 := Scalar.muli arg0 c12896_i32_83
  let arg1 : BitVec 32 := BitVec.ofNat 32 (i 1).val
  let c32_i32_84 : BitVec 32 := 32#32
  let v317 : BitVec 32 := Scalar.muli arg1 c32_i32_84
  let v318 : BitVec 32 := Scalar.addi v316 v317
  let c12_i32 : BitVec 32 := 12#32
  let v319 : BitVec 32 := Scalar.addi v318 c12_i32
  let v320 : Index := Scalar.indexCast v319
  ![v320.toNat]
def k1_mult13 (v321 : BitVec 32) : BitVec 32 :=
  v321

def k1_off26 (v321 : BitVec 32) : Fin 2 → Nat :=
  let c0_88 : Index := 0#32
  let v322 : BitVec 32 := v321
  let v335 : Index := Scalar.indexCast v322
  ![0, v335.toNat]

def k1_chk13 (v321 : BitVec 32) : Prop :=
  (128 ∣ (k1_mult13 v321).toNat) ∧
  (∀ a, (k1_off26 v321) a + S1x256.size a ≤ S1x100096.size a)
instance k1_chk13.dec : ∀ (v321 : BitVec 32), Decidable (k1_chk13 v321) := fun v321 => decidable_of_iff' _ (Iff.of_eq (k1_chk13.eq_1 v321))
theorem k1_mult13_dvd : ∀ (v321 : BitVec 32) (k1_hw13 : k1_chk13 v321), 128 ∣ (k1_mult13 v321).toNat := fun v321 k1_hw13 => k1_hw13.1
theorem k1_off26_inb : ∀ (v321 : BitVec 32) (k1_hw13 : k1_chk13 v321), ∀ a, (k1_off26 v321) a + S1x256.size a ≤ S1x100096.size a := fun v321 k1_hw13 => k1_hw13.2

def k1_off27 (i : grid1.Coords) : Fin 1 → Nat :=
  let arg0 : BitVec 32 := BitVec.ofNat 32 (i 0).val
  let c12896_i32_90 : BitVec 32 := 12896#32
  let v342 : BitVec 32 := Scalar.muli arg0 c12896_i32_90
  let arg1 : BitVec 32 := BitVec.ofNat 32 (i 1).val
  let c32_i32_91 : BitVec 32 := 32#32
  let v343 : BitVec 32 := Scalar.muli arg1 c32_i32_91
  let v344 : BitVec 32 := Scalar.addi v342 v343
  let c13_i32 : BitVec 32 := 13#32
  let v345 : BitVec 32 := Scalar.addi v344 c13_i32
  let v346 : Index := Scalar.indexCast v345
  ![v346.toNat]
def k1_mult14 (v347 : BitVec 32) : BitVec 32 :=
  v347

def k1_off28 (v347 : BitVec 32) : Fin 2 → Nat :=
  let c0_95 : Index := 0#32
  let v348 : BitVec 32 := v347
  let v361 : Index := Scalar.indexCast v348
  ![0, v361.toNat]

def k1_chk14 (v347 : BitVec 32) : Prop :=
  (128 ∣ (k1_mult14 v347).toNat) ∧
  (∀ a, (k1_off28 v347) a + S1x256.size a ≤ S1x100096.size a)
instance k1_chk14.dec : ∀ (v347 : BitVec 32), Decidable (k1_chk14 v347) := fun v347 => decidable_of_iff' _ (Iff.of_eq (k1_chk14.eq_1 v347))
theorem k1_mult14_dvd : ∀ (v347 : BitVec 32) (k1_hw14 : k1_chk14 v347), 128 ∣ (k1_mult14 v347).toNat := fun v347 k1_hw14 => k1_hw14.1
theorem k1_off28_inb : ∀ (v347 : BitVec 32) (k1_hw14 : k1_chk14 v347), ∀ a, (k1_off28 v347) a + S1x256.size a ≤ S1x100096.size a := fun v347 k1_hw14 => k1_hw14.2

def k1_off29 (i : grid1.Coords) : Fin 1 → Nat :=
  let arg0 : BitVec 32 := BitVec.ofNat 32 (i 0).val
  let c12896_i32_97 : BitVec 32 := 12896#32
  let v368 : BitVec 32 := Scalar.muli arg0 c12896_i32_97
  let arg1 : BitVec 32 := BitVec.ofNat 32 (i 1).val
  let c32_i32_98 : BitVec 32 := 32#32
  let v369 : BitVec 32 := Scalar.muli arg1 c32_i32_98
  let v370 : BitVec 32 := Scalar.addi v368 v369
  let c14_i32 : BitVec 32 := 14#32
  let v371 : BitVec 32 := Scalar.addi v370 c14_i32
  let v372 : Index := Scalar.indexCast v371
  ![v372.toNat]
def k1_mult15 (v373 : BitVec 32) : BitVec 32 :=
  v373

def k1_off30 (v373 : BitVec 32) : Fin 2 → Nat :=
  let c0_102 : Index := 0#32
  let v374 : BitVec 32 := v373
  let v387 : Index := Scalar.indexCast v374
  ![0, v387.toNat]

def k1_chk15 (v373 : BitVec 32) : Prop :=
  (128 ∣ (k1_mult15 v373).toNat) ∧
  (∀ a, (k1_off30 v373) a + S1x256.size a ≤ S1x100096.size a)
instance k1_chk15.dec : ∀ (v373 : BitVec 32), Decidable (k1_chk15 v373) := fun v373 => decidable_of_iff' _ (Iff.of_eq (k1_chk15.eq_1 v373))
theorem k1_mult15_dvd : ∀ (v373 : BitVec 32) (k1_hw15 : k1_chk15 v373), 128 ∣ (k1_mult15 v373).toNat := fun v373 k1_hw15 => k1_hw15.1
theorem k1_off30_inb : ∀ (v373 : BitVec 32) (k1_hw15 : k1_chk15 v373), ∀ a, (k1_off30 v373) a + S1x256.size a ≤ S1x100096.size a := fun v373 k1_hw15 => k1_hw15.2

def k1_off31 (i : grid1.Coords) : Fin 1 → Nat :=
  let arg0 : BitVec 32 := BitVec.ofNat 32 (i 0).val
  let c12896_i32_104 : BitVec 32 := 12896#32
  let v394 : BitVec 32 := Scalar.muli arg0 c12896_i32_104
  let arg1 : BitVec 32 := BitVec.ofNat 32 (i 1).val
  let c32_i32_105 : BitVec 32 := 32#32
  let v395 : BitVec 32 := Scalar.muli arg1 c32_i32_105
  let v396 : BitVec 32 := Scalar.addi v394 v395
  let c15_i32 : BitVec 32 := 15#32
  let v397 : BitVec 32 := Scalar.addi v396 c15_i32
  let v398 : Index := Scalar.indexCast v397
  ![v398.toNat]
def k1_mult16 (v399 : BitVec 32) : BitVec 32 :=
  v399

def k1_off32 (v399 : BitVec 32) : Fin 2 → Nat :=
  let c0_109 : Index := 0#32
  let v400 : BitVec 32 := v399
  let v413 : Index := Scalar.indexCast v400
  ![0, v413.toNat]

def k1_chk16 (v399 : BitVec 32) : Prop :=
  (128 ∣ (k1_mult16 v399).toNat) ∧
  (∀ a, (k1_off32 v399) a + S1x256.size a ≤ S1x100096.size a)
instance k1_chk16.dec : ∀ (v399 : BitVec 32), Decidable (k1_chk16 v399) := fun v399 => decidable_of_iff' _ (Iff.of_eq (k1_chk16.eq_1 v399))
theorem k1_mult16_dvd : ∀ (v399 : BitVec 32) (k1_hw16 : k1_chk16 v399), 128 ∣ (k1_mult16 v399).toNat := fun v399 k1_hw16 => k1_hw16.1
theorem k1_off32_inb : ∀ (v399 : BitVec 32) (k1_hw16 : k1_chk16 v399), ∀ a, (k1_off32 v399) a + S1x256.size a ≤ S1x100096.size a := fun v399 k1_hw16 => k1_hw16.2

def k1_off33 (i : grid1.Coords) : Fin 1 → Nat :=
  let arg0 : BitVec 32 := BitVec.ofNat 32 (i 0).val
  let c12896_i32_111 : BitVec 32 := 12896#32
  let v420 : BitVec 32 := Scalar.muli arg0 c12896_i32_111
  let arg1 : BitVec 32 := BitVec.ofNat 32 (i 1).val
  let c32_i32_112 : BitVec 32 := 32#32
  let v421 : BitVec 32 := Scalar.muli arg1 c32_i32_112
  let v422 : BitVec 32 := Scalar.addi v420 v421
  let c16_i32 : BitVec 32 := 16#32
  let v423 : BitVec 32 := Scalar.addi v422 c16_i32
  let v424 : Index := Scalar.indexCast v423
  ![v424.toNat]
def k1_mult17 (v425 : BitVec 32) : BitVec 32 :=
  v425

def k1_off34 (v425 : BitVec 32) : Fin 2 → Nat :=
  let c0_116 : Index := 0#32
  let v426 : BitVec 32 := v425
  let v439 : Index := Scalar.indexCast v426
  ![0, v439.toNat]

def k1_chk17 (v425 : BitVec 32) : Prop :=
  (128 ∣ (k1_mult17 v425).toNat) ∧
  (∀ a, (k1_off34 v425) a + S1x256.size a ≤ S1x100096.size a)
instance k1_chk17.dec : ∀ (v425 : BitVec 32), Decidable (k1_chk17 v425) := fun v425 => decidable_of_iff' _ (Iff.of_eq (k1_chk17.eq_1 v425))
theorem k1_mult17_dvd : ∀ (v425 : BitVec 32) (k1_hw17 : k1_chk17 v425), 128 ∣ (k1_mult17 v425).toNat := fun v425 k1_hw17 => k1_hw17.1
theorem k1_off34_inb : ∀ (v425 : BitVec 32) (k1_hw17 : k1_chk17 v425), ∀ a, (k1_off34 v425) a + S1x256.size a ≤ S1x100096.size a := fun v425 k1_hw17 => k1_hw17.2

def k1_off35 (i : grid1.Coords) : Fin 1 → Nat :=
  let arg0 : BitVec 32 := BitVec.ofNat 32 (i 0).val
  let c12896_i32_118 : BitVec 32 := 12896#32
  let v446 : BitVec 32 := Scalar.muli arg0 c12896_i32_118
  let arg1 : BitVec 32 := BitVec.ofNat 32 (i 1).val
  let c32_i32_119 : BitVec 32 := 32#32
  let v447 : BitVec 32 := Scalar.muli arg1 c32_i32_119
  let v448 : BitVec 32 := Scalar.addi v446 v447
  let c17_i32 : BitVec 32 := 17#32
  let v449 : BitVec 32 := Scalar.addi v448 c17_i32
  let v450 : Index := Scalar.indexCast v449
  ![v450.toNat]
def k1_mult18 (v451 : BitVec 32) : BitVec 32 :=
  v451

def k1_off36 (v451 : BitVec 32) : Fin 2 → Nat :=
  let c0_123 : Index := 0#32
  let v452 : BitVec 32 := v451
  let v465 : Index := Scalar.indexCast v452
  ![0, v465.toNat]

def k1_chk18 (v451 : BitVec 32) : Prop :=
  (128 ∣ (k1_mult18 v451).toNat) ∧
  (∀ a, (k1_off36 v451) a + S1x256.size a ≤ S1x100096.size a)
instance k1_chk18.dec : ∀ (v451 : BitVec 32), Decidable (k1_chk18 v451) := fun v451 => decidable_of_iff' _ (Iff.of_eq (k1_chk18.eq_1 v451))
theorem k1_mult18_dvd : ∀ (v451 : BitVec 32) (k1_hw18 : k1_chk18 v451), 128 ∣ (k1_mult18 v451).toNat := fun v451 k1_hw18 => k1_hw18.1
theorem k1_off36_inb : ∀ (v451 : BitVec 32) (k1_hw18 : k1_chk18 v451), ∀ a, (k1_off36 v451) a + S1x256.size a ≤ S1x100096.size a := fun v451 k1_hw18 => k1_hw18.2

def k1_off37 (i : grid1.Coords) : Fin 1 → Nat :=
  let arg0 : BitVec 32 := BitVec.ofNat 32 (i 0).val
  let c12896_i32_125 : BitVec 32 := 12896#32
  let v472 : BitVec 32 := Scalar.muli arg0 c12896_i32_125
  let arg1 : BitVec 32 := BitVec.ofNat 32 (i 1).val
  let c32_i32_126 : BitVec 32 := 32#32
  let v473 : BitVec 32 := Scalar.muli arg1 c32_i32_126
  let v474 : BitVec 32 := Scalar.addi v472 v473
  let c18_i32 : BitVec 32 := 18#32
  let v475 : BitVec 32 := Scalar.addi v474 c18_i32
  let v476 : Index := Scalar.indexCast v475
  ![v476.toNat]
def k1_mult19 (v477 : BitVec 32) : BitVec 32 :=
  v477

def k1_off38 (v477 : BitVec 32) : Fin 2 → Nat :=
  let c0_130 : Index := 0#32
  let v478 : BitVec 32 := v477
  let v491 : Index := Scalar.indexCast v478
  ![0, v491.toNat]

def k1_chk19 (v477 : BitVec 32) : Prop :=
  (128 ∣ (k1_mult19 v477).toNat) ∧
  (∀ a, (k1_off38 v477) a + S1x256.size a ≤ S1x100096.size a)
instance k1_chk19.dec : ∀ (v477 : BitVec 32), Decidable (k1_chk19 v477) := fun v477 => decidable_of_iff' _ (Iff.of_eq (k1_chk19.eq_1 v477))
theorem k1_mult19_dvd : ∀ (v477 : BitVec 32) (k1_hw19 : k1_chk19 v477), 128 ∣ (k1_mult19 v477).toNat := fun v477 k1_hw19 => k1_hw19.1
theorem k1_off38_inb : ∀ (v477 : BitVec 32) (k1_hw19 : k1_chk19 v477), ∀ a, (k1_off38 v477) a + S1x256.size a ≤ S1x100096.size a := fun v477 k1_hw19 => k1_hw19.2

def k1_off39 (i : grid1.Coords) : Fin 1 → Nat :=
  let arg0 : BitVec 32 := BitVec.ofNat 32 (i 0).val
  let c12896_i32_132 : BitVec 32 := 12896#32
  let v498 : BitVec 32 := Scalar.muli arg0 c12896_i32_132
  let arg1 : BitVec 32 := BitVec.ofNat 32 (i 1).val
  let c32_i32_133 : BitVec 32 := 32#32
  let v499 : BitVec 32 := Scalar.muli arg1 c32_i32_133
  let v500 : BitVec 32 := Scalar.addi v498 v499
  let c19_i32 : BitVec 32 := 19#32
  let v501 : BitVec 32 := Scalar.addi v500 c19_i32
  let v502 : Index := Scalar.indexCast v501
  ![v502.toNat]
def k1_mult20 (v503 : BitVec 32) : BitVec 32 :=
  v503

def k1_off40 (v503 : BitVec 32) : Fin 2 → Nat :=
  let c0_137 : Index := 0#32
  let v504 : BitVec 32 := v503
  let v517 : Index := Scalar.indexCast v504
  ![0, v517.toNat]

def k1_chk20 (v503 : BitVec 32) : Prop :=
  (128 ∣ (k1_mult20 v503).toNat) ∧
  (∀ a, (k1_off40 v503) a + S1x256.size a ≤ S1x100096.size a)
instance k1_chk20.dec : ∀ (v503 : BitVec 32), Decidable (k1_chk20 v503) := fun v503 => decidable_of_iff' _ (Iff.of_eq (k1_chk20.eq_1 v503))
theorem k1_mult20_dvd : ∀ (v503 : BitVec 32) (k1_hw20 : k1_chk20 v503), 128 ∣ (k1_mult20 v503).toNat := fun v503 k1_hw20 => k1_hw20.1
theorem k1_off40_inb : ∀ (v503 : BitVec 32) (k1_hw20 : k1_chk20 v503), ∀ a, (k1_off40 v503) a + S1x256.size a ≤ S1x100096.size a := fun v503 k1_hw20 => k1_hw20.2

def k1_off41 (i : grid1.Coords) : Fin 1 → Nat :=
  let arg0 : BitVec 32 := BitVec.ofNat 32 (i 0).val
  let c12896_i32_139 : BitVec 32 := 12896#32
  let v524 : BitVec 32 := Scalar.muli arg0 c12896_i32_139
  let arg1 : BitVec 32 := BitVec.ofNat 32 (i 1).val
  let c32_i32_140 : BitVec 32 := 32#32
  let v525 : BitVec 32 := Scalar.muli arg1 c32_i32_140
  let v526 : BitVec 32 := Scalar.addi v524 v525
  let c20_i32 : BitVec 32 := 20#32
  let v527 : BitVec 32 := Scalar.addi v526 c20_i32
  let v528 : Index := Scalar.indexCast v527
  ![v528.toNat]
def k1_mult21 (v529 : BitVec 32) : BitVec 32 :=
  v529

def k1_off42 (v529 : BitVec 32) : Fin 2 → Nat :=
  let c0_144 : Index := 0#32
  let v530 : BitVec 32 := v529
  let v543 : Index := Scalar.indexCast v530
  ![0, v543.toNat]

def k1_chk21 (v529 : BitVec 32) : Prop :=
  (128 ∣ (k1_mult21 v529).toNat) ∧
  (∀ a, (k1_off42 v529) a + S1x256.size a ≤ S1x100096.size a)
instance k1_chk21.dec : ∀ (v529 : BitVec 32), Decidable (k1_chk21 v529) := fun v529 => decidable_of_iff' _ (Iff.of_eq (k1_chk21.eq_1 v529))
theorem k1_mult21_dvd : ∀ (v529 : BitVec 32) (k1_hw21 : k1_chk21 v529), 128 ∣ (k1_mult21 v529).toNat := fun v529 k1_hw21 => k1_hw21.1
theorem k1_off42_inb : ∀ (v529 : BitVec 32) (k1_hw21 : k1_chk21 v529), ∀ a, (k1_off42 v529) a + S1x256.size a ≤ S1x100096.size a := fun v529 k1_hw21 => k1_hw21.2

def k1_off43 (i : grid1.Coords) : Fin 1 → Nat :=
  let arg0 : BitVec 32 := BitVec.ofNat 32 (i 0).val
  let c12896_i32_146 : BitVec 32 := 12896#32
  let v550 : BitVec 32 := Scalar.muli arg0 c12896_i32_146
  let arg1 : BitVec 32 := BitVec.ofNat 32 (i 1).val
  let c32_i32_147 : BitVec 32 := 32#32
  let v551 : BitVec 32 := Scalar.muli arg1 c32_i32_147
  let v552 : BitVec 32 := Scalar.addi v550 v551
  let c21_i32 : BitVec 32 := 21#32
  let v553 : BitVec 32 := Scalar.addi v552 c21_i32
  let v554 : Index := Scalar.indexCast v553
  ![v554.toNat]
def k1_mult22 (v555 : BitVec 32) : BitVec 32 :=
  v555

def k1_off44 (v555 : BitVec 32) : Fin 2 → Nat :=
  let c0_151 : Index := 0#32
  let v556 : BitVec 32 := v555
  let v569 : Index := Scalar.indexCast v556
  ![0, v569.toNat]

def k1_chk22 (v555 : BitVec 32) : Prop :=
  (128 ∣ (k1_mult22 v555).toNat) ∧
  (∀ a, (k1_off44 v555) a + S1x256.size a ≤ S1x100096.size a)
instance k1_chk22.dec : ∀ (v555 : BitVec 32), Decidable (k1_chk22 v555) := fun v555 => decidable_of_iff' _ (Iff.of_eq (k1_chk22.eq_1 v555))
theorem k1_mult22_dvd : ∀ (v555 : BitVec 32) (k1_hw22 : k1_chk22 v555), 128 ∣ (k1_mult22 v555).toNat := fun v555 k1_hw22 => k1_hw22.1
theorem k1_off44_inb : ∀ (v555 : BitVec 32) (k1_hw22 : k1_chk22 v555), ∀ a, (k1_off44 v555) a + S1x256.size a ≤ S1x100096.size a := fun v555 k1_hw22 => k1_hw22.2

def k1_off45 (i : grid1.Coords) : Fin 1 → Nat :=
  let arg0 : BitVec 32 := BitVec.ofNat 32 (i 0).val
  let c12896_i32_153 : BitVec 32 := 12896#32
  let v576 : BitVec 32 := Scalar.muli arg0 c12896_i32_153
  let arg1 : BitVec 32 := BitVec.ofNat 32 (i 1).val
  let c32_i32_154 : BitVec 32 := 32#32
  let v577 : BitVec 32 := Scalar.muli arg1 c32_i32_154
  let v578 : BitVec 32 := Scalar.addi v576 v577
  let c22_i32 : BitVec 32 := 22#32
  let v579 : BitVec 32 := Scalar.addi v578 c22_i32
  let v580 : Index := Scalar.indexCast v579
  ![v580.toNat]
def k1_mult23 (v581 : BitVec 32) : BitVec 32 :=
  v581

def k1_off46 (v581 : BitVec 32) : Fin 2 → Nat :=
  let c0_158 : Index := 0#32
  let v582 : BitVec 32 := v581
  let v595 : Index := Scalar.indexCast v582
  ![0, v595.toNat]

def k1_chk23 (v581 : BitVec 32) : Prop :=
  (128 ∣ (k1_mult23 v581).toNat) ∧
  (∀ a, (k1_off46 v581) a + S1x256.size a ≤ S1x100096.size a)
instance k1_chk23.dec : ∀ (v581 : BitVec 32), Decidable (k1_chk23 v581) := fun v581 => decidable_of_iff' _ (Iff.of_eq (k1_chk23.eq_1 v581))
theorem k1_mult23_dvd : ∀ (v581 : BitVec 32) (k1_hw23 : k1_chk23 v581), 128 ∣ (k1_mult23 v581).toNat := fun v581 k1_hw23 => k1_hw23.1
theorem k1_off46_inb : ∀ (v581 : BitVec 32) (k1_hw23 : k1_chk23 v581), ∀ a, (k1_off46 v581) a + S1x256.size a ≤ S1x100096.size a := fun v581 k1_hw23 => k1_hw23.2

def k1_off47 (i : grid1.Coords) : Fin 1 → Nat :=
  let arg0 : BitVec 32 := BitVec.ofNat 32 (i 0).val
  let c12896_i32_160 : BitVec 32 := 12896#32
  let v602 : BitVec 32 := Scalar.muli arg0 c12896_i32_160
  let arg1 : BitVec 32 := BitVec.ofNat 32 (i 1).val
  let c32_i32_161 : BitVec 32 := 32#32
  let v603 : BitVec 32 := Scalar.muli arg1 c32_i32_161
  let v604 : BitVec 32 := Scalar.addi v602 v603
  let c23_i32 : BitVec 32 := 23#32
  let v605 : BitVec 32 := Scalar.addi v604 c23_i32
  let v606 : Index := Scalar.indexCast v605
  ![v606.toNat]
def k1_mult24 (v607 : BitVec 32) : BitVec 32 :=
  v607

def k1_off48 (v607 : BitVec 32) : Fin 2 → Nat :=
  let c0_165 : Index := 0#32
  let v608 : BitVec 32 := v607
  let v621 : Index := Scalar.indexCast v608
  ![0, v621.toNat]

def k1_chk24 (v607 : BitVec 32) : Prop :=
  (128 ∣ (k1_mult24 v607).toNat) ∧
  (∀ a, (k1_off48 v607) a + S1x256.size a ≤ S1x100096.size a)
instance k1_chk24.dec : ∀ (v607 : BitVec 32), Decidable (k1_chk24 v607) := fun v607 => decidable_of_iff' _ (Iff.of_eq (k1_chk24.eq_1 v607))
theorem k1_mult24_dvd : ∀ (v607 : BitVec 32) (k1_hw24 : k1_chk24 v607), 128 ∣ (k1_mult24 v607).toNat := fun v607 k1_hw24 => k1_hw24.1
theorem k1_off48_inb : ∀ (v607 : BitVec 32) (k1_hw24 : k1_chk24 v607), ∀ a, (k1_off48 v607) a + S1x256.size a ≤ S1x100096.size a := fun v607 k1_hw24 => k1_hw24.2

def k1_off49 (i : grid1.Coords) : Fin 1 → Nat :=
  let arg0 : BitVec 32 := BitVec.ofNat 32 (i 0).val
  let c12896_i32_167 : BitVec 32 := 12896#32
  let v628 : BitVec 32 := Scalar.muli arg0 c12896_i32_167
  let arg1 : BitVec 32 := BitVec.ofNat 32 (i 1).val
  let c32_i32_168 : BitVec 32 := 32#32
  let v629 : BitVec 32 := Scalar.muli arg1 c32_i32_168
  let v630 : BitVec 32 := Scalar.addi v628 v629
  let c24_i32 : BitVec 32 := 24#32
  let v631 : BitVec 32 := Scalar.addi v630 c24_i32
  let v632 : Index := Scalar.indexCast v631
  ![v632.toNat]
def k1_mult25 (v633 : BitVec 32) : BitVec 32 :=
  v633

def k1_off50 (v633 : BitVec 32) : Fin 2 → Nat :=
  let c0_172 : Index := 0#32
  let v634 : BitVec 32 := v633
  let v647 : Index := Scalar.indexCast v634
  ![0, v647.toNat]

def k1_chk25 (v633 : BitVec 32) : Prop :=
  (128 ∣ (k1_mult25 v633).toNat) ∧
  (∀ a, (k1_off50 v633) a + S1x256.size a ≤ S1x100096.size a)
instance k1_chk25.dec : ∀ (v633 : BitVec 32), Decidable (k1_chk25 v633) := fun v633 => decidable_of_iff' _ (Iff.of_eq (k1_chk25.eq_1 v633))
theorem k1_mult25_dvd : ∀ (v633 : BitVec 32) (k1_hw25 : k1_chk25 v633), 128 ∣ (k1_mult25 v633).toNat := fun v633 k1_hw25 => k1_hw25.1
theorem k1_off50_inb : ∀ (v633 : BitVec 32) (k1_hw25 : k1_chk25 v633), ∀ a, (k1_off50 v633) a + S1x256.size a ≤ S1x100096.size a := fun v633 k1_hw25 => k1_hw25.2

def k1_off51 (i : grid1.Coords) : Fin 1 → Nat :=
  let arg0 : BitVec 32 := BitVec.ofNat 32 (i 0).val
  let c12896_i32_174 : BitVec 32 := 12896#32
  let v654 : BitVec 32 := Scalar.muli arg0 c12896_i32_174
  let arg1 : BitVec 32 := BitVec.ofNat 32 (i 1).val
  let c32_i32_175 : BitVec 32 := 32#32
  let v655 : BitVec 32 := Scalar.muli arg1 c32_i32_175
  let v656 : BitVec 32 := Scalar.addi v654 v655
  let c25_i32 : BitVec 32 := 25#32
  let v657 : BitVec 32 := Scalar.addi v656 c25_i32
  let v658 : Index := Scalar.indexCast v657
  ![v658.toNat]
def k1_mult26 (v659 : BitVec 32) : BitVec 32 :=
  v659

def k1_off52 (v659 : BitVec 32) : Fin 2 → Nat :=
  let c0_179 : Index := 0#32
  let v660 : BitVec 32 := v659
  let v673 : Index := Scalar.indexCast v660
  ![0, v673.toNat]

def k1_chk26 (v659 : BitVec 32) : Prop :=
  (128 ∣ (k1_mult26 v659).toNat) ∧
  (∀ a, (k1_off52 v659) a + S1x256.size a ≤ S1x100096.size a)
instance k1_chk26.dec : ∀ (v659 : BitVec 32), Decidable (k1_chk26 v659) := fun v659 => decidable_of_iff' _ (Iff.of_eq (k1_chk26.eq_1 v659))
theorem k1_mult26_dvd : ∀ (v659 : BitVec 32) (k1_hw26 : k1_chk26 v659), 128 ∣ (k1_mult26 v659).toNat := fun v659 k1_hw26 => k1_hw26.1
theorem k1_off52_inb : ∀ (v659 : BitVec 32) (k1_hw26 : k1_chk26 v659), ∀ a, (k1_off52 v659) a + S1x256.size a ≤ S1x100096.size a := fun v659 k1_hw26 => k1_hw26.2

def k1_off53 (i : grid1.Coords) : Fin 1 → Nat :=
  let arg0 : BitVec 32 := BitVec.ofNat 32 (i 0).val
  let c12896_i32_181 : BitVec 32 := 12896#32
  let v680 : BitVec 32 := Scalar.muli arg0 c12896_i32_181
  let arg1 : BitVec 32 := BitVec.ofNat 32 (i 1).val
  let c32_i32_182 : BitVec 32 := 32#32
  let v681 : BitVec 32 := Scalar.muli arg1 c32_i32_182
  let v682 : BitVec 32 := Scalar.addi v680 v681
  let c26_i32 : BitVec 32 := 26#32
  let v683 : BitVec 32 := Scalar.addi v682 c26_i32
  let v684 : Index := Scalar.indexCast v683
  ![v684.toNat]
def k1_mult27 (v685 : BitVec 32) : BitVec 32 :=
  v685

def k1_off54 (v685 : BitVec 32) : Fin 2 → Nat :=
  let c0_186 : Index := 0#32
  let v686 : BitVec 32 := v685
  let v699 : Index := Scalar.indexCast v686
  ![0, v699.toNat]

def k1_chk27 (v685 : BitVec 32) : Prop :=
  (128 ∣ (k1_mult27 v685).toNat) ∧
  (∀ a, (k1_off54 v685) a + S1x256.size a ≤ S1x100096.size a)
instance k1_chk27.dec : ∀ (v685 : BitVec 32), Decidable (k1_chk27 v685) := fun v685 => decidable_of_iff' _ (Iff.of_eq (k1_chk27.eq_1 v685))
theorem k1_mult27_dvd : ∀ (v685 : BitVec 32) (k1_hw27 : k1_chk27 v685), 128 ∣ (k1_mult27 v685).toNat := fun v685 k1_hw27 => k1_hw27.1
theorem k1_off54_inb : ∀ (v685 : BitVec 32) (k1_hw27 : k1_chk27 v685), ∀ a, (k1_off54 v685) a + S1x256.size a ≤ S1x100096.size a := fun v685 k1_hw27 => k1_hw27.2

def k1_off55 (i : grid1.Coords) : Fin 1 → Nat :=
  let arg0 : BitVec 32 := BitVec.ofNat 32 (i 0).val
  let c12896_i32_188 : BitVec 32 := 12896#32
  let v706 : BitVec 32 := Scalar.muli arg0 c12896_i32_188
  let arg1 : BitVec 32 := BitVec.ofNat 32 (i 1).val
  let c32_i32_189 : BitVec 32 := 32#32
  let v707 : BitVec 32 := Scalar.muli arg1 c32_i32_189
  let v708 : BitVec 32 := Scalar.addi v706 v707
  let c27_i32 : BitVec 32 := 27#32
  let v709 : BitVec 32 := Scalar.addi v708 c27_i32
  let v710 : Index := Scalar.indexCast v709
  ![v710.toNat]
def k1_mult28 (v711 : BitVec 32) : BitVec 32 :=
  v711

def k1_off56 (v711 : BitVec 32) : Fin 2 → Nat :=
  let c0_193 : Index := 0#32
  let v712 : BitVec 32 := v711
  let v725 : Index := Scalar.indexCast v712
  ![0, v725.toNat]

def k1_chk28 (v711 : BitVec 32) : Prop :=
  (128 ∣ (k1_mult28 v711).toNat) ∧
  (∀ a, (k1_off56 v711) a + S1x256.size a ≤ S1x100096.size a)
instance k1_chk28.dec : ∀ (v711 : BitVec 32), Decidable (k1_chk28 v711) := fun v711 => decidable_of_iff' _ (Iff.of_eq (k1_chk28.eq_1 v711))
theorem k1_mult28_dvd : ∀ (v711 : BitVec 32) (k1_hw28 : k1_chk28 v711), 128 ∣ (k1_mult28 v711).toNat := fun v711 k1_hw28 => k1_hw28.1
theorem k1_off56_inb : ∀ (v711 : BitVec 32) (k1_hw28 : k1_chk28 v711), ∀ a, (k1_off56 v711) a + S1x256.size a ≤ S1x100096.size a := fun v711 k1_hw28 => k1_hw28.2

def k1_off57 (i : grid1.Coords) : Fin 1 → Nat :=
  let arg0 : BitVec 32 := BitVec.ofNat 32 (i 0).val
  let c12896_i32_195 : BitVec 32 := 12896#32
  let v732 : BitVec 32 := Scalar.muli arg0 c12896_i32_195
  let arg1 : BitVec 32 := BitVec.ofNat 32 (i 1).val
  let c32_i32_196 : BitVec 32 := 32#32
  let v733 : BitVec 32 := Scalar.muli arg1 c32_i32_196
  let v734 : BitVec 32 := Scalar.addi v732 v733
  let c28_i32 : BitVec 32 := 28#32
  let v735 : BitVec 32 := Scalar.addi v734 c28_i32
  let v736 : Index := Scalar.indexCast v735
  ![v736.toNat]
def k1_mult29 (v737 : BitVec 32) : BitVec 32 :=
  v737

def k1_off58 (v737 : BitVec 32) : Fin 2 → Nat :=
  let c0_200 : Index := 0#32
  let v738 : BitVec 32 := v737
  let v751 : Index := Scalar.indexCast v738
  ![0, v751.toNat]

def k1_chk29 (v737 : BitVec 32) : Prop :=
  (128 ∣ (k1_mult29 v737).toNat) ∧
  (∀ a, (k1_off58 v737) a + S1x256.size a ≤ S1x100096.size a)
instance k1_chk29.dec : ∀ (v737 : BitVec 32), Decidable (k1_chk29 v737) := fun v737 => decidable_of_iff' _ (Iff.of_eq (k1_chk29.eq_1 v737))
theorem k1_mult29_dvd : ∀ (v737 : BitVec 32) (k1_hw29 : k1_chk29 v737), 128 ∣ (k1_mult29 v737).toNat := fun v737 k1_hw29 => k1_hw29.1
theorem k1_off58_inb : ∀ (v737 : BitVec 32) (k1_hw29 : k1_chk29 v737), ∀ a, (k1_off58 v737) a + S1x256.size a ≤ S1x100096.size a := fun v737 k1_hw29 => k1_hw29.2

def k1_off59 (i : grid1.Coords) : Fin 1 → Nat :=
  let arg0 : BitVec 32 := BitVec.ofNat 32 (i 0).val
  let c12896_i32_202 : BitVec 32 := 12896#32
  let v758 : BitVec 32 := Scalar.muli arg0 c12896_i32_202
  let arg1 : BitVec 32 := BitVec.ofNat 32 (i 1).val
  let c32_i32_203 : BitVec 32 := 32#32
  let v759 : BitVec 32 := Scalar.muli arg1 c32_i32_203
  let v760 : BitVec 32 := Scalar.addi v758 v759
  let c29_i32 : BitVec 32 := 29#32
  let v761 : BitVec 32 := Scalar.addi v760 c29_i32
  let v762 : Index := Scalar.indexCast v761
  ![v762.toNat]
def k1_mult30 (v763 : BitVec 32) : BitVec 32 :=
  v763

def k1_off60 (v763 : BitVec 32) : Fin 2 → Nat :=
  let c0_207 : Index := 0#32
  let v764 : BitVec 32 := v763
  let v777 : Index := Scalar.indexCast v764
  ![0, v777.toNat]

def k1_chk30 (v763 : BitVec 32) : Prop :=
  (128 ∣ (k1_mult30 v763).toNat) ∧
  (∀ a, (k1_off60 v763) a + S1x256.size a ≤ S1x100096.size a)
instance k1_chk30.dec : ∀ (v763 : BitVec 32), Decidable (k1_chk30 v763) := fun v763 => decidable_of_iff' _ (Iff.of_eq (k1_chk30.eq_1 v763))
theorem k1_mult30_dvd : ∀ (v763 : BitVec 32) (k1_hw30 : k1_chk30 v763), 128 ∣ (k1_mult30 v763).toNat := fun v763 k1_hw30 => k1_hw30.1
theorem k1_off60_inb : ∀ (v763 : BitVec 32) (k1_hw30 : k1_chk30 v763), ∀ a, (k1_off60 v763) a + S1x256.size a ≤ S1x100096.size a := fun v763 k1_hw30 => k1_hw30.2

def k1_off61 (i : grid1.Coords) : Fin 1 → Nat :=
  let arg0 : BitVec 32 := BitVec.ofNat 32 (i 0).val
  let c12896_i32_209 : BitVec 32 := 12896#32
  let v784 : BitVec 32 := Scalar.muli arg0 c12896_i32_209
  let arg1 : BitVec 32 := BitVec.ofNat 32 (i 1).val
  let c32_i32_210 : BitVec 32 := 32#32
  let v785 : BitVec 32 := Scalar.muli arg1 c32_i32_210
  let v786 : BitVec 32 := Scalar.addi v784 v785
  let c30_i32 : BitVec 32 := 30#32
  let v787 : BitVec 32 := Scalar.addi v786 c30_i32
  let v788 : Index := Scalar.indexCast v787
  ![v788.toNat]
def k1_mult31 (v789 : BitVec 32) : BitVec 32 :=
  v789

def k1_off62 (v789 : BitVec 32) : Fin 2 → Nat :=
  let c0_214 : Index := 0#32
  let v790 : BitVec 32 := v789
  let v803 : Index := Scalar.indexCast v790
  ![0, v803.toNat]

def k1_chk31 (v789 : BitVec 32) : Prop :=
  (128 ∣ (k1_mult31 v789).toNat) ∧
  (∀ a, (k1_off62 v789) a + S1x256.size a ≤ S1x100096.size a)
instance k1_chk31.dec : ∀ (v789 : BitVec 32), Decidable (k1_chk31 v789) := fun v789 => decidable_of_iff' _ (Iff.of_eq (k1_chk31.eq_1 v789))
theorem k1_mult31_dvd : ∀ (v789 : BitVec 32) (k1_hw31 : k1_chk31 v789), 128 ∣ (k1_mult31 v789).toNat := fun v789 k1_hw31 => k1_hw31.1
theorem k1_off62_inb : ∀ (v789 : BitVec 32) (k1_hw31 : k1_chk31 v789), ∀ a, (k1_off62 v789) a + S1x256.size a ≤ S1x100096.size a := fun v789 k1_hw31 => k1_hw31.2

def k1_off63 (i : grid1.Coords) : Fin 1 → Nat :=
  let arg0 : BitVec 32 := BitVec.ofNat 32 (i 0).val
  let c12896_i32_216 : BitVec 32 := 12896#32
  let v810 : BitVec 32 := Scalar.muli arg0 c12896_i32_216
  let arg1 : BitVec 32 := BitVec.ofNat 32 (i 1).val
  let c32_i32_217 : BitVec 32 := 32#32
  let v811 : BitVec 32 := Scalar.muli arg1 c32_i32_217
  let v812 : BitVec 32 := Scalar.addi v810 v811
  let c31_i32 : BitVec 32 := 31#32
  let v813 : BitVec 32 := Scalar.addi v812 c31_i32
  let v814 : Index := Scalar.indexCast v813
  ![v814.toNat]
def k1_mult32 (v815 : BitVec 32) : BitVec 32 :=
  v815

def k1_off64 (v815 : BitVec 32) : Fin 2 → Nat :=
  let c0_221 : Index := 0#32
  let v816 : BitVec 32 := v815
  let v829 : Index := Scalar.indexCast v816
  ![0, v829.toNat]

def k1_chk32 (v815 : BitVec 32) : Prop :=
  (128 ∣ (k1_mult32 v815).toNat) ∧
  (∀ a, (k1_off64 v815) a + S1x256.size a ≤ S1x100096.size a)
instance k1_chk32.dec : ∀ (v815 : BitVec 32), Decidable (k1_chk32 v815) := fun v815 => decidable_of_iff' _ (Iff.of_eq (k1_chk32.eq_1 v815))
theorem k1_mult32_dvd : ∀ (v815 : BitVec 32) (k1_hw32 : k1_chk32 v815), 128 ∣ (k1_mult32 v815).toNat := fun v815 k1_hw32 => k1_hw32.1
theorem k1_off64_inb : ∀ (v815 : BitVec 32) (k1_hw32 : k1_chk32 v815), ∀ a, (k1_off64 v815) a + S1x256.size a ≤ S1x100096.size a := fun v815 k1_hw32 => k1_hw32.2

def k1_cond2 (i : grid1.Coords) : BitVec 1 :=
  let arg1 : BitVec 32 := BitVec.ofNat 32 (i 1).val
  let c402_i32 : BitVec 32 := 402#32
  let v836 : BitVec 1 := Scalar.cmpi .eq arg1 c402_i32
  let v837 : BitVec 32 := Scalar.extui v836
  let c0_i32_223 : BitVec 32 := 0#32
  let v838 : BitVec 1 := Scalar.cmpi .ne v837 c0_i32_223
  v838

def cc1_transform_0 (i : grid1.Coords) : Fin 2 → Nat :=
  let arg0 : BitVec 32 := BitVec.ofNat 32 (i 0).val
  let arg1 : BitVec 32 := BitVec.ofNat 32 (i 1).val
  let c403_i32 : BitVec 32 := 403#32
  let v0 : BitVec 32 := Scalar.muli arg0 c403_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 1 → Nat :=
  let arg0 : BitVec 32 := BitVec.ofNat 32 (i 0).val
  let arg1 : BitVec 32 := BitVec.ofNat 32 (i 1).val
  let c403_i32 : BitVec 32 := 403#32
  let v0 : BitVec 32 := Scalar.muli arg0 c403_i32
  let v1 : BitVec 32 := Scalar.addi v0 arg1
  let c0_i32 : BitVec 32 := 0#32
  ![v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x100096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 403], ![false, false]⟩

abbrev pre2 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c12896_i32 : BitVec 32 := 12896#32
  let v4 : BitVec 32 := Scalar.muli arg0 c12896_i32
  let arg1 : BitVec 32 := BitVec.ofNat 32 (i 1).val
  let c32_i32 : BitVec 32 := 32#32
  let v5 : BitVec 32 := Scalar.muli arg1 c32_i32
  let v6 : BitVec 32 := Scalar.addi v4 v5
  let c0_i32_1 : BitVec 32 := 0#32
  let v7 : BitVec 32 := Scalar.addi v6 c0_i32_1
  let v8 : Index := Scalar.indexCast v7
  ![v8.toNat]
def k2_mult1 (v9 : BitVec 32) : BitVec 32 :=
  v9

def k2_off2 (v9 : BitVec 32) : Fin 2 → Nat :=
  let c0_4 : Index := 0#32
  let v10 : BitVec 32 := v9
  let v23 : Index := Scalar.indexCast v10
  ![0, v23.toNat]

def k2_chk1 (v9 : BitVec 32) : Prop :=
  (128 ∣ (k2_mult1 v9).toNat) ∧
  (∀ a, (k2_off2 v9) a + S2x256.size a ≤ S2x100096.size a)
instance k2_chk1.dec : ∀ (v9 : BitVec 32), Decidable (k2_chk1 v9) := fun v9 => decidable_of_iff' _ (Iff.of_eq (k2_chk1.eq_1 v9))
theorem k2_mult1_dvd : ∀ (v9 : BitVec 32) (k2_hw1 : k2_chk1 v9), 128 ∣ (k2_mult1 v9).toNat := fun v9 k2_hw1 => k2_hw1.1
theorem k2_off2_inb : ∀ (v9 : BitVec 32) (k2_hw1 : k2_chk1 v9), ∀ a, (k2_off2 v9) a + S2x256.size a ≤ S2x100096.size a := fun v9 k2_hw1 => k2_hw1.2

def k2_off3 (i : grid2.Coords) : Fin 1 → Nat :=
  let arg0 : BitVec 32 := BitVec.ofNat 32 (i 0).val
  let c12896_i32_6 : BitVec 32 := 12896#32
  let v30 : BitVec 32 := Scalar.muli arg0 c12896_i32_6
  let arg1 : BitVec 32 := BitVec.ofNat 32 (i 1).val
  let c32_i32_7 : BitVec 32 := 32#32
  let v31 : BitVec 32 := Scalar.muli arg1 c32_i32_7
  let v32 : BitVec 32 := Scalar.addi v30 v31
  let c1_i32 : BitVec 32 := 1#32
  let v33 : BitVec 32 := Scalar.addi v32 c1_i32
  let v34 : Index := Scalar.indexCast v33
  ![v34.toNat]
def k2_mult2 (v35 : BitVec 32) : BitVec 32 :=
  v35

def k2_off4 (v35 : BitVec 32) : Fin 2 → Nat :=
  let c0_11 : Index := 0#32
  let v36 : BitVec 32 := v35
  let v49 : Index := Scalar.indexCast v36
  ![0, v49.toNat]

def k2_chk2 (v35 : BitVec 32) : Prop :=
  (128 ∣ (k2_mult2 v35).toNat) ∧
  (∀ a, (k2_off4 v35) a + S2x256.size a ≤ S2x100096.size a)
instance k2_chk2.dec : ∀ (v35 : BitVec 32), Decidable (k2_chk2 v35) := fun v35 => decidable_of_iff' _ (Iff.of_eq (k2_chk2.eq_1 v35))
theorem k2_mult2_dvd : ∀ (v35 : BitVec 32) (k2_hw2 : k2_chk2 v35), 128 ∣ (k2_mult2 v35).toNat := fun v35 k2_hw2 => k2_hw2.1
theorem k2_off4_inb : ∀ (v35 : BitVec 32) (k2_hw2 : k2_chk2 v35), ∀ a, (k2_off4 v35) a + S2x256.size a ≤ S2x100096.size a := fun v35 k2_hw2 => k2_hw2.2

def k2_off5 (i : grid2.Coords) : Fin 1 → Nat :=
  let arg0 : BitVec 32 := BitVec.ofNat 32 (i 0).val
  let c12896_i32_13 : BitVec 32 := 12896#32
  let v56 : BitVec 32 := Scalar.muli arg0 c12896_i32_13
  let arg1 : BitVec 32 := BitVec.ofNat 32 (i 1).val
  let c32_i32_14 : BitVec 32 := 32#32
  let v57 : BitVec 32 := Scalar.muli arg1 c32_i32_14
  let v58 : BitVec 32 := Scalar.addi v56 v57
  let c2_i32 : BitVec 32 := 2#32
  let v59 : BitVec 32 := Scalar.addi v58 c2_i32
  let v60 : Index := Scalar.indexCast v59
  ![v60.toNat]
def k2_mult3 (v61 : BitVec 32) : BitVec 32 :=
  v61

def k2_off6 (v61 : BitVec 32) : Fin 2 → Nat :=
  let c0_18 : Index := 0#32
  let v62 : BitVec 32 := v61
  let v75 : Index := Scalar.indexCast v62
  ![0, v75.toNat]

def k2_chk3 (v61 : BitVec 32) : Prop :=
  (128 ∣ (k2_mult3 v61).toNat) ∧
  (∀ a, (k2_off6 v61) a + S2x256.size a ≤ S2x100096.size a)
instance k2_chk3.dec : ∀ (v61 : BitVec 32), Decidable (k2_chk3 v61) := fun v61 => decidable_of_iff' _ (Iff.of_eq (k2_chk3.eq_1 v61))
theorem k2_mult3_dvd : ∀ (v61 : BitVec 32) (k2_hw3 : k2_chk3 v61), 128 ∣ (k2_mult3 v61).toNat := fun v61 k2_hw3 => k2_hw3.1
theorem k2_off6_inb : ∀ (v61 : BitVec 32) (k2_hw3 : k2_chk3 v61), ∀ a, (k2_off6 v61) a + S2x256.size a ≤ S2x100096.size a := fun v61 k2_hw3 => k2_hw3.2

def k2_off7 (i : grid2.Coords) : Fin 1 → Nat :=
  let arg0 : BitVec 32 := BitVec.ofNat 32 (i 0).val
  let c12896_i32_20 : BitVec 32 := 12896#32
  let v82 : BitVec 32 := Scalar.muli arg0 c12896_i32_20
  let arg1 : BitVec 32 := BitVec.ofNat 32 (i 1).val
  let c32_i32_21 : BitVec 32 := 32#32
  let v83 : BitVec 32 := Scalar.muli arg1 c32_i32_21
  let v84 : BitVec 32 := Scalar.addi v82 v83
  let c3_i32 : BitVec 32 := 3#32
  let v85 : BitVec 32 := Scalar.addi v84 c3_i32
  let v86 : Index := Scalar.indexCast v85
  ![v86.toNat]
def k2_mult4 (v87 : BitVec 32) : BitVec 32 :=
  v87

def k2_off8 (v87 : BitVec 32) : Fin 2 → Nat :=
  let c0_25 : Index := 0#32
  let v88 : BitVec 32 := v87
  let v101 : Index := Scalar.indexCast v88
  ![0, v101.toNat]

def k2_chk4 (v87 : BitVec 32) : Prop :=
  (128 ∣ (k2_mult4 v87).toNat) ∧
  (∀ a, (k2_off8 v87) a + S2x256.size a ≤ S2x100096.size a)
instance k2_chk4.dec : ∀ (v87 : BitVec 32), Decidable (k2_chk4 v87) := fun v87 => decidable_of_iff' _ (Iff.of_eq (k2_chk4.eq_1 v87))
theorem k2_mult4_dvd : ∀ (v87 : BitVec 32) (k2_hw4 : k2_chk4 v87), 128 ∣ (k2_mult4 v87).toNat := fun v87 k2_hw4 => k2_hw4.1
theorem k2_off8_inb : ∀ (v87 : BitVec 32) (k2_hw4 : k2_chk4 v87), ∀ a, (k2_off8 v87) a + S2x256.size a ≤ S2x100096.size a := fun v87 k2_hw4 => k2_hw4.2

def k2_off9 (i : grid2.Coords) : Fin 1 → Nat :=
  let arg0 : BitVec 32 := BitVec.ofNat 32 (i 0).val
  let c12896_i32_27 : BitVec 32 := 12896#32
  let v108 : BitVec 32 := Scalar.muli arg0 c12896_i32_27
  let arg1 : BitVec 32 := BitVec.ofNat 32 (i 1).val
  let c32_i32_28 : BitVec 32 := 32#32
  let v109 : BitVec 32 := Scalar.muli arg1 c32_i32_28
  let v110 : BitVec 32 := Scalar.addi v108 v109
  let c4_i32 : BitVec 32 := 4#32
  let v111 : BitVec 32 := Scalar.addi v110 c4_i32
  let v112 : Index := Scalar.indexCast v111
  ![v112.toNat]
def k2_mult5 (v113 : BitVec 32) : BitVec 32 :=
  v113

def k2_off10 (v113 : BitVec 32) : Fin 2 → Nat :=
  let c0_32 : Index := 0#32
  let v114 : BitVec 32 := v113
  let v127 : Index := Scalar.indexCast v114
  ![0, v127.toNat]

def k2_chk5 (v113 : BitVec 32) : Prop :=
  (128 ∣ (k2_mult5 v113).toNat) ∧
  (∀ a, (k2_off10 v113) a + S2x256.size a ≤ S2x100096.size a)
instance k2_chk5.dec : ∀ (v113 : BitVec 32), Decidable (k2_chk5 v113) := fun v113 => decidable_of_iff' _ (Iff.of_eq (k2_chk5.eq_1 v113))
theorem k2_mult5_dvd : ∀ (v113 : BitVec 32) (k2_hw5 : k2_chk5 v113), 128 ∣ (k2_mult5 v113).toNat := fun v113 k2_hw5 => k2_hw5.1
theorem k2_off10_inb : ∀ (v113 : BitVec 32) (k2_hw5 : k2_chk5 v113), ∀ a, (k2_off10 v113) a + S2x256.size a ≤ S2x100096.size a := fun v113 k2_hw5 => k2_hw5.2

def k2_off11 (i : grid2.Coords) : Fin 1 → Nat :=
  let arg0 : BitVec 32 := BitVec.ofNat 32 (i 0).val
  let c12896_i32_34 : BitVec 32 := 12896#32
  let v134 : BitVec 32 := Scalar.muli arg0 c12896_i32_34
  let arg1 : BitVec 32 := BitVec.ofNat 32 (i 1).val
  let c32_i32_35 : BitVec 32 := 32#32
  let v135 : BitVec 32 := Scalar.muli arg1 c32_i32_35
  let v136 : BitVec 32 := Scalar.addi v134 v135
  let c5_i32 : BitVec 32 := 5#32
  let v137 : BitVec 32 := Scalar.addi v136 c5_i32
  let v138 : Index := Scalar.indexCast v137
  ![v138.toNat]
def k2_mult6 (v139 : BitVec 32) : BitVec 32 :=
  v139

def k2_off12 (v139 : BitVec 32) : Fin 2 → Nat :=
  let c0_39 : Index := 0#32
  let v140 : BitVec 32 := v139
  let v153 : Index := Scalar.indexCast v140
  ![0, v153.toNat]

def k2_chk6 (v139 : BitVec 32) : Prop :=
  (128 ∣ (k2_mult6 v139).toNat) ∧
  (∀ a, (k2_off12 v139) a + S2x256.size a ≤ S2x100096.size a)
instance k2_chk6.dec : ∀ (v139 : BitVec 32), Decidable (k2_chk6 v139) := fun v139 => decidable_of_iff' _ (Iff.of_eq (k2_chk6.eq_1 v139))
theorem k2_mult6_dvd : ∀ (v139 : BitVec 32) (k2_hw6 : k2_chk6 v139), 128 ∣ (k2_mult6 v139).toNat := fun v139 k2_hw6 => k2_hw6.1
theorem k2_off12_inb : ∀ (v139 : BitVec 32) (k2_hw6 : k2_chk6 v139), ∀ a, (k2_off12 v139) a + S2x256.size a ≤ S2x100096.size a := fun v139 k2_hw6 => k2_hw6.2

def k2_off13 (i : grid2.Coords) : Fin 1 → Nat :=
  let arg0 : BitVec 32 := BitVec.ofNat 32 (i 0).val
  let c12896_i32_41 : BitVec 32 := 12896#32
  let v160 : BitVec 32 := Scalar.muli arg0 c12896_i32_41
  let arg1 : BitVec 32 := BitVec.ofNat 32 (i 1).val
  let c32_i32_42 : BitVec 32 := 32#32
  let v161 : BitVec 32 := Scalar.muli arg1 c32_i32_42
  let v162 : BitVec 32 := Scalar.addi v160 v161
  let c6_i32 : BitVec 32 := 6#32
  let v163 : BitVec 32 := Scalar.addi v162 c6_i32
  let v164 : Index := Scalar.indexCast v163
  ![v164.toNat]
def k2_mult7 (v165 : BitVec 32) : BitVec 32 :=
  v165

def k2_off14 (v165 : BitVec 32) : Fin 2 → Nat :=
  let c0_46 : Index := 0#32
  let v166 : BitVec 32 := v165
  let v179 : Index := Scalar.indexCast v166
  ![0, v179.toNat]

def k2_chk7 (v165 : BitVec 32) : Prop :=
  (128 ∣ (k2_mult7 v165).toNat) ∧
  (∀ a, (k2_off14 v165) a + S2x256.size a ≤ S2x100096.size a)
instance k2_chk7.dec : ∀ (v165 : BitVec 32), Decidable (k2_chk7 v165) := fun v165 => decidable_of_iff' _ (Iff.of_eq (k2_chk7.eq_1 v165))
theorem k2_mult7_dvd : ∀ (v165 : BitVec 32) (k2_hw7 : k2_chk7 v165), 128 ∣ (k2_mult7 v165).toNat := fun v165 k2_hw7 => k2_hw7.1
theorem k2_off14_inb : ∀ (v165 : BitVec 32) (k2_hw7 : k2_chk7 v165), ∀ a, (k2_off14 v165) a + S2x256.size a ≤ S2x100096.size a := fun v165 k2_hw7 => k2_hw7.2

def k2_off15 (i : grid2.Coords) : Fin 1 → Nat :=
  let arg0 : BitVec 32 := BitVec.ofNat 32 (i 0).val
  let c12896_i32_48 : BitVec 32 := 12896#32
  let v186 : BitVec 32 := Scalar.muli arg0 c12896_i32_48
  let arg1 : BitVec 32 := BitVec.ofNat 32 (i 1).val
  let c32_i32_49 : BitVec 32 := 32#32
  let v187 : BitVec 32 := Scalar.muli arg1 c32_i32_49
  let v188 : BitVec 32 := Scalar.addi v186 v187
  let c7_i32 : BitVec 32 := 7#32
  let v189 : BitVec 32 := Scalar.addi v188 c7_i32
  let v190 : Index := Scalar.indexCast v189
  ![v190.toNat]
def k2_mult8 (v191 : BitVec 32) : BitVec 32 :=
  v191

def k2_off16 (v191 : BitVec 32) : Fin 2 → Nat :=
  let c0_53 : Index := 0#32
  let v192 : BitVec 32 := v191
  let v205 : Index := Scalar.indexCast v192
  ![0, v205.toNat]

def k2_chk8 (v191 : BitVec 32) : Prop :=
  (128 ∣ (k2_mult8 v191).toNat) ∧
  (∀ a, (k2_off16 v191) a + S2x256.size a ≤ S2x100096.size a)
instance k2_chk8.dec : ∀ (v191 : BitVec 32), Decidable (k2_chk8 v191) := fun v191 => decidable_of_iff' _ (Iff.of_eq (k2_chk8.eq_1 v191))
theorem k2_mult8_dvd : ∀ (v191 : BitVec 32) (k2_hw8 : k2_chk8 v191), 128 ∣ (k2_mult8 v191).toNat := fun v191 k2_hw8 => k2_hw8.1
theorem k2_off16_inb : ∀ (v191 : BitVec 32) (k2_hw8 : k2_chk8 v191), ∀ a, (k2_off16 v191) a + S2x256.size a ≤ S2x100096.size a := fun v191 k2_hw8 => k2_hw8.2

def k2_off17 (i : grid2.Coords) : Fin 1 → Nat :=
  let arg0 : BitVec 32 := BitVec.ofNat 32 (i 0).val
  let c12896_i32_55 : BitVec 32 := 12896#32
  let v212 : BitVec 32 := Scalar.muli arg0 c12896_i32_55
  let arg1 : BitVec 32 := BitVec.ofNat 32 (i 1).val
  let c32_i32_56 : BitVec 32 := 32#32
  let v213 : BitVec 32 := Scalar.muli arg1 c32_i32_56
  let v214 : BitVec 32 := Scalar.addi v212 v213
  let c8_i32 : BitVec 32 := 8#32
  let v215 : BitVec 32 := Scalar.addi v214 c8_i32
  let v216 : Index := Scalar.indexCast v215
  ![v216.toNat]
def k2_mult9 (v217 : BitVec 32) : BitVec 32 :=
  v217

def k2_off18 (v217 : BitVec 32) : Fin 2 → Nat :=
  let c0_60 : Index := 0#32
  let v218 : BitVec 32 := v217
  let v231 : Index := Scalar.indexCast v218
  ![0, v231.toNat]

def k2_chk9 (v217 : BitVec 32) : Prop :=
  (128 ∣ (k2_mult9 v217).toNat) ∧
  (∀ a, (k2_off18 v217) a + S2x256.size a ≤ S2x100096.size a)
instance k2_chk9.dec : ∀ (v217 : BitVec 32), Decidable (k2_chk9 v217) := fun v217 => decidable_of_iff' _ (Iff.of_eq (k2_chk9.eq_1 v217))
theorem k2_mult9_dvd : ∀ (v217 : BitVec 32) (k2_hw9 : k2_chk9 v217), 128 ∣ (k2_mult9 v217).toNat := fun v217 k2_hw9 => k2_hw9.1
theorem k2_off18_inb : ∀ (v217 : BitVec 32) (k2_hw9 : k2_chk9 v217), ∀ a, (k2_off18 v217) a + S2x256.size a ≤ S2x100096.size a := fun v217 k2_hw9 => k2_hw9.2

def k2_off19 (i : grid2.Coords) : Fin 1 → Nat :=
  let arg0 : BitVec 32 := BitVec.ofNat 32 (i 0).val
  let c12896_i32_62 : BitVec 32 := 12896#32
  let v238 : BitVec 32 := Scalar.muli arg0 c12896_i32_62
  let arg1 : BitVec 32 := BitVec.ofNat 32 (i 1).val
  let c32_i32_63 : BitVec 32 := 32#32
  let v239 : BitVec 32 := Scalar.muli arg1 c32_i32_63
  let v240 : BitVec 32 := Scalar.addi v238 v239
  let c9_i32 : BitVec 32 := 9#32
  let v241 : BitVec 32 := Scalar.addi v240 c9_i32
  let v242 : Index := Scalar.indexCast v241
  ![v242.toNat]
def k2_mult10 (v243 : BitVec 32) : BitVec 32 :=
  v243

def k2_off20 (v243 : BitVec 32) : Fin 2 → Nat :=
  let c0_67 : Index := 0#32
  let v244 : BitVec 32 := v243
  let v257 : Index := Scalar.indexCast v244
  ![0, v257.toNat]

def k2_chk10 (v243 : BitVec 32) : Prop :=
  (128 ∣ (k2_mult10 v243).toNat) ∧
  (∀ a, (k2_off20 v243) a + S2x256.size a ≤ S2x100096.size a)
instance k2_chk10.dec : ∀ (v243 : BitVec 32), Decidable (k2_chk10 v243) := fun v243 => decidable_of_iff' _ (Iff.of_eq (k2_chk10.eq_1 v243))
theorem k2_mult10_dvd : ∀ (v243 : BitVec 32) (k2_hw10 : k2_chk10 v243), 128 ∣ (k2_mult10 v243).toNat := fun v243 k2_hw10 => k2_hw10.1
theorem k2_off20_inb : ∀ (v243 : BitVec 32) (k2_hw10 : k2_chk10 v243), ∀ a, (k2_off20 v243) a + S2x256.size a ≤ S2x100096.size a := fun v243 k2_hw10 => k2_hw10.2

def k2_off21 (i : grid2.Coords) : Fin 1 → Nat :=
  let arg0 : BitVec 32 := BitVec.ofNat 32 (i 0).val
  let c12896_i32_69 : BitVec 32 := 12896#32
  let v264 : BitVec 32 := Scalar.muli arg0 c12896_i32_69
  let arg1 : BitVec 32 := BitVec.ofNat 32 (i 1).val
  let c32_i32_70 : BitVec 32 := 32#32
  let v265 : BitVec 32 := Scalar.muli arg1 c32_i32_70
  let v266 : BitVec 32 := Scalar.addi v264 v265
  let c10_i32 : BitVec 32 := 10#32
  let v267 : BitVec 32 := Scalar.addi v266 c10_i32
  let v268 : Index := Scalar.indexCast v267
  ![v268.toNat]
def k2_mult11 (v269 : BitVec 32) : BitVec 32 :=
  v269

def k2_off22 (v269 : BitVec 32) : Fin 2 → Nat :=
  let c0_74 : Index := 0#32
  let v270 : BitVec 32 := v269
  let v283 : Index := Scalar.indexCast v270
  ![0, v283.toNat]

def k2_chk11 (v269 : BitVec 32) : Prop :=
  (128 ∣ (k2_mult11 v269).toNat) ∧
  (∀ a, (k2_off22 v269) a + S2x256.size a ≤ S2x100096.size a)
instance k2_chk11.dec : ∀ (v269 : BitVec 32), Decidable (k2_chk11 v269) := fun v269 => decidable_of_iff' _ (Iff.of_eq (k2_chk11.eq_1 v269))
theorem k2_mult11_dvd : ∀ (v269 : BitVec 32) (k2_hw11 : k2_chk11 v269), 128 ∣ (k2_mult11 v269).toNat := fun v269 k2_hw11 => k2_hw11.1
theorem k2_off22_inb : ∀ (v269 : BitVec 32) (k2_hw11 : k2_chk11 v269), ∀ a, (k2_off22 v269) a + S2x256.size a ≤ S2x100096.size a := fun v269 k2_hw11 => k2_hw11.2

def k2_off23 (i : grid2.Coords) : Fin 1 → Nat :=
  let arg0 : BitVec 32 := BitVec.ofNat 32 (i 0).val
  let c12896_i32_76 : BitVec 32 := 12896#32
  let v290 : BitVec 32 := Scalar.muli arg0 c12896_i32_76
  let arg1 : BitVec 32 := BitVec.ofNat 32 (i 1).val
  let c32_i32_77 : BitVec 32 := 32#32
  let v291 : BitVec 32 := Scalar.muli arg1 c32_i32_77
  let v292 : BitVec 32 := Scalar.addi v290 v291
  let c11_i32 : BitVec 32 := 11#32
  let v293 : BitVec 32 := Scalar.addi v292 c11_i32
  let v294 : Index := Scalar.indexCast v293
  ![v294.toNat]
def k2_mult12 (v295 : BitVec 32) : BitVec 32 :=
  v295

def k2_off24 (v295 : BitVec 32) : Fin 2 → Nat :=
  let c0_81 : Index := 0#32
  let v296 : BitVec 32 := v295
  let v309 : Index := Scalar.indexCast v296
  ![0, v309.toNat]

def k2_chk12 (v295 : BitVec 32) : Prop :=
  (128 ∣ (k2_mult12 v295).toNat) ∧
  (∀ a, (k2_off24 v295) a + S2x256.size a ≤ S2x100096.size a)
instance k2_chk12.dec : ∀ (v295 : BitVec 32), Decidable (k2_chk12 v295) := fun v295 => decidable_of_iff' _ (Iff.of_eq (k2_chk12.eq_1 v295))
theorem k2_mult12_dvd : ∀ (v295 : BitVec 32) (k2_hw12 : k2_chk12 v295), 128 ∣ (k2_mult12 v295).toNat := fun v295 k2_hw12 => k2_hw12.1
theorem k2_off24_inb : ∀ (v295 : BitVec 32) (k2_hw12 : k2_chk12 v295), ∀ a, (k2_off24 v295) a + S2x256.size a ≤ S2x100096.size a := fun v295 k2_hw12 => k2_hw12.2

def k2_off25 (i : grid2.Coords) : Fin 1 → Nat :=
  let arg0 : BitVec 32 := BitVec.ofNat 32 (i 0).val
  let c12896_i32_83 : BitVec 32 := 12896#32
  let v316 : BitVec 32 := Scalar.muli arg0 c12896_i32_83
  let arg1 : BitVec 32 := BitVec.ofNat 32 (i 1).val
  let c32_i32_84 : BitVec 32 := 32#32
  let v317 : BitVec 32 := Scalar.muli arg1 c32_i32_84
  let v318 : BitVec 32 := Scalar.addi v316 v317
  let c12_i32 : BitVec 32 := 12#32
  let v319 : BitVec 32 := Scalar.addi v318 c12_i32
  let v320 : Index := Scalar.indexCast v319
  ![v320.toNat]
def k2_mult13 (v321 : BitVec 32) : BitVec 32 :=
  v321

def k2_off26 (v321 : BitVec 32) : Fin 2 → Nat :=
  let c0_88 : Index := 0#32
  let v322 : BitVec 32 := v321
  let v335 : Index := Scalar.indexCast v322
  ![0, v335.toNat]

def k2_chk13 (v321 : BitVec 32) : Prop :=
  (128 ∣ (k2_mult13 v321).toNat) ∧
  (∀ a, (k2_off26 v321) a + S2x256.size a ≤ S2x100096.size a)
instance k2_chk13.dec : ∀ (v321 : BitVec 32), Decidable (k2_chk13 v321) := fun v321 => decidable_of_iff' _ (Iff.of_eq (k2_chk13.eq_1 v321))
theorem k2_mult13_dvd : ∀ (v321 : BitVec 32) (k2_hw13 : k2_chk13 v321), 128 ∣ (k2_mult13 v321).toNat := fun v321 k2_hw13 => k2_hw13.1
theorem k2_off26_inb : ∀ (v321 : BitVec 32) (k2_hw13 : k2_chk13 v321), ∀ a, (k2_off26 v321) a + S2x256.size a ≤ S2x100096.size a := fun v321 k2_hw13 => k2_hw13.2

def k2_off27 (i : grid2.Coords) : Fin 1 → Nat :=
  let arg0 : BitVec 32 := BitVec.ofNat 32 (i 0).val
  let c12896_i32_90 : BitVec 32 := 12896#32
  let v342 : BitVec 32 := Scalar.muli arg0 c12896_i32_90
  let arg1 : BitVec 32 := BitVec.ofNat 32 (i 1).val
  let c32_i32_91 : BitVec 32 := 32#32
  let v343 : BitVec 32 := Scalar.muli arg1 c32_i32_91
  let v344 : BitVec 32 := Scalar.addi v342 v343
  let c13_i32 : BitVec 32 := 13#32
  let v345 : BitVec 32 := Scalar.addi v344 c13_i32
  let v346 : Index := Scalar.indexCast v345
  ![v346.toNat]
def k2_mult14 (v347 : BitVec 32) : BitVec 32 :=
  v347

def k2_off28 (v347 : BitVec 32) : Fin 2 → Nat :=
  let c0_95 : Index := 0#32
  let v348 : BitVec 32 := v347
  let v361 : Index := Scalar.indexCast v348
  ![0, v361.toNat]

def k2_chk14 (v347 : BitVec 32) : Prop :=
  (128 ∣ (k2_mult14 v347).toNat) ∧
  (∀ a, (k2_off28 v347) a + S2x256.size a ≤ S2x100096.size a)
instance k2_chk14.dec : ∀ (v347 : BitVec 32), Decidable (k2_chk14 v347) := fun v347 => decidable_of_iff' _ (Iff.of_eq (k2_chk14.eq_1 v347))
theorem k2_mult14_dvd : ∀ (v347 : BitVec 32) (k2_hw14 : k2_chk14 v347), 128 ∣ (k2_mult14 v347).toNat := fun v347 k2_hw14 => k2_hw14.1
theorem k2_off28_inb : ∀ (v347 : BitVec 32) (k2_hw14 : k2_chk14 v347), ∀ a, (k2_off28 v347) a + S2x256.size a ≤ S2x100096.size a := fun v347 k2_hw14 => k2_hw14.2

def k2_off29 (i : grid2.Coords) : Fin 1 → Nat :=
  let arg0 : BitVec 32 := BitVec.ofNat 32 (i 0).val
  let c12896_i32_97 : BitVec 32 := 12896#32
  let v368 : BitVec 32 := Scalar.muli arg0 c12896_i32_97
  let arg1 : BitVec 32 := BitVec.ofNat 32 (i 1).val
  let c32_i32_98 : BitVec 32 := 32#32
  let v369 : BitVec 32 := Scalar.muli arg1 c32_i32_98
  let v370 : BitVec 32 := Scalar.addi v368 v369
  let c14_i32 : BitVec 32 := 14#32
  let v371 : BitVec 32 := Scalar.addi v370 c14_i32
  let v372 : Index := Scalar.indexCast v371
  ![v372.toNat]
def k2_mult15 (v373 : BitVec 32) : BitVec 32 :=
  v373

def k2_off30 (v373 : BitVec 32) : Fin 2 → Nat :=
  let c0_102 : Index := 0#32
  let v374 : BitVec 32 := v373
  let v387 : Index := Scalar.indexCast v374
  ![0, v387.toNat]

def k2_chk15 (v373 : BitVec 32) : Prop :=
  (128 ∣ (k2_mult15 v373).toNat) ∧
  (∀ a, (k2_off30 v373) a + S2x256.size a ≤ S2x100096.size a)
instance k2_chk15.dec : ∀ (v373 : BitVec 32), Decidable (k2_chk15 v373) := fun v373 => decidable_of_iff' _ (Iff.of_eq (k2_chk15.eq_1 v373))
theorem k2_mult15_dvd : ∀ (v373 : BitVec 32) (k2_hw15 : k2_chk15 v373), 128 ∣ (k2_mult15 v373).toNat := fun v373 k2_hw15 => k2_hw15.1
theorem k2_off30_inb : ∀ (v373 : BitVec 32) (k2_hw15 : k2_chk15 v373), ∀ a, (k2_off30 v373) a + S2x256.size a ≤ S2x100096.size a := fun v373 k2_hw15 => k2_hw15.2

def k2_off31 (i : grid2.Coords) : Fin 1 → Nat :=
  let arg0 : BitVec 32 := BitVec.ofNat 32 (i 0).val
  let c12896_i32_104 : BitVec 32 := 12896#32
  let v394 : BitVec 32 := Scalar.muli arg0 c12896_i32_104
  let arg1 : BitVec 32 := BitVec.ofNat 32 (i 1).val
  let c32_i32_105 : BitVec 32 := 32#32
  let v395 : BitVec 32 := Scalar.muli arg1 c32_i32_105
  let v396 : BitVec 32 := Scalar.addi v394 v395
  let c15_i32 : BitVec 32 := 15#32
  let v397 : BitVec 32 := Scalar.addi v396 c15_i32
  let v398 : Index := Scalar.indexCast v397
  ![v398.toNat]
def k2_mult16 (v399 : BitVec 32) : BitVec 32 :=
  v399

def k2_off32 (v399 : BitVec 32) : Fin 2 → Nat :=
  let c0_109 : Index := 0#32
  let v400 : BitVec 32 := v399
  let v413 : Index := Scalar.indexCast v400
  ![0, v413.toNat]

def k2_chk16 (v399 : BitVec 32) : Prop :=
  (128 ∣ (k2_mult16 v399).toNat) ∧
  (∀ a, (k2_off32 v399) a + S2x256.size a ≤ S2x100096.size a)
instance k2_chk16.dec : ∀ (v399 : BitVec 32), Decidable (k2_chk16 v399) := fun v399 => decidable_of_iff' _ (Iff.of_eq (k2_chk16.eq_1 v399))
theorem k2_mult16_dvd : ∀ (v399 : BitVec 32) (k2_hw16 : k2_chk16 v399), 128 ∣ (k2_mult16 v399).toNat := fun v399 k2_hw16 => k2_hw16.1
theorem k2_off32_inb : ∀ (v399 : BitVec 32) (k2_hw16 : k2_chk16 v399), ∀ a, (k2_off32 v399) a + S2x256.size a ≤ S2x100096.size a := fun v399 k2_hw16 => k2_hw16.2

def k2_off33 (i : grid2.Coords) : Fin 1 → Nat :=
  let arg0 : BitVec 32 := BitVec.ofNat 32 (i 0).val
  let c12896_i32_111 : BitVec 32 := 12896#32
  let v420 : BitVec 32 := Scalar.muli arg0 c12896_i32_111
  let arg1 : BitVec 32 := BitVec.ofNat 32 (i 1).val
  let c32_i32_112 : BitVec 32 := 32#32
  let v421 : BitVec 32 := Scalar.muli arg1 c32_i32_112
  let v422 : BitVec 32 := Scalar.addi v420 v421
  let c16_i32 : BitVec 32 := 16#32
  let v423 : BitVec 32 := Scalar.addi v422 c16_i32
  let v424 : Index := Scalar.indexCast v423
  ![v424.toNat]
def k2_mult17 (v425 : BitVec 32) : BitVec 32 :=
  v425

def k2_off34 (v425 : BitVec 32) : Fin 2 → Nat :=
  let c0_116 : Index := 0#32
  let v426 : BitVec 32 := v425
  let v439 : Index := Scalar.indexCast v426
  ![0, v439.toNat]

def k2_chk17 (v425 : BitVec 32) : Prop :=
  (128 ∣ (k2_mult17 v425).toNat) ∧
  (∀ a, (k2_off34 v425) a + S2x256.size a ≤ S2x100096.size a)
instance k2_chk17.dec : ∀ (v425 : BitVec 32), Decidable (k2_chk17 v425) := fun v425 => decidable_of_iff' _ (Iff.of_eq (k2_chk17.eq_1 v425))
theorem k2_mult17_dvd : ∀ (v425 : BitVec 32) (k2_hw17 : k2_chk17 v425), 128 ∣ (k2_mult17 v425).toNat := fun v425 k2_hw17 => k2_hw17.1
theorem k2_off34_inb : ∀ (v425 : BitVec 32) (k2_hw17 : k2_chk17 v425), ∀ a, (k2_off34 v425) a + S2x256.size a ≤ S2x100096.size a := fun v425 k2_hw17 => k2_hw17.2

def k2_off35 (i : grid2.Coords) : Fin 1 → Nat :=
  let arg0 : BitVec 32 := BitVec.ofNat 32 (i 0).val
  let c12896_i32_118 : BitVec 32 := 12896#32
  let v446 : BitVec 32 := Scalar.muli arg0 c12896_i32_118
  let arg1 : BitVec 32 := BitVec.ofNat 32 (i 1).val
  let c32_i32_119 : BitVec 32 := 32#32
  let v447 : BitVec 32 := Scalar.muli arg1 c32_i32_119
  let v448 : BitVec 32 := Scalar.addi v446 v447
  let c17_i32 : BitVec 32 := 17#32
  let v449 : BitVec 32 := Scalar.addi v448 c17_i32
  let v450 : Index := Scalar.indexCast v449
  ![v450.toNat]
def k2_mult18 (v451 : BitVec 32) : BitVec 32 :=
  v451

def k2_off36 (v451 : BitVec 32) : Fin 2 → Nat :=
  let c0_123 : Index := 0#32
  let v452 : BitVec 32 := v451
  let v465 : Index := Scalar.indexCast v452
  ![0, v465.toNat]

def k2_chk18 (v451 : BitVec 32) : Prop :=
  (128 ∣ (k2_mult18 v451).toNat) ∧
  (∀ a, (k2_off36 v451) a + S2x256.size a ≤ S2x100096.size a)
instance k2_chk18.dec : ∀ (v451 : BitVec 32), Decidable (k2_chk18 v451) := fun v451 => decidable_of_iff' _ (Iff.of_eq (k2_chk18.eq_1 v451))
theorem k2_mult18_dvd : ∀ (v451 : BitVec 32) (k2_hw18 : k2_chk18 v451), 128 ∣ (k2_mult18 v451).toNat := fun v451 k2_hw18 => k2_hw18.1
theorem k2_off36_inb : ∀ (v451 : BitVec 32) (k2_hw18 : k2_chk18 v451), ∀ a, (k2_off36 v451) a + S2x256.size a ≤ S2x100096.size a := fun v451 k2_hw18 => k2_hw18.2

def k2_off37 (i : grid2.Coords) : Fin 1 → Nat :=
  let arg0 : BitVec 32 := BitVec.ofNat 32 (i 0).val
  let c12896_i32_125 : BitVec 32 := 12896#32
  let v472 : BitVec 32 := Scalar.muli arg0 c12896_i32_125
  let arg1 : BitVec 32 := BitVec.ofNat 32 (i 1).val
  let c32_i32_126 : BitVec 32 := 32#32
  let v473 : BitVec 32 := Scalar.muli arg1 c32_i32_126
  let v474 : BitVec 32 := Scalar.addi v472 v473
  let c18_i32 : BitVec 32 := 18#32
  let v475 : BitVec 32 := Scalar.addi v474 c18_i32
  let v476 : Index := Scalar.indexCast v475
  ![v476.toNat]
def k2_mult19 (v477 : BitVec 32) : BitVec 32 :=
  v477

def k2_off38 (v477 : BitVec 32) : Fin 2 → Nat :=
  let c0_130 : Index := 0#32
  let v478 : BitVec 32 := v477
  let v491 : Index := Scalar.indexCast v478
  ![0, v491.toNat]

def k2_chk19 (v477 : BitVec 32) : Prop :=
  (128 ∣ (k2_mult19 v477).toNat) ∧
  (∀ a, (k2_off38 v477) a + S2x256.size a ≤ S2x100096.size a)
instance k2_chk19.dec : ∀ (v477 : BitVec 32), Decidable (k2_chk19 v477) := fun v477 => decidable_of_iff' _ (Iff.of_eq (k2_chk19.eq_1 v477))
theorem k2_mult19_dvd : ∀ (v477 : BitVec 32) (k2_hw19 : k2_chk19 v477), 128 ∣ (k2_mult19 v477).toNat := fun v477 k2_hw19 => k2_hw19.1
theorem k2_off38_inb : ∀ (v477 : BitVec 32) (k2_hw19 : k2_chk19 v477), ∀ a, (k2_off38 v477) a + S2x256.size a ≤ S2x100096.size a := fun v477 k2_hw19 => k2_hw19.2

def k2_off39 (i : grid2.Coords) : Fin 1 → Nat :=
  let arg0 : BitVec 32 := BitVec.ofNat 32 (i 0).val
  let c12896_i32_132 : BitVec 32 := 12896#32
  let v498 : BitVec 32 := Scalar.muli arg0 c12896_i32_132
  let arg1 : BitVec 32 := BitVec.ofNat 32 (i 1).val
  let c32_i32_133 : BitVec 32 := 32#32
  let v499 : BitVec 32 := Scalar.muli arg1 c32_i32_133
  let v500 : BitVec 32 := Scalar.addi v498 v499
  let c19_i32 : BitVec 32 := 19#32
  let v501 : BitVec 32 := Scalar.addi v500 c19_i32
  let v502 : Index := Scalar.indexCast v501
  ![v502.toNat]
def k2_mult20 (v503 : BitVec 32) : BitVec 32 :=
  v503

def k2_off40 (v503 : BitVec 32) : Fin 2 → Nat :=
  let c0_137 : Index := 0#32
  let v504 : BitVec 32 := v503
  let v517 : Index := Scalar.indexCast v504
  ![0, v517.toNat]

def k2_chk20 (v503 : BitVec 32) : Prop :=
  (128 ∣ (k2_mult20 v503).toNat) ∧
  (∀ a, (k2_off40 v503) a + S2x256.size a ≤ S2x100096.size a)
instance k2_chk20.dec : ∀ (v503 : BitVec 32), Decidable (k2_chk20 v503) := fun v503 => decidable_of_iff' _ (Iff.of_eq (k2_chk20.eq_1 v503))
theorem k2_mult20_dvd : ∀ (v503 : BitVec 32) (k2_hw20 : k2_chk20 v503), 128 ∣ (k2_mult20 v503).toNat := fun v503 k2_hw20 => k2_hw20.1
theorem k2_off40_inb : ∀ (v503 : BitVec 32) (k2_hw20 : k2_chk20 v503), ∀ a, (k2_off40 v503) a + S2x256.size a ≤ S2x100096.size a := fun v503 k2_hw20 => k2_hw20.2

def k2_off41 (i : grid2.Coords) : Fin 1 → Nat :=
  let arg0 : BitVec 32 := BitVec.ofNat 32 (i 0).val
  let c12896_i32_139 : BitVec 32 := 12896#32
  let v524 : BitVec 32 := Scalar.muli arg0 c12896_i32_139
  let arg1 : BitVec 32 := BitVec.ofNat 32 (i 1).val
  let c32_i32_140 : BitVec 32 := 32#32
  let v525 : BitVec 32 := Scalar.muli arg1 c32_i32_140
  let v526 : BitVec 32 := Scalar.addi v524 v525
  let c20_i32 : BitVec 32 := 20#32
  let v527 : BitVec 32 := Scalar.addi v526 c20_i32
  let v528 : Index := Scalar.indexCast v527
  ![v528.toNat]
def k2_mult21 (v529 : BitVec 32) : BitVec 32 :=
  v529

def k2_off42 (v529 : BitVec 32) : Fin 2 → Nat :=
  let c0_144 : Index := 0#32
  let v530 : BitVec 32 := v529
  let v543 : Index := Scalar.indexCast v530
  ![0, v543.toNat]

def k2_chk21 (v529 : BitVec 32) : Prop :=
  (128 ∣ (k2_mult21 v529).toNat) ∧
  (∀ a, (k2_off42 v529) a + S2x256.size a ≤ S2x100096.size a)
instance k2_chk21.dec : ∀ (v529 : BitVec 32), Decidable (k2_chk21 v529) := fun v529 => decidable_of_iff' _ (Iff.of_eq (k2_chk21.eq_1 v529))
theorem k2_mult21_dvd : ∀ (v529 : BitVec 32) (k2_hw21 : k2_chk21 v529), 128 ∣ (k2_mult21 v529).toNat := fun v529 k2_hw21 => k2_hw21.1
theorem k2_off42_inb : ∀ (v529 : BitVec 32) (k2_hw21 : k2_chk21 v529), ∀ a, (k2_off42 v529) a + S2x256.size a ≤ S2x100096.size a := fun v529 k2_hw21 => k2_hw21.2

def k2_off43 (i : grid2.Coords) : Fin 1 → Nat :=
  let arg0 : BitVec 32 := BitVec.ofNat 32 (i 0).val
  let c12896_i32_146 : BitVec 32 := 12896#32
  let v550 : BitVec 32 := Scalar.muli arg0 c12896_i32_146
  let arg1 : BitVec 32 := BitVec.ofNat 32 (i 1).val
  let c32_i32_147 : BitVec 32 := 32#32
  let v551 : BitVec 32 := Scalar.muli arg1 c32_i32_147
  let v552 : BitVec 32 := Scalar.addi v550 v551
  let c21_i32 : BitVec 32 := 21#32
  let v553 : BitVec 32 := Scalar.addi v552 c21_i32
  let v554 : Index := Scalar.indexCast v553
  ![v554.toNat]
def k2_mult22 (v555 : BitVec 32) : BitVec 32 :=
  v555

def k2_off44 (v555 : BitVec 32) : Fin 2 → Nat :=
  let c0_151 : Index := 0#32
  let v556 : BitVec 32 := v555
  let v569 : Index := Scalar.indexCast v556
  ![0, v569.toNat]

def k2_chk22 (v555 : BitVec 32) : Prop :=
  (128 ∣ (k2_mult22 v555).toNat) ∧
  (∀ a, (k2_off44 v555) a + S2x256.size a ≤ S2x100096.size a)
instance k2_chk22.dec : ∀ (v555 : BitVec 32), Decidable (k2_chk22 v555) := fun v555 => decidable_of_iff' _ (Iff.of_eq (k2_chk22.eq_1 v555))
theorem k2_mult22_dvd : ∀ (v555 : BitVec 32) (k2_hw22 : k2_chk22 v555), 128 ∣ (k2_mult22 v555).toNat := fun v555 k2_hw22 => k2_hw22.1
theorem k2_off44_inb : ∀ (v555 : BitVec 32) (k2_hw22 : k2_chk22 v555), ∀ a, (k2_off44 v555) a + S2x256.size a ≤ S2x100096.size a := fun v555 k2_hw22 => k2_hw22.2

def k2_off45 (i : grid2.Coords) : Fin 1 → Nat :=
  let arg0 : BitVec 32 := BitVec.ofNat 32 (i 0).val
  let c12896_i32_153 : BitVec 32 := 12896#32
  let v576 : BitVec 32 := Scalar.muli arg0 c12896_i32_153
  let arg1 : BitVec 32 := BitVec.ofNat 32 (i 1).val
  let c32_i32_154 : BitVec 32 := 32#32
  let v577 : BitVec 32 := Scalar.muli arg1 c32_i32_154
  let v578 : BitVec 32 := Scalar.addi v576 v577
  let c22_i32 : BitVec 32 := 22#32
  let v579 : BitVec 32 := Scalar.addi v578 c22_i32
  let v580 : Index := Scalar.indexCast v579
  ![v580.toNat]
def k2_mult23 (v581 : BitVec 32) : BitVec 32 :=
  v581

def k2_off46 (v581 : BitVec 32) : Fin 2 → Nat :=
  let c0_158 : Index := 0#32
  let v582 : BitVec 32 := v581
  let v595 : Index := Scalar.indexCast v582
  ![0, v595.toNat]

def k2_chk23 (v581 : BitVec 32) : Prop :=
  (128 ∣ (k2_mult23 v581).toNat) ∧
  (∀ a, (k2_off46 v581) a + S2x256.size a ≤ S2x100096.size a)
instance k2_chk23.dec : ∀ (v581 : BitVec 32), Decidable (k2_chk23 v581) := fun v581 => decidable_of_iff' _ (Iff.of_eq (k2_chk23.eq_1 v581))
theorem k2_mult23_dvd : ∀ (v581 : BitVec 32) (k2_hw23 : k2_chk23 v581), 128 ∣ (k2_mult23 v581).toNat := fun v581 k2_hw23 => k2_hw23.1
theorem k2_off46_inb : ∀ (v581 : BitVec 32) (k2_hw23 : k2_chk23 v581), ∀ a, (k2_off46 v581) a + S2x256.size a ≤ S2x100096.size a := fun v581 k2_hw23 => k2_hw23.2

def k2_off47 (i : grid2.Coords) : Fin 1 → Nat :=
  let arg0 : BitVec 32 := BitVec.ofNat 32 (i 0).val
  let c12896_i32_160 : BitVec 32 := 12896#32
  let v602 : BitVec 32 := Scalar.muli arg0 c12896_i32_160
  let arg1 : BitVec 32 := BitVec.ofNat 32 (i 1).val
  let c32_i32_161 : BitVec 32 := 32#32
  let v603 : BitVec 32 := Scalar.muli arg1 c32_i32_161
  let v604 : BitVec 32 := Scalar.addi v602 v603
  let c23_i32 : BitVec 32 := 23#32
  let v605 : BitVec 32 := Scalar.addi v604 c23_i32
  let v606 : Index := Scalar.indexCast v605
  ![v606.toNat]
def k2_mult24 (v607 : BitVec 32) : BitVec 32 :=
  v607

def k2_off48 (v607 : BitVec 32) : Fin 2 → Nat :=
  let c0_165 : Index := 0#32
  let v608 : BitVec 32 := v607
  let v621 : Index := Scalar.indexCast v608
  ![0, v621.toNat]

def k2_chk24 (v607 : BitVec 32) : Prop :=
  (128 ∣ (k2_mult24 v607).toNat) ∧
  (∀ a, (k2_off48 v607) a + S2x256.size a ≤ S2x100096.size a)
instance k2_chk24.dec : ∀ (v607 : BitVec 32), Decidable (k2_chk24 v607) := fun v607 => decidable_of_iff' _ (Iff.of_eq (k2_chk24.eq_1 v607))
theorem k2_mult24_dvd : ∀ (v607 : BitVec 32) (k2_hw24 : k2_chk24 v607), 128 ∣ (k2_mult24 v607).toNat := fun v607 k2_hw24 => k2_hw24.1
theorem k2_off48_inb : ∀ (v607 : BitVec 32) (k2_hw24 : k2_chk24 v607), ∀ a, (k2_off48 v607) a + S2x256.size a ≤ S2x100096.size a := fun v607 k2_hw24 => k2_hw24.2

def k2_off49 (i : grid2.Coords) : Fin 1 → Nat :=
  let arg0 : BitVec 32 := BitVec.ofNat 32 (i 0).val
  let c12896_i32_167 : BitVec 32 := 12896#32
  let v628 : BitVec 32 := Scalar.muli arg0 c12896_i32_167
  let arg1 : BitVec 32 := BitVec.ofNat 32 (i 1).val
  let c32_i32_168 : BitVec 32 := 32#32
  let v629 : BitVec 32 := Scalar.muli arg1 c32_i32_168
  let v630 : BitVec 32 := Scalar.addi v628 v629
  let c24_i32 : BitVec 32 := 24#32
  let v631 : BitVec 32 := Scalar.addi v630 c24_i32
  let v632 : Index := Scalar.indexCast v631
  ![v632.toNat]
def k2_mult25 (v633 : BitVec 32) : BitVec 32 :=
  v633

def k2_off50 (v633 : BitVec 32) : Fin 2 → Nat :=
  let c0_172 : Index := 0#32
  let v634 : BitVec 32 := v633
  let v647 : Index := Scalar.indexCast v634
  ![0, v647.toNat]

def k2_chk25 (v633 : BitVec 32) : Prop :=
  (128 ∣ (k2_mult25 v633).toNat) ∧
  (∀ a, (k2_off50 v633) a + S2x256.size a ≤ S2x100096.size a)
instance k2_chk25.dec : ∀ (v633 : BitVec 32), Decidable (k2_chk25 v633) := fun v633 => decidable_of_iff' _ (Iff.of_eq (k2_chk25.eq_1 v633))
theorem k2_mult25_dvd : ∀ (v633 : BitVec 32) (k2_hw25 : k2_chk25 v633), 128 ∣ (k2_mult25 v633).toNat := fun v633 k2_hw25 => k2_hw25.1
theorem k2_off50_inb : ∀ (v633 : BitVec 32) (k2_hw25 : k2_chk25 v633), ∀ a, (k2_off50 v633) a + S2x256.size a ≤ S2x100096.size a := fun v633 k2_hw25 => k2_hw25.2

def k2_off51 (i : grid2.Coords) : Fin 1 → Nat :=
  let arg0 : BitVec 32 := BitVec.ofNat 32 (i 0).val
  let c12896_i32_174 : BitVec 32 := 12896#32
  let v654 : BitVec 32 := Scalar.muli arg0 c12896_i32_174
  let arg1 : BitVec 32 := BitVec.ofNat 32 (i 1).val
  let c32_i32_175 : BitVec 32 := 32#32
  let v655 : BitVec 32 := Scalar.muli arg1 c32_i32_175
  let v656 : BitVec 32 := Scalar.addi v654 v655
  let c25_i32 : BitVec 32 := 25#32
  let v657 : BitVec 32 := Scalar.addi v656 c25_i32
  let v658 : Index := Scalar.indexCast v657
  ![v658.toNat]
def k2_mult26 (v659 : BitVec 32) : BitVec 32 :=
  v659

def k2_off52 (v659 : BitVec 32) : Fin 2 → Nat :=
  let c0_179 : Index := 0#32
  let v660 : BitVec 32 := v659
  let v673 : Index := Scalar.indexCast v660
  ![0, v673.toNat]

def k2_chk26 (v659 : BitVec 32) : Prop :=
  (128 ∣ (k2_mult26 v659).toNat) ∧
  (∀ a, (k2_off52 v659) a + S2x256.size a ≤ S2x100096.size a)
instance k2_chk26.dec : ∀ (v659 : BitVec 32), Decidable (k2_chk26 v659) := fun v659 => decidable_of_iff' _ (Iff.of_eq (k2_chk26.eq_1 v659))
theorem k2_mult26_dvd : ∀ (v659 : BitVec 32) (k2_hw26 : k2_chk26 v659), 128 ∣ (k2_mult26 v659).toNat := fun v659 k2_hw26 => k2_hw26.1
theorem k2_off52_inb : ∀ (v659 : BitVec 32) (k2_hw26 : k2_chk26 v659), ∀ a, (k2_off52 v659) a + S2x256.size a ≤ S2x100096.size a := fun v659 k2_hw26 => k2_hw26.2

def k2_off53 (i : grid2.Coords) : Fin 1 → Nat :=
  let arg0 : BitVec 32 := BitVec.ofNat 32 (i 0).val
  let c12896_i32_181 : BitVec 32 := 12896#32
  let v680 : BitVec 32 := Scalar.muli arg0 c12896_i32_181
  let arg1 : BitVec 32 := BitVec.ofNat 32 (i 1).val
  let c32_i32_182 : BitVec 32 := 32#32
  let v681 : BitVec 32 := Scalar.muli arg1 c32_i32_182
  let v682 : BitVec 32 := Scalar.addi v680 v681
  let c26_i32 : BitVec 32 := 26#32
  let v683 : BitVec 32 := Scalar.addi v682 c26_i32
  let v684 : Index := Scalar.indexCast v683
  ![v684.toNat]
def k2_mult27 (v685 : BitVec 32) : BitVec 32 :=
  v685

def k2_off54 (v685 : BitVec 32) : Fin 2 → Nat :=
  let c0_186 : Index := 0#32
  let v686 : BitVec 32 := v685
  let v699 : Index := Scalar.indexCast v686
  ![0, v699.toNat]

def k2_chk27 (v685 : BitVec 32) : Prop :=
  (128 ∣ (k2_mult27 v685).toNat) ∧
  (∀ a, (k2_off54 v685) a + S2x256.size a ≤ S2x100096.size a)
instance k2_chk27.dec : ∀ (v685 : BitVec 32), Decidable (k2_chk27 v685) := fun v685 => decidable_of_iff' _ (Iff.of_eq (k2_chk27.eq_1 v685))
theorem k2_mult27_dvd : ∀ (v685 : BitVec 32) (k2_hw27 : k2_chk27 v685), 128 ∣ (k2_mult27 v685).toNat := fun v685 k2_hw27 => k2_hw27.1
theorem k2_off54_inb : ∀ (v685 : BitVec 32) (k2_hw27 : k2_chk27 v685), ∀ a, (k2_off54 v685) a + S2x256.size a ≤ S2x100096.size a := fun v685 k2_hw27 => k2_hw27.2

def k2_off55 (i : grid2.Coords) : Fin 1 → Nat :=
  let arg0 : BitVec 32 := BitVec.ofNat 32 (i 0).val
  let c12896_i32_188 : BitVec 32 := 12896#32
  let v706 : BitVec 32 := Scalar.muli arg0 c12896_i32_188
  let arg1 : BitVec 32 := BitVec.ofNat 32 (i 1).val
  let c32_i32_189 : BitVec 32 := 32#32
  let v707 : BitVec 32 := Scalar.muli arg1 c32_i32_189
  let v708 : BitVec 32 := Scalar.addi v706 v707
  let c27_i32 : BitVec 32 := 27#32
  let v709 : BitVec 32 := Scalar.addi v708 c27_i32
  let v710 : Index := Scalar.indexCast v709
  ![v710.toNat]
def k2_mult28 (v711 : BitVec 32) : BitVec 32 :=
  v711

def k2_off56 (v711 : BitVec 32) : Fin 2 → Nat :=
  let c0_193 : Index := 0#32
  let v712 : BitVec 32 := v711
  let v725 : Index := Scalar.indexCast v712
  ![0, v725.toNat]

def k2_chk28 (v711 : BitVec 32) : Prop :=
  (128 ∣ (k2_mult28 v711).toNat) ∧
  (∀ a, (k2_off56 v711) a + S2x256.size a ≤ S2x100096.size a)
instance k2_chk28.dec : ∀ (v711 : BitVec 32), Decidable (k2_chk28 v711) := fun v711 => decidable_of_iff' _ (Iff.of_eq (k2_chk28.eq_1 v711))
theorem k2_mult28_dvd : ∀ (v711 : BitVec 32) (k2_hw28 : k2_chk28 v711), 128 ∣ (k2_mult28 v711).toNat := fun v711 k2_hw28 => k2_hw28.1
theorem k2_off56_inb : ∀ (v711 : BitVec 32) (k2_hw28 : k2_chk28 v711), ∀ a, (k2_off56 v711) a + S2x256.size a ≤ S2x100096.size a := fun v711 k2_hw28 => k2_hw28.2

def k2_off57 (i : grid2.Coords) : Fin 1 → Nat :=
  let arg0 : BitVec 32 := BitVec.ofNat 32 (i 0).val
  let c12896_i32_195 : BitVec 32 := 12896#32
  let v732 : BitVec 32 := Scalar.muli arg0 c12896_i32_195
  let arg1 : BitVec 32 := BitVec.ofNat 32 (i 1).val
  let c32_i32_196 : BitVec 32 := 32#32
  let v733 : BitVec 32 := Scalar.muli arg1 c32_i32_196
  let v734 : BitVec 32 := Scalar.addi v732 v733
  let c28_i32 : BitVec 32 := 28#32
  let v735 : BitVec 32 := Scalar.addi v734 c28_i32
  let v736 : Index := Scalar.indexCast v735
  ![v736.toNat]
def k2_mult29 (v737 : BitVec 32) : BitVec 32 :=
  v737

def k2_off58 (v737 : BitVec 32) : Fin 2 → Nat :=
  let c0_200 : Index := 0#32
  let v738 : BitVec 32 := v737
  let v751 : Index := Scalar.indexCast v738
  ![0, v751.toNat]

def k2_chk29 (v737 : BitVec 32) : Prop :=
  (128 ∣ (k2_mult29 v737).toNat) ∧
  (∀ a, (k2_off58 v737) a + S2x256.size a ≤ S2x100096.size a)
instance k2_chk29.dec : ∀ (v737 : BitVec 32), Decidable (k2_chk29 v737) := fun v737 => decidable_of_iff' _ (Iff.of_eq (k2_chk29.eq_1 v737))
theorem k2_mult29_dvd : ∀ (v737 : BitVec 32) (k2_hw29 : k2_chk29 v737), 128 ∣ (k2_mult29 v737).toNat := fun v737 k2_hw29 => k2_hw29.1
theorem k2_off58_inb : ∀ (v737 : BitVec 32) (k2_hw29 : k2_chk29 v737), ∀ a, (k2_off58 v737) a + S2x256.size a ≤ S2x100096.size a := fun v737 k2_hw29 => k2_hw29.2

def k2_off59 (i : grid2.Coords) : Fin 1 → Nat :=
  let arg0 : BitVec 32 := BitVec.ofNat 32 (i 0).val
  let c12896_i32_202 : BitVec 32 := 12896#32
  let v758 : BitVec 32 := Scalar.muli arg0 c12896_i32_202
  let arg1 : BitVec 32 := BitVec.ofNat 32 (i 1).val
  let c32_i32_203 : BitVec 32 := 32#32
  let v759 : BitVec 32 := Scalar.muli arg1 c32_i32_203
  let v760 : BitVec 32 := Scalar.addi v758 v759
  let c29_i32 : BitVec 32 := 29#32
  let v761 : BitVec 32 := Scalar.addi v760 c29_i32
  let v762 : Index := Scalar.indexCast v761
  ![v762.toNat]
def k2_mult30 (v763 : BitVec 32) : BitVec 32 :=
  v763

def k2_off60 (v763 : BitVec 32) : Fin 2 → Nat :=
  let c0_207 : Index := 0#32
  let v764 : BitVec 32 := v763
  let v777 : Index := Scalar.indexCast v764
  ![0, v777.toNat]

def k2_chk30 (v763 : BitVec 32) : Prop :=
  (128 ∣ (k2_mult30 v763).toNat) ∧
  (∀ a, (k2_off60 v763) a + S2x256.size a ≤ S2x100096.size a)
instance k2_chk30.dec : ∀ (v763 : BitVec 32), Decidable (k2_chk30 v763) := fun v763 => decidable_of_iff' _ (Iff.of_eq (k2_chk30.eq_1 v763))
theorem k2_mult30_dvd : ∀ (v763 : BitVec 32) (k2_hw30 : k2_chk30 v763), 128 ∣ (k2_mult30 v763).toNat := fun v763 k2_hw30 => k2_hw30.1
theorem k2_off60_inb : ∀ (v763 : BitVec 32) (k2_hw30 : k2_chk30 v763), ∀ a, (k2_off60 v763) a + S2x256.size a ≤ S2x100096.size a := fun v763 k2_hw30 => k2_hw30.2

def k2_off61 (i : grid2.Coords) : Fin 1 → Nat :=
  let arg0 : BitVec 32 := BitVec.ofNat 32 (i 0).val
  let c12896_i32_209 : BitVec 32 := 12896#32
  let v784 : BitVec 32 := Scalar.muli arg0 c12896_i32_209
  let arg1 : BitVec 32 := BitVec.ofNat 32 (i 1).val
  let c32_i32_210 : BitVec 32 := 32#32
  let v785 : BitVec 32 := Scalar.muli arg1 c32_i32_210
  let v786 : BitVec 32 := Scalar.addi v784 v785
  let c30_i32 : BitVec 32 := 30#32
  let v787 : BitVec 32 := Scalar.addi v786 c30_i32
  let v788 : Index := Scalar.indexCast v787
  ![v788.toNat]
def k2_mult31 (v789 : BitVec 32) : BitVec 32 :=
  v789

def k2_off62 (v789 : BitVec 32) : Fin 2 → Nat :=
  let c0_214 : Index := 0#32
  let v790 : BitVec 32 := v789
  let v803 : Index := Scalar.indexCast v790
  ![0, v803.toNat]

def k2_chk31 (v789 : BitVec 32) : Prop :=
  (128 ∣ (k2_mult31 v789).toNat) ∧
  (∀ a, (k2_off62 v789) a + S2x256.size a ≤ S2x100096.size a)
instance k2_chk31.dec : ∀ (v789 : BitVec 32), Decidable (k2_chk31 v789) := fun v789 => decidable_of_iff' _ (Iff.of_eq (k2_chk31.eq_1 v789))
theorem k2_mult31_dvd : ∀ (v789 : BitVec 32) (k2_hw31 : k2_chk31 v789), 128 ∣ (k2_mult31 v789).toNat := fun v789 k2_hw31 => k2_hw31.1
theorem k2_off62_inb : ∀ (v789 : BitVec 32) (k2_hw31 : k2_chk31 v789), ∀ a, (k2_off62 v789) a + S2x256.size a ≤ S2x100096.size a := fun v789 k2_hw31 => k2_hw31.2

def k2_off63 (i : grid2.Coords) : Fin 1 → Nat :=
  let arg0 : BitVec 32 := BitVec.ofNat 32 (i 0).val
  let c12896_i32_216 : BitVec 32 := 12896#32
  let v810 : BitVec 32 := Scalar.muli arg0 c12896_i32_216
  let arg1 : BitVec 32 := BitVec.ofNat 32 (i 1).val
  let c32_i32_217 : BitVec 32 := 32#32
  let v811 : BitVec 32 := Scalar.muli arg1 c32_i32_217
  let v812 : BitVec 32 := Scalar.addi v810 v811
  let c31_i32 : BitVec 32 := 31#32
  let v813 : BitVec 32 := Scalar.addi v812 c31_i32
  let v814 : Index := Scalar.indexCast v813
  ![v814.toNat]
def k2_mult32 (v815 : BitVec 32) : BitVec 32 :=
  v815

def k2_off64 (v815 : BitVec 32) : Fin 2 → Nat :=
  let c0_221 : Index := 0#32
  let v816 : BitVec 32 := v815
  let v829 : Index := Scalar.indexCast v816
  ![0, v829.toNat]

def k2_chk32 (v815 : BitVec 32) : Prop :=
  (128 ∣ (k2_mult32 v815).toNat) ∧
  (∀ a, (k2_off64 v815) a + S2x256.size a ≤ S2x100096.size a)
instance k2_chk32.dec : ∀ (v815 : BitVec 32), Decidable (k2_chk32 v815) := fun v815 => decidable_of_iff' _ (Iff.of_eq (k2_chk32.eq_1 v815))
theorem k2_mult32_dvd : ∀ (v815 : BitVec 32) (k2_hw32 : k2_chk32 v815), 128 ∣ (k2_mult32 v815).toNat := fun v815 k2_hw32 => k2_hw32.1
theorem k2_off64_inb : ∀ (v815 : BitVec 32) (k2_hw32 : k2_chk32 v815), ∀ a, (k2_off64 v815) a + S2x256.size a ≤ S2x100096.size a := fun v815 k2_hw32 => k2_hw32.2

def k2_cond2 (i : grid2.Coords) : BitVec 1 :=
  let arg1 : BitVec 32 := BitVec.ofNat 32 (i 1).val
  let c402_i32 : BitVec 32 := 402#32
  let v836 : BitVec 1 := Scalar.cmpi .eq arg1 c402_i32
  let v837 : BitVec 32 := Scalar.extui v836
  let c0_i32_223 : BitVec 32 := 0#32
  let v838 : BitVec 1 := Scalar.cmpi .ne v837 c0_i32_223
  v838

def cc2_transform_0 (i : grid2.Coords) : Fin 2 → Nat :=
  let arg0 : BitVec 32 := BitVec.ofNat 32 (i 0).val
  let arg1 : BitVec 32 := BitVec.ofNat 32 (i 1).val
  let c403_i32 : BitVec 32 := 403#32
  let v0 : BitVec 32 := Scalar.muli arg0 c403_i32
  let v1 : BitVec 32 := Scalar.addi v0 arg1
  let c0_i32 : BitVec 32 := 0#32
  let c0_i32_0 : BitVec 32 := 0#32
  ![c0_i32.toNat, v1.toNat]

def cc2_transform_1 (i : grid2.Coords) : Fin 1 → Nat :=
  let arg0 : BitVec 32 := BitVec.ofNat 32 (i 0).val
  let arg1 : BitVec 32 := BitVec.ofNat 32 (i 1).val
  let c403_i32 : BitVec 32 := 403#32
  let v0 : BitVec 32 := Scalar.muli arg0 c403_i32
  let v1 : BitVec 32 := Scalar.addi v0 arg1
  let c0_i32 : BitVec 32 := 0#32
  ![v1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S2x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2x100096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S_S1376 : S_.BroadcastsInDim S1376 (![] : Fin 0 → Fin S1376.rank)
  concatenates_S3300000_S1376_S3301376_d0 : Shape.Concatenates [S3300000, S1376] S3301376 0
  shapeCasts_S3301376_S25792x128 : S3301376.ShapeCasts S25792x128
  slices_S25792x128_S25792x1_0_0 : S25792x128.Slices ![0, 0] S25792x1
  shapeCasts_S25792x1_S25792 : S25792x1.ShapeCasts S25792
  bcast_S_S25792 : S_.BroadcastsInDim S25792 (![] : Fin 0 → Fin S25792.rank)
  bcast_S3301376_S3301376x1_0 : S3301376.BroadcastsInDim S3301376x1 (![0] : Fin 1 → Fin S3301376x1.rank)
  transposes_S3301376x1_S1x3301376_1_0 : S3301376x1.Transposes [1, 0] S1x3301376
  inb_S1x100096_S1x100096_0_0 : ∀ a, (![0, 0] : Fin 2 → Nat) a + S1x100096.size a ≤ S1x100096.size a
  h_S1x100096 : 0 < S1x100096.numel
  shapeCasts_S1x100096_S1x100096 : S1x100096.ShapeCasts S1x100096
  iota_S256x128_d0_w32 : S256x128.Iotas .tc 32 [0]
  numel1_S1 : S1.numel = 1
  inb_S1x4096_S1x128_0_0 : ∀ a, (![0, 0] : Fin 2 → Nat) a + S1x128.size a ≤ S1x4096.size a
  h_S1x128 : 0 < S1x128.numel
  shapeCasts_S1x128_S1x128 : S1x128.ShapeCasts S1x128
  inb_S4096_S128_0 : ∀ a, (![0] : Fin 1 → Nat) a + S128.size a ≤ S4096.size a
  h_S128 : 0 < S128.numel
  shapeCasts_S128_S128 : S128.ShapeCasts S128
  shapeCasts_S128_S1x128 : S128.ShapeCasts S1x128
  broadcasts_S1x128_S256x128 : S1x128.Broadcasts S256x128
  natLt_1_32 : 1 < 32
  h_S1x256 : 0 < S1x256.numel
  shapeCasts_S1x256_S1x256 : S1x256.ShapeCasts S1x256
  inb_S1x4096_S1x128_0_128 : ∀ a, (![0, 128] : Fin 2 → Nat) a + S1x128.size a ≤ S1x4096.size a
  inb_S4096_S128_128 : ∀ a, (![128] : Fin 1 → Nat) a + S128.size a ≤ S4096.size a
  inb_S1x4096_S1x128_0_256 : ∀ a, (![0, 256] : Fin 2 → Nat) a + S1x128.size a ≤ S1x4096.size a
  inb_S4096_S128_256 : ∀ a, (![256] : Fin 1 → Nat) a + S128.size a ≤ S4096.size a
  inb_S1x4096_S1x128_0_384 : ∀ a, (![0, 384] : Fin 2 → Nat) a + S1x128.size a ≤ S1x4096.size a
  inb_S4096_S128_384 : ∀ a, (![384] : Fin 1 → Nat) a + S128.size a ≤ S4096.size a
  inb_S1x4096_S1x128_0_512 : ∀ a, (![0, 512] : Fin 2 → Nat) a + S1x128.size a ≤ S1x4096.size a
  inb_S4096_S128_512 : ∀ a, (![512] : Fin 1 → Nat) a + S128.size a ≤ S4096.size a
  inb_S1x4096_S1x128_0_640 : ∀ a, (![0, 640] : Fin 2 → Nat) a + S1x128.size a ≤ S1x4096.size a
  inb_S4096_S128_640 : ∀ a, (![640] : Fin 1 → Nat) a + S128.size a ≤ S4096.size a
  inb_S1x4096_S1x128_0_768 : ∀ a, (![0, 768] : Fin 2 → Nat) a + S1x128.size a ≤ S1x4096.size a
  inb_S4096_S128_768 : ∀ a, (![768] : Fin 1 → Nat) a + S128.size a ≤ S4096.size a
  inb_S1x4096_S1x128_0_896 : ∀ a, (![0, 896] : Fin 2 → Nat) a + S1x128.size a ≤ S1x4096.size a
  inb_S4096_S128_896 : ∀ a, (![896] : Fin 1 → Nat) a + S128.size a ≤ S4096.size a
  inb_S1x4096_S1x128_0_1024 : ∀ a, (![0, 1024] : Fin 2 → Nat) a + S1x128.size a ≤ S1x4096.size a
  inb_S4096_S128_1024 : ∀ a, (![1024] : Fin 1 → Nat) a + S128.size a ≤ S4096.size a
  inb_S1x4096_S1x128_0_1152 : ∀ a, (![0, 1152] : Fin 2 → Nat) a + S1x128.size a ≤ S1x4096.size a
  inb_S4096_S128_1152 : ∀ a, (![1152] : Fin 1 → Nat) a + S128.size a ≤ S4096.size a
  inb_S1x4096_S1x128_0_1280 : ∀ a, (![0, 1280] : Fin 2 → Nat) a + S1x128.size a ≤ S1x4096.size a
  inb_S4096_S128_1280 : ∀ a, (![1280] : Fin 1 → Nat) a + S128.size a ≤ S4096.size a
  inb_S1x4096_S1x128_0_1408 : ∀ a, (![0, 1408] : Fin 2 → Nat) a + S1x128.size a ≤ S1x4096.size a
  inb_S4096_S128_1408 : ∀ a, (![1408] : Fin 1 → Nat) a + S128.size a ≤ S4096.size a
  inb_S1x4096_S1x128_0_1536 : ∀ a, (![0, 1536] : Fin 2 → Nat) a + S1x128.size a ≤ S1x4096.size a
  inb_S4096_S128_1536 : ∀ a, (![1536] : Fin 1 → Nat) a + S128.size a ≤ S4096.size a
  inb_S1x4096_S1x128_0_1664 : ∀ a, (![0, 1664] : Fin 2 → Nat) a + S1x128.size a ≤ S1x4096.size a
  inb_S4096_S128_1664 : ∀ a, (![1664] : Fin 1 → Nat) a + S128.size a ≤ S4096.size a
  inb_S1x4096_S1x128_0_1792 : ∀ a, (![0, 1792] : Fin 2 → Nat) a + S1x128.size a ≤ S1x4096.size a
  inb_S4096_S128_1792 : ∀ a, (![1792] : Fin 1 → Nat) a + S128.size a ≤ S4096.size a
  inb_S1x4096_S1x128_0_1920 : ∀ a, (![0, 1920] : Fin 2 → Nat) a + S1x128.size a ≤ S1x4096.size a
  inb_S4096_S128_1920 : ∀ a, (![1920] : Fin 1 → Nat) a + S128.size a ≤ S4096.size a
  inb_S1x4096_S1x128_0_2048 : ∀ a, (![0, 2048] : Fin 2 → Nat) a + S1x128.size a ≤ S1x4096.size a
  inb_S4096_S128_2048 : ∀ a, (![2048] : Fin 1 → Nat) a + S128.size a ≤ S4096.size a
  inb_S1x4096_S1x128_0_2176 : ∀ a, (![0, 2176] : Fin 2 → Nat) a + S1x128.size a ≤ S1x4096.size a
  inb_S4096_S128_2176 : ∀ a, (![2176] : Fin 1 → Nat) a + S128.size a ≤ S4096.size a
  inb_S1x4096_S1x128_0_2304 : ∀ a, (![0, 2304] : Fin 2 → Nat) a + S1x128.size a ≤ S1x4096.size a
  inb_S4096_S128_2304 : ∀ a, (![2304] : Fin 1 → Nat) a + S128.size a ≤ S4096.size a
  inb_S1x4096_S1x128_0_2432 : ∀ a, (![0, 2432] : Fin 2 → Nat) a + S1x128.size a ≤ S1x4096.size a
  inb_S4096_S128_2432 : ∀ a, (![2432] : Fin 1 → Nat) a + S128.size a ≤ S4096.size a
  inb_S1x4096_S1x128_0_2560 : ∀ a, (![0, 2560] : Fin 2 → Nat) a + S1x128.size a ≤ S1x4096.size a
  inb_S4096_S128_2560 : ∀ a, (![2560] : Fin 1 → Nat) a + S128.size a ≤ S4096.size a
  inb_S1x4096_S1x128_0_2688 : ∀ a, (![0, 2688] : Fin 2 → Nat) a + S1x128.size a ≤ S1x4096.size a
  inb_S4096_S128_2688 : ∀ a, (![2688] : Fin 1 → Nat) a + S128.size a ≤ S4096.size a
  inb_S1x4096_S1x128_0_2816 : ∀ a, (![0, 2816] : Fin 2 → Nat) a + S1x128.size a ≤ S1x4096.size a
  inb_S4096_S128_2816 : ∀ a, (![2816] : Fin 1 → Nat) a + S128.size a ≤ S4096.size a
  inb_S1x4096_S1x128_0_2944 : ∀ a, (![0, 2944] : Fin 2 → Nat) a + S1x128.size a ≤ S1x4096.size a
  inb_S4096_S128_2944 : ∀ a, (![2944] : Fin 1 → Nat) a + S128.size a ≤ S4096.size a
  inb_S1x4096_S1x128_0_3072 : ∀ a, (![0, 3072] : Fin 2 → Nat) a + S1x128.size a ≤ S1x4096.size a
  inb_S4096_S128_3072 : ∀ a, (![3072] : Fin 1 → Nat) a + S128.size a ≤ S4096.size a
  inb_S1x4096_S1x128_0_3200 : ∀ a, (![0, 3200] : Fin 2 → Nat) a + S1x128.size a ≤ S1x4096.size a
  inb_S4096_S128_3200 : ∀ a, (![3200] : Fin 1 → Nat) a + S128.size a ≤ S4096.size a
  inb_S1x4096_S1x128_0_3328 : ∀ a, (![0, 3328] : Fin 2 → Nat) a + S1x128.size a ≤ S1x4096.size a
  inb_S4096_S128_3328 : ∀ a, (![3328] : Fin 1 → Nat) a + S128.size a ≤ S4096.size a
  inb_S1x4096_S1x128_0_3456 : ∀ a, (![0, 3456] : Fin 2 → Nat) a + S1x128.size a ≤ S1x4096.size a
  inb_S4096_S128_3456 : ∀ a, (![3456] : Fin 1 → Nat) a + S128.size a ≤ S4096.size a
  inb_S1x4096_S1x128_0_3584 : ∀ a, (![0, 3584] : Fin 2 → Nat) a + S1x128.size a ≤ S1x4096.size a
  inb_S4096_S128_3584 : ∀ a, (![3584] : Fin 1 → Nat) a + S128.size a ≤ S4096.size a
  inb_S1x4096_S1x128_0_3712 : ∀ a, (![0, 3712] : Fin 2 → Nat) a + S1x128.size a ≤ S1x4096.size a
  inb_S4096_S128_3712 : ∀ a, (![3712] : Fin 1 → Nat) a + S128.size a ≤ S4096.size a
  inb_S1x4096_S1x128_0_3840 : ∀ a, (![0, 3840] : Fin 2 → Nat) a + S1x128.size a ≤ S1x4096.size a
  inb_S4096_S128_3840 : ∀ a, (![3840] : Fin 1 → Nat) a + S128.size a ≤ S4096.size a
  inb_S1x4096_S1x128_0_3968 : ∀ a, (![0, 3968] : Fin 2 → Nat) a + S1x128.size a ≤ S1x4096.size a
  inb_S4096_S128_3968 : ∀ a, (![3968] : Fin 1 → Nat) a + S128.size a ≤ S4096.size a
  slices_S1x200192_S1x100096_0_0 : S1x200192.Slices ![0, 0] S1x100096
  slices_S1x200192_S1x100096_0_100096 : S1x200192.Slices ![0, 100096] S1x100096
  slices_S1x100096_S1x100000_0_0 : S1x100096.Slices ![0, 0] S1x100000
  transposes_S1x100000_S100000x1_1_0 : S1x100000.Transposes [1, 0] S100000x1
  shapeCasts_S100000x1_S100000 : S100000x1.ShapeCasts S100000
  bcast_S100000_S100000x1_0 : S100000.BroadcastsInDim S100000x1 (![0] : Fin 1 → Fin S100000x1.rank)
  bcast_S_S3301376 : S_.BroadcastsInDim S3301376 (![] : Fin 0 → Fin S3301376.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x2_0_1 : S100000x1.BroadcastsInDim S100000x2 (![0, 1] : Fin 2 → Fin S100000x2.rank)
  bcast_S3301376x1_S3301376x2_0_1 : S3301376x1.BroadcastsInDim S3301376x2 (![0, 1] : Fin 2 → Fin S3301376x2.rank)
  transposes_S3301376x2_S2x3301376_1_0 : S3301376x2.Transposes [1, 0] S2x3301376
  inb_S2x100096_S2x100096_0_0 : ∀ a, (![0, 0] : Fin 2 → Nat) a + S2x100096.size a ≤ S2x100096.size a
  h_S2x100096 : 0 < S2x100096.numel
  shapeCasts_S2x100096_S2x100096 : S2x100096.ShapeCasts S2x100096
  inb_S2x4096_S2x128_0_0 : ∀ a, (![0, 0] : Fin 2 → Nat) a + S2x128.size a ≤ S2x4096.size a
  h_S2x128 : 0 < S2x128.numel
  shapeCasts_S2x128_S2x128 : S2x128.ShapeCasts S2x128
  h_S2x256 : 0 < S2x256.numel
  shapeCasts_S2x256_S2x256 : S2x256.ShapeCasts S2x256
  inb_S2x4096_S2x128_0_128 : ∀ a, (![0, 128] : Fin 2 → Nat) a + S2x128.size a ≤ S2x4096.size a
  inb_S2x4096_S2x128_0_256 : ∀ a, (![0, 256] : Fin 2 → Nat) a + S2x128.size a ≤ S2x4096.size a
  inb_S2x4096_S2x128_0_384 : ∀ a, (![0, 384] : Fin 2 → Nat) a + S2x128.size a ≤ S2x4096.size a
  inb_S2x4096_S2x128_0_512 : ∀ a, (![0, 512] : Fin 2 → Nat) a + S2x128.size a ≤ S2x4096.size a
  inb_S2x4096_S2x128_0_640 : ∀ a, (![0, 640] : Fin 2 → Nat) a + S2x128.size a ≤ S2x4096.size a
  inb_S2x4096_S2x128_0_768 : ∀ a, (![0, 768] : Fin 2 → Nat) a + S2x128.size a ≤ S2x4096.size a
  inb_S2x4096_S2x128_0_896 : ∀ a, (![0, 896] : Fin 2 → Nat) a + S2x128.size a ≤ S2x4096.size a
  inb_S2x4096_S2x128_0_1024 : ∀ a, (![0, 1024] : Fin 2 → Nat) a + S2x128.size a ≤ S2x4096.size a
  inb_S2x4096_S2x128_0_1152 : ∀ a, (![0, 1152] : Fin 2 → Nat) a + S2x128.size a ≤ S2x4096.size a
  inb_S2x4096_S2x128_0_1280 : ∀ a, (![0, 1280] : Fin 2 → Nat) a + S2x128.size a ≤ S2x4096.size a
  inb_S2x4096_S2x128_0_1408 : ∀ a, (![0, 1408] : Fin 2 → Nat) a + S2x128.size a ≤ S2x4096.size a
  inb_S2x4096_S2x128_0_1536 : ∀ a, (![0, 1536] : Fin 2 → Nat) a + S2x128.size a ≤ S2x4096.size a
  inb_S2x4096_S2x128_0_1664 : ∀ a, (![0, 1664] : Fin 2 → Nat) a + S2x128.size a ≤ S2x4096.size a
  inb_S2x4096_S2x128_0_1792 : ∀ a, (![0, 1792] : Fin 2 → Nat) a + S2x128.size a ≤ S2x4096.size a
  inb_S2x4096_S2x128_0_1920 : ∀ a, (![0, 1920] : Fin 2 → Nat) a + S2x128.size a ≤ S2x4096.size a
  inb_S2x4096_S2x128_0_2048 : ∀ a, (![0, 2048] : Fin 2 → Nat) a + S2x128.size a ≤ S2x4096.size a
  inb_S2x4096_S2x128_0_2176 : ∀ a, (![0, 2176] : Fin 2 → Nat) a + S2x128.size a ≤ S2x4096.size a
  inb_S2x4096_S2x128_0_2304 : ∀ a, (![0, 2304] : Fin 2 → Nat) a + S2x128.size a ≤ S2x4096.size a
  inb_S2x4096_S2x128_0_2432 : ∀ a, (![0, 2432] : Fin 2 → Nat) a + S2x128.size a ≤ S2x4096.size a
  inb_S2x4096_S2x128_0_2560 : ∀ a, (![0, 2560] : Fin 2 → Nat) a + S2x128.size a ≤ S2x4096.size a
  inb_S2x4096_S2x128_0_2688 : ∀ a, (![0, 2688] : Fin 2 → Nat) a + S2x128.size a ≤ S2x4096.size a
  inb_S2x4096_S2x128_0_2816 : ∀ a, (![0, 2816] : Fin 2 → Nat) a + S2x128.size a ≤ S2x4096.size a
  inb_S2x4096_S2x128_0_2944 : ∀ a, (![0, 2944] : Fin 2 → Nat) a + S2x128.size a ≤ S2x4096.size a
  inb_S2x4096_S2x128_0_3072 : ∀ a, (![0, 3072] : Fin 2 → Nat) a + S2x128.size a ≤ S2x4096.size a
  inb_S2x4096_S2x128_0_3200 : ∀ a, (![0, 3200] : Fin 2 → Nat) a + S2x128.size a ≤ S2x4096.size a
  inb_S2x4096_S2x128_0_3328 : ∀ a, (![0, 3328] : Fin 2 → Nat) a + S2x128.size a ≤ S2x4096.size a
  inb_S2x4096_S2x128_0_3456 : ∀ a, (![0, 3456] : Fin 2 → Nat) a + S2x128.size a ≤ S2x4096.size a
  inb_S2x4096_S2x128_0_3584 : ∀ a, (![0, 3584] : Fin 2 → Nat) a + S2x128.size a ≤ S2x4096.size a
  inb_S2x4096_S2x128_0_3712 : ∀ a, (![0, 3712] : Fin 2 → Nat) a + S2x128.size a ≤ S2x4096.size a
  inb_S2x4096_S2x128_0_3840 : ∀ a, (![0, 3840] : Fin 2 → Nat) a + S2x128.size a ≤ S2x4096.size a
  inb_S2x4096_S2x128_0_3968 : ∀ a, (![0, 3968] : Fin 2 → Nat) a + S2x128.size a ≤ S2x4096.size a
  slices_S2x200192_S2x100096_0_0 : S2x200192.Slices ![0, 0] S2x100096
  slices_S2x200192_S2x100096_0_100096 : S2x200192.Slices ![0, 100096] S2x100096
  slices_S2x100096_S2x100000_0_0 : S2x100096.Slices ![0, 0] S2x100000
  transposes_S2x100000_S100000x2_1_0 : S2x100000.Transposes [1, 0] S100000x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  gather_S3300000_S3300000x1_S3300000_n_0_n_n_0_1_1_wf : GatherDims.WF S3300000 S3300000x1 S3300000 [] [0] [] [0] [] 1 ![1]
  dot_S1x128_S256x128_S1x256_1_1_0_0_n_n_wf : DotDims.WF S1x128 S256x128 S1x256 [1] [1] [0] [0] [] []
  gather_S100000x1_S3301376x1_S3301376x1_1_0_n_n_0_1_11_wf : GatherDims.WF S100000x1 S3301376x1 S3301376x1 [1] [0] [] [0] [] 1 ![1, 1]
  dot_S100000x1_S1x16_S100000x16_1_0_0_1_n_n_wf : DotDims.WF S100000x1 S1x16 S100000x16 [1] [0] [0] [1] [] []
  dot_S100000x16_S16x2_S100000x2_1_0_0_1_n_n_wf : DotDims.WF S100000x16 S16x2 S100000x2 [1] [0] [0] [1] [] []
  gather_S100000x2_S3301376x1_S3301376x2_1_0_n_n_0_1_12_wf : GatherDims.WF S100000x2 S3301376x1 S3301376x2 [1] [0] [] [0] [] 1 ![1, 2]
  dot_S2x128_S256x128_S2x256_1_1_0_0_n_n_wf : DotDims.WF S2x128 S256x128 S2x256 [1] [1] [0] [0] [] []
  hrank0 : 0 < grid0.rank
  k0_off1_inb : ∀ i : grid0.Coords, ∀ a, (k0_off1 i) a + S1.size a ≤ S25792.size a
  k0_off3_inb : ∀ i : grid0.Coords, ∀ a, (k0_off3 i) a + S1.size a ≤ S25792.size a
  k0_off5_inb : ∀ i : grid0.Coords, ∀ a, (k0_off5 i) a + S1.size a ≤ S25792.size a
  k0_off7_inb : ∀ i : grid0.Coords, ∀ a, (k0_off7 i) a + S1.size a ≤ S25792.size a
  k0_off9_inb : ∀ i : grid0.Coords, ∀ a, (k0_off9 i) a + S1.size a ≤ S25792.size a
  k0_off11_inb : ∀ i : grid0.Coords, ∀ a, (k0_off11 i) a + S1.size a ≤ S25792.size a
  k0_off13_inb : ∀ i : grid0.Coords, ∀ a, (k0_off13 i) a + S1.size a ≤ S25792.size a
  k0_off15_inb : ∀ i : grid0.Coords, ∀ a, (k0_off15 i) a + S1.size a ≤ S25792.size a
  k0_off17_inb : ∀ i : grid0.Coords, ∀ a, (k0_off17 i) a + S1.size a ≤ S25792.size a
  k0_off19_inb : ∀ i : grid0.Coords, ∀ a, (k0_off19 i) a + S1.size a ≤ S25792.size a
  k0_off21_inb : ∀ i : grid0.Coords, ∀ a, (k0_off21 i) a + S1.size a ≤ S25792.size a
  k0_off23_inb : ∀ i : grid0.Coords, ∀ a, (k0_off23 i) a + S1.size a ≤ S25792.size a
  k0_off25_inb : ∀ i : grid0.Coords, ∀ a, (k0_off25 i) a + S1.size a ≤ S25792.size a
  k0_off27_inb : ∀ i : grid0.Coords, ∀ a, (k0_off27 i) a + S1.size a ≤ S25792.size a
  k0_off29_inb : ∀ i : grid0.Coords, ∀ a, (k0_off29 i) a + S1.size a ≤ S25792.size a
  k0_off31_inb : ∀ i : grid0.Coords, ∀ a, (k0_off31 i) a + S1.size a ≤ S25792.size a
  k0_off33_inb : ∀ i : grid0.Coords, ∀ a, (k0_off33 i) a + S1.size a ≤ S25792.size a
  k0_off35_inb : ∀ i : grid0.Coords, ∀ a, (k0_off35 i) a + S1.size a ≤ S25792.size a
  k0_off37_inb : ∀ i : grid0.Coords, ∀ a, (k0_off37 i) a + S1.size a ≤ S25792.size a
  k0_off39_inb : ∀ i : grid0.Coords, ∀ a, (k0_off39 i) a + S1.size a ≤ S25792.size a
  k0_off41_inb : ∀ i : grid0.Coords, ∀ a, (k0_off41 i) a + S1.size a ≤ S25792.size a
  k0_off43_inb : ∀ i : grid0.Coords, ∀ a, (k0_off43 i) a + S1.size a ≤ S25792.size a
  k0_off45_inb : ∀ i : grid0.Coords, ∀ a, (k0_off45 i) a + S1.size a ≤ S25792.size a
  k0_off47_inb : ∀ i : grid0.Coords, ∀ a, (k0_off47 i) a + S1.size a ≤ S25792.size a
  k0_off49_inb : ∀ i : grid0.Coords, ∀ a, (k0_off49 i) a + S1.size a ≤ S25792.size a
  k0_off51_inb : ∀ i : grid0.Coords, ∀ a, (k0_off51 i) a + S1.size a ≤ S25792.size a
  k0_off53_inb : ∀ i : grid0.Coords, ∀ a, (k0_off53 i) a + S1.size a ≤ S25792.size a
  k0_off55_inb : ∀ i : grid0.Coords, ∀ a, (k0_off55 i) a + S1.size a ≤ S25792.size a
  k0_off57_inb : ∀ i : grid0.Coords, ∀ a, (k0_off57 i) a + S1.size a ≤ S25792.size a
  k0_off59_inb : ∀ i : grid0.Coords, ∀ a, (k0_off59 i) a + S1.size a ≤ S25792.size a
  k0_off61_inb : ∀ i : grid0.Coords, ∀ a, (k0_off61 i) a + S1.size a ≤ S25792.size a
  k0_off63_inb : ∀ i : grid0.Coords, ∀ a, (k0_off63 i) a + S1.size a ≤ S25792.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x3301376.size a
  hwx0_0 : ∀ i : grid0.Coords, EltTy.bits .f32 = 32 ∨ (Rect.block (s := S1x3301376) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S3301376.size a
  hwx0_1 : ∀ i : grid0.Coords, EltTy.bits .i32 = 32 ∨ (Rect.block (s := S3301376) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100096.size a ≤ S1x200192.size a
  hwx0_2 : ∀ i : grid0.Coords, EltTy.bits .f32 = 32 ∨ (Rect.block (s := S1x200192) S1x100096.size (cc0_transform_2 i) (hinb0_2 i)).WholeWords (EltTy.packing .f32)
  hrank1 : 0 < grid1.rank
  k1_off1_inb : ∀ i : grid1.Coords, ∀ a, (k1_off1 i) a + S1.size a ≤ S25792.size a
  k1_off3_inb : ∀ i : grid1.Coords, ∀ a, (k1_off3 i) a + S1.size a ≤ S25792.size a
  k1_off5_inb : ∀ i : grid1.Coords, ∀ a, (k1_off5 i) a + S1.size a ≤ S25792.size a
  k1_off7_inb : ∀ i : grid1.Coords, ∀ a, (k1_off7 i) a + S1.size a ≤ S25792.size a
  k1_off9_inb : ∀ i : grid1.Coords, ∀ a, (k1_off9 i) a + S1.size a ≤ S25792.size a
  k1_off11_inb : ∀ i : grid1.Coords, ∀ a, (k1_off11 i) a + S1.size a ≤ S25792.size a
  k1_off13_inb : ∀ i : grid1.Coords, ∀ a, (k1_off13 i) a + S1.size a ≤ S25792.size a
  k1_off15_inb : ∀ i : grid1.Coords, ∀ a, (k1_off15 i) a + S1.size a ≤ S25792.size a
  k1_off17_inb : ∀ i : grid1.Coords, ∀ a, (k1_off17 i) a + S1.size a ≤ S25792.size a
  k1_off19_inb : ∀ i : grid1.Coords, ∀ a, (k1_off19 i) a + S1.size a ≤ S25792.size a
  k1_off21_inb : ∀ i : grid1.Coords, ∀ a, (k1_off21 i) a + S1.size a ≤ S25792.size a
  k1_off23_inb : ∀ i : grid1.Coords, ∀ a, (k1_off23 i) a + S1.size a ≤ S25792.size a
  k1_off25_inb : ∀ i : grid1.Coords, ∀ a, (k1_off25 i) a + S1.size a ≤ S25792.size a
  k1_off27_inb : ∀ i : grid1.Coords, ∀ a, (k1_off27 i) a + S1.size a ≤ S25792.size a
  k1_off29_inb : ∀ i : grid1.Coords, ∀ a, (k1_off29 i) a + S1.size a ≤ S25792.size a
  k1_off31_inb : ∀ i : grid1.Coords, ∀ a, (k1_off31 i) a + S1.size a ≤ S25792.size a
  k1_off33_inb : ∀ i : grid1.Coords, ∀ a, (k1_off33 i) a + S1.size a ≤ S25792.size a
  k1_off35_inb : ∀ i : grid1.Coords, ∀ a, (k1_off35 i) a + S1.size a ≤ S25792.size a
  k1_off37_inb : ∀ i : grid1.Coords, ∀ a, (k1_off37 i) a + S1.size a ≤ S25792.size a
  k1_off39_inb : ∀ i : grid1.Coords, ∀ a, (k1_off39 i) a + S1.size a ≤ S25792.size a
  k1_off41_inb : ∀ i : grid1.Coords, ∀ a, (k1_off41 i) a + S1.size a ≤ S25792.size a
  k1_off43_inb : ∀ i : grid1.Coords, ∀ a, (k1_off43 i) a + S1.size a ≤ S25792.size a
  k1_off45_inb : ∀ i : grid1.Coords, ∀ a, (k1_off45 i) a + S1.size a ≤ S25792.size a
  k1_off47_inb : ∀ i : grid1.Coords, ∀ a, (k1_off47 i) a + S1.size a ≤ S25792.size a
  k1_off49_inb : ∀ i : grid1.Coords, ∀ a, (k1_off49 i) a + S1.size a ≤ S25792.size a
  k1_off51_inb : ∀ i : grid1.Coords, ∀ a, (k1_off51 i) a + S1.size a ≤ S25792.size a
  k1_off53_inb : ∀ i : grid1.Coords, ∀ a, (k1_off53 i) a + S1.size a ≤ S25792.size a
  k1_off55_inb : ∀ i : grid1.Coords, ∀ a, (k1_off55 i) a + S1.size a ≤ S25792.size a
  k1_off57_inb : ∀ i : grid1.Coords, ∀ a, (k1_off57 i) a + S1.size a ≤ S25792.size a
  k1_off59_inb : ∀ i : grid1.Coords, ∀ a, (k1_off59 i) a + S1.size a ≤ S25792.size a
  k1_off61_inb : ∀ i : grid1.Coords, ∀ a, (k1_off61 i) a + S1.size a ≤ S25792.size a
  k1_off63_inb : ∀ i : grid1.Coords, ∀ a, (k1_off63 i) a + S1.size a ≤ S25792.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x3301376.size a
  hwx1_0 : ∀ i : grid1.Coords, EltTy.bits .f32 = 32 ∨ (Rect.block (s := S1x3301376) S1x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S3301376.size a
  hwx1_1 : ∀ i : grid1.Coords, EltTy.bits .i32 = 32 ∨ (Rect.block (s := S3301376) S4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x100096.size a ≤ S1x200192.size a
  hwx1_2 : ∀ i : grid1.Coords, EltTy.bits .f32 = 32 ∨ (Rect.block (s := S1x200192) S1x100096.size (cc1_transform_2 i) (hinb1_2 i)).WholeWords (EltTy.packing .f32)
  hrank2 : 0 < grid2.rank
  k2_off1_inb : ∀ i : grid2.Coords, ∀ a, (k2_off1 i) a + S1.size a ≤ S25792.size a
  k2_off3_inb : ∀ i : grid2.Coords, ∀ a, (k2_off3 i) a + S1.size a ≤ S25792.size a
  k2_off5_inb : ∀ i : grid2.Coords, ∀ a, (k2_off5 i) a + S1.size a ≤ S25792.size a
  k2_off7_inb : ∀ i : grid2.Coords, ∀ a, (k2_off7 i) a + S1.size a ≤ S25792.size a
  k2_off9_inb : ∀ i : grid2.Coords, ∀ a, (k2_off9 i) a + S1.size a ≤ S25792.size a
  k2_off11_inb : ∀ i : grid2.Coords, ∀ a, (k2_off11 i) a + S1.size a ≤ S25792.size a
  k2_off13_inb : ∀ i : grid2.Coords, ∀ a, (k2_off13 i) a + S1.size a ≤ S25792.size a
  k2_off15_inb : ∀ i : grid2.Coords, ∀ a, (k2_off15 i) a + S1.size a ≤ S25792.size a
  k2_off17_inb : ∀ i : grid2.Coords, ∀ a, (k2_off17 i) a + S1.size a ≤ S25792.size a
  k2_off19_inb : ∀ i : grid2.Coords, ∀ a, (k2_off19 i) a + S1.size a ≤ S25792.size a
  k2_off21_inb : ∀ i : grid2.Coords, ∀ a, (k2_off21 i) a + S1.size a ≤ S25792.size a
  k2_off23_inb : ∀ i : grid2.Coords, ∀ a, (k2_off23 i) a + S1.size a ≤ S25792.size a
  k2_off25_inb : ∀ i : grid2.Coords, ∀ a, (k2_off25 i) a + S1.size a ≤ S25792.size a
  k2_off27_inb : ∀ i : grid2.Coords, ∀ a, (k2_off27 i) a + S1.size a ≤ S25792.size a
  k2_off29_inb : ∀ i : grid2.Coords, ∀ a, (k2_off29 i) a + S1.size a ≤ S25792.size a
  k2_off31_inb : ∀ i : grid2.Coords, ∀ a, (k2_off31 i) a + S1.size a ≤ S25792.size a
  k2_off33_inb : ∀ i : grid2.Coords, ∀ a, (k2_off33 i) a + S1.size a ≤ S25792.size a
  k2_off35_inb : ∀ i : grid2.Coords, ∀ a, (k2_off35 i) a + S1.size a ≤ S25792.size a
  k2_off37_inb : ∀ i : grid2.Coords, ∀ a, (k2_off37 i) a + S1.size a ≤ S25792.size a
  k2_off39_inb : ∀ i : grid2.Coords, ∀ a, (k2_off39 i) a + S1.size a ≤ S25792.size a
  k2_off41_inb : ∀ i : grid2.Coords, ∀ a, (k2_off41 i) a + S1.size a ≤ S25792.size a
  k2_off43_inb : ∀ i : grid2.Coords, ∀ a, (k2_off43 i) a + S1.size a ≤ S25792.size a
  k2_off45_inb : ∀ i : grid2.Coords, ∀ a, (k2_off45 i) a + S1.size a ≤ S25792.size a
  k2_off47_inb : ∀ i : grid2.Coords, ∀ a, (k2_off47 i) a + S1.size a ≤ S25792.size a
  k2_off49_inb : ∀ i : grid2.Coords, ∀ a, (k2_off49 i) a + S1.size a ≤ S25792.size a
  k2_off51_inb : ∀ i : grid2.Coords, ∀ a, (k2_off51 i) a + S1.size a ≤ S25792.size a
  k2_off53_inb : ∀ i : grid2.Coords, ∀ a, (k2_off53 i) a + S1.size a ≤ S25792.size a
  k2_off55_inb : ∀ i : grid2.Coords, ∀ a, (k2_off55 i) a + S1.size a ≤ S25792.size a
  k2_off57_inb : ∀ i : grid2.Coords, ∀ a, (k2_off57 i) a + S1.size a ≤ S25792.size a
  k2_off59_inb : ∀ i : grid2.Coords, ∀ a, (k2_off59 i) a + S1.size a ≤ S25792.size a
  k2_off61_inb : ∀ i : grid2.Coords, ∀ a, (k2_off61 i) a + S1.size a ≤ S25792.size a
  k2_off63_inb : ∀ i : grid2.Coords, ∀ a, (k2_off63 i) a + S1.size a ≤ S25792.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x4096.size a ≤ S2x3301376.size a
  hwx2_0 : ∀ i : grid2.Coords, EltTy.bits .f32 = 32 ∨ (Rect.block (s := S2x3301376) S2x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096.size a ≤ S3301376.size a
  hwx2_1 : ∀ i : grid2.Coords, EltTy.bits .i32 = 32 ∨ (Rect.block (s := S3301376) S4096.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2x100096.size a ≤ S2x200192.size a
  hwx2_2 : ∀ i : grid2.Coords, EltTy.bits .f32 = 32 ∨ (Rect.block (s := S2x200192) S2x100096.size (cc2_transform_2 i) (hinb2_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S3300000_S3300000x1_S3300000_n_0_n_n_0_1_1 : GatherDims S3300000 S3300000x1 S3300000 where
  offsetDims := []
  collapsedSliceDims := [0]
  operandBatchingDims := []
  startIndicesBatchingDims := []
  startIndexMap := [0]
  indexVectorDim := 1
  sliceSizes := ![1]
  wf := gather_S3300000_S3300000x1_S3300000_n_0_n_n_0_1_1_wf
def dot_S1x128_S256x128_S1x256_1_1_0_0_n_n : DotDims S1x128 S256x128 S1x256 where
  lhsContracting := [1]
  rhsContracting := [1]
  lhsNonContracting := [0]
  rhsNonContracting := [0]
  lhsBatch := []
  rhsBatch := []
  wf := dot_S1x128_S256x128_S1x256_1_1_0_0_n_n_wf
def gather_S100000x1_S3301376x1_S3301376x1_1_0_n_n_0_1_11 : GatherDims S100000x1 S3301376x1 S3301376x1 where
  offsetDims := [1]
  collapsedSliceDims := [0]
  operandBatchingDims := []
  startIndicesBatchingDims := []
  startIndexMap := [0]
  indexVectorDim := 1
  sliceSizes := ![1, 1]
  wf := gather_S100000x1_S3301376x1_S3301376x1_1_0_n_n_0_1_11_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3301376x1_S3301376x2_1_0_n_n_0_1_12 : GatherDims S100000x2 S3301376x1 S3301376x2 where
  offsetDims := [1]
  collapsedSliceDims := [0]
  operandBatchingDims := []
  startIndicesBatchingDims := []
  startIndexMap := [0]
  indexVectorDim := 1
  sliceSizes := ![1, 2]
  wf := gather_S100000x2_S3301376x1_S3301376x2_1_0_n_n_0_1_12_wf
def dot_S2x128_S256x128_S2x256_1_1_0_0_n_n : DotDims S2x128 S256x128 S2x256 where
  lhsContracting := [1]
  rhsContracting := [1]
  lhsNonContracting := [0]
  rhsNonContracting := [0]
  lhsBatch := []
  rhsBatch := []
  wf := dot_S2x128_S256x128_S2x256_1_1_0_0_n_n_wf

abbrev spec0_0 : Pipeline.WinSpec sig grid0.rank :=
  Pipeline.WinSpec.ofSpec (Memref.whole main_v46) S1x4096.size reads0_0 false false 2 stage0_0 sem0_0 nbuf0_0 hstage0_0

abbrev spec0_1 : Pipeline.WinSpec sig grid0.rank :=
  Pipeline.WinSpec.ofSpec (Memref.whole main_v34) S4096.size reads0_1 false false 2 stage0_1 sem0_1 nbuf0_1 hstage0_1

abbrev spec0_2 : Pipeline.WinSpec sig grid0.rank :=
  Pipeline.WinSpec.ofSpec (Memref.whole main_v47) S1x100096.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev spec1_0 : Pipeline.WinSpec sig grid1.rank :=
  Pipeline.WinSpec.ofSpec (Memref.whole main_v69) S1x4096.size reads1_0 false false 2 stage1_0 sem1_0 nbuf1_0 hstage1_0

abbrev spec1_1 : Pipeline.WinSpec sig grid1.rank :=
  Pipeline.WinSpec.ofSpec (Memref.whole main_v34) S4096.size reads1_1 false false 2 stage1_1 sem1_1 nbuf1_1 hstage1_1

abbrev spec1_2 : Pipeline.WinSpec sig grid1.rank :=
  Pipeline.WinSpec.ofSpec (Memref.whole main_v70) S1x100096.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev spec2_0 : Pipeline.WinSpec sig grid2.rank :=
  Pipeline.WinSpec.ofSpec (Memref.whole main_v97) S2x4096.size reads2_0 false false 2 stage2_0 sem2_0 nbuf2_0 hstage2_0

abbrev spec2_1 : Pipeline.WinSpec sig grid2.rank :=
  Pipeline.WinSpec.ofSpec (Memref.whole main_v34) S4096.size reads2_1 false false 2 stage2_1 sem2_1 nbuf2_1 hstage2_1

abbrev spec2_2 : Pipeline.WinSpec sig grid2.rank :=
  Pipeline.WinSpec.ofSpec (Memref.whole main_v98) S2x100096.size reads2_2 true false 2 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_0 | 1 => cc2_transform_1 | 2 => cc2_transform_2 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | ⟨_ + 3, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | 2 => hwx2_2 | ⟨_ + 3, h⟩ => absurd h (Nat.not_lt.2 (Nat.le_add_left _ _))
abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole

variable [Facts]
-- ==== ReferenceIdeal.lean ====
abbrev S100000x1 : Shape := ⟨2, ![100000, 1]⟩
abbrev S2x3200000 : Shape := ⟨2, ![2, 3200000]⟩
abbrev S3200000 : Shape := ⟨1, ![3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 107
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S3200000, .f32⟩
  | .hbm, ⟨3, _⟩ => ⟨S1x16, .f32⟩
  | .hbm, ⟨4, _⟩ => ⟨S16, .f32⟩
  | .hbm, ⟨5, _⟩ => ⟨S16x2, .f32⟩
  | .hbm, ⟨6, _⟩ => ⟨S2, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x2, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x2, .f32⟩
  | .hbm, ⟨83, _⟩ => ⟨S3300000x2, .f32⟩
  | .hbm, ⟨84, _⟩ => ⟨S3300000x2, .f32⟩
  | .hbm, ⟨85, _⟩ => ⟨S_, .f32⟩
  | .hbm, ⟨86, _⟩ => ⟨S100000x2, .f32⟩
  | .hbm, ⟨87, _⟩ => ⟨S3300000x1, .i32⟩
  | .hbm, ⟨88, _⟩ => ⟨S100000x2, .f32⟩
  | .hbm, ⟨89, _⟩ => ⟨S1x2, .f32⟩
  | .hbm, ⟨90, _⟩ => ⟨S100000x2, .f32⟩
  | .hbm, ⟨91, _⟩ => ⟨S100000x2, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x2, .f32⟩
  | .hbm, ⟨99, _⟩ => ⟨S100000x2, .f32⟩
  | .hbm, ⟨100, _⟩ => ⟨S100000x2, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x2, .f32⟩
  | .hbm, ⟨106, _⟩ => ⟨S100000x2, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1_S1x16_S100000x16_1_0_0_1_n_n_wf : DotDims.WF S100000x1 S1x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.PreDecode.lean ====
import proofs.«401711_j53747220742790_3_alg».proof.Proof.Gen.Pre_finite_inputs
import Idealize.ShloMosaic.Lib.ReduceAll
import Idealize.ShloMosaic.PureOps.Ideal

noncomputable section

namespace Cert.Gcn.PreDecode

open Idealize.ShloMosaic Cert.Pre_finite_inputs

variable [Cert.Pre_finite_inputs.Facts]

instance subsingleton_S_ : Subsingleton S_.Idx := ⟨fun a b => funext fun d => d.elim0⟩

abbrev finWord {F : FTy → Type} [FloatOps F] (x : F .f32) : BitVec 1 :=
  FloatOps.cmpf .olt (FloatOps.hostAbsf x) (FloatOps.ofBits (F := F) .f32 0x7F800000#32)

theorem split {F : FTy → Type} [FloatOps F]
    (a0 : FVec F S100000x1 .f32) (a1 : IVec S2x3200000 32) (a2 : FVec F S3200000 .f32) (a3 : FVec F S1x16 .f32)
    (a4 : FVec F S16 .f32) (a5 : FVec F S16x2 .f32) (a6 : FVec F S2 .f32)
    (h : Cert.Pre_finite_inputs.fn (F := F) a0 a1 a2 a3 a4 a5 a6 = fun _ => 1#1) :
    (∀ i, finWord (a0 i) = 1#1) ∧ (∀ i, finWord (a2 i) = 1#1) ∧ (∀ i, finWord (a3 i) = 1#1)
      ∧ (∀ i, finWord (a4 i) = 1#1) ∧ (∀ i, finWord (a5 i) = 1#1) ∧ (∀ i, finWord (a6 i) = 1#1)
      ∧ (∀ i, IntOp.cmpi .sge (a1 i) 0#32 = 1#1) ∧ (∀ i, IntOp.cmpi .slt (a1 i) 100000#32 = 1#1) := by
  have e := congrFun h (fun a => a.elim0)
  dsimp only [Cert.Pre_finite_inputs.fn, Cert.Pre_finite_inputs.fn_part1, Cert.Pre_finite_inputs.fn_part2] at e
  simp only [andi, IntOp.andi_eq_one] at e
  obtain ⟨⟨⟨⟨⟨⟨⟨e0, e2⟩, e3⟩, e4⟩, e5⟩, e6⟩, eg⟩, el⟩ := e
  exact ⟨fun i => Host.reduce_andi_all _ _ _ _ _ e0 i, fun i => Host.reduce_andi_all _ _ _ _ _ e2 i,
    fun i => Host.reduce_andi_all _ _ _ _ _ e3 i, fun i => Host.reduce_andi_all _ _ _ _ _ e4 i,
    fun i => Host.reduce_andi_all _ _ _ _ _ e5 i, fun i => Host.reduce_andi_all _ _ _ _ _ e6 i,
    fun i => Host.reduce_andi_all _ _ _ _ _ eg i, fun i => Host.reduce_andi_all _ _ _ _ _ el i⟩

theorem idx_of_pre {F : FTy → Type} [FloatOps F]
    (a0 : FVec F S100000x1 .f32) (a1 : IVec S2x3200000 32) (a2 : FVec F S3200000 .f32) (a3 : FVec F S1x16 .f32)
    (a4 : FVec F S16 .f32) (a5 : FVec F S16x2 .f32) (a6 : FVec F S2 .f32)
    (h : Cert.Pre_finite_inputs.fn (F := F) a0 a1 a2 a3 a4 a5 a6 = fun _ => 1#1) :
    ∀ i, 0 ≤ (a1 i).toInt ∧ (a1 i).toInt < 100000 := by
  obtain ⟨-, -, -, -, -, -, hg, hl⟩ := split a0 a1 a2 a3 a4 a5 a6 h
  intro i
  have h0 := IntOp.cmpi_sge.1 (hg i)
  have h1 := IntOp.cmpi_slt.1 (hl i)
  rw [show (0#32 : BitVec 32).toInt = 0 from by decide] at h0
  rw [show (100000#32 : BitVec 32).toInt = 100000 from by decide] at h1
  exact ⟨h0, h1⟩

theorem real_of_finWord (x : Ideal .f32) (h : finWord (F := Ideal) x = 1#1) : ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

theorem finite_of_pre
    (a0 : FVec Ideal S100000x1 .f32) (a1 : IVec S2x3200000 32) (a2 : FVec Ideal S3200000 .f32) (a3 : FVec Ideal S1x16 .f32)
    (a4 : FVec Ideal S16 .f32) (a5 : FVec Ideal S16x2 .f32) (a6 : FVec Ideal S2 .f32)
    (h : Cert.Pre_finite_inputs.fn (F := Ideal) a0 a1 a2 a3 a4 a5 a6 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  obtain ⟨h0, h2, h3, h4, h5, h6, -, -⟩ := split a0 a1 a2 a3 a4 a5 a6 h
  exact ⟨fun i => real_of_finWord _ (h0 i), fun i => real_of_finWord _ (h2 i), fun i => real_of_finWord _ (h3 i),
    fun i => real_of_finWord _ (h4 i), fun i => real_of_finWord _ (h5 i), fun i => real_of_finWord _ (h6 i)⟩

end Cert.Gcn.PreDecode

end
-- ==== Proof.Spec.lean ====
import Idealize.ShloMosaic.PureOps.Ideal
import Idealize.ShloMosaic.Lib.ValueIdx
import Mathlib.Algebra.BigOperators.Group.Finset.Basic
import Mathlib.Algebra.BigOperators.Fin

noncomputable section

open scoped BigOperators

namespace Cert.Gcn.Spec

open Idealize.ShloMosaic Idealize.ShloMosaic.ValueIdx

def nodeOf (w : BitVec 32) : Fin 100000 := ⟨min w.toInt.toNat 99999, by omega⟩

theorem nodeOf_val (w : BitVec 32) (h0 : 0 ≤ w.toInt) (h1 : w.toInt < 100000) :
    ((nodeOf w).val : ℤ) = w.toInt := by
  unfold nodeOf
  simp only
  omega

theorem toInt_eq_iff_nodeOf_eq (w : BitVec 32) (h0 : 0 ≤ w.toInt) (h1 : w.toInt < 100000) (n : Fin 100000) :
    w.toInt = (n.val : ℤ) ↔ nodeOf w = n := by
  constructor
  · intro h
    refine Fin.ext ?_
    have := nodeOf_val w h0 h1
    omega
  · rintro rfl
    exact (nodeOf_val w h0 h1).symm

def extIdx (row : Fin 3200000 → BitVec 32) (e : Fin 3300000) : Fin 100000 :=
  if h : e.val < 3200000 then nodeOf (row ⟨e.val, h⟩) else ⟨e.val - 3200000, by omega⟩

def srcOf (ei : Fin 2 → Fin 3200000 → BitVec 32) : Fin 3300000 → Fin 100000 := extIdx (ei 0)

def dstOf (ei : Fin 2 → Fin 3200000 → BitVec 32) : Fin 3300000 → Fin 100000 := extIdx (ei 1)

def wtOf (ew : Fin 3200000 → EReal) (e : Fin 3300000) : EReal :=
  if h : e.val < 3200000 then ew ⟨e.val, h⟩ else 1

def dinvOf (x : EReal) : EReal := Scalar.select (Ideal.cmp .ogt x 0) (Ideal.rsqrt x) 0

theorem dinvOf_eq (x : EReal) : dinvOf x = if 0 < x then Ideal.rsqrt x else 0 := by
  unfold dinvOf Ideal.cmp Scalar.select
  by_cases h : 0 < x <;> simp [h]

section Net
variable (src dst : Fin 3300000 → Fin 100000) (wt : Fin 3300000 → EReal)

def deg (n : Fin 100000) : EReal := ∑ e, if dst e = n then wt e else 0

def dinv (n : Fin 100000) : EReal := dinvOf (deg dst wt n)

def norm (e : Fin 3300000) : EReal := dinv dst wt (src e) * wt e * dinv dst wt (dst e)

variable (x : Fin 100000 → EReal) (W1 : Fin 16 → EReal) (b1 : Fin 16 → EReal)
  (W2 : Fin 16 → Fin 2 → EReal) (b2 : Fin 2 → EReal)

def agg1 (n : Fin 100000) (j : Fin 16) : EReal :=
  ∑ e, if dst e = n then norm src dst wt e * (x (src e) * W1 j) else 0

def h1 (n : Fin 100000) (j : Fin 16) : EReal := max (agg1 src dst wt x W1 n j + b1 j) 0

def hw (n : Fin 100000) (f : Fin 2) : EReal := ∑ k : Fin 16, h1 src dst wt x W1 b1 n k * W2 k f

def agg2 (n : Fin 100000) (f : Fin 2) : EReal :=
  ∑ e, if dst e = n then norm src dst wt e * hw src dst wt x W1 b1 W2 (src e) f else 0

def out (n : Fin 100000) (f : Fin 2) : EReal := agg2 src dst wt x W1 b1 W2 n f + b2 f

end Net

def outArr (x : (⟨2, ![100000, 1]⟩ : Shape).Idx → EReal) (ei : (⟨2, ![2, 3200000]⟩ : Shape).Idx → BitVec 32)
    (ew : (⟨1, ![3200000]⟩ : Shape).Idx → EReal) (W1 : (⟨2, ![1, 16]⟩ : Shape).Idx → EReal)
    (b1 : (⟨1, ![16]⟩ : Shape).Idx → EReal) (W2 : (⟨2, ![16, 2]⟩ : Shape).Idx → EReal)
    (b2 : (⟨1, ![2]⟩ : Shape).Idx → EReal) : (⟨2, ![100000, 2]⟩ : Shape).Idx → EReal :=
  fun i =>
    out (srcOf fun r e => ei (ix2 r e)) (dstOf fun r e => ei (ix2 r e)) (wtOf fun e => ew (ix1 e))
      (fun n => x (ix2 n 0)) (fun j => W1 (ix2 0 j)) (fun j => b1 (ix1 j)) (fun k f => W2 (ix2 k f))
      (fun f => b2 (ix1 f)) (i 0) (i 1)

end Cert.Gcn.Spec

end
-- ==== Proof.Lsm.lean ====
import Idealize.ShloMosaic.PureOps.Ideal
import Idealize.ShloMosaic.PureOps.Contract
import Idealize.ShloMosaic.Lib.ValueIdx

noncomputable section

namespace Cert.Gcn

open Idealize.ShloMosaic

theorem lsm_reduces : (⟨2, ![100000, 2]⟩ : Shape).ReducesTo [1] ⟨1, ![100000]⟩ := by decide
theorem lsm_pos : 0 < (⟨0, ![]⟩ : Shape).numel := by decide
theorem lsm_bcast0 : (⟨0, ![]⟩ : Shape).BroadcastsInDim ⟨1, ![100000]⟩ (![] : Fin 0 → Fin 1) := by decide
theorem lsm_bcast1 : (⟨1, ![100000]⟩ : Shape).BroadcastsInDim ⟨2, ![100000, 1]⟩ (![0] : Fin 1 → Fin 2) := by decide
theorem lsm_bcast2 : (⟨2, ![100000, 1]⟩ : Shape).BroadcastsInDim ⟨2, ![100000, 2]⟩ (![0, 1] : Fin 2 → Fin 2) := by decide

def lsmShift (v : FVec Ideal ⟨2, ![100000, 2]⟩ .f32) : FVec Ideal ⟨2, ![100000, 2]⟩ .f32 :=
  subf v
    (broadcastInDim ⟨2, ![100000, 2]⟩ ![0, 1] lsm_bcast2
      (broadcastInDim ⟨2, ![100000, 1]⟩ ![0] lsm_bcast1
        (maximumf
          (broadcastInDim ⟨1, ![100000]⟩ ![] lsm_bcast0 (constant (F := Ideal) ⟨0, ![]⟩ .f32 0xFF800000#32))
          (Host.reduce FloatOps.maximumf v (constant (F := Ideal) ⟨0, ![]⟩ .f32 0xFF800000#32) lsm_reduces lsm_pos))))

def lsm (v : FVec Ideal ⟨2, ![100000, 2]⟩ .f32) : FVec Ideal ⟨2, ![100000, 2]⟩ .f32 :=
  subf (lsmShift v)
    (broadcastInDim ⟨2, ![100000, 2]⟩ ![0, 1] lsm_bcast2
      (Host.log
        (broadcastInDim ⟨2, ![100000, 1]⟩ ![0] lsm_bcast1
          (Host.reduceAdd (Host.exp (lsmShift v)) (constant (F := Ideal) ⟨0, ![]⟩ .f32 0x00000000#32)
            lsm_reduces lsm_pos))))

end Cert.Gcn

end
-- ==== Proof.SortWindow.lean ====
import Mathlib.Algebra.BigOperators.Group.Finset.Basic
import Mathlib.Algebra.BigOperators.Fin
import Mathlib.Order.Monotone.Basic

namespace Cert.Gcn.SortWindow

open Finset

theorem base_facts (dk dj : ℕ) (h1 : dk ≤ dj) (h2 : dj < dk + 128) (hN : dj < 100000) :
    128 ∣ (min dk 99840 / 128) * 128 ∧ (min dk 99840 / 128) * 128 + 256 ≤ 100096 ∧
      (min dk 99840 / 128) * 128 ≤ dj ∧ dj < (min dk 99840 / 128) * 128 + 256 := by
  refine ⟨Dvd.intro_left _ rfl, ?_, ?_, ?_⟩ <;> omega

theorem step_le {n N : ℕ} (d : Fin n → ℕ) (hmono : Monotone d)
    (hcov : ∀ v, v < N → ∃ j, d j = v) (hlt : ∀ j, d j < N) (i j : Fin n)
    (hij : j.val = i.val + 1) : d j ≤ d i + 1 := by
  by_contra hcon
  have hgap : d i + 1 < d j := by omega
  obtain ⟨m, hm⟩ := hcov (d i + 1) (lt_trans hgap (hlt j))
  rcases le_or_gt m i with hmi | hmi
  · have := hmono hmi
    omega
  · have hjm : j ≤ m := by
      rw [Fin.le_def]
      rw [Fin.lt_def] at hmi
      omega
    have := hmono hjm
    omega

theorem span_le {n N : ℕ} (d : Fin n → ℕ) (hmono : Monotone d)
    (hcov : ∀ v, v < N → ∃ j, d j = v) (hlt : ∀ j, d j < N) :
    ∀ (t : ℕ) (k j : Fin n), j.val = k.val + t → d j ≤ d k + t := by
  intro t
  induction t with
  | zero =>
    intro k j h
    have : j = k := Fin.ext (by omega)
    rw [this]
    omega
  | succ t ih =>
    intro k j h
    have hlt' : k.val + t < n := by
      have := j.isLt
      omega
    have h1 := ih k ⟨k.val + t, hlt'⟩ rfl
    have h2 := step_le d hmono hcov hlt ⟨k.val + t, hlt'⟩ j (by simp only; omega)
    omega

theorem window_span {n N : ℕ} (d : Fin n → ℕ) (hmono : Monotone d)
    (hcov : ∀ v, v < N → ∃ j, d j = v) (hlt : ∀ j, d j < N) (k j : Fin n) (hkj : k ≤ j)
    (hj : j.val < k.val + 128) : d j < d k + 128 := by
  have hkj' : k.val ≤ j.val := hkj
  have h := span_le d hmono hcov hlt (j.val - k.val) k j (by omega)
  omega

end Cert.Gcn.SortWindow
-- ==== Proof.KerSpec.lean ====
import proofs.«401711_j53747220742790_3_alg».proof.Proof.Spec
import proofs.«401711_j53747220742790_3_alg».proof.Proof.SortWindow

noncomputable section

namespace Cert.Gcn.KerSpec

open Cert.Gcn.Spec

variable (ss sd : Fin 3301376 → Fin 100000) (sw : Fin 3301376 → EReal) (x : Fin 100000 → EReal)
  (W1 b1 : Fin 16 → EReal) (W2 : Fin 16 → Fin 2 → EReal) (b2 : Fin 2 → EReal)

def kdeg (n : Fin 100000) : EReal := ∑ j, if sd j = n then sw j else 0

def kdinv (n : Fin 100000) : EReal := dinvOf (kdeg sd sw n)

def kagg1 (n : Fin 100000) : EReal :=
  kdinv sd sw n * ∑ j, if sd j = n then sw j * (kdinv sd sw (ss j) * x (ss j)) else 0

def kh1 (n : Fin 100000) (k : Fin 16) : EReal := max (kagg1 ss sd sw x n * W1 k + b1 k) 0

def khw (n : Fin 100000) (f : Fin 2) : EReal := ∑ k : Fin 16, kh1 ss sd sw x W1 b1 n k * W2 k f

def kagg2 (n : Fin 100000) (f : Fin 2) : EReal :=
  kdinv sd sw n * ∑ j, if sd j = n then sw j * (kdinv sd sw (ss j) * khw ss sd sw x W1 b1 W2 (ss j) f) else 0

def kout (n : Fin 100000) (f : Fin 2) : EReal := kagg2 ss sd sw x W1 b1 W2 n f + b2 f

end Cert.Gcn.KerSpec

end
-- ==== Proof.KerSpecEq.lean ====
import proofs.«401711_j53747220742790_3_alg».proof.Proof.KerSpec
import Mathlib.Data.EReal.Basic
import Mathlib.Algebra.BigOperators.Fin
import Mathlib.Algebra.BigOperators.Group.Finset.Basic

noncomputable section

open scoped BigOperators

namespace Cert.Gcn.KerSpec

theorem sum_perm_pad {M : Type*} [AddCommMonoid M] {n m : ℕ} (hnm : n ≤ m) (σ : Equiv.Perm (Fin n))
    (F' : Fin m → M) (F : Fin n → M)
    (hhead : ∀ j : Fin n, F' ⟨j.val, lt_of_lt_of_le j.isLt hnm⟩ = F (σ j))
    (htail : ∀ j : Fin m, n ≤ j.val → F' j = 0) : (∑ j, F' j) = ∑ e, F e := by
  obtain ⟨p, rfl⟩ := Nat.exists_eq_add_of_le hnm
  rw [Fin.sum_univ_add]
  have hz : (∑ j : Fin p, F' (Fin.natAdd n j)) = 0 := by
    apply Finset.sum_eq_zero
    intro j _
    exact htail _ (by simp only [Fin.coe_natAdd]; omega)
  rw [hz, add_zero]
  have hh : ∀ j : Fin n, F' (Fin.castAdd p j) = F (σ j) := fun j => hhead j
  simp only [hh]
  exact Equiv.sum_comp σ F

def IsR (a : EReal) : Prop := ∃ r : ℝ, a = (r : EReal)

theorem isR_zero : IsR 0 := ⟨0, rfl⟩

theorem isR_one : IsR 1 := ⟨1, rfl⟩

theorem isR_mul {a b : EReal} (ha : IsR a) (hb : IsR b) : IsR (a * b) := by
  obtain ⟨r, rfl⟩ := ha
  obtain ⟨s, rfl⟩ := hb
  exact ⟨r * s, (EReal.coe_mul r s).symm⟩

theorem isR_add {a b : EReal} (ha : IsR a) (hb : IsR b) : IsR (a + b) := by
  obtain ⟨r, rfl⟩ := ha
  obtain ⟨s, rfl⟩ := hb
  exact ⟨r + s, (EReal.coe_add r s).symm⟩

theorem isR_max_zero {a : EReal} (ha : IsR a) : IsR (max a 0) := by
  rcases le_total a 0 with h | h
  · rw [max_eq_right h]
    exact isR_zero
  · rw [max_eq_left h]
    exact ha

theorem isR_ite {p : Prop} [Decidable p] {a b : EReal} (ha : IsR a) (hb : IsR b) :
    IsR (if p then a else b) := by
  split_ifs <;> assumption

theorem isR_sum {ι : Type*} (s : Finset ι) (f : ι → EReal) (h : ∀ i, IsR (f i)) : IsR (∑ i ∈ s, f i) := by
  induction s using Finset.cons_induction with
  | empty =>
    rw [Finset.sum_empty]
    exact isR_zero
  | cons a s ha ih =>
    rw [Finset.sum_cons]
    exact isR_add (h a) ih

theorem coe_sum {ι : Type*} (s : Finset ι) (f : ι → ℝ) :
    ((∑ i ∈ s, f i : ℝ) : EReal) = ∑ i ∈ s, (f i : EReal) := by
  induction s using Finset.cons_induction with
  | empty => simp only [Finset.sum_empty, EReal.coe_zero]
  | cons a s ha ih => rw [Finset.sum_cons, Finset.sum_cons, EReal.coe_add, ih]

theorem isR_dinvOf {a : EReal} (ha : IsR a) : IsR (Spec.dinvOf a) := by
  obtain ⟨r, rfl⟩ := ha
  rw [Spec.dinvOf_eq]
  split_ifs with h
  · have hr : 0 < r := EReal.coe_pos.mp h
    rw [Idealize.ShloMosaic.Ideal.rsqrt_coe, if_neg (not_lt.mpr hr.le), if_neg hr.ne']
    exact ⟨_, rfl⟩
  · exact isR_zero

theorem pull {ι : Type*} (s : Finset ι) (p : ι → Prop) [DecidablePred p] (a c : EReal) (T S : ι → EReal)
    (ha : IsR a) (hc : IsR c) (hT : ∀ e, IsR (T e)) (h : ∀ e, p e → a * T e * c = S e) :
    a * (∑ e ∈ s, if p e then T e else 0) * c = ∑ e ∈ s, if p e then S e else 0 := by
  obtain ⟨ar, rfl⟩ := ha
  obtain ⟨cr, rfl⟩ := hc
  choose t ht using hT
  have e1 : (∑ e ∈ s, if p e then T e else 0) = ((∑ e ∈ s, if p e then t e else 0 : ℝ) : EReal) := by
    rw [coe_sum]
    apply Finset.sum_congr rfl
    intro e _
    split_ifs
    · exact ht e
    · rfl
  rw [e1, ← EReal.coe_mul, ← EReal.coe_mul, Finset.mul_sum, Finset.sum_mul, coe_sum]
  apply Finset.sum_congr rfl
  intro e _
  split_ifs with hp
  · rw [← h e hp, ht e, EReal.coe_mul, EReal.coe_mul]
  · rw [mul_zero, zero_mul, EReal.coe_zero]

theorem rearr5 {M : Type*} [CommMonoid M] (a w d x c : M) : a * (w * (d * x)) * c = d * w * a * (x * c) := by
  ac_rfl

theorem rearr4 {M : Type*} [CommMonoid M] (a w d h : M) : a * (w * (d * h)) = d * w * a * h := by
  ac_rfl

section RefReal
variable (src dst : Fin 3300000 → Fin 100000) (wt : Fin 3300000 → EReal) (x : Fin 100000 → EReal)
  (W1 b1 : Fin 16 → EReal) (W2 : Fin 16 → Fin 2 → EReal)

theorem isR_deg (hwt : ∀ e, IsR (wt e)) (n : Fin 100000) : IsR (Spec.deg dst wt n) := by
  unfold Spec.deg
  exact isR_sum _ _ fun e => isR_ite (hwt e) isR_zero

theorem isR_dinv (hwt : ∀ e, IsR (wt e)) (n : Fin 100000) : IsR (Spec.dinv dst wt n) := by
  unfold Spec.dinv
  exact isR_dinvOf (isR_deg dst wt hwt n)

theorem isR_norm (hwt : ∀ e, IsR (wt e)) (e : Fin 3300000) : IsR (Spec.norm src dst wt e) := by
  unfold Spec.norm
  exact isR_mul (isR_mul (isR_dinv dst wt hwt _) (hwt e)) (isR_dinv dst wt hwt _)

theorem isR_agg1 (hwt : ∀ e, IsR (wt e)) (hx : ∀ n, IsR (x n)) (hW1 : ∀ k, IsR (W1 k)) (n : Fin 100000)
    (k : Fin 16) : IsR (Spec.agg1 src dst wt x W1 n k) := by
  unfold Spec.agg1
  exact isR_sum _ _ fun e =>
    isR_ite (isR_mul (isR_norm src dst wt hwt e) (isR_mul (hx _) (hW1 k))) isR_zero

theorem isR_h1 (hwt : ∀ e, IsR (wt e)) (hx : ∀ n, IsR (x n)) (hW1 : ∀ k, IsR (W1 k)) (hb1 : ∀ k, IsR (b1 k))
    (n : Fin 100000) (k : Fin 16) : IsR (Spec.h1 src dst wt x W1 b1 n k) := by
  unfold Spec.h1
  exact isR_max_zero (isR_add (isR_agg1 src dst wt x W1 hwt hx hW1 n k) (hb1 k))

theorem isR_hw (hwt : ∀ e, IsR (wt e)) (hx : ∀ n, IsR (x n)) (hW1 : ∀ k, IsR (W1 k)) (hb1 : ∀ k, IsR (b1 k))
    (hW2 : ∀ k f, IsR (W2 k f)) (n : Fin 100000) (f : Fin 2) : IsR (Spec.hw src dst wt x W1 b1 W2 n f) := by
  unfold Spec.hw
  exact isR_sum _ _ fun k => isR_mul (isR_h1 src dst wt x W1 b1 hwt hx hW1 hb1 n k) (hW2 k f)

end RefReal

section Seg
variable (ss sd : Fin 3301376 → Fin 100000) (sw : Fin 3301376 → EReal)
  (src dst : Fin 3300000 → Fin 100000) (wt : Fin 3300000 → EReal) (σ : Equiv.Perm (Fin 3300000))

theorem seg_eq (hs : ∀ j : Fin 3300000, ss ⟨j.val, by omega⟩ = src (σ j))
    (hd : ∀ j : Fin 3300000, sd ⟨j.val, by omega⟩ = dst (σ j))
    (hw : ∀ j : Fin 3300000, sw ⟨j.val, by omega⟩ = wt (σ j))
    (hpad : ∀ j : Fin 3301376, 3300000 ≤ j.val → sw j = 0) (g : Fin 100000 → EReal) (n : Fin 100000) :
    (∑ j, if sd j = n then sw j * g (ss j) else 0) = ∑ e, if dst e = n then wt e * g (src e) else 0 := by
  refine sum_perm_pad (by omega) σ (fun j => if sd j = n then sw j * g (ss j) else 0)
    (fun e => if dst e = n then wt e * g (src e) else 0) ?_ ?_
  · intro j
    simp only [hs j, hd j, hw j]
  · intro j hj
    simp only [hpad j hj, zero_mul, ite_self]

theorem kdeg_eq (hd : ∀ j : Fin 3300000, sd ⟨j.val, by omega⟩ = dst (σ j))
    (hw : ∀ j : Fin 3300000, sw ⟨j.val, by omega⟩ = wt (σ j))
    (hpad : ∀ j : Fin 3301376, 3300000 ≤ j.val → sw j = 0) (n : Fin 100000) :
    kdeg sd sw n = Spec.deg dst wt n := by
  unfold kdeg Spec.deg
  refine sum_perm_pad (by omega) σ (fun j => if sd j = n then sw j else 0)
    (fun e => if dst e = n then wt e else 0) ?_ ?_
  · intro j
    simp only [hd j, hw j]
  · intro j hj
    simp only [hpad j hj, ite_self]

end Seg

section Arr
variable (ss sd : Fin 3301376 → Fin 100000) (sw : Fin 3301376 → EReal)
  (src dst : Fin 3300000 → Fin 100000) (wt : Fin 3300000 → EReal) (x : Fin 100000 → EReal)
  (W1 b1 : Fin 16 → EReal) (W2 : Fin 16 → Fin 2 → EReal) (b2 : Fin 2 → EReal)

theorem kdinv_eq (hdeg : ∀ n, kdeg sd sw n = Spec.deg dst wt n) : kdinv sd sw = Spec.dinv dst wt := by
  funext n
  unfold kdinv Spec.dinv
  rw [hdeg n]

theorem kagg1_mul
    (hseg : ∀ (g : Fin 100000 → EReal) (n : Fin 100000),
      (∑ j, if sd j = n then sw j * g (ss j) else 0) = ∑ e, if dst e = n then wt e * g (src e) else 0)
    (hdeg : ∀ n, kdeg sd sw n = Spec.deg dst wt n)
    (hwt : ∀ e, IsR (wt e)) (hx : ∀ n, IsR (x n)) (hW1 : ∀ k, IsR (W1 k)) (n : Fin 100000) (k : Fin 16) :
    kagg1 ss sd sw x n * W1 k = Spec.agg1 src dst wt x W1 n k := by
  unfold kagg1 Spec.agg1 Spec.norm
  rw [hseg (fun m => kdinv sd sw m * x m) n, kdinv_eq sd sw dst wt hdeg]
  refine pull Finset.univ (fun e => dst e = n) (Spec.dinv dst wt n) (W1 k) _ _ (isR_dinv dst wt hwt n) (hW1 k)
    (fun e => isR_mul (hwt e) (isR_mul (isR_dinv dst wt hwt _) (hx _))) ?_
  intro e he
  rw [he]
  exact rearr5 _ _ _ _ _

theorem kh1_eq
    (hseg : ∀ (g : Fin 100000 → EReal) (n : Fin 100000),
      (∑ j, if sd j = n then sw j * g (ss j) else 0) = ∑ e, if dst e = n then wt e * g (src e) else 0)
    (hdeg : ∀ n, kdeg sd sw n = Spec.deg dst wt n)
    (hwt : ∀ e, IsR (wt e)) (hx : ∀ n, IsR (x n)) (hW1 : ∀ k, IsR (W1 k)) :
    kh1 ss sd sw x W1 b1 = Spec.h1 src dst wt x W1 b1 := by
  funext n k
  unfold kh1 Spec.h1
  rw [kagg1_mul ss sd sw src dst wt x W1 hseg hdeg hwt hx hW1 n k]

theorem khw_eq
    (hseg : ∀ (g : Fin 100000 → EReal) (n : Fin 100000),
      (∑ j, if sd j = n then sw j * g (ss j) else 0) = ∑ e, if dst e = n then wt e * g (src e) else 0)
    (hdeg : ∀ n, kdeg sd sw n = Spec.deg dst wt n)
    (hwt : ∀ e, IsR (wt e)) (hx : ∀ n, IsR (x n)) (hW1 : ∀ k, IsR (W1 k)) :
    khw ss sd sw x W1 b1 W2 = Spec.hw src dst wt x W1 b1 W2 := by
  funext n f
  unfold khw Spec.hw
  rw [kh1_eq ss sd sw src dst wt x W1 b1 hseg hdeg hwt hx hW1]

theorem kagg2_eq
    (hseg : ∀ (g : Fin 100000 → EReal) (n : Fin 100000),
      (∑ j, if sd j = n then sw j * g (ss j) else 0) = ∑ e, if dst e = n then wt e * g (src e) else 0)
    (hdeg : ∀ n, kdeg sd sw n = Spec.deg dst wt n)
    (hwt : ∀ e, IsR (wt e)) (hx : ∀ n, IsR (x n)) (hW1 : ∀ k, IsR (W1 k)) (hb1 : ∀ k, IsR (b1 k))
    (hW2 : ∀ k f, IsR (W2 k f)) (n : Fin 100000) (f : Fin 2) :
    kagg2 ss sd sw x W1 b1 W2 n f = Spec.agg2 src dst wt x W1 b1 W2 n f := by
  unfold kagg2 Spec.agg2 Spec.norm
  rw [hseg (fun m => kdinv sd sw m * khw ss sd sw x W1 b1 W2 m f) n, kdinv_eq sd sw dst wt hdeg,
    khw_eq ss sd sw src dst wt x W1 b1 W2 hseg hdeg hwt hx hW1]
  have h := pull Finset.univ (fun e => dst e = n) (Spec.dinv dst wt n) 1
    (fun e => wt e * (Spec.dinv dst wt (src e) * Spec.hw src dst wt x W1 b1 W2 (src e) f))
    (fun e => Spec.dinv dst wt (src e) * wt e * Spec.dinv dst wt (dst e) * Spec.hw src dst wt x W1 b1 W2 (src e) f)
    (isR_dinv dst wt hwt n) isR_one
    (fun e => isR_mul (hwt e)
      (isR_mul (isR_dinv dst wt hwt _) (isR_hw src dst wt x W1 b1 W2 hwt hx hW1 hb1 hW2 _ f)))
    (by
      intro e he
      rw [he, mul_one]
      exact rearr4 _ _ _ _)
  rw [mul_one] at h
  exact h

end Arr

theorem kout_eq_out (ss sd : Fin 3301376 → Fin 100000) (sw : Fin 3301376 → EReal)
    (src dst : Fin 3300000 → Fin 100000) (wt : Fin 3300000 → EReal) (x : Fin 100000 → EReal)
    (W1 b1 : Fin 16 → EReal) (W2 : Fin 16 → Fin 2 → EReal) (b2 : Fin 2 → EReal)
    (σ : Equiv.Perm (Fin 3300000))
    (hs : ∀ j : Fin 3300000, ss ⟨j.val, by omega⟩ = src (σ j))
    (hd : ∀ j : Fin 3300000, sd ⟨j.val, by omega⟩ = dst (σ j))
    (hw : ∀ j : Fin 3300000, sw ⟨j.val, by omega⟩ = wt (σ j))
    (hpad : ∀ j : Fin 3301376, 3300000 ≤ j.val → sw j = 0)
    (hx : ∀ n, ∃ r : ℝ, x n = (r : EReal)) (hwt : ∀ e, ∃ r : ℝ, wt e = (r : EReal))
    (hW1 : ∀ k, ∃ r : ℝ, W1 k = r) (hb1 : ∀ k, ∃ r : ℝ, b1 k = r) (hW2 : ∀ k f, ∃ r : ℝ, W2 k f = r)
    (hb2 : ∀ f, ∃ r : ℝ, b2 f = r) (n : Fin 100000) (f : Fin 2) :
    kout ss sd sw x W1 b1 W2 b2 n f = Cert.Gcn.Spec.out src dst wt x W1 b1 W2 b2 n f := by
  unfold kout Spec.out
  rw [kagg2_eq ss sd sw src dst wt x W1 b1 W2 (seg_eq ss sd sw src dst wt σ hs hd hw hpad)
    (kdeg_eq sd sw dst wt σ hd hw hpad) hwt hx hW1 hb1 hW2 n f]

end Cert.Gcn.KerSpec

end
-- ==== Proof.VecGatherScatter.lean ====
import Idealize.ShloMosaic.PureOps.Ideal
import Idealize.ShloMosaic.PureOps.Contract
import Idealize.ShloMosaic.Lib.ValueIdx
import Mathlib.Algebra.BigOperators.Group.Finset.Basic
import Mathlib.Algebra.BigOperators.Fin

noncomputable section

open scoped BigOperators

namespace Cert.Gcn.Vec

open Idealize.ShloMosaic Idealize.ShloMosaic.ValueIdx

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Gather
variable {α : Type}

abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  refine Fin.ext ?_
  match a with
  | ⟨0, _⟩ =>
    show (vecGather N E wf).start (ix1 e) idx 0 + (vecGather N E wf).batchCoord (ix1 e) 0
      + (vecGather N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N E wf).startIndexMap from List.mem_singleton.mpr rfl)]
    have hsi : (vecGather N E wf).siIdx (ix1 e) ⟨List.idxOf (0 : Fin 1) (vecGather N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

theorem vecGather_apply_of_eq {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) (s : BitVec w)
    (hs : idx (ix2 e 0) = s) :
    Host.gather (vecGather N E wf) x idx (ix1 e) = x (ix1 ⟨min s.toInt.toNat (N - 1), by omega⟩) := by
  subst hs
  exact vecGather_apply hN wf x idx e

end Gather

section Scatter

abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

theorem vecScatter_start (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vecScatter_window (e : Fin E) : (vecScatter N E wf).window (ix1 e) 0 = 0 := by
  unfold ScatterDims.window
  rw [dif_neg]
  show (0 : Fin 1) ∉ (List.finRange 1).filter (· ∉ [(0 : Fin 1)])
  decide

theorem vecScatter_resultIdx_iff (e : Fin E) (d : Fin N) :
    (vecScatter N E wf).resultIdx? (ix1 e) idx = some (ix1 d) ↔ (idx (ix2 e 0)).toInt = (d.val : ℤ) := by
  unfold ScatterDims.resultIdx?
  split
  · next h =>
    rw [Option.some.injEq]
    have h0 := h 0
    rw [vecScatter_start, vecScatter_window] at h0
    constructor
    · intro hf
      have e0 := congrArg (fun f => (f 0).val) hf
      simp only [vecScatter_start, vecScatter_window] at e0
      have : ((ix1 d : (⟨1, ![N]⟩ : Shape).Idx) 0).val = d.val := rfl
      omega
    · intro hd
      funext a
      refine Fin.ext ?_
      match a with
      | ⟨0, _⟩ =>
        show ((vecScatter N E wf).start (ix1 e) idx 0 + ((vecScatter N E wf).window (ix1 e) 0 : ℕ)).toNat = d.val
        rw [vecScatter_start, vecScatter_window]
        omega
  · next h =>
    constructor
    · intro hf
      exact absurd hf (by simp)
    · intro hd
      exfalso
      apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [vecScatter_start, vecScatter_window]
        have := d.isLt
        omega

theorem vecScatterAdd_apply {φ : FTy} (x : FVec Ideal ⟨1, ![N]⟩ φ) (upd : FVec Ideal ⟨1, ![E]⟩ φ) (d : Fin N) :
    Host.scatterAdd (F := Ideal) (vecScatter N E wf) x idx upd (ix1 d)
      = x (ix1 d) + ∑ e ∈ Finset.univ.filter (fun e : Fin E => (idx (ix2 e 0)).toInt = (d.val : ℤ)), upd (ix1 e) := by
  show Ideal.hostScatterAdd (vecScatter N E wf) x idx upd (ix1 d) = _
  unfold Ideal.hostScatterAdd
  congr 1
  rw [Finset.sum_filter, sum_idx1, Finset.sum_filter]
  refine Finset.sum_congr rfl fun e _ => ?_
  simp only [vecScatter_resultIdx_iff]

end Scatter

end Cert.Gcn.Vec

end
-- ==== Proof.LibRowGatherScatter.lean ====
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

section Gather
variable {α : Type}

abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

section Scatter

abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start_one (e : Fin E) (q' : Fin D) :
    (rowScatter N E D wf).start (ix2 e q') idx 1 = 0 := by
  unfold ScatterDims.start
  rw [dif_neg (show (1 : Fin 2) ∉ [(0 : Fin 2)] by decide)]

theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

section Broadcasts
variable {α : Type}

theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

end Cert.ReferenceIdeal.Hand

end
-- ==== Proof.RefValue.lean ====
import proofs.«401711_j53747220742790_3_alg».proof.Proof.RefRead
import proofs.«401711_j53747220742790_3_alg».proof.Proof.Spec
import proofs.«401711_j53747220742790_3_alg».proof.Proof.Lsm
import proofs.«401711_j53747220742790_3_alg».proof.Proof.VecGatherScatter
import proofs.«401711_j53747220742790_3_alg».proof.Proof.LibRowGatherScatter
import Idealize.ShloMosaic.Lib.IdealHost

noncomputable section

open scoped BigOperators

namespace Cert.Gcn.RefValue

open Cert.ReferenceIdeal Cert.ReferenceIdeal.Gen Cert.ReferenceIdeal.Read Idealize.ShloMosaic Idealize.ShloMosaic.ValueIdx
open Cert.ReferenceIdeal.Hand Cert.Gcn.Vec Cert.Gcn

theorem toInt_ofNat_small (n : Nat) (h : n < 100000) : (BitVec.ofNat 32 n).toInt = (n : Int) := by
  rw [BitVec.toInt_eq_toNat_cond, BitVec.toNat_ofNat]
  have : n % 2 ^ 32 = n := Nat.mod_eq_of_lt (by omega)
  rw [this]
  split <;> omega

theorem nodeOf_ofNat (n : Nat) (h : n < 100000) : Spec.nodeOf (BitVec.ofNat 32 n) = ⟨n, h⟩ := by
  refine Fin.ext ?_
  have := toInt_ofNat_small n h
  show min (BitVec.ofNat 32 n).toInt.toNat 99999 = n
  omega

theorem wrap_id (s : BitVec 32) (h : 0 ≤ s.toInt) :
    Scalar.select (IntOp.cmpi .slt s 0#32) (IntOp.addi s 100000#32) s = s := by
  rw [wrap_select, if_neg (by omega)]

theorem idx2_ext {n0 n1 : Nat} (i : (⟨2, ![n0, n1]⟩ : Shape).Idx) (a : Fin n0) (b : Fin n1)
    (h0 : (i 0).val = a.val) (h1 : (i 1).val = b.val) : i = ix2 a b := by
  funext c
  refine Fin.ext ?_
  match c with
  | ⟨0, _⟩ => exact h0
  | ⟨1, _⟩ => exact h1

theorem col_apply {α : Type} (v : S3300000.Idx → α) (e : Fin 3300000) (z : Fin 1) :
    broadcastInDim S3300000x1 ![0] bcast_S3300000_S3300000x1_0 v (ix2 e z) = v (ix1 e) :=
  bcastCol_apply _ v e z

section
variable (x0 : (⟨S100000x1, .f32⟩ : BufTy).Contents (Elt Ideal)) (x1 : (⟨S2x3200000, .i32⟩ : BufTy).Contents (Elt Ideal))
  (x2 : (⟨S3200000, .f32⟩ : BufTy).Contents (Elt Ideal)) (x3 : (⟨S1x16, .f32⟩ : BufTy).Contents (Elt Ideal))
  (x4 : (⟨S16, .f32⟩ : BufTy).Contents (Elt Ideal)) (x5 : (⟨S16x2, .f32⟩ : BufTy).Contents (Elt Ideal))
  (x6 : (⟨S2, .f32⟩ : BufTy).Contents (Elt Ideal))

abbrev srcA : Fin 3300000 → Fin 100000 := Spec.srcOf fun r e => x1 (ix2 r e)
abbrev dstA : Fin 3300000 → Fin 100000 := Spec.dstOf fun r e => x1 (ix2 r e)
abbrev wtA : Fin 3300000 → EReal := Spec.wtOf fun e => x2 (ix1 e)

theorem v5_apply (e : Fin 3300000) :
    val_main_v5 (F := Ideal) x1 (ix1 e)
      = if h : e.val < 3200000 then x1 (ix2 0 ⟨e.val, h⟩) else BitVec.ofNat 32 (e.val - 3200000) := by
  unfold val_main_v5
  by_cases h : e.val < 3200000
  · rw [dif_pos h, concatenate_pair_apply_left _ _ _ concatenates_S3200000_S100000_S3300000_d0 (ix1 e) rfl
      (ix1 ⟨e.val, h⟩) (fun b => by match b with | ⟨0, _⟩ => rfl)]
    rw [val_main_v1_apply, val_main_v0_apply]
    exact congrArg x1 (idx2_ext _ 0 ⟨e.val, h⟩ rfl (Nat.mod_eq_of_lt h))
  · rw [dif_neg h, concatenate_pair_apply_right _ _ _ concatenates_S3200000_S100000_S3300000_d0 (ix1 e) rfl rfl
      (ix1 ⟨e.val - 3200000, by have := e.isLt; omega⟩)
      (fun b hb => by match b with | ⟨0, _⟩ => exact absurd rfl hb)
      (by show e.val - 3200000 + 3200000 = e.val; omega)]
    rfl

theorem v6_apply (e : Fin 3300000) :
    val_main_v6 (F := Ideal) x1 (ix1 e)
      = if h : e.val < 3200000 then x1 (ix2 1 ⟨e.val, h⟩) else BitVec.ofNat 32 (e.val - 3200000) := by
  unfold val_main_v6
  by_cases h : e.val < 3200000
  · rw [dif_pos h, concatenate_pair_apply_left _ _ _ concatenates_S3200000_S100000_S3300000_d0 (ix1 e) rfl
      (ix1 ⟨e.val, h⟩) (fun b => by match b with | ⟨0, _⟩ => rfl)]
    rw [val_main_v3_apply, val_main_v2_apply]
    exact congrArg x1 (idx2_ext _ 1 ⟨e.val, h⟩ rfl (Nat.mod_eq_of_lt h))
  · rw [dif_neg h, concatenate_pair_apply_right _ _ _ concatenates_S3200000_S100000_S3300000_d0 (ix1 e) rfl rfl
      (ix1 ⟨e.val - 3200000, by have := e.isLt; omega⟩)
      (fun b hb => by match b with | ⟨0, _⟩ => exact absurd rfl hb)
      (by show e.val - 3200000 + 3200000 = e.val; omega)]
    rfl

theorem v8_apply (e : Fin 3300000) : val_main_v8 (F := Ideal) x2 (ix1 e) = wtA x2 e := by
  unfold val_main_v8 wtA Spec.wtOf
  by_cases h : e.val < 3200000
  · rw [dif_pos h, concatenate_pair_apply_left _ _ _ concatenates_S3200000_S100000_S3300000_d0 (ix1 e) rfl
      (ix1 ⟨e.val, h⟩) (fun b => by match b with | ⟨0, _⟩ => rfl)]
  · rw [dif_neg h, concatenate_pair_apply_right _ _ _ concatenates_S3200000_S100000_S3300000_d0 (ix1 e) rfl rfl
      (ix1 ⟨e.val - 3200000, by have := e.isLt; omega⟩)
      (fun b hb => by match b with | ⟨0, _⟩ => exact absurd rfl hb)
      (by show e.val - 3200000 + 3200000 = e.val; omega)]
    rw [val_main_v7_apply, val_main_cst_apply, Ideal.ofBits_def, Ideal.ofBits_one_f32]

variable (hidx : ∀ i : S2x3200000.Idx, (0 : Int) ≤ (x1 i).toInt ∧ (x1 i).toInt < 100000)
include hidx

theorem v5_range (e : Fin 3300000) :
    0 ≤ (val_main_v5 (F := Ideal) x1 (ix1 e)).toInt ∧ (val_main_v5 (F := Ideal) x1 (ix1 e)).toInt < 100000 := by
  rw [v5_apply]
  by_cases h : e.val < 3200000
  · rw [dif_pos h]; exact hidx _
  · rw [dif_neg h, toInt_ofNat_small _ (by have := e.isLt; omega)]
    have := e.isLt
    omega

theorem v6_range (e : Fin 3300000) :
    0 ≤ (val_main_v6 (F := Ideal) x1 (ix1 e)).toInt ∧ (val_main_v6 (F := Ideal) x1 (ix1 e)).toInt < 100000 := by
  rw [v6_apply]
  by_cases h : e.val < 3200000
  · rw [dif_pos h]; exact hidx _
  · rw [dif_neg h, toInt_ofNat_small _ (by have := e.isLt; omega)]
    have := e.isLt
    omega

omit hidx in
theorem nodeOf_v5 (e : Fin 3300000) : Spec.nodeOf (val_main_v5 (F := Ideal) x1 (ix1 e)) = srcA x1 e := by
  rw [v5_apply]
  unfold srcA Spec.srcOf Spec.extIdx
  by_cases h : e.val < 3200000
  · rw [dif_pos h, dif_pos h]
  · rw [dif_neg h, dif_neg h]
    exact nodeOf_ofNat _ _

omit hidx in
theorem nodeOf_v6 (e : Fin 3300000) : Spec.nodeOf (val_main_v6 (F := Ideal) x1 (ix1 e)) = dstA x1 e := by
  rw [v6_apply]
  unfold dstA Spec.dstOf Spec.extIdx
  by_cases h : e.val < 3200000
  · rw [dif_pos h, dif_pos h]
  · rw [dif_neg h, dif_neg h]
    exact nodeOf_ofNat _ _

theorem dst_iff (e : Fin 3300000) (n : Fin 100000) :
    (val_main_v6 (F := Ideal) x1 (ix1 e)).toInt = (n.val : ℤ) ↔ dstA x1 e = n := by
  rw [← nodeOf_v6 x1 e]
  exact Spec.toInt_eq_iff_nodeOf_eq _ (v6_range x1 hidx e).1 (v6_range x1 hidx e).2 n

theorem v20_apply (e : Fin 3300000) : val_main_v20 (F := Ideal) x1 (ix1 e) = val_main_v5 (F := Ideal) x1 (ix1 e) := by
  rw [val_main_v20_apply, val_main_v17_apply, val_main_v19_apply, val_main_v16_apply, val_main_v18_apply,
    val_main_c_apply, val_main_c_3_apply]
  exact wrap_id _ (v5_range x1 hidx e).1

theorem v28_apply (e : Fin 3300000) : val_main_v28 (F := Ideal) x1 (ix1 e) = val_main_v6 (F := Ideal) x1 (ix1 e) := by
  rw [val_main_v28_apply, val_main_v25_apply, val_main_v27_apply, val_main_v24_apply, val_main_v26_apply,
    val_main_c_4_apply, val_main_c_5_apply]
  exact wrap_id _ (v6_range x1 hidx e).1

theorem v38_apply (e : Fin 3300000) : val_main_v38 (F := Ideal) x1 (ix1 e) = val_main_v5 (F := Ideal) x1 (ix1 e) := by
  rw [val_main_v38_apply, val_main_v35_apply, val_main_v37_apply, val_main_v34_apply, val_main_v36_apply,
    val_main_c_6_apply, val_main_c_7_apply]
  exact wrap_id _ (v5_range x1 hidx e).1

theorem v56_apply (e : Fin 3300000) : val_main_v56 (F := Ideal) x1 (ix1 e) = val_main_v5 (F := Ideal) x1 (ix1 e) := by
  rw [val_main_v56_apply, val_main_v53_apply, val_main_v55_apply, val_main_v52_apply, val_main_v54_apply,
    val_main_c_9_apply, val_main_c_10_apply]
  exact wrap_id _ (v5_range x1 hidx e).1

theorem v21_col (e : Fin 3300000) (z : Fin 1) :
    val_main_v21 (F := Ideal) x1 (ix2 e z) = val_main_v5 (F := Ideal) x1 (ix1 e) := by
  unfold val_main_v21
  rw [col_apply, v20_apply x1 hidx]

theorem v29_col (e : Fin 3300000) (z : Fin 1) :
    val_main_v29 (F := Ideal) x1 (ix2 e z) = val_main_v6 (F := Ideal) x1 (ix1 e) := by
  unfold val_main_v29
  rw [col_apply, v28_apply x1 hidx]

theorem v39_col (e : Fin 3300000) (z : Fin 1) :
    val_main_v39 (F := Ideal) x1 (ix2 e z) = val_main_v5 (F := Ideal) x1 (ix1 e) := by
  unfold val_main_v39
  rw [col_apply, v38_apply x1 hidx]

theorem v57_col (e : Fin 3300000) (z : Fin 1) :
    val_main_v57 (F := Ideal) x1 (ix2 e z) = val_main_v5 (F := Ideal) x1 (ix1 e) := by
  unfold val_main_v57
  rw [col_apply, v56_apply x1 hidx]

end

section
variable (x0 : (⟨S100000x1, .f32⟩ : BufTy).Contents (Elt Ideal)) (x1 : (⟨S2x3200000, .i32⟩ : BufTy).Contents (Elt Ideal))
  (x2 : (⟨S3200000, .f32⟩ : BufTy).Contents (Elt Ideal)) (x3 : (⟨S1x16, .f32⟩ : BufTy).Contents (Elt Ideal))
  (x4 : (⟨S16, .f32⟩ : BufTy).Contents (Elt Ideal)) (x5 : (⟨S16x2, .f32⟩ : BufTy).Contents (Elt Ideal))
  (x6 : (⟨S2, .f32⟩ : BufTy).Contents (Elt Ideal))
  (hidx : ∀ i : S2x3200000.Idx, (0 : Int) ≤ (x1 i).toInt ∧ (x1 i).toInt < 100000)
include hidx

theorem v11_apply (n : Fin 100000) : val_main_v11 (F := Ideal) x1 x2 (ix1 n) = Spec.deg (dstA x1) (wtA x2) n := by
  unfold val_main_v11
  rw [show scatter_S100000_S3300000x1_S3300000_n_0_0_1 = vecScatter 100000 3300000 _ from rfl, vecScatterAdd_apply,
    val_main_v9_apply, val_main_cst_0_apply, Ideal.ofBits_def, Ideal.ofBits_zero_f32, zero_add, Finset.sum_filter]
  unfold Spec.deg
  refine Finset.sum_congr rfl fun e _ => ?_
  refine if_congr ?_ (v8_apply x2 e) rfl
  unfold val_main_v10
  rw [col_apply]
  exact dst_iff x1 hidx e n

theorem v15_apply (n : Fin 100000) : val_main_v15 (F := Ideal) x1 x2 (ix1 n) = Spec.dinv (dstA x1) (wtA x2) n := by
  rw [val_main_v15_apply, val_main_v13_apply, val_main_v14_apply, val_main_call0_v1_apply, val_main_call0_v0_apply,
    val_main_cst_2_apply, val_main_v12_apply, val_main_cst_1_apply, v11_apply x1 x2 hidx, Ideal.ofBits_def,
    Ideal.ofBits_zero_f32, Ideal.hostUnary_rsqrt_def]
  rfl

theorem v22_apply (e : Fin 3300000) :
    val_main_v22 (F := Ideal) x1 x2 (ix1 e) = Spec.dinv (dstA x1) (wtA x2) (srcA x1 e) := by
  unfold val_main_v22
  rw [show gather_S100000_S3300000x1_S3300000_n_0_n_n_0_1_1 = vecGather 100000 3300000 _ from rfl,
    vecGather_apply_of_eq (by decide) _ _ _ e _ (v21_col x1 hidx e 0)]
  show val_main_v15 (F := Ideal) x1 x2 (ix1 (Spec.nodeOf (val_main_v5 (F := Ideal) x1 (ix1 e)))) = _
  rw [nodeOf_v5, v15_apply x1 x2 hidx]

theorem v30_apply (e : Fin 3300000) :
    val_main_v30 (F := Ideal) x1 x2 (ix1 e) = Spec.dinv (dstA x1) (wtA x2) (dstA x1 e) := by
  unfold val_main_v30
  rw [show gather_S100000_S3300000x1_S3300000_n_0_n_n_0_1_1 = vecGather 100000 3300000 _ from rfl,
    vecGather_apply_of_eq (by decide) _ _ _ e _ (v29_col x1 hidx e 0)]
  show val_main_v15 (F := Ideal) x1 x2 (ix1 (Spec.nodeOf (val_main_v6 (F := Ideal) x1 (ix1 e)))) = _
  rw [nodeOf_v6, v15_apply x1 x2 hidx]

theorem v31_apply (e : Fin 3300000) :
    val_main_v31 (F := Ideal) x1 x2 (ix1 e) = Spec.norm (srcA x1) (dstA x1) (wtA x2) e := by
  rw [val_main_v31_apply, val_main_v23_apply, v22_apply x1 x2 hidx, v30_apply x1 x2 hidx, v8_apply]
  rfl

omit hidx in

theorem v32_apply (n : Fin 100000) (j : Fin 16) :
    val_main_v32 (F := Ideal) x0 x3 (ix2 n j) = x0 (ix2 n 0) * x3 (ix2 0 j) := by
  rw [val_main_v32_apply, Fin.sum_univ_one, idx2_ext (lidx_main_v32 (ix2 n j) 0) n 0 rfl rfl,
    idx2_ext (ridx_main_v32 (ix2 n j) 0) 0 j rfl rfl]

theorem v40_apply (e : Fin 3300000) (j : Fin 16) :
    val_main_v40 (F := Ideal) x0 x1 x3 (ix2 e j) = x0 (ix2 (srcA x1 e) 0) * x3 (ix2 0 j) := by
  unfold val_main_v40
  rw [show gather_S100000x16_S3300000x1_S3300000x16_1_0_n_n_0_1_116 = rowGather 100000 3300000 16 _ from rfl,
    rowGather_apply_of_eq (by decide) _ _ _ e j _ (v39_col x1 hidx e 0)]
  show val_main_v32 (F := Ideal) x0 x3 (ix2 (Spec.nodeOf (val_main_v5 (F := Ideal) x1 (ix1 e))) j) = _
  rw [nodeOf_v5, v32_apply]

theorem v42_apply (e : Fin 3300000) (j : Fin 16) :
    val_main_v42 (F := Ideal) x0 x1 x2 x3 (ix2 e j)
      = Spec.norm (srcA x1) (dstA x1) (wtA x2) e * (x0 (ix2 (srcA x1 e) 0) * x3 (ix2 0 j)) := by
  rw [val_main_v42_apply, v40_apply x0 x1 x3 hidx]
  unfold val_main_v41
  rw [bcastFeat_apply]
  unfold val_main_v33
  rw [col_apply, v31_apply x1 x2 hidx]
  rfl

theorem v45_apply (n : Fin 100000) (j : Fin 16) :
    val_main_v45 (F := Ideal) x0 x1 x2 x3 (ix2 n j)
      = Spec.agg1 (srcA x1) (dstA x1) (wtA x2) (fun n => x0 (ix2 n 0)) (fun j => x3 (ix2 0 j)) n j := by
  unfold val_main_v45
  rw [show scatter_S100000x16_S3300000x1_S3300000x16_1_0_0_1 = rowScatter 100000 3300000 16 _ from rfl,
    rowScatterAdd_apply, val_main_v43_apply, val_main_cst_8_apply, Ideal.ofBits_def, Ideal.ofBits_zero_f32, zero_add,
    Finset.sum_filter]
  unfold Spec.agg1
  refine Finset.sum_congr rfl fun e _ => ?_
  refine if_congr ?_ (v42_apply x0 x1 x2 x3 hidx e j) rfl
  unfold val_main_v44
  rw [col_apply]
  exact dst_iff x1 hidx e n

theorem v49_apply (n : Fin 100000) (j : Fin 16) :
    val_main_v49 (F := Ideal) x0 x1 x2 x3 x4 (ix2 n j)
      = Spec.h1 (srcA x1) (dstA x1) (wtA x2) (fun n => x0 (ix2 n 0)) (fun j => x3 (ix2 0 j)) (fun j => x4 (ix1 j)) n j := by
  rw [val_main_v49_apply, val_main_call1_v0_apply, val_main_call1_cst_apply, val_main_v48_apply,
    v45_apply x0 x1 x2 x3 hidx, Ideal.ofBits_def, Ideal.ofBits_zero_f32]
  unfold val_main_v47
  rw [bcastRows_apply]
  unfold val_main_v46
  rw [bcastRow_apply]
  rfl

theorem v50_apply (n : Fin 100000) (f : Fin 2) :
    val_main_v50 (F := Ideal) x0 x1 x2 x3 x4 x5 (ix2 n f)
      = Spec.hw (srcA x1) (dstA x1) (wtA x2) (fun n => x0 (ix2 n 0)) (fun j => x3 (ix2 0 j)) (fun j => x4 (ix1 j))
          (fun k f => x5 (ix2 k f)) n f := by
  rw [val_main_v50_apply]
  unfold Spec.hw
  refine Finset.sum_congr rfl fun k _ => ?_
  rw [idx2_ext (lidx_main_v50 (ix2 n f) k) n k rfl rfl, idx2_ext (ridx_main_v50 (ix2 n f) k) k f rfl rfl,
    v49_apply x0 x1 x2 x3 x4 hidx]

theorem v58_apply (e : Fin 3300000) (f : Fin 2) :
    val_main_v58 (F := Ideal) x0 x1 x2 x3 x4 x5 (ix2 e f)
      = Spec.hw (srcA x1) (dstA x1) (wtA x2) (fun n => x0 (ix2 n 0)) (fun j => x3 (ix2 0 j)) (fun j => x4 (ix1 j))
          (fun k f => x5 (ix2 k f)) (srcA x1 e) f := by
  unfold val_main_v58
  rw [show gather_S100000x2_S3300000x1_S3300000x2_1_0_n_n_0_1_12 = rowGather 100000 3300000 2 _ from rfl,
    rowGather_apply_of_eq (by decide) _ _ _ e f _ (v57_col x1 hidx e 0)]
  show val_main_v50 (F := Ideal) x0 x1 x2 x3 x4 x5 (ix2 (Spec.nodeOf (val_main_v5 (F := Ideal) x1 (ix1 e))) f) = _
  rw [nodeOf_v5, v50_apply x0 x1 x2 x3 x4 x5 hidx]

theorem v60_apply (e : Fin 3300000) (f : Fin 2) :
    val_main_v60 (F := Ideal) x0 x1 x2 x3 x4 x5 (ix2 e f)
      = Spec.norm (srcA x1) (dstA x1) (wtA x2) e
        * Spec.hw (srcA x1) (dstA x1) (wtA x2) (fun n => x0 (ix2 n 0)) (fun j => x3 (ix2 0 j)) (fun j => x4 (ix1 j))
          (fun k f => x5 (ix2 k f)) (srcA x1 e) f := by
  rw [val_main_v60_apply, v58_apply x0 x1 x2 x3 x4 x5 hidx]
  unfold val_main_v59
  rw [bcastFeat_apply]
  unfold val_main_v51
  rw [col_apply, v31_apply x1 x2 hidx]
  rfl

theorem v63_apply (n : Fin 100000) (f : Fin 2) :
    val_main_v63 (F := Ideal) x0 x1 x2 x3 x4 x5 (ix2 n f)
      = Spec.agg2 (srcA x1) (dstA x1) (wtA x2) (fun n => x0 (ix2 n 0)) (fun j => x3 (ix2 0 j)) (fun j => x4 (ix1 j))
          (fun k f => x5 (ix2 k f)) n f := by
  unfold val_main_v63
  rw [show scatter_S100000x2_S3300000x1_S3300000x2_1_0_0_1 = rowScatter 100000 3300000 2 _ from rfl,
    rowScatterAdd_apply, val_main_v61_apply, val_main_cst_11_apply, Ideal.ofBits_def, Ideal.ofBits_zero_f32, zero_add,
    Finset.sum_filter]
  unfold Spec.agg2
  refine Finset.sum_congr rfl fun e _ => ?_
  refine if_congr ?_ (v60_apply x0 x1 x2 x3 x4 x5 hidx e f) rfl
  unfold val_main_v62
  rw [col_apply]
  exact dst_iff x1 hidx e n

theorem v66_eq : val_main_v66 (F := Ideal) x0 x1 x2 x3 x4 x5 x6 = Spec.outArr x0 x1 x2 x3 x4 x5 x6 := by
  funext i
  obtain ⟨n, f, rfl⟩ : ∃ (n : Fin 100000) (f : Fin 2), i = ix2 n f := ⟨i 0, i 1, eq_ix2 i⟩
  rw [val_main_v66_apply, v63_apply x0 x1 x2 x3 x4 x5 hidx]
  unfold val_main_v65
  rw [bcastRows_apply]
  unfold val_main_v64
  rw [bcastRow_apply]
  rfl

omit hidx in

theorem v67_eq_lsm : val_main_v67 (F := Ideal) x0 x1 x2 x3 x4 x5 x6 = lsm (val_main_v66 (F := Ideal) x0 x1 x2 x3 x4 x5 x6) := by
  unfold val_main_v67 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1 lsm lsmShift
  rfl

theorem ref_result_eq :
    val_main_v67 (F := Ideal) x0 x1 x2 x3 x4 x5 x6 = lsm (Spec.outArr x0 x1 x2 x3 x4 x5 x6) := by
  rw [v67_eq_lsm, v66_eq x0 x1 x2 x3 x4 x5 x6 hidx]

end

theorem ref_run_result_eq (m : (ℓ : Loc nD τ sig) → Buf (Elt Ideal) ℓ) (c : Dev nD)
    (hidx : ∀ i : S2x3200000.Idx, (0 : Int) ≤ ((m ((c.tc : Thread nD τ).loc main_arg1)) i).toInt
      ∧ ((m ((c.tc : Thread nD τ).loc main_arg1)) i).toInt < 100000) :
    Cert.ReferenceIdeal.Value.res_main_v67 m c
      = lsm (Spec.outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))) := by
  rw [val_main_v67_eq]
  exact ref_result_eq _ _ _ _ _ _ _ hidx

end Cert.Gcn.RefValue

end
-- ==== Proof.KI.Common.lean ====
import proofs.«401711_j53747220742790_3_alg».proof.Proof.Gen.KernelIdeal.Regions
import Idealize.ShloMosaic.Lib.Pipeline.Kit

set_option maxRecDepth 1288

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

def TblOk (tbl : Vec F S25792 .i32) : Prop :=
  ∀ x : S25792.Idx, 128 ∣ (tbl x).toNat ∧ (tbl x).toNat + 256 ≤ 100096

end Cert.KernelIdeal.Hand

end
-- ==== Proof.KI.Outs.lean ====
import proofs.«401711_j53747220742790_3_alg».proof.Proof.KI.Common

set_option maxRecDepth 1288

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

variable (o6 : (c : Dev nD) → Buf (Elt F) ((c : Thread nD τ).loc main_v47))
variable (o10 : (Dev nD → Valuation τ sig (Elt F)) → (c : Dev nD) → Buf (Elt F) ((c : Thread nD τ).loc main_v70))
variable (o14 : (Dev nD → Valuation τ sig (Elt F)) → (c : Dev nD) → Buf (Elt F) ((c : Thread nD τ).loc main_v98))

def W6 (c : Dev nD) : Valuation τ sig (Elt F) := Function.update (V5 m c) main_v47 (o6 c)

def W9 (c : Dev nD) : Valuation τ sig (Elt F) :=
  StableHlo.after hostOps1_2 (StableHlo.after hostOps1_1 (StableHlo.after hostOps1 (W6 m o6 c)))

def W10 (c : Dev nD) : Valuation τ sig (Elt F) := Function.update (W9 m o6 c) main_v70 (o10 (W9 m o6) c)

def W13 (c : Dev nD) : Valuation τ sig (Elt F) :=
  StableHlo.after hostOps2_2 (StableHlo.after hostOps2_1 (StableHlo.after hostOps2 (W10 m o6 o10 c)))

def W14 (c : Dev nD) : Valuation τ sig (Elt F) := Function.update (W13 m o6 o10 c) main_v98 (o14 (W13 m o6 o10) c)

def W16 (c : Dev nD) : Valuation τ sig (Elt F) :=
  StableHlo.after hostOps3_1 (StableHlo.after hostOps3 (W14 m o6 o10 o14 c))

def outs : Outs (F := F)
  | 6, r, c => W6 m o6 c r
  | 10, r, c => W10 m o6 o10 c r
  | 14, r, c => W14 m o6 o10 o14 c r
  | _, r, c => m ((c : Thread nD τ).loc r)

theorem outs_6 (c : Dev nD) : outs m o6 o10 o14 6 main_v47 c = o6 c := by
  show W6 m o6 c main_v47 = o6 c
  unfold W6; exact Function.update_self ..
theorem outs_10 (c : Dev nD) : outs m o6 o10 o14 10 main_v70 c = o10 (W9 m o6) c := by
  show W10 m o6 o10 c main_v70 = _
  unfold W10; exact Function.update_self ..
theorem outs_14 (c : Dev nD) : outs m o6 o10 o14 14 main_v98 c = o14 (W13 m o6 o10) c := by
  show W14 m o6 o10 o14 c main_v98 = _
  unfold W14; exact Function.update_self ..

theorem V6_eq (c : Dev nD) : V6 m (outs m o6 o10 o14) c = W6 m o6 c := by
  show Function.update (V5 m c) main_v47 (outs m o6 o10 o14 6 main_v47 c) = _
  rw [outs_6]; rfl
theorem V9_eq (c : Dev nD) : V9 m (outs m o6 o10 o14) c = W9 m o6 c :=
  congrArg (fun v => StableHlo.after hostOps1_2 (StableHlo.after hostOps1_1 (StableHlo.after hostOps1 v))) (V6_eq m o6 o10 o14 c)
theorem V10_eq (c : Dev nD) : V10 m (outs m o6 o10 o14) c = W10 m o6 o10 c := by
  show Function.update (V9 m (outs m o6 o10 o14) c) main_v70 (outs m o6 o10 o14 10 main_v70 c) = _
  rw [outs_10, V9_eq]; rfl
theorem V13_eq (c : Dev nD) : V13 m (outs m o6 o10 o14) c = W13 m o6 o10 c :=
  congrArg (fun v => StableHlo.after hostOps2_2 (StableHlo.after hostOps2_1 (StableHlo.after hostOps2 v))) (V10_eq m o6 o10 o14 c)
theorem V14_eq (c : Dev nD) : V14 m (outs m o6 o10 o14) c = W14 m o6 o10 o14 c := by
  show Function.update (V13 m (outs m o6 o10 o14) c) main_v98 (outs m o6 o10 o14 14 main_v98 c) = _
  rw [outs_14, V13_eq]; rfl
theorem V16_eq (c : Dev nD) : V16 m (outs m o6 o10 o14) c
    = StableHlo.after hostOps3_1 (StableHlo.after hostOps3 (W14 m o6 o10 o14 c)) :=
  congrArg (fun v => StableHlo.after hostOps3_1 (StableHlo.after hostOps3 v)) (V14_eq m o6 o10 o14 c)
theorem V16_eq' (c : Dev nD) : V16 m (outs m o6 o10 o14) c = W16 m o6 o10 o14 c := V16_eq m o6 o10 o14 c

theorem W6_of (c : Dev nD) (r : Ref sig .tc) (h : r ∉ ([main_v47] : List (Ref sig .tc))) : W6 m o6 c r = V5 m c r := by
  unfold W6
  exact Function.update_of_ne (StableHlo.devRef_ne_of_ne (List.ne_of_not_mem_cons h) : (Proc.devRef .tc r : DevRef τ sig) ≠ Proc.devRef .tc main_v47) ..
theorem W9_of (c : Dev nD) (r : Ref sig .tc) (h1 : r ∉ hostOps1_W) (h2 : r ∉ hostOps1_1_W) (h3 : r ∉ hostOps1_2_W) :
    W9 m o6 c r = W6 m o6 c r := by
  unfold W9
  exact (StableHlo.after_of_writes_sub hostOps1_2 _ hostOps1_2_writes h3).trans
    ((StableHlo.after_of_writes_sub hostOps1_1 _ hostOps1_1_writes h2).trans (StableHlo.after_of_writes_sub hostOps1 _ hostOps1_writes h1))
theorem W10_of (c : Dev nD) (r : Ref sig .tc) (h : r ∉ ([main_v70] : List (Ref sig .tc))) : W10 m o6 o10 c r = W9 m o6 c r := by
  unfold W10
  exact Function.update_of_ne (StableHlo.devRef_ne_of_ne (List.ne_of_not_mem_cons h) : (Proc.devRef .tc r : DevRef τ sig) ≠ Proc.devRef .tc main_v70) ..
theorem W13_of (c : Dev nD) (r : Ref sig .tc) (h1 : r ∉ hostOps2_W) (h2 : r ∉ hostOps2_1_W) (h3 : r ∉ hostOps2_2_W) :
    W13 m o6 o10 c r = W10 m o6 o10 c r := by
  unfold W13
  exact (StableHlo.after_of_writes_sub hostOps2_2 _ hostOps2_2_writes h3).trans
    ((StableHlo.after_of_writes_sub hostOps2_1 _ hostOps2_1_writes h2).trans (StableHlo.after_of_writes_sub hostOps2 _ hostOps2_writes h1))

theorem W6_main_v44 (c : Dev nD) : W6 m o6 c main_v44 = V5 m c main_v44 := W6_of m o6 c main_v44 (by decide)
theorem W9_main_v44 (c : Dev nD) : W9 m o6 c main_v44 = V5 m c main_v44 :=
  (W9_of m o6 c main_v44 (by decide) (by decide) (by decide)).trans (W6_main_v44 m o6 c)
theorem W10_main_v44 (c : Dev nD) : W10 m o6 o10 c main_v44 = V5 m c main_v44 :=
  (W10_of m o6 o10 c main_v44 (by decide)).trans (W9_main_v44 m o6 c)
theorem W13_main_v44 (c : Dev nD) : W13 m o6 o10 c main_v44 = V5 m c main_v44 :=
  (W13_of m o6 o10 c main_v44 (by decide) (by decide) (by decide)).trans (W10_main_v44 m o6 o10 c)

theorem W6_main_v34 (c : Dev nD) : W6 m o6 c main_v34 = V5 m c main_v34 := W6_of m o6 c main_v34 (by decide)
theorem W9_main_v34 (c : Dev nD) : W9 m o6 c main_v34 = V5 m c main_v34 :=
  (W9_of m o6 c main_v34 (by decide) (by decide) (by decide)).trans (W6_main_v34 m o6 c)
theorem W10_main_v34 (c : Dev nD) : W10 m o6 o10 c main_v34 = V5 m c main_v34 :=
  (W10_of m o6 o10 c main_v34 (by decide)).trans (W9_main_v34 m o6 c)
theorem W13_main_v34 (c : Dev nD) : W13 m o6 o10 c main_v34 = V5 m c main_v34 :=
  (W13_of m o6 o10 c main_v34 (by decide) (by decide) (by decide)).trans (W10_main_v34 m o6 o10 c)

end Cert.KernelIdeal.Hand

end
-- ==== Proof.KI.LaunchFrame.lean ====
import proofs.«401711_j53747220742790_3_alg».proof.Proof.KI.Common

set_option maxRecDepth 1288

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

theorem launch_hu₀ (a : (p : Fin 3) → (pcfgs (F := F) p).Adm) :
    (ownU (initOf (Pipeline.cells (Pipeline.pin (pcfgs (F := F)) a) (cellOf_inj a)) (Pipeline.launchToks (Pipeline.pin (pcfgs (F := F)) a) (cellOf_inj a))) : sProp 𝕄)
      ⊢ |={Set.univ}=> iprop(BI.own ((emb₁ : Emb (UR sig nD τ) 𝕄) (initOf (Pipeline.cells (Pipeline.pin (pcfgs (F := F)) a) (cellOf_inj a)) (Pipeline.launchToks (Pipeline.pin (pcfgs (F := F)) a) (cellOf_inj a))))
          ∗ bigSep Finset.univ fun _ : Dev nD => (iprop(emp) : sProp 𝕄)) := by
  iintro Hu; imodintro
  isplitl [Hu]
  · iapply (show (ownU (initOf (Pipeline.cells (Pipeline.pin (pcfgs (F := F)) a) (cellOf_inj a)) (Pipeline.launchToks (Pipeline.pin (pcfgs (F := F)) a) (cellOf_inj a))) : sProp 𝕄)
        ⊢ BI.own ((emb₁ : Emb (UR sig nD τ) 𝕄) (initOf (Pipeline.cells (Pipeline.pin (pcfgs (F := F)) a) (cellOf_inj a)) (Pipeline.launchToks (Pipeline.pin (pcfgs (F := F)) a) (cellOf_inj a)))) from .rfl)
    iexact Hu
  iapply (show (BI.emp : sProp 𝕄) ⊢ bigSep Finset.univ (fun _ : Dev nD => (BI.emp : sProp 𝕄)) from by rw [BI.bigSep_emp_const])
  iempintro

theorem launch_hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem launch_hE3 (c : Dev nD) :
    (R c : sProp 𝕄) ⊢ (iprop(∃ W, owes (c : Thread nD τ) (0 : CellTallies nD τ sig Unit) W) : sProp 𝕄) := by
  iintro ⟨-, HO⟩; iexact HO

set_option backward.isDefEq.respectTransparency.types false in

theorem frame_of_regions (ρ : Dev nD → PrngReg) (outs : Outs (F := F)) (a : (p : Fin 3) → (pcfgs (F := F) p).Adm)
    (pdats : (p : Fin 3) → (c : Dev nD) → Dat τ (Elt F) Unit ℕ (UR sig nD τ) ℕ (Pipeline.pin (pcfgs (F := F)) a p) c)
    (R0 : RegionSeg (pcfgs (F := F)) a pdats () defs₀ 𝒱₀ L lv 0)
    (hpre0 : ∀ c : Dev nD, iprop(StableHlo.held (c : Thread nD τ) (Pipeline.ucRefs τ sig) (V5 m c) ∗ R c) ⊢ R0.pre c)
    (hpost0 : ∀ c : Dev nD, R0.post c ⊢ iprop(StableHlo.held (c : Thread nD τ) (Pipeline.ucRefs τ sig) (V6 m outs c) ∗ R c))
    (R1 : RegionSeg (pcfgs (F := F)) a pdats () defs₀ 𝒱₀ L lv 1)
    (hpre1 : ∀ c : Dev nD, iprop(StableHlo.held (c : Thread nD τ) (Pipeline.ucRefs τ sig) (V9 m outs c) ∗ R c) ⊢ R1.pre c)
    (hpost1 : ∀ c : Dev nD, R1.post c ⊢ iprop(StableHlo.held (c : Thread nD τ) (Pipeline.ucRefs τ sig) (V10 m outs c) ∗ R c))
    (R2 : RegionSeg (pcfgs (F := F)) a pdats () defs₀ 𝒱₀ L lv 2)
    (hpre2 : ∀ c : Dev nD, iprop(StableHlo.held (c : Thread nD τ) (Pipeline.ucRefs τ sig) (V13 m outs c) ∗ R c) ⊢ R2.pre c)
    (hpost2 : ∀ c : Dev nD, R2.post c ⊢ iprop(StableHlo.held (c : Thread nD τ) (Pipeline.ucRefs τ sig) (V14 m outs c) ∗ R c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m (EP := emb₁) (ι := ()) (𝒱₀ := 𝒱₀) (L := L) (lv := lv) (hL := fun _ _ => rfl) (ρ := ρ) (outs := outs) (a := a) (pdats := pdats)
    (O₀ := 0) (G := fun _ => iprop(emp)) (u₀ := (initOf (Pipeline.cells (Pipeline.pin (pcfgs (F := F)) a) (cellOf_inj a)) (Pipeline.launchToks (Pipeline.pin (pcfgs (F := F)) a) (cellOf_inj a)))) (hu₀ := launch_hu₀ a)
    (E := fun _ c => R c) (hE0 := launch_hE0 ρ) (hE3 := launch_hE3)
    R0 hpre0 hpost0 R1 hpre1 hpost1 R2 hpre2 hpost2

end Cert.KernelIdeal.Hand

end
-- ==== Proof.KI.HostInts.lean ====
import proofs.«401711_j53747220742790_3_alg».proof.Proof.Gen.KernelIdeal.Regions
import proofs.«401711_j53747220742790_3_alg».proof.Proof.SortWindow
import proofs.«401711_j53747220742790_3_alg».proof.Proof.KI.Common
import Idealize.ShloMosaic.Lib.IdealHost
import Idealize.ShloMosaic.Lib.SortFacts
import Idealize.ShloMosaic.Lib.StableHlo.Run
import Idealize.ShloMosaic.Lib.ValueIdx
import Idealize.ShloMosaic.Lib.StableHlo.Predicate
import Idealize.ShloMosaic.Lib.WordArith
import Idealize.ShloMosaic.Lib.Pipeline.Value

set_option maxRecDepth 1288

noncomputable section

namespace Cert.KernelIdeal.Hand

open Idealize.ShloMosaic Idealize.ShloMosaic.TcCoe
open Idealize.ShloMosaic.ValueIdx
open Cert.KernelIdeal Cert.KernelIdeal.Gen

variable {F : FTy → Type} [FloatOps F]

namespace HostInts

theorem ofFin_eq_ix1 {n : Nat} (k : Fin n) : (Shape.Idx.ofFin k : (⟨1, ![n]⟩ : Shape).Idx) = ValueIdx.ix1 k := by
  funext d; match d with | ⟨0, _⟩ => rfl

theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

def bef {n : Nat} (key : Fin n → BitVec 32) (k k' : Fin n) : Bool := IntOp.cmpi .slt (key k) (key k') == 1#1

theorem bef_true_iff {n : Nat} (key : Fin n → BitVec 32) (k k' : Fin n) :
    bef key k k' = true ↔ (key k).toInt < (key k').toInt := by
  unfold bef
  rw [beq_iff_eq]
  show BitVec.ofBool ((key k).slt (key k')) = 1#1 ↔ _
  rw [StableHlo.Predicate.ofBool_eq_one_iff, BitVec.slt_iff_toInt_lt]

theorem bef_false_iff {n : Nat} (key : Fin n → BitVec 32) (k k' : Fin n) :
    bef key k k' = false ↔ (key k').toInt ≤ (key k).toInt := by
  rw [← Bool.not_eq_true, bef_true_iff]; omega

def ord {n : Nat} (key : Fin n → BitVec 32) : Fin n → Fin n := sortedFrom (bef key)

theorem ord_injective {n : Nat} (key : Fin n → BitVec 32) : Function.Injective (ord key) := sortedFrom_injective _
theorem ord_surjective {n : Nat} (key : Fin n → BitVec 32) : Function.Surjective (ord key) := sortedFrom_surjective _

theorem ord_sorted {n : Nat} (key : Fin n → BitVec 32) (i j : Fin n) (hij : i ≤ j) :
    (key (ord key i)).toInt ≤ (key (ord key j)).toInt := by
  rcases lt_or_eq_of_le hij with h | h
  · have := sortedFrom_noInversion (bef key) (bef key)
      (fun a b hab => by rw [bef_true_iff] at hab; rw [bef_false_iff]; omega) (fun _ _ h => h)
      (fun a b c h₁ h₂ => by rw [bef_false_iff] at h₁ h₂ ⊢; omega) i j h
    exact (bef_false_iff key _ _).mp this
  · rw [h]

theorem argsort_rank1 {n : Nat} (x : IVec ⟨1, ![n]⟩ 32) (cmp : BitVec 32 × BitVec 32 → BitVec 32 × BitVec 32 → BitVec 1)
    (hcmp : ∀ l r, cmp l r = IntOp.cmpi .slt l.1 r.1) (j : Fin n) :
    (Host.sort2 ⟨1, ![n]⟩ 0 cmp x (iotaInDim ⟨1, ![n]⟩ 32 0)).2 (ValueIdx.ix1 j)
      = BitVec.ofNat 32 (ord (fun k => x (ValueIdx.ix1 k)) j).val := by
  rw [sort2_snd_rank1]
  have hb : (fun k k' => cmp (x (Shape.Idx.ofFin k), iotaInDim ⟨1, ![n]⟩ 32 0 (Shape.Idx.ofFin k))
      (x (Shape.Idx.ofFin k'), iotaInDim ⟨1, ![n]⟩ 32 0 (Shape.Idx.ofFin k')) == 1#1) = bef (fun k => x (ValueIdx.ix1 k)) := by
    funext k k'; rw [hcmp]; simp only [ofFin_eq_ix1]; rfl
  rw [hb]
  rfl

attribute [irreducible] ord

theorem concat1_lo {α : Type} {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n) (hj : j.val < n₁) :
    concatenate ⟨1, ![n]⟩ 0 [⟨⟨1, ![n₁]⟩, x₁⟩, ⟨⟨1, ![n₂]⟩, x₂⟩] h (ValueIdx.ix1 j) = x₁ (ValueIdx.ix1 ⟨j.val, hj⟩) :=
  concatenate_pair_apply_left (0 : Fin 1) x₁ x₂ h (ValueIdx.ix1 j) rfl (ValueIdx.ix1 ⟨j.val, hj⟩)
    (fun b => by match b with | ⟨0, _⟩ => rfl)

theorem concat1_hi {α : Type} {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n) (hj : n₁ ≤ j.val)
    (hj2 : j.val - n₁ < n₂) :
    concatenate ⟨1, ![n]⟩ 0 [⟨⟨1, ![n₁]⟩, x₁⟩, ⟨⟨1, ![n₂]⟩, x₂⟩] h (ValueIdx.ix1 j) = x₂ (ValueIdx.ix1 ⟨j.val - n₁, hj2⟩) :=
  concatenate_pair_apply_right (0 : Fin 1) x₁ x₂ h (ValueIdx.ix1 j) rfl rfl (ValueIdx.ix1 ⟨j.val - n₁, hj2⟩)
    (fun b hb => absurd (Subsingleton.elim _ _) hb)
    (by show j.val - n₁ + n₁ = j.val; omega)

theorem wrap_nonneg (w c : BitVec 32) (hw : w.toNat < 2 ^ 31) :
    Scalar.select (IntOp.cmpi .slt w 0#32) (IntOp.addi w c) w = w := by
  have h : IntOp.cmpi .slt w 0#32 = 0#1 := by
    apply ValueIdx.eq_zero_of_ne_one
    intro h1
    have := (StableHlo.Predicate.slt_iff_toNat (a := w) (b := 0#32) hw (by decide)).mp h1
    simp at this
  rw [h]; exact ValueIdx.select_zero _ _

theorem take_wrapped {α : Type} {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (h₁ : (⟨1, ![n]⟩ : Shape).BroadcastsInDim ⟨2, ![n, 1]⟩ ![0])
    (x : (⟨1, ![N]⟩ : Shape).Idx → α) (v z cc : IVec ⟨1, ![n]⟩ 32) (hz : ∀ i, z i = 0#32) (hN : N ≤ 2 ^ 31)
    (p : Fin n) (q : Fin N) (hq : v (ValueIdx.ix1 p) = BitVec.ofNat 32 q.val) :
    Host.gather d x (broadcastInDim ⟨2, ![n, 1]⟩ ![0] h₁ (select (cmpi .slt v z) (addi v cc) v)) (ValueIdx.ix1 p)
      = x (ValueIdx.ix1 q) := by
  have hqv : (v (ValueIdx.ix1 p)).toNat = q.val := by
    rw [hq, BitVec.toNat_ofNat]; exact Nat.mod_eq_of_lt (by have := q.isLt; omega)
  have hg := StableHlo.Predicate.gather_take d hcoll hob hsim hivd x
    (broadcastInDim ⟨2, ![n, 1]⟩ ![0] h₁ (select (cmpi .slt v z) (addi v cc) v)) p (by have := q.isLt; omega)
  simp only [ofFin_eq_ix1] at hg
  have hw : (v (ValueIdx.ix1 p)).toNat < 2 ^ 31 := by have := q.isLt; omega
  have e : select (cmpi .slt v z) (addi v cc) v (ValueIdx.ix1 p) = v (ValueIdx.ix1 p) := by
    show Scalar.select (IntOp.cmpi .slt (v (ValueIdx.ix1 p)) (z (ValueIdx.ix1 p))) (IntOp.addi (v (ValueIdx.ix1 p)) (cc (ValueIdx.ix1 p))) (v (ValueIdx.ix1 p)) = _
    rw [hz]; exact wrap_nonneg _ _ hw
  refine hg.trans (congrArg x (congrArg ValueIdx.ix1 (Fin.ext ?_)))
  show min (broadcastInDim ⟨2, ![n, 1]⟩ ![0] h₁ (select (cmpi .slt v z) (addi v cc) v) (StableHlo.Predicate.ixP p)).toInt.toNat (N - 1)
    = q.val
  rw [StableHlo.Predicate.bcast_col1, ofFin_eq_ix1, e, StableHlo.Predicate.toInt_eq_toNat_of_lt hw]
  simp only [Int.toNat_natCast]
  have := q.isLt
  omega

def sgnw (x : BitVec 32) : BitVec 32 := if x = 0 then 0 else if x.msb then -1 else 1

def fdw (w d : BitVec 32) : BitVec 32 :=
  Scalar.select (IntOp.andi (IntOp.cmpi .ne (sgnw w) (sgnw d)) (IntOp.cmpi .ne (IntOp.remsi .host w d) 0#32))
    (IntOp.subi (IntOp.divsi .host w d) 1#32) (IntOp.divsi .host w d)

theorem toNat_fdw_128 (w : BitVec 32) (hw : w.toNat < 2 ^ 31) : (fdw w 128#32).toNat = w.toNat / 128 := by
  have hcorner : ¬ IntOp.SDivCorner w 128#32 := by
    intro hc; rcases hc with hc | ⟨_, hc⟩ <;> exact absurd hc (by decide)
  have hm : w.msb = false := BitVec.msb_eq_false_iff_two_mul_lt.mpr (by omega)
  have hq : (IntOp.divsi .host w 128#32).toNat = w.toNat / 128 := by
    simp only [IntOp.divsi, if_neg hcorner, BitVec.sdiv_eq, hm, show (128#32 : BitVec 32).msb = false from by decide,
      BitVec.udiv_eq, BitVec.toNat_udiv, BitVec.toNat_ofNat]
  by_cases h0 : w = 0
  · subst h0; decide
  · have hs : IntOp.cmpi .ne (sgnw w) (sgnw 128#32) = 0#1 := by
      have e1 : sgnw w = 1 := by unfold sgnw; rw [if_neg h0, hm]; rfl
      rw [e1]; decide
    unfold fdw
    rw [hs, show IntOp.andi 0#1 (IntOp.cmpi .ne (IntOp.remsi .host w 128#32) 0#32) = 0#1 from BitVec.zero_and,
      ValueIdx.select_zero, hq]

theorem toNat_muli_128 (x : BitVec 32) (hx : x.toNat * 128 < 2 ^ 32) : (IntOp.muli x 128#32).toNat = x.toNat * 128 := by
  show (x * 128#32).toNat = _
  rw [BitVec.toNat_mul]
  exact Nat.mod_eq_of_lt hx

theorem row_head {α : Type} {n R B : Nat} (y : (⟨1, ![n]⟩ : Shape).Idx → α)
    (h₁ : (⟨1, ![n]⟩ : Shape).ShapeCasts ⟨2, ![R, B]⟩) (h₂ : (⟨2, ![R, B]⟩ : Shape).Slices ![0, 0] ⟨2, ![R, 1]⟩)
    (h₃ : (⟨2, ![R, 1]⟩ : Shape).ShapeCasts ⟨1, ![R]⟩) (hB : 0 < B) (k : Fin R) (hk : k.val * B < n) :
    shapeCast ⟨1, ![R]⟩ (extractStridedSlice ⟨2, ![R, 1]⟩ ![0, 0] (shapeCast ⟨2, ![R, B]⟩ y h₁) h₂) h₃ (ValueIdx.ix1 k)
      = y (ValueIdx.ix1 ⟨k.val * B, hk⟩) := by
  refine (shapeCast_apply _ h₃ (ValueIdx.ix1 k) (ValueIdx.ix2 k (0 : Fin 1)) ?_).trans ?_
  · rw [Shape.rowMajor_val_two, Shape.rowMajor_val_one]; show k.val * 1 + 0 = k.val; omega
  refine (extractStridedSlice_apply ![0, 0] _ h₂ (ValueIdx.ix2 k (0 : Fin 1)) (ValueIdx.ix2 k (⟨0, hB⟩ : Fin B)) ?_).trans ?_
  · intro a; match a with
    | ⟨0, _⟩ => show k.val = 0 + k.val; omega
    | ⟨1, _⟩ => rfl
  refine shapeCast_apply _ h₁ (ValueIdx.ix2 k (⟨0, hB⟩ : Fin B)) (ValueIdx.ix1 ⟨k.val * B, hk⟩) ?_
  rw [Shape.rowMajor_val_two, Shape.rowMajor_val_one]; show k.val * B = k.val * B + 0; omega

section Stages
variable (W : Valuation τ sig (Elt F))

theorem st0_v5 : (StableHlo.after hostOps0 W (Proc.devRef .tc main_v5) : IVec S3300000 32)
    = concatenate S3300000 0 [⟨S3200000, shapeCast S3200000 (extractStridedSlice S1x3200000 ![0, 0]
        (W (Proc.devRef .tc main_arg1) : IVec S2x3200000 32) slices_S2x3200000_S1x3200000_0_0) shapeCasts_S1x3200000_S3200000⟩,
      ⟨S100000, iotaInDim S100000 32 0⟩] concatenates_S3200000_S100000_S3300000_d0 := by
  after_results_simp
  try rfl

theorem st0_v6 : (StableHlo.after hostOps0 W (Proc.devRef .tc main_v6) : IVec S3300000 32)
    = concatenate S3300000 0 [⟨S3200000, shapeCast S3200000 (extractStridedSlice S1x3200000 ![1, 0]
        (W (Proc.devRef .tc main_arg1) : IVec S2x3200000 32) slices_S2x3200000_S1x3200000_1_0) shapeCasts_S1x3200000_S3200000⟩,
      ⟨S100000, iotaInDim S100000 32 0⟩] concatenates_S3200000_S100000_S3300000_d0 := by
  after_results_simp
  try rfl

theorem st0_v8 : (StableHlo.after hostOps0 W (Proc.devRef .tc main_v8) : Vec F S3300000 .f32)
    = concatenate S3300000 0 [⟨S3200000, (W (Proc.devRef .tc main_arg2) : Vec F S3200000 .f32)⟩,
      ⟨S100000, broadcastInDim S100000 ![] bcast_S_S100000 (constant (F := F) S_ .f32 0x3F800000#32)⟩]
        concatenates_S3200000_S100000_S3300000_d0 := by
  after_results_simp
  try rfl

theorem st1_v9 : (StableHlo.after hostOps0_1 W (Proc.devRef .tc main_v9) : IVec S3300000 32)
    = (Host.sort2 S3300000 0 comparator_i32_i32_d0 (W (Proc.devRef .tc main_v6) : IVec S3300000 32)
        (iotaInDim S3300000 32 0)).2 := by
  after_results_simp
  try rfl

abbrev wrapped (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 3300000#32))) v)

theorem st2_v16 : (StableHlo.after hostOps0_2 W (Proc.devRef .tc main_v16) : IVec S3300000 32)
    = Host.gather gather_S3300000_S3300000x1_S3300000_n_0_n_n_0_1_1 (W (Proc.devRef .tc main_v5) : IVec S3300000 32)
        (wrapped (W (Proc.devRef .tc main_v9))) := by
  after_results_simp
  try rfl

theorem st2_v23 : (StableHlo.after hostOps0_2 W (Proc.devRef .tc main_v23) : IVec S3300000 32)
    = Host.gather gather_S3300000_S3300000x1_S3300000_n_0_n_n_0_1_1 (W (Proc.devRef .tc main_v6) : IVec S3300000 32)
        (wrapped (W (Proc.devRef .tc main_v9))) := by
  after_results_simp
  try rfl

theorem st2_v30 : (StableHlo.after hostOps0_2 W (Proc.devRef .tc main_v30) : Vec F S3300000 .f32)
    = Host.gather gather_S3300000_S3300000x1_S3300000_n_0_n_n_0_1_1 (W (Proc.devRef .tc main_v8) : Vec F S3300000 .f32)
        (wrapped (W (Proc.devRef .tc main_v9))) := by
  after_results_simp
  try rfl

theorem st2_v32 : (StableHlo.after hostOps0_2 W (Proc.devRef .tc main_v32) : IVec S3301376 32)
    = concatenate S3301376 0 [⟨S3300000, (StableHlo.after hostOps0_2 W (Proc.devRef .tc main_v16) : IVec S3300000 32)⟩,
      ⟨S1376, broadcastInDim S1376 ![] bcast_S_S1376 (constantI S_ 32 0#32)⟩] concatenates_S3300000_S1376_S3301376_d0 := by
  after_results_simp
  try rfl

theorem st2_v34 : (StableHlo.after hostOps0_2 W (Proc.devRef .tc main_v34) : IVec S3301376 32)
    = concatenate S3301376 0 [⟨S3300000, (StableHlo.after hostOps0_2 W (Proc.devRef .tc main_v23) : IVec S3300000 32)⟩,
      ⟨S1376, broadcastInDim S1376 ![] bcast_S_S1376 (constantI S_ 32 99999#32)⟩] concatenates_S3300000_S1376_S3301376_d0 := by
  after_results_simp
  try rfl

theorem st2_v36 : (StableHlo.after hostOps0_2 W (Proc.devRef .tc main_v36) : Vec F S3301376 .f32)
    = concatenate S3301376 0 [⟨S3300000, (StableHlo.after hostOps0_2 W (Proc.devRef .tc main_v30) : Vec F S3300000 .f32)⟩,
      ⟨S1376, broadcastInDim S1376 ![] bcast_S_S1376 (constant (F := F) S_ .f32 0x00000000#32)⟩]
        concatenates_S3300000_S1376_S3301376_d0 := by
  after_results_simp
  try rfl

theorem st2_v41 : (StableHlo.after hostOps0_2 W (Proc.devRef .tc main_v41) : IVec S25792 32)
    = minsi (shapeCast S25792 (extractStridedSlice S25792x1 ![0, 0] (shapeCast S25792x128
        (StableHlo.after hostOps0_2 W (Proc.devRef .tc main_v34) : IVec S3301376 32) shapeCasts_S3301376_S25792x128)
        slices_S25792x128_S25792x1_0_0) shapeCasts_S25792x1_S25792)
      (broadcastInDim S25792 ![] bcast_S_S25792 (constantI S_ 32 99840#32)) := by
  after_results_simp
  try rfl

theorem st2_c9 : (StableHlo.after hostOps0_2 W (Proc.devRef .tc main_c_9) : IVec S_ 32) = constantI S_ 32 128#32 := by
  after_results_simp
  try rfl

theorem st3_v42 : (StableHlo.after hostOps0_3 W (Proc.devRef .tc main_v42) : IVec S25792 32)
    = select (andi (cmpi .ne (signi (W (Proc.devRef .tc main_v41) : IVec S25792 32))
          (broadcastInDim S25792 ![] bcast_S_S25792 (signi (W (Proc.devRef .tc main_c_9) : IVec S_ 32))))
        (cmpi .ne (Host.remsi (W (Proc.devRef .tc main_v41) : IVec S25792 32)
            (broadcastInDim S25792 ![] bcast_S_S25792 (W (Proc.devRef .tc main_c_9) : IVec S_ 32)))
          (broadcastInDim S25792 ![] bcast_S_S25792 (constantI S_ 32 0#32))))
      (subi (Host.divsi (W (Proc.devRef .tc main_v41) : IVec S25792 32)
          (broadcastInDim S25792 ![] bcast_S_S25792 (W (Proc.devRef .tc main_c_9) : IVec S_ 32)))
        (broadcastInDim S25792 ![] bcast_S_S25792 (constantI S_ 32 1#32)))
      (Host.divsi (W (Proc.devRef .tc main_v41) : IVec S25792 32)
        (broadcastInDim S25792 ![] bcast_S_S25792 (W (Proc.devRef .tc main_c_9) : IVec S_ 32))) := by
  after_results_simp
  try rfl

theorem st4_v44 : (StableHlo.after hostOps0_4 W (Proc.devRef .tc main_v44) : IVec S25792 32)
    = muli (W (Proc.devRef .tc main_v42) : IVec S25792 32)
        (broadcastInDim S25792 ![] bcast_S_S25792 (constantI S_ 32 128#32)) := by
  after_results_simp
  try rfl

end Stages

section StagesAt
variable (W : Valuation τ sig (Elt F))

theorem row_at (r : Fin 2) (off : Fin 2 → Nat) (hoff : off = ![r.val, 0]) (hs : S2x3200000.Slices off S1x3200000)
    (x : IVec S2x3200000 32) (e : Fin 3200000) :
    shapeCast S3200000 (extractStridedSlice S1x3200000 off x hs) shapeCasts_S1x3200000_S3200000 (ValueIdx.ix1 e) = x (ValueIdx.ix2 r e) := by
  subst hoff
  refine (shapeCast_apply _ shapeCasts_S1x3200000_S3200000 (ValueIdx.ix1 e) (ValueIdx.ix2 (0 : Fin 1) e) ?_).trans ?_
  · rw [Shape.rowMajor_val_two, Shape.rowMajor_val_one]; show 0 * 3200000 + e.val = e.val; omega
  refine extractStridedSlice_apply _ _ hs _ _ ?_
  intro a; match a with
  | ⟨0, _⟩ => show r.val = r.val + 0; omega
  | ⟨1, _⟩ => show e.val = 0 + e.val; omega

theorem v5_lo (e : Fin 3300000) (he : e.val < 3200000) :
    (StableHlo.after hostOps0 W (Proc.devRef .tc main_v5) : IVec S3300000 32) (ValueIdx.ix1 e)
      = (W (Proc.devRef .tc main_arg1) : IVec S2x3200000 32) (ValueIdx.ix2 (0 : Fin 2) (⟨e.val, he⟩ : Fin 3200000)) := by
  rw [st0_v5]
  exact (concat1_lo _ _ _ e he).trans (row_at 0 _ rfl _ _ _)

theorem v5_hi (e : Fin 3300000) (he : 3200000 ≤ e.val) :
    (StableHlo.after hostOps0 W (Proc.devRef .tc main_v5) : IVec S3300000 32) (ValueIdx.ix1 e) = BitVec.ofNat 32 (e.val - 3200000) := by
  rw [st0_v5]
  refine (concat1_hi _ _ _ e he (by have := e.isLt; omega)).trans ?_
  rfl

theorem v6_lo (e : Fin 3300000) (he : e.val < 3200000) :
    (StableHlo.after hostOps0 W (Proc.devRef .tc main_v6) : IVec S3300000 32) (ValueIdx.ix1 e)
      = (W (Proc.devRef .tc main_arg1) : IVec S2x3200000 32) (ValueIdx.ix2 (1 : Fin 2) (⟨e.val, he⟩ : Fin 3200000)) := by
  rw [st0_v6]
  exact (concat1_lo _ _ _ e he).trans (row_at 1 _ rfl _ _ _)

theorem v6_hi (e : Fin 3300000) (he : 3200000 ≤ e.val) :
    (StableHlo.after hostOps0 W (Proc.devRef .tc main_v6) : IVec S3300000 32) (ValueIdx.ix1 e) = BitVec.ofNat 32 (e.val - 3200000) := by
  rw [st0_v6]
  refine (concat1_hi _ _ _ e he (by have := e.isLt; omega)).trans ?_
  rfl

theorem v8_lo (e : Fin 3300000) (he : e.val < 3200000) :
    (StableHlo.after hostOps0 W (Proc.devRef .tc main_v8) : Vec F S3300000 .f32) (ValueIdx.ix1 e)
      = (W (Proc.devRef .tc main_arg2) : Vec F S3200000 .f32) (ValueIdx.ix1 (⟨e.val, he⟩ : Fin 3200000)) := by
  rw [st0_v8]
  exact concat1_lo _ _ _ e he

theorem v8_hi (e : Fin 3300000) (he : 3200000 ≤ e.val) :
    (StableHlo.after hostOps0 W (Proc.devRef .tc main_v8) : Vec F S3300000 .f32) (ValueIdx.ix1 e)
      = (constant (F := F) S_ .f32 0x3F800000#32) ValueIdx.ix0 := by
  rw [st0_v8]
  exact (concat1_hi _ _ _ e he (by have := e.isLt; omega)).trans (broadcastInDim_scalar_apply _ _ _)

theorem v9_at (j : Fin 3300000) :
    (StableHlo.after hostOps0_1 W (Proc.devRef .tc main_v9) : IVec S3300000 32) (ValueIdx.ix1 j)
      = BitVec.ofNat 32 (ord (fun k : Fin 3300000 => (W (Proc.devRef .tc main_v6) : IVec S3300000 32) (ValueIdx.ix1 k)) j).val := by
  rw [st1_v9]
  exact argsort_rank1 _ comparator_i32_i32_d0 (fun _ _ => rfl) j

theorem gather_at {α : Type} (x : S3300000.Idx → α) (v : IVec S3300000 32) (j q : Fin 3300000)
    (hq : v (ValueIdx.ix1 j) = BitVec.ofNat 32 q.val) :
    Host.gather gather_S3300000_S3300000x1_S3300000_n_0_n_n_0_1_1 x (wrapped v) (ValueIdx.ix1 j) = x (ValueIdx.ix1 q) :=
  take_wrapped gather_S3300000_S3300000x1_S3300000_n_0_n_n_0_1_1 rfl rfl rfl rfl bcast_S3300000_S3300000x1_0 x v
    (broadcastInDim S3300000 ![] bcast_S_S3300000 (constantI S_ 32 0#32))
    (broadcastInDim S3300000 ![] bcast_S_S3300000 (constantI S_ 32 3300000#32))
    (fun i => broadcastInDim_scalar_apply _ _ i) (by norm_num) j q hq

theorem v32_lo (j : Fin 3301376) (hj : j.val < 3300000) (q : Fin 3300000)
    (hq : (W (Proc.devRef .tc main_v9) : IVec S3300000 32) (ValueIdx.ix1 (⟨j.val, hj⟩ : Fin 3300000)) = BitVec.ofNat 32 q.val) :
    (StableHlo.after hostOps0_2 W (Proc.devRef .tc main_v32) : IVec S3301376 32) (ValueIdx.ix1 j)
      = (W (Proc.devRef .tc main_v5) : IVec S3300000 32) (ValueIdx.ix1 q) := by
  rw [st2_v32]
  refine (concat1_lo _ _ _ j hj).trans ?_
  rw [st2_v16]
  exact gather_at _ _ _ q hq

theorem v32_hi (j : Fin 3301376) (hj : 3300000 ≤ j.val) :
    (StableHlo.after hostOps0_2 W (Proc.devRef .tc main_v32) : IVec S3301376 32) (ValueIdx.ix1 j) = 0#32 := by
  rw [st2_v32]
  exact (concat1_hi _ _ _ j hj (by have := j.isLt; omega)).trans (broadcastInDim_scalar_apply _ _ _)

theorem v34_lo (j : Fin 3301376) (hj : j.val < 3300000) (q : Fin 3300000)
    (hq : (W (Proc.devRef .tc main_v9) : IVec S3300000 32) (ValueIdx.ix1 (⟨j.val, hj⟩ : Fin 3300000)) = BitVec.ofNat 32 q.val) :
    (StableHlo.after hostOps0_2 W (Proc.devRef .tc main_v34) : IVec S3301376 32) (ValueIdx.ix1 j)
      = (W (Proc.devRef .tc main_v6) : IVec S3300000 32) (ValueIdx.ix1 q) := by
  rw [st2_v34]
  refine (concat1_lo _ _ _ j hj).trans ?_
  rw [st2_v23]
  exact gather_at _ _ _ q hq

theorem v34_hi (j : Fin 3301376) (hj : 3300000 ≤ j.val) :
    (StableHlo.after hostOps0_2 W (Proc.devRef .tc main_v34) : IVec S3301376 32) (ValueIdx.ix1 j) = 99999#32 := by
  rw [st2_v34]
  exact (concat1_hi _ _ _ j hj (by have := j.isLt; omega)).trans (broadcastInDim_scalar_apply _ _ _)

theorem v36_lo (j : Fin 3301376) (hj : j.val < 3300000) (q : Fin 3300000)
    (hq : (W (Proc.devRef .tc main_v9) : IVec S3300000 32) (ValueIdx.ix1 (⟨j.val, hj⟩ : Fin 3300000)) = BitVec.ofNat 32 q.val) :
    (StableHlo.after hostOps0_2 W (Proc.devRef .tc main_v36) : Vec F S3301376 .f32) (ValueIdx.ix1 j)
      = (W (Proc.devRef .tc main_v8) : Vec F S3300000 .f32) (ValueIdx.ix1 q) := by
  rw [st2_v36]
  refine (concat1_lo _ _ _ j hj).trans ?_
  rw [st2_v30]
  exact gather_at _ _ _ q hq

theorem v36_hi (j : Fin 3301376) (hj : 3300000 ≤ j.val) :
    (StableHlo.after hostOps0_2 W (Proc.devRef .tc main_v36) : Vec F S3301376 .f32) (ValueIdx.ix1 j)
      = (constant (F := F) S_ .f32 0x00000000#32) ValueIdx.ix0 := by
  rw [st2_v36]
  exact (concat1_hi _ _ _ j hj (by have := j.isLt; omega)).trans (broadcastInDim_scalar_apply _ _ _)

theorem v41_at (k : Fin 25792) :
    (StableHlo.after hostOps0_2 W (Proc.devRef .tc main_v41) : IVec S25792 32) (ValueIdx.ix1 k)
      = IntOp.minsi ((StableHlo.after hostOps0_2 W (Proc.devRef .tc main_v34) : IVec S3301376 32)
          (ValueIdx.ix1 (⟨k.val * 128, by have := k.isLt; omega⟩ : Fin 3301376))) 99840#32 := by
  rw [st2_v41]
  exact congrArg₂ IntOp.minsi
    (row_head _ shapeCasts_S3301376_S25792x128 slices_S25792x128_S25792x1_0_0 shapeCasts_S25792x1_S25792 (by norm_num) k
      (by have := k.isLt; omega))
    (broadcastInDim_scalar_apply _ _ _)

theorem v42_at (k : Fin 25792) (hc : (W (Proc.devRef .tc main_c_9) : IVec S_ 32) ValueIdx.ix0 = 128#32) :
    (StableHlo.after hostOps0_3 W (Proc.devRef .tc main_v42) : IVec S25792 32) (ValueIdx.ix1 k)
      = fdw ((W (Proc.devRef .tc main_v41) : IVec S25792 32) (ValueIdx.ix1 k)) 128#32 := by
  rw [st3_v42]
  have e1 := broadcastInDim_scalar_apply bcast_S_S25792 (signi (W (Proc.devRef .tc main_c_9) : IVec S_ 32)) (ValueIdx.ix1 k)
  have e2 := broadcastInDim_scalar_apply bcast_S_S25792 (W (Proc.devRef .tc main_c_9) : IVec S_ 32) (ValueIdx.ix1 k)
  have e3 := broadcastInDim_scalar_apply bcast_S_S25792 (constantI S_ 32 0#32) (ValueIdx.ix1 k)
  have e4 := broadcastInDim_scalar_apply bcast_S_S25792 (constantI S_ 32 1#32) (ValueIdx.ix1 k)
  show Scalar.select (IntOp.andi (IntOp.cmpi .ne (sgnw ((W (Proc.devRef .tc main_v41) : IVec S25792 32) (ValueIdx.ix1 k)))
        (broadcastInDim S25792 ![] bcast_S_S25792 (signi (W (Proc.devRef .tc main_c_9) : IVec S_ 32)) (ValueIdx.ix1 k)))
      (IntOp.cmpi .ne (IntOp.remsi .host ((W (Proc.devRef .tc main_v41) : IVec S25792 32) (ValueIdx.ix1 k))
          (broadcastInDim S25792 ![] bcast_S_S25792 (W (Proc.devRef .tc main_c_9) : IVec S_ 32) (ValueIdx.ix1 k)))
        (broadcastInDim S25792 ![] bcast_S_S25792 (constantI S_ 32 0#32) (ValueIdx.ix1 k))))
    (IntOp.subi (IntOp.divsi .host ((W (Proc.devRef .tc main_v41) : IVec S25792 32) (ValueIdx.ix1 k))
        (broadcastInDim S25792 ![] bcast_S_S25792 (W (Proc.devRef .tc main_c_9) : IVec S_ 32) (ValueIdx.ix1 k)))
      (broadcastInDim S25792 ![] bcast_S_S25792 (constantI S_ 32 1#32) (ValueIdx.ix1 k)))
    (IntOp.divsi .host ((W (Proc.devRef .tc main_v41) : IVec S25792 32) (ValueIdx.ix1 k))
      (broadcastInDim S25792 ![] bcast_S_S25792 (W (Proc.devRef .tc main_c_9) : IVec S_ 32) (ValueIdx.ix1 k))) = _
  rw [e1, e2, e3, e4]
  show Scalar.select (IntOp.andi (IntOp.cmpi .ne (sgnw ((W (Proc.devRef .tc main_v41) : IVec S25792 32) (ValueIdx.ix1 k)))
        (sgnw ((W (Proc.devRef .tc main_c_9) : IVec S_ 32) ValueIdx.ix0)))
      (IntOp.cmpi .ne (IntOp.remsi .host ((W (Proc.devRef .tc main_v41) : IVec S25792 32) (ValueIdx.ix1 k))
          ((W (Proc.devRef .tc main_c_9) : IVec S_ 32) ValueIdx.ix0)) 0#32))
    (IntOp.subi (IntOp.divsi .host ((W (Proc.devRef .tc main_v41) : IVec S25792 32) (ValueIdx.ix1 k))
        ((W (Proc.devRef .tc main_c_9) : IVec S_ 32) ValueIdx.ix0)) 1#32)
    (IntOp.divsi .host ((W (Proc.devRef .tc main_v41) : IVec S25792 32) (ValueIdx.ix1 k))
      ((W (Proc.devRef .tc main_c_9) : IVec S_ 32) ValueIdx.ix0)) = _
  rw [hc]
  rfl

theorem v44_at (k : Fin 25792) :
    (StableHlo.after hostOps0_4 W (Proc.devRef .tc main_v44) : IVec S25792 32) (ValueIdx.ix1 k)
      = IntOp.muli ((W (Proc.devRef .tc main_v42) : IVec S25792 32) (ValueIdx.ix1 k)) 128#32 := by
  rw [st4_v44]
  exact congrArg (IntOp.muli ((W (Proc.devRef .tc main_v42) : IVec S25792 32) (ValueIdx.ix1 k))) (broadcastInDim_scalar_apply _ _ _)

end StagesAt

end HostInts

open HostInts

variable (m : (ℓ : Loc nD τ sig) → Buf (Elt F) ℓ)

def IdxOk : Prop :=
  ∀ (c : Dev nD) (i : S2x3200000.Idx), 0 ≤ ((V0 m c (Proc.devRef .tc main_arg1) : IVec S2x3200000 32) i).toInt
    ∧ ((V0 m c (Proc.devRef .tc main_arg1) : IVec S2x3200000 32) i).toInt < 100000

section Named
variable (c : Dev nD)

theorem HostInts.V5_v5 : V5 m c (Proc.devRef .tc main_v5) = V1 m c (Proc.devRef .tc main_v5) :=
  (V5_of m c main_v5 (by decide)).trans <| (V4_of m c main_v5 (by decide)).trans <|
    (V3_of m c main_v5 (by decide)).trans (V2_of m c main_v5 (by decide))
theorem HostInts.V5_v6 : V5 m c (Proc.devRef .tc main_v6) = V1 m c (Proc.devRef .tc main_v6) :=
  (V5_of m c main_v6 (by decide)).trans <| (V4_of m c main_v6 (by decide)).trans <|
    (V3_of m c main_v6 (by decide)).trans (V2_of m c main_v6 (by decide))
theorem HostInts.V5_v8 : V5 m c (Proc.devRef .tc main_v8) = V1 m c (Proc.devRef .tc main_v8) :=
  (V5_of m c main_v8 (by decide)).trans <| (V4_of m c main_v8 (by decide)).trans <|
    (V3_of m c main_v8 (by decide)).trans (V2_of m c main_v8 (by decide))
theorem HostInts.V2_v5 : V2 m c (Proc.devRef .tc main_v5) = V1 m c (Proc.devRef .tc main_v5) := V2_of m c main_v5 (by decide)
theorem HostInts.V2_v6 : V2 m c (Proc.devRef .tc main_v6) = V1 m c (Proc.devRef .tc main_v6) := V2_of m c main_v6 (by decide)
theorem HostInts.V2_v8 : V2 m c (Proc.devRef .tc main_v8) = V1 m c (Proc.devRef .tc main_v8) := V2_of m c main_v8 (by decide)
theorem HostInts.V5_v9 : V5 m c (Proc.devRef .tc main_v9) = V2 m c (Proc.devRef .tc main_v9) :=
  (V5_of m c main_v9 (by decide)).trans <| (V4_of m c main_v9 (by decide)).trans (V3_of m c main_v9 (by decide))
theorem HostInts.V5_v32 : V5 m c (Proc.devRef .tc main_v32) = V3 m c (Proc.devRef .tc main_v32) :=
  (V5_of m c main_v32 (by decide)).trans (V4_of m c main_v32 (by decide))
theorem HostInts.V5_v34 : V5 m c (Proc.devRef .tc main_v34) = V3 m c (Proc.devRef .tc main_v34) :=
  (V5_of m c main_v34 (by decide)).trans (V4_of m c main_v34 (by decide))
theorem HostInts.V5_v36 : V5 m c (Proc.devRef .tc main_v36) = V3 m c (Proc.devRef .tc main_v36) :=
  (V5_of m c main_v36 (by decide)).trans (V4_of m c main_v36 (by decide))

def dstf (e : Fin 3300000) : BitVec 32 := (V5 m c (Proc.devRef .tc main_v6) : IVec S3300000 32) (ValueIdx.ix1 e)

def srcf (e : Fin 3300000) : BitVec 32 := (V5 m c (Proc.devRef .tc main_v5) : IVec S3300000 32) (ValueIdx.ix1 e)

def wf (e : Fin 3300000) : Elt F .f32 := (V5 m c (Proc.devRef .tc main_v8) : Vec F S3300000 .f32) (ValueIdx.ix1 e)

def sdst (j : Fin 3301376) : BitVec 32 := (V5 m c (Proc.devRef .tc main_v34) : IVec S3301376 32) (ValueIdx.ix1 j)

def ssrc (j : Fin 3301376) : BitVec 32 := (V5 m c (Proc.devRef .tc main_v32) : IVec S3301376 32) (ValueIdx.ix1 j)

def sw (j : Fin 3301376) : Elt F .f32 := (V5 m c (Proc.devRef .tc main_v36) : Vec F S3301376 .f32) (ValueIdx.ix1 j)

def tbl (k : Fin 25792) : BitVec 32 := (V5 m c (Proc.devRef .tc main_v44) : IVec S25792 32) (ValueIdx.ix1 k)

def order : Fin 3300000 → Fin 3300000 := ord (dstf m c)

theorem order_injective : Function.Injective (order m c) := ord_injective _
theorem order_surjective : Function.Surjective (order m c) := ord_surjective _

def orderEquiv : Equiv.Perm (Fin 3300000) := Equiv.ofBijective (order m c) ⟨order_injective m c, order_surjective m c⟩

theorem dstf_lo (e : Fin 3300000) (he : e.val < 3200000) :
    dstf m c e = (V0 m c (Proc.devRef .tc main_arg1) : IVec S2x3200000 32) (ValueIdx.ix2 (1 : Fin 2) (⟨e.val, he⟩ : Fin 3200000)) := by
  unfold dstf; rw [V5_v6]; exact v6_lo (V0 m c) e he
theorem dstf_hi (e : Fin 3300000) (he : 3200000 ≤ e.val) : dstf m c e = BitVec.ofNat 32 (e.val - 3200000) := by
  unfold dstf; rw [V5_v6]; exact v6_hi (V0 m c) e he
theorem srcf_lo (e : Fin 3300000) (he : e.val < 3200000) :
    srcf m c e = (V0 m c (Proc.devRef .tc main_arg1) : IVec S2x3200000 32) (ValueIdx.ix2 (0 : Fin 2) (⟨e.val, he⟩ : Fin 3200000)) := by
  unfold srcf; rw [V5_v5]; exact v5_lo (V0 m c) e he
theorem srcf_hi (e : Fin 3300000) (he : 3200000 ≤ e.val) : srcf m c e = BitVec.ofNat 32 (e.val - 3200000) := by
  unfold srcf; rw [V5_v5]; exact v5_hi (V0 m c) e he
theorem wf_lo (e : Fin 3300000) (he : e.val < 3200000) :
    wf m c e = (V0 m c (Proc.devRef .tc main_arg2) : Vec F S3200000 .f32) (ValueIdx.ix1 (⟨e.val, he⟩ : Fin 3200000)) := by
  unfold wf; rw [V5_v8]; exact v8_lo (V0 m c) e he
theorem wf_hi (e : Fin 3300000) (he : 3200000 ≤ e.val) :
    wf m c e = (constant (F := F) S_ .f32 0x3F800000#32) ValueIdx.ix0 := by
  unfold wf; rw [V5_v8]; exact v8_hi (V0 m c) e he

theorem HostInts.toNat_lt_of_toInt (x : BitVec 32) (h0 : 0 ≤ x.toInt) (h1 : x.toInt < 100000) : x.toNat < 100000 := by
  have hc := BitVec.toInt_eq_toNat_cond x
  have hlt := x.isLt
  split at hc <;> omega

theorem dstf_lt (h : IdxOk m) (c : Dev nD) (e : Fin 3300000) : (dstf m c e).toNat < 100000 := by
  by_cases he : e.val < 3200000
  · rw [dstf_lo m c e he]; exact toNat_lt_of_toInt _ (h c _).1 (h c _).2
  · rw [dstf_hi m c e (by omega), BitVec.toNat_ofNat]; have := e.isLt; omega
theorem srcf_lt (h : IdxOk m) (c : Dev nD) (e : Fin 3300000) : (srcf m c e).toNat < 100000 := by
  by_cases he : e.val < 3200000
  · rw [srcf_lo m c e he]; exact toNat_lt_of_toInt _ (h c _).1 (h c _).2
  · rw [srcf_hi m c e (by omega), BitVec.toNat_ofNat]; have := e.isLt; omega

theorem v9_val (j : Fin 3300000) :
    (V5 m c (Proc.devRef .tc main_v9) : IVec S3300000 32) (ValueIdx.ix1 j) = BitVec.ofNat 32 (order m c j).val := by
  rw [V5_v9]
  have h := v9_at (V1 m c) j
  have hk : (fun k : Fin 3300000 => (V1 m c (Proc.devRef .tc main_v6) : IVec S3300000 32) (ValueIdx.ix1 k)) = dstf m c := by
    funext k; unfold dstf; rw [V5_v6]
  rw [hk] at h
  exact h

theorem sdst_lo (j : Fin 3301376) (hj : j.val < 3300000) : sdst m c j = dstf m c (order m c ⟨j.val, hj⟩) := by
  unfold sdst dstf
  rw [V5_v34, V5_v6, ← V2_v6]
  exact v34_lo (V2 m c) j hj (order m c ⟨j.val, hj⟩) (by rw [← V5_v9]; exact v9_val m c ⟨j.val, hj⟩)
theorem sdst_hi (j : Fin 3301376) (hj : 3300000 ≤ j.val) : sdst m c j = 99999#32 := by
  unfold sdst; rw [V5_v34]; exact v34_hi (V2 m c) j hj
theorem ssrc_lo (j : Fin 3301376) (hj : j.val < 3300000) : ssrc m c j = srcf m c (order m c ⟨j.val, hj⟩) := by
  unfold ssrc srcf
  rw [V5_v32, V5_v5, ← V2_v5]
  exact v32_lo (V2 m c) j hj (order m c ⟨j.val, hj⟩) (by rw [← V5_v9]; exact v9_val m c ⟨j.val, hj⟩)
theorem ssrc_hi (j : Fin 3301376) (hj : 3300000 ≤ j.val) : ssrc m c j = 0#32 := by
  unfold ssrc; rw [V5_v32]; exact v32_hi (V2 m c) j hj
theorem sw_lo (j : Fin 3301376) (hj : j.val < 3300000) : sw m c j = wf m c (order m c ⟨j.val, hj⟩) := by
  unfold sw wf
  rw [V5_v36, V5_v8, ← V2_v8]
  exact v36_lo (V2 m c) j hj (order m c ⟨j.val, hj⟩) (by rw [← V5_v9]; exact v9_val m c ⟨j.val, hj⟩)
theorem sw_hi (j : Fin 3301376) (hj : 3300000 ≤ j.val) :
    sw m c j = (constant (F := F) S_ .f32 0x00000000#32) ValueIdx.ix0 := by
  unfold sw; rw [V5_v36]; exact v36_hi (V2 m c) j hj

theorem sdst_lt (h : IdxOk m) (c : Dev nD) (j : Fin 3301376) : (sdst m c j).toNat < 100000 := by
  by_cases hj : j.val < 3300000
  · rw [sdst_lo m c j hj]; exact dstf_lt m h c _
  · rw [sdst_hi m c j (by omega)]; decide
theorem ssrc_lt (h : IdxOk m) (c : Dev nD) (j : Fin 3301376) : (ssrc m c j).toNat < 100000 := by
  by_cases hj : j.val < 3300000
  · rw [ssrc_lo m c j hj]; exact srcf_lt m h c _
  · rw [ssrc_hi m c j (by omega)]; decide

theorem sdst_mono (h : IdxOk m) (c : Dev nD) (j j' : Fin 3301376) (hjj : j ≤ j') : (sdst m c j).toNat ≤ (sdst m c j').toNat := by
  have hjj' : j.val ≤ j'.val := hjj
  by_cases hj' : j'.val < 3300000
  · have hj : j.val < 3300000 := by omega
    rw [sdst_lo m c j hj, sdst_lo m c j' hj']
    have hs := ord_sorted (dstf m c) ⟨j.val, hj⟩ ⟨j'.val, hj'⟩ (by rw [Fin.le_def]; exact hjj')
    have h1 := dstf_lt m h c (order m c ⟨j.val, hj⟩)
    have h2 := dstf_lt m h c (order m c ⟨j'.val, hj'⟩)
    have e1 := StableHlo.Predicate.toInt_eq_toNat_of_lt (a := dstf m c (order m c ⟨j.val, hj⟩)) (by omega)
    have e2 := StableHlo.Predicate.toInt_eq_toNat_of_lt (a := dstf m c (order m c ⟨j'.val, hj'⟩)) (by omega)
    unfold order
    unfold order at e1 e2
    omega
  · rw [sdst_hi m c j' (by omega)]
    have := sdst_lt m h c j
    show (sdst m c j).toNat ≤ 99999
    omega

theorem sdst_cover (v : ℕ) (hv : v < 100000) : ∃ j : Fin 3301376, (sdst m c j).toNat = v := by
  obtain ⟨q, hq⟩ := order_surjective m c (⟨3200000 + v, by omega⟩ : Fin 3300000)
  refine ⟨⟨q.val, by have := q.isLt; omega⟩, ?_⟩
  rw [sdst_lo m c _ q.isLt, show (⟨q.val, q.isLt⟩ : Fin 3300000) = q from rfl, hq, dstf_hi m c _ (by show 3200000 ≤ 3200000 + v; omega),
    BitVec.toNat_ofNat]
  show (3200000 + v - 3200000) % 2 ^ 32 = v
  omega

theorem tbl_eq (k : Fin 25792) :
    tbl m c k = IntOp.muli (fdw (IntOp.minsi (sdst m c ⟨128 * k.val, by have := k.isLt; omega⟩) 99840#32) 128#32) 128#32 := by
  unfold tbl sdst
  rw [V5_v34, show (⟨128 * k.val, by have := k.isLt; omega⟩ : Fin 3301376) = ⟨k.val * 128, by have := k.isLt; omega⟩ from
    Fin.ext (Nat.mul_comm _ _)]
  exact (v44_at (V4 m c) k).trans (congrArg (fun w => IntOp.muli w 128#32)
    ((v42_at (V3 m c) k (congrFun (st2_c9 (V2 m c)) ValueIdx.ix0)).trans (congrArg (fun w => fdw w 128#32) (v41_at (V2 m c) k))))

theorem tbl_word (h : IdxOk m) (c : Dev nD) (k : Fin 25792) :
    (tbl m c k).toNat = (min (sdst m c ⟨128 * k.val, by have := k.isLt; omega⟩).toNat 99840 / 128) * 128 := by
  have hs := sdst_lt m h c ⟨128 * k.val, by have := k.isLt; omega⟩
  have hw : (IntOp.minsi (sdst m c ⟨128 * k.val, by have := k.isLt; omega⟩) 99840#32).toNat
      = min (sdst m c ⟨128 * k.val, by have := k.isLt; omega⟩).toNat 99840 :=
    WordArith.toNat_minsi_of_lt _ _ (by omega) (by decide)
  have hq := toNat_fdw_128 (IntOp.minsi (sdst m c ⟨128 * k.val, by have := k.isLt; omega⟩) 99840#32) (by rw [hw]; omega)
  rw [tbl_eq, toNat_muli_128 _ (by rw [hq, hw]; omega), hq, hw]

theorem sdst_nat_mono (h : IdxOk m) (c : Dev nD) : Monotone fun j : Fin 3301376 => (sdst m c j).toNat :=
  fun j j' hjj => sdst_mono m h c j j' hjj

theorem tbl_ok (h : IdxOk m) (c : Dev nD) : TblOk (V5 m c (Proc.devRef .tc main_v44) : Vec F S25792 .i32) := by
  intro x
  obtain ⟨k, rfl⟩ : ∃ k : Fin 25792, x = ValueIdx.ix1 k := ⟨x 0, eq_ix1 x⟩
  show 128 ∣ (tbl m c k).toNat ∧ (tbl m c k).toNat + 256 ≤ 100096
  rw [tbl_word m h c k]
  have hs := sdst_lt m h c ⟨128 * k.val, by have := k.isLt; omega⟩
  have hb := Cert.Gcn.SortWindow.base_facts _ _ (le_refl _) (by omega) hs
  exact ⟨hb.1, hb.2.1⟩

theorem win_ok (h : IdxOk m) (c : Dev nD) (k : Fin 25792) (l : Fin 128) :
    ((V5 m c (Proc.devRef .tc main_v44) : IVec S25792 32) (ValueIdx.ix1 k)).toNat
        ≤ ((V5 m c (Proc.devRef .tc main_v34) : IVec S3301376 32) (ValueIdx.ix1 ⟨128 * k.val + l.val, by have := k.isLt; have := l.isLt; omega⟩)).toNat
      ∧ ((V5 m c (Proc.devRef .tc main_v34) : IVec S3301376 32) (ValueIdx.ix1 ⟨128 * k.val + l.val, by have := k.isLt; have := l.isLt; omega⟩)).toNat
        < ((V5 m c (Proc.devRef .tc main_v44) : IVec S25792 32) (ValueIdx.ix1 k)).toNat + 256 := by
  show (tbl m c k).toNat ≤ (sdst m c ⟨128 * k.val + l.val, _⟩).toNat
    ∧ (sdst m c ⟨128 * k.val + l.val, _⟩).toNat < (tbl m c k).toNat + 256
  rw [tbl_word m h c k]
  have hk := k.isLt
  have hl := l.isLt
  have hlt := sdst_lt m h c ⟨128 * k.val + l.val, by omega⟩
  have hmono := sdst_mono m h c ⟨128 * k.val, by omega⟩ ⟨128 * k.val + l.val, by omega⟩ (by rw [Fin.le_def]; show 128 * k.val ≤ 128 * k.val + l.val; omega)
  have hspan := Cert.Gcn.SortWindow.window_span (N := 100000) (fun j : Fin 3301376 => (sdst m c j).toNat) (sdst_nat_mono m h c)
    (fun v hv => sdst_cover m c v hv) (fun j => sdst_lt m h c j) ⟨128 * k.val, by omega⟩ ⟨128 * k.val + l.val, by omega⟩
    (by rw [Fin.le_def]; show 128 * k.val ≤ 128 * k.val + l.val; omega) (by show 128 * k.val + l.val < 128 * k.val + 128; omega)
  have hb := Cert.Gcn.SortWindow.base_facts _ _ hmono hspan hlt
  exact ⟨hb.2.2.1, hb.2.2.2⟩

end Named

section Later
variable (outs : Outs (F := F)) (c : Dev nD)

theorem V8_v32 : V8 m outs c (Proc.devRef .tc main_v32) = V5 m c (Proc.devRef .tc main_v32) :=
  (V8_of m outs c main_v32 (by decide)).trans <| (V7_of m outs c main_v32 (by decide)).trans (V6_of m outs c main_v32 (by decide))
theorem V8_v36 : V8 m outs c (Proc.devRef .tc main_v36) = V5 m c (Proc.devRef .tc main_v36) :=
  (V8_of m outs c main_v36 (by decide)).trans <| (V7_of m outs c main_v36 (by decide)).trans (V6_of m outs c main_v36 (by decide))
theorem V9_v34 : V9 m outs c (Proc.devRef .tc main_v34) = V5 m c (Proc.devRef .tc main_v34) :=
  (V9_of m outs c main_v34 (by decide)).trans <| (V8_of m outs c main_v34 (by decide)).trans <|
    (V7_of m outs c main_v34 (by decide)).trans (V6_of m outs c main_v34 (by decide))
theorem V9_v44 : V9 m outs c (Proc.devRef .tc main_v44) = V5 m c (Proc.devRef .tc main_v44) :=
  (V9_of m outs c main_v44 (by decide)).trans <| (V8_of m outs c main_v44 (by decide)).trans <|
    (V7_of m outs c main_v44 (by decide)).trans (V6_of m outs c main_v44 (by decide))
theorem V12_v32 : V12 m outs c (Proc.devRef .tc main_v32) = V5 m c (Proc.devRef .tc main_v32) :=
  (V12_of m outs c main_v32 (by decide)).trans <| (V11_of m outs c main_v32 (by decide)).trans <|
    (V10_of m outs c main_v32 (by decide)).trans <| (V9_of m outs c main_v32 (by decide)).trans (V8_v32 m outs c)
theorem V12_v36 : V12 m outs c (Proc.devRef .tc main_v36) = V5 m c (Proc.devRef .tc main_v36) :=
  (V12_of m outs c main_v36 (by decide)).trans <| (V11_of m outs c main_v36 (by decide)).trans <|
    (V10_of m outs c main_v36 (by decide)).trans <| (V9_of m outs c main_v36 (by decide)).trans (V8_v36 m outs c)
theorem V13_v34 : V13 m outs c (Proc.devRef .tc main_v34) = V5 m c (Proc.devRef .tc main_v34) :=
  (V13_of m outs c main_v34 (by decide)).trans <| (V12_of m outs c main_v34 (by decide)).trans <|
    (V11_of m outs c main_v34 (by decide)).trans <| (V10_of m outs c main_v34 (by decide)).trans (V9_v34 m outs c)

end Later

end Cert.KernelIdeal.Hand

end
-- ==== Proof.KI.Body0.lean ====
import proofs.«401711_j53747220742790_3_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

abbrev cond0_0 (i : grid0.Coords) : Prop := (Scalar.cmpi .ne (Scalar.extui (Scalar.cmpi .eq (BitVec.ofNat 32 (i 1).val) 0#32)) 0#32) = 1#1

abbrev cond0_1 (i : grid0.Coords) : Prop := k0_cond2 i = 1#1

theorem hcond0_0 : ∀ t : Fin grid0.N, cond0_0 (grid0.coords t) ↔ t.val % 403 = 0 := by decide +kernel

theorem hcond0_1 : ∀ t : Fin grid0.N, cond0_1 (grid0.coords t) ↔ t.val % 403 = 402 := by decide +kernel

noncomputable def winUpd (base : BitVec 32) (msgc : Vec F S1x128 .f32) (dstc : Vec F S128 .i32) (cur : Vec F S1x256 .f32) : FVec F S1x256 .f32 :=
  have iota0 : IVec S256x128 32 := iota .tc S256x128 32 [0] iota_S256x128_d0_w32
  have msg : FVec F S1x128 .f32 := shapeCast S1x128 msgc shapeCasts_S1x128_S1x128
  have dst : IVec S128 32 := shapeCast S128 dstc shapeCasts_S128_S128
  have loc : IVec S128 32 := subi dst (broadcast S128 base)
  have locRow : IVec S1x128 32 := shapeCast S1x128 loc shapeCasts_S128_S1x128
  have hit : IVec S256x128 1 := cmpi .eq iota0 (broadcastTo S256x128 locRow broadcasts_S1x128_S256x128)
  have onehot : FVec F S256x128 .f32 := sitofp .f32 (extui 32 hit natLt_1_32)
  have zero : FVec F S1x256 .f32 := constant S1x256 .f32 0x00000000#32
  have acc : FVec F S1x256 .f32 := matmul dot_S1x128_S256x128_S1x256_1_1_0_0_n_n none msg onehot zero
  shapeCast S1x256 (addf cur acc) shapeCasts_S1x256_S1x256

abbrev iota0 : IVec S256x128 32 := iota .tc S256x128 32 [0] iota_S256x128_d0_w32

-- Each of the 32 window base words read at point i is a multiple of 128 whose 256 lanes lie inside the accumulator's.
structure Hw0 (i : grid0.Coords) (arg2 : Memref sig .tc .smem S25792 .i32) (harg2 : arg2.IsWhole) (x2 : Vec F S25792 .i32) : Prop where
  h1 : k0_chk1 (arg2.view.readAt (Elt F) (Rect.unit (s := S25792) (k0_off1 i) S1.size (k0_off1_inb i)).toLoadRect (harg2.unread x2) (Shape.Idx.first (numel1_S1.symm ▸ Nat.one_pos)))
  h2 : k0_chk2 (arg2.view.readAt (Elt F) (Rect.unit (s := S25792) (k0_off3 i) S1.size (k0_off3_inb i)).toLoadRect (harg2.unread x2) (Shape.Idx.first (numel1_S1.symm ▸ Nat.one_pos)))
  h3 : k0_chk3 (arg2.view.readAt (Elt F) (Rect.unit (s := S25792) (k0_off5 i) S1.size (k0_off5_inb i)).toLoadRect (harg2.unread x2) (Shape.Idx.first (numel1_S1.symm ▸ Nat.one_pos)))
  h4 : k0_chk4 (arg2.view.readAt (Elt F) (Rect.unit (s := S25792) (k0_off7 i) S1.size (k0_off7_inb i)).toLoadRect (harg2.unread x2) (Shape.Idx.first (numel1_S1.symm ▸ Nat.one_pos)))
  h5 : k0_chk5 (arg2.view.readAt (Elt F) (Rect.unit (s := S25792) (k0_off9 i) S1.size (k0_off9_inb i)).toLoadRect (harg2.unread x2) (Shape.Idx.first (numel1_S1.symm ▸ Nat.one_pos)))
  h6 : k0_chk6 (arg2.view.readAt (Elt F) (Rect.unit (s := S25792) (k0_off11 i) S1.size (k0_off11_inb i)).toLoadRect (harg2.unread x2) (Shape.Idx.first (numel1_S1.symm ▸ Nat.one_pos)))
  h7 : k0_chk7 (arg2.view.readAt (Elt F) (Rect.unit (s := S25792) (k0_off13 i) S1.size (k0_off13_inb i)).toLoadRect (harg2.unread x2) (Shape.Idx.first (numel1_S1.symm ▸ Nat.one_pos)))
  h8 : k0_chk8 (arg2.view.readAt (Elt F) (Rect.unit (s := S25792) (k0_off15 i) S1.size (k0_off15_inb i)).toLoadRect (harg2.unread x2) (Shape.Idx.first (numel1_S1.symm ▸ Nat.one_pos)))
  h9 : k0_chk9 (arg2.view.readAt (Elt F) (Rect.unit (s := S25792) (k0_off17 i) S1.size (k0_off17_inb i)).toLoadRect (harg2.unread x2) (Shape.Idx.first (numel1_S1.symm ▸ Nat.one_pos)))
  h10 : k0_chk10 (arg2.view.readAt (Elt F) (Rect.unit (s := S25792) (k0_off19 i) S1.size (k0_off19_inb i)).toLoadRect (harg2.unread x2) (Shape.Idx.first (numel1_S1.symm ▸ Nat.one_pos)))
  h11 : k0_chk11 (arg2.view.readAt (Elt F) (Rect.unit (s := S25792) (k0_off21 i) S1.size (k0_off21_inb i)).toLoadRect (harg2.unread x2) (Shape.Idx.first (numel1_S1.symm ▸ Nat.one_pos)))
  h12 : k0_chk12 (arg2.view.readAt (Elt F) (Rect.unit (s := S25792) (k0_off23 i) S1.size (k0_off23_inb i)).toLoadRect (harg2.unread x2) (Shape.Idx.first (numel1_S1.symm ▸ Nat.one_pos)))
  h13 : k0_chk13 (arg2.view.readAt (Elt F) (Rect.unit (s := S25792) (k0_off25 i) S1.size (k0_off25_inb i)).toLoadRect (harg2.unread x2) (Shape.Idx.first (numel1_S1.symm ▸ Nat.one_pos)))
  h14 : k0_chk14 (arg2.view.readAt (Elt F) (Rect.unit (s := S25792) (k0_off27 i) S1.size (k0_off27_inb i)).toLoadRect (harg2.unread x2) (Shape.Idx.first (numel1_S1.symm ▸ Nat.one_pos)))
  h15 : k0_chk15 (arg2.view.readAt (Elt F) (Rect.unit (s := S25792) (k0_off29 i) S1.size (k0_off29_inb i)).toLoadRect (harg2.unread x2) (Shape.Idx.first (numel1_S1.symm ▸ Nat.one_pos)))
  h16 : k0_chk16 (arg2.view.readAt (Elt F) (Rect.unit (s := S25792) (k0_off31 i) S1.size (k0_off31_inb i)).toLoadRect (harg2.unread x2) (Shape.Idx.first (numel1_S1.symm ▸ Nat.one_pos)))
  h17 : k0_chk17 (arg2.view.readAt (Elt F) (Rect.unit (s := S25792) (k0_off33 i) S1.size (k0_off33_inb i)).toLoadRect (harg2.unread x2) (Shape.Idx.first (numel1_S1.symm ▸ Nat.one_pos)))
  h18 : k0_chk18 (arg2.view.readAt (Elt F) (Rect.unit (s := S25792) (k0_off35 i) S1.size (k0_off35_inb i)).toLoadRect (harg2.unread x2) (Shape.Idx.first (numel1_S1.symm ▸ Nat.one_pos)))
  h19 : k0_chk19 (arg2.view.readAt (Elt F) (Rect.unit (s := S25792) (k0_off37 i) S1.size (k0_off37_inb i)).toLoadRect (harg2.unread x2) (Shape.Idx.first (numel1_S1.symm ▸ Nat.one_pos)))
  h20 : k0_chk20 (arg2.view.readAt (Elt F) (Rect.unit (s := S25792) (k0_off39 i) S1.size (k0_off39_inb i)).toLoadRect (harg2.unread x2) (Shape.Idx.first (numel1_S1.symm ▸ Nat.one_pos)))
  h21 : k0_chk21 (arg2.view.readAt (Elt F) (Rect.unit (s := S25792) (k0_off41 i) S1.size (k0_off41_inb i)).toLoadRect (harg2.unread x2) (Shape.Idx.first (numel1_S1.symm ▸ Nat.one_pos)))
  h22 : k0_chk22 (arg2.view.readAt (Elt F) (Rect.unit (s := S25792) (k0_off43 i) S1.size (k0_off43_inb i)).toLoadRect (harg2.unread x2) (Shape.Idx.first (numel1_S1.symm ▸ Nat.one_pos)))
  h23 : k0_chk23 (arg2.view.readAt (Elt F) (Rect.unit (s := S25792) (k0_off45 i) S1.size (k0_off45_inb i)).toLoadRect (harg2.unread x2) (Shape.Idx.first (numel1_S1.symm ▸ Nat.one_pos)))
  h24 : k0_chk24 (arg2.view.readAt (Elt F) (Rect.unit (s := S25792) (k0_off47 i) S1.size (k0_off47_inb i)).toLoadRect (harg2.unread x2) (Shape.Idx.first (numel1_S1.symm ▸ Nat.one_pos)))
  h25 : k0_chk25 (arg2.view.readAt (Elt F) (Rect.unit (s := S25792) (k0_off49 i) S1.size (k0_off49_inb i)).toLoadRect (harg2.unread x2) (Shape.Idx.first (numel1_S1.symm ▸ Nat.one_pos)))
  h26 : k0_chk26 (arg2.view.readAt (Elt F) (Rect.unit (s := S25792) (k0_off51 i) S1.size (k0_off51_inb i)).toLoadRect (harg2.unread x2) (Shape.Idx.first (numel1_S1.symm ▸ Nat.one_pos)))
  h27 : k0_chk27 (arg2.view.readAt (Elt F) (Rect.unit (s := S25792) (k0_off53 i) S1.size (k0_off53_inb i)).toLoadRect (harg2.unread x2) (Shape.Idx.first (numel1_S1.symm ▸ Nat.one_pos)))
  h28 : k0_chk28 (arg2.view.readAt (Elt F) (Rect.unit (s := S25792) (k0_off55 i) S1.size (k0_off55_inb i)).toLoadRect (harg2.unread x2) (Shape.Idx.first (numel1_S1.symm ▸ Nat.one_pos)))
  h29 : k0_chk29 (arg2.view.readAt (Elt F) (Rect.unit (s := S25792) (k0_off57 i) S1.size (k0_off57_inb i)).toLoadRect (harg2.unread x2) (Shape.Idx.first (numel1_S1.symm ▸ Nat.one_pos)))
  h30 : k0_chk30 (arg2.view.readAt (Elt F) (Rect.unit (s := S25792) (k0_off59 i) S1.size (k0_off59_inb i)).toLoadRect (harg2.unread x2) (Shape.Idx.first (numel1_S1.symm ▸ Nat.one_pos)))
  h31 : k0_chk31 (arg2.view.readAt (Elt F) (Rect.unit (s := S25792) (k0_off61 i) S1.size (k0_off61_inb i)).toLoadRect (harg2.unread x2) (Shape.Idx.first (numel1_S1.symm ▸ Nat.one_pos)))
  h32 : k0_chk32 (arg2.view.readAt (Elt F) (Rect.unit (s := S25792) (k0_off63 i) S1.size (k0_off63_inb i)).toLoadRect (harg2.unread x2) (Shape.Idx.first (numel1_S1.symm ▸ Nat.one_pos)))

set_option maxHeartbeats 1000000 in

noncomputable def kernelRun0_A (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : cond0_0 i) (hc1 : ¬cond0_1 i)
    (x2 : Vec F S25792 .i32) (x3 : Vec F S1x4096 .f32) (x4 : Vec F S4096 .i32)
    (hks : Hw0 i arg2 harg2 x2) :
    { LS : List (View.Piece (Elt F) S1x100096 .f32) //
      ∀ (xi5 : Vec F S1x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ (∃ d, owns (c : Thread nD τ) arg6 fullShare d)
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (∃ f, arg6.view.loc (c : Thread nD τ) ↦[arg6.view.set]{fullShare} arg6.view.writes (Elt F) f LS)) -∗ K ⟨⟩))
          ⊢ wp frame (wpE (defs₀ (F := F)) 𝒱₀ c none) E (cc0__scatter_kernel i arg2 harg2 arg3 harg3 arg4 harg4 arg5 harg5 arg6 harg6) K } := by
  have k0_hw1 := hks.h1
  have k0_hw2 := hks.h2
  have k0_hw3 := hks.h3
  have k0_hw4 := hks.h4
  have k0_hw5 := hks.h5
  have k0_hw6 := hks.h6
  have k0_hw7 := hks.h7
  have k0_hw8 := hks.h8
  have k0_hw9 := hks.h9
  have k0_hw10 := hks.h10
  have k0_hw11 := hks.h11
  have k0_hw12 := hks.h12
  have k0_hw13 := hks.h13
  have k0_hw14 := hks.h14
  have k0_hw15 := hks.h15
  have k0_hw16 := hks.h16
  have k0_hw17 := hks.h17
  have k0_hw18 := hks.h18
  have k0_hw19 := hks.h19
  have k0_hw20 := hks.h20
  have k0_hw21 := hks.h21
  have k0_hw22 := hks.h22
  have k0_hw23 := hks.h23
  have k0_hw24 := hks.h24
  have k0_hw25 := hks.h25
  have k0_hw26 := hks.h26
  have k0_hw27 := hks.h27
  have k0_hw28 := hks.h28
  have k0_hw29 := hks.h29
  have k0_hw30 := hks.h30
  have k0_hw31 := hks.h31
  have k0_hw32 := hks.h32
  refine ⟨?_, fun xi5 E K => ?run⟩
  case run =>
    simp only [cc0__scatter_kernel_eq_skeleton]; unfold cc0__scatter_kernel_skel
    unfold owns
    iintro ⟨⟨%f2, %hf2, H2⟩, ⟨%f3, %hf3, H3⟩, ⟨%f4, %hf4, H4⟩, ⟨%f5, %hf5, H5⟩, ⟨%ds, %fs, -, HS⟩, Hk⟩
    obtain rfl := harg2.eq_unread hf2; obtain rfl := harg3.eq_unread hf3; obtain rfl := harg4.eq_unread hf4; obtain rfl := harg5.eq_unread hf5
    sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact HS

set_option maxHeartbeats 1000000 in

noncomputable def kernelRun0_B (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond0_0 i) (hc1 : ¬cond0_1 i)
    (x2 : Vec F S25792 .i32) (x3 : Vec F S1x4096 .f32) (x4 : Vec F S4096 .i32) (xs : Vec F S1x100096 .f32)
    (hks : Hw0 i arg2 harg2 x2) :
    { LS : List (View.Piece (Elt F) S1x100096 .f32) //
      ∀ (xi5 : Vec F S1x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xs
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc0__scatter_kernel i arg2 harg2 arg3 harg3 arg4 harg4 arg5 harg5 arg6 harg6) K } := by
  have k0_hw1 := hks.h1
  have k0_hw2 := hks.h2
  have k0_hw3 := hks.h3
  have k0_hw4 := hks.h4
  have k0_hw5 := hks.h5
  have k0_hw6 := hks.h6
  have k0_hw7 := hks.h7
  have k0_hw8 := hks.h8
  have k0_hw9 := hks.h9
  have k0_hw10 := hks.h10
  have k0_hw11 := hks.h11
  have k0_hw12 := hks.h12
  have k0_hw13 := hks.h13
  have k0_hw14 := hks.h14
  have k0_hw15 := hks.h15
  have k0_hw16 := hks.h16
  have k0_hw17 := hks.h17
  have k0_hw18 := hks.h18
  have k0_hw19 := hks.h19
  have k0_hw20 := hks.h20
  have k0_hw21 := hks.h21
  have k0_hw22 := hks.h22
  have k0_hw23 := hks.h23
  have k0_hw24 := hks.h24
  have k0_hw25 := hks.h25
  have k0_hw26 := hks.h26
  have k0_hw27 := hks.h27
  have k0_hw28 := hks.h28
  have k0_hw29 := hks.h29
  have k0_hw30 := hks.h30
  have k0_hw31 := hks.h31
  have k0_hw32 := hks.h32
  refine ⟨?_, fun xi5 E K => ?run⟩
  case run =>
    simp only [cc0__scatter_kernel_eq_skeleton]; unfold cc0__scatter_kernel_skel
    unfold owns
    iintro ⟨⟨%f2, %hf2, H2⟩, ⟨%f3, %hf3, H3⟩, ⟨%f4, %hf4, H4⟩, ⟨%f5, %hf5, H5⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hfs
    sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexact HS

set_option maxHeartbeats 1000000 in

noncomputable def kernelRun0_C (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond0_0 i) (hc1 : cond0_1 i)
    (x2 : Vec F S25792 .i32) (x3 : Vec F S1x4096 .f32) (x4 : Vec F S4096 .i32) (xs : Vec F S1x100096 .f32)
    (hks : Hw0 i arg2 harg2 x2) :
    Σ' (L5 : List (View.Piece (Elt F) S1x100096 .f32)), { LS : List (View.Piece (Elt F) S1x100096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare xs
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc0__scatter_kernel i arg2 harg2 arg3 harg3 arg4 harg4 arg5 harg5 arg6 harg6) K } := by
  have k0_hw1 := hks.h1
  have k0_hw2 := hks.h2
  have k0_hw3 := hks.h3
  have k0_hw4 := hks.h4
  have k0_hw5 := hks.h5
  have k0_hw6 := hks.h6
  have k0_hw7 := hks.h7
  have k0_hw8 := hks.h8
  have k0_hw9 := hks.h9
  have k0_hw10 := hks.h10
  have k0_hw11 := hks.h11
  have k0_hw12 := hks.h12
  have k0_hw13 := hks.h13
  have k0_hw14 := hks.h14
  have k0_hw15 := hks.h15
  have k0_hw16 := hks.h16
  have k0_hw17 := hks.h17
  have k0_hw18 := hks.h18
  have k0_hw19 := hks.h19
  have k0_hw20 := hks.h20
  have k0_hw21 := hks.h21
  have k0_hw22 := hks.h22
  have k0_hw23 := hks.h23
  have k0_hw24 := hks.h24
  have k0_hw25 := hks.h25
  have k0_hw26 := hks.h26
  have k0_hw27 := hks.h27
  have k0_hw28 := hks.h28
  have k0_hw29 := hks.h29
  have k0_hw30 := hks.h30
  have k0_hw31 := hks.h31
  have k0_hw32 := hks.h32
  refine ⟨?_, ?_, fun E K => ?run⟩
  case run =>
    simp only [cc0__scatter_kernel_eq_skeleton]; unfold cc0__scatter_kernel_skel
    unfold owns
    iintro ⟨⟨%f2, %hf2, H2⟩, ⟨%f3, %hf3, H3⟩, ⟨%f4, %hf4, H4⟩, ⟨%d5, %f5, -, H5⟩, ⟨%fs, %hfs, HS⟩, Hk⟩
    obtain rfl := harg2.eq_unread hf2; obtain rfl := harg3.eq_unread hf3; obtain rfl := harg4.eq_unread hf4; obtain rfl := harg6.eq_unread hfs
    sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexact HS

end Cert.KernelIdeal.Hand

end
-- ==== Proof.KI.Body0Cover.lean ====
import proofs.«401711_j53747220742790_3_alg».proof.Proof.KI.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

theorem mem_whole_S1x100096 (y : S1x100096.Idx) :
    y ∈ (Rect.unit (s := S1x100096) ![0, 0] S1x100096.size inb_S1x100096_S1x100096_0_0).set := by
  rw [Rect.mem_set_unit]
  intro a
  have h0 : (![0, 0] : Fin 2 → ℕ) a = 0 := by fin_cases a <;> rfl
  rw [h0, Nat.zero_add]
  exact ⟨Nat.zero_le _, (y a).isLt⟩

theorem scover0_A (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : cond0_0 i) (hc1 : ¬cond0_1 i)
    (x2 : Vec F S25792 .i32) (x3 : Vec F S1x4096 .f32) (x4 : Vec F S4096 .i32)
    (hks : Hw0 i arg2 harg2 x2) (y : S1x100096.Idx) :
    ∃ pc ∈ (kernelRun0_A (Ix := Ix) (U := U) (Lvl := Lvl) 𝒱₀ c i arg2 harg2 arg3 harg3 arg4 harg4 arg5 harg5 arg6 harg6 hc0 hc1 x2 x3 x4 hks).1, y ∈ pc.1.set := by
  refine ⟨⟨Rect.unit (s := S1x100096) ![0, 0] S1x100096.size inb_S1x100096_S1x100096_0_0, k0_pay2 (F := F)⟩, ?_, mem_whole_S1x100096 y⟩
  apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem
  exact List.mem_cons_self

theorem cover0_C (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond0_0 i) (hc1 : cond0_1 i)
    (x2 : Vec F S25792 .i32) (x3 : Vec F S1x4096 .f32) (x4 : Vec F S4096 .i32) (xs : Vec F S1x100096 .f32)
    (hks : Hw0 i arg2 harg2 x2) (y : S1x100096.Idx) :
    ∃ pc ∈ (kernelRun0_C (Ix := Ix) (U := U) (Lvl := Lvl) 𝒱₀ c i arg2 harg2 arg3 harg3 arg4 harg4 arg5 harg5 arg6 harg6 hc0 hc1 x2 x3 x4 xs hks).1, y ∈ pc.1.set :=
  ⟨_, List.mem_cons_self, mem_whole_S1x100096 y⟩

end Cert.KernelIdeal.Hand

end
-- ==== Proof.KI.Region0.lean ====
import proofs.«401711_j53747220742790_3_alg».proof.Proof.KI.Common
import proofs.«401711_j53747220742790_3_alg».proof.Proof.KI.Body0Cover
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem word_ok0 {arg2 : Memref sig .tc .smem S25792 .i32} (harg2 : arg2.IsWhole) (x2 : Vec F S25792 .i32) (h : TblOk x2)
    (r : LoadRect S25792) (j : r.shape.Idx) :
    128 ∣ (arg2.view.readAt (Elt F) r (harg2.unread x2) j).toNat ∧ (arg2.view.readAt (Elt F) r (harg2.unread x2) j).toNat + 256 ≤ 100096 := by
  rw [View.readAt_apply, harg2.read_unread]; exact h _

-- A base word that is a multiple of 128 with its 256 lanes inside the accumulator's satisfies every window's bound.
theorem chk0_ok {w : BitVec 32} (h : 128 ∣ w.toNat ∧ w.toNat + 256 ≤ 100096) :
    128 ∣ w.toNat ∧ ∀ a : Fin 2, (![0, w.toNat] : Fin 2 → ℕ) a + S1x256.size a ≤ S1x100096.size a :=
  ⟨h.1, fun a => by fin_cases a <;> first | exact h.2 | exact Nat.le_refl _⟩

theorem hks0 {arg2 : Memref sig .tc .smem S25792 .i32} (harg2 : arg2.IsWhole) (x2 : Vec F S25792 .i32) (h : TblOk x2)
    (i : grid0.Coords) : Hw0 i arg2 harg2 x2 :=
  ⟨chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _)⟩

theorem idleB0_0 : ∀ t : Fin grid0.N, idle0 0 (grid0.coords t) = false := by decide +kernel
theorem idleB0_1 : ∀ t : Fin grid0.N, idle0 1 (grid0.coords t) = false := by decide +kernel
theorem idleB0_2 : ∀ t : Fin grid0.N, idle0 2 (grid0.coords t) = !decide (t.val % 403 = 402) := by decide +kernel
theorem noFlushB0_2 : ∀ t : Fin grid0.N, ¬ t.val % 403 = 402 → (t.val + 1 = grid0.N || decide (∃ h : t.val + 1 < grid0.N, cc0_transform_2 (grid0.coords ⟨t.val + 1, h⟩) ≠ cc0_transform_2 (grid0.coords t))) = false := by decide +kernel

section Layout
variable (a : (pcfg0 (F := F)).Adm)

theorem noFlush0_2 (t : Fin (cfg0 a).N) (h : ¬ t.val % 403 = 402) : ((cfg0 a).win 2).flush t = false := noFlushB0_2 t h

theorem liveAt0_0 (t : Fin (cfg0 a).N) : (cfg0 a).idle 0 ((cfg0 a).grid.coords t) = false := idleB0_0 t
theorem liveAt0_1 (t : Fin (cfg0 a).N) : (cfg0 a).idle 1 ((cfg0 a).grid.coords t) = false := idleB0_1 t

theorem idleAt0_2 (t : Fin (cfg0 a).N) (h : ¬ t.val % 403 = 402) : (cfg0 a).idle 2 ((cfg0 a).grid.coords t) = true := by
  rw [show (cfg0 a).idle 2 ((cfg0 a).grid.coords t) = idle0 2 (grid0.coords t) from rfl, idleB0_2 t, decide_eq_false h]; rfl
theorem liveAt0_2 (t : Fin (cfg0 a).N) (h : t.val % 403 = 402) : (cfg0 a).idle 2 ((cfg0 a).grid.coords t) = false := by
  rw [show (cfg0 a).idle 2 ((cfg0 a).grid.coords t) = idle0 2 (grid0.coords t) from rfl, idleB0_2 t, decide_eq_true h]; rfl

abbrev ms0_0 (t : Fin (cfg0 a).N) : Memref sig .tc .vmem S1x4096 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S4096 .i32 := spec0_1.stage ((cfg0 a).slots t 1)
abbrev hs0_1 (t : Fin (cfg0 a).N) : (ms0_1 a t).IsWhole := hstage0_1 (((cfg0 a).slots t 1).cast nbuf0_1)
abbrev ms0_2 (t : Fin (cfg0 a).N) : Memref sig .tc .vmem S1x100096 .f32 := spec0_2.stage ((cfg0 a).slots t 2)
abbrev hs0_2 (t : Fin (cfg0 a).N) : (ms0_2 a t).IsWhole := hstage0_2 (((cfg0 a).slots t 2).cast nbuf0_2)

abbrev tbM0 : Memref sig .tc .smem S25792 .i32 := Memref.whole main_v44
abbrev scM0 : Memref sig .tc .vmem S1x100096 .f32 := Memref.whole cc0_scratch0

abbrev VS0 : View sig .tc .vmem S1x100096 .f32 := scM0.view

abbrev VO0 : View sig .tc .vmem S1x100096 .f32 := (Memref.whole cc0_stg2_0 : Memref sig .tc .vmem S1x100096 .f32).view

abbrev bodyAt0 (t : Fin (cfg0 a).N) : Prog (TpuEff nD τ sig (Elt F) Λ₀ .tc) PUnit :=
  cc0__scatter_kernel (grid0.coords t) tbM0 (Memref.isWhole_whole _) (ms0_0 a t) (hs0_0 a t) (ms0_1 a t) (hs0_1 a t) (ms0_2 a t) (hs0_2 a t) scM0 (Memref.isWhole_whole _)

end Layout

section Region
variable (V : Dev nD → Valuation τ sig (Elt F)) (a : (pcfg0 (F := F)).Adm) (htbl : TblOk (a.1 0))

abbrev VR0 (c : Dev nD) (b : Ref sig .tc) : Buf (Elt F) ((c : Thread nD τ).loc b) := V c (Proc.devRef .tc b)

def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (VR0 V c (Pipeline.arrRef spec0 w))

abbrev run0_A (c : Dev nD) (t : Fin (cfg0 a).N) (h0 : t.val % 403 = 0) :=
  kernelRun0_A (Ix := Unit) (U := UR sig nD τ) (Lvl := ℕ) 𝒱₀ c (grid0.coords t) tbM0 (Memref.isWhole_whole _) (ms0_0 a t) (hs0_0 a t) (ms0_1 a t) (hs0_1 a t) (ms0_2 a t) (hs0_2 a t) scM0 (Memref.isWhole_whole _)
    ((hcond0_0 t).mpr h0) (fun h => by have := (hcond0_1 t).mp h; omega) (a.1 0) (iblk0 V a c 0 t) (iblk0 V a c 1 t)
    (hks0 _ (a.1 0) htbl _)

abbrev run0_B (c : Dev nD) (t : Fin (cfg0 a).N) (h0 : ¬t.val % 403 = 0) (h1 : ¬t.val % 403 = 402) (xs : Vec F S1x100096 .f32) :=
  kernelRun0_B (Ix := Unit) (U := UR sig nD τ) (Lvl := ℕ) 𝒱₀ c (grid0.coords t) tbM0 (Memref.isWhole_whole _) (ms0_0 a t) (hs0_0 a t) (ms0_1 a t) (hs0_1 a t) (ms0_2 a t) (hs0_2 a t) scM0 (Memref.isWhole_whole _)
    (fun h => h0 ((hcond0_0 t).mp h)) (fun h => h1 ((hcond0_1 t).mp h)) (a.1 0) (iblk0 V a c 0 t) (iblk0 V a c 1 t) xs
    (hks0 _ (a.1 0) htbl _)

abbrev run0_C (c : Dev nD) (t : Fin (cfg0 a).N) (h1 : t.val % 403 = 402) (xs : Vec F S1x100096 .f32) :=
  kernelRun0_C (Ix := Unit) (U := UR sig nD τ) (Lvl := ℕ) 𝒱₀ c (grid0.coords t) tbM0 (Memref.isWhole_whole _) (ms0_0 a t) (hs0_0 a t) (ms0_1 a t) (hs0_1 a t) (ms0_2 a t) (hs0_2 a t) scM0 (Memref.isWhole_whole _)
    (fun h => by have := (hcond0_0 t).mp h; omega) ((hcond0_1 t).mpr h1) (a.1 0) (iblk0 V a c 0 t) (iblk0 V a c 1 t) xs
    (hks0 _ (a.1 0) htbl _)

def sout0_A (c : Dev nD) (t : Fin (cfg0 a).N) (h0 : t.val % 403 = 0) : Vec F S1x100096 .f32 :=
  VS0.read (Elt F) (VS0.writes (Elt F) VS0.junk (run0_A V a htbl c t h0).1)

def sout0_B (c : Dev nD) (t : Fin (cfg0 a).N) (h0 : ¬t.val % 403 = 0) (h1 : ¬t.val % 403 = 402) (xs : Vec F S1x100096 .f32) : Vec F S1x100096 .f32 :=
  VS0.read (Elt F) (VS0.writes (Elt F) ((Memref.isWhole_whole cc0_scratch0).unread xs) (run0_B V a htbl c t h0 h1 xs).1)

def sout0_C (c : Dev nD) (t : Fin (cfg0 a).N) (h1 : t.val % 403 = 402) (xs : Vec F S1x100096 .f32) : Vec F S1x100096 .f32 :=
  VS0.read (Elt F) (VS0.writes (Elt F) ((Memref.isWhole_whole cc0_scratch0).unread xs) (run0_C V a htbl c t h1 xs).2.1)

def out0_C (c : Dev nD) (t : Fin (cfg0 a).N) (h1 : t.val % 403 = 402) (xs : Vec F S1x100096 .f32) : Vec F S1x100096 .f32 :=
  VO0.read (Elt F) (VO0.writes (Elt F) VO0.junk (run0_C V a htbl c t h1 xs).1)

def scrAt0 (c : Dev nD) : (n : ℕ) → n < (cfg0 a).N → Vec F S1x100096 .f32
  | 0, hn => sout0_A V a htbl c ⟨0, hn⟩ (Nat.zero_mod _)
  | n + 1, hn =>
    if h0 : (n + 1) % 403 = 0 then sout0_A V a htbl c ⟨n + 1, hn⟩ h0
    else if h1 : (n + 1) % 403 = 402 then sout0_C V a htbl c ⟨n + 1, hn⟩ h1 (scrAt0 c n (Nat.lt_of_succ_lt hn))
    else sout0_B V a htbl c ⟨n + 1, hn⟩ h0 h1 (scrAt0 c n (Nat.lt_of_succ_lt hn))

abbrev prev0 (c : Dev nD) (t : Fin (cfg0 a).N) : Vec F S1x100096 .f32 :=
  scrAt0 V a htbl c (t.val - 1) (Nat.lt_of_le_of_lt (Nat.sub_le _ _) t.isLt)

theorem scrAt0_A (c : Dev nD) (t : Fin (cfg0 a).N) (h0 : t.val % 403 = 0) :
    scrAt0 V a htbl c t.val t.isLt = sout0_A V a htbl c t h0 := by
  obtain ⟨n, hn⟩ := t
  cases n with
  | zero => rfl
  | succ n => exact dif_pos h0

theorem scrAt0_B (c : Dev nD) (t : Fin (cfg0 a).N) (h0 : ¬t.val % 403 = 0) (h1 : ¬t.val % 403 = 402) :
    scrAt0 V a htbl c t.val t.isLt = sout0_B V a htbl c t h0 h1 (prev0 V a htbl c t) := by
  obtain ⟨n, hn⟩ := t
  cases n with
  | zero => exact absurd (Nat.zero_mod _) h0
  | succ n => exact (dif_neg h0).trans (dif_neg h1)

theorem scrAt0_C (c : Dev nD) (t : Fin (cfg0 a).N) (h1 : t.val % 403 = 402) :
    scrAt0 V a htbl c t.val t.isLt = sout0_C V a htbl c t h1 (prev0 V a htbl c t) := by
  obtain ⟨n, hn⟩ := t
  cases n with
  | zero => exact absurd ((Nat.zero_mod 403).symm.trans h1) (by decide)
  | succ n =>
    have h1' : (n + 1) % 403 = 402 := h1
    exact (dif_neg (by omega)).trans (dif_pos h1)

def outAt0 (c : Dev nD) (t : Fin (cfg0 a).N) : Vec F S1x100096 .f32 :=
  if h1 : t.val % 403 = 402 then out0_C V a htbl c t h1 (prev0 V a htbl c t) else scrAt0 V a htbl c t.val t.isLt

theorem outAt0_C (c : Dev nD) (t : Fin (cfg0 a).N) (h1 : t.val % 403 = 402) :
    outAt0 V a htbl c t = out0_C V a htbl c t h1 (prev0 V a htbl c t) := dif_pos h1

def restS0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ restS0 c) := by
  unfold Pipeline.scopedRest restS0
  rw [BI.bigSep_erase (i := cc0_scratch0) (by decide)]
  simp only [scM0, owns_whole]; try rfl

def PhiS0 (c : Dev nD) : (n : ℕ) → n ≤ (cfg0 a).N → sProp 𝕄
  | 0, _ => iprop(owns (c : Thread nD τ) tbM0 fullShare (a.1 0) ∗ (∃ d, owns (c : Thread nD τ) scM0 fullShare d) ∗ restS0 c ∗ ∃ r, prngReg c r)
  | n + 1, hn => iprop(owns (c : Thread nD τ) tbM0 fullShare (a.1 0) ∗ owns (c : Thread nD τ) scM0 fullShare (scrAt0 V a htbl c n hn) ∗ restS0 c ∗ ∃ r, prngReg c r)

theorem PhiS0_zero (c : Dev nD) (n : ℕ) (h : n ≤ (cfg0 a).N) (hz : n = 0) :
    PhiS0 V a htbl c n h = iprop(owns (c : Thread nD τ) tbM0 fullShare (a.1 0) ∗ (∃ d, owns (c : Thread nD τ) scM0 fullShare d) ∗ restS0 c ∗ ∃ r, prngReg c r) := by
  subst hz; rfl

theorem PhiS0_succ (c : Dev nD) (n : ℕ) (hn : n < (cfg0 a).N) :
    PhiS0 V a htbl c (n + 1) hn = iprop(owns (c : Thread nD τ) tbM0 fullShare (a.1 0) ∗ owns (c : Thread nD τ) scM0 fullShare (scrAt0 V a htbl c n hn) ∗ restS0 c ∗ ∃ r, prngReg c r) := rfl

theorem PhiS0_pos (c : Dev nD) (n : ℕ) (h : n ≤ (cfg0 a).N) (hz : n ≠ 0) :
    PhiS0 V a htbl c n h = iprop(owns (c : Thread nD τ) tbM0 fullShare (a.1 0) ∗ owns (c : Thread nD τ) scM0 fullShare (scrAt0 V a htbl c (n - 1) (by omega)) ∗ restS0 c ∗ ∃ r, prngReg c r) := by
  cases n with
  | zero => exact absurd rfl hz
  | succ n => rfl

def dat0 (c : Dev nD) : Dat τ (Elt F) Unit ℕ (UR sig nD τ) ℕ (cfg0 a) c where
  A w := VR0 V c (Pipeline.arrRef spec0 w)
  after w t := match w with
    | 0 => iblk0 V a c 0 t
    | 1 => iblk0 V a c 1 t
    | 2 => outAt0 V a htbl c t
    | ⟨_ + 3, h⟩ => absurd h (Nat.not_lt.2 (Nat.le_add_left _ _))
  Φ t := PhiS0 V a htbl c t.val (Nat.le_of_lt_succ t.isLt)
  q _ := fullShare
  owed _ := 0

theorem A_eq0 (c : Dev nD) (w : Fin (cfg0 a).W) : (dat0 V a htbl c).A w = VR0 V c (Pipeline.arrRef spec0 w) := by
  dsimp only [dat0]

theorem PhiS0_castSucc (c : Dev nD) (t : Fin (cfg0 a).N) :
    (dat0 V a htbl c).Φ t.castSucc = PhiS0 V a htbl c t.val (Nat.le_of_lt t.isLt) := by
  dsimp only [dat0]; simp only [Fin.coe_castSucc]

theorem after0_0 (c : Dev nD) (t : Fin (cfg0 a).N) : (dat0 V a htbl c).after 0 t = iblk0 V a c 0 t := by dsimp only [dat0]; rfl
theorem after0_1 (c : Dev nD) (t : Fin (cfg0 a).N) : (dat0 V a htbl c).after 1 t = iblk0 V a c 1 t := by dsimp only [dat0]; rfl
theorem after0_2 (c : Dev nD) (t : Fin (cfg0 a).N) : (dat0 V a htbl c).after 2 t = outAt0 V a htbl c t := by dsimp only [dat0]; rfl

theorem before0_0 (c : Dev nD) (t : Fin (cfg0 a).N) (d) : (dat0 V a htbl c).before 0 t d = iblk0 V a c 0 t :=
  ((dat0 V a htbl c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin (cfg0 a).N) (d) : (dat0 V a htbl c).before 1 t d = iblk0 V a c 1 t :=
  ((dat0 V a htbl c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

def bodyPre0 (c : Dev nD) (t : Fin (cfg0 a).N) : sProp 𝕄 :=
  iprop((dat0 V a htbl c).Φ t.castSucc ∗ (dat0 V a htbl c).owesAt () t.castSucc
    ∗ (∃ d, owns (c : Thread nD τ) (ms0_0 a t) fullShare ((dat0 V a htbl c).before 0 t d))
    ∗ (∃ d, owns (c : Thread nD τ) (ms0_1 a t) fullShare ((dat0 V a htbl c).before 1 t d))
    ∗ (∃ d, owns (c : Thread nD τ) (ms0_2 a t) fullShare ((dat0 V a htbl c).before 2 t d)))

def bodyPost0 (c : Dev nD) (t : Fin (cfg0 a).N) : sProp 𝕄 :=
  iprop((dat0 V a htbl c).Φ t.succ ∗ (dat0 V a htbl c).owesAt () t.succ
    ∗ (dat0 V a htbl c).leavesExact 0 t
    ∗ (dat0 V a htbl c).leavesExact 1 t
    ∗ (dat0 V a htbl c).leavesExact 2 t)

set_option maxHeartbeats 4000000 in

theorem sound_body0 (c : Dev nD) (t : Fin (cfg0 a).N) :
    bodyPre0 V a htbl c t ⊢ wp frame (wpE (defs₀ (F := F)) 𝒱₀ c none) Set.univ (bodyAt0 a t) (fun _ => bodyPost0 V a htbl c t) := by
  unfold bodyPre0 bodyPost0 bodyAt0
  simp only [before0_0, before0_1]
  rw [show (dat0 V a htbl c).owesAt () t.succ = (dat0 V a htbl c).owesAt () t.castSucc from rfl]
  rw [show (dat0 V a htbl c).Φ t.succ = PhiS0 V a htbl c (t.val + 1) t.isLt from rfl, PhiS0_succ]
  rw [show (dat0 V a htbl c).leavesExact 0 t = owns (c : Thread nD τ) (ms0_0 a t) fullShare ((dat0 V a htbl c).after 0 t) from by
    unfold Dat.leavesExact; rw [liveAt0_0 a t]; rfl, after0_0]
  rw [show (dat0 V a htbl c).leavesExact 1 t = owns (c : Thread nD τ) (ms0_1 a t) fullShare ((dat0 V a htbl c).after 1 t) from by
    unfold Dat.leavesExact; rw [liveAt0_1 a t]; rfl, after0_1]
  by_cases h0 : t.val % 403 = 0
  · have h1 : ¬t.val % 403 = 402 := by omega
    rw [Dat.leavesExact_idle (dat0 V a htbl c) 2 t (idleAt0_2 a t h1) (noFlush0_2 a t h1)]
    rw [scrAt0_A V a htbl c t h0]
    unfold sout0_A
    by_cases hz : t.val = 0
    · rw [PhiS0_castSucc V a htbl c t, PhiS0_zero V a htbl c _ _ hz]
      iintro ⟨⟨Htb, HS, Hrest, Hg⟩, Ho, ⟨%d0, H0⟩, ⟨%d1, H1⟩, ⟨%d2, H2⟩⟩
      iapply ((run0_A V a htbl c t h0).2 _ Set.univ _)
      isplitl [Htb]; · iexact Htb
      isplitl [H0]; · iexact H0
      isplitl [H1]; · iexact H1
      isplitl [H2]; · iexact H2
      isplitl [HS]; · iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover0_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
    · rw [PhiS0_castSucc V a htbl c t, PhiS0_pos V a htbl c _ _ hz]
      iintro ⟨⟨Htb, HS, Hrest, Hg⟩, Ho, ⟨%d0, H0⟩, ⟨%d1, H1⟩, ⟨%d2, H2⟩⟩
      iapply ((run0_A V a htbl c t h0).2 _ Set.univ _)
      isplitl [Htb]; · iexact Htb
      isplitl [H0]; · iexact H0
      isplitl [H1]; · iexact H1
      isplitl [H2]; · iexact H2
      isplitl [HS]; · iexists _; iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover0_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
  · have hz : t.val ≠ 0 := fun hz => h0 (by rw [hz])
    rw [PhiS0_castSucc V a htbl c t, PhiS0_pos V a htbl c _ _ hz]
    by_cases h1 : t.val % 403 = 402
    · rw [show (dat0 V a htbl c).leavesExact 2 t = owns (c : Thread nD τ) (ms0_2 a t) fullShare ((dat0 V a htbl c).after 2 t) from by
        unfold Dat.leavesExact; rw [liveAt0_2 a t h1]; rfl, after0_2, outAt0_C V a htbl c t h1]
      rw [scrAt0_C V a htbl c t h1]
      unfold sout0_C out0_C
      iintro ⟨⟨Htb, HS, Hrest, Hg⟩, Ho, ⟨%d0, H0⟩, ⟨%d1, H1⟩, ⟨%d2, H2⟩⟩
      iapply ((run0_C V a htbl c t h1 (prev0 V a htbl c t)).2.2 Set.univ _)
      isplitl [Htb]; · iexact Htb
      isplitl [H0]; · iexact H0
      isplitl [H1]; · iexact H1
      isplitl [H2]; · iexists _; iexact H2
      isplitl [HS]; · iexact HS
      iintro ⟨Htb, H0, H1, ⟨%e5, H2⟩, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (fun y => cover0_C (Ix := Unit) (U := UR sig nD τ) (Lvl := ℕ) ..)
    · rw [Dat.leavesExact_idle (dat0 V a htbl c) 2 t (idleAt0_2 a t h1) (noFlush0_2 a t h1)]
      rw [scrAt0_B V a htbl c t h0 h1]
      unfold sout0_B
      iintro ⟨⟨Htb, HS, Hrest, Hg⟩, Ho, ⟨%d0, H0⟩, ⟨%d1, H1⟩, ⟨%d2, H2⟩⟩
      iapply ((run0_B V a htbl c t h0 h1 (prev0 V a htbl c t)).2 _ Set.univ _)
      isplitl [Htb]; · iexact Htb
      isplitl [H0]; · iexact H0
      isplitl [H1]; · iexact H1
      isplitl [H2]; · iexact H2
      isplitl [HS]; · iexact HS
      iintro ⟨Htb, H0, H1, H2, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      iexists _; iexact H2

theorem body_obligation0 (c : Dev nD) : BodyObligation (dat0 V a htbl c) (defs₀ (F := F)) 𝒱₀ () Set.univ := fun t => by
  rw [bigSep_W0, bigSep_W0]
  exact sound_body0 V a htbl c t

end Region

section Seg

theorem prefHeld0_eq_owns (c : Dev nD) (T : pre0.Contents (Elt F)) :
    (Pipeline.prefHeld (Ix := Unit) (Name := ℕ) (U := UR sig nD τ) (Lvl := ℕ) pre0 c (fun _ => fullShare) T : sProp 𝕄)
      = owns (c : Thread nD τ) tbM0 fullShare (T 0) := by
  unfold Pipeline.prefHeld
  rw [show (Finset.univ : Finset (Fin pre0.K)) = {0} from rfl, BI.bigSep_singleton]
  exact (owns_whole (c : Thread nD τ) main_v44 fullShare (T 0)).symm

theorem arrRef0_0_ne : (Proc.devRef .tc (Pipeline.arrRef spec0 (0 : Fin 3)) : DevRef τ sig) ≠ Proc.devRef .tc main_v47 :=
  StableHlo.devRef_ne_of_ne (by decide)
theorem arrRef0_1_ne : (Proc.devRef .tc (Pipeline.arrRef spec0 (1 : Fin 3)) : DevRef τ sig) ≠ Proc.devRef .tc main_v47 :=
  StableHlo.devRef_ne_of_ne (by decide)

theorem update0_arr (Vc : Valuation τ sig (Elt F)) (X : (Proc.devRef (τ := τ) .tc main_v47).ty.Contents (Elt F)) :
    Function.update Vc (Proc.devRef .tc main_v47) X (Proc.devRef .tc (Pipeline.arrRef spec0 (2 : Fin 3))) = X :=
  Function.update_self ..

variable (V : Dev nD → Valuation τ sig (Elt F)) (a : (p : Fin 3) → (pcfgs (F := F) p).Adm)
  (htbl : TblOk ((a 0).1 0))

abbrev Vout0 (c : Dev nD) : Valuation τ sig (Elt F) :=
  Function.update (V c) main_v47 ((dat0 V (a 0) htbl c).arrAt 2 grid0.N)

theorem hF0 (c : Dev nD) : ∀ w : Fin 3,
    (dat0 V (a 0) htbl c).arrAt w grid0.N = Vout0 V a htbl c (Proc.devRef .tc (Pipeline.arrRef spec0 w))
  | 0 => ((dat0 V (a 0) htbl c).arrAt_in 0 rfl _).trans ((A_eq0 V (a 0) htbl c 0).trans (Function.update_of_ne arrRef0_0_ne _ _).symm)
  | 1 => ((dat0 V (a 0) htbl c).arrAt_in 1 rfl _).trans ((A_eq0 V (a 0) htbl c 1).trans (Function.update_of_ne arrRef0_1_ne _ _).symm)
  | 2 => (update0_arr (V c) _).symm
  | ⟨_ + 3, h⟩ => absurd h (Nat.not_lt.2 (Nat.le_add_left _ _))

theorem hrest0 (c : Dev nD) : ∀ b : Ref sig .tc, b ∉ Finset.univ.image (Pipeline.arrRef spec0) →
    Vout0 V a htbl c (Proc.devRef .tc b) = V c (Proc.devRef .tc b) := fun b hb =>
  Function.update_of_ne (StableHlo.devRef_ne_of_ne fun e => hb (Finset.mem_image.mpr ⟨2, Finset.mem_univ _, e.symm⟩)) _ _

set_option backward.isDefEq.respectTransparency.types false in

def reg0 (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 0).1 0))
    (hV : ∀ (c : Dev nD) (k : Fin 1), (a 0).1 k = V c (Proc.devRef .tc (pre0.ref k)))
    (hd : ∀ c : Dev nD, pdats 0 c = dat0 V (a 0) htbl c) :
    Pipeline.RegionSeg (pcfgs (F := F)) a pdats () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := by rw [hd c]; exact (body_obligation0 V (a 0) htbl c).loose
  hwaits := Pipeline.hwaits_of_owed_zero _ _ _ _ L lv 0 fun c t => by rw [hd c]; rfl
  pre c := iprop(StableHlo.held (c : Thread nD τ) (Pipeline.ucRefs τ sig) (V c) ∗ R c)
  post c := iprop(StableHlo.held (c : Thread nD τ) (Pipeline.ucRefs τ sig) (Vout0 V a htbl c) ∗ R c)
  X c := iprop(∃ r, prngReg c r)
  Y c := iprop(owns (c : Thread nD τ) tbM0 fullShare ((a 0).1 0) ∗ ∃ r, prngReg c r)
  Z c := Pipeline.unscopedRestP (Ix := Unit) (Name := ℕ) (U := UR sig nD τ) (Lvl := ℕ) pre0 spec0 c (VR0 V c)
  hentry c := by
    have hsplit : (StableHlo.held (c : Thread nD τ) (Pipeline.ucRefs τ sig) (V c) : sProp 𝕄)
        ⊢ iprop((dat0 V (a 0) htbl c).arrays ((dat0 V (a 0) htbl c).arrAt · 0)
            ∗ Pipeline.prefHeld pre0 c (fun _ => fullShare) (a 0).1 ∗ Pipeline.unscopedRestP pre0 spec0 c (VR0 V c)) := by
      have h := Pipeline.arrays_of_unscopedBufs (p := 0) (pcfgs (F := F)) a pdats (launch0 (F := F)).win (launch0 (F := F)).arr_whole c
        (by rw [hd c]; exact (dat0 V (a 0) htbl c).share_full fun _ => rfl) (VR0 V c) (fun w => by rw [hd c]; rfl)
      rw [Pipeline.unscopedBufs_held, Pipeline.unscopedRest_split (launch0 (F := F)).pre c (VR0 V c), hd c] at h
      rw [show (a 0).1 = fun k => VR0 V c (pre0.ref k) from funext (hV c)]
      exact h
    rw [Pipeline.ownSems0_none, hd c]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd c]
    show iprop((∃ r, prngReg c r) ∗ Pipeline.prefHeld pre0 c (fun _ => fullShare) (a 0).1 ∗ Pipeline.scopedRest spec0 c)
      ⊢ PhiS0 V (a 0) htbl c 0 (Nat.zero_le _)
    rw [PhiS0_zero V (a 0) htbl c 0 _ rfl, scopedRest0_split, prefHeld0_eq_owns]
    iintro ⟨Hg, Hpf, HS, Hrest⟩
    isplitl [Hpf]; · iexact Hpf
    isplitl [HS]; · iexact HS
    isplitl [Hrest]; · iexact Hrest
    iexact Hg
  hout c := by
    rw [Pipeline.ownSems0_none, hd c]
    show PhiS0 V (a 0) htbl c (cfg0 (a 0)).N (Nat.le_refl _)
      ⊢ iprop((owns (c : Thread nD τ) tbM0 fullShare ((a 0).1 0) ∗ ∃ r, prngReg c r) ∗ BI.emp ∗ Pipeline.scopedRest spec0 c)
    rw [PhiS0_pos V (a 0) htbl c _ _ (show grid0.N ≠ 0 by decide), scopedRest0_split]
    iintro ⟨Htb, HS, Hrest, Hg⟩
    isplitl [Htb Hg]
    · isplitl [Htb]; · iexact Htb
      iexact Hg
    isplitr; · iempintro
    isplitl [HS]; · iexists _; iexact HS
    iexact Hrest
  hexit c := by
    have hjoin : iprop((dat0 V (a 0) htbl c).arrays ((dat0 V (a 0) htbl c).arrAt · grid0.N)
          ∗ owns (c : Thread nD τ) tbM0 fullShare ((a 0).1 0) ∗ Pipeline.unscopedRestP pre0 spec0 c (VR0 V c))
        ⊢ (StableHlo.held (c : Thread nD τ) (Pipeline.ucRefs τ sig) (Vout0 V a htbl c) : sProp 𝕄) := by
      have h := Pipeline.unscopedBufs_of_arrays (p := 0) (pcfgs (F := F)) a (Ix := Unit) (Name := ℕ) (U := UR sig nD τ) (Lvl := ℕ)
        (launch0 (F := F)).win (launch0 (F := F)).arr_whole c pdats (by rw [hd c]; exact (dat0 V (a 0) htbl c).share_full fun _ => rfl)
        (VR0 V c) (fun b => Vout0 V a htbl c (Proc.devRef .tc b)) ((dat0 V (a 0) htbl c).arrAt · grid0.N)
        (hF0 V a htbl c) (hrest0 V a htbl c)
      rw [Pipeline.unscopedBufs_held, Pipeline.unscopedRest_split (launch0 (F := F)).pre c (VR0 V c), hd c] at h
      rw [← prefHeld0_eq_owns, show (a 0).1 = fun k => VR0 V c (pre0.ref k) from funext (hV c)]
      exact h
    rw [hd c]
    iintro ⟨Ha, HO, ⟨Hpf, Hg⟩, Hrest⟩
    imodintro
    isplitl [Ha Hpf Hrest]
    · iapply hjoin
      isplitl [Ha]; · iexact Ha
      isplitl [Hpf]; · iexact Hpf
      iexact Hrest
    isplitl [Hg]; · iexact Hg
    unfold Pipeline.Dat.owesAt Pipeline.owesWithin
    icases HO with ⟨%W, -, HO⟩; iexists W; iexact HO

theorem reg0_pre (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 0).1 0))
    (hV : ∀ (c : Dev nD) (k : Fin 1), (a 0).1 k = V c (Proc.devRef .tc (pre0.ref k)))
    (hd : ∀ c : Dev nD, pdats 0 c = dat0 V (a 0) htbl c) (c : Dev nD) :
    (reg0 V a pdats htbl hV hd).pre c = iprop(StableHlo.held (c : Thread nD τ) (Pipeline.ucRefs τ sig) (V c) ∗ R c) := rfl
theorem reg0_post (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 0).1 0))
    (hV : ∀ (c : Dev nD) (k : Fin 1), (a 0).1 k = V c (Proc.devRef .tc (pre0.ref k)))
    (hd : ∀ c : Dev nD, pdats 0 c = dat0 V (a 0) htbl c) (c : Dev nD) :
    (reg0 V a pdats htbl hV hd).post c = iprop(StableHlo.held (c : Thread nD τ) (Pipeline.ucRefs τ sig) (Function.update (V c) main_v47 ((dat0 V (a 0) htbl c).arrAt 2 grid0.N)) ∗ R c) := rfl

end Seg

end Cert.KernelIdeal.Hand

end
-- ==== Proof.KI.Body1.lean ====
import proofs.«401711_j53747220742790_3_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1

theorem hcond1_0 : ∀ t : Fin grid1.N, cond1_0 (grid1.coords t) ↔ t.val % 403 = 0 := by decide +kernel

theorem hcond1_1 : ∀ t : Fin grid1.N, cond1_1 (grid1.coords t) ↔ t.val % 403 = 402 := by decide +kernel

noncomputable def winUpd1 (base : BitVec 32) (msgc : Vec F S1x128 .f32) (dstc : Vec F S128 .i32) (cur : Vec F S1x256 .f32) : FVec F S1x256 .f32 :=
  have iota0r1 : IVec S256x128 32 := iota .tc S256x128 32 [0] iota_S256x128_d0_w32
  have msg : FVec F S1x128 .f32 := shapeCast S1x128 msgc shapeCasts_S1x128_S1x128
  have dst : IVec S128 32 := shapeCast S128 dstc shapeCasts_S128_S128
  have loc : IVec S128 32 := subi dst (broadcast S128 base)
  have locRow : IVec S1x128 32 := shapeCast S1x128 loc shapeCasts_S128_S1x128
  have hit : IVec S256x128 1 := cmpi .eq iota0r1 (broadcastTo S256x128 locRow broadcasts_S1x128_S256x128)
  have onehot : FVec F S256x128 .f32 := sitofp .f32 (extui 32 hit natLt_1_32)
  have zero : FVec F S1x256 .f32 := constant S1x256 .f32 0x00000000#32
  have acc : FVec F S1x256 .f32 := matmul dot_S1x128_S256x128_S1x256_1_1_0_0_n_n none msg onehot zero
  shapeCast S1x256 (addf cur acc) shapeCasts_S1x256_S1x256

abbrev iota0r1 : IVec S256x128 32 := iota .tc S256x128 32 [0] iota_S256x128_d0_w32

-- Each of the 32 window base words read at point i is a multiple of 128 whose 256 lanes lie inside the accumulator's.
structure Hw1 (i : grid1.Coords) (arg2 : Memref sig .tc .smem S25792 .i32) (harg2 : arg2.IsWhole) (x2 : Vec F S25792 .i32) : Prop where
  h1 : k1_chk1 (arg2.view.readAt (Elt F) (Rect.unit (s := S25792) (k1_off1 i) S1.size (k1_off1_inb i)).toLoadRect (harg2.unread x2) (Shape.Idx.first (numel1_S1.symm ▸ Nat.one_pos)))
  h2 : k1_chk2 (arg2.view.readAt (Elt F) (Rect.unit (s := S25792) (k1_off3 i) S1.size (k1_off3_inb i)).toLoadRect (harg2.unread x2) (Shape.Idx.first (numel1_S1.symm ▸ Nat.one_pos)))
  h3 : k1_chk3 (arg2.view.readAt (Elt F) (Rect.unit (s := S25792) (k1_off5 i) S1.size (k1_off5_inb i)).toLoadRect (harg2.unread x2) (Shape.Idx.first (numel1_S1.symm ▸ Nat.one_pos)))
  h4 : k1_chk4 (arg2.view.readAt (Elt F) (Rect.unit (s := S25792) (k1_off7 i) S1.size (k1_off7_inb i)).toLoadRect (harg2.unread x2) (Shape.Idx.first (numel1_S1.symm ▸ Nat.one_pos)))
  h5 : k1_chk5 (arg2.view.readAt (Elt F) (Rect.unit (s := S25792) (k1_off9 i) S1.size (k1_off9_inb i)).toLoadRect (harg2.unread x2) (Shape.Idx.first (numel1_S1.symm ▸ Nat.one_pos)))
  h6 : k1_chk6 (arg2.view.readAt (Elt F) (Rect.unit (s := S25792) (k1_off11 i) S1.size (k1_off11_inb i)).toLoadRect (harg2.unread x2) (Shape.Idx.first (numel1_S1.symm ▸ Nat.one_pos)))
  h7 : k1_chk7 (arg2.view.readAt (Elt F) (Rect.unit (s := S25792) (k1_off13 i) S1.size (k1_off13_inb i)).toLoadRect (harg2.unread x2) (Shape.Idx.first (numel1_S1.symm ▸ Nat.one_pos)))
  h8 : k1_chk8 (arg2.view.readAt (Elt F) (Rect.unit (s := S25792) (k1_off15 i) S1.size (k1_off15_inb i)).toLoadRect (harg2.unread x2) (Shape.Idx.first (numel1_S1.symm ▸ Nat.one_pos)))
  h9 : k1_chk9 (arg2.view.readAt (Elt F) (Rect.unit (s := S25792) (k1_off17 i) S1.size (k1_off17_inb i)).toLoadRect (harg2.unread x2) (Shape.Idx.first (numel1_S1.symm ▸ Nat.one_pos)))
  h10 : k1_chk10 (arg2.view.readAt (Elt F) (Rect.unit (s := S25792) (k1_off19 i) S1.size (k1_off19_inb i)).toLoadRect (harg2.unread x2) (Shape.Idx.first (numel1_S1.symm ▸ Nat.one_pos)))
  h11 : k1_chk11 (arg2.view.readAt (Elt F) (Rect.unit (s := S25792) (k1_off21 i) S1.size (k1_off21_inb i)).toLoadRect (harg2.unread x2) (Shape.Idx.first (numel1_S1.symm ▸ Nat.one_pos)))
  h12 : k1_chk12 (arg2.view.readAt (Elt F) (Rect.unit (s := S25792) (k1_off23 i) S1.size (k1_off23_inb i)).toLoadRect (harg2.unread x2) (Shape.Idx.first (numel1_S1.symm ▸ Nat.one_pos)))
  h13 : k1_chk13 (arg2.view.readAt (Elt F) (Rect.unit (s := S25792) (k1_off25 i) S1.size (k1_off25_inb i)).toLoadRect (harg2.unread x2) (Shape.Idx.first (numel1_S1.symm ▸ Nat.one_pos)))
  h14 : k1_chk14 (arg2.view.readAt (Elt F) (Rect.unit (s := S25792) (k1_off27 i) S1.size (k1_off27_inb i)).toLoadRect (harg2.unread x2) (Shape.Idx.first (numel1_S1.symm ▸ Nat.one_pos)))
  h15 : k1_chk15 (arg2.view.readAt (Elt F) (Rect.unit (s := S25792) (k1_off29 i) S1.size (k1_off29_inb i)).toLoadRect (harg2.unread x2) (Shape.Idx.first (numel1_S1.symm ▸ Nat.one_pos)))
  h16 : k1_chk16 (arg2.view.readAt (Elt F) (Rect.unit (s := S25792) (k1_off31 i) S1.size (k1_off31_inb i)).toLoadRect (harg2.unread x2) (Shape.Idx.first (numel1_S1.symm ▸ Nat.one_pos)))
  h17 : k1_chk17 (arg2.view.readAt (Elt F) (Rect.unit (s := S25792) (k1_off33 i) S1.size (k1_off33_inb i)).toLoadRect (harg2.unread x2) (Shape.Idx.first (numel1_S1.symm ▸ Nat.one_pos)))
  h18 : k1_chk18 (arg2.view.readAt (Elt F) (Rect.unit (s := S25792) (k1_off35 i) S1.size (k1_off35_inb i)).toLoadRect (harg2.unread x2) (Shape.Idx.first (numel1_S1.symm ▸ Nat.one_pos)))
  h19 : k1_chk19 (arg2.view.readAt (Elt F) (Rect.unit (s := S25792) (k1_off37 i) S1.size (k1_off37_inb i)).toLoadRect (harg2.unread x2) (Shape.Idx.first (numel1_S1.symm ▸ Nat.one_pos)))
  h20 : k1_chk20 (arg2.view.readAt (Elt F) (Rect.unit (s := S25792) (k1_off39 i) S1.size (k1_off39_inb i)).toLoadRect (harg2.unread x2) (Shape.Idx.first (numel1_S1.symm ▸ Nat.one_pos)))
  h21 : k1_chk21 (arg2.view.readAt (Elt F) (Rect.unit (s := S25792) (k1_off41 i) S1.size (k1_off41_inb i)).toLoadRect (harg2.unread x2) (Shape.Idx.first (numel1_S1.symm ▸ Nat.one_pos)))
  h22 : k1_chk22 (arg2.view.readAt (Elt F) (Rect.unit (s := S25792) (k1_off43 i) S1.size (k1_off43_inb i)).toLoadRect (harg2.unread x2) (Shape.Idx.first (numel1_S1.symm ▸ Nat.one_pos)))
  h23 : k1_chk23 (arg2.view.readAt (Elt F) (Rect.unit (s := S25792) (k1_off45 i) S1.size (k1_off45_inb i)).toLoadRect (harg2.unread x2) (Shape.Idx.first (numel1_S1.symm ▸ Nat.one_pos)))
  h24 : k1_chk24 (arg2.view.readAt (Elt F) (Rect.unit (s := S25792) (k1_off47 i) S1.size (k1_off47_inb i)).toLoadRect (harg2.unread x2) (Shape.Idx.first (numel1_S1.symm ▸ Nat.one_pos)))
  h25 : k1_chk25 (arg2.view.readAt (Elt F) (Rect.unit (s := S25792) (k1_off49 i) S1.size (k1_off49_inb i)).toLoadRect (harg2.unread x2) (Shape.Idx.first (numel1_S1.symm ▸ Nat.one_pos)))
  h26 : k1_chk26 (arg2.view.readAt (Elt F) (Rect.unit (s := S25792) (k1_off51 i) S1.size (k1_off51_inb i)).toLoadRect (harg2.unread x2) (Shape.Idx.first (numel1_S1.symm ▸ Nat.one_pos)))
  h27 : k1_chk27 (arg2.view.readAt (Elt F) (Rect.unit (s := S25792) (k1_off53 i) S1.size (k1_off53_inb i)).toLoadRect (harg2.unread x2) (Shape.Idx.first (numel1_S1.symm ▸ Nat.one_pos)))
  h28 : k1_chk28 (arg2.view.readAt (Elt F) (Rect.unit (s := S25792) (k1_off55 i) S1.size (k1_off55_inb i)).toLoadRect (harg2.unread x2) (Shape.Idx.first (numel1_S1.symm ▸ Nat.one_pos)))
  h29 : k1_chk29 (arg2.view.readAt (Elt F) (Rect.unit (s := S25792) (k1_off57 i) S1.size (k1_off57_inb i)).toLoadRect (harg2.unread x2) (Shape.Idx.first (numel1_S1.symm ▸ Nat.one_pos)))
  h30 : k1_chk30 (arg2.view.readAt (Elt F) (Rect.unit (s := S25792) (k1_off59 i) S1.size (k1_off59_inb i)).toLoadRect (harg2.unread x2) (Shape.Idx.first (numel1_S1.symm ▸ Nat.one_pos)))
  h31 : k1_chk31 (arg2.view.readAt (Elt F) (Rect.unit (s := S25792) (k1_off61 i) S1.size (k1_off61_inb i)).toLoadRect (harg2.unread x2) (Shape.Idx.first (numel1_S1.symm ▸ Nat.one_pos)))
  h32 : k1_chk32 (arg2.view.readAt (Elt F) (Rect.unit (s := S25792) (k1_off63 i) S1.size (k1_off63_inb i)).toLoadRect (harg2.unread x2) (Shape.Idx.first (numel1_S1.symm ▸ Nat.one_pos)))

set_option maxHeartbeats 1000000 in

noncomputable def kernelRun1_A (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : cond1_0 i) (hc1 : ¬cond1_1 i)
    (x2 : Vec F S25792 .i32) (x3 : Vec F S1x4096 .f32) (x4 : Vec F S4096 .i32)
    (hks : Hw1 i arg2 harg2 x2) :
    { LS : List (View.Piece (Elt F) S1x100096 .f32) //
      ∀ (xi5 : Vec F S1x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ (∃ d, owns (c : Thread nD τ) arg6 fullShare d)
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (∃ f, arg6.view.loc (c : Thread nD τ) ↦[arg6.view.set]{fullShare} arg6.view.writes (Elt F) f LS)) -∗ K ⟨⟩))
          ⊢ wp frame (wpE (defs₀ (F := F)) 𝒱₀ c none) E (cc1__scatter_kernel i arg2 harg2 arg3 harg3 arg4 harg4 arg5 harg5 arg6 harg6) K } := by
  have k1_hw1 := hks.h1
  have k1_hw2 := hks.h2
  have k1_hw3 := hks.h3
  have k1_hw4 := hks.h4
  have k1_hw5 := hks.h5
  have k1_hw6 := hks.h6
  have k1_hw7 := hks.h7
  have k1_hw8 := hks.h8
  have k1_hw9 := hks.h9
  have k1_hw10 := hks.h10
  have k1_hw11 := hks.h11
  have k1_hw12 := hks.h12
  have k1_hw13 := hks.h13
  have k1_hw14 := hks.h14
  have k1_hw15 := hks.h15
  have k1_hw16 := hks.h16
  have k1_hw17 := hks.h17
  have k1_hw18 := hks.h18
  have k1_hw19 := hks.h19
  have k1_hw20 := hks.h20
  have k1_hw21 := hks.h21
  have k1_hw22 := hks.h22
  have k1_hw23 := hks.h23
  have k1_hw24 := hks.h24
  have k1_hw25 := hks.h25
  have k1_hw26 := hks.h26
  have k1_hw27 := hks.h27
  have k1_hw28 := hks.h28
  have k1_hw29 := hks.h29
  have k1_hw30 := hks.h30
  have k1_hw31 := hks.h31
  have k1_hw32 := hks.h32
  refine ⟨?_, fun xi5 E K => ?run⟩
  case run =>
    simp only [cc1__scatter_kernel_eq_skeleton]; unfold cc1__scatter_kernel_skel
    unfold owns
    iintro ⟨⟨%f2, %hf2, H2⟩, ⟨%f3, %hf3, H3⟩, ⟨%f4, %hf4, H4⟩, ⟨%f5, %hf5, H5⟩, ⟨%ds, %fs, -, HS⟩, Hk⟩
    obtain rfl := harg2.eq_unread hf2; obtain rfl := harg3.eq_unread hf3; obtain rfl := harg4.eq_unread hf4; obtain rfl := harg5.eq_unread hf5
    sl_exec (disch := first | sl_exact hc0 | sl_exact hc1 | sl_exact k1_hw1 | sl_exact k1_hw2 | sl_exact k1_hw3 | sl_exact k1_hw4 | sl_exact k1_hw5 | sl_exact k1_hw6 | sl_exact k1_hw7 | sl_exact k1_hw8 | sl_exact k1_hw9 | sl_exact k1_hw10 | sl_exact k1_hw11 | sl_exact k1_hw12 | sl_exact k1_hw13 | sl_exact k1_hw14 | sl_exact k1_hw15 | sl_exact k1_hw16 | sl_exact k1_hw17 | sl_exact k1_hw18 | sl_exact k1_hw19 | sl_exact k1_hw20 | sl_exact k1_hw21 | sl_exact k1_hw22 | sl_exact k1_hw23 | sl_exact k1_hw24 | sl_exact k1_hw25 | sl_exact k1_hw26 | sl_exact k1_hw27 | sl_exact k1_hw28 | sl_exact k1_hw29 | sl_exact k1_hw30 | sl_exact k1_hw31 | sl_exact k1_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact HS

set_option maxHeartbeats 1000000 in

noncomputable def kernelRun1_B (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond1_0 i) (hc1 : ¬cond1_1 i)
    (x2 : Vec F S25792 .i32) (x3 : Vec F S1x4096 .f32) (x4 : Vec F S4096 .i32) (xs : Vec F S1x100096 .f32)
    (hks : Hw1 i arg2 harg2 x2) :
    { LS : List (View.Piece (Elt F) S1x100096 .f32) //
      ∀ (xi5 : Vec F S1x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xs
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc1__scatter_kernel i arg2 harg2 arg3 harg3 arg4 harg4 arg5 harg5 arg6 harg6) K } := by
  have k1_hw1 := hks.h1
  have k1_hw2 := hks.h2
  have k1_hw3 := hks.h3
  have k1_hw4 := hks.h4
  have k1_hw5 := hks.h5
  have k1_hw6 := hks.h6
  have k1_hw7 := hks.h7
  have k1_hw8 := hks.h8
  have k1_hw9 := hks.h9
  have k1_hw10 := hks.h10
  have k1_hw11 := hks.h11
  have k1_hw12 := hks.h12
  have k1_hw13 := hks.h13
  have k1_hw14 := hks.h14
  have k1_hw15 := hks.h15
  have k1_hw16 := hks.h16
  have k1_hw17 := hks.h17
  have k1_hw18 := hks.h18
  have k1_hw19 := hks.h19
  have k1_hw20 := hks.h20
  have k1_hw21 := hks.h21
  have k1_hw22 := hks.h22
  have k1_hw23 := hks.h23
  have k1_hw24 := hks.h24
  have k1_hw25 := hks.h25
  have k1_hw26 := hks.h26
  have k1_hw27 := hks.h27
  have k1_hw28 := hks.h28
  have k1_hw29 := hks.h29
  have k1_hw30 := hks.h30
  have k1_hw31 := hks.h31
  have k1_hw32 := hks.h32
  refine ⟨?_, fun xi5 E K => ?run⟩
  case run =>
    simp only [cc1__scatter_kernel_eq_skeleton]; unfold cc1__scatter_kernel_skel
    unfold owns
    iintro ⟨⟨%f2, %hf2, H2⟩, ⟨%f3, %hf3, H3⟩, ⟨%f4, %hf4, H4⟩, ⟨%f5, %hf5, H5⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hfs
    sl_exec (disch := first | sl_exact hc0 | sl_exact hc1 | sl_exact k1_hw1 | sl_exact k1_hw2 | sl_exact k1_hw3 | sl_exact k1_hw4 | sl_exact k1_hw5 | sl_exact k1_hw6 | sl_exact k1_hw7 | sl_exact k1_hw8 | sl_exact k1_hw9 | sl_exact k1_hw10 | sl_exact k1_hw11 | sl_exact k1_hw12 | sl_exact k1_hw13 | sl_exact k1_hw14 | sl_exact k1_hw15 | sl_exact k1_hw16 | sl_exact k1_hw17 | sl_exact k1_hw18 | sl_exact k1_hw19 | sl_exact k1_hw20 | sl_exact k1_hw21 | sl_exact k1_hw22 | sl_exact k1_hw23 | sl_exact k1_hw24 | sl_exact k1_hw25 | sl_exact k1_hw26 | sl_exact k1_hw27 | sl_exact k1_hw28 | sl_exact k1_hw29 | sl_exact k1_hw30 | sl_exact k1_hw31 | sl_exact k1_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexact HS

set_option maxHeartbeats 1000000 in

noncomputable def kernelRun1_C (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond1_0 i) (hc1 : cond1_1 i)
    (x2 : Vec F S25792 .i32) (x3 : Vec F S1x4096 .f32) (x4 : Vec F S4096 .i32) (xs : Vec F S1x100096 .f32)
    (hks : Hw1 i arg2 harg2 x2) :
    Σ' (L5 : List (View.Piece (Elt F) S1x100096 .f32)), { LS : List (View.Piece (Elt F) S1x100096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare xs
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc1__scatter_kernel i arg2 harg2 arg3 harg3 arg4 harg4 arg5 harg5 arg6 harg6) K } := by
  have k1_hw1 := hks.h1
  have k1_hw2 := hks.h2
  have k1_hw3 := hks.h3
  have k1_hw4 := hks.h4
  have k1_hw5 := hks.h5
  have k1_hw6 := hks.h6
  have k1_hw7 := hks.h7
  have k1_hw8 := hks.h8
  have k1_hw9 := hks.h9
  have k1_hw10 := hks.h10
  have k1_hw11 := hks.h11
  have k1_hw12 := hks.h12
  have k1_hw13 := hks.h13
  have k1_hw14 := hks.h14
  have k1_hw15 := hks.h15
  have k1_hw16 := hks.h16
  have k1_hw17 := hks.h17
  have k1_hw18 := hks.h18
  have k1_hw19 := hks.h19
  have k1_hw20 := hks.h20
  have k1_hw21 := hks.h21
  have k1_hw22 := hks.h22
  have k1_hw23 := hks.h23
  have k1_hw24 := hks.h24
  have k1_hw25 := hks.h25
  have k1_hw26 := hks.h26
  have k1_hw27 := hks.h27
  have k1_hw28 := hks.h28
  have k1_hw29 := hks.h29
  have k1_hw30 := hks.h30
  have k1_hw31 := hks.h31
  have k1_hw32 := hks.h32
  refine ⟨?_, ?_, fun E K => ?run⟩
  case run =>
    simp only [cc1__scatter_kernel_eq_skeleton]; unfold cc1__scatter_kernel_skel
    unfold owns
    iintro ⟨⟨%f2, %hf2, H2⟩, ⟨%f3, %hf3, H3⟩, ⟨%f4, %hf4, H4⟩, ⟨%d5, %f5, -, H5⟩, ⟨%fs, %hfs, HS⟩, Hk⟩
    obtain rfl := harg2.eq_unread hf2; obtain rfl := harg3.eq_unread hf3; obtain rfl := harg4.eq_unread hf4; obtain rfl := harg6.eq_unread hfs
    sl_exec (disch := first | sl_exact hc0 | sl_exact hc1 | sl_exact k1_hw1 | sl_exact k1_hw2 | sl_exact k1_hw3 | sl_exact k1_hw4 | sl_exact k1_hw5 | sl_exact k1_hw6 | sl_exact k1_hw7 | sl_exact k1_hw8 | sl_exact k1_hw9 | sl_exact k1_hw10 | sl_exact k1_hw11 | sl_exact k1_hw12 | sl_exact k1_hw13 | sl_exact k1_hw14 | sl_exact k1_hw15 | sl_exact k1_hw16 | sl_exact k1_hw17 | sl_exact k1_hw18 | sl_exact k1_hw19 | sl_exact k1_hw20 | sl_exact k1_hw21 | sl_exact k1_hw22 | sl_exact k1_hw23 | sl_exact k1_hw24 | sl_exact k1_hw25 | sl_exact k1_hw26 | sl_exact k1_hw27 | sl_exact k1_hw28 | sl_exact k1_hw29 | sl_exact k1_hw30 | sl_exact k1_hw31 | sl_exact k1_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexact HS

end Cert.KernelIdeal.Hand

end
-- ==== Proof.KI.Body1Cover.lean ====
import proofs.«401711_j53747220742790_3_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

theorem mem_whole1_S1x100096 (y : S1x100096.Idx) :
    y ∈ (Rect.unit (s := S1x100096) ![0, 0] S1x100096.size inb_S1x100096_S1x100096_0_0).set := by
  rw [Rect.mem_set_unit]
  intro a
  have h0 : (![0, 0] : Fin 2 → ℕ) a = 0 := by fin_cases a <;> rfl
  rw [h0, Nat.zero_add]
  exact ⟨Nat.zero_le _, (y a).isLt⟩

theorem scover1_A (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : cond1_0 i) (hc1 : ¬cond1_1 i)
    (x2 : Vec F S25792 .i32) (x3 : Vec F S1x4096 .f32) (x4 : Vec F S4096 .i32)
    (hks : Hw1 i arg2 harg2 x2) (y : S1x100096.Idx) :
    ∃ pc ∈ (kernelRun1_A (Ix := Ix) (U := U) (Lvl := Lvl) 𝒱₀ c i arg2 harg2 arg3 harg3 arg4 harg4 arg5 harg5 arg6 harg6 hc0 hc1 x2 x3 x4 hks).1, y ∈ pc.1.set := by
  refine ⟨⟨Rect.unit (s := S1x100096) ![0, 0] S1x100096.size inb_S1x100096_S1x100096_0_0, k1_pay2 (F := F)⟩, ?_, mem_whole1_S1x100096 y⟩
  apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem
  exact List.mem_cons_self

theorem cover1_C (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond1_0 i) (hc1 : cond1_1 i)
    (x2 : Vec F S25792 .i32) (x3 : Vec F S1x4096 .f32) (x4 : Vec F S4096 .i32) (xs : Vec F S1x100096 .f32)
    (hks : Hw1 i arg2 harg2 x2) (y : S1x100096.Idx) :
    ∃ pc ∈ (kernelRun1_C (Ix := Ix) (U := U) (Lvl := Lvl) 𝒱₀ c i arg2 harg2 arg3 harg3 arg4 harg4 arg5 harg5 arg6 harg6 hc0 hc1 x2 x3 x4 xs hks).1, y ∈ pc.1.set :=
  ⟨_, List.mem_cons_self, mem_whole1_S1x100096 y⟩

end Cert.KernelIdeal.Hand

end
-- ==== Proof.KI.Region1.lean ====
import proofs.«401711_j53747220742790_3_alg».proof.Proof.KI.Common
import proofs.«401711_j53747220742790_3_alg».proof.Proof.KI.Body1Cover
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem word_ok1 {arg2 : Memref sig .tc .smem S25792 .i32} (harg2 : arg2.IsWhole) (x2 : Vec F S25792 .i32) (h : TblOk x2)
    (r : LoadRect S25792) (j : r.shape.Idx) :
    128 ∣ (arg2.view.readAt (Elt F) r (harg2.unread x2) j).toNat ∧ (arg2.view.readAt (Elt F) r (harg2.unread x2) j).toNat + 256 ≤ 100096 := by
  rw [View.readAt_apply, harg2.read_unread]; exact h _

-- A base word that is a multiple of 128 with its 256 lanes inside the accumulator's satisfies every window's bound.
theorem chk1_ok {w : BitVec 32} (h : 128 ∣ w.toNat ∧ w.toNat + 256 ≤ 100096) :
    128 ∣ w.toNat ∧ ∀ a : Fin 2, (![0, w.toNat] : Fin 2 → ℕ) a + S1x256.size a ≤ S1x100096.size a :=
  ⟨h.1, fun a => by fin_cases a <;> first | exact h.2 | exact Nat.le_refl _⟩

theorem hks1 {arg2 : Memref sig .tc .smem S25792 .i32} (harg2 : arg2.IsWhole) (x2 : Vec F S25792 .i32) (h : TblOk x2)
    (i : grid1.Coords) : Hw1 i arg2 harg2 x2 :=
  ⟨chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _)⟩

theorem idleB1_0 : ∀ t : Fin grid1.N, idle1 0 (grid1.coords t) = false := by decide +kernel
theorem idleB1_1 : ∀ t : Fin grid1.N, idle1 1 (grid1.coords t) = false := by decide +kernel
theorem idleB1_2 : ∀ t : Fin grid1.N, idle1 2 (grid1.coords t) = !decide (t.val % 403 = 402) := by decide +kernel
theorem noFlushB1_2 : ∀ t : Fin grid1.N, ¬ t.val % 403 = 402 → (t.val + 1 = grid1.N || decide (∃ h : t.val + 1 < grid1.N, cc1_transform_2 (grid1.coords ⟨t.val + 1, h⟩) ≠ cc1_transform_2 (grid1.coords t))) = false := by decide +kernel

section Layout
variable (a : (pcfg1 (F := F)).Adm)

theorem noFlush1_2 (t : Fin (cfg1 a).N) (h : ¬ t.val % 403 = 402) : ((cfg1 a).win 2).flush t = false := noFlushB1_2 t h

theorem liveAt1_0 (t : Fin (cfg1 a).N) : (cfg1 a).idle 0 ((cfg1 a).grid.coords t) = false := idleB1_0 t
theorem liveAt1_1 (t : Fin (cfg1 a).N) : (cfg1 a).idle 1 ((cfg1 a).grid.coords t) = false := idleB1_1 t

theorem idleAt1_2 (t : Fin (cfg1 a).N) (h : ¬ t.val % 403 = 402) : (cfg1 a).idle 2 ((cfg1 a).grid.coords t) = true := by
  rw [show (cfg1 a).idle 2 ((cfg1 a).grid.coords t) = idle1 2 (grid1.coords t) from rfl, idleB1_2 t, decide_eq_false h]; rfl
theorem liveAt1_2 (t : Fin (cfg1 a).N) (h : t.val % 403 = 402) : (cfg1 a).idle 2 ((cfg1 a).grid.coords t) = false := by
  rw [show (cfg1 a).idle 2 ((cfg1 a).grid.coords t) = idle1 2 (grid1.coords t) from rfl, idleB1_2 t, decide_eq_true h]; rfl

abbrev ms1_0 (t : Fin (cfg1 a).N) : Memref sig .tc .vmem S1x4096 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S4096 .i32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S1x100096 .f32 := spec1_2.stage ((cfg1 a).slots t 2)
abbrev hs1_2 (t : Fin (cfg1 a).N) : (ms1_2 a t).IsWhole := hstage1_2 (((cfg1 a).slots t 2).cast nbuf1_2)

abbrev tbM1 : Memref sig .tc .smem S25792 .i32 := Memref.whole main_v44
abbrev scM1 : Memref sig .tc .vmem S1x100096 .f32 := Memref.whole cc1_scratch0

abbrev VS1 : View sig .tc .vmem S1x100096 .f32 := scM1.view

abbrev VO1 : View sig .tc .vmem S1x100096 .f32 := (Memref.whole cc1_stg2_0 : Memref sig .tc .vmem S1x100096 .f32).view

abbrev bodyAt1 (t : Fin (cfg1 a).N) : Prog (TpuEff nD τ sig (Elt F) Λ₀ .tc) PUnit :=
  cc1__scatter_kernel (grid1.coords t) tbM1 (Memref.isWhole_whole _) (ms1_0 a t) (hs1_0 a t) (ms1_1 a t) (hs1_1 a t) (ms1_2 a t) (hs1_2 a t) scM1 (Memref.isWhole_whole _)

end Layout

section Region
variable (V : Dev nD → Valuation τ sig (Elt F)) (a : (pcfg1 (F := F)).Adm) (htbl : TblOk (a.1 0))

abbrev VR1 (c : Dev nD) (b : Ref sig .tc) : Buf (Elt F) ((c : Thread nD τ).loc b) := V c (Proc.devRef .tc b)

def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (VR1 V c (Pipeline.arrRef spec1 w))

abbrev run1_A (c : Dev nD) (t : Fin (cfg1 a).N) (h0 : t.val % 403 = 0) :=
  kernelRun1_A (Ix := Unit) (U := UR sig nD τ) (Lvl := ℕ) 𝒱₀ c (grid1.coords t) tbM1 (Memref.isWhole_whole _) (ms1_0 a t) (hs1_0 a t) (ms1_1 a t) (hs1_1 a t) (ms1_2 a t) (hs1_2 a t) scM1 (Memref.isWhole_whole _)
    ((hcond1_0 t).mpr h0) (fun h => by have := (hcond1_1 t).mp h; omega) (a.1 0) (iblk1 V a c 0 t) (iblk1 V a c 1 t)
    (hks1 _ (a.1 0) htbl _)

abbrev run1_B (c : Dev nD) (t : Fin (cfg1 a).N) (h0 : ¬t.val % 403 = 0) (h1 : ¬t.val % 403 = 402) (xs : Vec F S1x100096 .f32) :=
  kernelRun1_B (Ix := Unit) (U := UR sig nD τ) (Lvl := ℕ) 𝒱₀ c (grid1.coords t) tbM1 (Memref.isWhole_whole _) (ms1_0 a t) (hs1_0 a t) (ms1_1 a t) (hs1_1 a t) (ms1_2 a t) (hs1_2 a t) scM1 (Memref.isWhole_whole _)
    (fun h => h0 ((hcond1_0 t).mp h)) (fun h => h1 ((hcond1_1 t).mp h)) (a.1 0) (iblk1 V a c 0 t) (iblk1 V a c 1 t) xs
    (hks1 _ (a.1 0) htbl _)

abbrev run1_C (c : Dev nD) (t : Fin (cfg1 a).N) (h1 : t.val % 403 = 402) (xs : Vec F S1x100096 .f32) :=
  kernelRun1_C (Ix := Unit) (U := UR sig nD τ) (Lvl := ℕ) 𝒱₀ c (grid1.coords t) tbM1 (Memref.isWhole_whole _) (ms1_0 a t) (hs1_0 a t) (ms1_1 a t) (hs1_1 a t) (ms1_2 a t) (hs1_2 a t) scM1 (Memref.isWhole_whole _)
    (fun h => by have := (hcond1_0 t).mp h; omega) ((hcond1_1 t).mpr h1) (a.1 0) (iblk1 V a c 0 t) (iblk1 V a c 1 t) xs
    (hks1 _ (a.1 0) htbl _)

def sout1_A (c : Dev nD) (t : Fin (cfg1 a).N) (h0 : t.val % 403 = 0) : Vec F S1x100096 .f32 :=
  VS1.read (Elt F) (VS1.writes (Elt F) VS1.junk (run1_A V a htbl c t h0).1)

def sout1_B (c : Dev nD) (t : Fin (cfg1 a).N) (h0 : ¬t.val % 403 = 0) (h1 : ¬t.val % 403 = 402) (xs : Vec F S1x100096 .f32) : Vec F S1x100096 .f32 :=
  VS1.read (Elt F) (VS1.writes (Elt F) ((Memref.isWhole_whole cc1_scratch0).unread xs) (run1_B V a htbl c t h0 h1 xs).1)

def sout1_C (c : Dev nD) (t : Fin (cfg1 a).N) (h1 : t.val % 403 = 402) (xs : Vec F S1x100096 .f32) : Vec F S1x100096 .f32 :=
  VS1.read (Elt F) (VS1.writes (Elt F) ((Memref.isWhole_whole cc1_scratch0).unread xs) (run1_C V a htbl c t h1 xs).2.1)

def out1_C (c : Dev nD) (t : Fin (cfg1 a).N) (h1 : t.val % 403 = 402) (xs : Vec F S1x100096 .f32) : Vec F S1x100096 .f32 :=
  VO1.read (Elt F) (VO1.writes (Elt F) VO1.junk (run1_C V a htbl c t h1 xs).1)

def scrAt1 (c : Dev nD) : (n : ℕ) → n < (cfg1 a).N → Vec F S1x100096 .f32
  | 0, hn => sout1_A V a htbl c ⟨0, hn⟩ (Nat.zero_mod _)
  | n + 1, hn =>
    if h0 : (n + 1) % 403 = 0 then sout1_A V a htbl c ⟨n + 1, hn⟩ h0
    else if h1 : (n + 1) % 403 = 402 then sout1_C V a htbl c ⟨n + 1, hn⟩ h1 (scrAt1 c n (Nat.lt_of_succ_lt hn))
    else sout1_B V a htbl c ⟨n + 1, hn⟩ h0 h1 (scrAt1 c n (Nat.lt_of_succ_lt hn))

abbrev prev1 (c : Dev nD) (t : Fin (cfg1 a).N) : Vec F S1x100096 .f32 :=
  scrAt1 V a htbl c (t.val - 1) (Nat.lt_of_le_of_lt (Nat.sub_le _ _) t.isLt)

theorem scrAt1_A (c : Dev nD) (t : Fin (cfg1 a).N) (h0 : t.val % 403 = 0) :
    scrAt1 V a htbl c t.val t.isLt = sout1_A V a htbl c t h0 := by
  obtain ⟨n, hn⟩ := t
  cases n with
  | zero => rfl
  | succ n => exact dif_pos h0

theorem scrAt1_B (c : Dev nD) (t : Fin (cfg1 a).N) (h0 : ¬t.val % 403 = 0) (h1 : ¬t.val % 403 = 402) :
    scrAt1 V a htbl c t.val t.isLt = sout1_B V a htbl c t h0 h1 (prev1 V a htbl c t) := by
  obtain ⟨n, hn⟩ := t
  cases n with
  | zero => exact absurd (Nat.zero_mod _) h0
  | succ n => exact (dif_neg h0).trans (dif_neg h1)

theorem scrAt1_C (c : Dev nD) (t : Fin (cfg1 a).N) (h1 : t.val % 403 = 402) :
    scrAt1 V a htbl c t.val t.isLt = sout1_C V a htbl c t h1 (prev1 V a htbl c t) := by
  obtain ⟨n, hn⟩ := t
  cases n with
  | zero => exact absurd ((Nat.zero_mod 403).symm.trans h1) (by decide)
  | succ n =>
    have h1' : (n + 1) % 403 = 402 := h1
    exact (dif_neg (by omega)).trans (dif_pos h1)

def outAt1 (c : Dev nD) (t : Fin (cfg1 a).N) : Vec F S1x100096 .f32 :=
  if h1 : t.val % 403 = 402 then out1_C V a htbl c t h1 (prev1 V a htbl c t) else scrAt1 V a htbl c t.val t.isLt

theorem outAt1_C (c : Dev nD) (t : Fin (cfg1 a).N) (h1 : t.val % 403 = 402) :
    outAt1 V a htbl c t = out1_C V a htbl c t h1 (prev1 V a htbl c t) := dif_pos h1

def restS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ restS1 c) := by
  unfold Pipeline.scopedRest restS1
  rw [BI.bigSep_erase (i := cc1_scratch0) (by decide)]
  simp only [scM1, owns_whole]; try rfl

def PhiS1 (c : Dev nD) : (n : ℕ) → n ≤ (cfg1 a).N → sProp 𝕄
  | 0, _ => iprop(owns (c : Thread nD τ) tbM1 fullShare (a.1 0) ∗ (∃ d, owns (c : Thread nD τ) scM1 fullShare d) ∗ restS1 c ∗ ∃ r, prngReg c r)
  | n + 1, hn => iprop(owns (c : Thread nD τ) tbM1 fullShare (a.1 0) ∗ owns (c : Thread nD τ) scM1 fullShare (scrAt1 V a htbl c n hn) ∗ restS1 c ∗ ∃ r, prngReg c r)

theorem PhiS1_zero (c : Dev nD) (n : ℕ) (h : n ≤ (cfg1 a).N) (hz : n = 0) :
    PhiS1 V a htbl c n h = iprop(owns (c : Thread nD τ) tbM1 fullShare (a.1 0) ∗ (∃ d, owns (c : Thread nD τ) scM1 fullShare d) ∗ restS1 c ∗ ∃ r, prngReg c r) := by
  subst hz; rfl

theorem PhiS1_succ (c : Dev nD) (n : ℕ) (hn : n < (cfg1 a).N) :
    PhiS1 V a htbl c (n + 1) hn = iprop(owns (c : Thread nD τ) tbM1 fullShare (a.1 0) ∗ owns (c : Thread nD τ) scM1 fullShare (scrAt1 V a htbl c n hn) ∗ restS1 c ∗ ∃ r, prngReg c r) := rfl

theorem PhiS1_pos (c : Dev nD) (n : ℕ) (h : n ≤ (cfg1 a).N) (hz : n ≠ 0) :
    PhiS1 V a htbl c n h = iprop(owns (c : Thread nD τ) tbM1 fullShare (a.1 0) ∗ owns (c : Thread nD τ) scM1 fullShare (scrAt1 V a htbl c (n - 1) (by omega)) ∗ restS1 c ∗ ∃ r, prngReg c r) := by
  cases n with
  | zero => exact absurd rfl hz
  | succ n => rfl

def dat1 (c : Dev nD) : Dat τ (Elt F) Unit ℕ (UR sig nD τ) ℕ (cfg1 a) c where
  A w := VR1 V c (Pipeline.arrRef spec1 w)
  after w t := match w with
    | 0 => iblk1 V a c 0 t
    | 1 => iblk1 V a c 1 t
    | 2 => outAt1 V a htbl c t
    | ⟨_ + 3, h⟩ => absurd h (Nat.not_lt.2 (Nat.le_add_left _ _))
  Φ t := PhiS1 V a htbl c t.val (Nat.le_of_lt_succ t.isLt)
  q _ := fullShare
  owed _ := 0

theorem A_eq1 (c : Dev nD) (w : Fin (cfg1 a).W) : (dat1 V a htbl c).A w = VR1 V c (Pipeline.arrRef spec1 w) := by
  dsimp only [dat1]

theorem PhiS1_castSucc (c : Dev nD) (t : Fin (cfg1 a).N) :
    (dat1 V a htbl c).Φ t.castSucc = PhiS1 V a htbl c t.val (Nat.le_of_lt t.isLt) := by
  dsimp only [dat1]; simp only [Fin.coe_castSucc]

theorem after1_0 (c : Dev nD) (t : Fin (cfg1 a).N) : (dat1 V a htbl c).after 0 t = iblk1 V a c 0 t := by dsimp only [dat1]; rfl
theorem after1_1 (c : Dev nD) (t : Fin (cfg1 a).N) : (dat1 V a htbl c).after 1 t = iblk1 V a c 1 t := by dsimp only [dat1]; rfl
theorem after1_2 (c : Dev nD) (t : Fin (cfg1 a).N) : (dat1 V a htbl c).after 2 t = outAt1 V a htbl c t := by dsimp only [dat1]; rfl

theorem before1_0 (c : Dev nD) (t : Fin (cfg1 a).N) (d) : (dat1 V a htbl c).before 0 t d = iblk1 V a c 0 t :=
  ((dat1 V a htbl c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a htbl c).before 1 t d = iblk1 V a c 1 t :=
  ((dat1 V a htbl c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

def bodyPre1 (c : Dev nD) (t : Fin (cfg1 a).N) : sProp 𝕄 :=
  iprop((dat1 V a htbl c).Φ t.castSucc ∗ (dat1 V a htbl c).owesAt () t.castSucc
    ∗ (∃ d, owns (c : Thread nD τ) (ms1_0 a t) fullShare ((dat1 V a htbl c).before 0 t d))
    ∗ (∃ d, owns (c : Thread nD τ) (ms1_1 a t) fullShare ((dat1 V a htbl c).before 1 t d))
    ∗ (∃ d, owns (c : Thread nD τ) (ms1_2 a t) fullShare ((dat1 V a htbl c).before 2 t d)))

def bodyPost1 (c : Dev nD) (t : Fin (cfg1 a).N) : sProp 𝕄 :=
  iprop((dat1 V a htbl c).Φ t.succ ∗ (dat1 V a htbl c).owesAt () t.succ
    ∗ (dat1 V a htbl c).leavesExact 0 t
    ∗ (dat1 V a htbl c).leavesExact 1 t
    ∗ (dat1 V a htbl c).leavesExact 2 t)

set_option maxHeartbeats 4000000 in

theorem sound_body1 (c : Dev nD) (t : Fin (cfg1 a).N) :
    bodyPre1 V a htbl c t ⊢ wp frame (wpE (defs₀ (F := F)) 𝒱₀ c none) Set.univ (bodyAt1 a t) (fun _ => bodyPost1 V a htbl c t) := by
  unfold bodyPre1 bodyPost1 bodyAt1
  simp only [before1_0, before1_1]
  rw [show (dat1 V a htbl c).owesAt () t.succ = (dat1 V a htbl c).owesAt () t.castSucc from rfl]
  rw [show (dat1 V a htbl c).Φ t.succ = PhiS1 V a htbl c (t.val + 1) t.isLt from rfl, PhiS1_succ]
  rw [show (dat1 V a htbl c).leavesExact 0 t = owns (c : Thread nD τ) (ms1_0 a t) fullShare ((dat1 V a htbl c).after 0 t) from by
    unfold Dat.leavesExact; rw [liveAt1_0 a t]; rfl, after1_0]
  rw [show (dat1 V a htbl c).leavesExact 1 t = owns (c : Thread nD τ) (ms1_1 a t) fullShare ((dat1 V a htbl c).after 1 t) from by
    unfold Dat.leavesExact; rw [liveAt1_1 a t]; rfl, after1_1]
  by_cases h0 : t.val % 403 = 0
  · have h1 : ¬t.val % 403 = 402 := by omega
    rw [Dat.leavesExact_idle (dat1 V a htbl c) 2 t (idleAt1_2 a t h1) (noFlush1_2 a t h1)]
    rw [scrAt1_A V a htbl c t h0]
    unfold sout1_A
    by_cases hz : t.val = 0
    · rw [PhiS1_castSucc V a htbl c t, PhiS1_zero V a htbl c _ _ hz]
      iintro ⟨⟨Htb, HS, Hrest, Hg⟩, Ho, ⟨%d0, H0⟩, ⟨%d1, H1⟩, ⟨%d2, H2⟩⟩
      iapply ((run1_A V a htbl c t h0).2 _ Set.univ _)
      isplitl [Htb]; · iexact Htb
      isplitl [H0]; · iexact H0
      isplitl [H1]; · iexact H1
      isplitl [H2]; · iexact H2
      isplitl [HS]; · iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover1_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
    · rw [PhiS1_castSucc V a htbl c t, PhiS1_pos V a htbl c _ _ hz]
      iintro ⟨⟨Htb, HS, Hrest, Hg⟩, Ho, ⟨%d0, H0⟩, ⟨%d1, H1⟩, ⟨%d2, H2⟩⟩
      iapply ((run1_A V a htbl c t h0).2 _ Set.univ _)
      isplitl [Htb]; · iexact Htb
      isplitl [H0]; · iexact H0
      isplitl [H1]; · iexact H1
      isplitl [H2]; · iexact H2
      isplitl [HS]; · iexists _; iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover1_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
  · have hz : t.val ≠ 0 := fun hz => h0 (by rw [hz])
    rw [PhiS1_castSucc V a htbl c t, PhiS1_pos V a htbl c _ _ hz]
    by_cases h1 : t.val % 403 = 402
    · rw [show (dat1 V a htbl c).leavesExact 2 t = owns (c : Thread nD τ) (ms1_2 a t) fullShare ((dat1 V a htbl c).after 2 t) from by
        unfold Dat.leavesExact; rw [liveAt1_2 a t h1]; rfl, after1_2, outAt1_C V a htbl c t h1]
      rw [scrAt1_C V a htbl c t h1]
      unfold sout1_C out1_C
      iintro ⟨⟨Htb, HS, Hrest, Hg⟩, Ho, ⟨%d0, H0⟩, ⟨%d1, H1⟩, ⟨%d2, H2⟩⟩
      iapply ((run1_C V a htbl c t h1 (prev1 V a htbl c t)).2.2 Set.univ _)
      isplitl [Htb]; · iexact Htb
      isplitl [H0]; · iexact H0
      isplitl [H1]; · iexact H1
      isplitl [H2]; · iexists _; iexact H2
      isplitl [HS]; · iexact HS
      iintro ⟨Htb, H0, H1, ⟨%e5, H2⟩, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (fun y => cover1_C (Ix := Unit) (U := UR sig nD τ) (Lvl := ℕ) ..)
    · rw [Dat.leavesExact_idle (dat1 V a htbl c) 2 t (idleAt1_2 a t h1) (noFlush1_2 a t h1)]
      rw [scrAt1_B V a htbl c t h0 h1]
      unfold sout1_B
      iintro ⟨⟨Htb, HS, Hrest, Hg⟩, Ho, ⟨%d0, H0⟩, ⟨%d1, H1⟩, ⟨%d2, H2⟩⟩
      iapply ((run1_B V a htbl c t h0 h1 (prev1 V a htbl c t)).2 _ Set.univ _)
      isplitl [Htb]; · iexact Htb
      isplitl [H0]; · iexact H0
      isplitl [H1]; · iexact H1
      isplitl [H2]; · iexact H2
      isplitl [HS]; · iexact HS
      iintro ⟨Htb, H0, H1, H2, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      iexists _; iexact H2

theorem body_obligation1 (c : Dev nD) : BodyObligation (dat1 V a htbl c) (defs₀ (F := F)) 𝒱₀ () Set.univ := fun t => by
  rw [bigSep_W1, bigSep_W1]
  exact sound_body1 V a htbl c t

end Region

section Seg

theorem prefHeld1_eq_owns (c : Dev nD) (T : pre1.Contents (Elt F)) :
    (Pipeline.prefHeld (Ix := Unit) (Name := ℕ) (U := UR sig nD τ) (Lvl := ℕ) pre1 c (fun _ => fullShare) T : sProp 𝕄)
      = owns (c : Thread nD τ) tbM1 fullShare (T 0) := by
  unfold Pipeline.prefHeld
  rw [show (Finset.univ : Finset (Fin pre1.K)) = {0} from rfl, BI.bigSep_singleton]
  exact (owns_whole (c : Thread nD τ) main_v44 fullShare (T 0)).symm

theorem arrRef1_0_ne : (Proc.devRef .tc (Pipeline.arrRef spec1 (0 : Fin 3)) : DevRef τ sig) ≠ Proc.devRef .tc main_v70 :=
  StableHlo.devRef_ne_of_ne (by decide)
theorem arrRef1_1_ne : (Proc.devRef .tc (Pipeline.arrRef spec1 (1 : Fin 3)) : DevRef τ sig) ≠ Proc.devRef .tc main_v70 :=
  StableHlo.devRef_ne_of_ne (by decide)

theorem update1_arr (Vc : Valuation τ sig (Elt F)) (X : (Proc.devRef (τ := τ) .tc main_v70).ty.Contents (Elt F)) :
    Function.update Vc (Proc.devRef .tc main_v70) X (Proc.devRef .tc (Pipeline.arrRef spec1 (2 : Fin 3))) = X :=
  Function.update_self ..

variable (V : Dev nD → Valuation τ sig (Elt F)) (a : (p : Fin 3) → (pcfgs (F := F) p).Adm)
  (htbl : TblOk ((a 1).1 0))

abbrev Vout1 (c : Dev nD) : Valuation τ sig (Elt F) :=
  Function.update (V c) main_v70 ((dat1 V (a 1) htbl c).arrAt 2 grid1.N)

theorem hF1 (c : Dev nD) : ∀ w : Fin 3,
    (dat1 V (a 1) htbl c).arrAt w grid1.N = Vout1 V a htbl c (Proc.devRef .tc (Pipeline.arrRef spec1 w))
  | 0 => ((dat1 V (a 1) htbl c).arrAt_in 0 rfl _).trans ((A_eq1 V (a 1) htbl c 0).trans (Function.update_of_ne arrRef1_0_ne _ _).symm)
  | 1 => ((dat1 V (a 1) htbl c).arrAt_in 1 rfl _).trans ((A_eq1 V (a 1) htbl c 1).trans (Function.update_of_ne arrRef1_1_ne _ _).symm)
  | 2 => (update1_arr (V c) _).symm
  | ⟨_ + 3, h⟩ => absurd h (Nat.not_lt.2 (Nat.le_add_left _ _))

theorem hrest1 (c : Dev nD) : ∀ b : Ref sig .tc, b ∉ Finset.univ.image (Pipeline.arrRef spec1) →
    Vout1 V a htbl c (Proc.devRef .tc b) = V c (Proc.devRef .tc b) := fun b hb =>
  Function.update_of_ne (StableHlo.devRef_ne_of_ne fun e => hb (Finset.mem_image.mpr ⟨2, Finset.mem_univ _, e.symm⟩)) _ _

set_option backward.isDefEq.respectTransparency.types false in

def reg1 (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 1).1 0))
    (hV : ∀ (c : Dev nD) (k : Fin 1), (a 1).1 k = V c (Proc.devRef .tc (pre1.ref k)))
    (hd : ∀ c : Dev nD, pdats 1 c = dat1 V (a 1) htbl c) :
    Pipeline.RegionSeg (pcfgs (F := F)) a pdats () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := by rw [hd c]; exact (body_obligation1 V (a 1) htbl c).loose
  hwaits := Pipeline.hwaits_of_owed_zero _ _ _ _ L lv 1 fun c t => by rw [hd c]; rfl
  pre c := iprop(StableHlo.held (c : Thread nD τ) (Pipeline.ucRefs τ sig) (V c) ∗ R c)
  post c := iprop(StableHlo.held (c : Thread nD τ) (Pipeline.ucRefs τ sig) (Vout1 V a htbl c) ∗ R c)
  X c := iprop(∃ r, prngReg c r)
  Y c := iprop(owns (c : Thread nD τ) tbM1 fullShare ((a 1).1 0) ∗ ∃ r, prngReg c r)
  Z c := Pipeline.unscopedRestP (Ix := Unit) (Name := ℕ) (U := UR sig nD τ) (Lvl := ℕ) pre1 spec1 c (VR1 V c)
  hentry c := by
    have hsplit : (StableHlo.held (c : Thread nD τ) (Pipeline.ucRefs τ sig) (V c) : sProp 𝕄)
        ⊢ iprop((dat1 V (a 1) htbl c).arrays ((dat1 V (a 1) htbl c).arrAt · 0)
            ∗ Pipeline.prefHeld pre1 c (fun _ => fullShare) (a 1).1 ∗ Pipeline.unscopedRestP pre1 spec1 c (VR1 V c)) := by
      have h := Pipeline.arrays_of_unscopedBufs (p := 1) (pcfgs (F := F)) a pdats (launch1 (F := F)).win (launch1 (F := F)).arr_whole c
        (by rw [hd c]; exact (dat1 V (a 1) htbl c).share_full fun _ => rfl) (VR1 V c) (fun w => by rw [hd c]; rfl)
      rw [Pipeline.unscopedBufs_held, Pipeline.unscopedRest_split (launch1 (F := F)).pre c (VR1 V c), hd c] at h
      rw [show (a 1).1 = fun k => VR1 V c (pre1.ref k) from funext (hV c)]
      exact h
    rw [Pipeline.ownSems0_none, hd c]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd c]
    show iprop((∃ r, prngReg c r) ∗ Pipeline.prefHeld pre1 c (fun _ => fullShare) (a 1).1 ∗ Pipeline.scopedRest spec1 c)
      ⊢ PhiS1 V (a 1) htbl c 0 (Nat.zero_le _)
    rw [PhiS1_zero V (a 1) htbl c 0 _ rfl, scopedRest1_split, prefHeld1_eq_owns]
    iintro ⟨Hg, Hpf, HS, Hrest⟩
    isplitl [Hpf]; · iexact Hpf
    isplitl [HS]; · iexact HS
    isplitl [Hrest]; · iexact Hrest
    iexact Hg
  hout c := by
    rw [Pipeline.ownSems0_none, hd c]
    show PhiS1 V (a 1) htbl c (cfg1 (a 1)).N (Nat.le_refl _)
      ⊢ iprop((owns (c : Thread nD τ) tbM1 fullShare ((a 1).1 0) ∗ ∃ r, prngReg c r) ∗ BI.emp ∗ Pipeline.scopedRest spec1 c)
    rw [PhiS1_pos V (a 1) htbl c _ _ (show grid1.N ≠ 0 by decide), scopedRest1_split]
    iintro ⟨Htb, HS, Hrest, Hg⟩
    isplitl [Htb Hg]
    · isplitl [Htb]; · iexact Htb
      iexact Hg
    isplitr; · iempintro
    isplitl [HS]; · iexists _; iexact HS
    iexact Hrest
  hexit c := by
    have hjoin : iprop((dat1 V (a 1) htbl c).arrays ((dat1 V (a 1) htbl c).arrAt · grid1.N)
          ∗ owns (c : Thread nD τ) tbM1 fullShare ((a 1).1 0) ∗ Pipeline.unscopedRestP pre1 spec1 c (VR1 V c))
        ⊢ (StableHlo.held (c : Thread nD τ) (Pipeline.ucRefs τ sig) (Vout1 V a htbl c) : sProp 𝕄) := by
      have h := Pipeline.unscopedBufs_of_arrays (p := 1) (pcfgs (F := F)) a (Ix := Unit) (Name := ℕ) (U := UR sig nD τ) (Lvl := ℕ)
        (launch1 (F := F)).win (launch1 (F := F)).arr_whole c pdats (by rw [hd c]; exact (dat1 V (a 1) htbl c).share_full fun _ => rfl)
        (VR1 V c) (fun b => Vout1 V a htbl c (Proc.devRef .tc b)) ((dat1 V (a 1) htbl c).arrAt · grid1.N)
        (hF1 V a htbl c) (hrest1 V a htbl c)
      rw [Pipeline.unscopedBufs_held, Pipeline.unscopedRest_split (launch1 (F := F)).pre c (VR1 V c), hd c] at h
      rw [← prefHeld1_eq_owns, show (a 1).1 = fun k => VR1 V c (pre1.ref k) from funext (hV c)]
      exact h
    rw [hd c]
    iintro ⟨Ha, HO, ⟨Hpf, Hg⟩, Hrest⟩
    imodintro
    isplitl [Ha Hpf Hrest]
    · iapply hjoin
      isplitl [Ha]; · iexact Ha
      isplitl [Hpf]; · iexact Hpf
      iexact Hrest
    isplitl [Hg]; · iexact Hg
    unfold Pipeline.Dat.owesAt Pipeline.owesWithin
    icases HO with ⟨%W, -, HO⟩; iexists W; iexact HO

theorem reg1_pre (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 1).1 0))
    (hV : ∀ (c : Dev nD) (k : Fin 1), (a 1).1 k = V c (Proc.devRef .tc (pre1.ref k)))
    (hd : ∀ c : Dev nD, pdats 1 c = dat1 V (a 1) htbl c) (c : Dev nD) :
    (reg1 V a pdats htbl hV hd).pre c = iprop(StableHlo.held (c : Thread nD τ) (Pipeline.ucRefs τ sig) (V c) ∗ R c) := rfl
theorem reg1_post (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 1).1 0))
    (hV : ∀ (c : Dev nD) (k : Fin 1), (a 1).1 k = V c (Proc.devRef .tc (pre1.ref k)))
    (hd : ∀ c : Dev nD, pdats 1 c = dat1 V (a 1) htbl c) (c : Dev nD) :
    (reg1 V a pdats htbl hV hd).post c = iprop(StableHlo.held (c : Thread nD τ) (Pipeline.ucRefs τ sig) (Function.update (V c) main_v70 ((dat1 V (a 1) htbl c).arrAt 2 grid1.N)) ∗ R c) := rfl

end Seg

end Cert.KernelIdeal.Hand

end
-- ==== Proof.KI.Body2.lean ====
import proofs.«401711_j53747220742790_3_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

abbrev cond2_0 (i : grid2.Coords) : Prop := (Scalar.cmpi .ne (Scalar.extui (Scalar.cmpi .eq (BitVec.ofNat 32 (i 1).val) 0#32)) 0#32) = 1#1

abbrev cond2_1 (i : grid2.Coords) : Prop := k2_cond2 i = 1#1

theorem hcond2_0 : ∀ t : Fin grid2.N, cond2_0 (grid2.coords t) ↔ t.val % 403 = 0 := by decide +kernel

theorem hcond2_1 : ∀ t : Fin grid2.N, cond2_1 (grid2.coords t) ↔ t.val % 403 = 402 := by decide +kernel

noncomputable def winUpd2 (base : BitVec 32) (msgc : Vec F S2x128 .f32) (dstc : Vec F S128 .i32) (cur : Vec F S2x256 .f32) : FVec F S2x256 .f32 :=
  have iota0r2 : IVec S256x128 32 := iota .tc S256x128 32 [0] iota_S256x128_d0_w32
  have msg : FVec F S2x128 .f32 := shapeCast S2x128 msgc shapeCasts_S2x128_S2x128
  have dst : IVec S128 32 := shapeCast S128 dstc shapeCasts_S128_S128
  have loc : IVec S128 32 := subi dst (broadcast S128 base)
  have locRow : IVec S1x128 32 := shapeCast S1x128 loc shapeCasts_S128_S1x128
  have hit : IVec S256x128 1 := cmpi .eq iota0r2 (broadcastTo S256x128 locRow broadcasts_S1x128_S256x128)
  have onehot : FVec F S256x128 .f32 := sitofp .f32 (extui 32 hit natLt_1_32)
  have zero : FVec F S2x256 .f32 := constant S2x256 .f32 0x00000000#32
  have acc : FVec F S2x256 .f32 := matmul dot_S2x128_S256x128_S2x256_1_1_0_0_n_n none msg onehot zero
  shapeCast S2x256 (addf cur acc) shapeCasts_S2x256_S2x256

abbrev iota0r2 : IVec S256x128 32 := iota .tc S256x128 32 [0] iota_S256x128_d0_w32

-- Each of the 32 window base words read at point i is a multiple of 128 whose 256 lanes lie inside the accumulator's.
structure Hw2 (i : grid2.Coords) (arg2 : Memref sig .tc .smem S25792 .i32) (harg2 : arg2.IsWhole) (x2 : Vec F S25792 .i32) : Prop where
  h1 : k2_chk1 (arg2.view.readAt (Elt F) (Rect.unit (s := S25792) (k2_off1 i) S1.size (k2_off1_inb i)).toLoadRect (harg2.unread x2) (Shape.Idx.first (numel1_S1.symm ▸ Nat.one_pos)))
  h2 : k2_chk2 (arg2.view.readAt (Elt F) (Rect.unit (s := S25792) (k2_off3 i) S1.size (k2_off3_inb i)).toLoadRect (harg2.unread x2) (Shape.Idx.first (numel1_S1.symm ▸ Nat.one_pos)))
  h3 : k2_chk3 (arg2.view.readAt (Elt F) (Rect.unit (s := S25792) (k2_off5 i) S1.size (k2_off5_inb i)).toLoadRect (harg2.unread x2) (Shape.Idx.first (numel1_S1.symm ▸ Nat.one_pos)))
  h4 : k2_chk4 (arg2.view.readAt (Elt F) (Rect.unit (s := S25792) (k2_off7 i) S1.size (k2_off7_inb i)).toLoadRect (harg2.unread x2) (Shape.Idx.first (numel1_S1.symm ▸ Nat.one_pos)))
  h5 : k2_chk5 (arg2.view.readAt (Elt F) (Rect.unit (s := S25792) (k2_off9 i) S1.size (k2_off9_inb i)).toLoadRect (harg2.unread x2) (Shape.Idx.first (numel1_S1.symm ▸ Nat.one_pos)))
  h6 : k2_chk6 (arg2.view.readAt (Elt F) (Rect.unit (s := S25792) (k2_off11 i) S1.size (k2_off11_inb i)).toLoadRect (harg2.unread x2) (Shape.Idx.first (numel1_S1.symm ▸ Nat.one_pos)))
  h7 : k2_chk7 (arg2.view.readAt (Elt F) (Rect.unit (s := S25792) (k2_off13 i) S1.size (k2_off13_inb i)).toLoadRect (harg2.unread x2) (Shape.Idx.first (numel1_S1.symm ▸ Nat.one_pos)))
  h8 : k2_chk8 (arg2.view.readAt (Elt F) (Rect.unit (s := S25792) (k2_off15 i) S1.size (k2_off15_inb i)).toLoadRect (harg2.unread x2) (Shape.Idx.first (numel1_S1.symm ▸ Nat.one_pos)))
  h9 : k2_chk9 (arg2.view.readAt (Elt F) (Rect.unit (s := S25792) (k2_off17 i) S1.size (k2_off17_inb i)).toLoadRect (harg2.unread x2) (Shape.Idx.first (numel1_S1.symm ▸ Nat.one_pos)))
  h10 : k2_chk10 (arg2.view.readAt (Elt F) (Rect.unit (s := S25792) (k2_off19 i) S1.size (k2_off19_inb i)).toLoadRect (harg2.unread x2) (Shape.Idx.first (numel1_S1.symm ▸ Nat.one_pos)))
  h11 : k2_chk11 (arg2.view.readAt (Elt F) (Rect.unit (s := S25792) (k2_off21 i) S1.size (k2_off21_inb i)).toLoadRect (harg2.unread x2) (Shape.Idx.first (numel1_S1.symm ▸ Nat.one_pos)))
  h12 : k2_chk12 (arg2.view.readAt (Elt F) (Rect.unit (s := S25792) (k2_off23 i) S1.size (k2_off23_inb i)).toLoadRect (harg2.unread x2) (Shape.Idx.first (numel1_S1.symm ▸ Nat.one_pos)))
  h13 : k2_chk13 (arg2.view.readAt (Elt F) (Rect.unit (s := S25792) (k2_off25 i) S1.size (k2_off25_inb i)).toLoadRect (harg2.unread x2) (Shape.Idx.first (numel1_S1.symm ▸ Nat.one_pos)))
  h14 : k2_chk14 (arg2.view.readAt (Elt F) (Rect.unit (s := S25792) (k2_off27 i) S1.size (k2_off27_inb i)).toLoadRect (harg2.unread x2) (Shape.Idx.first (numel1_S1.symm ▸ Nat.one_pos)))
  h15 : k2_chk15 (arg2.view.readAt (Elt F) (Rect.unit (s := S25792) (k2_off29 i) S1.size (k2_off29_inb i)).toLoadRect (harg2.unread x2) (Shape.Idx.first (numel1_S1.symm ▸ Nat.one_pos)))
  h16 : k2_chk16 (arg2.view.readAt (Elt F) (Rect.unit (s := S25792) (k2_off31 i) S1.size (k2_off31_inb i)).toLoadRect (harg2.unread x2) (Shape.Idx.first (numel1_S1.symm ▸ Nat.one_pos)))
  h17 : k2_chk17 (arg2.view.readAt (Elt F) (Rect.unit (s := S25792) (k2_off33 i) S1.size (k2_off33_inb i)).toLoadRect (harg2.unread x2) (Shape.Idx.first (numel1_S1.symm ▸ Nat.one_pos)))
  h18 : k2_chk18 (arg2.view.readAt (Elt F) (Rect.unit (s := S25792) (k2_off35 i) S1.size (k2_off35_inb i)).toLoadRect (harg2.unread x2) (Shape.Idx.first (numel1_S1.symm ▸ Nat.one_pos)))
  h19 : k2_chk19 (arg2.view.readAt (Elt F) (Rect.unit (s := S25792) (k2_off37 i) S1.size (k2_off37_inb i)).toLoadRect (harg2.unread x2) (Shape.Idx.first (numel1_S1.symm ▸ Nat.one_pos)))
  h20 : k2_chk20 (arg2.view.readAt (Elt F) (Rect.unit (s := S25792) (k2_off39 i) S1.size (k2_off39_inb i)).toLoadRect (harg2.unread x2) (Shape.Idx.first (numel1_S1.symm ▸ Nat.one_pos)))
  h21 : k2_chk21 (arg2.view.readAt (Elt F) (Rect.unit (s := S25792) (k2_off41 i) S1.size (k2_off41_inb i)).toLoadRect (harg2.unread x2) (Shape.Idx.first (numel1_S1.symm ▸ Nat.one_pos)))
  h22 : k2_chk22 (arg2.view.readAt (Elt F) (Rect.unit (s := S25792) (k2_off43 i) S1.size (k2_off43_inb i)).toLoadRect (harg2.unread x2) (Shape.Idx.first (numel1_S1.symm ▸ Nat.one_pos)))
  h23 : k2_chk23 (arg2.view.readAt (Elt F) (Rect.unit (s := S25792) (k2_off45 i) S1.size (k2_off45_inb i)).toLoadRect (harg2.unread x2) (Shape.Idx.first (numel1_S1.symm ▸ Nat.one_pos)))
  h24 : k2_chk24 (arg2.view.readAt (Elt F) (Rect.unit (s := S25792) (k2_off47 i) S1.size (k2_off47_inb i)).toLoadRect (harg2.unread x2) (Shape.Idx.first (numel1_S1.symm ▸ Nat.one_pos)))
  h25 : k2_chk25 (arg2.view.readAt (Elt F) (Rect.unit (s := S25792) (k2_off49 i) S1.size (k2_off49_inb i)).toLoadRect (harg2.unread x2) (Shape.Idx.first (numel1_S1.symm ▸ Nat.one_pos)))
  h26 : k2_chk26 (arg2.view.readAt (Elt F) (Rect.unit (s := S25792) (k2_off51 i) S1.size (k2_off51_inb i)).toLoadRect (harg2.unread x2) (Shape.Idx.first (numel1_S1.symm ▸ Nat.one_pos)))
  h27 : k2_chk27 (arg2.view.readAt (Elt F) (Rect.unit (s := S25792) (k2_off53 i) S1.size (k2_off53_inb i)).toLoadRect (harg2.unread x2) (Shape.Idx.first (numel1_S1.symm ▸ Nat.one_pos)))
  h28 : k2_chk28 (arg2.view.readAt (Elt F) (Rect.unit (s := S25792) (k2_off55 i) S1.size (k2_off55_inb i)).toLoadRect (harg2.unread x2) (Shape.Idx.first (numel1_S1.symm ▸ Nat.one_pos)))
  h29 : k2_chk29 (arg2.view.readAt (Elt F) (Rect.unit (s := S25792) (k2_off57 i) S1.size (k2_off57_inb i)).toLoadRect (harg2.unread x2) (Shape.Idx.first (numel1_S1.symm ▸ Nat.one_pos)))
  h30 : k2_chk30 (arg2.view.readAt (Elt F) (Rect.unit (s := S25792) (k2_off59 i) S1.size (k2_off59_inb i)).toLoadRect (harg2.unread x2) (Shape.Idx.first (numel1_S1.symm ▸ Nat.one_pos)))
  h31 : k2_chk31 (arg2.view.readAt (Elt F) (Rect.unit (s := S25792) (k2_off61 i) S1.size (k2_off61_inb i)).toLoadRect (harg2.unread x2) (Shape.Idx.first (numel1_S1.symm ▸ Nat.one_pos)))
  h32 : k2_chk32 (arg2.view.readAt (Elt F) (Rect.unit (s := S25792) (k2_off63 i) S1.size (k2_off63_inb i)).toLoadRect (harg2.unread x2) (Shape.Idx.first (numel1_S1.symm ▸ Nat.one_pos)))

set_option maxHeartbeats 1000000 in

noncomputable def kernelRun2_A (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : cond2_0 i) (hc1 : ¬cond2_1 i)
    (x2 : Vec F S25792 .i32) (x3 : Vec F S2x4096 .f32) (x4 : Vec F S4096 .i32)
    (hks : Hw2 i arg2 harg2 x2) :
    { LS : List (View.Piece (Elt F) S2x100096 .f32) //
      ∀ (xi5 : Vec F S2x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ (∃ d, owns (c : Thread nD τ) arg6 fullShare d)
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (∃ f, arg6.view.loc (c : Thread nD τ) ↦[arg6.view.set]{fullShare} arg6.view.writes (Elt F) f LS)) -∗ K ⟨⟩))
          ⊢ wp frame (wpE (defs₀ (F := F)) 𝒱₀ c none) E (cc2__scatter_kernel i arg2 harg2 arg3 harg3 arg4 harg4 arg5 harg5 arg6 harg6) K } := by
  have k2_hw1 := hks.h1
  have k2_hw2 := hks.h2
  have k2_hw3 := hks.h3
  have k2_hw4 := hks.h4
  have k2_hw5 := hks.h5
  have k2_hw6 := hks.h6
  have k2_hw7 := hks.h7
  have k2_hw8 := hks.h8
  have k2_hw9 := hks.h9
  have k2_hw10 := hks.h10
  have k2_hw11 := hks.h11
  have k2_hw12 := hks.h12
  have k2_hw13 := hks.h13
  have k2_hw14 := hks.h14
  have k2_hw15 := hks.h15
  have k2_hw16 := hks.h16
  have k2_hw17 := hks.h17
  have k2_hw18 := hks.h18
  have k2_hw19 := hks.h19
  have k2_hw20 := hks.h20
  have k2_hw21 := hks.h21
  have k2_hw22 := hks.h22
  have k2_hw23 := hks.h23
  have k2_hw24 := hks.h24
  have k2_hw25 := hks.h25
  have k2_hw26 := hks.h26
  have k2_hw27 := hks.h27
  have k2_hw28 := hks.h28
  have k2_hw29 := hks.h29
  have k2_hw30 := hks.h30
  have k2_hw31 := hks.h31
  have k2_hw32 := hks.h32
  refine ⟨?_, fun xi5 E K => ?run⟩
  case run =>
    simp only [cc2__scatter_kernel_eq_skeleton]; unfold cc2__scatter_kernel_skel
    unfold owns
    iintro ⟨⟨%f2, %hf2, H2⟩, ⟨%f3, %hf3, H3⟩, ⟨%f4, %hf4, H4⟩, ⟨%f5, %hf5, H5⟩, ⟨%ds, %fs, -, HS⟩, Hk⟩
    obtain rfl := harg2.eq_unread hf2; obtain rfl := harg3.eq_unread hf3; obtain rfl := harg4.eq_unread hf4; obtain rfl := harg5.eq_unread hf5
    sl_exec (disch := first | sl_exact hc0 | sl_exact hc1 | sl_exact k2_hw1 | sl_exact k2_hw2 | sl_exact k2_hw3 | sl_exact k2_hw4 | sl_exact k2_hw5 | sl_exact k2_hw6 | sl_exact k2_hw7 | sl_exact k2_hw8 | sl_exact k2_hw9 | sl_exact k2_hw10 | sl_exact k2_hw11 | sl_exact k2_hw12 | sl_exact k2_hw13 | sl_exact k2_hw14 | sl_exact k2_hw15 | sl_exact k2_hw16 | sl_exact k2_hw17 | sl_exact k2_hw18 | sl_exact k2_hw19 | sl_exact k2_hw20 | sl_exact k2_hw21 | sl_exact k2_hw22 | sl_exact k2_hw23 | sl_exact k2_hw24 | sl_exact k2_hw25 | sl_exact k2_hw26 | sl_exact k2_hw27 | sl_exact k2_hw28 | sl_exact k2_hw29 | sl_exact k2_hw30 | sl_exact k2_hw31 | sl_exact k2_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact HS

set_option maxHeartbeats 1000000 in

noncomputable def kernelRun2_B (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : ¬cond2_0 i) (hc1 : ¬cond2_1 i)
    (x2 : Vec F S25792 .i32) (x3 : Vec F S2x4096 .f32) (x4 : Vec F S4096 .i32) (xs : Vec F S2x100096 .f32)
    (hks : Hw2 i arg2 harg2 x2) :
    { LS : List (View.Piece (Elt F) S2x100096 .f32) //
      ∀ (xi5 : Vec F S2x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xs
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc2__scatter_kernel i arg2 harg2 arg3 harg3 arg4 harg4 arg5 harg5 arg6 harg6) K } := by
  have k2_hw1 := hks.h1
  have k2_hw2 := hks.h2
  have k2_hw3 := hks.h3
  have k2_hw4 := hks.h4
  have k2_hw5 := hks.h5
  have k2_hw6 := hks.h6
  have k2_hw7 := hks.h7
  have k2_hw8 := hks.h8
  have k2_hw9 := hks.h9
  have k2_hw10 := hks.h10
  have k2_hw11 := hks.h11
  have k2_hw12 := hks.h12
  have k2_hw13 := hks.h13
  have k2_hw14 := hks.h14
  have k2_hw15 := hks.h15
  have k2_hw16 := hks.h16
  have k2_hw17 := hks.h17
  have k2_hw18 := hks.h18
  have k2_hw19 := hks.h19
  have k2_hw20 := hks.h20
  have k2_hw21 := hks.h21
  have k2_hw22 := hks.h22
  have k2_hw23 := hks.h23
  have k2_hw24 := hks.h24
  have k2_hw25 := hks.h25
  have k2_hw26 := hks.h26
  have k2_hw27 := hks.h27
  have k2_hw28 := hks.h28
  have k2_hw29 := hks.h29
  have k2_hw30 := hks.h30
  have k2_hw31 := hks.h31
  have k2_hw32 := hks.h32
  refine ⟨?_, fun xi5 E K => ?run⟩
  case run =>
    simp only [cc2__scatter_kernel_eq_skeleton]; unfold cc2__scatter_kernel_skel
    unfold owns
    iintro ⟨⟨%f2, %hf2, H2⟩, ⟨%f3, %hf3, H3⟩, ⟨%f4, %hf4, H4⟩, ⟨%f5, %hf5, H5⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hfs
    sl_exec (disch := first | sl_exact hc0 | sl_exact hc1 | sl_exact k2_hw1 | sl_exact k2_hw2 | sl_exact k2_hw3 | sl_exact k2_hw4 | sl_exact k2_hw5 | sl_exact k2_hw6 | sl_exact k2_hw7 | sl_exact k2_hw8 | sl_exact k2_hw9 | sl_exact k2_hw10 | sl_exact k2_hw11 | sl_exact k2_hw12 | sl_exact k2_hw13 | sl_exact k2_hw14 | sl_exact k2_hw15 | sl_exact k2_hw16 | sl_exact k2_hw17 | sl_exact k2_hw18 | sl_exact k2_hw19 | sl_exact k2_hw20 | sl_exact k2_hw21 | sl_exact k2_hw22 | sl_exact k2_hw23 | sl_exact k2_hw24 | sl_exact k2_hw25 | sl_exact k2_hw26 | sl_exact k2_hw27 | sl_exact k2_hw28 | sl_exact k2_hw29 | sl_exact k2_hw30 | sl_exact k2_hw31 | sl_exact k2_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexact HS

set_option maxHeartbeats 1000000 in

noncomputable def kernelRun2_C (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : ¬cond2_0 i) (hc1 : cond2_1 i)
    (x2 : Vec F S25792 .i32) (x3 : Vec F S2x4096 .f32) (x4 : Vec F S4096 .i32) (xs : Vec F S2x100096 .f32)
    (hks : Hw2 i arg2 harg2 x2) :
    Σ' (L5 : List (View.Piece (Elt F) S2x100096 .f32)), { LS : List (View.Piece (Elt F) S2x100096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare xs
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc2__scatter_kernel i arg2 harg2 arg3 harg3 arg4 harg4 arg5 harg5 arg6 harg6) K } := by
  have k2_hw1 := hks.h1
  have k2_hw2 := hks.h2
  have k2_hw3 := hks.h3
  have k2_hw4 := hks.h4
  have k2_hw5 := hks.h5
  have k2_hw6 := hks.h6
  have k2_hw7 := hks.h7
  have k2_hw8 := hks.h8
  have k2_hw9 := hks.h9
  have k2_hw10 := hks.h10
  have k2_hw11 := hks.h11
  have k2_hw12 := hks.h12
  have k2_hw13 := hks.h13
  have k2_hw14 := hks.h14
  have k2_hw15 := hks.h15
  have k2_hw16 := hks.h16
  have k2_hw17 := hks.h17
  have k2_hw18 := hks.h18
  have k2_hw19 := hks.h19
  have k2_hw20 := hks.h20
  have k2_hw21 := hks.h21
  have k2_hw22 := hks.h22
  have k2_hw23 := hks.h23
  have k2_hw24 := hks.h24
  have k2_hw25 := hks.h25
  have k2_hw26 := hks.h26
  have k2_hw27 := hks.h27
  have k2_hw28 := hks.h28
  have k2_hw29 := hks.h29
  have k2_hw30 := hks.h30
  have k2_hw31 := hks.h31
  have k2_hw32 := hks.h32
  refine ⟨?_, ?_, fun E K => ?run⟩
  case run =>
    simp only [cc2__scatter_kernel_eq_skeleton]; unfold cc2__scatter_kernel_skel
    unfold owns
    iintro ⟨⟨%f2, %hf2, H2⟩, ⟨%f3, %hf3, H3⟩, ⟨%f4, %hf4, H4⟩, ⟨%d5, %f5, -, H5⟩, ⟨%fs, %hfs, HS⟩, Hk⟩
    obtain rfl := harg2.eq_unread hf2; obtain rfl := harg3.eq_unread hf3; obtain rfl := harg4.eq_unread hf4; obtain rfl := harg6.eq_unread hfs
    sl_exec (disch := first | sl_exact hc0 | sl_exact hc1 | sl_exact k2_hw1 | sl_exact k2_hw2 | sl_exact k2_hw3 | sl_exact k2_hw4 | sl_exact k2_hw5 | sl_exact k2_hw6 | sl_exact k2_hw7 | sl_exact k2_hw8 | sl_exact k2_hw9 | sl_exact k2_hw10 | sl_exact k2_hw11 | sl_exact k2_hw12 | sl_exact k2_hw13 | sl_exact k2_hw14 | sl_exact k2_hw15 | sl_exact k2_hw16 | sl_exact k2_hw17 | sl_exact k2_hw18 | sl_exact k2_hw19 | sl_exact k2_hw20 | sl_exact k2_hw21 | sl_exact k2_hw22 | sl_exact k2_hw23 | sl_exact k2_hw24 | sl_exact k2_hw25 | sl_exact k2_hw26 | sl_exact k2_hw27 | sl_exact k2_hw28 | sl_exact k2_hw29 | sl_exact k2_hw30 | sl_exact k2_hw31 | sl_exact k2_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexact HS

end Cert.KernelIdeal.Hand

end
-- ==== Proof.KI.Body2Cover.lean ====
import proofs.«401711_j53747220742790_3_alg».proof.Proof.KI.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

theorem mem_whole_S2x100096 (y : S2x100096.Idx) :
    y ∈ (Rect.unit (s := S2x100096) ![0, 0] S2x100096.size inb_S2x100096_S2x100096_0_0).set := by
  rw [Rect.mem_set_unit]
  intro a
  have h0 : (![0, 0] : Fin 2 → ℕ) a = 0 := by fin_cases a <;> rfl
  rw [h0, Nat.zero_add]
  exact ⟨Nat.zero_le _, (y a).isLt⟩

theorem scover2_A (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : cond2_0 i) (hc1 : ¬cond2_1 i)
    (x2 : Vec F S25792 .i32) (x3 : Vec F S2x4096 .f32) (x4 : Vec F S4096 .i32)
    (hks : Hw2 i arg2 harg2 x2) (y : S2x100096.Idx) :
    ∃ pc ∈ (kernelRun2_A (Ix := Ix) (U := U) (Lvl := Lvl) 𝒱₀ c i arg2 harg2 arg3 harg3 arg4 harg4 arg5 harg5 arg6 harg6 hc0 hc1 x2 x3 x4 hks).1, y ∈ pc.1.set := by
  refine ⟨⟨Rect.unit (s := S2x100096) ![0, 0] S2x100096.size inb_S2x100096_S2x100096_0_0, k2_pay2 (F := F)⟩, ?_, mem_whole_S2x100096 y⟩
  apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem
  exact List.mem_cons_self

theorem cover2_C (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : ¬cond2_0 i) (hc1 : cond2_1 i)
    (x2 : Vec F S25792 .i32) (x3 : Vec F S2x4096 .f32) (x4 : Vec F S4096 .i32) (xs : Vec F S2x100096 .f32)
    (hks : Hw2 i arg2 harg2 x2) (y : S2x100096.Idx) :
    ∃ pc ∈ (kernelRun2_C (Ix := Ix) (U := U) (Lvl := Lvl) 𝒱₀ c i arg2 harg2 arg3 harg3 arg4 harg4 arg5 harg5 arg6 harg6 hc0 hc1 x2 x3 x4 xs hks).1, y ∈ pc.1.set :=
  ⟨_, List.mem_cons_self, mem_whole_S2x100096 y⟩

end Cert.KernelIdeal.Hand

end
-- ==== Proof.KI.Region2.lean ====
import proofs.«401711_j53747220742790_3_alg».proof.Proof.KI.Common
import proofs.«401711_j53747220742790_3_alg».proof.Proof.KI.Body2Cover
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem word_ok2 {arg2 : Memref sig .tc .smem S25792 .i32} (harg2 : arg2.IsWhole) (x2 : Vec F S25792 .i32) (h : TblOk x2)
    (r : LoadRect S25792) (j : r.shape.Idx) :
    128 ∣ (arg2.view.readAt (Elt F) r (harg2.unread x2) j).toNat ∧ (arg2.view.readAt (Elt F) r (harg2.unread x2) j).toNat + 256 ≤ 100096 := by
  rw [View.readAt_apply, harg2.read_unread]; exact h _

-- A base word that is a multiple of 128 with its 256 lanes inside the accumulator's satisfies every window's bound.
theorem chk2_ok {w : BitVec 32} (h : 128 ∣ w.toNat ∧ w.toNat + 256 ≤ 100096) :
    128 ∣ w.toNat ∧ ∀ a : Fin 2, (![0, w.toNat] : Fin 2 → ℕ) a + S2x256.size a ≤ S2x100096.size a :=
  ⟨h.1, fun a => by fin_cases a <;> first | exact h.2 | exact Nat.le_refl _⟩

theorem hks2 {arg2 : Memref sig .tc .smem S25792 .i32} (harg2 : arg2.IsWhole) (x2 : Vec F S25792 .i32) (h : TblOk x2)
    (i : grid2.Coords) : Hw2 i arg2 harg2 x2 :=
  ⟨chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _)⟩

theorem idleB2_0 : ∀ t : Fin grid2.N, idle2 0 (grid2.coords t) = false := by decide +kernel
theorem idleB2_1 : ∀ t : Fin grid2.N, idle2 1 (grid2.coords t) = false := by decide +kernel
theorem idleB2_2 : ∀ t : Fin grid2.N, idle2 2 (grid2.coords t) = !decide (t.val % 403 = 402) := by decide +kernel
theorem noFlushB2_2 : ∀ t : Fin grid2.N, ¬ t.val % 403 = 402 → (t.val + 1 = grid2.N || decide (∃ h : t.val + 1 < grid2.N, cc2_transform_2 (grid2.coords ⟨t.val + 1, h⟩) ≠ cc2_transform_2 (grid2.coords t))) = false := by decide +kernel

section Layout
variable (a : (pcfg2 (F := F)).Adm)

theorem noFlush2_2 (t : Fin (cfg2 a).N) (h : ¬ t.val % 403 = 402) : ((cfg2 a).win 2).flush t = false := noFlushB2_2 t h

theorem liveAt2_0 (t : Fin (cfg2 a).N) : (cfg2 a).idle 0 ((cfg2 a).grid.coords t) = false := idleB2_0 t
theorem liveAt2_1 (t : Fin (cfg2 a).N) : (cfg2 a).idle 1 ((cfg2 a).grid.coords t) = false := idleB2_1 t

theorem idleAt2_2 (t : Fin (cfg2 a).N) (h : ¬ t.val % 403 = 402) : (cfg2 a).idle 2 ((cfg2 a).grid.coords t) = true := by
  rw [show (cfg2 a).idle 2 ((cfg2 a).grid.coords t) = idle2 2 (grid2.coords t) from rfl, idleB2_2 t, decide_eq_false h]; rfl
theorem liveAt2_2 (t : Fin (cfg2 a).N) (h : t.val % 403 = 402) : (cfg2 a).idle 2 ((cfg2 a).grid.coords t) = false := by
  rw [show (cfg2 a).idle 2 ((cfg2 a).grid.coords t) = idle2 2 (grid2.coords t) from rfl, idleB2_2 t, decide_eq_true h]; rfl

abbrev ms2_0 (t : Fin (cfg2 a).N) : Memref sig .tc .vmem S2x4096 .f32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S4096 .i32 := spec2_1.stage ((cfg2 a).slots t 1)
abbrev hs2_1 (t : Fin (cfg2 a).N) : (ms2_1 a t).IsWhole := hstage2_1 (((cfg2 a).slots t 1).cast nbuf2_1)
abbrev ms2_2 (t : Fin (cfg2 a).N) : Memref sig .tc .vmem S2x100096 .f32 := spec2_2.stage ((cfg2 a).slots t 2)
abbrev hs2_2 (t : Fin (cfg2 a).N) : (ms2_2 a t).IsWhole := hstage2_2 (((cfg2 a).slots t 2).cast nbuf2_2)

abbrev tbM2 : Memref sig .tc .smem S25792 .i32 := Memref.whole main_v44
abbrev scM2 : Memref sig .tc .vmem S2x100096 .f32 := Memref.whole cc2_scratch0

abbrev VS2 : View sig .tc .vmem S2x100096 .f32 := scM2.view

abbrev VO2 : View sig .tc .vmem S2x100096 .f32 := (Memref.whole cc2_stg2_0 : Memref sig .tc .vmem S2x100096 .f32).view

abbrev bodyAt2 (t : Fin (cfg2 a).N) : Prog (TpuEff nD τ sig (Elt F) Λ₀ .tc) PUnit :=
  cc2__scatter_kernel (grid2.coords t) tbM2 (Memref.isWhole_whole _) (ms2_0 a t) (hs2_0 a t) (ms2_1 a t) (hs2_1 a t) (ms2_2 a t) (hs2_2 a t) scM2 (Memref.isWhole_whole _)

end Layout

section Region
variable (V : Dev nD → Valuation τ sig (Elt F)) (a : (pcfg2 (F := F)).Adm) (htbl : TblOk (a.1 0))

abbrev VR2 (c : Dev nD) (b : Ref sig .tc) : Buf (Elt F) ((c : Thread nD τ).loc b) := V c (Proc.devRef .tc b)

def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (VR2 V c (Pipeline.arrRef spec2 w))

abbrev run2_A (c : Dev nD) (t : Fin (cfg2 a).N) (h0 : t.val % 403 = 0) :=
  kernelRun2_A (Ix := Unit) (U := UR sig nD τ) (Lvl := ℕ) 𝒱₀ c (grid2.coords t) tbM2 (Memref.isWhole_whole _) (ms2_0 a t) (hs2_0 a t) (ms2_1 a t) (hs2_1 a t) (ms2_2 a t) (hs2_2 a t) scM2 (Memref.isWhole_whole _)
    ((hcond2_0 t).mpr h0) (fun h => by have := (hcond2_1 t).mp h; omega) (a.1 0) (iblk2 V a c 0 t) (iblk2 V a c 1 t)
    (hks2 _ (a.1 0) htbl _)

abbrev run2_B (c : Dev nD) (t : Fin (cfg2 a).N) (h0 : ¬t.val % 403 = 0) (h1 : ¬t.val % 403 = 402) (xs : Vec F S2x100096 .f32) :=
  kernelRun2_B (Ix := Unit) (U := UR sig nD τ) (Lvl := ℕ) 𝒱₀ c (grid2.coords t) tbM2 (Memref.isWhole_whole _) (ms2_0 a t) (hs2_0 a t) (ms2_1 a t) (hs2_1 a t) (ms2_2 a t) (hs2_2 a t) scM2 (Memref.isWhole_whole _)
    (fun h => h0 ((hcond2_0 t).mp h)) (fun h => h1 ((hcond2_1 t).mp h)) (a.1 0) (iblk2 V a c 0 t) (iblk2 V a c 1 t) xs
    (hks2 _ (a.1 0) htbl _)

abbrev run2_C (c : Dev nD) (t : Fin (cfg2 a).N) (h1 : t.val % 403 = 402) (xs : Vec F S2x100096 .f32) :=
  kernelRun2_C (Ix := Unit) (U := UR sig nD τ) (Lvl := ℕ) 𝒱₀ c (grid2.coords t) tbM2 (Memref.isWhole_whole _) (ms2_0 a t) (hs2_0 a t) (ms2_1 a t) (hs2_1 a t) (ms2_2 a t) (hs2_2 a t) scM2 (Memref.isWhole_whole _)
    (fun h => by have := (hcond2_0 t).mp h; omega) ((hcond2_1 t).mpr h1) (a.1 0) (iblk2 V a c 0 t) (iblk2 V a c 1 t) xs
    (hks2 _ (a.1 0) htbl _)

def sout2_A (c : Dev nD) (t : Fin (cfg2 a).N) (h0 : t.val % 403 = 0) : Vec F S2x100096 .f32 :=
  VS2.read (Elt F) (VS2.writes (Elt F) VS2.junk (run2_A V a htbl c t h0).1)

def sout2_B (c : Dev nD) (t : Fin (cfg2 a).N) (h0 : ¬t.val % 403 = 0) (h1 : ¬t.val % 403 = 402) (xs : Vec F S2x100096 .f32) : Vec F S2x100096 .f32 :=
  VS2.read (Elt F) (VS2.writes (Elt F) ((Memref.isWhole_whole cc2_scratch0).unread xs) (run2_B V a htbl c t h0 h1 xs).1)

def sout2_C (c : Dev nD) (t : Fin (cfg2 a).N) (h1 : t.val % 403 = 402) (xs : Vec F S2x100096 .f32) : Vec F S2x100096 .f32 :=
  VS2.read (Elt F) (VS2.writes (Elt F) ((Memref.isWhole_whole cc2_scratch0).unread xs) (run2_C V a htbl c t h1 xs).2.1)

def out2_C (c : Dev nD) (t : Fin (cfg2 a).N) (h1 : t.val % 403 = 402) (xs : Vec F S2x100096 .f32) : Vec F S2x100096 .f32 :=
  VO2.read (Elt F) (VO2.writes (Elt F) VO2.junk (run2_C V a htbl c t h1 xs).1)

def scrAt2 (c : Dev nD) : (n : ℕ) → n < (cfg2 a).N → Vec F S2x100096 .f32
  | 0, hn => sout2_A V a htbl c ⟨0, hn⟩ (Nat.zero_mod _)
  | n + 1, hn =>
    if h0 : (n + 1) % 403 = 0 then sout2_A V a htbl c ⟨n + 1, hn⟩ h0
    else if h1 : (n + 1) % 403 = 402 then sout2_C V a htbl c ⟨n + 1, hn⟩ h1 (scrAt2 c n (Nat.lt_of_succ_lt hn))
    else sout2_B V a htbl c ⟨n + 1, hn⟩ h0 h1 (scrAt2 c n (Nat.lt_of_succ_lt hn))

abbrev prev2 (c : Dev nD) (t : Fin (cfg2 a).N) : Vec F S2x100096 .f32 :=
  scrAt2 V a htbl c (t.val - 1) (Nat.lt_of_le_of_lt (Nat.sub_le _ _) t.isLt)

theorem scrAt2_A (c : Dev nD) (t : Fin (cfg2 a).N) (h0 : t.val % 403 = 0) :
    scrAt2 V a htbl c t.val t.isLt = sout2_A V a htbl c t h0 := by
  obtain ⟨n, hn⟩ := t
  cases n with
  | zero => rfl
  | succ n => exact dif_pos h0

theorem scrAt2_B (c : Dev nD) (t : Fin (cfg2 a).N) (h0 : ¬t.val % 403 = 0) (h1 : ¬t.val % 403 = 402) :
    scrAt2 V a htbl c t.val t.isLt = sout2_B V a htbl c t h0 h1 (prev2 V a htbl c t) := by
  obtain ⟨n, hn⟩ := t
  cases n with
  | zero => exact absurd (Nat.zero_mod _) h0
  | succ n => exact (dif_neg h0).trans (dif_neg h1)

theorem scrAt2_C (c : Dev nD) (t : Fin (cfg2 a).N) (h1 : t.val % 403 = 402) :
    scrAt2 V a htbl c t.val t.isLt = sout2_C V a htbl c t h1 (prev2 V a htbl c t) := by
  obtain ⟨n, hn⟩ := t
  cases n with
  | zero => exact absurd ((Nat.zero_mod 403).symm.trans h1) (by decide)
  | succ n =>
    have h1' : (n + 1) % 403 = 402 := h1
    exact (dif_neg (by omega)).trans (dif_pos h1)

def outAt2 (c : Dev nD) (t : Fin (cfg2 a).N) : Vec F S2x100096 .f32 :=
  if h1 : t.val % 403 = 402 then out2_C V a htbl c t h1 (prev2 V a htbl c t) else scrAt2 V a htbl c t.val t.isLt

theorem outAt2_C (c : Dev nD) (t : Fin (cfg2 a).N) (h1 : t.val % 403 = 402) :
    outAt2 V a htbl c t = out2_C V a htbl c t h1 (prev2 V a htbl c t) := dif_pos h1

def restS2 (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ restS2 c) := by
  unfold Pipeline.scopedRest restS2
  rw [BI.bigSep_erase (i := cc2_scratch0) (by decide)]
  simp only [scM2, owns_whole]; try rfl

def PhiS2 (c : Dev nD) : (n : ℕ) → n ≤ (cfg2 a).N → sProp 𝕄
  | 0, _ => iprop(owns (c : Thread nD τ) tbM2 fullShare (a.1 0) ∗ (∃ d, owns (c : Thread nD τ) scM2 fullShare d) ∗ restS2 c ∗ ∃ r, prngReg c r)
  | n + 1, hn => iprop(owns (c : Thread nD τ) tbM2 fullShare (a.1 0) ∗ owns (c : Thread nD τ) scM2 fullShare (scrAt2 V a htbl c n hn) ∗ restS2 c ∗ ∃ r, prngReg c r)

theorem PhiS2_zero (c : Dev nD) (n : ℕ) (h : n ≤ (cfg2 a).N) (hz : n = 0) :
    PhiS2 V a htbl c n h = iprop(owns (c : Thread nD τ) tbM2 fullShare (a.1 0) ∗ (∃ d, owns (c : Thread nD τ) scM2 fullShare d) ∗ restS2 c ∗ ∃ r, prngReg c r) := by
  subst hz; rfl

theorem PhiS2_succ (c : Dev nD) (n : ℕ) (hn : n < (cfg2 a).N) :
    PhiS2 V a htbl c (n + 1) hn = iprop(owns (c : Thread nD τ) tbM2 fullShare (a.1 0) ∗ owns (c : Thread nD τ) scM2 fullShare (scrAt2 V a htbl c n hn) ∗ restS2 c ∗ ∃ r, prngReg c r) := rfl

theorem PhiS2_pos (c : Dev nD) (n : ℕ) (h : n ≤ (cfg2 a).N) (hz : n ≠ 0) :
    PhiS2 V a htbl c n h = iprop(owns (c : Thread nD τ) tbM2 fullShare (a.1 0) ∗ owns (c : Thread nD τ) scM2 fullShare (scrAt2 V a htbl c (n - 1) (by omega)) ∗ restS2 c ∗ ∃ r, prngReg c r) := by
  cases n with
  | zero => exact absurd rfl hz
  | succ n => rfl

def dat2 (c : Dev nD) : Dat τ (Elt F) Unit ℕ (UR sig nD τ) ℕ (cfg2 a) c where
  A w := VR2 V c (Pipeline.arrRef spec2 w)
  after w t := match w with
    | 0 => iblk2 V a c 0 t
    | 1 => iblk2 V a c 1 t
    | 2 => outAt2 V a htbl c t
    | ⟨_ + 3, h⟩ => absurd h (Nat.not_lt.2 (Nat.le_add_left _ _))
  Φ t := PhiS2 V a htbl c t.val (Nat.le_of_lt_succ t.isLt)
  q _ := fullShare
  owed _ := 0

theorem A_eq2 (c : Dev nD) (w : Fin (cfg2 a).W) : (dat2 V a htbl c).A w = VR2 V c (Pipeline.arrRef spec2 w) := by
  dsimp only [dat2]

theorem PhiS2_castSucc (c : Dev nD) (t : Fin (cfg2 a).N) :
    (dat2 V a htbl c).Φ t.castSucc = PhiS2 V a htbl c t.val (Nat.le_of_lt t.isLt) := by
  dsimp only [dat2]; simp only [Fin.coe_castSucc]

theorem after2_0 (c : Dev nD) (t : Fin (cfg2 a).N) : (dat2 V a htbl c).after 0 t = iblk2 V a c 0 t := by dsimp only [dat2]; rfl
theorem after2_1 (c : Dev nD) (t : Fin (cfg2 a).N) : (dat2 V a htbl c).after 1 t = iblk2 V a c 1 t := by dsimp only [dat2]; rfl
theorem after2_2 (c : Dev nD) (t : Fin (cfg2 a).N) : (dat2 V a htbl c).after 2 t = outAt2 V a htbl c t := by dsimp only [dat2]; rfl

theorem before2_0 (c : Dev nD) (t : Fin (cfg2 a).N) (d) : (dat2 V a htbl c).before 0 t d = iblk2 V a c 0 t :=
  ((dat2 V a htbl c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin (cfg2 a).N) (d) : (dat2 V a htbl c).before 1 t d = iblk2 V a c 1 t :=
  ((dat2 V a htbl c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

def bodyPre2 (c : Dev nD) (t : Fin (cfg2 a).N) : sProp 𝕄 :=
  iprop((dat2 V a htbl c).Φ t.castSucc ∗ (dat2 V a htbl c).owesAt () t.castSucc
    ∗ (∃ d, owns (c : Thread nD τ) (ms2_0 a t) fullShare ((dat2 V a htbl c).before 0 t d))
    ∗ (∃ d, owns (c : Thread nD τ) (ms2_1 a t) fullShare ((dat2 V a htbl c).before 1 t d))
    ∗ (∃ d, owns (c : Thread nD τ) (ms2_2 a t) fullShare ((dat2 V a htbl c).before 2 t d)))

def bodyPost2 (c : Dev nD) (t : Fin (cfg2 a).N) : sProp 𝕄 :=
  iprop((dat2 V a htbl c).Φ t.succ ∗ (dat2 V a htbl c).owesAt () t.succ
    ∗ (dat2 V a htbl c).leavesExact 0 t
    ∗ (dat2 V a htbl c).leavesExact 1 t
    ∗ (dat2 V a htbl c).leavesExact 2 t)

set_option maxHeartbeats 4000000 in

theorem sound_body2 (c : Dev nD) (t : Fin (cfg2 a).N) :
    bodyPre2 V a htbl c t ⊢ wp frame (wpE (defs₀ (F := F)) 𝒱₀ c none) Set.univ (bodyAt2 a t) (fun _ => bodyPost2 V a htbl c t) := by
  unfold bodyPre2 bodyPost2 bodyAt2
  simp only [before2_0, before2_1]
  rw [show (dat2 V a htbl c).owesAt () t.succ = (dat2 V a htbl c).owesAt () t.castSucc from rfl]
  rw [show (dat2 V a htbl c).Φ t.succ = PhiS2 V a htbl c (t.val + 1) t.isLt from rfl, PhiS2_succ]
  rw [show (dat2 V a htbl c).leavesExact 0 t = owns (c : Thread nD τ) (ms2_0 a t) fullShare ((dat2 V a htbl c).after 0 t) from by
    unfold Dat.leavesExact; rw [liveAt2_0 a t]; rfl, after2_0]
  rw [show (dat2 V a htbl c).leavesExact 1 t = owns (c : Thread nD τ) (ms2_1 a t) fullShare ((dat2 V a htbl c).after 1 t) from by
    unfold Dat.leavesExact; rw [liveAt2_1 a t]; rfl, after2_1]
  by_cases h0 : t.val % 403 = 0
  · have h1 : ¬t.val % 403 = 402 := by omega
    rw [Dat.leavesExact_idle (dat2 V a htbl c) 2 t (idleAt2_2 a t h1) (noFlush2_2 a t h1)]
    rw [scrAt2_A V a htbl c t h0]
    unfold sout2_A
    by_cases hz : t.val = 0
    · rw [PhiS2_castSucc V a htbl c t, PhiS2_zero V a htbl c _ _ hz]
      iintro ⟨⟨Htb, HS, Hrest, Hg⟩, Ho, ⟨%d0, H0⟩, ⟨%d1, H1⟩, ⟨%d2, H2⟩⟩
      iapply ((run2_A V a htbl c t h0).2 _ Set.univ _)
      isplitl [Htb]; · iexact Htb
      isplitl [H0]; · iexact H0
      isplitl [H1]; · iexact H1
      isplitl [H2]; · iexact H2
      isplitl [HS]; · iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover2_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
    · rw [PhiS2_castSucc V a htbl c t, PhiS2_pos V a htbl c _ _ hz]
      iintro ⟨⟨Htb, HS, Hrest, Hg⟩, Ho, ⟨%d0, H0⟩, ⟨%d1, H1⟩, ⟨%d2, H2⟩⟩
      iapply ((run2_A V a htbl c t h0).2 _ Set.univ _)
      isplitl [Htb]; · iexact Htb
      isplitl [H0]; · iexact H0
      isplitl [H1]; · iexact H1
      isplitl [H2]; · iexact H2
      isplitl [HS]; · iexists _; iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover2_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
  · have hz : t.val ≠ 0 := fun hz => h0 (by rw [hz])
    rw [PhiS2_castSucc V a htbl c t, PhiS2_pos V a htbl c _ _ hz]
    by_cases h1 : t.val % 403 = 402
    · rw [show (dat2 V a htbl c).leavesExact 2 t = owns (c : Thread nD τ) (ms2_2 a t) fullShare ((dat2 V a htbl c).after 2 t) from by
        unfold Dat.leavesExact; rw [liveAt2_2 a t h1]; rfl, after2_2, outAt2_C V a htbl c t h1]
      rw [scrAt2_C V a htbl c t h1]
      unfold sout2_C out2_C
      iintro ⟨⟨Htb, HS, Hrest, Hg⟩, Ho, ⟨%d0, H0⟩, ⟨%d1, H1⟩, ⟨%d2, H2⟩⟩
      iapply ((run2_C V a htbl c t h1 (prev2 V a htbl c t)).2.2 Set.univ _)
      isplitl [Htb]; · iexact Htb
      isplitl [H0]; · iexact H0
      isplitl [H1]; · iexact H1
      isplitl [H2]; · iexists _; iexact H2
      isplitl [HS]; · iexact HS
      iintro ⟨Htb, H0, H1, ⟨%e5, H2⟩, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (fun y => cover2_C (Ix := Unit) (U := UR sig nD τ) (Lvl := ℕ) ..)
    · rw [Dat.leavesExact_idle (dat2 V a htbl c) 2 t (idleAt2_2 a t h1) (noFlush2_2 a t h1)]
      rw [scrAt2_B V a htbl c t h0 h1]
      unfold sout2_B
      iintro ⟨⟨Htb, HS, Hrest, Hg⟩, Ho, ⟨%d0, H0⟩, ⟨%d1, H1⟩, ⟨%d2, H2⟩⟩
      iapply ((run2_B V a htbl c t h0 h1 (prev2 V a htbl c t)).2 _ Set.univ _)
      isplitl [Htb]; · iexact Htb
      isplitl [H0]; · iexact H0
      isplitl [H1]; · iexact H1
      isplitl [H2]; · iexact H2
      isplitl [HS]; · iexact HS
      iintro ⟨Htb, H0, H1, H2, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      iexists _; iexact H2

theorem body_obligation2 (c : Dev nD) : BodyObligation (dat2 V a htbl c) (defs₀ (F := F)) 𝒱₀ () Set.univ := fun t => by
  rw [bigSep_W2, bigSep_W2]
  exact sound_body2 V a htbl c t

end Region

section Seg

theorem prefHeld2_eq_owns (c : Dev nD) (T : pre2.Contents (Elt F)) :
    (Pipeline.prefHeld (Ix := Unit) (Name := ℕ) (U := UR sig nD τ) (Lvl := ℕ) pre2 c (fun _ => fullShare) T : sProp 𝕄)
      = owns (c : Thread nD τ) tbM2 fullShare (T 0) := by
  unfold Pipeline.prefHeld
  rw [show (Finset.univ : Finset (Fin pre2.K)) = {0} from rfl, BI.bigSep_singleton]
  exact (owns_whole (c : Thread nD τ) main_v44 fullShare (T 0)).symm

theorem arrRef2_0_ne : (Proc.devRef .tc (Pipeline.arrRef spec2 (0 : Fin 3)) : DevRef τ sig) ≠ Proc.devRef .tc main_v98 :=
  StableHlo.devRef_ne_of_ne (by decide)
theorem arrRef2_1_ne : (Proc.devRef .tc (Pipeline.arrRef spec2 (1 : Fin 3)) : DevRef τ sig) ≠ Proc.devRef .tc main_v98 :=
  StableHlo.devRef_ne_of_ne (by decide)

theorem update2_arr (Vc : Valuation τ sig (Elt F)) (X : (Proc.devRef (τ := τ) .tc main_v98).ty.Contents (Elt F)) :
    Function.update Vc (Proc.devRef .tc main_v98) X (Proc.devRef .tc (Pipeline.arrRef spec2 (2 : Fin 3))) = X :=
  Function.update_self ..

variable (V : Dev nD → Valuation τ sig (Elt F)) (a : (p : Fin 3) → (pcfgs (F := F) p).Adm)
  (htbl : TblOk ((a 2).1 0))

abbrev Vout2 (c : Dev nD) : Valuation τ sig (Elt F) :=
  Function.update (V c) main_v98 ((dat2 V (a 2) htbl c).arrAt 2 grid2.N)

theorem hF2 (c : Dev nD) : ∀ w : Fin 3,
    (dat2 V (a 2) htbl c).arrAt w grid2.N = Vout2 V a htbl c (Proc.devRef .tc (Pipeline.arrRef spec2 w))
  | 0 => ((dat2 V (a 2) htbl c).arrAt_in 0 rfl _).trans ((A_eq2 V (a 2) htbl c 0).trans (Function.update_of_ne arrRef2_0_ne _ _).symm)
  | 1 => ((dat2 V (a 2) htbl c).arrAt_in 1 rfl _).trans ((A_eq2 V (a 2) htbl c 1).trans (Function.update_of_ne arrRef2_1_ne _ _).symm)
  | 2 => (update2_arr (V c) _).symm
  | ⟨_ + 3, h⟩ => absurd h (Nat.not_lt.2 (Nat.le_add_left _ _))

theorem hrest2 (c : Dev nD) : ∀ b : Ref sig .tc, b ∉ Finset.univ.image (Pipeline.arrRef spec2) →
    Vout2 V a htbl c (Proc.devRef .tc b) = V c (Proc.devRef .tc b) := fun b hb =>
  Function.update_of_ne (StableHlo.devRef_ne_of_ne fun e => hb (Finset.mem_image.mpr ⟨2, Finset.mem_univ _, e.symm⟩)) _ _

set_option backward.isDefEq.respectTransparency.types false in

def reg2 (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 2).1 0))
    (hV : ∀ (c : Dev nD) (k : Fin 1), (a 2).1 k = V c (Proc.devRef .tc (pre2.ref k)))
    (hd : ∀ c : Dev nD, pdats 2 c = dat2 V (a 2) htbl c) :
    Pipeline.RegionSeg (pcfgs (F := F)) a pdats () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := by rw [hd c]; exact (body_obligation2 V (a 2) htbl c).loose
  hwaits := Pipeline.hwaits_of_owed_zero _ _ _ _ L lv 2 fun c t => by rw [hd c]; rfl
  pre c := iprop(StableHlo.held (c : Thread nD τ) (Pipeline.ucRefs τ sig) (V c) ∗ R c)
  post c := iprop(StableHlo.held (c : Thread nD τ) (Pipeline.ucRefs τ sig) (Vout2 V a htbl c) ∗ R c)
  X c := iprop(∃ r, prngReg c r)
  Y c := iprop(owns (c : Thread nD τ) tbM2 fullShare ((a 2).1 0) ∗ ∃ r, prngReg c r)
  Z c := Pipeline.unscopedRestP (Ix := Unit) (Name := ℕ) (U := UR sig nD τ) (Lvl := ℕ) pre2 spec2 c (VR2 V c)
  hentry c := by
    have hsplit : (StableHlo.held (c : Thread nD τ) (Pipeline.ucRefs τ sig) (V c) : sProp 𝕄)
        ⊢ iprop((dat2 V (a 2) htbl c).arrays ((dat2 V (a 2) htbl c).arrAt · 0)
            ∗ Pipeline.prefHeld pre2 c (fun _ => fullShare) (a 2).1 ∗ Pipeline.unscopedRestP pre2 spec2 c (VR2 V c)) := by
      have h := Pipeline.arrays_of_unscopedBufs (p := 2) (pcfgs (F := F)) a pdats (launch2 (F := F)).win (launch2 (F := F)).arr_whole c
        (by rw [hd c]; exact (dat2 V (a 2) htbl c).share_full fun _ => rfl) (VR2 V c) (fun w => by rw [hd c]; rfl)
      rw [Pipeline.unscopedBufs_held, Pipeline.unscopedRest_split (launch2 (F := F)).pre c (VR2 V c), hd c] at h
      rw [show (a 2).1 = fun k => VR2 V c (pre2.ref k) from funext (hV c)]
      exact h
    rw [Pipeline.ownSems0_none, hd c]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd c]
    show iprop((∃ r, prngReg c r) ∗ Pipeline.prefHeld pre2 c (fun _ => fullShare) (a 2).1 ∗ Pipeline.scopedRest spec2 c)
      ⊢ PhiS2 V (a 2) htbl c 0 (Nat.zero_le _)
    rw [PhiS2_zero V (a 2) htbl c 0 _ rfl, scopedRest2_split, prefHeld2_eq_owns]
    iintro ⟨Hg, Hpf, HS, Hrest⟩
    isplitl [Hpf]; · iexact Hpf
    isplitl [HS]; · iexact HS
    isplitl [Hrest]; · iexact Hrest
    iexact Hg
  hout c := by
    rw [Pipeline.ownSems0_none, hd c]
    show PhiS2 V (a 2) htbl c (cfg2 (a 2)).N (Nat.le_refl _)
      ⊢ iprop((owns (c : Thread nD τ) tbM2 fullShare ((a 2).1 0) ∗ ∃ r, prngReg c r) ∗ BI.emp ∗ Pipeline.scopedRest spec2 c)
    rw [PhiS2_pos V (a 2) htbl c _ _ (show grid2.N ≠ 0 by decide), scopedRest2_split]
    iintro ⟨Htb, HS, Hrest, Hg⟩
    isplitl [Htb Hg]
    · isplitl [Htb]; · iexact Htb
      iexact Hg
    isplitr; · iempintro
    isplitl [HS]; · iexists _; iexact HS
    iexact Hrest
  hexit c := by
    have hjoin : iprop((dat2 V (a 2) htbl c).arrays ((dat2 V (a 2) htbl c).arrAt · grid2.N)
          ∗ owns (c : Thread nD τ) tbM2 fullShare ((a 2).1 0) ∗ Pipeline.unscopedRestP pre2 spec2 c (VR2 V c))
        ⊢ (StableHlo.held (c : Thread nD τ) (Pipeline.ucRefs τ sig) (Vout2 V a htbl c) : sProp 𝕄) := by
      have h := Pipeline.unscopedBufs_of_arrays (p := 2) (pcfgs (F := F)) a (Ix := Unit) (Name := ℕ) (U := UR sig nD τ) (Lvl := ℕ)
        (launch2 (F := F)).win (launch2 (F := F)).arr_whole c pdats (by rw [hd c]; exact (dat2 V (a 2) htbl c).share_full fun _ => rfl)
        (VR2 V c) (fun b => Vout2 V a htbl c (Proc.devRef .tc b)) ((dat2 V (a 2) htbl c).arrAt · grid2.N)
        (hF2 V a htbl c) (hrest2 V a htbl c)
      rw [Pipeline.unscopedBufs_held, Pipeline.unscopedRest_split (launch2 (F := F)).pre c (VR2 V c), hd c] at h
      rw [← prefHeld2_eq_owns, show (a 2).1 = fun k => VR2 V c (pre2.ref k) from funext (hV c)]
      exact h
    rw [hd c]
    iintro ⟨Ha, HO, ⟨Hpf, Hg⟩, Hrest⟩
    imodintro
    isplitl [Ha Hpf Hrest]
    · iapply hjoin
      isplitl [Ha]; · iexact Ha
      isplitl [Hpf]; · iexact Hpf
      iexact Hrest
    isplitl [Hg]; · iexact Hg
    unfold Pipeline.Dat.owesAt Pipeline.owesWithin
    icases HO with ⟨%W, -, HO⟩; iexists W; iexact HO

theorem reg2_pre (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 2).1 0))
    (hV : ∀ (c : Dev nD) (k : Fin 1), (a 2).1 k = V c (Proc.devRef .tc (pre2.ref k)))
    (hd : ∀ c : Dev nD, pdats 2 c = dat2 V (a 2) htbl c) (c : Dev nD) :
    (reg2 V a pdats htbl hV hd).pre c = iprop(StableHlo.held (c : Thread nD τ) (Pipeline.ucRefs τ sig) (V c) ∗ R c) := rfl
theorem reg2_post (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 2).1 0))
    (hV : ∀ (c : Dev nD) (k : Fin 1), (a 2).1 k = V c (Proc.devRef .tc (pre2.ref k)))
    (hd : ∀ c : Dev nD, pdats 2 c = dat2 V (a 2) htbl c) (c : Dev nD) :
    (reg2 V a pdats htbl hV hd).post c = iprop(StableHlo.held (c : Thread nD τ) (Pipeline.ucRefs τ sig) (Function.update (V c) main_v98 ((dat2 V (a 2) htbl c).arrAt 2 grid2.N)) ∗ R c) := rfl

end Seg

end Cert.KernelIdeal.Hand

end
-- ==== Proof.KI.Family.lean ====
import proofs.«401711_j53747220742790_3_alg».proof.Proof.KI.Common
import proofs.«401711_j53747220742790_3_alg».proof.Proof.KI.Outs
import proofs.«401711_j53747220742790_3_alg».proof.Proof.KI.LaunchFrame
import proofs.«401711_j53747220742790_3_alg».proof.Proof.KI.HostInts
import proofs.«401711_j53747220742790_3_alg».proof.Proof.KI.Region0
import proofs.«401711_j53747220742790_3_alg».proof.Proof.KI.Region1
import proofs.«401711_j53747220742790_3_alg».proof.Proof.KI.Region2

set_option maxRecDepth 1288

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

def adm : (p : Fin 3) → (pcfgs (F := F) p).Adm
  | ⟨0, _⟩ => ⟨fun k => V5 m 0 (Proc.devRef .tc (pre0.ref k)), trivial⟩
  | ⟨1, _⟩ => ⟨fun k => V5 m 0 (Proc.devRef .tc (pre1.ref k)), trivial⟩
  | ⟨2, _⟩ => ⟨fun k => V5 m 0 (Proc.devRef .tc (pre2.ref k)), trivial⟩

variable {m}
variable (h : IdxOk m)

theorem htbl0 (h : IdxOk m) : TblOk ((adm m 0).1 0) := tbl_ok m h 0
theorem htbl1 (h : IdxOk m) : TblOk ((adm m 1).1 0) := tbl_ok m h 0
theorem htbl2 (h : IdxOk m) : TblOk ((adm m 2).1 0) := tbl_ok m h 0

def o6 (c : Dev nD) : Buf (Elt F) ((c : Thread nD τ).loc main_v47) := (dat0 (V5 m) (adm m 0) (htbl0 h) c).arrAt 2 grid0.N

def o10 (W : Dev nD → Valuation τ sig (Elt F)) (c : Dev nD) : Buf (Elt F) ((c : Thread nD τ).loc main_v70) :=
  (dat1 W (adm m 1) (htbl1 h) c).arrAt 2 grid1.N

def o14 (W : Dev nD → Valuation τ sig (Elt F)) (c : Dev nD) : Buf (Elt F) ((c : Thread nD τ).loc main_v98) :=
  (dat2 W (adm m 2) (htbl2 h) c).arrAt 2 grid2.N

abbrev E9 : Dev nD → Valuation τ sig (Elt F) := W9 m (o6 h)

abbrev E13 : Dev nD → Valuation τ sig (Elt F) := W13 m (o6 h) (o10 h)

abbrev outsOf : Outs (F := F) := outs m (o6 h) (o10 h) (o14 h)

def pdats : (p : Fin 3) → (c : Dev nD) → Dat τ (Elt F) Unit ℕ (UR sig nD τ) ℕ (Pipeline.pin (pcfgs (F := F)) (adm m) p) c
  | ⟨0, _⟩ => fun c => dat0 (V5 m) (adm m 0) (htbl0 h) c
  | ⟨1, _⟩ => fun c => dat1 (E9 h) (adm m 1) (htbl1 h) c
  | ⟨2, _⟩ => fun c => dat2 (E13 h) (adm m 2) (htbl2 h) c

theorem hd0 (c : Dev nD) : pdats h 0 c = dat0 (V5 m) (adm m 0) (htbl0 h) c := rfl
theorem hd1 (c : Dev nD) : pdats h 1 c = dat1 (E9 h) (adm m 1) (htbl1 h) c := rfl
theorem hd2 (c : Dev nD) : pdats h 2 c = dat2 (E13 h) (adm m 2) (htbl2 h) c := rfl

theorem hV0 (c : Dev nD) (k : Fin 1) : (adm m 0).1 k = V5 m c (Proc.devRef .tc (pre0.ref k)) := by
  rw [Subsingleton.elim c 0]; rfl
theorem hV1 (c : Dev nD) (k : Fin 1) : (adm m 1).1 k = E9 h c (Proc.devRef .tc (pre1.ref k)) := by
  rw [Subsingleton.elim c 0]
  match k with
  | 0 => exact (W9_main_v44 m (o6 h) 0).symm
theorem hV2 (c : Dev nD) (k : Fin 1) : (adm m 2).1 k = E13 h c (Proc.devRef .tc (pre2.ref k)) := by
  rw [Subsingleton.elim c 0]
  match k with
  | 0 => exact (W13_main_v44 m (o6 h) (o10 h) 0).symm

def R0 : RegionSeg (pcfgs (F := F)) (adm m) (pdats h) () defs₀ 𝒱₀ L lv 0 :=
  reg0 (V5 m) (adm m) (pdats h) (htbl0 h) hV0 (hd0 h)

def R1 : RegionSeg (pcfgs (F := F)) (adm m) (pdats h) () defs₀ 𝒱₀ L lv 1 :=
  reg1 (E9 h) (adm m) (pdats h) (htbl1 h) (hV1 h) (hd1 h)

def R2 : RegionSeg (pcfgs (F := F)) (adm m) (pdats h) () defs₀ 𝒱₀ L lv 2 :=
  reg2 (E13 h) (adm m) (pdats h) (htbl2 h) (hV2 h) (hd2 h)

theorem hpre0 (c : Dev nD) : iprop(StableHlo.held (c : Thread nD τ) (Pipeline.ucRefs τ sig) (V5 m c) ∗ R c) ⊢ (R0 h).pre c := by
  unfold R0; rw [reg0_pre]
theorem hpost0 (c : Dev nD) : (R0 h).post c ⊢ iprop(StableHlo.held (c : Thread nD τ) (Pipeline.ucRefs τ sig) (V6 m (outsOf h) c) ∗ R c) := by
  unfold R0; rw [reg0_post, V6_eq]; exact .rfl
theorem hpre1 (c : Dev nD) : iprop(StableHlo.held (c : Thread nD τ) (Pipeline.ucRefs τ sig) (V9 m (outsOf h) c) ∗ R c) ⊢ (R1 h).pre c := by
  unfold R1; rw [reg1_pre, V9_eq]
theorem hpost1 (c : Dev nD) : (R1 h).post c ⊢ iprop(StableHlo.held (c : Thread nD τ) (Pipeline.ucRefs τ sig) (V10 m (outsOf h) c) ∗ R c) := by
  unfold R1; rw [reg1_post, V10_eq]; exact .rfl
theorem hpre2 (c : Dev nD) : iprop(StableHlo.held (c : Thread nD τ) (Pipeline.ucRefs τ sig) (V13 m (outsOf h) c) ∗ R c) ⊢ (R2 h).pre c := by
  unfold R2; rw [reg2_pre, V13_eq]
theorem hpost2 (c : Dev nD) : (R2 h).post c ⊢ iprop(StableHlo.held (c : Thread nD τ) (Pipeline.ucRefs τ sig) (V14 m (outsOf h) c) ∗ R c) := by
  unfold R2; rw [reg2_post, V14_eq]; exact .rfl

theorem frame (m : (ℓ : Loc nD τ sig) → Buf (Elt F) ℓ) (ρ : Dev nD → PrngReg) (h : IdxOk m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_regions m ρ (outsOf h) (adm m) (pdats h) (R0 h) (hpre0 h) (hpost0 h) (R1 h) (hpre1 h) (hpost1 h) (R2 h) (hpre2 h) (hpost2 h)

end Cert.KernelIdeal.Hand

end
-- ==== Proof.KI.LaunchValue.lean ====
import proofs.«401711_j53747220742790_3_alg».proof.Proof.KI.LaunchFrame
import proofs.«401711_j53747220742790_3_alg».proof.Proof.KI.ValueCond

set_option maxRecDepth 1288

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

theorem value_of_regions (ρ : Dev nD → PrngReg) (outs : Outs (F := F)) (a : (p : Fin 3) → (pcfgs (F := F) p).Adm)
    (pdats : (p : Fin 3) → (c : Dev nD) → Dat τ (Elt F) Unit ℕ (UR sig nD τ) ℕ (Pipeline.pin (pcfgs (F := F)) a p) c)
    (R0 : RegionSeg (pcfgs (F := F)) a pdats () defs₀ 𝒱₀ L lv 0)
    (hpre0 : ∀ c : Dev nD, iprop(StableHlo.held (c : Thread nD τ) (Pipeline.ucRefs τ sig) (V5 m c) ∗ R c) ⊢ R0.pre c)
    (hpost0 : ∀ c : Dev nD, R0.post c ⊢ iprop(StableHlo.held (c : Thread nD τ) (Pipeline.ucRefs τ sig) (V6 m outs c) ∗ R c))
    (R1 : RegionSeg (pcfgs (F := F)) a pdats () defs₀ 𝒱₀ L lv 1)
    (hpre1 : ∀ c : Dev nD, iprop(StableHlo.held (c : Thread nD τ) (Pipeline.ucRefs τ sig) (V9 m outs c) ∗ R c) ⊢ R1.pre c)
    (hpost1 : ∀ c : Dev nD, R1.post c ⊢ iprop(StableHlo.held (c : Thread nD τ) (Pipeline.ucRefs τ sig) (V10 m outs c) ∗ R c))
    (R2 : RegionSeg (pcfgs (F := F)) a pdats () defs₀ 𝒱₀ L lv 2)
    (hpre2 : ∀ c : Dev nD, iprop(StableHlo.held (c : Thread nD τ) (Pipeline.ucRefs τ sig) (V13 m outs c) ∗ R c) ⊢ R2.pre c)
    (hpost2 : ∀ c : Dev nD, R2.post c ⊢ iprop(StableHlo.held (c : Thread nD τ) (Pipeline.ucRefs τ sig) (V14 m outs c) ∗ R c)) :
    θ_run defs (onTc (τ := τ) (main (F := F))) ⟨m, fun _ => 0, ρ⟩ (fun r => ∀ c : Dev nD,
      r.2.mem ((c.tc : Thread nD τ).loc main_v110) = V16 m outs c main_v110
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  value_cond m (EP := emb₁) (ι := ()) (𝒱₀ := 𝒱₀) (L := L) (lv := lv) (hL := fun _ _ => rfl) (ρ := ρ) (outs := outs) (a := a) (pdats := pdats)
    (O₀ := 0) (G := fun _ => iprop(emp)) (u₀ := (initOf (Pipeline.cells (Pipeline.pin (pcfgs (F := F)) a) (cellOf_inj a)) (Pipeline.launchToks (Pipeline.pin (pcfgs (F := F)) a) (cellOf_inj a)))) (hu₀ := launch_hu₀ a)
    (E := fun _ c => R c) (hE0 := launch_hE0 ρ) (hE3 := launch_hE3)
    R0 hpre0 hpost0 R1 hpre1 hpost1 R2 hpre2 hpost2

end Cert.KernelIdeal.Hand

end
-- ==== Proof.KI.FamilyValue.lean ====
import proofs.«401711_j53747220742790_3_alg».proof.Proof.KI.Family
import proofs.«401711_j53747220742790_3_alg».proof.Proof.KI.LaunchValue

set_option maxRecDepth 1288

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

theorem run_value (m : (ℓ : Loc nD τ sig) → Buf (Elt F) ℓ) (ρ : Dev nD → PrngReg) (h : IdxOk m) :
    θ_run defs (onTc (τ := τ) (main (F := F))) ⟨m, fun _ => 0, ρ⟩ (fun r => ∀ c : Dev nD,
      r.2.mem ((c.tc : Thread nD τ).loc main_v110) = W16 m (o6 h) (o10 h) (o14 h) c main_v110
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have H := value_of_regions m ρ (outsOf h) (adm m) (pdats h) (R0 h) (hpre0 h) (hpost0 h) (R1 h) (hpre1 h) (hpost1 h) (R2 h) (hpre2 h) (hpost2 h)
  rw [show V16 m (outsOf h) = W16 m (o6 h) (o10 h) (o14 h) from funext fun c => V16_eq' m (o6 h) (o10 h) (o14 h) c] at H
  exact H

end Cert.KernelIdeal.Hand

end
-- ==== Proof.KI.KerHostDefs.lean ====
import proofs.«401711_j53747220742790_3_alg».proof.Proof.Gen.KernelIdeal.Regions
import proofs.«401711_j53747220742790_3_alg».proof.Proof.KerSpec
import Idealize.ShloMosaic.Lib.StableHlo.Run
import Idealize.ShloMosaic.Lib.ValueIdx
import Idealize.ShloMosaic.Lib.Pipeline.Value
import Idealize.ShloMosaic.PureOps.Ideal.Laws

set_option maxRecDepth 1288

noncomputable section

open scoped BigOperators

namespace Cert.KernelIdeal.HandValue

open Cert.KernelIdeal Cert.KernelIdeal.Gen
open Idealize.ShloMosaic Idealize.ShloMosaic.TcCoe
open Idealize.ShloMosaic.ValueIdx hiding ix0 ix1 ix2

local notation "ix₀" => Idealize.ShloMosaic.ValueIdx.ix0
local notation "ix₁" => Idealize.ShloMosaic.ValueIdx.ix1
local notation "ix₂" => Idealize.ShloMosaic.ValueIdx.ix2

variable (m : (ℓ : Loc nD τ sig) → Buf (Elt Ideal) ℓ) (outs : Outs (F := Ideal))

abbrev epos (cc : Fin 2) (j : Fin 1650688) : Fin 3301376 :=
  ⟨cc.val * 1650688 + j.val, by have := cc.isLt; have := j.isLt; omega⟩

abbrev opos (cc : Fin 2) (n : Fin 100096) : Fin 200192 :=
  ⟨cc.val * 100096 + n.val, by have := cc.isLt; have := n.isLt; omega⟩

abbrev sdstArr (c : Dev nD) : S3301376.Idx → BitVec 32 := V5 m c main_v34

abbrev ssrcArr (c : Dev nD) : S3301376.Idx → BitVec 32 := V5 m c main_v32

abbrev swtArr (c : Dev nD) : S3301376.Idx → EReal := V5 m c main_v36

abbrev sdstW (c : Dev nD) (j : Fin 3301376) : BitVec 32 := sdstArr m c (ix₁ j)

abbrev ssrcW (c : Dev nD) (j : Fin 3301376) : BitVec 32 := ssrcArr m c (ix₁ j)

abbrev swt (c : Dev nD) (j : Fin 3301376) : EReal := swtArr m c (ix₁ j)

abbrev msg0 (c : Dev nD) : S1x3301376.Idx → EReal := V5 m c main_v46

abbrev msg1 (c : Dev nD) : S1x3301376.Idx → EReal := V9 m outs c main_v69

abbrev msg2 (c : Dev nD) : S2x3301376.Idx → EReal := V13 m outs c main_v97

abbrev out0 (c : Dev nD) : S1x200192.Idx → EReal := outs 6 main_v47 c

abbrev out1 (c : Dev nD) : S1x200192.Idx → EReal := outs 10 main_v70 c

abbrev out2 (c : Dev nD) : S2x200192.Idx → EReal := outs 14 main_v98 c

def ScatterOk0 : Prop :=
  ∀ (c : Dev nD) (cc : Fin 2) (f : Fin 1) (n : Fin 100096),
    out0 outs c (ix₂ f (opos cc n))
      = ∑ j : Fin 1650688, if (sdstW m c (epos cc j)).toNat = n.val then msg0 m c (ix₂ f (epos cc j)) else 0

def ScatterOk1 : Prop :=
  ∀ (c : Dev nD) (cc : Fin 2) (f : Fin 1) (n : Fin 100096),
    out1 outs c (ix₂ f (opos cc n))
      = ∑ j : Fin 1650688, if (sdstW m c (epos cc j)).toNat = n.val then msg1 m outs c (ix₂ f (epos cc j)) else 0

def ScatterOk2 : Prop :=
  ∀ (c : Dev nD) (cc : Fin 2) (f : Fin 2) (n : Fin 100096),
    out2 outs c (ix₂ f (opos cc n))
      = ∑ j : Fin 1650688, if (sdstW m c (epos cc j)).toNat = n.val then msg2 m outs c (ix₂ f (epos cc j)) else 0

abbrev sdN (c : Dev nD) (j : Fin 3301376) : Fin 100000 := Cert.Gcn.Spec.nodeOf (sdstW m c j)

abbrev ssN (c : Dev nD) (j : Fin 3301376) : Fin 100000 := Cert.Gcn.Spec.nodeOf (ssrcW m c j)

abbrev xArr (c : Dev nD) : S100000x1.Idx → EReal := m ((c : Thread nD τ).loc main_arg0)

abbrev w1Arr (c : Dev nD) : S1x16.Idx → EReal := m ((c : Thread nD τ).loc main_arg3)

abbrev b1Arr (c : Dev nD) : S16.Idx → EReal := m ((c : Thread nD τ).loc main_arg4)

abbrev w2Arr (c : Dev nD) : S16x2.Idx → EReal := m ((c : Thread nD τ).loc main_arg5)

abbrev b2Arr (c : Dev nD) : S2.Idx → EReal := m ((c : Thread nD τ).loc main_arg6)

abbrev xE (c : Dev nD) (n : Fin 100000) : EReal := xArr m c (ix₂ n (0 : Fin 1))
abbrev w1E (c : Dev nD) (k : Fin 16) : EReal := w1Arr m c (ix₂ (0 : Fin 1) k)
abbrev b1E (c : Dev nD) (k : Fin 16) : EReal := b1Arr m c (ix₁ k)
abbrev w2E (c : Dev nD) (k : Fin 16) (f : Fin 2) : EReal := w2Arr m c (ix₂ k f)
abbrev b2E (c : Dev nD) (f : Fin 2) : EReal := b2Arr m c (ix₁ f)

def SortedIdxOk : Prop :=
  ∀ (c : Dev nD) (j : Fin 3301376),
    (0 ≤ (sdstW m c j).toInt ∧ (sdstW m c j).toInt < 100000) ∧ (0 ≤ (ssrcW m c j).toInt ∧ (ssrcW m c j).toInt < 100000)

abbrev dinvArr (c : Dev nD) : S100000.Idx → EReal := V8 m outs c main_v57

theorem V9_v34 (c : Dev nD) : V9 m outs c main_v34 = V5 m c main_v34 :=
  (V9_of m outs c main_v34 (by decide)).trans <| (V8_of m outs c main_v34 (by decide)).trans <|
    (V7_of m outs c main_v34 (by decide)).trans (V6_of m outs c main_v34 (by decide))
theorem V8_v32 (c : Dev nD) : V8 m outs c main_v32 = V5 m c main_v32 :=
  (V8_of m outs c main_v32 (by decide)).trans <| (V7_of m outs c main_v32 (by decide)).trans (V6_of m outs c main_v32 (by decide))
theorem V8_v36 (c : Dev nD) : V8 m outs c main_v36 = V5 m c main_v36 :=
  (V8_of m outs c main_v36 (by decide)).trans <| (V7_of m outs c main_v36 (by decide)).trans (V6_of m outs c main_v36 (by decide))
theorem V12_v32 (c : Dev nD) : V12 m outs c main_v32 = V5 m c main_v32 :=
  (V12_of m outs c main_v32 (by decide)).trans <| (V11_of m outs c main_v32 (by decide)).trans <|
    (V10_of m outs c main_v32 (by decide)).trans <| (V9_of m outs c main_v32 (by decide)).trans (V8_v32 m outs c)
theorem V12_v36 (c : Dev nD) : V12 m outs c main_v36 = V5 m c main_v36 :=
  (V12_of m outs c main_v36 (by decide)).trans <| (V11_of m outs c main_v36 (by decide)).trans <|
    (V10_of m outs c main_v36 (by decide)).trans <| (V9_of m outs c main_v36 (by decide)).trans (V8_v36 m outs c)
theorem V13_v34 (c : Dev nD) : V13 m outs c main_v34 = V5 m c main_v34 :=
  (V13_of m outs c main_v34 (by decide)).trans <| (V12_of m outs c main_v34 (by decide)).trans <|
    (V11_of m outs c main_v34 (by decide)).trans <| (V10_of m outs c main_v34 (by decide)).trans (V9_v34 m outs c)
theorem V10_v57 (c : Dev nD) : V10 m outs c main_v57 = V8 m outs c main_v57 :=
  (V10_of m outs c main_v57 (by decide)).trans (V9_of m outs c main_v57 (by decide))
theorem V12_v57 (c : Dev nD) : V12 m outs c main_v57 = V8 m outs c main_v57 :=
  (V12_of m outs c main_v57 (by decide)).trans <| (V11_of m outs c main_v57 (by decide)).trans (V10_v57 m outs c)
theorem V14_v57 (c : Dev nD) : V14 m outs c main_v57 = V8 m outs c main_v57 :=
  (V14_of m outs c main_v57 (by decide)).trans <| (V13_of m outs c main_v57 (by decide)).trans (V12_v57 m outs c)

theorem V5_arg (c : Dev nD) (r : Ref sig .tc) (h0 : r ∉ hostOps0_W) (h1 : r ∉ hostOps0_1_W) (h2 : r ∉ hostOps0_2_W)
    (h3 : r ∉ hostOps0_3_W) (h4 : r ∉ hostOps0_4_W) : V5 m c r = m ((c : Thread nD τ).loc r) :=
  (V5_of m c r h4).trans <| (V4_of m c r h3).trans <| (V3_of m c r h2).trans <| (V2_of m c r h1).trans <| (V1_of m c r h0).trans rfl
theorem V8_arg0 (c : Dev nD) : V8 m outs c main_arg0 = m ((c : Thread nD τ).loc main_arg0) :=
  (V8_of m outs c main_arg0 (by decide)).trans <| (V7_of m outs c main_arg0 (by decide)).trans <|
    (V6_of m outs c main_arg0 (by decide)).trans (V5_arg m c main_arg0 (by decide) (by decide) (by decide) (by decide) (by decide))
theorem V10_arg3 (c : Dev nD) : V10 m outs c main_arg3 = m ((c : Thread nD τ).loc main_arg3) :=
  (V10_of m outs c main_arg3 (by decide)).trans <| (V9_of m outs c main_arg3 (by decide)).trans <|
    (V8_of m outs c main_arg3 (by decide)).trans <| (V7_of m outs c main_arg3 (by decide)).trans <|
    (V6_of m outs c main_arg3 (by decide)).trans (V5_arg m c main_arg3 (by decide) (by decide) (by decide) (by decide) (by decide))
theorem V10_arg4 (c : Dev nD) : V10 m outs c main_arg4 = m ((c : Thread nD τ).loc main_arg4) :=
  (V10_of m outs c main_arg4 (by decide)).trans <| (V9_of m outs c main_arg4 (by decide)).trans <|
    (V8_of m outs c main_arg4 (by decide)).trans <| (V7_of m outs c main_arg4 (by decide)).trans <|
    (V6_of m outs c main_arg4 (by decide)).trans (V5_arg m c main_arg4 (by decide) (by decide) (by decide) (by decide) (by decide))
theorem V12_arg5 (c : Dev nD) : V12 m outs c main_arg5 = m ((c : Thread nD τ).loc main_arg5) :=
  (V12_of m outs c main_arg5 (by decide)).trans <| (V11_of m outs c main_arg5 (by decide)).trans <|
    (V10_of m outs c main_arg5 (by decide)).trans <| (V9_of m outs c main_arg5 (by decide)).trans <|
    (V8_of m outs c main_arg5 (by decide)).trans <| (V7_of m outs c main_arg5 (by decide)).trans <|
    (V6_of m outs c main_arg5 (by decide)).trans (V5_arg m c main_arg5 (by decide) (by decide) (by decide) (by decide) (by decide))
theorem V14_arg6 (c : Dev nD) : V14 m outs c main_arg6 = m ((c : Thread nD τ).loc main_arg6) :=
  (V14_of m outs c main_arg6 (by decide)).trans <| (V13_of m outs c main_arg6 (by decide)).trans <|
    (V12_of m outs c main_arg6 (by decide)).trans <| (V11_of m outs c main_arg6 (by decide)).trans <|
    (V10_of m outs c main_arg6 (by decide)).trans <| (V9_of m outs c main_arg6 (by decide)).trans <|
    (V8_of m outs c main_arg6 (by decide)).trans <| (V7_of m outs c main_arg6 (by decide)).trans <|
    (V6_of m outs c main_arg6 (by decide)).trans (V5_arg m c main_arg6 (by decide) (by decide) (by decide) (by decide) (by decide))

end Cert.KernelIdeal.HandValue

end
-- ==== Proof.KI.KerHost.lean ====
import proofs.«401711_j53747220742790_3_alg».proof.Proof.KI.KerHostDefs
import proofs.«401711_j53747220742790_3_alg».proof.Proof.LibRowGatherScatter
import Idealize.ShloMosaic.Lib.ValueLayout
import Mathlib.Algebra.BigOperators.Fin
import Idealize.ShloMosaic.Lib.StableHlo.Run
import Idealize.ShloMosaic.Lib.ValueIdx
import Idealize.ShloMosaic.Lib.Pipeline.Value
import Idealize.ShloMosaic.PureOps.Ideal.Laws

set_option maxRecDepth 1288

noncomputable section

open scoped BigOperators

namespace Cert.KernelIdeal.HandValue

open Cert.KernelIdeal Cert.KernelIdeal.Gen
open Idealize.ShloMosaic Idealize.ShloMosaic.TcCoe
open Idealize.ShloMosaic.ValueIdx hiding ix0 ix1 ix2

local notation "ix₀" => Idealize.ShloMosaic.ValueIdx.ix0
local notation "ix₁" => Idealize.ShloMosaic.ValueIdx.ix1
local notation "ix₂" => Idealize.ShloMosaic.ValueIdx.ix2

variable (m : (ℓ : Loc nD τ sig) → Buf (Elt Ideal) ℓ) (outs : Outs (F := Ideal))

theorem toNat_eq_iff_nodeOf (w : BitVec 32) (h0 : 0 ≤ w.toInt) (h1 : w.toInt < 100000) (n : Fin 100000) :
    w.toNat = n.val ↔ Cert.Gcn.Spec.nodeOf w = n := by
  have hw : w.toInt = (w.toNat : ℤ) := by
    have := w.isLt
    rw [BitVec.toInt_eq_toNat_cond] at h0 ⊢
    split at h0 <;> omega
  rw [← Cert.Gcn.Spec.toInt_eq_iff_nodeOf_eq w h0 h1 n, hw]
  omega

theorem sum_halves (g : Fin 3301376 → EReal) :
    ∑ j : Fin 3301376, g j = (∑ j : Fin 1650688, g (epos 0 j)) + ∑ j : Fin 1650688, g (epos 1 j) := by
  rw [← Equiv.sum_comp (finCongr (show 1650688 + 1650688 = 3301376 from rfl)) g, Fin.sum_univ_add]
  refine congrArg₂ (· + ·) ?_ ?_
  · refine Finset.sum_congr rfl fun j _ => congrArg g (Fin.ext ?_)
    show j.val = 0 * 1650688 + j.val
    omega
  · refine Finset.sum_congr rfl fun j _ => congrArg g (Fin.ext ?_)
    show 1650688 + j.val = 1 * 1650688 + j.val
    omega

theorem halves_added (dW : Fin 3301376 → BitVec 32) (hd : ∀ j, 0 ≤ (dW j).toInt ∧ (dW j).toInt < 100000)
    (msg : Fin 3301376 → EReal) (o : Fin 200192 → EReal)
    (hok : ∀ (cc : Fin 2) (n : Fin 100096),
      o (opos cc n) = ∑ j : Fin 1650688, if (dW (epos cc j)).toNat = n.val then msg (epos cc j) else 0)
    (n : Fin 100000) :
    o ⟨n.val, by have := n.isLt; omega⟩ + o ⟨100096 + n.val, by have := n.isLt; omega⟩
      = ∑ j : Fin 3301376, if Cert.Gcn.Spec.nodeOf (dW j) = n then msg j else 0 := by
  have e0 : (⟨n.val, by have := n.isLt; omega⟩ : Fin 200192) = opos 0 ⟨n.val, by have := n.isLt; omega⟩ :=
    Fin.ext (by show n.val = 0 * 100096 + n.val; omega)
  have e1 : (⟨100096 + n.val, by have := n.isLt; omega⟩ : Fin 200192) = opos 1 ⟨n.val, by have := n.isLt; omega⟩ :=
    Fin.ext (by show 100096 + n.val = 1 * 100096 + n.val; omega)
  rw [e0, e1, hok, hok, sum_halves]
  refine congrArg₂ (· + ·) ?_ ?_ <;>
  · refine Finset.sum_congr rfl fun j _ => if_congr ?_ rfl rfl
    exact toNat_eq_iff_nodeOf _ (hd _).1 (hd _).2 n

theorem shapeCast_col_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix₁ i) = x (ix₂ i (0 : Fin 1)) :=
  shapeCast_apply x h _ _ (by
    rw [Shape.rowMajor_val_two, Shape.rowMajor_val_one]
    show i.val * 1 + 0 = i.val
    omega)

abbrev lane (n : Fin 100000) : Fin 100096 := ⟨n.val, by have := n.isLt; omega⟩

abbrev laneLo (n : Fin 100000) : Fin 200192 := ⟨n.val, by have := n.isLt; omega⟩

abbrev laneHi (n : Fin 100000) : Fin 200192 := ⟨100096 + n.val, by have := n.isLt; omega⟩

theorem msg0_eq (c : Dev nD) :
    msg0 m c = transpose S1x3301376 [1, 0]
      (broadcastInDim S3301376x1 ![0] bcast_S3301376_S3301376x1_0 (swtArr m c)) transposes_S3301376x1_S1x3301376_1_0 := by
  have e36 : swtArr m c = V4 m c main_v36 := V5_of m c main_v36 (by decide)
  rw [e36]
  show StableHlo.after hostOps0_4 (V4 m c) (Proc.devRef .tc main_v46) = _
  after_results

theorem msg0_apply (c : Dev nD) (f : Fin 1) (j : Fin 3301376) : msg0 m c (ix₂ f j) = swt m c j := by
  rw [msg0_eq, transpose_ix2_apply, Cert.ReferenceIdeal.Hand.bcastCol_apply]

abbrev degArr (c : Dev nD) : S100000.Idx → EReal := V7 m outs c main_v53

theorem degArr_eq (c : Dev nD) :
    degArr m outs c = shapeCast S100000 (transpose S100000x1 [1, 0] (extractStridedSlice S1x100000 ![0, 0]
      (addf (F := Ideal) (φ := .f32) (extractStridedSlice S1x100096 ![0, 0] (out0 outs c) slices_S1x200192_S1x100096_0_0)
        (extractStridedSlice S1x100096 ![0, 100096] (out0 outs c) slices_S1x200192_S1x100096_0_100096))
      slices_S1x100096_S1x100000_0_0) transposes_S1x100000_S100000x1_1_0) shapeCasts_S100000x1_S100000 := by
  show StableHlo.after hostOps1 (V6 m outs c) (Proc.devRef .tc main_v53) = _
  after_results
  rfl

theorem degArr_apply (c : Dev nD) (n : Fin 100000) :
    degArr m outs c (ix₁ n) = out0 outs c (ix₂ (0 : Fin 1) (laneLo n)) + out0 outs c (ix₂ (0 : Fin 1) (laneHi n)) := by
  rw [degArr_eq, shapeCast_col_apply, transpose_ix2_apply,
    slice2_axis1_apply 0 _ _ (0 : Fin 1) n (lane n) (by simp), addf_apply,
    slice2_axis1_apply 0 _ _ (0 : Fin 1) (lane n) (laneLo n) (by simp),
    slice2_axis1_apply 100096 _ _ (0 : Fin 1) (lane n) (laneHi n) rfl]

theorem dinvArr_eq (c : Dev nD) :
    dinvArr m outs c = select
      (cmpf (F := Ideal) (φ := .f32) .ogt (degArr m outs c) (broadcastInDim S100000 ![] bcast_S_S100000 (constant (F := Ideal) S_ .f32 0x00000000#32)))
      (Host.rsqrt (F := Ideal) (φ := .f32) (degArr m outs c))
      (broadcastInDim S100000 ![] bcast_S_S100000 (id (constant (F := Ideal) S_ .f32 0x00000000#32))) := by
  show StableHlo.after hostOps1_1 (StableHlo.after hostOps1 (V6 m outs c)) (Proc.devRef .tc main_v57) = _
  after_results
  after_results
  rfl

theorem dinvArr_apply (c : Dev nD) (n : Fin 100000) :
    dinvArr m outs c (ix₁ n) = Cert.Gcn.Spec.dinvOf (degArr m outs c (ix₁ n)) := by
  rw [dinvArr_eq, select_apply, cmpf_apply, Cert.ReferenceIdeal.Hand.bcastScalar_apply,
    Cert.ReferenceIdeal.Hand.bcastScalar_apply]
  show Scalar.select (FloatOps.cmpf (F := Ideal) (φ := .f32) .ogt (degArr m outs c (ix₁ n)) (FloatOps.ofBits (F := Ideal) .f32 0x00000000#32))
    (FloatOps.hostUnary (F := Ideal) (φ := .f32) .rsqrt (degArr m outs c (ix₁ n))) (FloatOps.ofBits (F := Ideal) .f32 0x00000000#32) = _
  rw [Ideal.ofBits_def, Ideal.ofBits_zero_f32, Ideal.hostUnary_rsqrt_def]
  rfl

abbrev dxArr (c : Dev nD) : S100000x1.Idx → EReal := V9 m outs c main_v59

theorem dxArr_eq (c : Dev nD) :
    dxArr m outs c
      = mulf (F := Ideal) (φ := .f32) (broadcastInDim S100000x1 ![0] bcast_S100000_S100000x1_0 (dinvArr m outs c)) (xArr m c) := by
  rw [show xArr m c = V8 m outs c main_arg0 from (V8_arg0 m outs c).symm]
  show StableHlo.after hostOps1_2 (V8 m outs c) (Proc.devRef .tc main_v59) = _
  after_results
  first | rfl | skip

theorem dxArr_apply (c : Dev nD) (n : Fin 100000) (z : Fin 1) :
    dxArr m outs c (ix₂ n z) = dinvArr m outs c (ix₁ n) * xArr m c (ix₂ n z) := by
  rw [dxArr_eq, mulf_apply, Cert.ReferenceIdeal.Hand.bcastCol_apply]

abbrev startArr (c : Dev nD) : S3301376x1.Idx → BitVec 32 := V9 m outs c main_v66

theorem startArr_eq (c : Dev nD) :
    startArr m outs c = broadcastInDim S3301376x1 ![0] bcast_S3301376_S3301376x1_0
      (select (cmpi .slt (ssrcArr m c) (broadcastInDim S3301376 ![] bcast_S_S3301376 (constantI S_ 32 0#32)))
        (addi (ssrcArr m c) (broadcastInDim S3301376 ![] bcast_S_S3301376 (constantI S_ 32 100000#32))) (ssrcArr m c)) := by
  rw [show ssrcArr m c = V8 m outs c main_v32 from (V8_v32 m outs c).symm]
  show StableHlo.after hostOps1_2 (V8 m outs c) (Proc.devRef .tc main_v66) = _
  after_results
  first | rfl | skip

theorem startArr_apply (c : Dev nD) (j : Fin 3301376) (z : Fin 1) (hs : 0 ≤ (ssrcW m c j).toInt) :
    startArr m outs c (ix₂ j z) = ssrcW m c j := by
  rw [startArr_eq, Cert.ReferenceIdeal.Hand.bcastCol_apply]
  show Scalar.select (IntOp.cmpi .slt (ssrcW m c j) 0#32) (IntOp.addi (ssrcW m c j) 100000#32) (ssrcW m c j) = _
  rw [Cert.ReferenceIdeal.Hand.wrap_select, if_neg (by omega)]

theorem msg1_eq (c : Dev nD) :
    msg1 m outs c = transpose S1x3301376 [1, 0]
      (mulf (F := Ideal) (φ := .f32) (broadcastInDim S3301376x1 ![0] bcast_S3301376_S3301376x1_0 (swtArr m c))
        (Host.gather gather_S100000x1_S3301376x1_S3301376x1_1_0_n_n_0_1_11 (dxArr m outs c) (startArr m outs c)))
      transposes_S3301376x1_S1x3301376_1_0 := by
  rw [dxArr_eq, startArr_eq, show swtArr m c = V8 m outs c main_v36 from (V8_v36 m outs c).symm,
    show xArr m c = V8 m outs c main_arg0 from (V8_arg0 m outs c).symm,
    show ssrcArr m c = V8 m outs c main_v32 from (V8_v32 m outs c).symm]
  show StableHlo.after hostOps1_2 (V8 m outs c) (Proc.devRef .tc main_v69) = _
  after_results_simp
  first | done | rfl

theorem msg1_apply (c : Dev nD) (f : Fin 1) (j : Fin 3301376) (hs : 0 ≤ (ssrcW m c j).toInt) :
    msg1 m outs c (ix₂ f j) = swt m c j * dxArr m outs c (ix₂ (ssN m c j) f) := by
  rw [msg1_eq, transpose_ix2_apply, mulf_apply, Cert.ReferenceIdeal.Hand.bcastCol_apply,
    show gather_S100000x1_S3301376x1_S3301376x1_1_0_n_n_0_1_11
      = Cert.ReferenceIdeal.Hand.rowGather 100000 3301376 1 gather_S100000x1_S3301376x1_S3301376x1_1_0_n_n_0_1_11_wf from rfl,
    Cert.ReferenceIdeal.Hand.rowGather_apply_of_eq (by decide) _ _ _ j f (ssrcW m c j) (startArr_apply m outs c j 0 hs)]
  rfl

section Spec
variable (h0 : ScatterOk0 m outs) (hidx : SortedIdxOk m)
include h0 hidx

theorem degArr_kdeg (c : Dev nD) (n : Fin 100000) :
    degArr m outs c (ix₁ n) = Cert.Gcn.KerSpec.kdeg (sdN m c) (swt m c) n := by
  rw [degArr_apply]
  refine (halves_added (sdstW m c) (fun j => (hidx c j).1) (fun j => msg0 m c (ix₂ (0 : Fin 1) j))
    (fun p => out0 outs c (ix₂ (0 : Fin 1) p)) (fun cc l => h0 c cc 0 l) n).trans ?_
  show _ = ∑ j : Fin 3301376, if sdN m c j = n then swt m c j else 0
  exact Finset.sum_congr rfl fun j _ => if_congr Iff.rfl (msg0_apply m c 0 j) rfl

theorem dinvArr_kdinv (c : Dev nD) (n : Fin 100000) :
    dinvArr m outs c (ix₁ n) = Cert.Gcn.KerSpec.kdinv (sdN m c) (swt m c) n := by
  rw [dinvArr_apply, degArr_kdeg m outs h0 hidx]
  rfl

theorem msg1_kspec (c : Dev nD) (f : Fin 1) (j : Fin 3301376) :
    msg1 m outs c (ix₂ f j)
      = swt m c j * (Cert.Gcn.KerSpec.kdinv (sdN m c) (swt m c) (ssN m c j) * xE m c (ssN m c j)) := by
  obtain rfl : f = 0 := Subsingleton.elim _ _
  rw [msg1_apply m outs c 0 j (hidx c j).2.1, dxArr_apply, dinvArr_kdinv m outs h0 hidx]

end Spec

theorem out1_added (h1 : ScatterOk1 m outs) (hidx : SortedIdxOk m) (c : Dev nD) (n : Fin 100000) :
    out1 outs c (ix₂ (0 : Fin 1) (laneLo n)) + out1 outs c (ix₂ (0 : Fin 1) (laneHi n))
      = ∑ j : Fin 3301376, if sdN m c j = n then msg1 m outs c (ix₂ (0 : Fin 1) j) else 0 :=
  halves_added (sdstW m c) (fun j => (hidx c j).1) (fun j => msg1 m outs c (ix₂ (0 : Fin 1) j))
    (fun p => out1 outs c (ix₂ (0 : Fin 1) p)) (fun cc l => h1 c cc 0 l) n

theorem out2_added (h2 : ScatterOk2 m outs) (hidx : SortedIdxOk m) (c : Dev nD) (f : Fin 2) (n : Fin 100000) :
    out2 outs c (ix₂ f (laneLo n)) + out2 outs c (ix₂ f (laneHi n))
      = ∑ j : Fin 3301376, if sdN m c j = n then msg2 m outs c (ix₂ f j) else 0 :=
  halves_added (sdstW m c) (fun j => (hidx c j).1) (fun j => msg2 m outs c (ix₂ f j))
    (fun p => out2 outs c (ix₂ f p)) (fun cc l => h2 c cc f l) n

end Cert.KernelIdeal.HandValue

end
-- ==== Proof.KI.KerHost2.lean ====
import proofs.«401711_j53747220742790_3_alg».proof.Proof.KI.KerHostDefs
import proofs.«401711_j53747220742790_3_alg».proof.Proof.KerSpec
import proofs.«401711_j53747220742790_3_alg».proof.Proof.Lsm
import proofs.«401711_j53747220742790_3_alg».proof.Proof.LibRowGatherScatter
import Idealize.ShloMosaic.Lib.IdealHost
import Idealize.ShloMosaic.Lib.StackMember

noncomputable section

open scoped BigOperators

namespace Cert.Gcn.KerHost2

open Cert.KernelIdeal Cert.KernelIdeal.Gen Cert.KernelIdeal.HandValue
open Idealize.ShloMosaic Idealize.ShloMosaic.TcCoe
open Idealize.ShloMosaic.ValueIdx hiding ix0 ix1 ix2
open Cert.ReferenceIdeal.Hand

local notation "ix₀" => Idealize.ShloMosaic.ValueIdx.ix0
local notation "ix₁" => Idealize.ShloMosaic.ValueIdx.ix1
local notation "ix₂" => Idealize.ShloMosaic.ValueIdx.ix2

variable (m : (ℓ : Loc nD τ sig) → Buf (Elt Ideal) ℓ) (outs : Outs (F := Ideal))

def fold1 (o : S1x200192.Idx → EReal) : S100000x1.Idx → EReal :=
  transpose S100000x1 [1, 0]
    (extractStridedSlice S1x100000 ![0, 0]
      (addf (F := Ideal) (φ := .f32) (extractStridedSlice S1x100096 ![0, 0] o slices_S1x200192_S1x100096_0_0)
        (extractStridedSlice S1x100096 ![0, 100096] o slices_S1x200192_S1x100096_0_100096))
      slices_S1x100096_S1x100000_0_0)
    transposes_S1x100000_S100000x1_1_0

theorem V11_v81 (c : Dev nD) :
    V11 m outs c main_v81
      = addf (F := Ideal) (φ := .f32)
          (Host.dotGeneral (F := Ideal) (φ₁ := .f32) (φ₂ := .f32) dot_S100000x1_S1x16_S100000x16_1_0_0_1_n_n none
            (mulf (F := Ideal) (φ := .f32) (broadcastInDim S100000x1 ![0] bcast_S100000_S100000x1_0 (V10 m outs c main_v57))
              (fold1 (V10 m outs c main_v70)))
            (V10 m outs c main_arg3))
          (broadcastInDim S100000x16 ![0, 1] bcast_S1x16_S100000x16_0_1
            (broadcastInDim S1x16 ![1] bcast_S16_S1x16_1 (V10 m outs c main_arg4))) := by
  show StableHlo.after hostOps2 (V10 m outs c) main_v81 = _
  after_results
  rfl

theorem relu_after (W : Valuation τ sig (Elt Ideal)) :
    StableHlo.after hostOps2_1 W main_v82
      = maximumf (F := Ideal) (φ := .f32) (W main_v81)
          (broadcastInDim S100000x16 ![] bcast_S_S100000x16 (constant (F := Ideal) S_ .f32 0x00000000#32)) := by
  after_results_simp <;> rfl

theorem V12_v82 (c : Dev nD) :
    V12 m outs c main_v82
      = maximumf (F := Ideal) (φ := .f32) (V11 m outs c main_v81)
          (broadcastInDim S100000x16 ![] bcast_S_S100000x16 (constant (F := Ideal) S_ .f32 0x00000000#32)) :=
  relu_after (V11 m outs c)

def srcCol (w : S3301376.Idx → BitVec 32) : S3301376x1.Idx → BitVec 32 :=
  broadcastInDim S3301376x1 ![0] bcast_S3301376_S3301376x1_0
    (select (cmpi .slt w (broadcastInDim S3301376 ![] bcast_S_S3301376 (constantI S_ 32 0#32)))
      (addi w (broadcastInDim S3301376 ![] bcast_S_S3301376 (constantI S_ 32 100000#32))) w)

set_option maxHeartbeats 4000000 in
theorem V13_v97 (c : Dev nD) :
    V13 m outs c main_v97
      = transpose S2x3301376 [1, 0]
          (mulf (F := Ideal) (φ := .f32)
            (broadcastInDim S3301376x2 ![0, 1] bcast_S3301376x1_S3301376x2_0_1
              (broadcastInDim S3301376x1 ![0] bcast_S3301376_S3301376x1_0 (V12 m outs c main_v36)))
            (Host.gather gather_S100000x2_S3301376x1_S3301376x2_1_0_n_n_0_1_12
              (mulf (F := Ideal) (φ := .f32)
                (broadcastInDim S100000x2 ![0, 1] bcast_S100000x1_S100000x2_0_1
                  (broadcastInDim S100000x1 ![0] bcast_S100000_S100000x1_0 (V12 m outs c main_v57)))
                (Host.dotGeneral (F := Ideal) (φ₁ := .f32) (φ₂ := .f32) dot_S100000x16_S16x2_S100000x2_1_0_0_1_n_n none
                  (V12 m outs c main_v82) (V12 m outs c main_arg5)))
              (srcCol (V12 m outs c main_v32))))
          transposes_S3301376x2_S2x3301376_1_0 := by
  show StableHlo.after hostOps2_2 (V12 m outs c) main_v97 = _
  after_results_simp <;> rfl

def fold2 (o : S2x200192.Idx → EReal) : S100000x2.Idx → EReal :=
  transpose S100000x2 [1, 0]
    (extractStridedSlice S2x100000 ![0, 0]
      (addf (F := Ideal) (φ := .f32) (extractStridedSlice S2x100096 ![0, 0] o slices_S2x200192_S2x100096_0_0)
        (extractStridedSlice S2x100096 ![0, 100096] o slices_S2x200192_S2x100096_0_100096))
      slices_S2x100096_S2x100000_0_0)
    transposes_S2x100000_S100000x2_1_0

theorem V15_v109 (c : Dev nD) :
    V15 m outs c main_v109
      = addf (F := Ideal) (φ := .f32)
          (mulf (F := Ideal) (φ := .f32)
            (broadcastInDim S100000x2 ![0, 1] bcast_S100000x1_S100000x2_0_1
              (broadcastInDim S100000x1 ![0] bcast_S100000_S100000x1_0 (V14 m outs c main_v57)))
            (fold2 (V14 m outs c main_v98)))
          (broadcastInDim S100000x2 ![0, 1] bcast_S1x2_S100000x2_0_1
            (broadcastInDim S1x2 ![1] bcast_S2_S1x2_1 (V14 m outs c main_arg6))) := by
  show StableHlo.after hostOps3 (V14 m outs c) main_v109 = _
  after_results
  rfl

set_option maxRecDepth 262144 in
set_option maxHeartbeats 4000000 in

theorem lsm_after (W : Valuation τ sig (Elt Ideal)) : StableHlo.after hostOps3_1 W main_v110 = lsm (W main_v109) := by
  unfold lsm lsmShift
  after_results_simp <;> rfl

theorem V16_v110 (c : Dev nD) : V16 m outs c main_v110 = lsm (V15 m outs c main_v109) :=
  lsm_after (V15 m outs c)

theorem fold1_apply (o : S1x200192.Idx → EReal) (n : Fin 100000) (z : Fin 1) :
    fold1 o (ix₂ n z)
      = o (ix₂ z ⟨n.val, by have := n.isLt; omega⟩) + o (ix₂ z ⟨100096 + n.val, by have := n.isLt; omega⟩) := by
  unfold fold1
  rw [transpose_apply [1, 0] _ transposes_S1x100000_S100000x1_1_0 (ix₂ n z) (ix₂ z n)
      (fun b => by match b with | ⟨0, _⟩ => rfl | ⟨1, _⟩ => rfl),
    extractStridedSlice_apply ![0, 0] _ slices_S1x100096_S1x100000_0_0 (ix₂ z n)
      (ix₂ z ⟨n.val, by have := n.isLt; omega⟩)
      (fun a => by match a with | ⟨0, _⟩ => exact (Nat.zero_add _).symm | ⟨1, _⟩ => exact (Nat.zero_add _).symm),
    addf_apply,
    extractStridedSlice_apply ![0, 0] o slices_S1x200192_S1x100096_0_0 (ix₂ z ⟨n.val, by have := n.isLt; omega⟩)
      (ix₂ z ⟨n.val, by have := n.isLt; omega⟩)
      (fun a => by match a with | ⟨0, _⟩ => exact (Nat.zero_add _).symm | ⟨1, _⟩ => exact (Nat.zero_add _).symm),
    extractStridedSlice_apply ![0, 100096] o slices_S1x200192_S1x100096_0_100096 (ix₂ z ⟨n.val, by have := n.isLt; omega⟩)
      (ix₂ z ⟨100096 + n.val, by have := n.isLt; omega⟩)
      (fun a => by match a with | ⟨0, _⟩ => exact (Nat.zero_add _).symm | ⟨1, _⟩ => rfl)]

theorem fold2_apply (o : S2x200192.Idx → EReal) (n : Fin 100000) (f : Fin 2) :
    fold2 o (ix₂ n f)
      = o (ix₂ f ⟨n.val, by have := n.isLt; omega⟩) + o (ix₂ f ⟨100096 + n.val, by have := n.isLt; omega⟩) := by
  unfold fold2
  rw [transpose_apply [1, 0] _ transposes_S2x100000_S100000x2_1_0 (ix₂ n f) (ix₂ f n)
      (fun b => by match b with | ⟨0, _⟩ => rfl | ⟨1, _⟩ => rfl),
    extractStridedSlice_apply ![0, 0] _ slices_S2x100096_S2x100000_0_0 (ix₂ f n)
      (ix₂ f ⟨n.val, by have := n.isLt; omega⟩)
      (fun a => by match a with | ⟨0, _⟩ => exact (Nat.zero_add _).symm | ⟨1, _⟩ => exact (Nat.zero_add _).symm),
    addf_apply,
    extractStridedSlice_apply ![0, 0] o slices_S2x200192_S2x100096_0_0 (ix₂ f ⟨n.val, by have := n.isLt; omega⟩)
      (ix₂ f ⟨n.val, by have := n.isLt; omega⟩)
      (fun a => by match a with | ⟨0, _⟩ => exact (Nat.zero_add _).symm | ⟨1, _⟩ => exact (Nat.zero_add _).symm),
    extractStridedSlice_apply ![0, 100096] o slices_S2x200192_S2x100096_0_100096 (ix₂ f ⟨n.val, by have := n.isLt; omega⟩)
      (ix₂ f ⟨100096 + n.val, by have := n.isLt; omega⟩)
      (fun a => by match a with | ⟨0, _⟩ => exact (Nat.zero_add _).symm | ⟨1, _⟩ => rfl)]

theorem dot1_apply (A : FVec Ideal S100000x1 .f32) (B : FVec Ideal S1x16 .f32) (n : Fin 100000) (k : Fin 16) :
    Host.dotGeneral (F := Ideal) dot_S100000x1_S1x16_S100000x16_1_0_0_1_n_n none A B (ix₂ n k)
      = A (ix₂ n (0 : Fin 1)) * B (ix₂ (0 : Fin 1) k) := by
  show Host.dotGeneral (F := Ideal) (DotDims.plain 100000 1 16) none A B (ix₂ n k) = _
  rw [StackMember.dotGeneral_plain_apply, Fin.sum_univ_one]

theorem dot2_apply (A : FVec Ideal S100000x16 .f32) (B : FVec Ideal S16x2 .f32) (n : Fin 100000) (f : Fin 2) :
    Host.dotGeneral (F := Ideal) dot_S100000x16_S16x2_S100000x2_1_0_0_1_n_n none A B (ix₂ n f)
      = ∑ k : Fin 16, A (ix₂ n k) * B (ix₂ k f) := by
  show Host.dotGeneral (F := Ideal) (DotDims.plain 100000 16 2) none A B (ix₂ n f) = _
  rw [StackMember.dotGeneral_plain_apply]

theorem wrap_id (s : BitVec 32) (h : 0 ≤ s.toInt) :
    Scalar.select (IntOp.cmpi .slt s 0#32) (IntOp.addi s 100000#32) s = s := by
  rw [wrap_select, if_neg (by omega)]

theorem srcCol_apply (w : S3301376.Idx → BitVec 32) (j : Fin 3301376) (z : Fin 1) (h : 0 ≤ (w (ix₁ j)).toInt) :
    srcCol w (ix₂ j z) = w (ix₁ j) := by
  unfold srcCol
  rw [bcastCol_apply]
  show Scalar.select (IntOp.cmpi .slt (w (ix₁ j)) (broadcastInDim S3301376 ![] bcast_S_S3301376 (constantI S_ 32 0#32) (ix₁ j)))
      (IntOp.addi (w (ix₁ j)) (broadcastInDim S3301376 ![] bcast_S_S3301376 (constantI S_ 32 100000#32) (ix₁ j))) (w (ix₁ j)) = _
  rw [broadcastInDim_apply ![] bcast_S_S3301376 (constantI S_ 32 0#32) (ix₁ j) ix₀ (fun a => a.elim0),
    broadcastInDim_apply ![] bcast_S_S3301376 (constantI S_ 32 100000#32) (ix₁ j) ix₀ (fun a => a.elim0)]
  exact wrap_id _ h

theorem V10_v70 (c : Dev nD) : V10 m outs c main_v70 = out1 outs c := Function.update_self _ _ _
theorem V14_v98 (c : Dev nD) : V14 m outs c main_v98 = out2 outs c := Function.update_self _ _ _

section
variable (c : Dev nD) (ss sd : Fin 3301376 → Fin 100000) (sw : Fin 3301376 → EReal)
  (Hdinv : ∀ n : Fin 100000, V8 m outs c main_v57 (ix₁ n) = KerSpec.kdinv sd sw n)
  (Hsrc : ∀ j : Fin 3301376, 0 ≤ (V5 m c main_v32 (ix₁ j)).toInt ∧ Spec.nodeOf (V5 m c main_v32 (ix₁ j)) = ss j)
  (Hw : ∀ j : Fin 3301376, V5 m c main_v36 (ix₁ j) = sw j)
  (Hmsg1 : ∀ j : Fin 3301376,
    msg1 m outs c (ix₂ (0 : Fin 1) j) = sw j * (KerSpec.kdinv sd sw (ss j) * xE m c (ss j)))
  (Hsc1 : ∀ n : Fin 100000,
    out1 outs c (ix₂ (0 : Fin 1) ⟨n.val, by have := n.isLt; omega⟩)
        + out1 outs c (ix₂ (0 : Fin 1) ⟨100096 + n.val, by have := n.isLt; omega⟩)
      = ∑ j : Fin 3301376, if sd j = n then msg1 m outs c (ix₂ (0 : Fin 1) j) else 0)
  (Hsc2 : ∀ (n : Fin 100000) (f : Fin 2),
    out2 outs c (ix₂ f ⟨n.val, by have := n.isLt; omega⟩) + out2 outs c (ix₂ f ⟨100096 + n.val, by have := n.isLt; omega⟩)
      = ∑ j : Fin 3301376, if sd j = n then msg2 m outs c (ix₂ f j) else 0)

include Hdinv Hmsg1 Hsc1 in

theorem v81_apply (n : Fin 100000) (k : Fin 16) :
    V11 m outs c main_v81 (ix₂ n k) = KerSpec.kagg1 ss sd sw (xE m c) n * w1E m c k + b1E m c k := by
  rw [V11_v81, addf_apply, dot1_apply, mulf_apply, bcastCol_apply, V10_v57, Hdinv, V10_v70, fold1_apply, Hsc1,
    bcastRows_apply, bcastRow_apply, V10_arg3, V10_arg4]
  simp only [Hmsg1]
  rfl

include Hdinv Hmsg1 Hsc1 in

theorem v82_apply (n : Fin 100000) (k : Fin 16) :
    V12 m outs c main_v82 (ix₂ n k) = KerSpec.kh1 ss sd sw (xE m c) (w1E m c) (b1E m c) n k := by
  rw [V12_v82, maximumf_apply, broadcastInDim_apply ![] bcast_S_S100000x16 _ (ix₂ n k) ix₀ (fun a => a.elim0), constant_apply,
    Ideal.ofBits_zero_f32, v81_apply m outs c ss sd sw Hdinv Hmsg1 Hsc1]
  rfl

include Hdinv Hsrc Hw Hmsg1 Hsc1 in

theorem v97_apply (j : Fin 3301376) (f : Fin 2) :
    msg2 m outs c (ix₂ f j)
      = sw j * (KerSpec.kdinv sd sw (ss j)
          * KerSpec.khw ss sd sw (xE m c) (w1E m c) (b1E m c) (w2E m c) (ss j) f) := by
  show V13 m outs c main_v97 (ix₂ f j) = _
  rw [V13_v97, transpose_apply [1, 0] _ transposes_S3301376x2_S2x3301376_1_0 (ix₂ f j) (ix₂ j f)
      (fun b => by match b with | ⟨0, _⟩ => rfl | ⟨1, _⟩ => rfl),
    mulf_apply, bcastFeat_apply, bcastCol_apply, V12_v36, Hw,
    show gather_S100000x2_S3301376x1_S3301376x2_1_0_n_n_0_1_12 = rowGather 100000 3301376 2 _ from rfl,
    rowGather_apply_of_eq (by decide) _ _ _ j f (V5 m c main_v32 (ix₁ j))
      (by rw [V12_v32]; exact srcCol_apply _ j 0 (Hsrc j).1)]
  show sw j * (mulf (F := Ideal) (φ := .f32) _ _ (ix₂ (Spec.nodeOf (V5 m c main_v32 (ix₁ j))) f)) = _
  rw [(Hsrc j).2, mulf_apply, bcastFeat_apply, bcastCol_apply, V12_v57, Hdinv, dot2_apply, V12_arg5]
  simp only [v82_apply m outs c ss sd sw Hdinv Hmsg1 Hsc1]
  rfl

include Hdinv Hsrc Hw Hmsg1 Hsc1 Hsc2 in

theorem v109_apply (n : Fin 100000) (f : Fin 2) :
    V15 m outs c main_v109 (ix₂ n f)
      = KerSpec.kout ss sd sw (xE m c) (w1E m c) (b1E m c) (w2E m c) (b2E m c) n f := by
  rw [V15_v109, addf_apply, mulf_apply, bcastFeat_apply, bcastCol_apply, V14_v57, Hdinv, V14_v98, fold2_apply, Hsc2,
    bcastRows_apply, bcastRow_apply, V14_arg6]
  simp only [v97_apply m outs c ss sd sw Hdinv Hsrc Hw Hmsg1 Hsc1]
  rfl

include Hdinv Hsrc Hw Hmsg1 Hsc1 Hsc2 in

theorem ker_tail_eq :
    V16 m outs c main_v110
      = lsm (fun idx => KerSpec.kout ss sd sw (xE m c) (w1E m c) (b1E m c) (w2E m c) (b2E m c) (idx 0) (idx 1)) := by
  rw [V16_v110]
  refine congrArg lsm ?_
  funext idx
  obtain ⟨n, f, rfl⟩ : ∃ (n : Fin 100000) (f : Fin 2), idx = ix₂ n f := ⟨idx 0, idx 1, eq_ix2 idx⟩
  exact v109_apply m outs c ss sd sw Hdinv Hsrc Hw Hmsg1 Hsc1 Hsc2 n f

end

end Cert.Gcn.KerHost2

end
-- ==== Proof.KI.KerResult.lean ====
import proofs.«401711_j53747220742790_3_alg».proof.Proof.KI.KerHost
import proofs.«401711_j53747220742790_3_alg».proof.Proof.KI.KerHost2
import proofs.«401711_j53747220742790_3_alg».proof.Proof.KI.HostInts

set_option maxRecDepth 1288

noncomputable section

namespace Cert.KernelIdeal.HandValue

open Cert.KernelIdeal Cert.KernelIdeal.Gen
open Idealize.ShloMosaic Idealize.ShloMosaic.TcCoe

variable (m : (ℓ : Loc nD τ sig) → Buf (Elt Ideal) ℓ) (outs : Outs (F := Ideal))

theorem ker_result_eq (h0 : ScatterOk0 m outs) (h1 : ScatterOk1 m outs) (h2 : ScatterOk2 m outs)
    (hidx : SortedIdxOk m) (c : Dev nD) :
    V16 m outs c main_v110
      = Cert.Gcn.lsm (fun idx => Cert.Gcn.KerSpec.kout (ssN m c) (sdN m c) (swt m c) (xE m c) (w1E m c) (b1E m c)
          (w2E m c) (b2E m c) (idx 0) (idx 1)) :=
  Cert.Gcn.KerHost2.ker_tail_eq m outs c (ssN m c) (sdN m c) (swt m c)
    (fun n => dinvArr_kdinv m outs h0 hidx c n)
    (fun j => ⟨(hidx c j).2.1, rfl⟩)
    (fun _ => rfl)
    (fun j => msg1_kspec m outs h0 hidx c 0 j)
    (fun n => out1_added m outs h1 hidx c n)
    (fun n f => out2_added m outs h2 hidx c f n)

private theorem toInt_range_of_toNat_lt (w : BitVec 32) (h : w.toNat < 100000) : 0 ≤ w.toInt ∧ w.toInt < 100000 := by
  rw [BitVec.toInt_eq_toNat_cond]
  split <;> omega

theorem sortedIdxOk_of_idxOk (h : Cert.KernelIdeal.Hand.IdxOk m) : SortedIdxOk m :=
  fun c j => ⟨toInt_range_of_toNat_lt _ (Cert.KernelIdeal.Hand.sdst_lt m h c j),
    toInt_range_of_toNat_lt _ (Cert.KernelIdeal.Hand.ssrc_lt m h c j)⟩

end Cert.KernelIdeal.HandValue

end
-- ==== Proof.KI.Bridge.lean ====
import proofs.«401711_j53747220742790_3_alg».proof.Proof.KI.HostInts
import proofs.«401711_j53747220742790_3_alg».proof.Proof.KI.KerHostDefs
import Idealize.ShloMosaic.Lib.IdealHost
import Idealize.ShloMosaic.PureOps.Ideal.Laws

set_option maxRecDepth 1288

noncomputable section

namespace Cert.KernelIdeal.HandValue

open Cert.KernelIdeal Cert.KernelIdeal.Gen
open Idealize.ShloMosaic Idealize.ShloMosaic.TcCoe
open Cert.Gcn

local notation "ix₀" => Idealize.ShloMosaic.ValueIdx.ix0
local notation "ix₁" => Idealize.ShloMosaic.ValueIdx.ix1
local notation "ix₂" => Idealize.ShloMosaic.ValueIdx.ix2

theorem nodeOf_ofNat (k : ℕ) (hk : k < 100000) : Spec.nodeOf (BitVec.ofNat 32 k) = ⟨k, hk⟩ := by
  unfold Spec.nodeOf
  refine Fin.ext ?_
  have hc := BitVec.toInt_eq_toNat_cond (BitVec.ofNat 32 k)
  rw [BitVec.toNat_ofNat] at hc
  have hm : k % 2 ^ 32 = k := Nat.mod_eq_of_lt (by omega)
  rw [hm] at hc
  split at hc <;> simp only <;> omega

theorem toInt_range_of_toNat_lt (x : BitVec 32) (h : x.toNat < 100000) : 0 ≤ x.toInt ∧ x.toInt < 100000 := by
  have hc := BitVec.toInt_eq_toNat_cond x
  split at hc <;> omega

theorem node_ext (row : Fin 3200000 → BitVec 32) (w : BitVec 32) (e : Fin 3300000)
    (hlo : ∀ he : e.val < 3200000, w = row ⟨e.val, he⟩)
    (hhi : 3200000 ≤ e.val → w = BitVec.ofNat 32 (e.val - 3200000)) : Spec.nodeOf w = Spec.extIdx row e := by
  unfold Spec.extIdx
  by_cases he : e.val < 3200000
  · rw [dif_pos he, hlo he]
  · rw [dif_neg he, hhi (by omega)]
    exact nodeOf_ofNat _ (by have := e.isLt; omega)

theorem wt_ext (ew : Fin 3200000 → EReal) (x : EReal) (e : Fin 3300000)
    (hlo : ∀ he : e.val < 3200000, x = ew ⟨e.val, he⟩) (hhi : 3200000 ≤ e.val → x = 1) : x = Spec.wtOf ew e := by
  unfold Spec.wtOf
  by_cases he : e.val < 3200000
  · rw [dif_pos he]; exact hlo he
  · rw [dif_neg he]; exact hhi (by omega)

variable (m : (ℓ : Loc nD τ sig) → Buf (Elt Ideal) ℓ)

abbrev eiArr (c : Dev nD) : S2x3200000.Idx → BitVec 32 := m ((c : Thread nD τ).loc main_arg1)

abbrev ewArr (c : Dev nD) : S3200000.Idx → EReal := m ((c : Thread nD τ).loc main_arg2)

theorem bridge (h : Hand.IdxOk (F := Ideal) m) (c : Dev nD) :
    ∃ σ : Equiv.Perm (Fin 3300000),
      (∀ j : Fin 3300000, ssN m c ⟨j.val, by omega⟩ = Spec.srcOf (fun r e => eiArr m c (ix₂ r e)) (σ j))
      ∧ (∀ j : Fin 3300000, sdN m c ⟨j.val, by omega⟩ = Spec.dstOf (fun r e => eiArr m c (ix₂ r e)) (σ j))
      ∧ (∀ j : Fin 3300000, swt m c ⟨j.val, by omega⟩ = Spec.wtOf (fun e => ewArr m c (ix₁ e)) (σ j))
      ∧ (∀ j : Fin 3301376, 3300000 ≤ j.val → swt m c j = 0) := by
  refine ⟨Hand.orderEquiv (F := Ideal) m c, ?_, ?_, ?_, ?_⟩
  · intro j
    show Spec.nodeOf (Hand.ssrc (F := Ideal) m c ⟨j.val, by omega⟩) = _
    rw [Hand.ssrc_lo (F := Ideal) m c ⟨j.val, by omega⟩ j.isLt]
    exact node_ext _ _ _ (fun he => Hand.srcf_lo (F := Ideal) m c _ he) (fun he => Hand.srcf_hi (F := Ideal) m c _ he)
  · intro j
    show Spec.nodeOf (Hand.sdst (F := Ideal) m c ⟨j.val, by omega⟩) = _
    rw [Hand.sdst_lo (F := Ideal) m c ⟨j.val, by omega⟩ j.isLt]
    exact node_ext _ _ _ (fun he => Hand.dstf_lo (F := Ideal) m c _ he) (fun he => Hand.dstf_hi (F := Ideal) m c _ he)
  · intro j
    show Hand.sw (F := Ideal) m c ⟨j.val, by omega⟩ = _
    rw [Hand.sw_lo (F := Ideal) m c ⟨j.val, by omega⟩ j.isLt]
    exact wt_ext _ _ _ (fun he => Hand.wf_lo (F := Ideal) m c _ he)
      (fun he => (Hand.wf_hi (F := Ideal) m c _ he).trans Ideal.ofBits_one_f32)
  · intro j hj
    show Hand.sw (F := Ideal) m c j = _
    rw [Hand.sw_hi (F := Ideal) m c j hj]
    exact Ideal.ofBits_zero_f32

theorem sortedIdxOk (h : Hand.IdxOk (F := Ideal) m) : SortedIdxOk m := by
  intro c j
  exact ⟨toInt_range_of_toNat_lt _ (Hand.sdst_lt (F := Ideal) m h c j),
    toInt_range_of_toNat_lt _ (Hand.ssrc_lt (F := Ideal) m h c j)⟩

end Cert.KernelIdeal.HandValue

end
-- ==== Proof.KI.OneHot.lean ====
import proofs.«401711_j53747220742790_3_alg».proof.Proof.Gen.KernelIdeal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandValue

open Cert.KernelIdeal Cert.KernelIdeal.Gen
open Idealize.ShloMosaic Idealize.ShloMosaic.ValueIdx Idealize.SL.Sem

theorem cmpi_eq_word {w : Nat} (a b : BitVec w) : IntOp.cmpi .eq a b = if a = b then 1#1 else 0#1 := by
  unfold IntOp.cmpi
  by_cases h : a = b
  · rw [if_pos h]; subst h
    show BitVec.ofBool (a == a) = 1#1
    rw [beq_self_eq_true]; rfl
  · rw [if_neg h]
    show BitVec.ofBool (a == b) = 0#1
    rw [beq_eq_false_iff_ne.mpr h]; rfl

theorem onehot_apply (v9 : BitVec 32) (v13 : IVec S128 32) (r : Fin 256) (k : Fin 128) :
    (sitofp .f32 (extui 32 (cmpi .eq (iota .tc S256x128 32 [0] iota_S256x128_d0_w32)
      (broadcastTo S256x128 (shapeCast S1x128 (subi v13 (broadcast S128 v9)) shapeCasts_S128_S1x128) broadcasts_S1x128_S256x128)) natLt_1_32) : FVec Ideal S256x128 .f32) (ValueIdx.ix2 r k)
      = if v13 (ValueIdx.ix1 k) - v9 = BitVec.ofNat 32 r.val then (1 : EReal) else 0 := by
  have h1 : iota .tc S256x128 32 [0] iota_S256x128_d0_w32 (ValueIdx.ix2 r k) = BitVec.ofNat 32 r.val :=
    iota_single_apply .tc S256x128 32 0 iota_S256x128_d0_w32 (ValueIdx.ix2 r k)
  have h2 : broadcastTo S256x128 (shapeCast S1x128 (subi v13 (broadcast S128 v9)) shapeCasts_S128_S1x128) broadcasts_S1x128_S256x128 (ValueIdx.ix2 r k) = v13 (ValueIdx.ix1 k) - v9 := by
    refine (broadcastTo_1b_ab_apply _ broadcasts_S1x128_S256x128 r k).trans ?_
    exact shapeCast_a_1a_apply _ shapeCasts_S128_S1x128 (0 : Fin 1) k
  show ((((IntOp.cmpi .eq (iota .tc S256x128 32 [0] iota_S256x128_d0_w32 (ValueIdx.ix2 r k))
      (broadcastTo S256x128 (shapeCast S1x128 (subi v13 (broadcast S128 v9)) shapeCasts_S128_S1x128) broadcasts_S1x128_S256x128 (ValueIdx.ix2 r k))).setWidth 32).toInt : ℝ) : EReal) = _
  rw [h1, h2, cmpi_eq_word]
  by_cases h : v13 (ValueIdx.ix1 k) - v9 = BitVec.ofNat 32 r.val
  · rw [if_pos h, if_pos h.symm]
    have : ((1#1 : BitVec 1).setWidth 32).toInt = 1 := by decide
    rw [this]; norm_cast
  · rw [if_neg h, if_neg (fun h' => h h'.symm)]
    have : ((0#1 : BitVec 1).setWidth 32).toInt = 0 := by decide
    rw [this]; norm_cast

end Cert.KernelIdeal.HandValue

end
-- ==== Proof.KI.WinIdeal.lean ====
import proofs.«401711_j53747220742790_3_alg».proof.Proof.Gen.KernelIdeal.Skeleton
import proofs.«401711_j53747220742790_3_alg».proof.Proof.KI.Body0
import proofs.«401711_j53747220742790_3_alg».proof.Proof.KI.OneHot
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandValue

open Cert.KernelIdeal Cert.KernelIdeal.Gen
open Idealize.ShloMosaic Idealize.ShloMosaic.ValueIdx Idealize.SL.Sem

theorem lhs_win_0 (i : S1x256.Idx) (q : dot_S1x128_S256x128_S1x256_1_1_0_0_n_n.contr.Idx) :
    (dot_S1x128_S256x128_S1x256_1_1_0_0_n_n.lhsIdx i q 0).val = (i 0).val := by
  unfold DotDims.lhsIdx
  rw [dif_neg (show ¬(0 : Fin S1x128.rank) ∈ dot_S1x128_S256x128_S1x256_1_1_0_0_n_n.lhsBatch by decide), dif_pos (show (0 : Fin S1x128.rank) ∈ dot_S1x128_S256x128_S1x256_1_1_0_0_n_n.lhsNonContracting by decide)]
  rfl

theorem lhs_win_1 (i : S1x256.Idx) (q : dot_S1x128_S256x128_S1x256_1_1_0_0_n_n.contr.Idx) :
    (dot_S1x128_S256x128_S1x256_1_1_0_0_n_n.lhsIdx i q 1).val = (q ⟨0, by decide⟩).val :=
  dot_S1x128_S256x128_S1x256_1_1_0_0_n_n.lhsIdx_val_of_single rfl i q

theorem rhs_win_0 (i : S1x256.Idx) (q : dot_S1x128_S256x128_S1x256_1_1_0_0_n_n.contr.Idx) :
    (dot_S1x128_S256x128_S1x256_1_1_0_0_n_n.rhsIdx i q 0).val = (i 1).val := by
  unfold DotDims.rhsIdx
  rw [dif_neg (show ¬(0 : Fin S256x128.rank) ∈ dot_S1x128_S256x128_S1x256_1_1_0_0_n_n.rhsBatch by decide), dif_pos (show (0 : Fin S256x128.rank) ∈ dot_S1x128_S256x128_S1x256_1_1_0_0_n_n.rhsNonContracting by decide)]
  rfl

theorem rhs_win_1 (i : S1x256.Idx) (q : dot_S1x128_S256x128_S1x256_1_1_0_0_n_n.contr.Idx) :
    (dot_S1x128_S256x128_S1x256_1_1_0_0_n_n.rhsIdx i q 1).val = (q ⟨0, by decide⟩).val :=
  dot_S1x128_S256x128_S1x256_1_1_0_0_n_n.rhsIdx_val_of_single rfl i q

theorem matmul_win_apply (l : FVec Ideal S1x128 .f32) (m : FVec Ideal S256x128 .f32) (f : Fin 1) (r : Fin 256) :
    matmul dot_S1x128_S256x128_S1x256_1_1_0_0_n_n none l m (constant (F := Ideal) S1x256 .f32 0x00000000#32) (ValueIdx.ix2 f r)
      = ∑ k : Fin 128, l (ValueIdx.ix2 f k) * m (ValueIdx.ix2 r k) := by
  simp only [matmul]
  rw [Ideal.matmul_constant_zero_apply, ← Equiv.sum_comp (ValueIdx.contrEquiv1 dot_S1x128_S256x128_S1x256_1_1_0_0_n_n 128 rfl rfl).symm]
  refine Finset.sum_congr rfl fun k _ => ?_
  have hk := ValueIdx.contrEquiv1_symm_val dot_S1x128_S256x128_S1x256_1_1_0_0_n_n 128 rfl rfl k
  have el : dot_S1x128_S256x128_S1x256_1_1_0_0_n_n.lhsIdx (ValueIdx.ix2 f r) ((ValueIdx.contrEquiv1 dot_S1x128_S256x128_S1x256_1_1_0_0_n_n 128 rfl rfl).symm k) = ValueIdx.ix2 f k := funext fun a => Fin.ext (by
    match a with
    | ⟨0, _⟩ => exact lhs_win_0 _ _
    | ⟨1, _⟩ => exact (lhs_win_1 _ _).trans hk)
  have er : dot_S1x128_S256x128_S1x256_1_1_0_0_n_n.rhsIdx (ValueIdx.ix2 f r) ((ValueIdx.contrEquiv1 dot_S1x128_S256x128_S1x256_1_1_0_0_n_n 128 rfl rfl).symm k) = ValueIdx.ix2 r k := funext fun a => Fin.ext (by
    match a with
    | ⟨0, _⟩ => exact rhs_win_0 _ _
    | ⟨1, _⟩ => exact (rhs_win_1 _ _).trans hk)
  rw [el, er]

theorem pay3_apply (v9 : BitVec 32) (v11 : FVec Ideal S1x128 .f32) (v13 : IVec S128 32) (v24 : FVec Ideal S1x256 .f32) (f : Fin 1) (r : Fin 256) :
    k0_pay3 (F := Ideal) v9 v11 v13 v24 (ValueIdx.ix2 f r)
      = v24 (ValueIdx.ix2 f r) + ∑ k : Fin 128, v11 (ValueIdx.ix2 f k) * (if v13 (ValueIdx.ix1 k) - v9 = BitVec.ofNat 32 r.val then (1 : EReal) else 0) := by
  unfold k0_pay3
  simp only [shapeCast_self]
  show v24 (ValueIdx.ix2 f r) + matmul dot_S1x128_S256x128_S1x256_1_1_0_0_n_n none v11 _ (constant (F := Ideal) S1x256 .f32 0x00000000#32) (ValueIdx.ix2 f r) = _
  refine congrArg (v24 (ValueIdx.ix2 f r) + ·) ((matmul_win_apply v11 _ f r).trans ?_)
  exact Finset.sum_congr rfl fun k _ => congrArg (v11 (ValueIdx.ix2 f k) * ·) (onehot_apply v9 v13 r k)

theorem pay3_window (v9 : BitVec 32) (v11 : FVec Ideal S1x128 .f32) (v13 : IVec S128 32) (v24 : FVec Ideal S1x256 .f32)
    (hwin : ∀ k : Fin 128, v9.toNat ≤ (v13 (ValueIdx.ix1 k)).toNat ∧ (v13 (ValueIdx.ix1 k)).toNat < v9.toNat + 256)
    (f : Fin 1) (n : ℕ) (hn : v9.toNat ≤ n ∧ n < v9.toNat + 256) :
    k0_pay3 (F := Ideal) v9 v11 v13 v24 (ValueIdx.ix2 f (⟨n - v9.toNat, by omega⟩ : Fin 256))
      = v24 (ValueIdx.ix2 f (⟨n - v9.toNat, by omega⟩ : Fin 256))
        + ∑ k : Fin 128, if (v13 (ValueIdx.ix1 k)).toNat = n then v11 (ValueIdx.ix2 f k) else 0 := by
  rw [pay3_apply]
  refine congrArg (v24 _ + ·) (Finset.sum_congr rfl fun k _ => ?_)
  have hk := hwin k
  have hb := v9.isLt
  have hd := (v13 (ValueIdx.ix1 k)).isLt
  have hiff : v13 (ValueIdx.ix1 k) - v9 = BitVec.ofNat 32 (n - v9.toNat) ↔ (v13 (ValueIdx.ix1 k)).toNat = n := by
    rw [← BitVec.toNat_inj]
    simp only [BitVec.toNat_sub, BitVec.toNat_ofNat]
    omega
  by_cases h : (v13 (ValueIdx.ix1 k)).toNat = n
  · rw [if_pos h, if_pos (hiff.mpr h), mul_one]
  · rw [if_neg h, if_neg (fun h' => h (hiff.mp h')), mul_zero]

theorem winUpd_window (base : BitVec 32) (msgc : FVec Ideal S1x128 .f32) (dstc : IVec S128 32) (cur : FVec Ideal S1x256 .f32)
    (hwin : ∀ k : Fin 128, base.toNat ≤ (dstc (ValueIdx.ix1 k)).toNat ∧ (dstc (ValueIdx.ix1 k)).toNat < base.toNat + 256)
    (f : Fin 1) (n : ℕ) (hn : base.toNat ≤ n ∧ n < base.toNat + 256) :
    Hand.winUpd (F := Ideal) base msgc dstc cur (ValueIdx.ix2 f (⟨n - base.toNat, by omega⟩ : Fin 256))
      = cur (ValueIdx.ix2 f (⟨n - base.toNat, by omega⟩ : Fin 256))
        + ∑ k : Fin 128, if (dstc (ValueIdx.ix1 k)).toNat = n then msgc (ValueIdx.ix2 f k) else 0 :=
  pay3_window base msgc dstc cur hwin f n hn

end Cert.KernelIdeal.HandValue

end
-- ==== Proof.KI.ScratchStep.lean ====
import proofs.«401711_j53747220742790_3_alg».proof.Proof.Gen.KernelIdeal
import Idealize.ShloMosaic.Lib.Pipeline.Value
import Idealize.ShloMosaic.Lib.ValueIdx
import Idealize.ShloMosaic.Lib.WritesUnit

noncomputable section

namespace Cert.KernelIdeal.HandValue

open Idealize.ShloMosaic Idealize.ShloMosaic.ValueIdx

section General

variable {sig : RefSig} {κ : Kind} {sp : Space} {e : EltTy} {Val : EltTy → Type} {R N W : ℕ}

theorem lane_le {off : Fin 2 → ℕ} {w : ℕ}
    (inb : ∀ a, off a + (![R, W] : Fin 2 → ℕ) a ≤ (⟨2, ![R, N]⟩ : Shape).size a) (hoff : off = ![0, w]) : w + W ≤ N := by
  subst hoff; exact inb 1

variable (v : View sig κ sp (⟨2, ![R, N]⟩ : Shape) e)

theorem read_writes_cons_window (f : v.ty.Contents Val) {off : Fin 2 → ℕ} {w : ℕ}
    (inb : ∀ a, off a + (![R, W] : Fin 2 → ℕ) a ≤ (⟨2, ![R, N]⟩ : Shape).size a)
    (pay : (Rect.unit (s := ⟨2, ![R, N]⟩) off ![R, W] inb).shape.Idx → Val e)
    (L : List (View.Piece Val (⟨2, ![R, N]⟩ : Shape) e)) (hoff : off = ![0, w]) (q : Fin R) (n : Fin N) :
    v.read Val (v.writes Val f ((⟨Rect.unit (s := ⟨2, ![R, N]⟩) off ![R, W] inb, pay⟩ : View.Piece Val _ e) :: L)) (ValueIdx.ix2 q n)
      = if h : w ≤ n.val ∧ n.val < w + W then pay (ValueIdx.ix2 q ⟨n.val - w, by omega⟩)
        else v.read Val (v.writes Val f L) (ValueIdx.ix2 q n) := by
  by_cases h : w ≤ n.val ∧ n.val < w + W
  · rw [dif_pos h]
    exact View.read_writes_cons_unit_of_mem v f inb pay L (ValueIdx.ix2 q n) (ValueIdx.ix2 q ⟨n.val - w, by omega⟩) hoff
      (Fin.forall_fin_two.mpr ⟨by show q.val = 0 + q.val; omega, by show n.val = w + (n.val - w); omega⟩)
  · rw [dif_neg h]
    exact View.read_writes_cons_unit_of_not_mem v f inb pay L (ValueIdx.ix2 q n) hoff 1
      (by show n.val < w ∨ w + W ≤ n.val; omega)

theorem readAt_window (g : v.ty.Contents Val) {off : Fin 2 → ℕ} {w : ℕ}
    (inb : ∀ a, off a + (![R, W] : Fin 2 → ℕ) a ≤ (⟨2, ![R, N]⟩ : Shape).size a) (hoff : off = ![0, w])
    (q : Fin R) (r : Fin W) :
    v.readAt Val (Rect.unit (s := ⟨2, ![R, N]⟩) off ![R, W] inb).toLoadRect g (ValueIdx.ix2 q r)
      = v.read Val g (ValueIdx.ix2 q ⟨w + r.val, Nat.lt_of_lt_of_le (Nat.add_lt_add_left r.isLt w) (lane_le inb hoff)⟩) := by
  subst hoff
  rw [View.readAt_apply]
  refine congrArg (v.read Val g) (funext fun a => Fin.ext ?_)
  match a with
  | ⟨0, _⟩ => show 0 + 1 * q.val = q.val; omega
  | ⟨1, _⟩ => show w + 1 * r.val = w + r.val; omega

theorem read_writes_cons_window_step (f : v.ty.Contents Val) {off : Fin 2 → ℕ} {w : ℕ}
    (inb : ∀ a, off a + (![R, W] : Fin 2 → ℕ) a ≤ (⟨2, ![R, N]⟩ : Shape).size a)
    (pay : (Rect.unit (s := ⟨2, ![R, N]⟩) off ![R, W] inb).shape.Idx → Val e)
    (L : List (View.Piece Val (⟨2, ![R, N]⟩ : Shape) e)) (hoff : off = ![0, w])
    (step : Fin R → Fin W → Val e → Val e)
    (hpay : ∀ (q : Fin R) (r : Fin W), pay (ValueIdx.ix2 q r)
      = step q r (v.readAt Val (Rect.unit (s := ⟨2, ![R, N]⟩) off ![R, W] inb).toLoadRect (v.writes Val f L) (ValueIdx.ix2 q r)))
    (q : Fin R) (n : Fin N) :
    v.read Val (v.writes Val f ((⟨Rect.unit (s := ⟨2, ![R, N]⟩) off ![R, W] inb, pay⟩ : View.Piece Val _ e) :: L)) (ValueIdx.ix2 q n)
      = if h : w ≤ n.val ∧ n.val < w + W then step q ⟨n.val - w, by omega⟩ (v.read Val (v.writes Val f L) (ValueIdx.ix2 q n))
        else v.read Val (v.writes Val f L) (ValueIdx.ix2 q n) := by
  rw [read_writes_cons_window v f inb pay L hoff q n]
  by_cases h : w ≤ n.val ∧ n.val < w + W
  · rw [dif_pos h, dif_pos h, hpay, readAt_window v _ inb hoff]
    exact congrArg (fun k : Fin N => step q ⟨n.val - w, by omega⟩ (v.read Val (v.writes Val f L) (ValueIdx.ix2 q k)))
      (Fin.ext (by show w + (n.val - w) = n.val; omega))
  · rw [dif_neg h, dif_neg h]

def accFold (X0 : Fin R → Fin N → Val e) : List (ℕ × (Fin R → Fin W → Val e → Val e)) → Fin R → Fin N → Val e
  | [] => X0
  | (w, st) :: T => fun q n =>
      if h : w ≤ n.val ∧ n.val < w + W then st q ⟨n.val - w, by omega⟩ (accFold X0 T q n) else accFold X0 T q n

theorem accFold_cons (X0 : Fin R → Fin N → Val e) (w : ℕ) (st : Fin R → Fin W → Val e → Val e)
    (T : List (ℕ × (Fin R → Fin W → Val e → Val e))) (q : Fin R) (n : Fin N) :
    accFold X0 ((w, st) :: T) q n
      = if h : w ≤ n.val ∧ n.val < w + W then st q ⟨n.val - w, by omega⟩ (accFold X0 T q n) else accFold X0 T q n := rfl

inductive Chain (f : v.ty.Contents Val) :
    List (View.Piece Val (⟨2, ![R, N]⟩ : Shape) e) → List (ℕ × (Fin R → Fin W → Val e → Val e)) → Prop
  | nil : Chain f [] []
  | cons {off : Fin 2 → ℕ} {w : ℕ} (inb : ∀ a, off a + (![R, W] : Fin 2 → ℕ) a ≤ (⟨2, ![R, N]⟩ : Shape).size a)
      (pay : (Rect.unit (s := ⟨2, ![R, N]⟩) off ![R, W] inb).shape.Idx → Val e)
      {L : List (View.Piece Val (⟨2, ![R, N]⟩ : Shape) e)} {T : List (ℕ × (Fin R → Fin W → Val e → Val e))}
      (st : Fin R → Fin W → Val e → Val e) (hoff : off = ![0, w])
      (hpay : ∀ (q : Fin R) (r : Fin W), pay (ValueIdx.ix2 q r)
        = st q r (v.readAt Val (Rect.unit (s := ⟨2, ![R, N]⟩) off ![R, W] inb).toLoadRect (v.writes Val f L) (ValueIdx.ix2 q r)))
      (hL : Chain f L T) :
      Chain f ((⟨Rect.unit (s := ⟨2, ![R, N]⟩) off ![R, W] inb, pay⟩ : View.Piece Val _ e) :: L) ((w, st) :: T)

end General

section Shapes

open Cert.KernelIdeal

variable {sig : RefSig} {κ : Kind} {sp : Space} {e : EltTy} {Val : EltTy → Type}

theorem read_writes_cons_S1 (v : View sig κ sp S1x100096 e) (f : v.ty.Contents Val) {off : Fin 2 → ℕ} {w : ℕ}
    (inb : ∀ a, off a + S1x256.size a ≤ S1x100096.size a)
    (pay : (Rect.unit (s := S1x100096) off S1x256.size inb).shape.Idx → Val e)
    (L : List (View.Piece Val S1x100096 e)) (hoff : off = ![0, w]) (q : Fin 1) (n : Fin 100096) :
    v.read Val (v.writes Val f ((⟨Rect.unit (s := S1x100096) off S1x256.size inb, pay⟩ : View.Piece Val _ e) :: L)) (ValueIdx.ix2 q n)
      = if h : w ≤ n.val ∧ n.val < w + 256 then pay (ValueIdx.ix2 q ⟨n.val - w, by omega⟩)
        else v.read Val (v.writes Val f L) (ValueIdx.ix2 q n) :=
  read_writes_cons_window (R := 1) (N := 100096) (W := 256) v f inb pay L hoff q n

theorem readAt_S1 (v : View sig κ sp S1x100096 e) (g : v.ty.Contents Val) {off : Fin 2 → ℕ} {w : ℕ}
    (inb : ∀ a, off a + S1x256.size a ≤ S1x100096.size a) (hoff : off = ![0, w]) (q : Fin 1) (r : Fin 256) :
    v.readAt Val (Rect.unit (s := S1x100096) off S1x256.size inb).toLoadRect g (ValueIdx.ix2 q r)
      = v.read Val g (ValueIdx.ix2 q ⟨w + r.val,
          Nat.lt_of_lt_of_le (Nat.add_lt_add_left r.isLt w) (lane_le (R := 1) (N := 100096) (W := 256) inb hoff)⟩) :=
  readAt_window (R := 1) (N := 100096) (W := 256) v g inb hoff q r

theorem read_writes_cons_step_S1 (v : View sig κ sp S1x100096 e) (f : v.ty.Contents Val) {off : Fin 2 → ℕ} {w : ℕ}
    (inb : ∀ a, off a + S1x256.size a ≤ S1x100096.size a)
    (pay : (Rect.unit (s := S1x100096) off S1x256.size inb).shape.Idx → Val e)
    (L : List (View.Piece Val S1x100096 e)) (hoff : off = ![0, w])
    (step : Fin 1 → Fin 256 → Val e → Val e)
    (hpay : ∀ (q : Fin 1) (r : Fin 256), pay (ValueIdx.ix2 q r)
      = step q r (v.readAt Val (Rect.unit (s := S1x100096) off S1x256.size inb).toLoadRect (v.writes Val f L) (ValueIdx.ix2 q r)))
    (q : Fin 1) (n : Fin 100096) :
    v.read Val (v.writes Val f ((⟨Rect.unit (s := S1x100096) off S1x256.size inb, pay⟩ : View.Piece Val _ e) :: L)) (ValueIdx.ix2 q n)
      = if h : w ≤ n.val ∧ n.val < w + 256 then step q ⟨n.val - w, by omega⟩ (v.read Val (v.writes Val f L) (ValueIdx.ix2 q n))
        else v.read Val (v.writes Val f L) (ValueIdx.ix2 q n) :=
  read_writes_cons_window_step (R := 1) (N := 100096) (W := 256) v f inb pay L hoff step hpay q n

theorem read_writes_cons_S2 (v : View sig κ sp S2x100096 e) (f : v.ty.Contents Val) {off : Fin 2 → ℕ} {w : ℕ}
    (inb : ∀ a, off a + S2x256.size a ≤ S2x100096.size a)
    (pay : (Rect.unit (s := S2x100096) off S2x256.size inb).shape.Idx → Val e)
    (L : List (View.Piece Val S2x100096 e)) (hoff : off = ![0, w]) (q : Fin 2) (n : Fin 100096) :
    v.read Val (v.writes Val f ((⟨Rect.unit (s := S2x100096) off S2x256.size inb, pay⟩ : View.Piece Val _ e) :: L)) (ValueIdx.ix2 q n)
      = if h : w ≤ n.val ∧ n.val < w + 256 then pay (ValueIdx.ix2 q ⟨n.val - w, by omega⟩)
        else v.read Val (v.writes Val f L) (ValueIdx.ix2 q n) :=
  read_writes_cons_window (R := 2) (N := 100096) (W := 256) v f inb pay L hoff q n

theorem readAt_S2 (v : View sig κ sp S2x100096 e) (g : v.ty.Contents Val) {off : Fin 2 → ℕ} {w : ℕ}
    (inb : ∀ a, off a + S2x256.size a ≤ S2x100096.size a) (hoff : off = ![0, w]) (q : Fin 2) (r : Fin 256) :
    v.readAt Val (Rect.unit (s := S2x100096) off S2x256.size inb).toLoadRect g (ValueIdx.ix2 q r)
      = v.read Val g (ValueIdx.ix2 q ⟨w + r.val,
          Nat.lt_of_lt_of_le (Nat.add_lt_add_left r.isLt w) (lane_le (R := 2) (N := 100096) (W := 256) inb hoff)⟩) :=
  readAt_window (R := 2) (N := 100096) (W := 256) v g inb hoff q r

theorem read_writes_cons_step_S2 (v : View sig κ sp S2x100096 e) (f : v.ty.Contents Val) {off : Fin 2 → ℕ} {w : ℕ}
    (inb : ∀ a, off a + S2x256.size a ≤ S2x100096.size a)
    (pay : (Rect.unit (s := S2x100096) off S2x256.size inb).shape.Idx → Val e)
    (L : List (View.Piece Val S2x100096 e)) (hoff : off = ![0, w])
    (step : Fin 2 → Fin 256 → Val e → Val e)
    (hpay : ∀ (q : Fin 2) (r : Fin 256), pay (ValueIdx.ix2 q r)
      = step q r (v.readAt Val (Rect.unit (s := S2x100096) off S2x256.size inb).toLoadRect (v.writes Val f L) (ValueIdx.ix2 q r)))
    (q : Fin 2) (n : Fin 100096) :
    v.read Val (v.writes Val f ((⟨Rect.unit (s := S2x100096) off S2x256.size inb, pay⟩ : View.Piece Val _ e) :: L)) (ValueIdx.ix2 q n)
      = if h : w ≤ n.val ∧ n.val < w + 256 then step q ⟨n.val - w, by omega⟩ (v.read Val (v.writes Val f L) (ValueIdx.ix2 q n))
        else v.read Val (v.writes Val f L) (ValueIdx.ix2 q n) :=
  read_writes_cons_window_step (R := 2) (N := 100096) (W := 256) v f inb pay L hoff step hpay q n

alias read_writes_cons_S1x100096 := read_writes_cons_S1
alias readAt_S1x100096 := readAt_S1
alias read_writes_cons_step_S1x100096 := read_writes_cons_step_S1
alias read_writes_cons_S2x100096 := read_writes_cons_S2
alias readAt_S2x100096 := readAt_S2
alias read_writes_cons_step_S2x100096 := read_writes_cons_step_S2

end Shapes

end Cert.KernelIdeal.HandValue

end
-- ==== Proof.KI.Body0Fold.lean ====
import proofs.«401711_j53747220742790_3_alg».proof.Proof.KI.Body0
import proofs.«401711_j53747220742790_3_alg».proof.Proof.KI.Body0Cover
import proofs.«401711_j53747220742790_3_alg».proof.Proof.KI.ScratchStep
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.HandValue

variable {F : FTy → Type} [FloatOps F]
variable {Ix : Type} [DecidableEq Ix] {U : Type} [URA U] {Lvl : Type} [Preorder Lvl]

local notation "𝕄" => MT nD τ sig Ix (Elt F) ℕ U Lvl

theorem lanes_lt {w : ℕ} (hw : w + 256 ≤ 100096) (r : Fin 256) : w + r.val < 100096 := by
  have := r.isLt; omega

theorem lane_sub_lt {w n : ℕ} (h : w ≤ n ∧ n < w + 256) : n - w < 256 := by omega

theorem lane_le_S1x100096 {off : Fin 2 → ℕ} {w : ℕ} (inb : ∀ a, off a + S1x256.size a ≤ S1x100096.size a)
    (hoff : off = ![0, w]) : w + 256 ≤ 100096 := by
  subst hoff; exact inb 1

def lanesAt (w : ℕ) (hw : w + 256 ≤ 100096) (S : Vec F S1x100096 .f32) : Vec F S1x256 .f32 :=
  fun j => S (ValueIdx.ix2 (j 0) ⟨w + (j 1).val, lanes_lt hw (j 1)⟩)

def winStep (w : BitVec 32) (hw : w.toNat + 256 ≤ 100096) (msgc : Vec F S1x128 .f32) (dstc : Vec F S128 .i32)
    (S : Vec F S1x100096 .f32) : Vec F S1x100096 .f32 :=
  fun y => if h : w.toNat ≤ (y 1).val ∧ (y 1).val < w.toNat + 256 then
      winUpd w msgc dstc (lanesAt w.toNat hw S) (ValueIdx.ix2 (y 0) ⟨(y 1).val - w.toNat, lane_sub_lt h⟩)
    else S y

theorem winStep_apply (w : BitVec 32) (hw : w.toNat + 256 ≤ 100096) (msgc : Vec F S1x128 .f32) (dstc : Vec F S128 .i32)
    (S : Vec F S1x100096 .f32) (f : Fin 1) (n : Fin 100096) :
    winStep w hw msgc dstc S (ValueIdx.ix2 f n)
      = if h : w.toNat ≤ n.val ∧ n.val < w.toNat + 256 then
          winUpd w msgc dstc (lanesAt w.toNat hw S) (ValueIdx.ix2 f ⟨n.val - w.toNat, lane_sub_lt h⟩)
        else S (ValueIdx.ix2 f n) := rfl

section Step

variable {sig : RefSig} {κ : Kind} {sp : Space}

theorem readAt_eq_lanesAt (v : View sig κ sp S1x100096 .f32) (g : v.ty.Contents (Elt F)) {off : Fin 2 → ℕ} {w : ℕ}
    (inb : ∀ a, off a + S1x256.size a ≤ S1x100096.size a) (hoff : off = ![0, w]) :
    v.readAt (Elt F) (Rect.unit (s := S1x100096) off S1x256.size inb).toLoadRect g
      = lanesAt w (lane_le_S1x100096 inb hoff) (v.read (Elt F) g) := by
  funext j
  obtain ⟨f, r, rfl⟩ : ∃ (f : Fin 1) (r : Fin 256), j = ValueIdx.ix2 f r := ⟨j 0, j 1, ValueIdx.eq_ix2 j⟩
  exact readAt_window v g inb hoff f r

theorem read_writes_cons_winStep (v : View sig κ sp S1x100096 .f32) (g : v.ty.Contents (Elt F)) {off : Fin 2 → ℕ}
    (inb : ∀ a, off a + S1x256.size a ≤ S1x100096.size a) (L : List (View.Piece (Elt F) S1x100096 .f32))
    (w : BitVec 32) (hoff : off = ![0, w.toNat]) (msgc : Vec F S1x128 .f32) (dstc : Vec F S128 .i32) :
    v.read (Elt F) (v.writes (Elt F) g
        ((⟨Rect.unit (s := S1x100096) off S1x256.size inb,
            winUpd w msgc dstc (v.readAt (Elt F) (Rect.unit (s := S1x100096) off S1x256.size inb).toLoadRect (v.writes (Elt F) g L))⟩
          : View.Piece (Elt F) S1x100096 .f32) :: L))
      = winStep w (lane_le_S1x100096 inb hoff) msgc dstc (v.read (Elt F) (v.writes (Elt F) g L)) := by
  funext y
  obtain ⟨f, n, rfl⟩ : ∃ (f : Fin 1) (n : Fin 100096), y = ValueIdx.ix2 f n := ⟨y 0, y 1, ValueIdx.eq_ix2 y⟩
  rw [read_writes_cons_window v g inb _ L hoff f n, winStep_apply, readAt_eq_lanesAt v _ inb hoff]

end Step

def tblIdx (i : grid0.Coords) (s : Fin 32) : Fin 25792 :=
  ⟨(i 0).val * 12896 + (i 1).val * 32 + s.val, by
    have h0 : (i 0).val < 2 := (i 0).isLt
    have h1 : (i 1).val < 403 := (i 1).isLt
    have := s.isLt
    omega⟩

def winWord (i : grid0.Coords) (x2 : Vec F S25792 .i32) (s : Fin 32) : BitVec 32 := x2 (ValueIdx.ix1 (tblIdx i s))

theorem chunk_lt (s : Fin 32) (r : Fin 128) : 128 * s.val + r.val < 4096 := by
  have := s.isLt; have := r.isLt; omega

def msgChunk (x3 : Vec F S1x4096 .f32) (s : Fin 32) : Vec F S1x128 .f32 :=
  fun j => x3 (ValueIdx.ix2 (j 0) ⟨128 * s.val + (j 1).val, chunk_lt s (j 1)⟩)

def dstChunk (x4 : Vec F S4096 .i32) (s : Fin 32) : Vec F S128 .i32 :=
  fun j => x4 (ValueIdx.ix1 ⟨128 * s.val + (j 0).val, chunk_lt s (j 0)⟩)

theorem tbl_toNat (a b k : ℕ) (ha : a < 2) (hb : b < 403) (hk : k < 32) :
    (Scalar.indexCast (Scalar.addi (Scalar.addi (Scalar.muli (BitVec.ofNat 32 a) 12896#32)
      (Scalar.muli (BitVec.ofNat 32 b) 32#32)) (BitVec.ofNat 32 k))).toNat = a * 12896 + b * 32 + k := by
  simp only [Scalar.indexCast, Scalar.addi, Scalar.muli, IntOp.addi, IntOp.muli, BitVec.toNat_add, BitVec.toNat_mul,
    BitVec.toNat_ofNat]
  omega

theorem tbl_toNat_at (i : grid0.Coords) (s : Fin 32) :
    (Scalar.indexCast (Scalar.addi (Scalar.addi (Scalar.muli (BitVec.ofNat 32 (i 0).val) 12896#32)
      (Scalar.muli (BitVec.ofNat 32 (i 1).val) 32#32)) (BitVec.ofNat 32 s.val))).toNat = (tblIdx i s).val :=
  tbl_toNat (i 0).val (i 1).val s.val (i 0).isLt (i 1).isLt s.isLt

section Reads

variable (arg2 : Memref sig .tc .smem S25792 .i32) (harg2 : arg2.IsWhole) (x2 : Vec F S25792 .i32)
  (arg3 : Memref sig .tc .vmem S1x4096 .f32) (harg3 : arg3.IsWhole) (x3 : Vec F S1x4096 .f32)
  (arg4 : Memref sig .tc .vmem S4096 .i32) (harg4 : arg4.IsWhole) (x4 : Vec F S4096 .i32)

abbrev rdWord (off : Fin 1 → ℕ) (inb : ∀ a, off a + S1.size a ≤ S25792.size a) : Elt F .i32 :=
  arg2.view.readAt (Elt F) (Rect.unit (s := S25792) off S1.size inb).toLoadRect (harg2.unread x2)
    (Shape.Idx.first (numel1_S1.symm ▸ Nat.one_pos))

abbrev rdMsg (off : Fin 2 → ℕ) (inb : ∀ a, off a + S1x128.size a ≤ S1x4096.size a) : Vec F S1x128 .f32 :=
  arg3.view.readAt (Elt F) (Rect.unit (s := S1x4096) off S1x128.size inb).toLoadRect (harg3.unread x3)

abbrev rdDst (off : Fin 1 → ℕ) (inb : ∀ a, off a + S128.size a ≤ S4096.size a) : Vec F S128 .i32 :=
  arg4.view.readAt (Elt F) (Rect.unit (s := S4096) off S128.size inb).toLoadRect (harg4.unread x4)

theorem rdWord_eq (off : Fin 1 → ℕ) (inb : ∀ a, off a + S1.size a ≤ S25792.size a) (i : grid0.Coords) (s : Fin 32)
    (ho : off 0 = (tblIdx i s).val) : rdWord arg2 harg2 x2 off inb = winWord i x2 s := by
  unfold rdWord winWord
  rw [harg2.readAt_unread x2]
  refine congrArg x2 (funext fun a => Fin.ext ?_)
  match a with
  | ⟨0, _⟩ => show off 0 + 1 * 0 = (tblIdx i s).val; omega

theorem rdMsg_eq (off : Fin 2 → ℕ) (inb : ∀ a, off a + S1x128.size a ≤ S1x4096.size a) (s : Fin 32)
    (ho : off = ![0, 128 * s.val]) : rdMsg arg3 harg3 x3 off inb = msgChunk x3 s := by
  subst ho
  funext j
  unfold rdMsg msgChunk
  rw [harg3.readAt_unread x3]
  refine congrArg x3 (funext fun a => Fin.ext ?_)
  match a with
  | ⟨0, _⟩ => show 0 + 1 * (j 0).val = (j 0).val; omega
  | ⟨1, _⟩ => show 128 * s.val + 1 * (j 1).val = 128 * s.val + (j 1).val; omega

theorem rdDst_eq (off : Fin 1 → ℕ) (inb : ∀ a, off a + S128.size a ≤ S4096.size a) (s : Fin 32)
    (ho : off = ![128 * s.val]) : rdDst arg4 harg4 x4 off inb = dstChunk x4 s := by
  subst ho
  funext j
  unfold rdDst dstChunk
  rw [harg4.readAt_unread x4]
  refine congrArg x4 (funext fun a => Fin.ext ?_)
  match a with
  | ⟨0, _⟩ => show 128 * s.val + 1 * (j 0).val = 128 * s.val + (j 0).val; omega

end Reads

def winFoldN (i : grid0.Coords) (x2 : Vec F S25792 .i32) (x3 : Vec F S1x4096 .f32) (x4 : Vec F S4096 .i32)
    (hw : ∀ s : Fin 32, (winWord i x2 s).toNat + 256 ≤ 100096) :
    (t : ℕ) → t ≤ 32 → Vec F S1x100096 .f32 → Vec F S1x100096 .f32
  | 0, _, S => S
  | t + 1, h, S =>
    winStep (winWord i x2 ⟨t, h⟩) (hw ⟨t, h⟩) (msgChunk x3 ⟨t, h⟩) (dstChunk x4 ⟨t, h⟩)
      (winFoldN i x2 x3 x4 hw t (Nat.le_of_succ_le h) S)

def pointStep (i : grid0.Coords) (x2 : Vec F S25792 .i32) (x3 : Vec F S1x4096 .f32) (x4 : Vec F S4096 .i32)
    (hw : ∀ s : Fin 32, (winWord i x2 s).toNat + 256 ≤ 100096) (S : Vec F S1x100096 .f32) : Vec F S1x100096 .f32 :=
  winFoldN i x2 x3 x4 hw 32 (Nat.le_refl 32) S

theorem winFoldN_succ (i : grid0.Coords) (x2 : Vec F S25792 .i32) (x3 : Vec F S1x4096 .f32) (x4 : Vec F S4096 .i32)
    (hw : ∀ s : Fin 32, (winWord i x2 s).toNat + 256 ≤ 100096) (t : ℕ) (h : t + 1 ≤ 32) (S : Vec F S1x100096 .f32) :
    winFoldN i x2 x3 x4 hw (t + 1) h S
      = winStep (winWord i x2 ⟨t, h⟩) (hw ⟨t, h⟩) (msgChunk x3 ⟨t, h⟩) (dstChunk x4 ⟨t, h⟩)
          (winFoldN i x2 x3 x4 hw t (Nat.le_of_succ_le h) S) := rfl

theorem fold_step {R S S' : Vec F S1x100096 .f32} {w w' : BitVec 32} {hw : w.toNat + 256 ≤ 100096}
    {hw' : w'.toNat + 256 ≤ 100096} {m m' : Vec F S1x128 .f32} {d d' : Vec F S128 .i32}
    (h : R = winStep w hw m d S) (ew : w = w') (em : m = m') (ed : d = d') (eS : S = S') :
    R = winStep w' hw' m' d' S' := by
  subst ew em ed eS; exact h

section Chain

variable (arg2 : Memref sig .tc .smem S25792 .i32) (harg2 : arg2.IsWhole) (x2 : Vec F S25792 .i32)
  (arg3 : Memref sig .tc .vmem S1x4096 .f32) (harg3 : arg3.IsWhole) (x3 : Vec F S1x4096 .f32)
  (arg4 : Memref sig .tc .vmem S4096 .i32) (harg4 : arg4.IsWhole) (x4 : Vec F S4096 .i32)
  {κ : Kind} {sp : Space} (v : View sig κ sp S1x100096 .f32) (g : v.ty.Contents (Elt F)) (i : grid0.Coords)
  (hw : ∀ s : Fin 32, (winWord i x2 s).toNat + 256 ≤ 100096)

-- Where window s's base word sits in the table, in the word arithmetic the body computes it with.
def wOff (i : grid0.Coords) (s : Fin 32) : Fin 1 → ℕ :=
  ![(Scalar.indexCast (Scalar.addi (Scalar.addi (Scalar.muli (BitVec.ofNat 32 (i 0).val) 12896#32)
      (Scalar.muli (BitVec.ofNat 32 (i 1).val) 32#32)) (BitVec.ofNat 32 s.val))).toNat]

theorem wOff_inb (i : grid0.Coords) (s : Fin 32) : ∀ a, wOff i s a + S1.size a ≤ S25792.size a := fun a => by
  have h := (tblIdx i s).isLt
  rw [← tbl_toNat_at i s] at h
  fin_cases a; exact h

theorem mOff_inb (s : Fin 32) : ∀ a, (![0, 128 * s.val] : Fin 2 → ℕ) a + S1x128.size a ≤ S1x4096.size a := fun a => by
  have := s.isLt
  fin_cases a
  · exact Nat.le_refl _
  · show 128 * s.val + 128 ≤ 4096; omega

theorem dOff_inb (s : Fin 32) : ∀ a, (![128 * s.val] : Fin 1 → ℕ) a + S128.size a ≤ S4096.size a := fun a => by
  have := s.isLt
  fin_cases a; show 128 * s.val + 128 ≤ 4096; omega

include hw in
theorem win_inb (s : Fin 32) : ∀ a, (![0, (rdWord arg2 harg2 x2 (wOff i s) (wOff_inb i s)).toNat] : Fin 2 → ℕ) a
    + S1x256.size a ≤ S1x100096.size a := fun a => by
  have h := hw s
  rw [← rdWord_eq arg2 harg2 x2 _ (wOff_inb i s) i s (tbl_toNat_at i s)] at h
  fin_cases a
  · exact Nat.le_refl _
  · exact h

-- The first t window stores of a point, newest first, on top of the stores L0: window s loads its base word, its two chunks
-- and its 256 lanes as the earlier stores left them, and stores the updated lanes.
def winPieces (L0 : List (View.Piece (Elt F) S1x100096 .f32)) :
    (t : ℕ) → t ≤ 32 → List (View.Piece (Elt F) S1x100096 .f32)
  | 0, _ => L0
  | t + 1, h =>
    (⟨Rect.unit (s := S1x100096) _ S1x256.size (win_inb arg2 harg2 x2 i hw ⟨t, h⟩),
      winUpd (rdWord arg2 harg2 x2 _ (wOff_inb i ⟨t, h⟩)) (rdMsg arg3 harg3 x3 _ (mOff_inb ⟨t, h⟩)) (rdDst arg4 harg4 x4 _ (dOff_inb ⟨t, h⟩))
        (v.readAt (Elt F) (Rect.unit (s := S1x100096) _ S1x256.size (win_inb arg2 harg2 x2 i hw ⟨t, h⟩)).toLoadRect
          (v.writes (Elt F) g (winPieces L0 t (Nat.le_of_succ_le h))))⟩ : View.Piece (Elt F) S1x100096 .f32)
      :: winPieces L0 t (Nat.le_of_succ_le h)

-- Read back, the first t window stores are the first t window steps of what the stores under them left.
theorem read_winPieces (L0 : List (View.Piece (Elt F) S1x100096 .f32)) : ∀ (t : ℕ) (h : t ≤ 32),
    v.read (Elt F) (v.writes (Elt F) g (winPieces arg2 harg2 x2 arg3 harg3 x3 arg4 harg4 x4 v g i hw L0 t h))
      = winFoldN i x2 x3 x4 hw t h (v.read (Elt F) (v.writes (Elt F) g L0))
  | 0, _ => rfl
  | t + 1, h =>
    fold_step (read_writes_cons_winStep v g _ _ _ rfl _ _) (rdWord_eq arg2 harg2 x2 _ _ i ⟨t, h⟩ (tbl_toNat_at i ⟨t, h⟩))
      (rdMsg_eq arg3 harg3 x3 _ _ ⟨t, h⟩ rfl) (rdDst_eq arg4 harg4 x4 _ _ ⟨t, h⟩ rfl)
      (read_winPieces L0 t (Nat.le_of_succ_le h))

end Chain

section Whole

variable {sig : RefSig} {κ : Kind} {sp : Space}

theorem read_writes_whole (v : View sig κ sp S1x100096 .f32) (g : v.ty.Contents (Elt F)) (p : Vec F S1x100096 .f32) :
    v.read (Elt F) (v.writes (Elt F) g
        [(⟨Rect.unit (s := S1x100096) ![0, 0] S1x100096.size inb_S1x100096_S1x100096_0_0, p⟩ : View.Piece (Elt F) S1x100096 .f32)])
      = p := by
  funext y
  refine View.read_writes_cons_unit_of_mem v g inb_S1x100096_S1x100096_0_0 p [] y y rfl fun a => ?_
  match a with
  | ⟨0, _⟩ => show (y 0).val = 0 + (y 0).val; omega
  | ⟨1, _⟩ => show (y 1).val = 0 + (y 1).val; omega

theorem readAt_whole (v : View sig κ sp S1x100096 .f32) (g : v.ty.Contents (Elt F)) :
    v.readAt (Elt F) (Rect.unit (s := S1x100096) ![0, 0] S1x100096.size inb_S1x100096_S1x100096_0_0).toLoadRect g
      = v.read (Elt F) g := by
  funext y
  rw [View.readAt_apply]
  refine congrArg (v.read (Elt F) g) (funext fun a => Fin.ext ?_)
  match a with
  | ⟨0, _⟩ => show 0 + 1 * (y 0).val = (y 0).val; omega
  | ⟨1, _⟩ => show 0 + 1 * (y 1).val = (y 1).val; omega

end Whole

set_option maxHeartbeats 1000000 in

theorem read_scratch0_B (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond0_0 i) (hc1 : ¬cond0_1 i)
    (x2 : Vec F S25792 .i32) (x3 : Vec F S1x4096 .f32) (x4 : Vec F S4096 .i32) (xs : Vec F S1x100096 .f32)
    (hks : Hw0 i arg2 harg2 x2)
    (hw : ∀ s : Fin 32, (winWord i x2 s).toNat + 256 ≤ 100096) :
    arg6.view.read (Elt F) (arg6.view.writes (Elt F) (harg6.unread xs)
        (kernelRun0_B (Ix := Ix) (U := U) (Lvl := Lvl) 𝒱₀ c i arg2 harg2 arg3 harg3 arg4 harg4 arg5 harg5 arg6 harg6 hc0 hc1 x2 x3 x4 xs hks).1)
      = pointStep i x2 x3 x4 hw xs :=
  (read_winPieces arg2 harg2 x2 arg3 harg3 x3 arg4 harg4 x4 arg6.view (harg6.unread xs) i hw [] 32 (Nat.le_refl 32)).trans
    (congrArg (winFoldN i x2 x3 x4 hw 32 (Nat.le_refl 32)) (harg6.read_unread xs))

set_option maxHeartbeats 1000000 in

theorem read_scratch0_C (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond0_0 i) (hc1 : cond0_1 i)
    (x2 : Vec F S25792 .i32) (x3 : Vec F S1x4096 .f32) (x4 : Vec F S4096 .i32) (xs : Vec F S1x100096 .f32)
    (hks : Hw0 i arg2 harg2 x2)
    (hw : ∀ s : Fin 32, (winWord i x2 s).toNat + 256 ≤ 100096) :
    arg6.view.read (Elt F) (arg6.view.writes (Elt F) (harg6.unread xs)
        (kernelRun0_C (Ix := Ix) (U := U) (Lvl := Lvl) 𝒱₀ c i arg2 harg2 arg3 harg3 arg4 harg4 arg5 harg5 arg6 harg6 hc0 hc1 x2 x3 x4 xs hks).2.1)
      = pointStep i x2 x3 x4 hw xs :=
  (read_winPieces arg2 harg2 x2 arg3 harg3 x3 arg4 harg4 x4 arg6.view (harg6.unread xs) i hw [] 32 (Nat.le_refl 32)).trans
    (congrArg (winFoldN i x2 x3 x4 hw 32 (Nat.le_refl 32)) (harg6.read_unread xs))

theorem read_out0_C (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond0_0 i) (hc1 : cond0_1 i)
    (x2 : Vec F S25792 .i32) (x3 : Vec F S1x4096 .f32) (x4 : Vec F S4096 .i32) (xs : Vec F S1x100096 .f32)
    (hks : Hw0 i arg2 harg2 x2)
    (hw : ∀ s : Fin 32, (winWord i x2 s).toNat + 256 ≤ 100096) (f5 : arg5.view.ty.Contents (Elt F)) :
    arg5.view.read (Elt F) (arg5.view.writes (Elt F) f5
        (kernelRun0_C (Ix := Ix) (U := U) (Lvl := Lvl) 𝒱₀ c i arg2 harg2 arg3 harg3 arg4 harg4 arg5 harg5 arg6 harg6 hc0 hc1 x2 x3 x4 xs hks).1)
      = pointStep i x2 x3 x4 hw xs := by
  rw [← read_scratch0_C (Ix := Ix) (U := U) (Lvl := Lvl) 𝒱₀ c i arg2 harg2 arg3 harg3 arg4 harg4 arg5 harg5 arg6 harg6 hc0 hc1 x2 x3 x4 xs hks hw]
  exact (read_writes_whole arg5.view f5 _).trans (readAt_whole arg6.view _)

set_option maxHeartbeats 1000000 in

theorem read_scratch0_A (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : cond0_0 i) (hc1 : ¬cond0_1 i)
    (x2 : Vec F S25792 .i32) (x3 : Vec F S1x4096 .f32) (x4 : Vec F S4096 .i32)
    (hks : Hw0 i arg2 harg2 x2)
    (hw : ∀ s : Fin 32, (winWord i x2 s).toNat + 256 ≤ 100096) (f6 : arg6.view.ty.Contents (Elt F)) :
    arg6.view.read (Elt F) (arg6.view.writes (Elt F) f6
        (kernelRun0_A (Ix := Ix) (U := U) (Lvl := Lvl) 𝒱₀ c i arg2 harg2 arg3 harg3 arg4 harg4 arg5 harg5 arg6 harg6 hc0 hc1 x2 x3 x4 hks).1)
      = pointStep i x2 x3 x4 hw (k0_pay2 (F := F)) := by
  rw [View.read_writes_of_cover arg6.view f6 arg6.view arg6.view.junk _
    (scover0_A (Ix := Ix) (U := U) (Lvl := Lvl) 𝒱₀ c i arg2 harg2 arg3 harg3 arg4 harg4 arg5 harg5 arg6 harg6 hc0 hc1 x2 x3 x4 hks)]
  exact (read_winPieces arg2 harg2 x2 arg3 harg3 x3 arg4 harg4 x4 arg6.view arg6.view.junk i hw
      [⟨Rect.unit (s := S1x100096) ![0, 0] S1x100096.size inb_S1x100096_S1x100096_0_0, k0_pay2 (F := F)⟩] 32 (Nat.le_refl 32)).trans
    (congrArg (winFoldN i x2 x3 x4 hw 32 (Nat.le_refl 32)) (read_writes_whole arg6.view arg6.view.junk (k0_pay2 (F := F))))

theorem winFoldN_eq_foldl (i : grid0.Coords) (x2 : Vec F S25792 .i32) (x3 : Vec F S1x4096 .f32) (x4 : Vec F S4096 .i32)
    (hw : ∀ s : Fin 32, (winWord i x2 s).toNat + 256 ≤ 100096) :
    ∀ (t : ℕ) (h : t ≤ 32) (S : Vec F S1x100096 .f32), winFoldN i x2 x3 x4 hw t h S
      = Fin.foldl t (fun acc (s : Fin t) => winStep (winWord i x2 (Fin.castLE h s)) (hw (Fin.castLE h s))
          (msgChunk x3 (Fin.castLE h s)) (dstChunk x4 (Fin.castLE h s)) acc) S
  | 0, _, S => by rw [Fin.foldl_zero]; rfl
  | t + 1, h, S => by
    rw [Fin.foldl_succ_last, winFoldN_succ, winFoldN_eq_foldl i x2 x3 x4 hw t (Nat.le_of_succ_le h) S]
    rfl

theorem pointStep_eq_foldl (i : grid0.Coords) (x2 : Vec F S25792 .i32) (x3 : Vec F S1x4096 .f32) (x4 : Vec F S4096 .i32)
    (hw : ∀ s : Fin 32, (winWord i x2 s).toNat + 256 ≤ 100096) (S : Vec F S1x100096 .f32) :
    pointStep i x2 x3 x4 hw S
      = Fin.foldl 32 (fun acc (s : Fin 32) => winStep (winWord i x2 s) (hw s) (msgChunk x3 s) (dstChunk x4 s) acc) S :=
  winFoldN_eq_foldl i x2 x3 x4 hw 32 (Nat.le_refl 32) S

end Cert.KernelIdeal.Hand

end
-- ==== Proof.ScatterFold.lean ====
import Mathlib.Algebra.BigOperators.Group.Finset.Basic
import Mathlib.Algebra.BigOperators.Fin
import proofs.«401711_j53747220742790_3_alg».proof.Proof.SortWindow

open scoped BigOperators

namespace Cert.Gcn.ScatterFold

open Finset

variable {M : Type*} [AddCommMonoid M]

def stepLane (w : ℕ) (d : Fin 128 → ℕ) (f : Fin 128 → M) (S : ℕ → M) (n : ℕ) : M :=
  if w ≤ n ∧ n < w + 256 then S n + ∑ k, (if d k = n then f k else 0) else S n

theorem stepLane_eq (w : ℕ) (d : Fin 128 → ℕ) (f : Fin 128 → M) (S : ℕ → M) (n : ℕ)
    (hwin : ∀ k, w ≤ d k ∧ d k < w + 256) :
    stepLane w d f S n = S n + ∑ k, if d k = n then f k else 0 := by
  unfold stepLane
  split_ifs with h
  · rfl
  · have hz : (∑ k, if d k = n then f k else 0) = 0 := by
      apply Finset.sum_eq_zero
      intro k _
      have hk := hwin k
      rw [if_neg]
      intro hkn
      apply h
      omega
    rw [hz, add_zero]

def winFold (w d : ℕ → ℕ) (f : ℕ → M) : ℕ → (ℕ → M) → ℕ → M
  | 0, S => S
  | t + 1, S =>
    stepLane (w t) (fun k => d (128 * t + k.val)) (fun k => f (128 * t + k.val)) (winFold w d f t S)

theorem winFold_zero (w d : ℕ → ℕ) (f : ℕ → M) (S : ℕ → M) : winFold w d f 0 S = S := rfl

theorem winFold_succ (w d : ℕ → ℕ) (f : ℕ → M) (t : ℕ) (S : ℕ → M) :
    winFold w d f (t + 1) S
      = stepLane (w t) (fun k => d (128 * t + k.val)) (fun k => f (128 * t + k.val)) (winFold w d f t S) := rfl

def WinOk (w d : ℕ → ℕ) (t : ℕ) : Prop :=
  ∀ s, s < t → ∀ k : Fin 128, w s ≤ d (128 * s + k.val) ∧ d (128 * s + k.val) < w s + 256

theorem WinOk.mono {w d : ℕ → ℕ} {t t' : ℕ} (h : WinOk w d t) (ht : t' ≤ t) : WinOk w d t' :=
  fun s hs k => h s (lt_of_lt_of_le hs ht) k

theorem sum_fin128 (g : ℕ → M) (a : ℕ) : (∑ k : Fin 128, g (a + k.val)) = ∑ k ∈ range 128, g (a + k) :=
  Fin.sum_univ_eq_sum_range (fun k => g (a + k)) 128

theorem seq_eq (w d : ℕ → ℕ) (f : ℕ → M) (T : ℕ → ℕ → M) (t : ℕ) (hok : WinOk w d t)
    (hstep : ∀ s, s < t →
      T (s + 1) = stepLane (w s) (fun k => d (128 * s + k.val)) (fun k => f (128 * s + k.val)) (T s))
    (n : ℕ) : T t n = T 0 n + ∑ j ∈ range (128 * t), if d j = n then f j else 0 := by
  induction t with
  | zero => simp only [Nat.mul_zero, Finset.range_zero, Finset.sum_empty, add_zero]
  | succ t ih =>
    rw [hstep t (Nat.lt_succ_self t), stepLane_eq _ _ _ _ _ (hok t (Nat.lt_succ_self t)),
      ih (hok.mono (Nat.le_succ t)) (fun s hs => hstep s (Nat.lt_succ_of_lt hs)), Nat.mul_succ,
      Finset.sum_range_add, add_assoc, sum_fin128 (fun j => if d j = n then f j else 0) (128 * t)]

theorem winFold_eq (w d : ℕ → ℕ) (f : ℕ → M) (t : ℕ) (S : ℕ → M) (n : ℕ) (hok : WinOk w d t) :
    winFold w d f t S n = S n + ∑ j ∈ range (128 * t), if d j = n then f j else 0 :=
  seq_eq w d f (fun s => winFold w d f s S) t hok (fun s _ => winFold_succ w d f s S) n

theorem winFold_add (w d : ℕ → ℕ) (f : ℕ → M) (a b : ℕ) (S : ℕ → M) :
    winFold w d f (a + b) S
      = winFold (fun s => w (a + s)) (fun j => d (128 * a + j)) (fun j => f (128 * a + j)) b (winFold w d f a S) := by
  induction b with
  | zero => rfl
  | succ b ih =>
    rw [← Nat.add_assoc, winFold_succ, winFold_succ, ih]
    have e : ∀ k : ℕ, 128 * (a + b) + k = 128 * a + (128 * b + k) := fun k => by omega
    simp only [e]

theorem finFoldl_eq (w d : ℕ → ℕ) (f : ℕ → M) (t : ℕ) (S : ℕ → M) :
    Fin.foldl t
        (fun acc (s : Fin t) =>
          stepLane (w s.val) (fun k => d (128 * s.val + k.val)) (fun k => f (128 * s.val + k.val)) acc) S
      = winFold w d f t S := by
  induction t with
  | zero => simp only [Fin.foldl_zero, winFold_zero]
  | succ t ih =>
    rw [Fin.foldl_succ_last, winFold_succ]
    simp only [Fin.coe_castSucc, Fin.val_last]
    rw [ih]

def ext {α : Type*} [Zero α] {N : ℕ} (g : Fin N → α) (j : ℕ) : α := if h : j < N then g ⟨j, h⟩ else 0

theorem ext_val {α : Type*} [Zero α] {N : ℕ} (g : Fin N → α) (j : Fin N) : ext g j.val = g j := by
  unfold ext
  rw [dif_pos j.isLt]

theorem ext_lt {α : Type*} [Zero α] {N : ℕ} (g : Fin N → α) (j : ℕ) (h : j < N) : ext g j = g ⟨j, h⟩ := by
  unfold ext
  rw [dif_pos h]

def pointLane (w : Fin 32 → ℕ) (d : Fin 4096 → ℕ) (f : Fin 4096 → M) (S : ℕ → M) : ℕ → M :=
  Fin.foldl 32
    (fun acc (s : Fin 32) =>
      stepLane (w s) (fun k => d ⟨128 * s.val + k.val, by have := s.isLt; have := k.isLt; omega⟩)
        (fun k => f ⟨128 * s.val + k.val, by have := s.isLt; have := k.isLt; omega⟩) acc) S

theorem pointLane_eq_winFold (w : Fin 32 → ℕ) (d : Fin 4096 → ℕ) (f : Fin 4096 → M) (S : ℕ → M) :
    pointLane w d f S = winFold (ext w) (ext d) (ext f) 32 S := by
  rw [← finFoldl_eq]
  unfold pointLane
  congr 1
  funext acc s
  have hs := s.isLt
  rw [ext_val w s]
  congr 1
  · funext k
    have hk := k.isLt
    exact (ext_lt d _ (by omega)).symm
  · funext k
    have hk := k.isLt
    exact (ext_lt f _ (by omega)).symm

theorem pointLane_eq (w : Fin 32 → ℕ) (d : Fin 4096 → ℕ) (f : Fin 4096 → M) (S : ℕ → M) (n : ℕ)
    (hwin : ∀ (s : Fin 32) (k : Fin 128),
      w s ≤ d ⟨128 * s.val + k.val, by have := s.isLt; have := k.isLt; omega⟩ ∧
        d ⟨128 * s.val + k.val, by have := s.isLt; have := k.isLt; omega⟩ < w s + 256) :
    pointLane w d f S n = S n + ∑ j : Fin 4096, if d j = n then f j else 0 := by
  have hok : WinOk (ext w) (ext d) 32 := by
    intro s hs k
    have hk := k.isLt
    rw [ext_lt w s hs, ext_lt d _ (by omega)]
    exact hwin ⟨s, hs⟩ k
  have e : (∑ j ∈ range (128 * 32), if ext d j = n then ext f j else 0)
      = ∑ j : Fin 4096, if d j = n then f j else 0 := by
    rw [show 128 * 32 = 4096 from rfl,
      ← Fin.sum_univ_eq_sum_range (fun j => if ext d j = n then ext f j else 0) 4096]
    apply Finset.sum_congr rfl
    intro j _
    rw [ext_val d j, ext_val f j]
  rw [pointLane_eq_winFold, winFold_eq _ _ _ _ _ _ hok, e]

theorem blocks_sum_le (B m : ℕ) (g : ℕ → M) (T : ℕ → M) (h0 : T 0 = 0)
    (hs : ∀ i, i < m → T (i + 1) = T i + ∑ j : Fin B, g (B * i + j.val)) (i : ℕ) (hi : i ≤ m) :
    T i = ∑ j ∈ range (B * i), g j := by
  induction i with
  | zero => simp only [h0, Nat.mul_zero, Finset.range_zero, Finset.sum_empty]
  | succ i ih =>
    rw [hs i hi, ih (Nat.le_of_succ_le hi), Nat.mul_succ, Finset.sum_range_add,
      Fin.sum_univ_eq_sum_range (fun j => g (B * i + j)) B]

def coreLane (w d : ℕ → ℕ) (f : ℕ → M) (i : ℕ) : ℕ → M := winFold w d f (32 * i) (fun _ => 0)

theorem coreLane_eq (w d : ℕ → ℕ) (f : ℕ → M) (i : ℕ) (n : ℕ) (hok : WinOk w d (32 * i)) :
    coreLane w d f i n = ∑ j ∈ range (4096 * i), if d j = n then f j else 0 := by
  unfold coreLane
  rw [winFold_eq w d f (32 * i) _ n hok, zero_add]
  have e : 128 * (32 * i) = 4096 * i := by omega
  rw [e]

end Cert.Gcn.ScatterFold
-- ==== Proof.KI.ScatterLane.lean ====
import proofs.«401711_j53747220742790_3_alg».proof.Proof.ScatterFold
import Idealize.ShloMosaic.Lib.ValueIdx

open scoped BigOperators

namespace Cert.Gcn.ScatterLane

open Idealize.ShloMosaic Cert.Gcn.ScatterFold

theorem finFoldl_hom {α β : Type*} (π : α → β) (t : ℕ) (g : α → Fin t → α) (g' : β → Fin t → β)
    (h : ∀ a s, π (g a s) = g' (π a) s) (a : α) : π (Fin.foldl t g a) = Fin.foldl t g' (π a) := by
  induction t with
  | zero => simp only [Fin.foldl_zero]
  | succ t ih =>
    rw [Fin.foldl_succ_last, Fin.foldl_succ_last, h,
      ih (fun x i => g x i.castSucc) (fun x i => g' x i.castSucc) (fun a s => h a s.castSucc)]

variable {M : Type*} [AddCommMonoid M] {R N : ℕ}

def laneFn (f : Fin R) (S : (⟨2, ![R, N]⟩ : Shape).Idx → M) (n : ℕ) : M :=
  if h : n < N then S (ValueIdx.ix2 f ⟨n, h⟩) else 0

theorem laneFn_val (f : Fin R) (S : (⟨2, ![R, N]⟩ : Shape).Idx → M) (n : Fin N) :
    laneFn f S n.val = S (ValueIdx.ix2 f n) := by
  unfold laneFn
  rw [dif_pos n.isLt]

theorem laneFn_lt (f : Fin R) (S : (⟨2, ![R, N]⟩ : Shape).Idx → M) (n : ℕ) (h : n < N) :
    laneFn f S n = S (ValueIdx.ix2 f ⟨n, h⟩) := by
  unfold laneFn
  rw [dif_pos h]

theorem laneFn_ge (f : Fin R) (S : (⟨2, ![R, N]⟩ : Shape).Idx → M) (n : ℕ) (h : ¬n < N) : laneFn f S n = 0 := by
  unfold laneFn
  rw [dif_neg h]

theorem laneFn_step (w : ℕ) (hw : w + 256 ≤ N) (d : Fin 128 → ℕ) (m : Fin 128 → M) (f : Fin R)
    (S S' : (⟨2, ![R, N]⟩ : Shape).Idx → M)
    (hstep : ∀ n : Fin N, S' (ValueIdx.ix2 f n) = stepLane w d m (laneFn f S) n.val) :
    laneFn f S' = stepLane w d m (laneFn f S) := by
  funext n
  by_cases h : n < N
  · rw [laneFn_lt f S' n h]
    exact hstep ⟨n, h⟩
  · rw [laneFn_ge f S' n h]
    unfold stepLane
    rw [if_neg (by omega), laneFn_ge f S n h]

theorem foldl_lane (w : Fin 32 → ℕ) (hw : ∀ s, w s + 256 ≤ N) (d : Fin 4096 → ℕ) (g : Fin R → Fin 4096 → M)
    (step : Fin 32 → ((⟨2, ![R, N]⟩ : Shape).Idx → M) → (⟨2, ![R, N]⟩ : Shape).Idx → M)
    (hstep : ∀ (s : Fin 32) (S : (⟨2, ![R, N]⟩ : Shape).Idx → M) (f : Fin R) (n : Fin N),
      step s S (ValueIdx.ix2 f n)
        = stepLane (w s) (fun k => d ⟨128 * s.val + k.val, by have := s.isLt; have := k.isLt; omega⟩)
            (fun k => g f ⟨128 * s.val + k.val, by have := s.isLt; have := k.isLt; omega⟩) (laneFn f S) n.val)
    (hwin : ∀ (s : Fin 32) (k : Fin 128),
      w s ≤ d ⟨128 * s.val + k.val, by have := s.isLt; have := k.isLt; omega⟩ ∧
        d ⟨128 * s.val + k.val, by have := s.isLt; have := k.isLt; omega⟩ < w s + 256)
    (S : (⟨2, ![R, N]⟩ : Shape).Idx → M) (f : Fin R) (n : Fin N) :
    Fin.foldl 32 (fun acc s => step s acc) S (ValueIdx.ix2 f n)
      = S (ValueIdx.ix2 f n) + ∑ j : Fin 4096, if d j = n.val then g f j else 0 := by
  have hπ := finFoldl_hom (laneFn f) 32 (fun acc s => step s acc)
    (fun acc (s : Fin 32) =>
      stepLane (w s) (fun k => d ⟨128 * s.val + k.val, by have := s.isLt; have := k.isLt; omega⟩)
        (fun k => g f ⟨128 * s.val + k.val, by have := s.isLt; have := k.isLt; omega⟩) acc)
    (fun a s => laneFn_step (w s) (hw s) _ _ f a (step s a) (fun n => hstep s a f n)) S
  have hp := pointLane_eq w d (g f) (laneFn f S) n.val hwin
  unfold pointLane at hp
  have e1 : Fin.foldl 32 (fun acc s => step s acc) S (ValueIdx.ix2 f n)
      = laneFn f (Fin.foldl 32 (fun acc s => step s acc) S) n.val := (laneFn_val f _ n).symm
  rw [e1, hπ, hp, laneFn_val]

theorem core_sum (T : ℕ → M) (dflat : ℕ → ℕ) (mflat : ℕ → M) (n : ℕ) (P : ℕ)
    (h0 : T 0 = 0 + ∑ j : Fin 4096, if dflat (4096 * 0 + j.val) = n then mflat (4096 * 0 + j.val) else 0)
    (hs : ∀ i, 0 < i → i < P →
      T i = T (i - 1) + ∑ j : Fin 4096, if dflat (4096 * i + j.val) = n then mflat (4096 * i + j.val) else 0)
    (i : ℕ) (hi : i < P) :
    T i = ∑ q ∈ Finset.range (4096 * (i + 1)), if dflat q = n then mflat q else 0 := by
  have key := blocks_sum_le 4096 P (fun q => if dflat q = n then mflat q else 0)
    (fun k => if k = 0 then 0 else T (k - 1)) (if_pos rfl)
    (fun k hk => by
      rw [if_neg (Nat.succ_ne_zero k), Nat.add_sub_cancel]
      by_cases hk0 : k = 0
      · subst hk0
        rw [if_pos rfl]
        exact h0
      · rw [if_neg hk0]
        exact hs k (Nat.pos_of_ne_zero hk0) hk)
    (i + 1) hi
  rw [if_neg (Nat.succ_ne_zero i), Nat.add_sub_cancel] at key
  exact key

theorem core_sum_last (T : ℕ → M) (dflat : ℕ → ℕ) (mflat : ℕ → M) (n : ℕ)
    (h0 : T 0 = 0 + ∑ j : Fin 4096, if dflat (4096 * 0 + j.val) = n then mflat (4096 * 0 + j.val) else 0)
    (hs : ∀ i, 0 < i → i < 403 →
      T i = T (i - 1) + ∑ j : Fin 4096, if dflat (4096 * i + j.val) = n then mflat (4096 * i + j.val) else 0) :
    T 402 = ∑ j : Fin 1650688, if dflat j.val = n then mflat j.val else 0 := by
  rw [core_sum T dflat mflat n 403 h0 hs 402 (by omega)]
  exact (Fin.sum_univ_eq_sum_range (fun q => if dflat q = n then mflat q else 0) 1650688).symm

end Cert.Gcn.ScatterLane
-- ==== Proof.KI.ScatterVal0.lean ====
import proofs.«401711_j53747220742790_3_alg».proof.Proof.KI.WinIdeal
import proofs.«401711_j53747220742790_3_alg».proof.Proof.KI.Body0Fold
import proofs.«401711_j53747220742790_3_alg».proof.Proof.KI.ScatterLane

noncomputable section

open scoped BigOperators

namespace Cert.KernelIdeal.HandValue

open Cert.KernelIdeal Cert.KernelIdeal.Gen
open Idealize.ShloMosaic
open Cert.Gcn.ScatterFold Cert.Gcn.ScatterLane

theorem winStep0_lane (w : BitVec 32) (hw : w.toNat + 256 ≤ 100096) (msgc : FVec Ideal S1x128 .f32)
    (dstc : IVec S128 32) (S : FVec Ideal S1x100096 .f32)
    (hwin : ∀ k : Fin 128, w.toNat ≤ (dstc (ValueIdx.ix1 k)).toNat ∧ (dstc (ValueIdx.ix1 k)).toNat < w.toNat + 256)
    (f : Fin 1) (n : Fin 100096) :
    Hand.winStep (F := Ideal) w hw msgc dstc S (ValueIdx.ix2 f n)
      = stepLane w.toNat (fun k => (dstc (ValueIdx.ix1 k)).toNat) (fun k => msgc (ValueIdx.ix2 f k))
          (laneFn f S) n.val := by
  rw [Hand.winStep_apply]
  unfold stepLane
  by_cases h : w.toNat ≤ n.val ∧ n.val < w.toNat + 256
  · rw [dif_pos h, if_pos h, winUpd_window w msgc dstc _ hwin f n.val h, laneFn_val]
    refine congrArg (· + _) ?_
    exact congrArg (fun k : Fin 100096 => S (ValueIdx.ix2 f k))
      (Fin.ext (by show w.toNat + (n.val - w.toNat) = n.val; omega))
  · rw [dif_neg h, if_neg h, laneFn_val]

theorem dstChunk0_apply (x4 : IVec S4096 32) (s : Fin 32) (k : Fin 128) :
    Hand.dstChunk (F := Ideal) x4 s (ValueIdx.ix1 k)
      = x4 (ValueIdx.ix1 ⟨128 * s.val + k.val, by have := s.isLt; have := k.isLt; omega⟩) := rfl

theorem msgChunk0_apply (x3 : FVec Ideal S1x4096 .f32) (s : Fin 32) (f : Fin 1) (k : Fin 128) :
    Hand.msgChunk (F := Ideal) x3 s (ValueIdx.ix2 f k)
      = x3 (ValueIdx.ix2 f ⟨128 * s.val + k.val, by have := s.isLt; have := k.isLt; omega⟩) := rfl

theorem pointStep0_apply (i : grid0.Coords) (x2 : IVec S25792 32) (x3 : FVec Ideal S1x4096 .f32) (x4 : IVec S4096 32)
    (hw : ∀ s, (Hand.winWord (F := Ideal) i x2 s).toNat + 256 ≤ 100096) (S : FVec Ideal S1x100096 .f32)
    (hwin : ∀ (s : Fin 32) (k : Fin 128),
      (Hand.winWord (F := Ideal) i x2 s).toNat
          ≤ (x4 (ValueIdx.ix1 ⟨128 * s.val + k.val, by have := s.isLt; have := k.isLt; omega⟩)).toNat ∧
        (x4 (ValueIdx.ix1 ⟨128 * s.val + k.val, by have := s.isLt; have := k.isLt; omega⟩)).toNat
          < (Hand.winWord (F := Ideal) i x2 s).toNat + 256)
    (f : Fin 1) (n : Fin 100096) :
    Hand.pointStep (F := Ideal) i x2 x3 x4 hw S (ValueIdx.ix2 f n)
      = S (ValueIdx.ix2 f n) + ∑ j : Fin 4096, if (x4 (ValueIdx.ix1 j)).toNat = n.val then x3 (ValueIdx.ix2 f j) else 0 := by
  have hstep : ∀ (s : Fin 32) (S : (⟨2, ![1, 100096]⟩ : Shape).Idx → EReal) (f : Fin 1) (n : Fin 100096),
      Hand.winStep (F := Ideal) (Hand.winWord (F := Ideal) i x2 s) (hw s) (Hand.msgChunk (F := Ideal) x3 s) (Hand.dstChunk (F := Ideal) x4 s) S
          (ValueIdx.ix2 f n)
        = stepLane (Hand.winWord (F := Ideal) i x2 s).toNat
            (fun k => (x4 (ValueIdx.ix1 ⟨128 * s.val + k.val, by have := s.isLt; have := k.isLt; omega⟩)).toNat)
            (fun k => x3 (ValueIdx.ix2 f ⟨128 * s.val + k.val, by have := s.isLt; have := k.isLt; omega⟩))
            (laneFn f S) n.val := by
    intro s S f n
    rw [winStep0_lane _ (hw s) (Hand.msgChunk (F := Ideal) x3 s) (Hand.dstChunk (F := Ideal) x4 s) S
      (fun k => by rw [dstChunk0_apply]; exact hwin s k) f n]
    simp only [dstChunk0_apply, msgChunk0_apply]
  rw [Hand.pointStep_eq_foldl]
  exact foldl_lane (M := EReal) (R := 1) (N := 100096) (fun s => (Hand.winWord (F := Ideal) i x2 s).toNat) hw
    (fun j => (x4 (ValueIdx.ix1 j)).toNat) (fun f j => x3 (ValueIdx.ix2 f j))
    (fun s acc => Hand.winStep (F := Ideal) (Hand.winWord (F := Ideal) i x2 s) (hw s) (Hand.msgChunk (F := Ideal) x3 s) (Hand.dstChunk (F := Ideal) x4 s) acc)
    hstep hwin S f n

theorem pay2_zero0 (y : S1x100096.Idx) : k0_pay2 (F := Ideal) y = 0 := by
  unfold k0_pay2
  simp only [shapeCast_self]
  exact Ideal.ofBits_zero_f32

theorem point0_flat (X2 : IVec S25792 32) (X3 : Fin 806 → FVec Ideal S1x4096 .f32) (X4 : Fin 806 → IVec S4096 32)
    (hw : ∀ (t : Fin 806) (s : Fin 32), (Hand.winWord (F := Ideal) (grid0.coords t) X2 s).toNat + 256 ≤ 100096)
    (hwin : ∀ (t : Fin 806) (s : Fin 32) (k : Fin 128),
      (Hand.winWord (F := Ideal) (grid0.coords t) X2 s).toNat
          ≤ (X4 t (ValueIdx.ix1 ⟨128 * s.val + k.val, by have := s.isLt; have := k.isLt; omega⟩)).toNat ∧
        (X4 t (ValueIdx.ix1 ⟨128 * s.val + k.val, by have := s.isLt; have := k.isLt; omega⟩)).toNat
          < (Hand.winWord (F := Ideal) (grid0.coords t) X2 s).toNat + 256)
    (D : Fin 3301376 → ℕ) (Mg : Fin 1 → Fin 3301376 → EReal)
    (hD : ∀ (t : Fin 806) (j : Fin 4096),
      (X4 t (ValueIdx.ix1 j)).toNat = D ⟨4096 * t.val + j.val, by have := t.isLt; have := j.isLt; omega⟩)
    (hM : ∀ (t : Fin 806) (f : Fin 1) (j : Fin 4096),
      X3 t (ValueIdx.ix2 f j) = Mg f ⟨4096 * t.val + j.val, by have := t.isLt; have := j.isLt; omega⟩)
    (cc : Fin 2) (i : ℕ) (hi : i < 403) (S : FVec Ideal S1x100096 .f32) (f : Fin 1) (n : Fin 100096) :
    Hand.pointStep (F := Ideal) (grid0.coords (⟨403 * cc.val + i, by have := cc.isLt; omega⟩ : Fin 806)) X2
        (X3 (⟨403 * cc.val + i, by have := cc.isLt; omega⟩ : Fin 806)) (X4 (⟨403 * cc.val + i, by have := cc.isLt; omega⟩ : Fin 806))
        (hw (⟨403 * cc.val + i, by have := cc.isLt; omega⟩ : Fin 806)) S (ValueIdx.ix2 f n)
      = S (ValueIdx.ix2 f n)
        + ∑ j : Fin 4096,
            if (if h : 4096 * i + j.val < 1650688 then
                  D ⟨cc.val * 1650688 + (4096 * i + j.val), by have := cc.isLt; omega⟩ else 0) = n.val then
              (if h : 4096 * i + j.val < 1650688 then
                  Mg f ⟨cc.val * 1650688 + (4096 * i + j.val), by have := cc.isLt; omega⟩ else 0)
            else 0 := by
  rw [pointStep0_apply _ X2 _ _ _ S (hwin (⟨403 * cc.val + i, by have := cc.isLt; omega⟩ : Fin 806)) f n]
  refine congrArg (S (ValueIdx.ix2 f n) + ·) (Finset.sum_congr rfl fun j _ => ?_)
  have hj := j.isLt
  have hcc := cc.isLt
  have hlt : 4096 * i + j.val < 1650688 := by omega
  rw [dif_pos hlt, dif_pos hlt, hD, hM]
  have e : (⟨4096 * (403 * cc.val + i) + j.val, by omega⟩ : Fin 3301376)
      = ⟨cc.val * 1650688 + (4096 * i + j.val), by omega⟩ := Fin.ext (by show 4096 * (403 * cc.val + i) + j.val = cc.val * 1650688 + (4096 * i + j.val); omega)
  rw [e]

theorem scr0_sum (scr : (p : ℕ) → p < 806 → FVec Ideal S1x100096 .f32)
    (X2 : IVec S25792 32) (X3 : Fin 806 → FVec Ideal S1x4096 .f32) (X4 : Fin 806 → IVec S4096 32)
    (hw : ∀ (t : Fin 806) (s : Fin 32), (Hand.winWord (F := Ideal) (grid0.coords t) X2 s).toNat + 256 ≤ 100096)
    (hA : ∀ t : Fin 806, t.val % 403 = 0 →
      scr t.val t.isLt = Hand.pointStep (F := Ideal) (grid0.coords t) X2 (X3 t) (X4 t) (hw t) (k0_pay2 (F := Ideal)))
    (hBC : ∀ t : Fin 806, ¬t.val % 403 = 0 →
      scr t.val t.isLt = Hand.pointStep (F := Ideal) (grid0.coords t) X2 (X3 t) (X4 t) (hw t)
        (scr (t.val - 1) (Nat.lt_of_le_of_lt (Nat.sub_le _ _) t.isLt)))
    (hwin : ∀ (t : Fin 806) (s : Fin 32) (k : Fin 128),
      (Hand.winWord (F := Ideal) (grid0.coords t) X2 s).toNat
          ≤ (X4 t (ValueIdx.ix1 ⟨128 * s.val + k.val, by have := s.isLt; have := k.isLt; omega⟩)).toNat ∧
        (X4 t (ValueIdx.ix1 ⟨128 * s.val + k.val, by have := s.isLt; have := k.isLt; omega⟩)).toNat
          < (Hand.winWord (F := Ideal) (grid0.coords t) X2 s).toNat + 256)
    (D : Fin 3301376 → ℕ) (Mg : Fin 1 → Fin 3301376 → EReal)
    (hD : ∀ (t : Fin 806) (j : Fin 4096),
      (X4 t (ValueIdx.ix1 j)).toNat = D ⟨4096 * t.val + j.val, by have := t.isLt; have := j.isLt; omega⟩)
    (hM : ∀ (t : Fin 806) (f : Fin 1) (j : Fin 4096),
      X3 t (ValueIdx.ix2 f j) = Mg f ⟨4096 * t.val + j.val, by have := t.isLt; have := j.isLt; omega⟩)
    (cc : Fin 2) (f : Fin 1) (n : Fin 100096) :
    scr (403 * cc.val + 402) (by have := cc.isLt; omega) (ValueIdx.ix2 f n)
      = ∑ j : Fin 1650688,
          if D ⟨cc.val * 1650688 + j.val, by have := cc.isLt; have := j.isLt; omega⟩ = n.val then
            Mg f ⟨cc.val * 1650688 + j.val, by have := cc.isLt; have := j.isLt; omega⟩ else 0 := by
  have hcc := cc.isLt
  have key := core_sum_last (M := EReal)
    (fun i => if h : i < 403 then scr (403 * cc.val + i) (by omega) (ValueIdx.ix2 f n) else 0)
    (fun q => if h : q < 1650688 then D ⟨cc.val * 1650688 + q, by omega⟩ else 0)
    (fun q => if h : q < 1650688 then Mg f ⟨cc.val * 1650688 + q, by omega⟩ else 0) n.val
    (by
      show (if h : 0 < 403 then scr (403 * cc.val + 0) (by omega) (ValueIdx.ix2 f n) else 0) = _
      rw [dif_pos (by omega)]
      have hA0 := hA ⟨403 * cc.val + 0, by omega⟩ (by show (403 * cc.val + 0) % 403 = 0; omega)
      rw [show scr (403 * cc.val + 0) (by omega) = _ from hA0,
        point0_flat X2 X3 X4 hw hwin D Mg hD hM cc 0 (by omega) _ f n, pay2_zero0])
    (fun i hi0 hi => by
      show (if h : i < 403 then scr (403 * cc.val + i) (by omega) (ValueIdx.ix2 f n) else 0)
        = (if h : i - 1 < 403 then scr (403 * cc.val + (i - 1)) (by omega) (ValueIdx.ix2 f n) else 0) + _
      rw [dif_pos hi, dif_pos (by omega)]
      have hB := hBC ⟨403 * cc.val + i, by omega⟩ (by show ¬(403 * cc.val + i) % 403 = 0; omega)
      rw [show scr (403 * cc.val + i) (by omega) = _ from hB,
        point0_flat X2 X3 X4 hw hwin D Mg hD hM cc i hi _ f n]
      refine congrArg (· + _) ?_
      have e : 403 * cc.val + i - 1 = 403 * cc.val + (i - 1) := by omega
      exact congrArg (fun v : FVec Ideal S1x100096 .f32 => v (ValueIdx.ix2 f n))
        (by
          show scr (403 * cc.val + i - 1) _ = scr (403 * cc.val + (i - 1)) _
          congr 1))
  rw [dif_pos (by omega)] at key
  rw [key]
  refine Finset.sum_congr rfl fun j _ => ?_
  rw [dif_pos j.isLt, dif_pos j.isLt]

end Cert.KernelIdeal.HandValue

end
-- ==== Proof.KI.Lanes0.lean ====
import proofs.«401711_j53747220742790_3_alg».proof.Proof.KI.Common
import proofs.«401711_j53747220742790_3_alg».proof.Proof.KI.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Lanes
variable (V : Dev nD → Valuation τ sig (Elt F)) (a : (pcfg0 (F := F)).Adm)

theorem index0_0 : ∀ t : Fin grid0.N, cc0_transform_0 (grid0.coords t) = ![0, t.val] := by decide +kernel
theorem index0_1 : ∀ t : Fin grid0.N, cc0_transform_1 (grid0.coords t) = ![t.val] := by decide +kernel

theorem lane0_lt (t : Fin (cfg0 a).N) (j : Fin 4096) : 4096 * t.val + j.val < 3301376 := by
  have := t.isLt; have hN : (cfg0 a).N = 806 := N_0; omega

theorem iblk0_msg_lane (c : Dev nD) (t : Fin (cfg0 a).N) (f : Fin 1) (j : Fin 4096) :
    iblk0 V a c 0 t (ValueIdx.ix2 f j) = VR0 V c main_v46 (ValueIdx.ix2 f ⟨4096 * t.val + j.val, lane0_lt a t j⟩) := by
  have hi : ((cfg0 a).win 0).index t = ![0, t.val] := index0_0 t
  unfold iblk0
  show VR0 V c main_v46 _ = VR0 V c main_v46 _
  congr 1
  funext d
  apply Fin.ext
  match d with
  | ⟨0, h0⟩ =>
    show ((cfg0 a).win 0).index t ⟨0, h0⟩ * 1 + 1 * (f : ℕ) = (f : ℕ)
    rw [hi]; show 0 * 1 + 1 * (f : ℕ) = (f : ℕ); omega
  | ⟨1, h1⟩ =>
    show ((cfg0 a).win 0).index t ⟨1, h1⟩ * 4096 + 1 * (j : ℕ) = 4096 * t.val + (j : ℕ)
    rw [hi]; show t.val * 4096 + 1 * (j : ℕ) = 4096 * t.val + (j : ℕ); omega

theorem iblk0_dst_lane (c : Dev nD) (t : Fin (cfg0 a).N) (j : Fin 4096) :
    iblk0 V a c 1 t (ValueIdx.ix1 j) = VR0 V c main_v34 (ValueIdx.ix1 ⟨4096 * t.val + j.val, lane0_lt a t j⟩) := by
  have hi : ((cfg0 a).win 1).index t = ![t.val] := index0_1 t
  unfold iblk0
  show VR0 V c main_v34 _ = VR0 V c main_v34 _
  congr 1
  funext d
  apply Fin.ext
  match d with
  | ⟨0, h0⟩ =>
    show ((cfg0 a).win 1).index t ⟨0, h0⟩ * 4096 + 1 * (j : ℕ) = 4096 * t.val + (j : ℕ)
    rw [hi]; show t.val * 4096 + 1 * (j : ℕ) = 4096 * t.val + (j : ℕ); omega

end Lanes

end Cert.KernelIdeal.Hand

end
-- ==== Proof.KI.ArrAt0.lean ====
import proofs.«401711_j53747220742790_3_alg».proof.Proof.KI.Region0
import proofs.«401711_j53747220742790_3_alg».proof.Proof.KI.Body0Fold
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem flushB0_2 : ∀ t : Fin grid0.N, t.val % 403 = 402 → (t.val + 1 = grid0.N || decide (∃ h : t.val + 1 < grid0.N, cc0_transform_2 (grid0.coords ⟨t.val + 1, h⟩) ≠ cc0_transform_2 (grid0.coords t))) = true := by decide +kernel

theorem idxB0_2 : ∀ t : Fin grid0.N, cc0_transform_2 (grid0.coords t) = ![0, t.val / 403] := by decide +kernel

section ArrAt
variable (V : Dev nD → Valuation τ sig (Elt F)) (a : (pcfg0 (F := F)).Adm) (htbl : TblOk (a.1 0))

theorem flush0_2 (t : Fin (cfg0 a).N) (h : t.val % 403 = 402) : ((cfg0 a).win 2).flush t = true := flushB0_2 t h

theorem flush0_2_iff (t : Fin (cfg0 a).N) : ((cfg0 a).win 2).flush t = true ↔ t.val % 403 = 402 :=
  ⟨fun hf => by
    by_contra h
    rw [noFlush0_2 a t h] at hf
    exact Bool.false_ne_true hf, flush0_2 a t⟩

theorem pt_lt (t : Fin (cfg0 a).N) : t.val < 806 :=
  (show t.val < grid0.N from t.isLt).trans_eq N_0

theorem mem_blk0_2 (t : Fin (cfg0 a).N) (i : S1x200192.Idx) :
    i ∈ (((cfg0 a).win 2).blk t).view.set ↔ ∀ a' : Fin 2, cc0_transform_2 (grid0.coords t) a' * S1x100096.size a' ≤ (i a').val
      ∧ (i a').val < cc0_transform_2 (grid0.coords t) a' * S1x100096.size a' + S1x100096.size a' := by
  have e : (((cfg0 a).win 2).blk t).view.set = (((cfg0 a).win 2).rect t : Rect main_v47.ty.shape).set :=
    View.set_slice_whole main_v47 _
  rw [e]
  exact Rect.mem_set_unit

theorem emb_blk0_2 (t : Fin (cfg0 a).N) (j : S1x100096.Idx) :
    ((((cfg0 a).win 2).blk t).view.emb j : S1x200192.Idx)
      = ValueIdx.ix2 (j 0) ⟨(t.val / 403) * 100096 + (j 1).val, by
          have := pt_lt a t; have : (j 1).val < 100096 := (j 1).isLt; omega⟩ := by
  have hi := idxB0_2 t
  funext a'
  apply Fin.ext
  match a' with
  | ⟨0, _⟩ =>
    show cc0_transform_2 (grid0.coords t) 0 * S1x100096.size 0 + 1 * (j 0).val = (j 0).val
    rw [hi]; show 0 * S1x100096.size 0 + 1 * (j 0).val = (j 0).val; omega
  | ⟨1, _⟩ =>
    show cc0_transform_2 (grid0.coords t) 1 * 100096 + 1 * (j 1).val = (t.val / 403) * 100096 + (j 1).val
    rw [hi]; show (t.val / 403) * 100096 + 1 * (j 1).val = _; omega

theorem lastPt_lt (l : ℕ) (hl : l < 200192) : 403 * (l / 100096) + 402 < (cfg0 a).N := by
  show 403 * (l / 100096) + 402 < grid0.N
  rw [N_0]; omega

def out0G (c : Dev nD) : S1x200192.Idx → Elt F .f32 := fun i =>
  outAt0 V a htbl c ⟨403 * ((i 1).val / 100096) + 402, lastPt_lt a (i 1).val (i 1).isLt⟩
    (ValueIdx.ix2 (i 0) ⟨(i 1).val % 100096, Nat.mod_lt _ (by decide)⟩)

theorem outAt0_congr (c : Dev nD) {t t' : Fin (cfg0 a).N} (h : t = t') {y y' : S1x100096.Idx} (hy : y = y') :
    outAt0 V a htbl c t y = outAt0 V a htbl c t' y' := by
  subst h hy; rfl

theorem flushed0_2 (c : Dev nD) (t : Fin (cfg0 a).N) (hf : ((cfg0 a).win 2).flush t = true) :
    (dat0 V a htbl c).flushed 2 t = (((cfg0 a).win 2).blk t).view.read (Elt F) (out0G V a htbl c) := by
  have h1 : t.val % 403 = 402 := (flush0_2_iff a t).mp hf
  show ((cfg0 a).win 2).cut ((cfg0 a).grid.coords t) ((dat0 V a htbl c).after 2 t) = _
  rw [after0_2]
  refine funext fun (j : S1x100096.Idx) => ?_
  show outAt0 V a htbl c t j = out0G V a htbl c ((((cfg0 a).win 2).blk t).view.emb j : S1x200192.Idx)
  rw [emb_blk0_2]
  unfold out0G
  have hj1 : (j 1).val < 100096 := (j 1).isLt
  refine outAt0_congr V a htbl c (Fin.ext ?_) (funext fun a' => Fin.ext ?_)
  · show t.val = 403 * (((t.val / 403) * 100096 + (j 1).val) / 100096) + 402
    omega
  · match a' with
    | ⟨0, _⟩ => rfl
    | ⟨1, _⟩ =>
      show (j 1).val = ((t.val / 403) * 100096 + (j 1).val) % 100096
      omega

theorem arrAt0_eq (c : Dev nD) : (dat0 V a htbl c).arrAt 2 (cfg0 a).N = out0G V a htbl c :=
  (dat0 V a htbl c).arrAt_eq_of_cover 2 (out0G V a htbl c) (flushed0_2 V a htbl c) fun (i : S1x200192.Idx) => by
    have hl : (i 1).val < 200192 := (i 1).isLt
    refine ⟨⟨403 * ((i 1).val / 100096) + 402, lastPt_lt a (i 1).val hl⟩, flush0_2 a _ (by show (403 * ((i 1).val / 100096) + 402) % 403 = 402; omega), ?_⟩
    refine (mem_blk0_2 a _ i).mpr fun a' => ?_
    have hi : cc0_transform_2 (grid0.coords ⟨403 * ((i 1).val / 100096) + 402, lastPt_lt a (i 1).val hl⟩)
        = ![0, (403 * ((i 1).val / 100096) + 402) / 403] := idxB0_2 _
    rw [hi]
    match a' with
    | ⟨0, _⟩ =>
      exact ⟨by show 0 * S1x100096.size 0 ≤ (i 0).val; rw [Nat.zero_mul]; exact Nat.zero_le _,
        by show (i 0).val < 0 * S1x100096.size 0 + S1x100096.size 0; rw [Nat.zero_mul, Nat.zero_add]; exact (i 0).isLt⟩
    | ⟨1, _⟩ =>
      show (403 * ((i 1).val / 100096) + 402) / 403 * 100096 ≤ (i 1).val ∧ (i 1).val < (403 * ((i 1).val / 100096) + 402) / 403 * 100096 + 100096
      omega

theorem arrAt0_block_out (c : Dev nD) (f : Fin 1) (cc : Fin 2) (n : Fin 100096)
    (hl : cc.val * 100096 + n.val < 200192) (ht : 403 * cc.val + 402 < (cfg0 a).N) :
    (dat0 V a htbl c).arrAt 2 (cfg0 a).N (ValueIdx.ix2 f ⟨cc.val * 100096 + n.val, hl⟩ : S1x200192.Idx)
      = outAt0 V a htbl c ⟨403 * cc.val + 402, ht⟩ (ValueIdx.ix2 f n) := by
  rw [arrAt0_eq]
  unfold out0G
  have hn := n.isLt
  refine outAt0_congr V a htbl c (Fin.ext ?_) (funext fun a' => Fin.ext ?_)
  · show 403 * ((cc.val * 100096 + n.val) / 100096) + 402 = 403 * cc.val + 402; omega
  · match a' with
    | ⟨0, _⟩ => rfl
    | ⟨1, _⟩ => show (cc.val * 100096 + n.val) % 100096 = n.val; omega

theorem tblOk_hw (x2 : Vec F S25792 .i32) (h : TblOk x2) (i : grid0.Coords) :
    ∀ s : Fin 32, (winWord i x2 s).toNat + 256 ≤ 100096 :=
  fun s => (h _).2

theorem outAt0_eq_scrAt0 (c : Dev nD) (t : Fin (cfg0 a).N) (h1 : t.val % 403 = 402) :
    outAt0 V a htbl c t = scrAt0 V a htbl c t.val t.isLt := by
  rw [outAt0_C V a htbl c t h1, scrAt0_C V a htbl c t h1]
  unfold out0_C sout0_C
  refine (View.read_writes_of_cover VO0 VO0.junk (ms0_2 a t).view (ms0_2 a t).view.junk _
    (fun y => cover0_C (Ix := Unit) (U := UR sig nD τ) (Lvl := ℕ) ..)).trans ?_
  exact (read_out0_C (Ix := Unit) (U := UR sig nD τ) (Lvl := ℕ) (hw := tblOk_hw (a.1 0) htbl (grid0.coords t)) ..).trans
    (read_scratch0_C (Ix := Unit) (U := UR sig nD τ) (Lvl := ℕ) (hw := tblOk_hw (a.1 0) htbl (grid0.coords t)) ..).symm

theorem arrAt0_block (c : Dev nD) (f : Fin 1) (cc : Fin 2) (n : Fin 100096)
    (hl : cc.val * 100096 + n.val < 200192) (ht : 403 * cc.val + 402 < (cfg0 a).N) :
    (dat0 V a htbl c).arrAt 2 (cfg0 a).N (ValueIdx.ix2 f ⟨cc.val * 100096 + n.val, hl⟩ : S1x200192.Idx)
      = scrAt0 V a htbl c (403 * cc.val + 402) ht (ValueIdx.ix2 f n) := by
  rw [arrAt0_block_out V a htbl c f cc n hl ht]
  exact congrFun (outAt0_eq_scrAt0 V a htbl c ⟨403 * cc.val + 402, ht⟩ (by show (403 * cc.val + 402) % 403 = 402; omega)) _

end ArrAt

end Cert.KernelIdeal.Hand

end
-- ==== Proof.KI.ScatterOk0.lean ====
import proofs.«401711_j53747220742790_3_alg».proof.Proof.KI.ScatterVal0
import proofs.«401711_j53747220742790_3_alg».proof.Proof.KI.Region0
import proofs.«401711_j53747220742790_3_alg».proof.Proof.KI.Lanes0
import proofs.«401711_j53747220742790_3_alg».proof.Proof.KI.ArrAt0

noncomputable section

open scoped BigOperators

namespace Cert.KernelIdeal.HandValue

open Cert.KernelIdeal Cert.KernelIdeal.Gen
open Idealize.ShloMosaic

abbrev tblA0 (V : Dev nD → Valuation τ sig (Elt Ideal)) (c : Dev nD) : S25792.Idx → BitVec 32 := Hand.VR0 V c main_v44
abbrev dstA0 (V : Dev nD → Valuation τ sig (Elt Ideal)) (c : Dev nD) : S3301376.Idx → BitVec 32 := Hand.VR0 V c main_v34
abbrev msgA0 (V : Dev nD → Valuation τ sig (Elt Ideal)) (c : Dev nD) : S1x3301376.Idx → EReal := Hand.VR0 V c main_v46

theorem hw0 (a : (pcfg0 (F := Ideal)).Adm) (htbl : Hand.TblOk (a.1 0)) (t : Fin 806) (s : Fin 32) :
    (Hand.winWord (F := Ideal) (grid0.coords t) (a.1 0) s).toNat + 256 ≤ 100096 := (htbl _).2

section Region
variable (V : Dev nD → Valuation τ sig (Elt Ideal)) (a : (pcfg0 (F := Ideal)).Adm) (htbl : Hand.TblOk (a.1 0))

theorem sout0_A_eq (c : Dev nD) (t : Fin 806) (h0 : t.val % 403 = 0) :
    Hand.sout0_A V a htbl c t h0
      = Hand.pointStep (F := Ideal) (grid0.coords t) (a.1 0) (Hand.iblk0 V a c 0 t) (Hand.iblk0 V a c 1 t)
          (hw0 a htbl t) (k0_pay2 (F := Ideal)) := by
  unfold Hand.sout0_A
  exact Hand.read_scratch0_A (hw := hw0 a htbl t) (f6 := Hand.VS0.junk) ..

theorem sout0_B_eq (c : Dev nD) (t : Fin 806) (h0 : ¬t.val % 403 = 0) (h1 : ¬t.val % 403 = 402)
    (xs : FVec Ideal S1x100096 .f32) :
    Hand.sout0_B V a htbl c t h0 h1 xs
      = Hand.pointStep (F := Ideal) (grid0.coords t) (a.1 0) (Hand.iblk0 V a c 0 t) (Hand.iblk0 V a c 1 t)
          (hw0 a htbl t) xs := by
  unfold Hand.sout0_B
  exact Hand.read_scratch0_B (hw := hw0 a htbl t) ..

theorem sout0_C_eq (c : Dev nD) (t : Fin 806) (h1 : t.val % 403 = 402) (xs : FVec Ideal S1x100096 .f32) :
    Hand.sout0_C V a htbl c t h1 xs
      = Hand.pointStep (F := Ideal) (grid0.coords t) (a.1 0) (Hand.iblk0 V a c 0 t) (Hand.iblk0 V a c 1 t)
          (hw0 a htbl t) xs := by
  unfold Hand.sout0_C
  exact Hand.read_scratch0_C (hw := hw0 a htbl t) ..

theorem scrAt0_last (c : Dev nD)
    (hwin : ∀ (t : Fin 806) (s : Fin 32) (k : Fin 128),
      (Hand.winWord (F := Ideal) (grid0.coords t) (a.1 0) s).toNat
          ≤ (Hand.iblk0 V a c 1 t (ValueIdx.ix1 ⟨128 * s.val + k.val, by have := s.isLt; have := k.isLt; omega⟩)).toNat ∧
        (Hand.iblk0 V a c 1 t (ValueIdx.ix1 ⟨128 * s.val + k.val, by have := s.isLt; have := k.isLt; omega⟩)).toNat
          < (Hand.winWord (F := Ideal) (grid0.coords t) (a.1 0) s).toNat + 256)
    (D : Fin 3301376 → ℕ) (Mg : Fin 1 → Fin 3301376 → EReal)
    (hD : ∀ (t : Fin 806) (j : Fin 4096),
      (Hand.iblk0 V a c 1 t (ValueIdx.ix1 j)).toNat
        = D ⟨4096 * t.val + j.val, by have := t.isLt; have := j.isLt; omega⟩)
    (hM : ∀ (t : Fin 806) (f : Fin 1) (j : Fin 4096),
      Hand.iblk0 V a c 0 t (ValueIdx.ix2 f j)
        = Mg f ⟨4096 * t.val + j.val, by have := t.isLt; have := j.isLt; omega⟩)
    (cc : Fin 2) (f : Fin 1) (n : Fin 100096) :
    Hand.scrAt0 V a htbl c (403 * cc.val + 402) (by have := cc.isLt; show _ < 806; omega) (ValueIdx.ix2 f n)
      = ∑ j : Fin 1650688,
          if D ⟨cc.val * 1650688 + j.val, by have := cc.isLt; have := j.isLt; omega⟩ = n.val then
            Mg f ⟨cc.val * 1650688 + j.val, by have := cc.isLt; have := j.isLt; omega⟩ else 0 :=
  scr0_sum (fun p hp => Hand.scrAt0 V a htbl c p hp) (a.1 0) (fun t => Hand.iblk0 V a c 0 t)
    (fun t => Hand.iblk0 V a c 1 t) (hw0 a htbl)
    (fun t h0 => (Hand.scrAt0_A V a htbl c t h0).trans (sout0_A_eq V a htbl c t h0))
    (fun t h0 => by
      by_cases h1 : t.val % 403 = 402
      · exact (Hand.scrAt0_C V a htbl c t h1).trans (sout0_C_eq V a htbl c t h1 _)
      · exact (Hand.scrAt0_B V a htbl c t h0 h1).trans (sout0_B_eq V a htbl c t h0 h1 _))
    hwin D Mg hD hM cc f n

theorem coords0_flat : ∀ t : Fin grid0.N, (grid0.coords t 0).val * 12896 + (grid0.coords t 1).val * 32 = 32 * t.val := by
  decide +kernel

theorem winWord0_flat (c : Dev nD) (ha : a.1 0 = (tblA0 V c)) (t : Fin 806) (s : Fin 32) :
    Hand.winWord (F := Ideal) (grid0.coords t) (a.1 0) s
      = (tblA0 V c) (ValueIdx.ix1 ⟨32 * t.val + s.val, by have := t.isLt; have := s.isLt; omega⟩) := by
  unfold Hand.winWord
  rw [ha]
  refine congrArg (fun K : Fin 25792 => (tblA0 V c) (ValueIdx.ix1 K)) (Fin.ext ?_)
  show (grid0.coords t 0).val * 12896 + (grid0.coords t 1).val * 32 + s.val = 32 * t.val + s.val
  rw [coords0_flat t]

theorem hwin0_of (c : Dev nD) (ha : a.1 0 = (tblA0 V c))
    (hwin : ∀ (K : Fin 25792) (l : Fin 128),
      ((tblA0 V c) (ValueIdx.ix1 K)).toNat
          ≤ ((dstA0 V c) (ValueIdx.ix1 ⟨128 * K.val + l.val, by have := K.isLt; have := l.isLt; omega⟩)).toNat ∧
        ((dstA0 V c) (ValueIdx.ix1 ⟨128 * K.val + l.val, by have := K.isLt; have := l.isLt; omega⟩)).toNat
          < ((tblA0 V c) (ValueIdx.ix1 K)).toNat + 256)
    (hlaneD : ∀ (t : Fin 806) (j : Fin 4096),
      Hand.iblk0 V a c 1 t (ValueIdx.ix1 j)
        = (dstA0 V c) (ValueIdx.ix1 ⟨4096 * t.val + j.val, by have := t.isLt; have := j.isLt; omega⟩))
    (t : Fin 806) (s : Fin 32) (k : Fin 128) :
    (Hand.winWord (F := Ideal) (grid0.coords t) (a.1 0) s).toNat
        ≤ (Hand.iblk0 V a c 1 t (ValueIdx.ix1 ⟨128 * s.val + k.val, by have := s.isLt; have := k.isLt; omega⟩)).toNat ∧
      (Hand.iblk0 V a c 1 t (ValueIdx.ix1 ⟨128 * s.val + k.val, by have := s.isLt; have := k.isLt; omega⟩)).toNat
        < (Hand.winWord (F := Ideal) (grid0.coords t) (a.1 0) s).toNat + 256 := by
  have ht := t.isLt
  have hs := s.isLt
  have hk := k.isLt
  rw [winWord0_flat V a c ha t s, hlaneD]
  have e : (⟨4096 * t.val + (128 * s.val + k.val), by omega⟩ : Fin 3301376)
      = ⟨128 * (32 * t.val + s.val) + k.val, by omega⟩ :=
    Fin.ext (by show 4096 * t.val + (128 * s.val + k.val) = 128 * (32 * t.val + s.val) + k.val; omega)
  rw [e]
  exact hwin ⟨32 * t.val + s.val, by omega⟩ k

theorem scatter0_arrAt_of (c : Dev nD) (ha : a.1 0 = (tblA0 V c))
    (hwin : ∀ (K : Fin 25792) (l : Fin 128),
      ((tblA0 V c) (ValueIdx.ix1 K)).toNat
          ≤ ((dstA0 V c) (ValueIdx.ix1 ⟨128 * K.val + l.val, by have := K.isLt; have := l.isLt; omega⟩)).toNat ∧
        ((dstA0 V c) (ValueIdx.ix1 ⟨128 * K.val + l.val, by have := K.isLt; have := l.isLt; omega⟩)).toNat
          < ((tblA0 V c) (ValueIdx.ix1 K)).toNat + 256)
    (hlaneD : ∀ (t : Fin 806) (j : Fin 4096),
      Hand.iblk0 V a c 1 t (ValueIdx.ix1 j)
        = (dstA0 V c) (ValueIdx.ix1 ⟨4096 * t.val + j.val, by have := t.isLt; have := j.isLt; omega⟩))
    (hlaneM : ∀ (t : Fin 806) (f : Fin 1) (j : Fin 4096),
      Hand.iblk0 V a c 0 t (ValueIdx.ix2 f j)
        = (msgA0 V c) (ValueIdx.ix2 f ⟨4096 * t.val + j.val, by have := t.isLt; have := j.isLt; omega⟩))
    (harr : ∀ (cc : Fin 2) (f : Fin 1) (n : Fin 100096),
      (Hand.dat0 V a htbl c).arrAt 2 grid0.N
          (ValueIdx.ix2 f ⟨cc.val * 100096 + n.val, by have := cc.isLt; have := n.isLt; omega⟩)
        = Hand.scrAt0 V a htbl c (403 * cc.val + 402) (by have := cc.isLt; show _ < 806; omega) (ValueIdx.ix2 f n))
    (cc : Fin 2) (f : Fin 1) (n : Fin 100096) :
    (Hand.dat0 V a htbl c).arrAt 2 grid0.N
        (ValueIdx.ix2 f ⟨cc.val * 100096 + n.val, by have := cc.isLt; have := n.isLt; omega⟩)
      = ∑ j : Fin 1650688,
          if ((dstA0 V c)
                (ValueIdx.ix1 ⟨cc.val * 1650688 + j.val, by have := cc.isLt; have := j.isLt; omega⟩)).toNat = n.val then
            ((msgA0 V c)
              (ValueIdx.ix2 f ⟨cc.val * 1650688 + j.val, by have := cc.isLt; have := j.isLt; omega⟩) : EReal) else 0 := by
  rw [harr cc f n]
  exact scrAt0_last V a htbl c (hwin0_of V a c ha hwin hlaneD)
    (fun j => ((dstA0 V c) (ValueIdx.ix1 j)).toNat) (fun (f : Fin 1) (j : Fin 3301376) => ((msgA0 V c) (ValueIdx.ix2 f j) : EReal))
    (fun t j => congrArg BitVec.toNat (hlaneD t j)) hlaneM cc f n

theorem scatter0_arrAt_of_block (c : Dev nD) (ha : a.1 0 = (tblA0 V c))
    (hwin : ∀ (K : Fin 25792) (l : Fin 128),
      ((tblA0 V c) (ValueIdx.ix1 K)).toNat
          ≤ ((dstA0 V c) (ValueIdx.ix1 ⟨128 * K.val + l.val, by have := K.isLt; have := l.isLt; omega⟩)).toNat ∧
        ((dstA0 V c) (ValueIdx.ix1 ⟨128 * K.val + l.val, by have := K.isLt; have := l.isLt; omega⟩)).toNat
          < ((tblA0 V c) (ValueIdx.ix1 K)).toNat + 256)
    (harr : ∀ (cc : Fin 2) (f : Fin 1) (n : Fin 100096),
      (Hand.dat0 V a htbl c).arrAt 2 grid0.N
          (ValueIdx.ix2 f ⟨cc.val * 100096 + n.val, by have := cc.isLt; have := n.isLt; omega⟩)
        = Hand.scrAt0 V a htbl c (403 * cc.val + 402) (by have := cc.isLt; show _ < 806; omega) (ValueIdx.ix2 f n))
    (cc : Fin 2) (f : Fin 1) (n : Fin 100096) :
    (Hand.dat0 V a htbl c).arrAt 2 grid0.N
        (ValueIdx.ix2 f ⟨cc.val * 100096 + n.val, by have := cc.isLt; have := n.isLt; omega⟩)
      = ∑ j : Fin 1650688,
          if ((dstA0 V c)
                (ValueIdx.ix1 ⟨cc.val * 1650688 + j.val, by have := cc.isLt; have := j.isLt; omega⟩)).toNat = n.val then
            ((msgA0 V c)
              (ValueIdx.ix2 f ⟨cc.val * 1650688 + j.val, by have := cc.isLt; have := j.isLt; omega⟩) : EReal) else 0 :=
  scatter0_arrAt_of V a htbl c ha hwin (fun t j => Hand.iblk0_dst_lane V a c t j)
    (fun t f j => Hand.iblk0_msg_lane V a c t f j) harr cc f n

theorem scatter0_arrAt (c : Dev nD) (ha : a.1 0 = (tblA0 V c))
    (hwin : ∀ (K : Fin 25792) (l : Fin 128),
      ((tblA0 V c) (ValueIdx.ix1 K)).toNat
          ≤ ((dstA0 V c) (ValueIdx.ix1 ⟨128 * K.val + l.val, by have := K.isLt; have := l.isLt; omega⟩)).toNat ∧
        ((dstA0 V c) (ValueIdx.ix1 ⟨128 * K.val + l.val, by have := K.isLt; have := l.isLt; omega⟩)).toNat
          < ((tblA0 V c) (ValueIdx.ix1 K)).toNat + 256)
    (cc : Fin 2) (f : Fin 1) (n : Fin 100096) :
    (Hand.dat0 V a htbl c).arrAt 2 grid0.N
        (ValueIdx.ix2 f ⟨cc.val * 100096 + n.val, by have := cc.isLt; have := n.isLt; omega⟩)
      = ∑ j : Fin 1650688,
          if ((dstA0 V c)
                (ValueIdx.ix1 ⟨cc.val * 1650688 + j.val, by have := cc.isLt; have := j.isLt; omega⟩)).toNat = n.val then
            ((msgA0 V c)
              (ValueIdx.ix2 f ⟨cc.val * 1650688 + j.val, by have := cc.isLt; have := j.isLt; omega⟩) : EReal) else 0 :=
  scatter0_arrAt_of_block V a htbl c ha hwin (fun cc f n => Hand.arrAt0_block V a htbl c f cc n _ _) cc f n

end Region

end Cert.KernelIdeal.HandValue

end
-- ==== Proof.KI.WinIdeal1.lean ====
import proofs.«401711_j53747220742790_3_alg».proof.Proof.Gen.KernelIdeal.Skeleton
import proofs.«401711_j53747220742790_3_alg».proof.Proof.KI.Body1
import proofs.«401711_j53747220742790_3_alg».proof.Proof.KI.OneHot
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandValue

open Cert.KernelIdeal Cert.KernelIdeal.Gen
open Idealize.ShloMosaic Idealize.ShloMosaic.ValueIdx Idealize.SL.Sem

theorem lhs_winR1_0 (i : S1x256.Idx) (q : dot_S1x128_S256x128_S1x256_1_1_0_0_n_n.contr.Idx) :
    (dot_S1x128_S256x128_S1x256_1_1_0_0_n_n.lhsIdx i q 0).val = (i 0).val := by
  unfold DotDims.lhsIdx
  rw [dif_neg (show ¬(0 : Fin S1x128.rank) ∈ dot_S1x128_S256x128_S1x256_1_1_0_0_n_n.lhsBatch by decide), dif_pos (show (0 : Fin S1x128.rank) ∈ dot_S1x128_S256x128_S1x256_1_1_0_0_n_n.lhsNonContracting by decide)]
  rfl

theorem lhs_winR1_1 (i : S1x256.Idx) (q : dot_S1x128_S256x128_S1x256_1_1_0_0_n_n.contr.Idx) :
    (dot_S1x128_S256x128_S1x256_1_1_0_0_n_n.lhsIdx i q 1).val = (q ⟨0, by decide⟩).val :=
  dot_S1x128_S256x128_S1x256_1_1_0_0_n_n.lhsIdx_val_of_single rfl i q

theorem rhs_winR1_0 (i : S1x256.Idx) (q : dot_S1x128_S256x128_S1x256_1_1_0_0_n_n.contr.Idx) :
    (dot_S1x128_S256x128_S1x256_1_1_0_0_n_n.rhsIdx i q 0).val = (i 1).val := by
  unfold DotDims.rhsIdx
  rw [dif_neg (show ¬(0 : Fin S256x128.rank) ∈ dot_S1x128_S256x128_S1x256_1_1_0_0_n_n.rhsBatch by decide), dif_pos (show (0 : Fin S256x128.rank) ∈ dot_S1x128_S256x128_S1x256_1_1_0_0_n_n.rhsNonContracting by decide)]
  rfl

theorem rhs_winR1_1 (i : S1x256.Idx) (q : dot_S1x128_S256x128_S1x256_1_1_0_0_n_n.contr.Idx) :
    (dot_S1x128_S256x128_S1x256_1_1_0_0_n_n.rhsIdx i q 1).val = (q ⟨0, by decide⟩).val :=
  dot_S1x128_S256x128_S1x256_1_1_0_0_n_n.rhsIdx_val_of_single rfl i q

theorem matmul_winR1_apply (l : FVec Ideal S1x128 .f32) (m : FVec Ideal S256x128 .f32) (f : Fin 1) (r : Fin 256) :
    matmul dot_S1x128_S256x128_S1x256_1_1_0_0_n_n none l m (constant (F := Ideal) S1x256 .f32 0x00000000#32) (ValueIdx.ix2 f r)
      = ∑ k : Fin 128, l (ValueIdx.ix2 f k) * m (ValueIdx.ix2 r k) := by
  simp only [matmul]
  rw [Ideal.matmul_constant_zero_apply, ← Equiv.sum_comp (ValueIdx.contrEquiv1 dot_S1x128_S256x128_S1x256_1_1_0_0_n_n 128 rfl rfl).symm]
  refine Finset.sum_congr rfl fun k _ => ?_
  have hk := ValueIdx.contrEquiv1_symm_val dot_S1x128_S256x128_S1x256_1_1_0_0_n_n 128 rfl rfl k
  have el : dot_S1x128_S256x128_S1x256_1_1_0_0_n_n.lhsIdx (ValueIdx.ix2 f r) ((ValueIdx.contrEquiv1 dot_S1x128_S256x128_S1x256_1_1_0_0_n_n 128 rfl rfl).symm k) = ValueIdx.ix2 f k := funext fun a => Fin.ext (by
    match a with
    | ⟨0, _⟩ => exact lhs_winR1_0 _ _
    | ⟨1, _⟩ => exact (lhs_winR1_1 _ _).trans hk)
  have er : dot_S1x128_S256x128_S1x256_1_1_0_0_n_n.rhsIdx (ValueIdx.ix2 f r) ((ValueIdx.contrEquiv1 dot_S1x128_S256x128_S1x256_1_1_0_0_n_n 128 rfl rfl).symm k) = ValueIdx.ix2 r k := funext fun a => Fin.ext (by
    match a with
    | ⟨0, _⟩ => exact rhs_winR1_0 _ _
    | ⟨1, _⟩ => exact (rhs_winR1_1 _ _).trans hk)
  rw [el, er]

theorem pay3R1_apply (v9 : BitVec 32) (v11 : FVec Ideal S1x128 .f32) (v13 : IVec S128 32) (v24 : FVec Ideal S1x256 .f32) (f : Fin 1) (r : Fin 256) :
    k1_pay3 (F := Ideal) v9 v11 v13 v24 (ValueIdx.ix2 f r)
      = v24 (ValueIdx.ix2 f r) + ∑ k : Fin 128, v11 (ValueIdx.ix2 f k) * (if v13 (ValueIdx.ix1 k) - v9 = BitVec.ofNat 32 r.val then (1 : EReal) else 0) := by
  unfold k1_pay3
  simp only [shapeCast_self]
  show v24 (ValueIdx.ix2 f r) + matmul dot_S1x128_S256x128_S1x256_1_1_0_0_n_n none v11 _ (constant (F := Ideal) S1x256 .f32 0x00000000#32) (ValueIdx.ix2 f r) = _
  refine congrArg (v24 (ValueIdx.ix2 f r) + ·) ((matmul_winR1_apply v11 _ f r).trans ?_)
  exact Finset.sum_congr rfl fun k _ => congrArg (v11 (ValueIdx.ix2 f k) * ·) (onehot_apply v9 v13 r k)

theorem pay3R1_window (v9 : BitVec 32) (v11 : FVec Ideal S1x128 .f32) (v13 : IVec S128 32) (v24 : FVec Ideal S1x256 .f32)
    (hwin : ∀ k : Fin 128, v9.toNat ≤ (v13 (ValueIdx.ix1 k)).toNat ∧ (v13 (ValueIdx.ix1 k)).toNat < v9.toNat + 256)
    (f : Fin 1) (n : ℕ) (hn : v9.toNat ≤ n ∧ n < v9.toNat + 256) :
    k1_pay3 (F := Ideal) v9 v11 v13 v24 (ValueIdx.ix2 f (⟨n - v9.toNat, by omega⟩ : Fin 256))
      = v24 (ValueIdx.ix2 f (⟨n - v9.toNat, by omega⟩ : Fin 256))
        + ∑ k : Fin 128, if (v13 (ValueIdx.ix1 k)).toNat = n then v11 (ValueIdx.ix2 f k) else 0 := by
  rw [pay3R1_apply]
  refine congrArg (v24 _ + ·) (Finset.sum_congr rfl fun k _ => ?_)
  have hk := hwin k
  have hb := v9.isLt
  have hd := (v13 (ValueIdx.ix1 k)).isLt
  have hiff : v13 (ValueIdx.ix1 k) - v9 = BitVec.ofNat 32 (n - v9.toNat) ↔ (v13 (ValueIdx.ix1 k)).toNat = n := by
    rw [← BitVec.toNat_inj]
    simp only [BitVec.toNat_sub, BitVec.toNat_ofNat]
    omega
  by_cases h : (v13 (ValueIdx.ix1 k)).toNat = n
  · rw [if_pos h, if_pos (hiff.mpr h), mul_one]
  · rw [if_neg h, if_neg (fun h' => h (hiff.mp h')), mul_zero]

theorem winUpd1_window (base : BitVec 32) (msgc : FVec Ideal S1x128 .f32) (dstc : IVec S128 32) (cur : FVec Ideal S1x256 .f32)
    (hwin : ∀ k : Fin 128, base.toNat ≤ (dstc (ValueIdx.ix1 k)).toNat ∧ (dstc (ValueIdx.ix1 k)).toNat < base.toNat + 256)
    (f : Fin 1) (n : ℕ) (hn : base.toNat ≤ n ∧ n < base.toNat + 256) :
    Hand.winUpd1 (F := Ideal) base msgc dstc cur (ValueIdx.ix2 f (⟨n - base.toNat, by omega⟩ : Fin 256))
      = cur (ValueIdx.ix2 f (⟨n - base.toNat, by omega⟩ : Fin 256))
        + ∑ k : Fin 128, if (dstc (ValueIdx.ix1 k)).toNat = n then msgc (ValueIdx.ix2 f k) else 0 :=
  pay3R1_window base msgc dstc cur hwin f n hn

end Cert.KernelIdeal.HandValue

end
-- ==== Proof.KI.Body1Fold.lean ====
import proofs.«401711_j53747220742790_3_alg».proof.Proof.KI.Body1
import proofs.«401711_j53747220742790_3_alg».proof.Proof.KI.Body1Cover
import proofs.«401711_j53747220742790_3_alg».proof.Proof.KI.ScratchStep
import Idealize.ShloMosaic.Lib.WholeRead

set_option maxRecDepth 16384

noncomputable section

namespace Cert.KernelIdeal.Hand1

open Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.HandValue

variable {F : FTy → Type} [FloatOps F]
variable {Ix : Type} [DecidableEq Ix] {U : Type} [URA U] {Lvl : Type} [Preorder Lvl]

local notation "𝕄" => MT nD τ sig Ix (Elt F) ℕ U Lvl

theorem lanes_lt {w : ℕ} (hw : w + 256 ≤ 100096) (r : Fin 256) : w + r.val < 100096 := by
  have := r.isLt; omega

theorem lane_sub_lt {w n : ℕ} (h : w ≤ n ∧ n < w + 256) : n - w < 256 := by omega

theorem lane_le_S1x100096 {off : Fin 2 → ℕ} {w : ℕ} (inb : ∀ a, off a + S1x256.size a ≤ S1x100096.size a)
    (hoff : off = ![0, w]) : w + 256 ≤ 100096 := by
  subst hoff; exact inb 1

def lanesAt (w : ℕ) (hw : w + 256 ≤ 100096) (S : Vec F S1x100096 .f32) : Vec F S1x256 .f32 :=
  fun j => S (ValueIdx.ix2 (j 0) ⟨w + (j 1).val, lanes_lt hw (j 1)⟩)

def winStep (w : BitVec 32) (hw : w.toNat + 256 ≤ 100096) (msgc : Vec F S1x128 .f32) (dstc : Vec F S128 .i32)
    (S : Vec F S1x100096 .f32) : Vec F S1x100096 .f32 :=
  fun y => if h : w.toNat ≤ (y 1).val ∧ (y 1).val < w.toNat + 256 then
      winUpd1 w msgc dstc (lanesAt w.toNat hw S) (ValueIdx.ix2 (y 0) ⟨(y 1).val - w.toNat, lane_sub_lt h⟩)
    else S y

theorem winStep_apply (w : BitVec 32) (hw : w.toNat + 256 ≤ 100096) (msgc : Vec F S1x128 .f32) (dstc : Vec F S128 .i32)
    (S : Vec F S1x100096 .f32) (f : Fin 1) (n : Fin 100096) :
    winStep w hw msgc dstc S (ValueIdx.ix2 f n)
      = if h : w.toNat ≤ n.val ∧ n.val < w.toNat + 256 then
          winUpd1 w msgc dstc (lanesAt w.toNat hw S) (ValueIdx.ix2 f ⟨n.val - w.toNat, lane_sub_lt h⟩)
        else S (ValueIdx.ix2 f n) := rfl

section Step

variable {sig : RefSig} {κ : Kind} {sp : Space}

theorem readAt_eq_lanesAt (v : View sig κ sp S1x100096 .f32) (g : v.ty.Contents (Elt F)) {off : Fin 2 → ℕ} {w : ℕ}
    (inb : ∀ a, off a + S1x256.size a ≤ S1x100096.size a) (hoff : off = ![0, w]) :
    v.readAt (Elt F) (Rect.unit (s := S1x100096) off S1x256.size inb).toLoadRect g
      = lanesAt w (lane_le_S1x100096 inb hoff) (v.read (Elt F) g) := by
  funext j
  obtain ⟨f, r, rfl⟩ : ∃ (f : Fin 1) (r : Fin 256), j = ValueIdx.ix2 f r := ⟨j 0, j 1, ValueIdx.eq_ix2 j⟩
  exact readAt_window v g inb hoff f r

theorem read_writes_cons_winStep (v : View sig κ sp S1x100096 .f32) (g : v.ty.Contents (Elt F)) {off : Fin 2 → ℕ}
    (inb : ∀ a, off a + S1x256.size a ≤ S1x100096.size a) (L : List (View.Piece (Elt F) S1x100096 .f32))
    (w : BitVec 32) (hoff : off = ![0, w.toNat]) (msgc : Vec F S1x128 .f32) (dstc : Vec F S128 .i32) :
    v.read (Elt F) (v.writes (Elt F) g
        ((⟨Rect.unit (s := S1x100096) off S1x256.size inb,
            winUpd1 w msgc dstc (v.readAt (Elt F) (Rect.unit (s := S1x100096) off S1x256.size inb).toLoadRect (v.writes (Elt F) g L))⟩
          : View.Piece (Elt F) S1x100096 .f32) :: L))
      = winStep w (lane_le_S1x100096 inb hoff) msgc dstc (v.read (Elt F) (v.writes (Elt F) g L)) := by
  funext y
  obtain ⟨f, n, rfl⟩ : ∃ (f : Fin 1) (n : Fin 100096), y = ValueIdx.ix2 f n := ⟨y 0, y 1, ValueIdx.eq_ix2 y⟩
  rw [read_writes_cons_window v g inb _ L hoff f n, winStep_apply, readAt_eq_lanesAt v _ inb hoff]

end Step

def tblIdx (i : grid1.Coords) (s : Fin 32) : Fin 25792 :=
  ⟨(i 0).val * 12896 + (i 1).val * 32 + s.val, by
    have h0 : (i 0).val < 2 := (i 0).isLt
    have h1 : (i 1).val < 403 := (i 1).isLt
    have := s.isLt
    omega⟩

def winWord (i : grid1.Coords) (x2 : Vec F S25792 .i32) (s : Fin 32) : BitVec 32 := x2 (ValueIdx.ix1 (tblIdx i s))

theorem chunk_lt (s : Fin 32) (r : Fin 128) : 128 * s.val + r.val < 4096 := by
  have := s.isLt; have := r.isLt; omega

def msgChunk (x3 : Vec F S1x4096 .f32) (s : Fin 32) : Vec F S1x128 .f32 :=
  fun j => x3 (ValueIdx.ix2 (j 0) ⟨128 * s.val + (j 1).val, chunk_lt s (j 1)⟩)

def dstChunk (x4 : Vec F S4096 .i32) (s : Fin 32) : Vec F S128 .i32 :=
  fun j => x4 (ValueIdx.ix1 ⟨128 * s.val + (j 0).val, chunk_lt s (j 0)⟩)

theorem tbl_toNat (a b k : ℕ) (ha : a < 2) (hb : b < 403) (hk : k < 32) :
    (Scalar.indexCast (Scalar.addi (Scalar.addi (Scalar.muli (BitVec.ofNat 32 a) 12896#32)
      (Scalar.muli (BitVec.ofNat 32 b) 32#32)) (BitVec.ofNat 32 k))).toNat = a * 12896 + b * 32 + k := by
  simp only [Scalar.indexCast, Scalar.addi, Scalar.muli, IntOp.addi, IntOp.muli, BitVec.toNat_add, BitVec.toNat_mul,
    BitVec.toNat_ofNat]
  omega

theorem tbl_toNat_at (i : grid1.Coords) (s : Fin 32) :
    (Scalar.indexCast (Scalar.addi (Scalar.addi (Scalar.muli (BitVec.ofNat 32 (i 0).val) 12896#32)
      (Scalar.muli (BitVec.ofNat 32 (i 1).val) 32#32)) (BitVec.ofNat 32 s.val))).toNat = (tblIdx i s).val :=
  tbl_toNat (i 0).val (i 1).val s.val (i 0).isLt (i 1).isLt s.isLt

section Reads

variable (arg2 : Memref sig .tc .smem S25792 .i32) (harg2 : arg2.IsWhole) (x2 : Vec F S25792 .i32)
  (arg3 : Memref sig .tc .vmem S1x4096 .f32) (harg3 : arg3.IsWhole) (x3 : Vec F S1x4096 .f32)
  (arg4 : Memref sig .tc .vmem S4096 .i32) (harg4 : arg4.IsWhole) (x4 : Vec F S4096 .i32)

abbrev rdWord (off : Fin 1 → ℕ) (inb : ∀ a, off a + S1.size a ≤ S25792.size a) : Elt F .i32 :=
  arg2.view.readAt (Elt F) (Rect.unit (s := S25792) off S1.size inb).toLoadRect (harg2.unread x2)
    (Shape.Idx.first (numel1_S1.symm ▸ Nat.one_pos))

abbrev rdMsg (off : Fin 2 → ℕ) (inb : ∀ a, off a + S1x128.size a ≤ S1x4096.size a) : Vec F S1x128 .f32 :=
  arg3.view.readAt (Elt F) (Rect.unit (s := S1x4096) off S1x128.size inb).toLoadRect (harg3.unread x3)

abbrev rdDst (off : Fin 1 → ℕ) (inb : ∀ a, off a + S128.size a ≤ S4096.size a) : Vec F S128 .i32 :=
  arg4.view.readAt (Elt F) (Rect.unit (s := S4096) off S128.size inb).toLoadRect (harg4.unread x4)

theorem rdWord_eq (off : Fin 1 → ℕ) (inb : ∀ a, off a + S1.size a ≤ S25792.size a) (i : grid1.Coords) (s : Fin 32)
    (ho : off 0 = (tblIdx i s).val) : rdWord arg2 harg2 x2 off inb = winWord i x2 s := by
  unfold rdWord winWord
  rw [harg2.readAt_unread x2]
  refine congrArg x2 (funext fun a => Fin.ext ?_)
  match a with
  | ⟨0, _⟩ => show off 0 + 1 * 0 = (tblIdx i s).val; omega

theorem rdMsg_eq (off : Fin 2 → ℕ) (inb : ∀ a, off a + S1x128.size a ≤ S1x4096.size a) (s : Fin 32)
    (ho : off = ![0, 128 * s.val]) : rdMsg arg3 harg3 x3 off inb = msgChunk x3 s := by
  subst ho
  funext j
  unfold rdMsg msgChunk
  rw [harg3.readAt_unread x3]
  refine congrArg x3 (funext fun a => Fin.ext ?_)
  match a with
  | ⟨0, _⟩ => show 0 + 1 * (j 0).val = (j 0).val; omega
  | ⟨1, _⟩ => show 128 * s.val + 1 * (j 1).val = 128 * s.val + (j 1).val; omega

theorem rdDst_eq (off : Fin 1 → ℕ) (inb : ∀ a, off a + S128.size a ≤ S4096.size a) (s : Fin 32)
    (ho : off = ![128 * s.val]) : rdDst arg4 harg4 x4 off inb = dstChunk x4 s := by
  subst ho
  funext j
  unfold rdDst dstChunk
  rw [harg4.readAt_unread x4]
  refine congrArg x4 (funext fun a => Fin.ext ?_)
  match a with
  | ⟨0, _⟩ => show 128 * s.val + 1 * (j 0).val = 128 * s.val + (j 0).val; omega

end Reads

def winFoldN (i : grid1.Coords) (x2 : Vec F S25792 .i32) (x3 : Vec F S1x4096 .f32) (x4 : Vec F S4096 .i32)
    (hw : ∀ s : Fin 32, (winWord i x2 s).toNat + 256 ≤ 100096) :
    (t : ℕ) → t ≤ 32 → Vec F S1x100096 .f32 → Vec F S1x100096 .f32
  | 0, _, S => S
  | t + 1, h, S =>
    winStep (winWord i x2 ⟨t, h⟩) (hw ⟨t, h⟩) (msgChunk x3 ⟨t, h⟩) (dstChunk x4 ⟨t, h⟩)
      (winFoldN i x2 x3 x4 hw t (Nat.le_of_succ_le h) S)

def pointStep (i : grid1.Coords) (x2 : Vec F S25792 .i32) (x3 : Vec F S1x4096 .f32) (x4 : Vec F S4096 .i32)
    (hw : ∀ s : Fin 32, (winWord i x2 s).toNat + 256 ≤ 100096) (S : Vec F S1x100096 .f32) : Vec F S1x100096 .f32 :=
  winFoldN i x2 x3 x4 hw 32 (Nat.le_refl 32) S

theorem winFoldN_succ (i : grid1.Coords) (x2 : Vec F S25792 .i32) (x3 : Vec F S1x4096 .f32) (x4 : Vec F S4096 .i32)
    (hw : ∀ s : Fin 32, (winWord i x2 s).toNat + 256 ≤ 100096) (t : ℕ) (h : t + 1 ≤ 32) (S : Vec F S1x100096 .f32) :
    winFoldN i x2 x3 x4 hw (t + 1) h S
      = winStep (winWord i x2 ⟨t, h⟩) (hw ⟨t, h⟩) (msgChunk x3 ⟨t, h⟩) (dstChunk x4 ⟨t, h⟩)
          (winFoldN i x2 x3 x4 hw t (Nat.le_of_succ_le h) S) := rfl

theorem fold_step {R S S' : Vec F S1x100096 .f32} {w w' : BitVec 32} {hw : w.toNat + 256 ≤ 100096}
    {hw' : w'.toNat + 256 ≤ 100096} {m m' : Vec F S1x128 .f32} {d d' : Vec F S128 .i32}
    (h : R = winStep w hw m d S) (ew : w = w') (em : m = m') (ed : d = d') (eS : S = S') :
    R = winStep w' hw' m' d' S' := by
  subst ew em ed eS; exact h

section Chain

variable (arg2 : Memref sig .tc .smem S25792 .i32) (harg2 : arg2.IsWhole) (x2 : Vec F S25792 .i32)
  (arg3 : Memref sig .tc .vmem S1x4096 .f32) (harg3 : arg3.IsWhole) (x3 : Vec F S1x4096 .f32)
  (arg4 : Memref sig .tc .vmem S4096 .i32) (harg4 : arg4.IsWhole) (x4 : Vec F S4096 .i32)
  {κ : Kind} {sp : Space} (v : View sig κ sp S1x100096 .f32) (g : v.ty.Contents (Elt F)) (i : grid1.Coords)
  (hw : ∀ s : Fin 32, (winWord i x2 s).toNat + 256 ≤ 100096)

-- Where window s's base word sits in the table, in the word arithmetic the body computes it with.
def wOff (i : grid1.Coords) (s : Fin 32) : Fin 1 → ℕ :=
  ![(Scalar.indexCast (Scalar.addi (Scalar.addi (Scalar.muli (BitVec.ofNat 32 (i 0).val) 12896#32)
      (Scalar.muli (BitVec.ofNat 32 (i 1).val) 32#32)) (BitVec.ofNat 32 s.val))).toNat]

theorem wOff_inb (i : grid1.Coords) (s : Fin 32) : ∀ a, wOff i s a + S1.size a ≤ S25792.size a := fun a => by
  have h := (tblIdx i s).isLt
  rw [← tbl_toNat_at i s] at h
  fin_cases a; exact h

theorem mOff_inb (s : Fin 32) : ∀ a, (![0, 128 * s.val] : Fin 2 → ℕ) a + S1x128.size a ≤ S1x4096.size a := fun a => by
  have := s.isLt
  fin_cases a
  · exact Nat.le_refl _
  · show 128 * s.val + 128 ≤ 4096; omega

theorem dOff_inb (s : Fin 32) : ∀ a, (![128 * s.val] : Fin 1 → ℕ) a + S128.size a ≤ S4096.size a := fun a => by
  have := s.isLt
  fin_cases a; show 128 * s.val + 128 ≤ 4096; omega

include hw in
theorem win_inb (s : Fin 32) : ∀ a, (![0, (rdWord arg2 harg2 x2 (wOff i s) (wOff_inb i s)).toNat] : Fin 2 → ℕ) a
    + S1x256.size a ≤ S1x100096.size a := fun a => by
  have h := hw s
  rw [← rdWord_eq arg2 harg2 x2 _ (wOff_inb i s) i s (tbl_toNat_at i s)] at h
  fin_cases a
  · exact Nat.le_refl _
  · exact h

-- The first t window stores of a point, newest first, on top of the stores L0: window s loads its base word, its two chunks
-- and its 256 lanes as the earlier stores left them, and stores the updated lanes.
def winPieces (L0 : List (View.Piece (Elt F) S1x100096 .f32)) :
    (t : ℕ) → t ≤ 32 → List (View.Piece (Elt F) S1x100096 .f32)
  | 0, _ => L0
  | t + 1, h =>
    (⟨Rect.unit (s := S1x100096) _ S1x256.size (win_inb arg2 harg2 x2 i hw ⟨t, h⟩),
      winUpd1 (rdWord arg2 harg2 x2 _ (wOff_inb i ⟨t, h⟩)) (rdMsg arg3 harg3 x3 _ (mOff_inb ⟨t, h⟩)) (rdDst arg4 harg4 x4 _ (dOff_inb ⟨t, h⟩))
        (v.readAt (Elt F) (Rect.unit (s := S1x100096) _ S1x256.size (win_inb arg2 harg2 x2 i hw ⟨t, h⟩)).toLoadRect
          (v.writes (Elt F) g (winPieces L0 t (Nat.le_of_succ_le h))))⟩ : View.Piece (Elt F) S1x100096 .f32)
      :: winPieces L0 t (Nat.le_of_succ_le h)

-- Read back, the first t window stores are the first t window steps of what the stores under them left.
theorem read_winPieces (L0 : List (View.Piece (Elt F) S1x100096 .f32)) : ∀ (t : ℕ) (h : t ≤ 32),
    v.read (Elt F) (v.writes (Elt F) g (winPieces arg2 harg2 x2 arg3 harg3 x3 arg4 harg4 x4 v g i hw L0 t h))
      = winFoldN i x2 x3 x4 hw t h (v.read (Elt F) (v.writes (Elt F) g L0))
  | 0, _ => rfl
  | t + 1, h =>
    fold_step (read_writes_cons_winStep v g _ _ _ rfl _ _) (rdWord_eq arg2 harg2 x2 _ _ i ⟨t, h⟩ (tbl_toNat_at i ⟨t, h⟩))
      (rdMsg_eq arg3 harg3 x3 _ _ ⟨t, h⟩ rfl) (rdDst_eq arg4 harg4 x4 _ _ ⟨t, h⟩ rfl)
      (read_winPieces L0 t (Nat.le_of_succ_le h))

end Chain

section Whole

variable {sig : RefSig} {κ : Kind} {sp : Space}

theorem read_writes_whole (v : View sig κ sp S1x100096 .f32) (g : v.ty.Contents (Elt F)) (p : Vec F S1x100096 .f32) :
    v.read (Elt F) (v.writes (Elt F) g
        [(⟨Rect.unit (s := S1x100096) ![0, 0] S1x100096.size inb_S1x100096_S1x100096_0_0, p⟩ : View.Piece (Elt F) S1x100096 .f32)])
      = p := by
  funext y
  refine View.read_writes_cons_unit_of_mem v g inb_S1x100096_S1x100096_0_0 p [] y y rfl fun a => ?_
  match a with
  | ⟨0, _⟩ => show (y 0).val = 0 + (y 0).val; omega
  | ⟨1, _⟩ => show (y 1).val = 0 + (y 1).val; omega

theorem readAt_whole (v : View sig κ sp S1x100096 .f32) (g : v.ty.Contents (Elt F)) :
    v.readAt (Elt F) (Rect.unit (s := S1x100096) ![0, 0] S1x100096.size inb_S1x100096_S1x100096_0_0).toLoadRect g
      = v.read (Elt F) g := by
  funext y
  rw [View.readAt_apply]
  refine congrArg (v.read (Elt F) g) (funext fun a => Fin.ext ?_)
  match a with
  | ⟨0, _⟩ => show 0 + 1 * (y 0).val = (y 0).val; omega
  | ⟨1, _⟩ => show 0 + 1 * (y 1).val = (y 1).val; omega

end Whole

set_option maxHeartbeats 1000000 in

theorem read_scratch1_B (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond1_0 i) (hc1 : ¬cond1_1 i)
    (x2 : Vec F S25792 .i32) (x3 : Vec F S1x4096 .f32) (x4 : Vec F S4096 .i32) (xs : Vec F S1x100096 .f32)
    (hks : Hw1 i arg2 harg2 x2)
    (hw : ∀ s : Fin 32, (winWord i x2 s).toNat + 256 ≤ 100096) :
    arg6.view.read (Elt F) (arg6.view.writes (Elt F) (harg6.unread xs)
        (kernelRun1_B (Ix := Ix) (U := U) (Lvl := Lvl) 𝒱₀ c i arg2 harg2 arg3 harg3 arg4 harg4 arg5 harg5 arg6 harg6 hc0 hc1 x2 x3 x4 xs hks).1)
      = pointStep i x2 x3 x4 hw xs :=
  (read_winPieces arg2 harg2 x2 arg3 harg3 x3 arg4 harg4 x4 arg6.view (harg6.unread xs) i hw [] 32 (Nat.le_refl 32)).trans
    (congrArg (winFoldN i x2 x3 x4 hw 32 (Nat.le_refl 32)) (harg6.read_unread xs))

set_option maxHeartbeats 1000000 in

theorem read_scratch1_C (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond1_0 i) (hc1 : cond1_1 i)
    (x2 : Vec F S25792 .i32) (x3 : Vec F S1x4096 .f32) (x4 : Vec F S4096 .i32) (xs : Vec F S1x100096 .f32)
    (hks : Hw1 i arg2 harg2 x2)
    (hw : ∀ s : Fin 32, (winWord i x2 s).toNat + 256 ≤ 100096) :
    arg6.view.read (Elt F) (arg6.view.writes (Elt F) (harg6.unread xs)
        (kernelRun1_C (Ix := Ix) (U := U) (Lvl := Lvl) 𝒱₀ c i arg2 harg2 arg3 harg3 arg4 harg4 arg5 harg5 arg6 harg6 hc0 hc1 x2 x3 x4 xs hks).2.1)
      = pointStep i x2 x3 x4 hw xs :=
  (read_winPieces arg2 harg2 x2 arg3 harg3 x3 arg4 harg4 x4 arg6.view (harg6.unread xs) i hw [] 32 (Nat.le_refl 32)).trans
    (congrArg (winFoldN i x2 x3 x4 hw 32 (Nat.le_refl 32)) (harg6.read_unread xs))

theorem read_out1_C (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond1_0 i) (hc1 : cond1_1 i)
    (x2 : Vec F S25792 .i32) (x3 : Vec F S1x4096 .f32) (x4 : Vec F S4096 .i32) (xs : Vec F S1x100096 .f32)
    (hks : Hw1 i arg2 harg2 x2)
    (hw : ∀ s : Fin 32, (winWord i x2 s).toNat + 256 ≤ 100096) (f5 : arg5.view.ty.Contents (Elt F)) :
    arg5.view.read (Elt F) (arg5.view.writes (Elt F) f5
        (kernelRun1_C (Ix := Ix) (U := U) (Lvl := Lvl) 𝒱₀ c i arg2 harg2 arg3 harg3 arg4 harg4 arg5 harg5 arg6 harg6 hc0 hc1 x2 x3 x4 xs hks).1)
      = pointStep i x2 x3 x4 hw xs := by
  rw [← read_scratch1_C (Ix := Ix) (U := U) (Lvl := Lvl) 𝒱₀ c i arg2 harg2 arg3 harg3 arg4 harg4 arg5 harg5 arg6 harg6 hc0 hc1 x2 x3 x4 xs hks hw]
  exact (read_writes_whole arg5.view f5 _).trans (readAt_whole arg6.view _)

set_option maxHeartbeats 1000000 in

theorem read_scratch1_A (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : cond1_0 i) (hc1 : ¬cond1_1 i)
    (x2 : Vec F S25792 .i32) (x3 : Vec F S1x4096 .f32) (x4 : Vec F S4096 .i32)
    (hks : Hw1 i arg2 harg2 x2)
    (hw : ∀ s : Fin 32, (winWord i x2 s).toNat + 256 ≤ 100096) (f6 : arg6.view.ty.Contents (Elt F)) :
    arg6.view.read (Elt F) (arg6.view.writes (Elt F) f6
        (kernelRun1_A (Ix := Ix) (U := U) (Lvl := Lvl) 𝒱₀ c i arg2 harg2 arg3 harg3 arg4 harg4 arg5 harg5 arg6 harg6 hc0 hc1 x2 x3 x4 hks).1)
      = pointStep i x2 x3 x4 hw (k1_pay2 (F := F)) := by
  rw [View.read_writes_of_cover arg6.view f6 arg6.view arg6.view.junk _
    (scover1_A (Ix := Ix) (U := U) (Lvl := Lvl) 𝒱₀ c i arg2 harg2 arg3 harg3 arg4 harg4 arg5 harg5 arg6 harg6 hc0 hc1 x2 x3 x4 hks)]
  exact (read_winPieces arg2 harg2 x2 arg3 harg3 x3 arg4 harg4 x4 arg6.view arg6.view.junk i hw
      [⟨Rect.unit (s := S1x100096) ![0, 0] S1x100096.size inb_S1x100096_S1x100096_0_0, k1_pay2 (F := F)⟩] 32 (Nat.le_refl 32)).trans
    (congrArg (winFoldN i x2 x3 x4 hw 32 (Nat.le_refl 32)) (read_writes_whole arg6.view arg6.view.junk (k1_pay2 (F := F))))

theorem winFoldN_eq_foldl (i : grid1.Coords) (x2 : Vec F S25792 .i32) (x3 : Vec F S1x4096 .f32) (x4 : Vec F S4096 .i32)
    (hw : ∀ s : Fin 32, (winWord i x2 s).toNat + 256 ≤ 100096) :
    ∀ (t : ℕ) (h : t ≤ 32) (S : Vec F S1x100096 .f32), winFoldN i x2 x3 x4 hw t h S
      = Fin.foldl t (fun acc (s : Fin t) => winStep (winWord i x2 (Fin.castLE h s)) (hw (Fin.castLE h s))
          (msgChunk x3 (Fin.castLE h s)) (dstChunk x4 (Fin.castLE h s)) acc) S
  | 0, _, S => by rw [Fin.foldl_zero]; rfl
  | t + 1, h, S => by
    rw [Fin.foldl_succ_last, winFoldN_succ, winFoldN_eq_foldl i x2 x3 x4 hw t (Nat.le_of_succ_le h) S]
    rfl

theorem pointStep_eq_foldl (i : grid1.Coords) (x2 : Vec F S25792 .i32) (x3 : Vec F S1x4096 .f32) (x4 : Vec F S4096 .i32)
    (hw : ∀ s : Fin 32, (winWord i x2 s).toNat + 256 ≤ 100096) (S : Vec F S1x100096 .f32) :
    pointStep i x2 x3 x4 hw S
      = Fin.foldl 32 (fun acc (s : Fin 32) => winStep (winWord i x2 s) (hw s) (msgChunk x3 s) (dstChunk x4 s) acc) S :=
  winFoldN_eq_foldl i x2 x3 x4 hw 32 (Nat.le_refl 32) S

end Cert.KernelIdeal.Hand1

end
-- ==== Proof.KI.ScatterVal1.lean ====
import proofs.«401711_j53747220742790_3_alg».proof.Proof.KI.WinIdeal1
import proofs.«401711_j53747220742790_3_alg».proof.Proof.KI.Body1Fold
import proofs.«401711_j53747220742790_3_alg».proof.Proof.KI.ScatterLane

noncomputable section

open scoped BigOperators

namespace Cert.KernelIdeal.HandValue

open Cert.KernelIdeal Cert.KernelIdeal.Gen
open Idealize.ShloMosaic
open Cert.Gcn.ScatterFold Cert.Gcn.ScatterLane

theorem winStep1_lane (w : BitVec 32) (hw : w.toNat + 256 ≤ 100096) (msgc : FVec Ideal S1x128 .f32)
    (dstc : IVec S128 32) (S : FVec Ideal S1x100096 .f32)
    (hwin : ∀ k : Fin 128, w.toNat ≤ (dstc (ValueIdx.ix1 k)).toNat ∧ (dstc (ValueIdx.ix1 k)).toNat < w.toNat + 256)
    (f : Fin 1) (n : Fin 100096) :
    Hand1.winStep (F := Ideal) w hw msgc dstc S (ValueIdx.ix2 f n)
      = stepLane w.toNat (fun k => (dstc (ValueIdx.ix1 k)).toNat) (fun k => msgc (ValueIdx.ix2 f k))
          (laneFn f S) n.val := by
  rw [Hand1.winStep_apply]
  unfold stepLane
  by_cases h : w.toNat ≤ n.val ∧ n.val < w.toNat + 256
  · rw [dif_pos h, if_pos h, winUpd1_window w msgc dstc _ hwin f n.val h, laneFn_val]
    refine congrArg (· + _) ?_
    exact congrArg (fun k : Fin 100096 => S (ValueIdx.ix2 f k))
      (Fin.ext (by show w.toNat + (n.val - w.toNat) = n.val; omega))
  · rw [dif_neg h, if_neg h, laneFn_val]

theorem dstChunk1_apply (x4 : IVec S4096 32) (s : Fin 32) (k : Fin 128) :
    Hand1.dstChunk (F := Ideal) x4 s (ValueIdx.ix1 k)
      = x4 (ValueIdx.ix1 ⟨128 * s.val + k.val, by have := s.isLt; have := k.isLt; omega⟩) := rfl

theorem msgChunk1_apply (x3 : FVec Ideal S1x4096 .f32) (s : Fin 32) (f : Fin 1) (k : Fin 128) :
    Hand1.msgChunk (F := Ideal) x3 s (ValueIdx.ix2 f k)
      = x3 (ValueIdx.ix2 f ⟨128 * s.val + k.val, by have := s.isLt; have := k.isLt; omega⟩) := rfl

theorem pointStep1_apply (i : grid1.Coords) (x2 : IVec S25792 32) (x3 : FVec Ideal S1x4096 .f32) (x4 : IVec S4096 32)
    (hw : ∀ s, (Hand1.winWord (F := Ideal) i x2 s).toNat + 256 ≤ 100096) (S : FVec Ideal S1x100096 .f32)
    (hwin : ∀ (s : Fin 32) (k : Fin 128),
      (Hand1.winWord (F := Ideal) i x2 s).toNat
          ≤ (x4 (ValueIdx.ix1 ⟨128 * s.val + k.val, by have := s.isLt; have := k.isLt; omega⟩)).toNat ∧
        (x4 (ValueIdx.ix1 ⟨128 * s.val + k.val, by have := s.isLt; have := k.isLt; omega⟩)).toNat
          < (Hand1.winWord (F := Ideal) i x2 s).toNat + 256)
    (f : Fin 1) (n : Fin 100096) :
    Hand1.pointStep (F := Ideal) i x2 x3 x4 hw S (ValueIdx.ix2 f n)
      = S (ValueIdx.ix2 f n) + ∑ j : Fin 4096, if (x4 (ValueIdx.ix1 j)).toNat = n.val then x3 (ValueIdx.ix2 f j) else 0 := by
  have hstep : ∀ (s : Fin 32) (S : (⟨2, ![1, 100096]⟩ : Shape).Idx → EReal) (f : Fin 1) (n : Fin 100096),
      Hand1.winStep (F := Ideal) (Hand1.winWord (F := Ideal) i x2 s) (hw s) (Hand1.msgChunk (F := Ideal) x3 s) (Hand1.dstChunk (F := Ideal) x4 s) S
          (ValueIdx.ix2 f n)
        = stepLane (Hand1.winWord (F := Ideal) i x2 s).toNat
            (fun k => (x4 (ValueIdx.ix1 ⟨128 * s.val + k.val, by have := s.isLt; have := k.isLt; omega⟩)).toNat)
            (fun k => x3 (ValueIdx.ix2 f ⟨128 * s.val + k.val, by have := s.isLt; have := k.isLt; omega⟩))
            (laneFn f S) n.val := by
    intro s S f n
    rw [winStep1_lane _ (hw s) (Hand1.msgChunk (F := Ideal) x3 s) (Hand1.dstChunk (F := Ideal) x4 s) S
      (fun k => by rw [dstChunk1_apply]; exact hwin s k) f n]
    simp only [dstChunk1_apply, msgChunk1_apply]
  rw [Hand1.pointStep_eq_foldl]
  exact foldl_lane (M := EReal) (R := 1) (N := 100096) (fun s => (Hand1.winWord (F := Ideal) i x2 s).toNat) hw
    (fun j => (x4 (ValueIdx.ix1 j)).toNat) (fun f j => x3 (ValueIdx.ix2 f j))
    (fun s acc => Hand1.winStep (F := Ideal) (Hand1.winWord (F := Ideal) i x2 s) (hw s) (Hand1.msgChunk (F := Ideal) x3 s) (Hand1.dstChunk (F := Ideal) x4 s) acc)
    hstep hwin S f n

theorem pay2_zero1 (y : S1x100096.Idx) : k1_pay2 (F := Ideal) y = 0 := by
  unfold k1_pay2
  simp only [shapeCast_self]
  exact Ideal.ofBits_zero_f32

theorem point1_flat (X2 : IVec S25792 32) (X3 : Fin 806 → FVec Ideal S1x4096 .f32) (X4 : Fin 806 → IVec S4096 32)
    (hw : ∀ (t : Fin 806) (s : Fin 32), (Hand1.winWord (F := Ideal) (grid1.coords t) X2 s).toNat + 256 ≤ 100096)
    (hwin : ∀ (t : Fin 806) (s : Fin 32) (k : Fin 128),
      (Hand1.winWord (F := Ideal) (grid1.coords t) X2 s).toNat
          ≤ (X4 t (ValueIdx.ix1 ⟨128 * s.val + k.val, by have := s.isLt; have := k.isLt; omega⟩)).toNat ∧
        (X4 t (ValueIdx.ix1 ⟨128 * s.val + k.val, by have := s.isLt; have := k.isLt; omega⟩)).toNat
          < (Hand1.winWord (F := Ideal) (grid1.coords t) X2 s).toNat + 256)
    (D : Fin 3301376 → ℕ) (Mg : Fin 1 → Fin 3301376 → EReal)
    (hD : ∀ (t : Fin 806) (j : Fin 4096),
      (X4 t (ValueIdx.ix1 j)).toNat = D ⟨4096 * t.val + j.val, by have := t.isLt; have := j.isLt; omega⟩)
    (hM : ∀ (t : Fin 806) (f : Fin 1) (j : Fin 4096),
      X3 t (ValueIdx.ix2 f j) = Mg f ⟨4096 * t.val + j.val, by have := t.isLt; have := j.isLt; omega⟩)
    (cc : Fin 2) (i : ℕ) (hi : i < 403) (S : FVec Ideal S1x100096 .f32) (f : Fin 1) (n : Fin 100096) :
    Hand1.pointStep (F := Ideal) (grid1.coords (⟨403 * cc.val + i, by have := cc.isLt; omega⟩ : Fin 806)) X2
        (X3 (⟨403 * cc.val + i, by have := cc.isLt; omega⟩ : Fin 806)) (X4 (⟨403 * cc.val + i, by have := cc.isLt; omega⟩ : Fin 806))
        (hw (⟨403 * cc.val + i, by have := cc.isLt; omega⟩ : Fin 806)) S (ValueIdx.ix2 f n)
      = S (ValueIdx.ix2 f n)
        + ∑ j : Fin 4096,
            if (if h : 4096 * i + j.val < 1650688 then
                  D ⟨cc.val * 1650688 + (4096 * i + j.val), by have := cc.isLt; omega⟩ else 0) = n.val then
              (if h : 4096 * i + j.val < 1650688 then
                  Mg f ⟨cc.val * 1650688 + (4096 * i + j.val), by have := cc.isLt; omega⟩ else 0)
            else 0 := by
  rw [pointStep1_apply _ X2 _ _ _ S (hwin (⟨403 * cc.val + i, by have := cc.isLt; omega⟩ : Fin 806)) f n]
  refine congrArg (S (ValueIdx.ix2 f n) + ·) (Finset.sum_congr rfl fun j _ => ?_)
  have hj := j.isLt
  have hcc := cc.isLt
  have hlt : 4096 * i + j.val < 1650688 := by omega
  rw [dif_pos hlt, dif_pos hlt, hD, hM]
  have e : (⟨4096 * (403 * cc.val + i) + j.val, by omega⟩ : Fin 3301376)
      = ⟨cc.val * 1650688 + (4096 * i + j.val), by omega⟩ := Fin.ext (by show 4096 * (403 * cc.val + i) + j.val = cc.val * 1650688 + (4096 * i + j.val); omega)
  rw [e]

theorem scr1_sum (scr : (p : ℕ) → p < 806 → FVec Ideal S1x100096 .f32)
    (X2 : IVec S25792 32) (X3 : Fin 806 → FVec Ideal S1x4096 .f32) (X4 : Fin 806 → IVec S4096 32)
    (hw : ∀ (t : Fin 806) (s : Fin 32), (Hand1.winWord (F := Ideal) (grid1.coords t) X2 s).toNat + 256 ≤ 100096)
    (hA : ∀ t : Fin 806, t.val % 403 = 0 →
      scr t.val t.isLt = Hand1.pointStep (F := Ideal) (grid1.coords t) X2 (X3 t) (X4 t) (hw t) (k1_pay2 (F := Ideal)))
    (hBC : ∀ t : Fin 806, ¬t.val % 403 = 0 →
      scr t.val t.isLt = Hand1.pointStep (F := Ideal) (grid1.coords t) X2 (X3 t) (X4 t) (hw t)
        (scr (t.val - 1) (Nat.lt_of_le_of_lt (Nat.sub_le _ _) t.isLt)))
    (hwin : ∀ (t : Fin 806) (s : Fin 32) (k : Fin 128),
      (Hand1.winWord (F := Ideal) (grid1.coords t) X2 s).toNat
          ≤ (X4 t (ValueIdx.ix1 ⟨128 * s.val + k.val, by have := s.isLt; have := k.isLt; omega⟩)).toNat ∧
        (X4 t (ValueIdx.ix1 ⟨128 * s.val + k.val, by have := s.isLt; have := k.isLt; omega⟩)).toNat
          < (Hand1.winWord (F := Ideal) (grid1.coords t) X2 s).toNat + 256)
    (D : Fin 3301376 → ℕ) (Mg : Fin 1 → Fin 3301376 → EReal)
    (hD : ∀ (t : Fin 806) (j : Fin 4096),
      (X4 t (ValueIdx.ix1 j)).toNat = D ⟨4096 * t.val + j.val, by have := t.isLt; have := j.isLt; omega⟩)
    (hM : ∀ (t : Fin 806) (f : Fin 1) (j : Fin 4096),
      X3 t (ValueIdx.ix2 f j) = Mg f ⟨4096 * t.val + j.val, by have := t.isLt; have := j.isLt; omega⟩)
    (cc : Fin 2) (f : Fin 1) (n : Fin 100096) :
    scr (403 * cc.val + 402) (by have := cc.isLt; omega) (ValueIdx.ix2 f n)
      = ∑ j : Fin 1650688,
          if D ⟨cc.val * 1650688 + j.val, by have := cc.isLt; have := j.isLt; omega⟩ = n.val then
            Mg f ⟨cc.val * 1650688 + j.val, by have := cc.isLt; have := j.isLt; omega⟩ else 0 := by
  have hcc := cc.isLt
  have key := core_sum_last (M := EReal)
    (fun i => if h : i < 403 then scr (403 * cc.val + i) (by omega) (ValueIdx.ix2 f n) else 0)
    (fun q => if h : q < 1650688 then D ⟨cc.val * 1650688 + q, by omega⟩ else 0)
    (fun q => if h : q < 1650688 then Mg f ⟨cc.val * 1650688 + q, by omega⟩ else 0) n.val
    (by
      show (if h : 0 < 403 then scr (403 * cc.val + 0) (by omega) (ValueIdx.ix2 f n) else 0) = _
      rw [dif_pos (by omega)]
      have hA0 := hA ⟨403 * cc.val + 0, by omega⟩ (by show (403 * cc.val + 0) % 403 = 0; omega)
      rw [show scr (403 * cc.val + 0) (by omega) = _ from hA0,
        point1_flat X2 X3 X4 hw hwin D Mg hD hM cc 0 (by omega) _ f n, pay2_zero1])
    (fun i hi0 hi => by
      show (if h : i < 403 then scr (403 * cc.val + i) (by omega) (ValueIdx.ix2 f n) else 0)
        = (if h : i - 1 < 403 then scr (403 * cc.val + (i - 1)) (by omega) (ValueIdx.ix2 f n) else 0) + _
      rw [dif_pos hi, dif_pos (by omega)]
      have hB := hBC ⟨403 * cc.val + i, by omega⟩ (by show ¬(403 * cc.val + i) % 403 = 0; omega)
      rw [show scr (403 * cc.val + i) (by omega) = _ from hB,
        point1_flat X2 X3 X4 hw hwin D Mg hD hM cc i hi _ f n]
      refine congrArg (· + _) ?_
      have e : 403 * cc.val + i - 1 = 403 * cc.val + (i - 1) := by omega
      exact congrArg (fun v : FVec Ideal S1x100096 .f32 => v (ValueIdx.ix2 f n))
        (by
          show scr (403 * cc.val + i - 1) _ = scr (403 * cc.val + (i - 1)) _
          congr 1))
  rw [dif_pos (by omega)] at key
  rw [key]
  refine Finset.sum_congr rfl fun j _ => ?_
  rw [dif_pos j.isLt, dif_pos j.isLt]

end Cert.KernelIdeal.HandValue

end
-- ==== Proof.KI.Lanes1.lean ====
import proofs.«401711_j53747220742790_3_alg».proof.Proof.KI.Common
import proofs.«401711_j53747220742790_3_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Lanes
variable (V : Dev nD → Valuation τ sig (Elt F)) (a : (pcfg1 (F := F)).Adm)

theorem index1_0 : ∀ t : Fin grid1.N, cc1_transform_0 (grid1.coords t) = ![0, t.val] := by decide +kernel
theorem index1_1 : ∀ t : Fin grid1.N, cc1_transform_1 (grid1.coords t) = ![t.val] := by decide +kernel

theorem lane1_lt (t : Fin (cfg1 a).N) (j : Fin 4096) : 4096 * t.val + j.val < 3301376 := by
  have := t.isLt; have hN : (cfg1 a).N = 806 := N_1; omega

theorem iblk1_msg_lane (c : Dev nD) (t : Fin (cfg1 a).N) (f : Fin 1) (j : Fin 4096) :
    iblk1 V a c 0 t (ValueIdx.ix2 f j) = VR1 V c main_v69 (ValueIdx.ix2 f ⟨4096 * t.val + j.val, lane1_lt a t j⟩) := by
  have hi : ((cfg1 a).win 0).index t = ![0, t.val] := index1_0 t
  unfold iblk1
  show VR1 V c main_v69 _ = VR1 V c main_v69 _
  congr 1
  funext d
  apply Fin.ext
  match d with
  | ⟨0, h0⟩ =>
    show ((cfg1 a).win 0).index t ⟨0, h0⟩ * 1 + 1 * (f : ℕ) = (f : ℕ)
    rw [hi]; show 0 * 1 + 1 * (f : ℕ) = (f : ℕ); omega
  | ⟨1, h1⟩ =>
    show ((cfg1 a).win 0).index t ⟨1, h1⟩ * 4096 + 1 * (j : ℕ) = 4096 * t.val + (j : ℕ)
    rw [hi]; show t.val * 4096 + 1 * (j : ℕ) = 4096 * t.val + (j : ℕ); omega

theorem iblk1_dst_lane (c : Dev nD) (t : Fin (cfg1 a).N) (j : Fin 4096) :
    iblk1 V a c 1 t (ValueIdx.ix1 j) = VR1 V c main_v34 (ValueIdx.ix1 ⟨4096 * t.val + j.val, lane1_lt a t j⟩) := by
  have hi : ((cfg1 a).win 1).index t = ![t.val] := index1_1 t
  unfold iblk1
  show VR1 V c main_v34 _ = VR1 V c main_v34 _
  congr 1
  funext d
  apply Fin.ext
  match d with
  | ⟨0, h0⟩ =>
    show ((cfg1 a).win 1).index t ⟨0, h0⟩ * 4096 + 1 * (j : ℕ) = 4096 * t.val + (j : ℕ)
    rw [hi]; show t.val * 4096 + 1 * (j : ℕ) = 4096 * t.val + (j : ℕ); omega

end Lanes

end Cert.KernelIdeal.Hand

end
-- ==== Proof.KI.ArrAt1.lean ====
import proofs.«401711_j53747220742790_3_alg».proof.Proof.KI.Region1
import proofs.«401711_j53747220742790_3_alg».proof.Proof.KI.Body1Fold
import Idealize.ShloMosaic.Lib.Pipeline.Value

set_option maxRecDepth 16384

noncomputable section

namespace Cert.KernelIdeal.Hand

open Cert.KernelIdeal Cert.KernelIdeal.Gen Cert.KernelIdeal.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem flushB1_2 : ∀ t : Fin grid1.N, t.val % 403 = 402 → (t.val + 1 = grid1.N || decide (∃ h : t.val + 1 < grid1.N, cc1_transform_2 (grid1.coords ⟨t.val + 1, h⟩) ≠ cc1_transform_2 (grid1.coords t))) = true := by decide +kernel

theorem idxB1_2 : ∀ t : Fin grid1.N, cc1_transform_2 (grid1.coords t) = ![0, t.val / 403] := by decide +kernel

section ArrAt
variable (V : Dev nD → Valuation τ sig (Elt F)) (a : (pcfg1 (F := F)).Adm) (htbl : TblOk (a.1 0))

theorem flush1_2 (t : Fin (cfg1 a).N) (h : t.val % 403 = 402) : ((cfg1 a).win 2).flush t = true := flushB1_2 t h

theorem flush1_2_iff (t : Fin (cfg1 a).N) : ((cfg1 a).win 2).flush t = true ↔ t.val % 403 = 402 :=
  ⟨fun hf => by
    by_contra h
    rw [noFlush1_2 a t h] at hf
    exact Bool.false_ne_true hf, flush1_2 a t⟩

theorem pt1_lt (t : Fin (cfg1 a).N) : t.val < 806 :=
  (show t.val < grid1.N from t.isLt).trans_eq N_1

theorem mem_blk1_2 (t : Fin (cfg1 a).N) (i : S1x200192.Idx) :
    i ∈ (((cfg1 a).win 2).blk t).view.set ↔ ∀ a' : Fin 2, cc1_transform_2 (grid1.coords t) a' * S1x100096.size a' ≤ (i a').val
      ∧ (i a').val < cc1_transform_2 (grid1.coords t) a' * S1x100096.size a' + S1x100096.size a' := by
  have e : (((cfg1 a).win 2).blk t).view.set = (((cfg1 a).win 2).rect t : Rect main_v70.ty.shape).set :=
    View.set_slice_whole main_v70 _
  rw [e]
  exact Rect.mem_set_unit

theorem emb_blk1_2 (t : Fin (cfg1 a).N) (j : S1x100096.Idx) :
    ((((cfg1 a).win 2).blk t).view.emb j : S1x200192.Idx)
      = ValueIdx.ix2 (j 0) ⟨(t.val / 403) * 100096 + (j 1).val, by
          have := pt1_lt a t; have : (j 1).val < 100096 := (j 1).isLt; omega⟩ := by
  have hi := idxB1_2 t
  funext a'
  apply Fin.ext
  match a' with
  | ⟨0, _⟩ =>
    show cc1_transform_2 (grid1.coords t) 0 * S1x100096.size 0 + 1 * (j 0).val = (j 0).val
    rw [hi]; show 0 * S1x100096.size 0 + 1 * (j 0).val = (j 0).val; omega
  | ⟨1, _⟩ =>
    show cc1_transform_2 (grid1.coords t) 1 * 100096 + 1 * (j 1).val = (t.val / 403) * 100096 + (j 1).val
    rw [hi]; show (t.val / 403) * 100096 + 1 * (j 1).val = _; omega

theorem lastPt1_lt (l : ℕ) (hl : l < 200192) : 403 * (l / 100096) + 402 < (cfg1 a).N := by
  show 403 * (l / 100096) + 402 < grid1.N
  rw [N_1]; omega

def out1G (c : Dev nD) : S1x200192.Idx → Elt F .f32 := fun i =>
  outAt1 V a htbl c ⟨403 * ((i 1).val / 100096) + 402, lastPt1_lt a (i 1).val (i 1).isLt⟩
    (ValueIdx.ix2 (i 0) ⟨(i 1).val % 100096, Nat.mod_lt _ (by decide)⟩)

theorem outAt1_congr (c : Dev nD) {t t' : Fin (cfg1 a).N} (h : t = t') {y y' : S1x100096.Idx} (hy : y = y') :
    outAt1 V a htbl c t y = outAt1 V a htbl c t' y' := by
  subst h hy; rfl

theorem flushed1_2 (c : Dev nD) (t : Fin (cfg1 a).N) (hf : ((cfg1 a).win 2).flush t = true) :
    (dat1 V a htbl c).flushed 2 t = (((cfg1 a).win 2).blk t).view.read (Elt F) (out1G V a htbl c) := by
  have h1 : t.val % 403 = 402 := (flush1_2_iff a t).mp hf
  show ((cfg1 a).win 2).cut ((cfg1 a).grid.coords t) ((dat1 V a htbl c).after 2 t) = _
  rw [after1_2]
  refine funext fun (j : S1x100096.Idx) => ?_
  show outAt1 V a htbl c t j = out1G V a htbl c ((((cfg1 a).win 2).blk t).view.emb j : S1x200192.Idx)
  rw [emb_blk1_2]
  unfold out1G
  have hj1 : (j 1).val < 100096 := (j 1).isLt
  refine outAt1_congr V a htbl c (Fin.ext ?_) (funext fun a' => Fin.ext ?_)
  · show t.val = 403 * (((t.val / 403) * 100096 + (j 1).val) / 100096) + 402
    omega
  · match a' with
    | ⟨0, _⟩ => rfl
    | ⟨1, _⟩ =>
      show (j 1).val = ((t.val / 403) * 100096 + (j 1).val) % 100096
      omega

theorem arrAt1_eq (c : Dev nD) : (dat1 V a htbl c).arrAt 2 (cfg1 a).N = out1G V a htbl c :=
  (dat1 V a htbl c).arrAt_eq_of_cover 2 (out1G V a htbl c) (flushed1_2 V a htbl c) fun (i : S1x200192.Idx) => by
    have hl : (i 1).val < 200192 := (i 1).isLt
    refine ⟨⟨403 * ((i 1).val / 100096) + 402, lastPt1_lt a (i 1).val hl⟩, flush1_2 a _ (by show (403 * ((i 1).val / 100096) + 402) % 403 = 402; omega), ?_⟩
    refine (mem_blk1_2 a _ i).mpr fun a' => ?_
    have hi : cc1_transform_2 (grid1.coords ⟨403 * ((i 1).val / 100096) + 402, lastPt1_lt a (i 1).val hl⟩)
        = ![0, (403 * ((i 1).val / 100096) + 402) / 403] := idxB1_2 _
    rw [hi]
    match a' with
    | ⟨0, _⟩ =>
      exact ⟨by show 0 * S1x100096.size 0 ≤ (i 0).val; rw [Nat.zero_mul]; exact Nat.zero_le _,
        by show (i 0).val < 0 * S1x100096.size 0 + S1x100096.size 0; rw [Nat.zero_mul, Nat.zero_add]; exact (i 0).isLt⟩
    | ⟨1, _⟩ =>
      show (403 * ((i 1).val / 100096) + 402) / 403 * 100096 ≤ (i 1).val ∧ (i 1).val < (403 * ((i 1).val / 100096) + 402) / 403 * 100096 + 100096
      omega

theorem arrAt1_block_out (c : Dev nD) (f : Fin 1) (cc : Fin 2) (n : Fin 100096)
    (hl : cc.val * 100096 + n.val < 200192) (ht : 403 * cc.val + 402 < (cfg1 a).N) :
    (dat1 V a htbl c).arrAt 2 (cfg1 a).N (ValueIdx.ix2 f ⟨cc.val * 100096 + n.val, hl⟩ : S1x200192.Idx)
      = outAt1 V a htbl c ⟨403 * cc.val + 402, ht⟩ (ValueIdx.ix2 f n) := by
  rw [arrAt1_eq]
  unfold out1G
  have hn := n.isLt
  refine outAt1_congr V a htbl c (Fin.ext ?_) (funext fun a' => Fin.ext ?_)
  · show 403 * ((cc.val * 100096 + n.val) / 100096) + 402 = 403 * cc.val + 402; omega
  · match a' with
    | ⟨0, _⟩ => rfl
    | ⟨1, _⟩ => show (cc.val * 100096 + n.val) % 100096 = n.val; omega

theorem tblOk_hw1 (x2 : Vec F S25792 .i32) (h : TblOk x2) (i : grid1.Coords) :
    ∀ s : Fin 32, (winWord i x2 s).toNat + 256 ≤ 100096 :=
  fun s => (h _).2

theorem outAt1_eq_scrAt0 (c : Dev nD) (t : Fin (cfg1 a).N) (h1 : t.val % 403 = 402) :
    outAt1 V a htbl c t = scrAt1 V a htbl c t.val t.isLt := by
  rw [outAt1_C V a htbl c t h1, scrAt1_C V a htbl c t h1]
  unfold out1_C sout1_C
  refine (View.read_writes_of_cover VO1 VO1.junk (ms1_2 a t).view (ms1_2 a t).view.junk _
    (fun y => cover1_C (Ix := Unit) (U := UR sig nD τ) (Lvl := ℕ) ..)).trans ?_
  exact (read_out1_C (Ix := Unit) (U := UR sig nD τ) (Lvl := ℕ) (hw := tblOk_hw1 (a.1 0) htbl (grid1.coords t)) ..).trans
    (read_scratch1_C (Ix := Unit) (U := UR sig nD τ) (Lvl := ℕ) (hw := tblOk_hw1 (a.1 0) htbl (grid1.coords t)) ..).symm

theorem arrAt1_block (c : Dev nD) (f : Fin 1) (cc : Fin 2) (n : Fin 100096)
    (hl : cc.val * 100096 + n.val < 200192) (ht : 403 * cc.val + 402 < (cfg1 a).N) :
    (dat1 V a htbl c).arrAt 2 (cfg1 a).N (ValueIdx.ix2 f ⟨cc.val * 100096 + n.val, hl⟩ : S1x200192.Idx)
      = scrAt1 V a htbl c (403 * cc.val + 402) ht (ValueIdx.ix2 f n) := by
  rw [arrAt1_block_out V a htbl c f cc n hl ht]
  exact congrFun (outAt1_eq_scrAt0 V a htbl c ⟨403 * cc.val + 402, ht⟩ (by show (403 * cc.val + 402) % 403 = 402; omega)) _

end ArrAt

end Cert.KernelIdeal.Hand

end
-- ==== Proof.KI.ScatterOk1.lean ====
import proofs.«401711_j53747220742790_3_alg».proof.Proof.KI.ScatterVal1
import proofs.«401711_j53747220742790_3_alg».proof.Proof.KI.Region1
import proofs.«401711_j53747220742790_3_alg».proof.Proof.KI.Lanes1
import proofs.«401711_j53747220742790_3_alg».proof.Proof.KI.ArrAt1

noncomputable section

open scoped BigOperators

namespace Cert.KernelIdeal.HandValue

open Cert.KernelIdeal Cert.KernelIdeal.Gen
open Idealize.ShloMosaic

abbrev tblA1 (V : Dev nD → Valuation τ sig (Elt Ideal)) (c : Dev nD) : S25792.Idx → BitVec 32 := Hand.VR1 V c main_v44
abbrev dstA1 (V : Dev nD → Valuation τ sig (Elt Ideal)) (c : Dev nD) : S3301376.Idx → BitVec 32 := Hand.VR1 V c main_v34
abbrev msgA1 (V : Dev nD → Valuation τ sig (Elt Ideal)) (c : Dev nD) : S1x3301376.Idx → EReal := Hand.VR1 V c main_v69

theorem hw1 (a : (pcfg1 (F := Ideal)).Adm) (htbl : Hand.TblOk (a.1 0)) (t : Fin 806) (s : Fin 32) :
    (Hand1.winWord (F := Ideal) (grid1.coords t) (a.1 0) s).toNat + 256 ≤ 100096 := (htbl _).2

section Region
variable (V : Dev nD → Valuation τ sig (Elt Ideal)) (a : (pcfg1 (F := Ideal)).Adm) (htbl : Hand.TblOk (a.1 0))

theorem sout1_A_eq (c : Dev nD) (t : Fin 806) (h0 : t.val % 403 = 0) :
    Hand.sout1_A V a htbl c t h0
      = Hand1.pointStep (F := Ideal) (grid1.coords t) (a.1 0) (Hand.iblk1 V a c 0 t) (Hand.iblk1 V a c 1 t)
          (hw1 a htbl t) (k1_pay2 (F := Ideal)) := by
  unfold Hand.sout1_A
  exact Hand1.read_scratch1_A (hw := hw1 a htbl t) (f6 := Hand.VS1.junk) ..

theorem sout1_B_eq (c : Dev nD) (t : Fin 806) (h0 : ¬t.val % 403 = 0) (h1 : ¬t.val % 403 = 402)
    (xs : FVec Ideal S1x100096 .f32) :
    Hand.sout1_B V a htbl c t h0 h1 xs
      = Hand1.pointStep (F := Ideal) (grid1.coords t) (a.1 0) (Hand.iblk1 V a c 0 t) (Hand.iblk1 V a c 1 t)
          (hw1 a htbl t) xs := by
  unfold Hand.sout1_B
  exact Hand1.read_scratch1_B (hw := hw1 a htbl t) ..

theorem sout1_C_eq (c : Dev nD) (t : Fin 806) (h1 : t.val % 403 = 402) (xs : FVec Ideal S1x100096 .f32) :
    Hand.sout1_C V a htbl c t h1 xs
      = Hand1.pointStep (F := Ideal) (grid1.coords t) (a.1 0) (Hand.iblk1 V a c 0 t) (Hand.iblk1 V a c 1 t)
          (hw1 a htbl t) xs := by
  unfold Hand.sout1_C
  exact Hand1.read_scratch1_C (hw := hw1 a htbl t) ..

theorem scrAt1_last (c : Dev nD)
    (hwin : ∀ (t : Fin 806) (s : Fin 32) (k : Fin 128),
      (Hand1.winWord (F := Ideal) (grid1.coords t) (a.1 0) s).toNat
          ≤ (Hand.iblk1 V a c 1 t (ValueIdx.ix1 ⟨128 * s.val + k.val, by have := s.isLt; have := k.isLt; omega⟩)).toNat ∧
        (Hand.iblk1 V a c 1 t (ValueIdx.ix1 ⟨128 * s.val + k.val, by have := s.isLt; have := k.isLt; omega⟩)).toNat
          < (Hand1.winWord (F := Ideal) (grid1.coords t) (a.1 0) s).toNat + 256)
    (D : Fin 3301376 → ℕ) (Mg : Fin 1 → Fin 3301376 → EReal)
    (hD : ∀ (t : Fin 806) (j : Fin 4096),
      (Hand.iblk1 V a c 1 t (ValueIdx.ix1 j)).toNat
        = D ⟨4096 * t.val + j.val, by have := t.isLt; have := j.isLt; omega⟩)
    (hM : ∀ (t : Fin 806) (f : Fin 1) (j : Fin 4096),
      Hand.iblk1 V a c 0 t (ValueIdx.ix2 f j)
        = Mg f ⟨4096 * t.val + j.val, by have := t.isLt; have := j.isLt; omega⟩)
    (cc : Fin 2) (f : Fin 1) (n : Fin 100096) :
    Hand.scrAt1 V a htbl c (403 * cc.val + 402) (by have := cc.isLt; show _ < 806; omega) (ValueIdx.ix2 f n)
      = ∑ j : Fin 1650688,
          if D ⟨cc.val * 1650688 + j.val, by have := cc.isLt; have := j.isLt; omega⟩ = n.val then
            Mg f ⟨cc.val * 1650688 + j.val, by have := cc.isLt; have := j.isLt; omega⟩ else 0 :=
  scr1_sum (fun p hp => Hand.scrAt1 V a htbl c p hp) (a.1 0) (fun t => Hand.iblk1 V a c 0 t)
    (fun t => Hand.iblk1 V a c 1 t) (hw1 a htbl)
    (fun t h0 => (Hand.scrAt1_A V a htbl c t h0).trans (sout1_A_eq V a htbl c t h0))
    (fun t h0 => by
      by_cases h1 : t.val % 403 = 402
      · exact (Hand.scrAt1_C V a htbl c t h1).trans (sout1_C_eq V a htbl c t h1 _)
      · exact (Hand.scrAt1_B V a htbl c t h0 h1).trans (sout1_B_eq V a htbl c t h0 h1 _))
    hwin D Mg hD hM cc f n

theorem coords1_flat : ∀ t : Fin grid1.N, (grid1.coords t 0).val * 12896 + (grid1.coords t 1).val * 32 = 32 * t.val := by
  decide +kernel

theorem winWord1_flat (c : Dev nD) (ha : a.1 0 = (tblA1 V c)) (t : Fin 806) (s : Fin 32) :
    Hand1.winWord (F := Ideal) (grid1.coords t) (a.1 0) s
      = (tblA1 V c) (ValueIdx.ix1 ⟨32 * t.val + s.val, by have := t.isLt; have := s.isLt; omega⟩) := by
  unfold Hand1.winWord
  rw [ha]
  refine congrArg (fun K : Fin 25792 => (tblA1 V c) (ValueIdx.ix1 K)) (Fin.ext ?_)
  show (grid1.coords t 0).val * 12896 + (grid1.coords t 1).val * 32 + s.val = 32 * t.val + s.val
  rw [coords1_flat t]

theorem hwin1_of (c : Dev nD) (ha : a.1 0 = (tblA1 V c))
    (hwin : ∀ (K : Fin 25792) (l : Fin 128),
      ((tblA1 V c) (ValueIdx.ix1 K)).toNat
          ≤ ((dstA1 V c) (ValueIdx.ix1 ⟨128 * K.val + l.val, by have := K.isLt; have := l.isLt; omega⟩)).toNat ∧
        ((dstA1 V c) (ValueIdx.ix1 ⟨128 * K.val + l.val, by have := K.isLt; have := l.isLt; omega⟩)).toNat
          < ((tblA1 V c) (ValueIdx.ix1 K)).toNat + 256)
    (hlaneD : ∀ (t : Fin 806) (j : Fin 4096),
      Hand.iblk1 V a c 1 t (ValueIdx.ix1 j)
        = (dstA1 V c) (ValueIdx.ix1 ⟨4096 * t.val + j.val, by have := t.isLt; have := j.isLt; omega⟩))
    (t : Fin 806) (s : Fin 32) (k : Fin 128) :
    (Hand1.winWord (F := Ideal) (grid1.coords t) (a.1 0) s).toNat
        ≤ (Hand.iblk1 V a c 1 t (ValueIdx.ix1 ⟨128 * s.val + k.val, by have := s.isLt; have := k.isLt; omega⟩)).toNat ∧
      (Hand.iblk1 V a c 1 t (ValueIdx.ix1 ⟨128 * s.val + k.val, by have := s.isLt; have := k.isLt; omega⟩)).toNat
        < (Hand1.winWord (F := Ideal) (grid1.coords t) (a.1 0) s).toNat + 256 := by
  have ht := t.isLt
  have hs := s.isLt
  have hk := k.isLt
  rw [winWord1_flat V a c ha t s, hlaneD]
  have e : (⟨4096 * t.val + (128 * s.val + k.val), by omega⟩ : Fin 3301376)
      = ⟨128 * (32 * t.val + s.val) + k.val, by omega⟩ :=
    Fin.ext (by show 4096 * t.val + (128 * s.val + k.val) = 128 * (32 * t.val + s.val) + k.val; omega)
  rw [e]
  exact hwin ⟨32 * t.val + s.val, by omega⟩ k

theorem scatter1_arrAt_of (c : Dev nD) (ha : a.1 0 = (tblA1 V c))
    (hwin : ∀ (K : Fin 25792) (l : Fin 128),
      ((tblA1 V c) (ValueIdx.ix1 K)).toNat
          ≤ ((dstA1 V c) (ValueIdx.ix1 ⟨128 * K.val + l.val, by have := K.isLt; have := l.isLt; omega⟩)).toNat ∧
        ((dstA1 V c) (ValueIdx.ix1 ⟨128 * K.val + l.val, by have := K.isLt; have := l.isLt; omega⟩)).toNat
          < ((tblA1 V c) (ValueIdx.ix1 K)).toNat + 256)
    (hlaneD : ∀ (t : Fin 806) (j : Fin 4096),
      Hand.iblk1 V a c 1 t (ValueIdx.ix1 j)
        = (dstA1 V c) (ValueIdx.ix1 ⟨4096 * t.val + j.val, by have := t.isLt; have := j.isLt; omega⟩))
    (hlaneM : ∀ (t : Fin 806) (f : Fin 1) (j : Fin 4096),
      Hand.iblk1 V a c 0 t (ValueIdx.ix2 f j)
        = (msgA1 V c) (ValueIdx.ix2 f ⟨4096 * t.val + j.val, by have := t.isLt; have := j.isLt; omega⟩))
    (harr : ∀ (cc : Fin 2) (f : Fin 1) (n : Fin 100096),
      (Hand.dat1 V a htbl c).arrAt 2 grid1.N
          (ValueIdx.ix2 f ⟨cc.val * 100096 + n.val, by have := cc.isLt; have := n.isLt; omega⟩)
        = Hand.scrAt1 V a htbl c (403 * cc.val + 402) (by have := cc.isLt; show _ < 806; omega) (ValueIdx.ix2 f n))
    (cc : Fin 2) (f : Fin 1) (n : Fin 100096) :
    (Hand.dat1 V a htbl c).arrAt 2 grid1.N
        (ValueIdx.ix2 f ⟨cc.val * 100096 + n.val, by have := cc.isLt; have := n.isLt; omega⟩)
      = ∑ j : Fin 1650688,
          if ((dstA1 V c)
                (ValueIdx.ix1 ⟨cc.val * 1650688 + j.val, by have := cc.isLt; have := j.isLt; omega⟩)).toNat = n.val then
            ((msgA1 V c)
              (ValueIdx.ix2 f ⟨cc.val * 1650688 + j.val, by have := cc.isLt; have := j.isLt; omega⟩) : EReal) else 0 := by
  rw [harr cc f n]
  exact scrAt1_last V a htbl c (hwin1_of V a c ha hwin hlaneD)
    (fun j => ((dstA1 V c) (ValueIdx.ix1 j)).toNat) (fun (f : Fin 1) (j : Fin 3301376) => ((msgA1 V c) (ValueIdx.ix2 f j) : EReal))
    (fun t j => congrArg BitVec.toNat (hlaneD t j)) hlaneM cc f n

theorem scatter1_arrAt_of_block (c : Dev nD) (ha : a.1 0 = (tblA1 V c))
    (hwin : ∀ (K : Fin 25792) (l : Fin 128),
      ((tblA1 V c) (ValueIdx.ix1 K)).toNat
          ≤ ((dstA1 V c) (ValueIdx.ix1 ⟨128 * K.val + l.val, by have := K.isLt; have := l.isLt; omega⟩)).toNat ∧
        ((dstA1 V c) (ValueIdx.ix1 ⟨128 * K.val + l.val, by have := K.isLt; have := l.isLt; omega⟩)).toNat
          < ((tblA1 V c) (ValueIdx.ix1 K)).toNat + 256)
    (harr : ∀ (cc : Fin 2) (f : Fin 1) (n : Fin 100096),
      (Hand.dat1 V a htbl c).arrAt 2 grid1.N
          (ValueIdx.ix2 f ⟨cc.val * 100096 + n.val, by have := cc.isLt; have := n.isLt; omega⟩)
        = Hand.scrAt1 V a htbl c (403 * cc.val + 402) (by have := cc.isLt; show _ < 806; omega) (ValueIdx.ix2 f n))
    (cc : Fin 2) (f : Fin 1) (n : Fin 100096) :
    (Hand.dat1 V a htbl c).arrAt 2 grid1.N
        (ValueIdx.ix2 f ⟨cc.val * 100096 + n.val, by have := cc.isLt; have := n.isLt; omega⟩)
      = ∑ j : Fin 1650688,
          if ((dstA1 V c)
                (ValueIdx.ix1 ⟨cc.val * 1650688 + j.val, by have := cc.isLt; have := j.isLt; omega⟩)).toNat = n.val then
            ((msgA1 V c)
              (ValueIdx.ix2 f ⟨cc.val * 1650688 + j.val, by have := cc.isLt; have := j.isLt; omega⟩) : EReal) else 0 :=
  scatter1_arrAt_of V a htbl c ha hwin (fun t j => Hand.iblk1_dst_lane V a c t j)
    (fun t f j => Hand.iblk1_msg_lane V a c t f j) harr cc f n

theorem scatter1_arrAt (c : Dev nD) (ha : a.1 0 = (tblA1 V c))
    (hwin : ∀ (K : Fin 25792) (l : Fin 128),
      ((tblA1 V c) (ValueIdx.ix1 K)).toNat
          ≤ ((dstA1 V c) (ValueIdx.ix1 ⟨128 * K.val + l.val, by have := K.isLt; have := l.isLt; omega⟩)).toNat ∧
        ((dstA1 V c) (ValueIdx.ix1 ⟨128 * K.val + l.val, by have := K.isLt; have := l.isLt; omega⟩)).toNat
          < ((tblA1 V c) (ValueIdx.ix1 K)).toNat + 256)
    (cc : Fin 2) (f : Fin 1) (n : Fin 100096) :
    (Hand.dat1 V a htbl c).arrAt 2 grid1.N
        (ValueIdx.ix2 f ⟨cc.val * 100096 + n.val, by have := cc.isLt; have := n.isLt; omega⟩)
      = ∑ j : Fin 1650688,
          if ((dstA1 V c)
                (ValueIdx.ix1 ⟨cc.val * 1650688 + j.val, by have := cc.isLt; have := j.isLt; omega⟩)).toNat = n.val then
            ((msgA1 V c)
              (ValueIdx.ix2 f ⟨cc.val * 1650688 + j.val, by have := cc.isLt; have := j.isLt; omega⟩) : EReal) else 0 :=
  scatter1_arrAt_of_block V a htbl c ha hwin (fun cc f n => Hand.arrAt1_block V a htbl c f cc n _ _) cc f n

end Region

end Cert.KernelIdeal.HandValue

end
-- ==== Proof.KI.WinIdeal2.lean ====
import proofs.«401711_j53747220742790_3_alg».proof.Proof.Gen.KernelIdeal.Skeleton
import proofs.«401711_j53747220742790_3_alg».proof.Proof.KI.Body2
import proofs.«401711_j53747220742790_3_alg».proof.Proof.KI.OneHot
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandValue

open Cert.KernelIdeal Cert.KernelIdeal.Gen
open Idealize.ShloMosaic Idealize.ShloMosaic.ValueIdx Idealize.SL.Sem

theorem lhs_winR2_0 (i : S2x256.Idx) (q : dot_S2x128_S256x128_S2x256_1_1_0_0_n_n.contr.Idx) :
    (dot_S2x128_S256x128_S2x256_1_1_0_0_n_n.lhsIdx i q 0).val = (i 0).val := by
  unfold DotDims.lhsIdx
  rw [dif_neg (show ¬(0 : Fin S2x128.rank) ∈ dot_S2x128_S256x128_S2x256_1_1_0_0_n_n.lhsBatch by decide), dif_pos (show (0 : Fin S2x128.rank) ∈ dot_S2x128_S256x128_S2x256_1_1_0_0_n_n.lhsNonContracting by decide)]
  rfl

theorem lhs_winR2_1 (i : S2x256.Idx) (q : dot_S2x128_S256x128_S2x256_1_1_0_0_n_n.contr.Idx) :
    (dot_S2x128_S256x128_S2x256_1_1_0_0_n_n.lhsIdx i q 1).val = (q ⟨0, by decide⟩).val :=
  dot_S2x128_S256x128_S2x256_1_1_0_0_n_n.lhsIdx_val_of_single rfl i q

theorem rhs_winR2_0 (i : S2x256.Idx) (q : dot_S2x128_S256x128_S2x256_1_1_0_0_n_n.contr.Idx) :
    (dot_S2x128_S256x128_S2x256_1_1_0_0_n_n.rhsIdx i q 0).val = (i 1).val := by
  unfold DotDims.rhsIdx
  rw [dif_neg (show ¬(0 : Fin S256x128.rank) ∈ dot_S2x128_S256x128_S2x256_1_1_0_0_n_n.rhsBatch by decide), dif_pos (show (0 : Fin S256x128.rank) ∈ dot_S2x128_S256x128_S2x256_1_1_0_0_n_n.rhsNonContracting by decide)]
  rfl

theorem rhs_winR2_1 (i : S2x256.Idx) (q : dot_S2x128_S256x128_S2x256_1_1_0_0_n_n.contr.Idx) :
    (dot_S2x128_S256x128_S2x256_1_1_0_0_n_n.rhsIdx i q 1).val = (q ⟨0, by decide⟩).val :=
  dot_S2x128_S256x128_S2x256_1_1_0_0_n_n.rhsIdx_val_of_single rfl i q

theorem matmul_winR2_apply (l : FVec Ideal S2x128 .f32) (m : FVec Ideal S256x128 .f32) (f : Fin 2) (r : Fin 256) :
    matmul dot_S2x128_S256x128_S2x256_1_1_0_0_n_n none l m (constant (F := Ideal) S2x256 .f32 0x00000000#32) (ValueIdx.ix2 f r)
      = ∑ k : Fin 128, l (ValueIdx.ix2 f k) * m (ValueIdx.ix2 r k) := by
  simp only [matmul]
  rw [Ideal.matmul_constant_zero_apply, ← Equiv.sum_comp (ValueIdx.contrEquiv1 dot_S2x128_S256x128_S2x256_1_1_0_0_n_n 128 rfl rfl).symm]
  refine Finset.sum_congr rfl fun k _ => ?_
  have hk := ValueIdx.contrEquiv1_symm_val dot_S2x128_S256x128_S2x256_1_1_0_0_n_n 128 rfl rfl k
  have el : dot_S2x128_S256x128_S2x256_1_1_0_0_n_n.lhsIdx (ValueIdx.ix2 f r) ((ValueIdx.contrEquiv1 dot_S2x128_S256x128_S2x256_1_1_0_0_n_n 128 rfl rfl).symm k) = ValueIdx.ix2 f k := funext fun a => Fin.ext (by
    match a with
    | ⟨0, _⟩ => exact lhs_winR2_0 _ _
    | ⟨1, _⟩ => exact (lhs_winR2_1 _ _).trans hk)
  have er : dot_S2x128_S256x128_S2x256_1_1_0_0_n_n.rhsIdx (ValueIdx.ix2 f r) ((ValueIdx.contrEquiv1 dot_S2x128_S256x128_S2x256_1_1_0_0_n_n 128 rfl rfl).symm k) = ValueIdx.ix2 r k := funext fun a => Fin.ext (by
    match a with
    | ⟨0, _⟩ => exact rhs_winR2_0 _ _
    | ⟨1, _⟩ => exact (rhs_winR2_1 _ _).trans hk)
  rw [el, er]

theorem pay3R2_apply (v9 : BitVec 32) (v11 : FVec Ideal S2x128 .f32) (v13 : IVec S128 32) (v24 : FVec Ideal S2x256 .f32) (f : Fin 2) (r : Fin 256) :
    k2_pay3 (F := Ideal) v9 v11 v13 v24 (ValueIdx.ix2 f r)
      = v24 (ValueIdx.ix2 f r) + ∑ k : Fin 128, v11 (ValueIdx.ix2 f k) * (if v13 (ValueIdx.ix1 k) - v9 = BitVec.ofNat 32 r.val then (1 : EReal) else 0) := by
  unfold k2_pay3
  simp only [shapeCast_self]
  show v24 (ValueIdx.ix2 f r) + matmul dot_S2x128_S256x128_S2x256_1_1_0_0_n_n none v11 _ (constant (F := Ideal) S2x256 .f32 0x00000000#32) (ValueIdx.ix2 f r) = _
  refine congrArg (v24 (ValueIdx.ix2 f r) + ·) ((matmul_winR2_apply v11 _ f r).trans ?_)
  exact Finset.sum_congr rfl fun k _ => congrArg (v11 (ValueIdx.ix2 f k) * ·) (onehot_apply v9 v13 r k)

theorem pay3R2_window (v9 : BitVec 32) (v11 : FVec Ideal S2x128 .f32) (v13 : IVec S128 32) (v24 : FVec Ideal S2x256 .f32)
    (hwin : ∀ k : Fin 128, v9.toNat ≤ (v13 (ValueIdx.ix1 k)).toNat ∧ (v13 (ValueIdx.ix1 k)).toNat < v9.toNat + 256)
    (f : Fin 2) (n : ℕ) (hn : v9.toNat ≤ n ∧ n < v9.toNat + 256) :
    k2_pay3 (F := Ideal) v9 v11 v13 v24 (ValueIdx.ix2 f (⟨n - v9.toNat, by omega⟩ : Fin 256))
      = v24 (ValueIdx.ix2 f (⟨n - v9.toNat, by omega⟩ : Fin 256))
        + ∑ k : Fin 128, if (v13 (ValueIdx.ix1 k)).toNat = n then v11 (ValueIdx.ix2 f k) else 0 := by
  rw [pay3R2_apply]
  refine congrArg (v24 _ + ·) (Finset.sum_congr rfl fun k _ => ?_)
  have hk := hwin k
  have hb := v9.isLt
  have hd := (v13 (ValueIdx.ix1 k)).isLt
  have hiff : v13 (ValueIdx.ix1 k) - v9 = BitVec.ofNat 32 (n - v9.toNat) ↔ (v13 (ValueIdx.ix1 k)).toNat = n := by
    rw [← BitVec.toNat_inj]
    simp only [BitVec.toNat_sub, BitVec.toNat_ofNat]
    omega
  by_cases h : (v13 (ValueIdx.ix1 k)).toNat = n
  · rw [if_pos h, if_pos (hiff.mpr h), mul_one]
  · rw [if_neg h, if_neg (fun h' => h (hiff.mp h')), mul_zero]

theorem winUpd2_window (base : BitVec 32) (msgc : FVec Ideal S2x128 .f32) (dstc : IVec S128 32) (cur : FVec Ideal S2x256 .f32)
    (hwin : ∀ k : Fin 128, base.toNat ≤ (dstc (ValueIdx.ix1 k)).toNat ∧ (dstc (ValueIdx.ix1 k)).toNat < base.toNat + 256)
    (f : Fin 2) (n : ℕ) (hn : base.toNat ≤ n ∧ n < base.toNat + 256) :
    Hand.winUpd2 (F := Ideal) base msgc dstc cur (ValueIdx.ix2 f (⟨n - base.toNat, by omega⟩ : Fin 256))
      = cur (ValueIdx.ix2 f (⟨n - base.toNat, by omega⟩ : Fin 256))
        + ∑ k : Fin 128, if (dstc (ValueIdx.ix1 k)).toNat = n then msgc (ValueIdx.ix2 f k) else 0 :=
  pay3R2_window base msgc dstc cur hwin f n hn

end Cert.KernelIdeal.HandValue

end
-- ==== Proof.KI.Body2Fold.lean ====
import proofs.«401711_j53747220742790_3_alg».proof.Proof.KI.Body2
import proofs.«401711_j53747220742790_3_alg».proof.Proof.KI.Body2Cover
import proofs.«401711_j53747220742790_3_alg».proof.Proof.KI.ScratchStep
import Idealize.ShloMosaic.Lib.WholeRead

set_option maxRecDepth 16384

noncomputable section

namespace Cert.KernelIdeal.Hand2

open Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.HandValue

variable {F : FTy → Type} [FloatOps F]
variable {Ix : Type} [DecidableEq Ix] {U : Type} [URA U] {Lvl : Type} [Preorder Lvl]

local notation "𝕄" => MT nD τ sig Ix (Elt F) ℕ U Lvl

theorem lanes_lt {w : ℕ} (hw : w + 256 ≤ 100096) (r : Fin 256) : w + r.val < 100096 := by
  have := r.isLt; omega

theorem lane_sub_lt {w n : ℕ} (h : w ≤ n ∧ n < w + 256) : n - w < 256 := by omega

theorem lane_le_S2x100096 {off : Fin 2 → ℕ} {w : ℕ} (inb : ∀ a, off a + S2x256.size a ≤ S2x100096.size a)
    (hoff : off = ![0, w]) : w + 256 ≤ 100096 := by
  subst hoff; exact inb 1

def lanesAt (w : ℕ) (hw : w + 256 ≤ 100096) (S : Vec F S2x100096 .f32) : Vec F S2x256 .f32 :=
  fun j => S (ValueIdx.ix2 (j 0) ⟨w + (j 1).val, lanes_lt hw (j 1)⟩)

def winStep (w : BitVec 32) (hw : w.toNat + 256 ≤ 100096) (msgc : Vec F S2x128 .f32) (dstc : Vec F S128 .i32)
    (S : Vec F S2x100096 .f32) : Vec F S2x100096 .f32 :=
  fun y => if h : w.toNat ≤ (y 1).val ∧ (y 1).val < w.toNat + 256 then
      winUpd2 w msgc dstc (lanesAt w.toNat hw S) (ValueIdx.ix2 (y 0) ⟨(y 1).val - w.toNat, lane_sub_lt h⟩)
    else S y

theorem winStep_apply (w : BitVec 32) (hw : w.toNat + 256 ≤ 100096) (msgc : Vec F S2x128 .f32) (dstc : Vec F S128 .i32)
    (S : Vec F S2x100096 .f32) (f : Fin 2) (n : Fin 100096) :
    winStep w hw msgc dstc S (ValueIdx.ix2 f n)
      = if h : w.toNat ≤ n.val ∧ n.val < w.toNat + 256 then
          winUpd2 w msgc dstc (lanesAt w.toNat hw S) (ValueIdx.ix2 f ⟨n.val - w.toNat, lane_sub_lt h⟩)
        else S (ValueIdx.ix2 f n) := rfl

section Step

variable {sig : RefSig} {κ : Kind} {sp : Space}

theorem readAt_eq_lanesAt (v : View sig κ sp S2x100096 .f32) (g : v.ty.Contents (Elt F)) {off : Fin 2 → ℕ} {w : ℕ}
    (inb : ∀ a, off a + S2x256.size a ≤ S2x100096.size a) (hoff : off = ![0, w]) :
    v.readAt (Elt F) (Rect.unit (s := S2x100096) off S2x256.size inb).toLoadRect g
      = lanesAt w (lane_le_S2x100096 inb hoff) (v.read (Elt F) g) := by
  funext j
  obtain ⟨f, r, rfl⟩ : ∃ (f : Fin 2) (r : Fin 256), j = ValueIdx.ix2 f r := ⟨j 0, j 1, ValueIdx.eq_ix2 j⟩
  exact readAt_window v g inb hoff f r

theorem read_writes_cons_winStep (v : View sig κ sp S2x100096 .f32) (g : v.ty.Contents (Elt F)) {off : Fin 2 → ℕ}
    (inb : ∀ a, off a + S2x256.size a ≤ S2x100096.size a) (L : List (View.Piece (Elt F) S2x100096 .f32))
    (w : BitVec 32) (hoff : off = ![0, w.toNat]) (msgc : Vec F S2x128 .f32) (dstc : Vec F S128 .i32) :
    v.read (Elt F) (v.writes (Elt F) g
        ((⟨Rect.unit (s := S2x100096) off S2x256.size inb,
            winUpd2 w msgc dstc (v.readAt (Elt F) (Rect.unit (s := S2x100096) off S2x256.size inb).toLoadRect (v.writes (Elt F) g L))⟩
          : View.Piece (Elt F) S2x100096 .f32) :: L))
      = winStep w (lane_le_S2x100096 inb hoff) msgc dstc (v.read (Elt F) (v.writes (Elt F) g L)) := by
  funext y
  obtain ⟨f, n, rfl⟩ : ∃ (f : Fin 2) (n : Fin 100096), y = ValueIdx.ix2 f n := ⟨y 0, y 1, ValueIdx.eq_ix2 y⟩
  rw [read_writes_cons_window v g inb _ L hoff f n, winStep_apply, readAt_eq_lanesAt v _ inb hoff]

end Step

def tblIdx (i : grid2.Coords) (s : Fin 32) : Fin 25792 :=
  ⟨(i 0).val * 12896 + (i 1).val * 32 + s.val, by
    have h0 : (i 0).val < 2 := (i 0).isLt
    have h1 : (i 1).val < 403 := (i 1).isLt
    have := s.isLt
    omega⟩

def winWord (i : grid2.Coords) (x2 : Vec F S25792 .i32) (s : Fin 32) : BitVec 32 := x2 (ValueIdx.ix1 (tblIdx i s))

theorem chunk_lt (s : Fin 32) (r : Fin 128) : 128 * s.val + r.val < 4096 := by
  have := s.isLt; have := r.isLt; omega

def msgChunk (x3 : Vec F S2x4096 .f32) (s : Fin 32) : Vec F S2x128 .f32 :=
  fun j => x3 (ValueIdx.ix2 (j 0) ⟨128 * s.val + (j 1).val, chunk_lt s (j 1)⟩)

def dstChunk (x4 : Vec F S4096 .i32) (s : Fin 32) : Vec F S128 .i32 :=
  fun j => x4 (ValueIdx.ix1 ⟨128 * s.val + (j 0).val, chunk_lt s (j 0)⟩)

theorem tbl_toNat (a b k : ℕ) (ha : a < 2) (hb : b < 403) (hk : k < 32) :
    (Scalar.indexCast (Scalar.addi (Scalar.addi (Scalar.muli (BitVec.ofNat 32 a) 12896#32)
      (Scalar.muli (BitVec.ofNat 32 b) 32#32)) (BitVec.ofNat 32 k))).toNat = a * 12896 + b * 32 + k := by
  simp only [Scalar.indexCast, Scalar.addi, Scalar.muli, IntOp.addi, IntOp.muli, BitVec.toNat_add, BitVec.toNat_mul,
    BitVec.toNat_ofNat]
  omega

theorem tbl_toNat_at (i : grid2.Coords) (s : Fin 32) :
    (Scalar.indexCast (Scalar.addi (Scalar.addi (Scalar.muli (BitVec.ofNat 32 (i 0).val) 12896#32)
      (Scalar.muli (BitVec.ofNat 32 (i 1).val) 32#32)) (BitVec.ofNat 32 s.val))).toNat = (tblIdx i s).val :=
  tbl_toNat (i 0).val (i 1).val s.val (i 0).isLt (i 1).isLt s.isLt

section Reads

variable (arg2 : Memref sig .tc .smem S25792 .i32) (harg2 : arg2.IsWhole) (x2 : Vec F S25792 .i32)
  (arg3 : Memref sig .tc .vmem S2x4096 .f32) (harg3 : arg3.IsWhole) (x3 : Vec F S2x4096 .f32)
  (arg4 : Memref sig .tc .vmem S4096 .i32) (harg4 : arg4.IsWhole) (x4 : Vec F S4096 .i32)

abbrev rdWord (off : Fin 1 → ℕ) (inb : ∀ a, off a + S1.size a ≤ S25792.size a) : Elt F .i32 :=
  arg2.view.readAt (Elt F) (Rect.unit (s := S25792) off S1.size inb).toLoadRect (harg2.unread x2)
    (Shape.Idx.first (numel1_S1.symm ▸ Nat.one_pos))

abbrev rdMsg (off : Fin 2 → ℕ) (inb : ∀ a, off a + S2x128.size a ≤ S2x4096.size a) : Vec F S2x128 .f32 :=
  arg3.view.readAt (Elt F) (Rect.unit (s := S2x4096) off S2x128.size inb).toLoadRect (harg3.unread x3)

abbrev rdDst (off : Fin 1 → ℕ) (inb : ∀ a, off a + S128.size a ≤ S4096.size a) : Vec F S128 .i32 :=
  arg4.view.readAt (Elt F) (Rect.unit (s := S4096) off S128.size inb).toLoadRect (harg4.unread x4)

theorem rdWord_eq (off : Fin 1 → ℕ) (inb : ∀ a, off a + S1.size a ≤ S25792.size a) (i : grid2.Coords) (s : Fin 32)
    (ho : off 0 = (tblIdx i s).val) : rdWord arg2 harg2 x2 off inb = winWord i x2 s := by
  unfold rdWord winWord
  rw [harg2.readAt_unread x2]
  refine congrArg x2 (funext fun a => Fin.ext ?_)
  match a with
  | ⟨0, _⟩ => show off 0 + 1 * 0 = (tblIdx i s).val; omega

theorem rdMsg_eq (off : Fin 2 → ℕ) (inb : ∀ a, off a + S2x128.size a ≤ S2x4096.size a) (s : Fin 32)
    (ho : off = ![0, 128 * s.val]) : rdMsg arg3 harg3 x3 off inb = msgChunk x3 s := by
  subst ho
  funext j
  unfold rdMsg msgChunk
  rw [harg3.readAt_unread x3]
  refine congrArg x3 (funext fun a => Fin.ext ?_)
  match a with
  | ⟨0, _⟩ => show 0 + 1 * (j 0).val = (j 0).val; omega
  | ⟨1, _⟩ => show 128 * s.val + 1 * (j 1).val = 128 * s.val + (j 1).val; omega

theorem rdDst_eq (off : Fin 1 → ℕ) (inb : ∀ a, off a + S128.size a ≤ S4096.size a) (s : Fin 32)
    (ho : off = ![128 * s.val]) : rdDst arg4 harg4 x4 off inb = dstChunk x4 s := by
  subst ho
  funext j
  unfold rdDst dstChunk
  rw [harg4.readAt_unread x4]
  refine congrArg x4 (funext fun a => Fin.ext ?_)
  match a with
  | ⟨0, _⟩ => show 128 * s.val + 1 * (j 0).val = 128 * s.val + (j 0).val; omega

end Reads

def winFoldN (i : grid2.Coords) (x2 : Vec F S25792 .i32) (x3 : Vec F S2x4096 .f32) (x4 : Vec F S4096 .i32)
    (hw : ∀ s : Fin 32, (winWord i x2 s).toNat + 256 ≤ 100096) :
    (t : ℕ) → t ≤ 32 → Vec F S2x100096 .f32 → Vec F S2x100096 .f32
  | 0, _, S => S
  | t + 1, h, S =>
    winStep (winWord i x2 ⟨t, h⟩) (hw ⟨t, h⟩) (msgChunk x3 ⟨t, h⟩) (dstChunk x4 ⟨t, h⟩)
      (winFoldN i x2 x3 x4 hw t (Nat.le_of_succ_le h) S)

def pointStep (i : grid2.Coords) (x2 : Vec F S25792 .i32) (x3 : Vec F S2x4096 .f32) (x4 : Vec F S4096 .i32)
    (hw : ∀ s : Fin 32, (winWord i x2 s).toNat + 256 ≤ 100096) (S : Vec F S2x100096 .f32) : Vec F S2x100096 .f32 :=
  winFoldN i x2 x3 x4 hw 32 (Nat.le_refl 32) S

theorem winFoldN_succ (i : grid2.Coords) (x2 : Vec F S25792 .i32) (x3 : Vec F S2x4096 .f32) (x4 : Vec F S4096 .i32)
    (hw : ∀ s : Fin 32, (winWord i x2 s).toNat + 256 ≤ 100096) (t : ℕ) (h : t + 1 ≤ 32) (S : Vec F S2x100096 .f32) :
    winFoldN i x2 x3 x4 hw (t + 1) h S
      = winStep (winWord i x2 ⟨t, h⟩) (hw ⟨t, h⟩) (msgChunk x3 ⟨t, h⟩) (dstChunk x4 ⟨t, h⟩)
          (winFoldN i x2 x3 x4 hw t (Nat.le_of_succ_le h) S) := rfl

theorem fold_step {R S S' : Vec F S2x100096 .f32} {w w' : BitVec 32} {hw : w.toNat + 256 ≤ 100096}
    {hw' : w'.toNat + 256 ≤ 100096} {m m' : Vec F S2x128 .f32} {d d' : Vec F S128 .i32}
    (h : R = winStep w hw m d S) (ew : w = w') (em : m = m') (ed : d = d') (eS : S = S') :
    R = winStep w' hw' m' d' S' := by
  subst ew em ed eS; exact h

section Chain

variable (arg2 : Memref sig .tc .smem S25792 .i32) (harg2 : arg2.IsWhole) (x2 : Vec F S25792 .i32)
  (arg3 : Memref sig .tc .vmem S2x4096 .f32) (harg3 : arg3.IsWhole) (x3 : Vec F S2x4096 .f32)
  (arg4 : Memref sig .tc .vmem S4096 .i32) (harg4 : arg4.IsWhole) (x4 : Vec F S4096 .i32)
  {κ : Kind} {sp : Space} (v : View sig κ sp S2x100096 .f32) (g : v.ty.Contents (Elt F)) (i : grid2.Coords)
  (hw : ∀ s : Fin 32, (winWord i x2 s).toNat + 256 ≤ 100096)

-- Where window s's base word sits in the table, in the word arithmetic the body computes it with.
def wOff (i : grid2.Coords) (s : Fin 32) : Fin 1 → ℕ :=
  ![(Scalar.indexCast (Scalar.addi (Scalar.addi (Scalar.muli (BitVec.ofNat 32 (i 0).val) 12896#32)
      (Scalar.muli (BitVec.ofNat 32 (i 1).val) 32#32)) (BitVec.ofNat 32 s.val))).toNat]

theorem wOff_inb (i : grid2.Coords) (s : Fin 32) : ∀ a, wOff i s a + S1.size a ≤ S25792.size a := fun a => by
  have h := (tblIdx i s).isLt
  rw [← tbl_toNat_at i s] at h
  fin_cases a; exact h

theorem mOff_inb (s : Fin 32) : ∀ a, (![0, 128 * s.val] : Fin 2 → ℕ) a + S2x128.size a ≤ S2x4096.size a := fun a => by
  have := s.isLt
  fin_cases a
  · exact Nat.le_refl _
  · show 128 * s.val + 128 ≤ 4096; omega

theorem dOff_inb (s : Fin 32) : ∀ a, (![128 * s.val] : Fin 1 → ℕ) a + S128.size a ≤ S4096.size a := fun a => by
  have := s.isLt
  fin_cases a; show 128 * s.val + 128 ≤ 4096; omega

include hw in
theorem win_inb (s : Fin 32) : ∀ a, (![0, (rdWord arg2 harg2 x2 (wOff i s) (wOff_inb i s)).toNat] : Fin 2 → ℕ) a
    + S2x256.size a ≤ S2x100096.size a := fun a => by
  have h := hw s
  rw [← rdWord_eq arg2 harg2 x2 _ (wOff_inb i s) i s (tbl_toNat_at i s)] at h
  fin_cases a
  · exact Nat.le_refl _
  · exact h

-- The first t window stores of a point, newest first, on top of the stores L0: window s loads its base word, its two chunks
-- and its 256 lanes as the earlier stores left them, and stores the updated lanes.
def winPieces (L0 : List (View.Piece (Elt F) S2x100096 .f32)) :
    (t : ℕ) → t ≤ 32 → List (View.Piece (Elt F) S2x100096 .f32)
  | 0, _ => L0
  | t + 1, h =>
    (⟨Rect.unit (s := S2x100096) _ S2x256.size (win_inb arg2 harg2 x2 i hw ⟨t, h⟩),
      winUpd2 (rdWord arg2 harg2 x2 _ (wOff_inb i ⟨t, h⟩)) (rdMsg arg3 harg3 x3 _ (mOff_inb ⟨t, h⟩)) (rdDst arg4 harg4 x4 _ (dOff_inb ⟨t, h⟩))
        (v.readAt (Elt F) (Rect.unit (s := S2x100096) _ S2x256.size (win_inb arg2 harg2 x2 i hw ⟨t, h⟩)).toLoadRect
          (v.writes (Elt F) g (winPieces L0 t (Nat.le_of_succ_le h))))⟩ : View.Piece (Elt F) S2x100096 .f32)
      :: winPieces L0 t (Nat.le_of_succ_le h)

-- Read back, the first t window stores are the first t window steps of what the stores under them left.
theorem read_winPieces (L0 : List (View.Piece (Elt F) S2x100096 .f32)) : ∀ (t : ℕ) (h : t ≤ 32),
    v.read (Elt F) (v.writes (Elt F) g (winPieces arg2 harg2 x2 arg3 harg3 x3 arg4 harg4 x4 v g i hw L0 t h))
      = winFoldN i x2 x3 x4 hw t h (v.read (Elt F) (v.writes (Elt F) g L0))
  | 0, _ => rfl
  | t + 1, h =>
    fold_step (read_writes_cons_winStep v g _ _ _ rfl _ _) (rdWord_eq arg2 harg2 x2 _ _ i ⟨t, h⟩ (tbl_toNat_at i ⟨t, h⟩))
      (rdMsg_eq arg3 harg3 x3 _ _ ⟨t, h⟩ rfl) (rdDst_eq arg4 harg4 x4 _ _ ⟨t, h⟩ rfl)
      (read_winPieces L0 t (Nat.le_of_succ_le h))

end Chain

section Whole

variable {sig : RefSig} {κ : Kind} {sp : Space}

theorem read_writes_whole (v : View sig κ sp S2x100096 .f32) (g : v.ty.Contents (Elt F)) (p : Vec F S2x100096 .f32) :
    v.read (Elt F) (v.writes (Elt F) g
        [(⟨Rect.unit (s := S2x100096) ![0, 0] S2x100096.size inb_S2x100096_S2x100096_0_0, p⟩ : View.Piece (Elt F) S2x100096 .f32)])
      = p := by
  funext y
  refine View.read_writes_cons_unit_of_mem v g inb_S2x100096_S2x100096_0_0 p [] y y rfl fun a => ?_
  match a with
  | ⟨0, _⟩ => show (y 0).val = 0 + (y 0).val; omega
  | ⟨1, _⟩ => show (y 1).val = 0 + (y 1).val; omega

theorem readAt_whole (v : View sig κ sp S2x100096 .f32) (g : v.ty.Contents (Elt F)) :
    v.readAt (Elt F) (Rect.unit (s := S2x100096) ![0, 0] S2x100096.size inb_S2x100096_S2x100096_0_0).toLoadRect g
      = v.read (Elt F) g := by
  funext y
  rw [View.readAt_apply]
  refine congrArg (v.read (Elt F) g) (funext fun a => Fin.ext ?_)
  match a with
  | ⟨0, _⟩ => show 0 + 1 * (y 0).val = (y 0).val; omega
  | ⟨1, _⟩ => show 0 + 1 * (y 1).val = (y 1).val; omega

end Whole

set_option maxHeartbeats 1000000 in

theorem read_scratch2_B (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : ¬cond2_0 i) (hc1 : ¬cond2_1 i)
    (x2 : Vec F S25792 .i32) (x3 : Vec F S2x4096 .f32) (x4 : Vec F S4096 .i32) (xs : Vec F S2x100096 .f32)
    (hks : Hw2 i arg2 harg2 x2)
    (hw : ∀ s : Fin 32, (winWord i x2 s).toNat + 256 ≤ 100096) :
    arg6.view.read (Elt F) (arg6.view.writes (Elt F) (harg6.unread xs)
        (kernelRun2_B (Ix := Ix) (U := U) (Lvl := Lvl) 𝒱₀ c i arg2 harg2 arg3 harg3 arg4 harg4 arg5 harg5 arg6 harg6 hc0 hc1 x2 x3 x4 xs hks).1)
      = pointStep i x2 x3 x4 hw xs :=
  (read_winPieces arg2 harg2 x2 arg3 harg3 x3 arg4 harg4 x4 arg6.view (harg6.unread xs) i hw [] 32 (Nat.le_refl 32)).trans
    (congrArg (winFoldN i x2 x3 x4 hw 32 (Nat.le_refl 32)) (harg6.read_unread xs))

set_option maxHeartbeats 1000000 in

theorem read_scratch2_C (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : ¬cond2_0 i) (hc1 : cond2_1 i)
    (x2 : Vec F S25792 .i32) (x3 : Vec F S2x4096 .f32) (x4 : Vec F S4096 .i32) (xs : Vec F S2x100096 .f32)
    (hks : Hw2 i arg2 harg2 x2)
    (hw : ∀ s : Fin 32, (winWord i x2 s).toNat + 256 ≤ 100096) :
    arg6.view.read (Elt F) (arg6.view.writes (Elt F) (harg6.unread xs)
        (kernelRun2_C (Ix := Ix) (U := U) (Lvl := Lvl) 𝒱₀ c i arg2 harg2 arg3 harg3 arg4 harg4 arg5 harg5 arg6 harg6 hc0 hc1 x2 x3 x4 xs hks).2.1)
      = pointStep i x2 x3 x4 hw xs :=
  (read_winPieces arg2 harg2 x2 arg3 harg3 x3 arg4 harg4 x4 arg6.view (harg6.unread xs) i hw [] 32 (Nat.le_refl 32)).trans
    (congrArg (winFoldN i x2 x3 x4 hw 32 (Nat.le_refl 32)) (harg6.read_unread xs))

theorem read_out2_C (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : ¬cond2_0 i) (hc1 : cond2_1 i)
    (x2 : Vec F S25792 .i32) (x3 : Vec F S2x4096 .f32) (x4 : Vec F S4096 .i32) (xs : Vec F S2x100096 .f32)
    (hks : Hw2 i arg2 harg2 x2)
    (hw : ∀ s : Fin 32, (winWord i x2 s).toNat + 256 ≤ 100096) (f5 : arg5.view.ty.Contents (Elt F)) :
    arg5.view.read (Elt F) (arg5.view.writes (Elt F) f5
        (kernelRun2_C (Ix := Ix) (U := U) (Lvl := Lvl) 𝒱₀ c i arg2 harg2 arg3 harg3 arg4 harg4 arg5 harg5 arg6 harg6 hc0 hc1 x2 x3 x4 xs hks).1)
      = pointStep i x2 x3 x4 hw xs := by
  rw [← read_scratch2_C (Ix := Ix) (U := U) (Lvl := Lvl) 𝒱₀ c i arg2 harg2 arg3 harg3 arg4 harg4 arg5 harg5 arg6 harg6 hc0 hc1 x2 x3 x4 xs hks hw]
  exact (read_writes_whole arg5.view f5 _).trans (readAt_whole arg6.view _)

set_option maxHeartbeats 1000000 in

theorem read_scratch2_A (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : cond2_0 i) (hc1 : ¬cond2_1 i)
    (x2 : Vec F S25792 .i32) (x3 : Vec F S2x4096 .f32) (x4 : Vec F S4096 .i32)
    (hks : Hw2 i arg2 harg2 x2)
    (hw : ∀ s : Fin 32, (winWord i x2 s).toNat + 256 ≤ 100096) (f6 : arg6.view.ty.Contents (Elt F)) :
    arg6.view.read (Elt F) (arg6.view.writes (Elt F) f6
        (kernelRun2_A (Ix := Ix) (U := U) (Lvl := Lvl) 𝒱₀ c i arg2 harg2 arg3 harg3 arg4 harg4 arg5 harg5 arg6 harg6 hc0 hc1 x2 x3 x4 hks).1)
      = pointStep i x2 x3 x4 hw (k2_pay2 (F := F)) := by
  rw [View.read_writes_of_cover arg6.view f6 arg6.view arg6.view.junk _
    (scover2_A (Ix := Ix) (U := U) (Lvl := Lvl) 𝒱₀ c i arg2 harg2 arg3 harg3 arg4 harg4 arg5 harg5 arg6 harg6 hc0 hc1 x2 x3 x4 hks)]
  exact (read_winPieces arg2 harg2 x2 arg3 harg3 x3 arg4 harg4 x4 arg6.view arg6.view.junk i hw
      [⟨Rect.unit (s := S2x100096) ![0, 0] S2x100096.size inb_S2x100096_S2x100096_0_0, k2_pay2 (F := F)⟩] 32 (Nat.le_refl 32)).trans
    (congrArg (winFoldN i x2 x3 x4 hw 32 (Nat.le_refl 32)) (read_writes_whole arg6.view arg6.view.junk (k2_pay2 (F := F))))

theorem winFoldN_eq_foldl (i : grid2.Coords) (x2 : Vec F S25792 .i32) (x3 : Vec F S2x4096 .f32) (x4 : Vec F S4096 .i32)
    (hw : ∀ s : Fin 32, (winWord i x2 s).toNat + 256 ≤ 100096) :
    ∀ (t : ℕ) (h : t ≤ 32) (S : Vec F S2x100096 .f32), winFoldN i x2 x3 x4 hw t h S
      = Fin.foldl t (fun acc (s : Fin t) => winStep (winWord i x2 (Fin.castLE h s)) (hw (Fin.castLE h s))
          (msgChunk x3 (Fin.castLE h s)) (dstChunk x4 (Fin.castLE h s)) acc) S
  | 0, _, S => by rw [Fin.foldl_zero]; rfl
  | t + 1, h, S => by
    rw [Fin.foldl_succ_last, winFoldN_succ, winFoldN_eq_foldl i x2 x3 x4 hw t (Nat.le_of_succ_le h) S]
    rfl

theorem pointStep_eq_foldl (i : grid2.Coords) (x2 : Vec F S25792 .i32) (x3 : Vec F S2x4096 .f32) (x4 : Vec F S4096 .i32)
    (hw : ∀ s : Fin 32, (winWord i x2 s).toNat + 256 ≤ 100096) (S : Vec F S2x100096 .f32) :
    pointStep i x2 x3 x4 hw S
      = Fin.foldl 32 (fun acc (s : Fin 32) => winStep (winWord i x2 s) (hw s) (msgChunk x3 s) (dstChunk x4 s) acc) S :=
  winFoldN_eq_foldl i x2 x3 x4 hw 32 (Nat.le_refl 32) S

end Cert.KernelIdeal.Hand2

end
-- ==== Proof.KI.ScatterVal2.lean ====
import proofs.«401711_j53747220742790_3_alg».proof.Proof.KI.WinIdeal2
import proofs.«401711_j53747220742790_3_alg».proof.Proof.KI.Body2Fold
import proofs.«401711_j53747220742790_3_alg».proof.Proof.KI.ScatterLane

noncomputable section

open scoped BigOperators

namespace Cert.KernelIdeal.HandValue

open Cert.KernelIdeal Cert.KernelIdeal.Gen
open Idealize.ShloMosaic
open Cert.Gcn.ScatterFold Cert.Gcn.ScatterLane

theorem winStep2_lane (w : BitVec 32) (hw : w.toNat + 256 ≤ 100096) (msgc : FVec Ideal S2x128 .f32)
    (dstc : IVec S128 32) (S : FVec Ideal S2x100096 .f32)
    (hwin : ∀ k : Fin 128, w.toNat ≤ (dstc (ValueIdx.ix1 k)).toNat ∧ (dstc (ValueIdx.ix1 k)).toNat < w.toNat + 256)
    (f : Fin 2) (n : Fin 100096) :
    Hand2.winStep (F := Ideal) w hw msgc dstc S (ValueIdx.ix2 f n)
      = stepLane w.toNat (fun k => (dstc (ValueIdx.ix1 k)).toNat) (fun k => msgc (ValueIdx.ix2 f k))
          (laneFn f S) n.val := by
  rw [Hand2.winStep_apply]
  unfold stepLane
  by_cases h : w.toNat ≤ n.val ∧ n.val < w.toNat + 256
  · rw [dif_pos h, if_pos h, winUpd2_window w msgc dstc _ hwin f n.val h, laneFn_val]
    refine congrArg (· + _) ?_
    exact congrArg (fun k : Fin 100096 => S (ValueIdx.ix2 f k))
      (Fin.ext (by show w.toNat + (n.val - w.toNat) = n.val; omega))
  · rw [dif_neg h, if_neg h, laneFn_val]

theorem dstChunk2_apply (x4 : IVec S4096 32) (s : Fin 32) (k : Fin 128) :
    Hand2.dstChunk (F := Ideal) x4 s (ValueIdx.ix1 k)
      = x4 (ValueIdx.ix1 ⟨128 * s.val + k.val, by have := s.isLt; have := k.isLt; omega⟩) := rfl

theorem msgChunk2_apply (x3 : FVec Ideal S2x4096 .f32) (s : Fin 32) (f : Fin 2) (k : Fin 128) :
    Hand2.msgChunk (F := Ideal) x3 s (ValueIdx.ix2 f k)
      = x3 (ValueIdx.ix2 f ⟨128 * s.val + k.val, by have := s.isLt; have := k.isLt; omega⟩) := rfl

theorem pointStep2_apply (i : grid2.Coords) (x2 : IVec S25792 32) (x3 : FVec Ideal S2x4096 .f32) (x4 : IVec S4096 32)
    (hw : ∀ s, (Hand2.winWord (F := Ideal) i x2 s).toNat + 256 ≤ 100096) (S : FVec Ideal S2x100096 .f32)
    (hwin : ∀ (s : Fin 32) (k : Fin 128),
      (Hand2.winWord (F := Ideal) i x2 s).toNat
          ≤ (x4 (ValueIdx.ix1 ⟨128 * s.val + k.val, by have := s.isLt; have := k.isLt; omega⟩)).toNat ∧
        (x4 (ValueIdx.ix1 ⟨128 * s.val + k.val, by have := s.isLt; have := k.isLt; omega⟩)).toNat
          < (Hand2.winWord (F := Ideal) i x2 s).toNat + 256)
    (f : Fin 2) (n : Fin 100096) :
    Hand2.pointStep (F := Ideal) i x2 x3 x4 hw S (ValueIdx.ix2 f n)
      = S (ValueIdx.ix2 f n) + ∑ j : Fin 4096, if (x4 (ValueIdx.ix1 j)).toNat = n.val then x3 (ValueIdx.ix2 f j) else 0 := by
  have hstep : ∀ (s : Fin 32) (S : (⟨2, ![2, 100096]⟩ : Shape).Idx → EReal) (f : Fin 2) (n : Fin 100096),
      Hand2.winStep (F := Ideal) (Hand2.winWord (F := Ideal) i x2 s) (hw s) (Hand2.msgChunk (F := Ideal) x3 s) (Hand2.dstChunk (F := Ideal) x4 s) S
          (ValueIdx.ix2 f n)
        = stepLane (Hand2.winWord (F := Ideal) i x2 s).toNat
            (fun k => (x4 (ValueIdx.ix1 ⟨128 * s.val + k.val, by have := s.isLt; have := k.isLt; omega⟩)).toNat)
            (fun k => x3 (ValueIdx.ix2 f ⟨128 * s.val + k.val, by have := s.isLt; have := k.isLt; omega⟩))
            (laneFn f S) n.val := by
    intro s S f n
    rw [winStep2_lane _ (hw s) (Hand2.msgChunk (F := Ideal) x3 s) (Hand2.dstChunk (F := Ideal) x4 s) S
      (fun k => by rw [dstChunk2_apply]; exact hwin s k) f n]
    simp only [dstChunk2_apply, msgChunk2_apply]
  rw [Hand2.pointStep_eq_foldl]
  exact foldl_lane (M := EReal) (R := 2) (N := 100096) (fun s => (Hand2.winWord (F := Ideal) i x2 s).toNat) hw
    (fun j => (x4 (ValueIdx.ix1 j)).toNat) (fun f j => x3 (ValueIdx.ix2 f j))
    (fun s acc => Hand2.winStep (F := Ideal) (Hand2.winWord (F := Ideal) i x2 s) (hw s) (Hand2.msgChunk (F := Ideal) x3 s) (Hand2.dstChunk (F := Ideal) x4 s) acc)
    hstep hwin S f n

theorem pay2_zero2 (y : S2x100096.Idx) : k2_pay2 (F := Ideal) y = 0 := by
  unfold k2_pay2
  simp only [shapeCast_self]
  exact Ideal.ofBits_zero_f32

theorem point2_flat (X2 : IVec S25792 32) (X3 : Fin 806 → FVec Ideal S2x4096 .f32) (X4 : Fin 806 → IVec S4096 32)
    (hw : ∀ (t : Fin 806) (s : Fin 32), (Hand2.winWord (F := Ideal) (grid2.coords t) X2 s).toNat + 256 ≤ 100096)
    (hwin : ∀ (t : Fin 806) (s : Fin 32) (k : Fin 128),
      (Hand2.winWord (F := Ideal) (grid2.coords t) X2 s).toNat
          ≤ (X4 t (ValueIdx.ix1 ⟨128 * s.val + k.val, by have := s.isLt; have := k.isLt; omega⟩)).toNat ∧
        (X4 t (ValueIdx.ix1 ⟨128 * s.val + k.val, by have := s.isLt; have := k.isLt; omega⟩)).toNat
          < (Hand2.winWord (F := Ideal) (grid2.coords t) X2 s).toNat + 256)
    (D : Fin 3301376 → ℕ) (Mg : Fin 2 → Fin 3301376 → EReal)
    (hD : ∀ (t : Fin 806) (j : Fin 4096),
      (X4 t (ValueIdx.ix1 j)).toNat = D ⟨4096 * t.val + j.val, by have := t.isLt; have := j.isLt; omega⟩)
    (hM : ∀ (t : Fin 806) (f : Fin 2) (j : Fin 4096),
      X3 t (ValueIdx.ix2 f j) = Mg f ⟨4096 * t.val + j.val, by have := t.isLt; have := j.isLt; omega⟩)
    (cc : Fin 2) (i : ℕ) (hi : i < 403) (S : FVec Ideal S2x100096 .f32) (f : Fin 2) (n : Fin 100096) :
    Hand2.pointStep (F := Ideal) (grid2.coords (⟨403 * cc.val + i, by have := cc.isLt; omega⟩ : Fin 806)) X2
        (X3 (⟨403 * cc.val + i, by have := cc.isLt; omega⟩ : Fin 806)) (X4 (⟨403 * cc.val + i, by have := cc.isLt; omega⟩ : Fin 806))
        (hw (⟨403 * cc.val + i, by have := cc.isLt; omega⟩ : Fin 806)) S (ValueIdx.ix2 f n)
      = S (ValueIdx.ix2 f n)
        + ∑ j : Fin 4096,
            if (if h : 4096 * i + j.val < 1650688 then
                  D ⟨cc.val * 1650688 + (4096 * i + j.val), by have := cc.isLt; omega⟩ else 0) = n.val then
              (if h : 4096 * i + j.val < 1650688 then
                  Mg f ⟨cc.val * 1650688 + (4096 * i + j.val), by have := cc.isLt; omega⟩ else 0)
            else 0 := by
  rw [pointStep2_apply _ X2 _ _ _ S (hwin (⟨403 * cc.val + i, by have := cc.isLt; omega⟩ : Fin 806)) f n]
  refine congrArg (S (ValueIdx.ix2 f n) + ·) (Finset.sum_congr rfl fun j _ => ?_)
  have hj := j.isLt
  have hcc := cc.isLt
  have hlt : 4096 * i + j.val < 1650688 := by omega
  rw [dif_pos hlt, dif_pos hlt, hD, hM]
  have e : (⟨4096 * (403 * cc.val + i) + j.val, by omega⟩ : Fin 3301376)
      = ⟨cc.val * 1650688 + (4096 * i + j.val), by omega⟩ := Fin.ext (by show 4096 * (403 * cc.val + i) + j.val = cc.val * 1650688 + (4096 * i + j.val); omega)
  rw [e]

theorem scr2_sum (scr : (p : ℕ) → p < 806 → FVec Ideal S2x100096 .f32)
    (X2 : IVec S25792 32) (X3 : Fin 806 → FVec Ideal S2x4096 .f32) (X4 : Fin 806 → IVec S4096 32)
    (hw : ∀ (t : Fin 806) (s : Fin 32), (Hand2.winWord (F := Ideal) (grid2.coords t) X2 s).toNat + 256 ≤ 100096)
    (hA : ∀ t : Fin 806, t.val % 403 = 0 →
      scr t.val t.isLt = Hand2.pointStep (F := Ideal) (grid2.coords t) X2 (X3 t) (X4 t) (hw t) (k2_pay2 (F := Ideal)))
    (hBC : ∀ t : Fin 806, ¬t.val % 403 = 0 →
      scr t.val t.isLt = Hand2.pointStep (F := Ideal) (grid2.coords t) X2 (X3 t) (X4 t) (hw t)
        (scr (t.val - 1) (Nat.lt_of_le_of_lt (Nat.sub_le _ _) t.isLt)))
    (hwin : ∀ (t : Fin 806) (s : Fin 32) (k : Fin 128),
      (Hand2.winWord (F := Ideal) (grid2.coords t) X2 s).toNat
          ≤ (X4 t (ValueIdx.ix1 ⟨128 * s.val + k.val, by have := s.isLt; have := k.isLt; omega⟩)).toNat ∧
        (X4 t (ValueIdx.ix1 ⟨128 * s.val + k.val, by have := s.isLt; have := k.isLt; omega⟩)).toNat
          < (Hand2.winWord (F := Ideal) (grid2.coords t) X2 s).toNat + 256)
    (D : Fin 3301376 → ℕ) (Mg : Fin 2 → Fin 3301376 → EReal)
    (hD : ∀ (t : Fin 806) (j : Fin 4096),
      (X4 t (ValueIdx.ix1 j)).toNat = D ⟨4096 * t.val + j.val, by have := t.isLt; have := j.isLt; omega⟩)
    (hM : ∀ (t : Fin 806) (f : Fin 2) (j : Fin 4096),
      X3 t (ValueIdx.ix2 f j) = Mg f ⟨4096 * t.val + j.val, by have := t.isLt; have := j.isLt; omega⟩)
    (cc : Fin 2) (f : Fin 2) (n : Fin 100096) :
    scr (403 * cc.val + 402) (by have := cc.isLt; omega) (ValueIdx.ix2 f n)
      = ∑ j : Fin 1650688,
          if D ⟨cc.val * 1650688 + j.val, by have := cc.isLt; have := j.isLt; omega⟩ = n.val then
            Mg f ⟨cc.val * 1650688 + j.val, by have := cc.isLt; have := j.isLt; omega⟩ else 0 := by
  have hcc := cc.isLt
  have key := core_sum_last (M := EReal)
    (fun i => if h : i < 403 then scr (403 * cc.val + i) (by omega) (ValueIdx.ix2 f n) else 0)
    (fun q => if h : q < 1650688 then D ⟨cc.val * 1650688 + q, by omega⟩ else 0)
    (fun q => if h : q < 1650688 then Mg f ⟨cc.val * 1650688 + q, by omega⟩ else 0) n.val
    (by
      show (if h : 0 < 403 then scr (403 * cc.val + 0) (by omega) (ValueIdx.ix2 f n) else 0) = _
      rw [dif_pos (by omega)]
      have hA0 := hA ⟨403 * cc.val + 0, by omega⟩ (by show (403 * cc.val + 0) % 403 = 0; omega)
      rw [show scr (403 * cc.val + 0) (by omega) = _ from hA0,
        point2_flat X2 X3 X4 hw hwin D Mg hD hM cc 0 (by omega) _ f n, pay2_zero2])
    (fun i hi0 hi => by
      show (if h : i < 403 then scr (403 * cc.val + i) (by omega) (ValueIdx.ix2 f n) else 0)
        = (if h : i - 1 < 403 then scr (403 * cc.val + (i - 1)) (by omega) (ValueIdx.ix2 f n) else 0) + _
      rw [dif_pos hi, dif_pos (by omega)]
      have hB := hBC ⟨403 * cc.val + i, by omega⟩ (by show ¬(403 * cc.val + i) % 403 = 0; omega)
      rw [show scr (403 * cc.val + i) (by omega) = _ from hB,
        point2_flat X2 X3 X4 hw hwin D Mg hD hM cc i hi _ f n]
      refine congrArg (· + _) ?_
      have e : 403 * cc.val + i - 1 = 403 * cc.val + (i - 1) := by omega
      exact congrArg (fun v : FVec Ideal S2x100096 .f32 => v (ValueIdx.ix2 f n))
        (by
          show scr (403 * cc.val + i - 1) _ = scr (403 * cc.val + (i - 1)) _
          congr 1))
  rw [dif_pos (by omega)] at key
  rw [key]
  refine Finset.sum_congr rfl fun j _ => ?_
  rw [dif_pos j.isLt, dif_pos j.isLt]

end Cert.KernelIdeal.HandValue

end
-- ==== Proof.KI.Lanes2.lean ====
import proofs.«401711_j53747220742790_3_alg».proof.Proof.KI.Common
import proofs.«401711_j53747220742790_3_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Lanes
variable (V : Dev nD → Valuation τ sig (Elt F)) (a : (pcfg2 (F := F)).Adm)

theorem index2_0 : ∀ t : Fin grid2.N, cc2_transform_0 (grid2.coords t) = ![0, t.val] := by decide +kernel
theorem index2_1 : ∀ t : Fin grid2.N, cc2_transform_1 (grid2.coords t) = ![t.val] := by decide +kernel

theorem lane2_lt (t : Fin (cfg2 a).N) (j : Fin 4096) : 4096 * t.val + j.val < 3301376 := by
  have := t.isLt; have hN : (cfg2 a).N = 806 := N_2; omega

theorem iblk2_msg_lane (c : Dev nD) (t : Fin (cfg2 a).N) (f : Fin 2) (j : Fin 4096) :
    iblk2 V a c 0 t (ValueIdx.ix2 f j) = VR2 V c main_v97 (ValueIdx.ix2 f ⟨4096 * t.val + j.val, lane2_lt a t j⟩) := by
  have hi : ((cfg2 a).win 0).index t = ![0, t.val] := index2_0 t
  unfold iblk2
  show VR2 V c main_v97 _ = VR2 V c main_v97 _
  congr 1
  funext d
  apply Fin.ext
  match d with
  | ⟨0, h0⟩ =>
    show ((cfg2 a).win 0).index t ⟨0, h0⟩ * 2 + 1 * (f : ℕ) = (f : ℕ)
    rw [hi]; show 0 * 2 + 1 * (f : ℕ) = (f : ℕ); omega
  | ⟨1, h1⟩ =>
    show ((cfg2 a).win 0).index t ⟨1, h1⟩ * 4096 + 1 * (j : ℕ) = 4096 * t.val + (j : ℕ)
    rw [hi]; show t.val * 4096 + 1 * (j : ℕ) = 4096 * t.val + (j : ℕ); omega

theorem iblk2_dst_lane (c : Dev nD) (t : Fin (cfg2 a).N) (j : Fin 4096) :
    iblk2 V a c 1 t (ValueIdx.ix1 j) = VR2 V c main_v34 (ValueIdx.ix1 ⟨4096 * t.val + j.val, lane2_lt a t j⟩) := by
  have hi : ((cfg2 a).win 1).index t = ![t.val] := index2_1 t
  unfold iblk2
  show VR2 V c main_v34 _ = VR2 V c main_v34 _
  congr 1
  funext d
  apply Fin.ext
  match d with
  | ⟨0, h0⟩ =>
    show ((cfg2 a).win 1).index t ⟨0, h0⟩ * 4096 + 1 * (j : ℕ) = 4096 * t.val + (j : ℕ)
    rw [hi]; show t.val * 4096 + 1 * (j : ℕ) = 4096 * t.val + (j : ℕ); omega

end Lanes

end Cert.KernelIdeal.Hand

end
-- ==== Proof.KI.ArrAt2.lean ====
import proofs.«401711_j53747220742790_3_alg».proof.Proof.KI.Region2
import proofs.«401711_j53747220742790_3_alg».proof.Proof.KI.Body2Fold
import Idealize.ShloMosaic.Lib.Pipeline.Value

set_option maxRecDepth 16384

noncomputable section

namespace Cert.KernelIdeal.Hand

open Cert.KernelIdeal Cert.KernelIdeal.Gen Cert.KernelIdeal.Hand2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem flushB2_2 : ∀ t : Fin grid2.N, t.val % 403 = 402 → (t.val + 1 = grid2.N || decide (∃ h : t.val + 1 < grid2.N, cc2_transform_2 (grid2.coords ⟨t.val + 1, h⟩) ≠ cc2_transform_2 (grid2.coords t))) = true := by decide +kernel

theorem idxB2_2 : ∀ t : Fin grid2.N, cc2_transform_2 (grid2.coords t) = ![0, t.val / 403] := by decide +kernel

section ArrAt
variable (V : Dev nD → Valuation τ sig (Elt F)) (a : (pcfg2 (F := F)).Adm) (htbl : TblOk (a.1 0))

theorem flush2_2 (t : Fin (cfg2 a).N) (h : t.val % 403 = 402) : ((cfg2 a).win 2).flush t = true := flushB2_2 t h

theorem flush2_2_iff (t : Fin (cfg2 a).N) : ((cfg2 a).win 2).flush t = true ↔ t.val % 403 = 402 :=
  ⟨fun hf => by
    by_contra h
    rw [noFlush2_2 a t h] at hf
    exact Bool.false_ne_true hf, flush2_2 a t⟩

theorem pt2_lt (t : Fin (cfg2 a).N) : t.val < 806 :=
  (show t.val < grid2.N from t.isLt).trans_eq N_2

theorem mem_blk2_2 (t : Fin (cfg2 a).N) (i : S2x200192.Idx) :
    i ∈ (((cfg2 a).win 2).blk t).view.set ↔ ∀ a' : Fin 2, cc2_transform_2 (grid2.coords t) a' * S2x100096.size a' ≤ (i a').val
      ∧ (i a').val < cc2_transform_2 (grid2.coords t) a' * S2x100096.size a' + S2x100096.size a' := by
  have e : (((cfg2 a).win 2).blk t).view.set = (((cfg2 a).win 2).rect t : Rect main_v98.ty.shape).set :=
    View.set_slice_whole main_v98 _
  rw [e]
  exact Rect.mem_set_unit

theorem emb_blk2_2 (t : Fin (cfg2 a).N) (j : S2x100096.Idx) :
    ((((cfg2 a).win 2).blk t).view.emb j : S2x200192.Idx)
      = ValueIdx.ix2 (j 0) ⟨(t.val / 403) * 100096 + (j 1).val, by
          have := pt2_lt a t; have : (j 1).val < 100096 := (j 1).isLt; omega⟩ := by
  have hi := idxB2_2 t
  funext a'
  apply Fin.ext
  match a' with
  | ⟨0, _⟩ =>
    show cc2_transform_2 (grid2.coords t) 0 * S2x100096.size 0 + 1 * (j 0).val = (j 0).val
    rw [hi]; show 0 * S2x100096.size 0 + 1 * (j 0).val = (j 0).val; omega
  | ⟨1, _⟩ =>
    show cc2_transform_2 (grid2.coords t) 1 * 100096 + 1 * (j 1).val = (t.val / 403) * 100096 + (j 1).val
    rw [hi]; show (t.val / 403) * 100096 + 1 * (j 1).val = _; omega

theorem lastPt2_lt (l : ℕ) (hl : l < 200192) : 403 * (l / 100096) + 402 < (cfg2 a).N := by
  show 403 * (l / 100096) + 402 < grid2.N
  rw [N_2]; omega

def out2G (c : Dev nD) : S2x200192.Idx → Elt F .f32 := fun i =>
  outAt2 V a htbl c ⟨403 * ((i 1).val / 100096) + 402, lastPt2_lt a (i 1).val (i 1).isLt⟩
    (ValueIdx.ix2 (i 0) ⟨(i 1).val % 100096, Nat.mod_lt _ (by decide)⟩)

theorem outAt2_congr (c : Dev nD) {t t' : Fin (cfg2 a).N} (h : t = t') {y y' : S2x100096.Idx} (hy : y = y') :
    outAt2 V a htbl c t y = outAt2 V a htbl c t' y' := by
  subst h hy; rfl

theorem flushed2_2 (c : Dev nD) (t : Fin (cfg2 a).N) (hf : ((cfg2 a).win 2).flush t = true) :
    (dat2 V a htbl c).flushed 2 t = (((cfg2 a).win 2).blk t).view.read (Elt F) (out2G V a htbl c) := by
  have h1 : t.val % 403 = 402 := (flush2_2_iff a t).mp hf
  show ((cfg2 a).win 2).cut ((cfg2 a).grid.coords t) ((dat2 V a htbl c).after 2 t) = _
  rw [after2_2]
  refine funext fun (j : S2x100096.Idx) => ?_
  show outAt2 V a htbl c t j = out2G V a htbl c ((((cfg2 a).win 2).blk t).view.emb j : S2x200192.Idx)
  rw [emb_blk2_2]
  unfold out2G
  have hj1 : (j 1).val < 100096 := (j 1).isLt
  refine outAt2_congr V a htbl c (Fin.ext ?_) (funext fun a' => Fin.ext ?_)
  · show t.val = 403 * (((t.val / 403) * 100096 + (j 1).val) / 100096) + 402
    omega
  · match a' with
    | ⟨0, _⟩ => rfl
    | ⟨1, _⟩ =>
      show (j 1).val = ((t.val / 403) * 100096 + (j 1).val) % 100096
      omega

theorem arrAt2_eq (c : Dev nD) : (dat2 V a htbl c).arrAt 2 (cfg2 a).N = out2G V a htbl c :=
  (dat2 V a htbl c).arrAt_eq_of_cover 2 (out2G V a htbl c) (flushed2_2 V a htbl c) fun (i : S2x200192.Idx) => by
    have hl : (i 1).val < 200192 := (i 1).isLt
    refine ⟨⟨403 * ((i 1).val / 100096) + 402, lastPt2_lt a (i 1).val hl⟩, flush2_2 a _ (by show (403 * ((i 1).val / 100096) + 402) % 403 = 402; omega), ?_⟩
    refine (mem_blk2_2 a _ i).mpr fun a' => ?_
    have hi : cc2_transform_2 (grid2.coords ⟨403 * ((i 1).val / 100096) + 402, lastPt2_lt a (i 1).val hl⟩)
        = ![0, (403 * ((i 1).val / 100096) + 402) / 403] := idxB2_2 _
    rw [hi]
    match a' with
    | ⟨0, _⟩ =>
      exact ⟨by show 0 * S2x100096.size 0 ≤ (i 0).val; rw [Nat.zero_mul]; exact Nat.zero_le _,
        by show (i 0).val < 0 * S2x100096.size 0 + S2x100096.size 0; rw [Nat.zero_mul, Nat.zero_add]; exact (i 0).isLt⟩
    | ⟨1, _⟩ =>
      show (403 * ((i 1).val / 100096) + 402) / 403 * 100096 ≤ (i 1).val ∧ (i 1).val < (403 * ((i 1).val / 100096) + 402) / 403 * 100096 + 100096
      omega

theorem arrAt2_block_out (c : Dev nD) (f : Fin 2) (cc : Fin 2) (n : Fin 100096)
    (hl : cc.val * 100096 + n.val < 200192) (ht : 403 * cc.val + 402 < (cfg2 a).N) :
    (dat2 V a htbl c).arrAt 2 (cfg2 a).N (ValueIdx.ix2 f ⟨cc.val * 100096 + n.val, hl⟩ : S2x200192.Idx)
      = outAt2 V a htbl c ⟨403 * cc.val + 402, ht⟩ (ValueIdx.ix2 f n) := by
  rw [arrAt2_eq]
  unfold out2G
  have hn := n.isLt
  refine outAt2_congr V a htbl c (Fin.ext ?_) (funext fun a' => Fin.ext ?_)
  · show 403 * ((cc.val * 100096 + n.val) / 100096) + 402 = 403 * cc.val + 402; omega
  · match a' with
    | ⟨0, _⟩ => rfl
    | ⟨1, _⟩ => show (cc.val * 100096 + n.val) % 100096 = n.val; omega

theorem tblOk_hw2 (x2 : Vec F S25792 .i32) (h : TblOk x2) (i : grid2.Coords) :
    ∀ s : Fin 32, (winWord i x2 s).toNat + 256 ≤ 100096 :=
  fun s => (h _).2

theorem outAt2_eq_scrAt0 (c : Dev nD) (t : Fin (cfg2 a).N) (h1 : t.val % 403 = 402) :
    outAt2 V a htbl c t = scrAt2 V a htbl c t.val t.isLt := by
  rw [outAt2_C V a htbl c t h1, scrAt2_C V a htbl c t h1]
  unfold out2_C sout2_C
  refine (View.read_writes_of_cover VO2 VO2.junk (ms2_2 a t).view (ms2_2 a t).view.junk _
    (fun y => cover2_C (Ix := Unit) (U := UR sig nD τ) (Lvl := ℕ) ..)).trans ?_
  exact (read_out2_C (Ix := Unit) (U := UR sig nD τ) (Lvl := ℕ) (hw := tblOk_hw2 (a.1 0) htbl (grid2.coords t)) ..).trans
    (read_scratch2_C (Ix := Unit) (U := UR sig nD τ) (Lvl := ℕ) (hw := tblOk_hw2 (a.1 0) htbl (grid2.coords t)) ..).symm

theorem arrAt2_block (c : Dev nD) (f : Fin 2) (cc : Fin 2) (n : Fin 100096)
    (hl : cc.val * 100096 + n.val < 200192) (ht : 403 * cc.val + 402 < (cfg2 a).N) :
    (dat2 V a htbl c).arrAt 2 (cfg2 a).N (ValueIdx.ix2 f ⟨cc.val * 100096 + n.val, hl⟩ : S2x200192.Idx)
      = scrAt2 V a htbl c (403 * cc.val + 402) ht (ValueIdx.ix2 f n) := by
  rw [arrAt2_block_out V a htbl c f cc n hl ht]
  exact congrFun (outAt2_eq_scrAt0 V a htbl c ⟨403 * cc.val + 402, ht⟩ (by show (403 * cc.val + 402) % 403 = 402; omega)) _

end ArrAt

end Cert.KernelIdeal.Hand

end
-- ==== Proof.KI.ScatterOk2.lean ====
import proofs.«401711_j53747220742790_3_alg».proof.Proof.KI.ScatterVal2
import proofs.«401711_j53747220742790_3_alg».proof.Proof.KI.Region2
import proofs.«401711_j53747220742790_3_alg».proof.Proof.KI.Lanes2
import proofs.«401711_j53747220742790_3_alg».proof.Proof.KI.ArrAt2

noncomputable section

open scoped BigOperators

namespace Cert.KernelIdeal.HandValue

open Cert.KernelIdeal Cert.KernelIdeal.Gen
open Idealize.ShloMosaic

abbrev tblA2 (V : Dev nD → Valuation τ sig (Elt Ideal)) (c : Dev nD) : S25792.Idx → BitVec 32 := Hand.VR2 V c main_v44
abbrev dstA2 (V : Dev nD → Valuation τ sig (Elt Ideal)) (c : Dev nD) : S3301376.Idx → BitVec 32 := Hand.VR2 V c main_v34
abbrev msgA2 (V : Dev nD → Valuation τ sig (Elt Ideal)) (c : Dev nD) : S2x3301376.Idx → EReal := Hand.VR2 V c main_v97

theorem hw2 (a : (pcfg2 (F := Ideal)).Adm) (htbl : Hand.TblOk (a.1 0)) (t : Fin 806) (s : Fin 32) :
    (Hand2.winWord (F := Ideal) (grid2.coords t) (a.1 0) s).toNat + 256 ≤ 100096 := (htbl _).2

section Region
variable (V : Dev nD → Valuation τ sig (Elt Ideal)) (a : (pcfg2 (F := Ideal)).Adm) (htbl : Hand.TblOk (a.1 0))

theorem sout2_A_eq (c : Dev nD) (t : Fin 806) (h0 : t.val % 403 = 0) :
    Hand.sout2_A V a htbl c t h0
      = Hand2.pointStep (F := Ideal) (grid2.coords t) (a.1 0) (Hand.iblk2 V a c 0 t) (Hand.iblk2 V a c 1 t)
          (hw2 a htbl t) (k2_pay2 (F := Ideal)) := by
  unfold Hand.sout2_A
  exact Hand2.read_scratch2_A (hw := hw2 a htbl t) (f6 := Hand.VS2.junk) ..

theorem sout2_B_eq (c : Dev nD) (t : Fin 806) (h0 : ¬t.val % 403 = 0) (h1 : ¬t.val % 403 = 402)
    (xs : FVec Ideal S2x100096 .f32) :
    Hand.sout2_B V a htbl c t h0 h1 xs
      = Hand2.pointStep (F := Ideal) (grid2.coords t) (a.1 0) (Hand.iblk2 V a c 0 t) (Hand.iblk2 V a c 1 t)
          (hw2 a htbl t) xs := by
  unfold Hand.sout2_B
  exact Hand2.read_scratch2_B (hw := hw2 a htbl t) ..

theorem sout2_C_eq (c : Dev nD) (t : Fin 806) (h1 : t.val % 403 = 402) (xs : FVec Ideal S2x100096 .f32) :
    Hand.sout2_C V a htbl c t h1 xs
      = Hand2.pointStep (F := Ideal) (grid2.coords t) (a.1 0) (Hand.iblk2 V a c 0 t) (Hand.iblk2 V a c 1 t)
          (hw2 a htbl t) xs := by
  unfold Hand.sout2_C
  exact Hand2.read_scratch2_C (hw := hw2 a htbl t) ..

theorem scrAt2_last (c : Dev nD)
    (hwin : ∀ (t : Fin 806) (s : Fin 32) (k : Fin 128),
      (Hand2.winWord (F := Ideal) (grid2.coords t) (a.1 0) s).toNat
          ≤ (Hand.iblk2 V a c 1 t (ValueIdx.ix1 ⟨128 * s.val + k.val, by have := s.isLt; have := k.isLt; omega⟩)).toNat ∧
        (Hand.iblk2 V a c 1 t (ValueIdx.ix1 ⟨128 * s.val + k.val, by have := s.isLt; have := k.isLt; omega⟩)).toNat
          < (Hand2.winWord (F := Ideal) (grid2.coords t) (a.1 0) s).toNat + 256)
    (D : Fin 3301376 → ℕ) (Mg : Fin 2 → Fin 3301376 → EReal)
    (hD : ∀ (t : Fin 806) (j : Fin 4096),
      (Hand.iblk2 V a c 1 t (ValueIdx.ix1 j)).toNat
        = D ⟨4096 * t.val + j.val, by have := t.isLt; have := j.isLt; omega⟩)
    (hM : ∀ (t : Fin 806) (f : Fin 2) (j : Fin 4096),
      Hand.iblk2 V a c 0 t (ValueIdx.ix2 f j)
        = Mg f ⟨4096 * t.val + j.val, by have := t.isLt; have := j.isLt; omega⟩)
    (cc : Fin 2) (f : Fin 2) (n : Fin 100096) :
    Hand.scrAt2 V a htbl c (403 * cc.val + 402) (by have := cc.isLt; show _ < 806; omega) (ValueIdx.ix2 f n)
      = ∑ j : Fin 1650688,
          if D ⟨cc.val * 1650688 + j.val, by have := cc.isLt; have := j.isLt; omega⟩ = n.val then
            Mg f ⟨cc.val * 1650688 + j.val, by have := cc.isLt; have := j.isLt; omega⟩ else 0 :=
  scr2_sum (fun p hp => Hand.scrAt2 V a htbl c p hp) (a.1 0) (fun t => Hand.iblk2 V a c 0 t)
    (fun t => Hand.iblk2 V a c 1 t) (hw2 a htbl)
    (fun t h0 => (Hand.scrAt2_A V a htbl c t h0).trans (sout2_A_eq V a htbl c t h0))
    (fun t h0 => by
      by_cases h1 : t.val % 403 = 402
      · exact (Hand.scrAt2_C V a htbl c t h1).trans (sout2_C_eq V a htbl c t h1 _)
      · exact (Hand.scrAt2_B V a htbl c t h0 h1).trans (sout2_B_eq V a htbl c t h0 h1 _))
    hwin D Mg hD hM cc f n

theorem coords2_flat : ∀ t : Fin grid2.N, (grid2.coords t 0).val * 12896 + (grid2.coords t 1).val * 32 = 32 * t.val := by
  decide +kernel

theorem winWord2_flat (c : Dev nD) (ha : a.1 0 = (tblA2 V c)) (t : Fin 806) (s : Fin 32) :
    Hand2.winWord (F := Ideal) (grid2.coords t) (a.1 0) s
      = (tblA2 V c) (ValueIdx.ix1 ⟨32 * t.val + s.val, by have := t.isLt; have := s.isLt; omega⟩) := by
  unfold Hand2.winWord
  rw [ha]
  refine congrArg (fun K : Fin 25792 => (tblA2 V c) (ValueIdx.ix1 K)) (Fin.ext ?_)
  show (grid2.coords t 0).val * 12896 + (grid2.coords t 1).val * 32 + s.val = 32 * t.val + s.val
  rw [coords2_flat t]

theorem hwin2_of (c : Dev nD) (ha : a.1 0 = (tblA2 V c))
    (hwin : ∀ (K : Fin 25792) (l : Fin 128),
      ((tblA2 V c) (ValueIdx.ix1 K)).toNat
          ≤ ((dstA2 V c) (ValueIdx.ix1 ⟨128 * K.val + l.val, by have := K.isLt; have := l.isLt; omega⟩)).toNat ∧
        ((dstA2 V c) (ValueIdx.ix1 ⟨128 * K.val + l.val, by have := K.isLt; have := l.isLt; omega⟩)).toNat
          < ((tblA2 V c) (ValueIdx.ix1 K)).toNat + 256)
    (hlaneD : ∀ (t : Fin 806) (j : Fin 4096),
      Hand.iblk2 V a c 1 t (ValueIdx.ix1 j)
        = (dstA2 V c) (ValueIdx.ix1 ⟨4096 * t.val + j.val, by have := t.isLt; have := j.isLt; omega⟩))
    (t : Fin 806) (s : Fin 32) (k : Fin 128) :
    (Hand2.winWord (F := Ideal) (grid2.coords t) (a.1 0) s).toNat
        ≤ (Hand.iblk2 V a c 1 t (ValueIdx.ix1 ⟨128 * s.val + k.val, by have := s.isLt; have := k.isLt; omega⟩)).toNat ∧
      (Hand.iblk2 V a c 1 t (ValueIdx.ix1 ⟨128 * s.val + k.val, by have := s.isLt; have := k.isLt; omega⟩)).toNat
        < (Hand2.winWord (F := Ideal) (grid2.coords t) (a.1 0) s).toNat + 256 := by
  have ht := t.isLt
  have hs := s.isLt
  have hk := k.isLt
  rw [winWord2_flat V a c ha t s, hlaneD]
  have e : (⟨4096 * t.val + (128 * s.val + k.val), by omega⟩ : Fin 3301376)
      = ⟨128 * (32 * t.val + s.val) + k.val, by omega⟩ :=
    Fin.ext (by show 4096 * t.val + (128 * s.val + k.val) = 128 * (32 * t.val + s.val) + k.val; omega)
  rw [e]
  exact hwin ⟨32 * t.val + s.val, by omega⟩ k

theorem scatter2_arrAt_of (c : Dev nD) (ha : a.1 0 = (tblA2 V c))
    (hwin : ∀ (K : Fin 25792) (l : Fin 128),
      ((tblA2 V c) (ValueIdx.ix1 K)).toNat
          ≤ ((dstA2 V c) (ValueIdx.ix1 ⟨128 * K.val + l.val, by have := K.isLt; have := l.isLt; omega⟩)).toNat ∧
        ((dstA2 V c) (ValueIdx.ix1 ⟨128 * K.val + l.val, by have := K.isLt; have := l.isLt; omega⟩)).toNat
          < ((tblA2 V c) (ValueIdx.ix1 K)).toNat + 256)
    (hlaneD : ∀ (t : Fin 806) (j : Fin 4096),
      Hand.iblk2 V a c 1 t (ValueIdx.ix1 j)
        = (dstA2 V c) (ValueIdx.ix1 ⟨4096 * t.val + j.val, by have := t.isLt; have := j.isLt; omega⟩))
    (hlaneM : ∀ (t : Fin 806) (f : Fin 2) (j : Fin 4096),
      Hand.iblk2 V a c 0 t (ValueIdx.ix2 f j)
        = (msgA2 V c) (ValueIdx.ix2 f ⟨4096 * t.val + j.val, by have := t.isLt; have := j.isLt; omega⟩))
    (harr : ∀ (cc : Fin 2) (f : Fin 2) (n : Fin 100096),
      (Hand.dat2 V a htbl c).arrAt 2 grid2.N
          (ValueIdx.ix2 f ⟨cc.val * 100096 + n.val, by have := cc.isLt; have := n.isLt; omega⟩)
        = Hand.scrAt2 V a htbl c (403 * cc.val + 402) (by have := cc.isLt; show _ < 806; omega) (ValueIdx.ix2 f n))
    (cc : Fin 2) (f : Fin 2) (n : Fin 100096) :
    (Hand.dat2 V a htbl c).arrAt 2 grid2.N
        (ValueIdx.ix2 f ⟨cc.val * 100096 + n.val, by have := cc.isLt; have := n.isLt; omega⟩)
      = ∑ j : Fin 1650688,
          if ((dstA2 V c)
                (ValueIdx.ix1 ⟨cc.val * 1650688 + j.val, by have := cc.isLt; have := j.isLt; omega⟩)).toNat = n.val then
            ((msgA2 V c)
              (ValueIdx.ix2 f ⟨cc.val * 1650688 + j.val, by have := cc.isLt; have := j.isLt; omega⟩) : EReal) else 0 := by
  rw [harr cc f n]
  exact scrAt2_last V a htbl c (hwin2_of V a c ha hwin hlaneD)
    (fun j => ((dstA2 V c) (ValueIdx.ix1 j)).toNat) (fun (f : Fin 2) (j : Fin 3301376) => ((msgA2 V c) (ValueIdx.ix2 f j) : EReal))
    (fun t j => congrArg BitVec.toNat (hlaneD t j)) hlaneM cc f n

theorem scatter2_arrAt_of_block (c : Dev nD) (ha : a.1 0 = (tblA2 V c))
    (hwin : ∀ (K : Fin 25792) (l : Fin 128),
      ((tblA2 V c) (ValueIdx.ix1 K)).toNat
          ≤ ((dstA2 V c) (ValueIdx.ix1 ⟨128 * K.val + l.val, by have := K.isLt; have := l.isLt; omega⟩)).toNat ∧
        ((dstA2 V c) (ValueIdx.ix1 ⟨128 * K.val + l.val, by have := K.isLt; have := l.isLt; omega⟩)).toNat
          < ((tblA2 V c) (ValueIdx.ix1 K)).toNat + 256)
    (harr : ∀ (cc : Fin 2) (f : Fin 2) (n : Fin 100096),
      (Hand.dat2 V a htbl c).arrAt 2 grid2.N
          (ValueIdx.ix2 f ⟨cc.val * 100096 + n.val, by have := cc.isLt; have := n.isLt; omega⟩)
        = Hand.scrAt2 V a htbl c (403 * cc.val + 402) (by have := cc.isLt; show _ < 806; omega) (ValueIdx.ix2 f n))
    (cc : Fin 2) (f : Fin 2) (n : Fin 100096) :
    (Hand.dat2 V a htbl c).arrAt 2 grid2.N
        (ValueIdx.ix2 f ⟨cc.val * 100096 + n.val, by have := cc.isLt; have := n.isLt; omega⟩)
      = ∑ j : Fin 1650688,
          if ((dstA2 V c)
                (ValueIdx.ix1 ⟨cc.val * 1650688 + j.val, by have := cc.isLt; have := j.isLt; omega⟩)).toNat = n.val then
            ((msgA2 V c)
              (ValueIdx.ix2 f ⟨cc.val * 1650688 + j.val, by have := cc.isLt; have := j.isLt; omega⟩) : EReal) else 0 :=
  scatter2_arrAt_of V a htbl c ha hwin (fun t j => Hand.iblk2_dst_lane V a c t j)
    (fun t f j => Hand.iblk2_msg_lane V a c t f j) harr cc f n

theorem scatter2_arrAt (c : Dev nD) (ha : a.1 0 = (tblA2 V c))
    (hwin : ∀ (K : Fin 25792) (l : Fin 128),
      ((tblA2 V c) (ValueIdx.ix1 K)).toNat
          ≤ ((dstA2 V c) (ValueIdx.ix1 ⟨128 * K.val + l.val, by have := K.isLt; have := l.isLt; omega⟩)).toNat ∧
        ((dstA2 V c) (ValueIdx.ix1 ⟨128 * K.val + l.val, by have := K.isLt; have := l.isLt; omega⟩)).toNat
          < ((tblA2 V c) (ValueIdx.ix1 K)).toNat + 256)
    (cc : Fin 2) (f : Fin 2) (n : Fin 100096) :
    (Hand.dat2 V a htbl c).arrAt 2 grid2.N
        (ValueIdx.ix2 f ⟨cc.val * 100096 + n.val, by have := cc.isLt; have := n.isLt; omega⟩)
      = ∑ j : Fin 1650688,
          if ((dstA2 V c)
                (ValueIdx.ix1 ⟨cc.val * 1650688 + j.val, by have := cc.isLt; have := j.isLt; omega⟩)).toNat = n.val then
            ((msgA2 V c)
              (ValueIdx.ix2 f ⟨cc.val * 1650688 + j.val, by have := cc.isLt; have := j.isLt; omega⟩) : EReal) else 0 :=
  scatter2_arrAt_of_block V a htbl c ha hwin (fun cc f n => Hand.arrAt2_block V a htbl c f cc n _ _) cc f n

end Region

end Cert.KernelIdeal.HandValue

end
-- ==== Proof.KI.ScatterOkAll.lean ====
import proofs.«401711_j53747220742790_3_alg».proof.Proof.KI.Family
import proofs.«401711_j53747220742790_3_alg».proof.Proof.KI.KerHostDefs
import proofs.«401711_j53747220742790_3_alg».proof.Proof.KI.HostInts
import proofs.«401711_j53747220742790_3_alg».proof.Proof.KI.ScatterOk0
import proofs.«401711_j53747220742790_3_alg».proof.Proof.KI.ScatterOk1
import proofs.«401711_j53747220742790_3_alg».proof.Proof.KI.ScatterOk2

set_option maxRecDepth 1288

noncomputable section
open scoped BigOperators
namespace Cert.KernelIdeal.HandValue

open Cert.KernelIdeal Cert.KernelIdeal.Gen Cert.KernelIdeal.Hand
open Idealize.ShloMosaic Idealize.ShloMosaic.TcCoe

variable {m : (ℓ : Loc nD τ sig) → Buf (Elt Ideal) ℓ}

abbrev tblAt (W : Dev nD → Valuation τ sig (Elt Ideal)) (c : Dev nD) : S25792.Idx → BitVec 32 := W c (Proc.devRef .tc main_v44)

abbrev dstAt (W : Dev nD → Valuation τ sig (Elt Ideal)) (c : Dev nD) : S3301376.Idx → BitVec 32 := W c (Proc.devRef .tc main_v34)

abbrev msg1At (W : Dev nD → Valuation τ sig (Elt Ideal)) (c : Dev nD) : S1x3301376.Idx → EReal := W c (Proc.devRef .tc main_v69)

abbrev msg2At (W : Dev nD → Valuation τ sig (Elt Ideal)) (c : Dev nD) : S2x3301376.Idx → EReal := W c (Proc.devRef .tc main_v97)

theorem tbl9 (h : IdxOk m) (c : Dev nD) : tblAt (E9 h) c = tblAt (V5 m) c := W9_main_v44 m (o6 h) c
theorem dst9 (h : IdxOk m) (c : Dev nD) : dstAt (E9 h) c = sdstArr m c := W9_main_v34 m (o6 h) c
theorem msg9 (h : IdxOk m) (c : Dev nD) : msg1At (E9 h) c = msg1 m (outsOf h) c :=
  (congrFun (V9_eq m (o6 h) (o10 h) (o14 h) c) _).symm
theorem tbl13 (h : IdxOk m) (c : Dev nD) : tblAt (E13 h) c = tblAt (V5 m) c := W13_main_v44 m (o6 h) (o10 h) c
theorem dst13 (h : IdxOk m) (c : Dev nD) : dstAt (E13 h) c = sdstArr m c := W13_main_v34 m (o6 h) (o10 h) c
theorem msg13 (h : IdxOk m) (c : Dev nD) : msg2At (E13 h) c = msg2 m (outsOf h) c :=
  (congrFun (V13_eq m (o6 h) (o10 h) (o14 h) c) _).symm

theorem win_ok9 (h : IdxOk m) (c : Dev nD) (K : Fin 25792) (l : Fin 128) :
    (tblAt (E9 h) c (ValueIdx.ix1 K)).toNat
        ≤ (dstAt (E9 h) c (ValueIdx.ix1 ⟨128 * K.val + l.val, by have := K.isLt; have := l.isLt; omega⟩)).toNat
      ∧ (dstAt (E9 h) c (ValueIdx.ix1 ⟨128 * K.val + l.val, by have := K.isLt; have := l.isLt; omega⟩)).toNat
        < (tblAt (E9 h) c (ValueIdx.ix1 K)).toNat + 256 := by
  rw [tbl9, dst9]; exact win_ok m h c K l

theorem win_ok13 (h : IdxOk m) (c : Dev nD) (K : Fin 25792) (l : Fin 128) :
    (tblAt (E13 h) c (ValueIdx.ix1 K)).toNat
        ≤ (dstAt (E13 h) c (ValueIdx.ix1 ⟨128 * K.val + l.val, by have := K.isLt; have := l.isLt; omega⟩)).toNat
      ∧ (dstAt (E13 h) c (ValueIdx.ix1 ⟨128 * K.val + l.val, by have := K.isLt; have := l.isLt; omega⟩)).toNat
        < (tblAt (E13 h) c (ValueIdx.ix1 K)).toNat + 256 := by
  rw [tbl13, dst13]; exact win_ok m h c K l

theorem scatterOk0 (m : (ℓ : Loc nD τ sig) → Buf (Elt Ideal) ℓ) (h : IdxOk m) : ScatterOk0 m (outsOf h) := fun c cc f n => by
  have e1 : out0 (outsOf h) c (ValueIdx.ix2 f (opos cc n)) = o6 h c (ValueIdx.ix2 f (opos cc n)) :=
    congrFun (outs_6 m (o6 h) (o10 h) (o14 h) c : out0 (outsOf h) c = o6 h c) _
  have e2 := scatter0_arrAt (V5 m) (adm m 0) (htbl0 h) c (hV0 c 0) (win_ok m h c) cc f n
  exact e1.trans e2

theorem scatterOk1 (m : (ℓ : Loc nD τ sig) → Buf (Elt Ideal) ℓ) (h : IdxOk m) : ScatterOk1 m (outsOf h) := fun c cc f n => by
  have e1 : out1 (outsOf h) c (ValueIdx.ix2 f (opos cc n)) = o10 h (E9 h) c (ValueIdx.ix2 f (opos cc n)) :=
    congrFun (outs_10 m (o6 h) (o10 h) (o14 h) c : out1 (outsOf h) c = o10 h (E9 h) c) _
  have e2 := scatter1_arrAt (E9 h) (adm m 1) (htbl1 h) c (hV1 h c 0) (win_ok9 h c) cc f n
  have e3 : (∑ j : Fin 1650688, if (dstAt (E9 h) c (ValueIdx.ix1 (epos cc j))).toNat = n.val
        then msg1At (E9 h) c (ValueIdx.ix2 f (epos cc j)) else 0)
      = ∑ j : Fin 1650688, if (sdstW m c (epos cc j)).toNat = n.val then msg1 m (outsOf h) c (ValueIdx.ix2 f (epos cc j)) else 0 := by
    rw [dst9, msg9]
  exact e1.trans (e2.trans e3)

theorem scatterOk2 (m : (ℓ : Loc nD τ sig) → Buf (Elt Ideal) ℓ) (h : IdxOk m) : ScatterOk2 m (outsOf h) := fun c cc f n => by
  have e1 : out2 (outsOf h) c (ValueIdx.ix2 f (opos cc n)) = o14 h (E13 h) c (ValueIdx.ix2 f (opos cc n)) :=
    congrFun (outs_14 m (o6 h) (o10 h) (o14 h) c : out2 (outsOf h) c = o14 h (E13 h) c) _
  have e2 := scatter2_arrAt (E13 h) (adm m 2) (htbl2 h) c (hV2 h c 0) (win_ok13 h c) cc f n
  have e3 : (∑ j : Fin 1650688, if (dstAt (E13 h) c (ValueIdx.ix1 (epos cc j))).toNat = n.val
        then msg2At (E13 h) c (ValueIdx.ix2 f (epos cc j)) else 0)
      = ∑ j : Fin 1650688, if (sdstW m c (epos cc j)).toNat = n.val then msg2 m (outsOf h) c (ValueIdx.ix2 f (epos cc j)) else 0 := by
    rw [dst13, msg13]
  exact e1.trans (e2.trans e3)

end Cert.KernelIdeal.HandValue

end
-- ==== Proof.K.Common.lean ====
import proofs.«401711_j53747220742790_3_alg».proof.Proof.Gen.Kernel.Regions
import Idealize.ShloMosaic.Lib.Pipeline.Kit

set_option maxRecDepth 1288

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

def TblOk (tbl : Vec F S25792 .i32) : Prop :=
  ∀ x : S25792.Idx, 128 ∣ (tbl x).toNat ∧ (tbl x).toNat + 256 ≤ 100096

end Cert.Kernel.Hand

end
-- ==== Proof.K.Outs.lean ====
import proofs.«401711_j53747220742790_3_alg».proof.Proof.K.Common

set_option maxRecDepth 1288

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

variable (o6 : (c : Dev nD) → Buf (Elt F) ((c : Thread nD τ).loc main_v47))
variable (o10 : (Dev nD → Valuation τ sig (Elt F)) → (c : Dev nD) → Buf (Elt F) ((c : Thread nD τ).loc main_v70))
variable (o14 : (Dev nD → Valuation τ sig (Elt F)) → (c : Dev nD) → Buf (Elt F) ((c : Thread nD τ).loc main_v98))

def W6 (c : Dev nD) : Valuation τ sig (Elt F) := Function.update (V5 m c) main_v47 (o6 c)

def W9 (c : Dev nD) : Valuation τ sig (Elt F) :=
  StableHlo.after hostOps1_2 (StableHlo.after hostOps1_1 (StableHlo.after hostOps1 (W6 m o6 c)))

def W10 (c : Dev nD) : Valuation τ sig (Elt F) := Function.update (W9 m o6 c) main_v70 (o10 (W9 m o6) c)

def W13 (c : Dev nD) : Valuation τ sig (Elt F) :=
  StableHlo.after hostOps2_2 (StableHlo.after hostOps2_1 (StableHlo.after hostOps2 (W10 m o6 o10 c)))

def W14 (c : Dev nD) : Valuation τ sig (Elt F) := Function.update (W13 m o6 o10 c) main_v98 (o14 (W13 m o6 o10) c)

def W16 (c : Dev nD) : Valuation τ sig (Elt F) :=
  StableHlo.after hostOps3_1 (StableHlo.after hostOps3 (W14 m o6 o10 o14 c))

def outs : Outs (F := F)
  | 6, r, c => W6 m o6 c r
  | 10, r, c => W10 m o6 o10 c r
  | 14, r, c => W14 m o6 o10 o14 c r
  | _, r, c => m ((c : Thread nD τ).loc r)

theorem outs_6 (c : Dev nD) : outs m o6 o10 o14 6 main_v47 c = o6 c := by
  show W6 m o6 c main_v47 = o6 c
  unfold W6; exact Function.update_self ..
theorem outs_10 (c : Dev nD) : outs m o6 o10 o14 10 main_v70 c = o10 (W9 m o6) c := by
  show W10 m o6 o10 c main_v70 = _
  unfold W10; exact Function.update_self ..
theorem outs_14 (c : Dev nD) : outs m o6 o10 o14 14 main_v98 c = o14 (W13 m o6 o10) c := by
  show W14 m o6 o10 o14 c main_v98 = _
  unfold W14; exact Function.update_self ..

theorem V6_eq (c : Dev nD) : V6 m (outs m o6 o10 o14) c = W6 m o6 c := by
  show Function.update (V5 m c) main_v47 (outs m o6 o10 o14 6 main_v47 c) = _
  rw [outs_6]; rfl
theorem V9_eq (c : Dev nD) : V9 m (outs m o6 o10 o14) c = W9 m o6 c :=
  congrArg (fun v => StableHlo.after hostOps1_2 (StableHlo.after hostOps1_1 (StableHlo.after hostOps1 v))) (V6_eq m o6 o10 o14 c)
theorem V10_eq (c : Dev nD) : V10 m (outs m o6 o10 o14) c = W10 m o6 o10 c := by
  show Function.update (V9 m (outs m o6 o10 o14) c) main_v70 (outs m o6 o10 o14 10 main_v70 c) = _
  rw [outs_10, V9_eq]; rfl
theorem V13_eq (c : Dev nD) : V13 m (outs m o6 o10 o14) c = W13 m o6 o10 c :=
  congrArg (fun v => StableHlo.after hostOps2_2 (StableHlo.after hostOps2_1 (StableHlo.after hostOps2 v))) (V10_eq m o6 o10 o14 c)
theorem V14_eq (c : Dev nD) : V14 m (outs m o6 o10 o14) c = W14 m o6 o10 o14 c := by
  show Function.update (V13 m (outs m o6 o10 o14) c) main_v98 (outs m o6 o10 o14 14 main_v98 c) = _
  rw [outs_14, V13_eq]; rfl
theorem V16_eq (c : Dev nD) : V16 m (outs m o6 o10 o14) c
    = StableHlo.after hostOps3_1 (StableHlo.after hostOps3 (W14 m o6 o10 o14 c)) :=
  congrArg (fun v => StableHlo.after hostOps3_1 (StableHlo.after hostOps3 v)) (V14_eq m o6 o10 o14 c)
theorem V16_eq' (c : Dev nD) : V16 m (outs m o6 o10 o14) c = W16 m o6 o10 o14 c := V16_eq m o6 o10 o14 c

theorem W6_of (c : Dev nD) (r : Ref sig .tc) (h : r ∉ ([main_v47] : List (Ref sig .tc))) : W6 m o6 c r = V5 m c r := by
  unfold W6
  exact Function.update_of_ne (StableHlo.devRef_ne_of_ne (List.ne_of_not_mem_cons h) : (Proc.devRef .tc r : DevRef τ sig) ≠ Proc.devRef .tc main_v47) ..
theorem W9_of (c : Dev nD) (r : Ref sig .tc) (h1 : r ∉ hostOps1_W) (h2 : r ∉ hostOps1_1_W) (h3 : r ∉ hostOps1_2_W) :
    W9 m o6 c r = W6 m o6 c r := by
  unfold W9
  exact (StableHlo.after_of_writes_sub hostOps1_2 _ hostOps1_2_writes h3).trans
    ((StableHlo.after_of_writes_sub hostOps1_1 _ hostOps1_1_writes h2).trans (StableHlo.after_of_writes_sub hostOps1 _ hostOps1_writes h1))
theorem W10_of (c : Dev nD) (r : Ref sig .tc) (h : r ∉ ([main_v70] : List (Ref sig .tc))) : W10 m o6 o10 c r = W9 m o6 c r := by
  unfold W10
  exact Function.update_of_ne (StableHlo.devRef_ne_of_ne (List.ne_of_not_mem_cons h) : (Proc.devRef .tc r : DevRef τ sig) ≠ Proc.devRef .tc main_v70) ..
theorem W13_of (c : Dev nD) (r : Ref sig .tc) (h1 : r ∉ hostOps2_W) (h2 : r ∉ hostOps2_1_W) (h3 : r ∉ hostOps2_2_W) :
    W13 m o6 o10 c r = W10 m o6 o10 c r := by
  unfold W13
  exact (StableHlo.after_of_writes_sub hostOps2_2 _ hostOps2_2_writes h3).trans
    ((StableHlo.after_of_writes_sub hostOps2_1 _ hostOps2_1_writes h2).trans (StableHlo.after_of_writes_sub hostOps2 _ hostOps2_writes h1))

theorem W6_main_v44 (c : Dev nD) : W6 m o6 c main_v44 = V5 m c main_v44 := W6_of m o6 c main_v44 (by decide)
theorem W9_main_v44 (c : Dev nD) : W9 m o6 c main_v44 = V5 m c main_v44 :=
  (W9_of m o6 c main_v44 (by decide) (by decide) (by decide)).trans (W6_main_v44 m o6 c)
theorem W10_main_v44 (c : Dev nD) : W10 m o6 o10 c main_v44 = V5 m c main_v44 :=
  (W10_of m o6 o10 c main_v44 (by decide)).trans (W9_main_v44 m o6 c)
theorem W13_main_v44 (c : Dev nD) : W13 m o6 o10 c main_v44 = V5 m c main_v44 :=
  (W13_of m o6 o10 c main_v44 (by decide) (by decide) (by decide)).trans (W10_main_v44 m o6 o10 c)

theorem W6_main_v34 (c : Dev nD) : W6 m o6 c main_v34 = V5 m c main_v34 := W6_of m o6 c main_v34 (by decide)
theorem W9_main_v34 (c : Dev nD) : W9 m o6 c main_v34 = V5 m c main_v34 :=
  (W9_of m o6 c main_v34 (by decide) (by decide) (by decide)).trans (W6_main_v34 m o6 c)
theorem W10_main_v34 (c : Dev nD) : W10 m o6 o10 c main_v34 = V5 m c main_v34 :=
  (W10_of m o6 o10 c main_v34 (by decide)).trans (W9_main_v34 m o6 c)
theorem W13_main_v34 (c : Dev nD) : W13 m o6 o10 c main_v34 = V5 m c main_v34 :=
  (W13_of m o6 o10 c main_v34 (by decide) (by decide) (by decide)).trans (W10_main_v34 m o6 o10 c)

end Cert.Kernel.Hand

end
-- ==== Proof.K.LaunchFrame.lean ====
import proofs.«401711_j53747220742790_3_alg».proof.Proof.K.Common

set_option maxRecDepth 1288

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

theorem launch_hu₀ (a : (p : Fin 3) → (pcfgs (F := F) p).Adm) :
    (ownU (initOf (Pipeline.cells (Pipeline.pin (pcfgs (F := F)) a) (cellOf_inj a)) (Pipeline.launchToks (Pipeline.pin (pcfgs (F := F)) a) (cellOf_inj a))) : sProp 𝕄)
      ⊢ |={Set.univ}=> iprop(BI.own ((emb₁ : Emb (UR sig nD τ) 𝕄) (initOf (Pipeline.cells (Pipeline.pin (pcfgs (F := F)) a) (cellOf_inj a)) (Pipeline.launchToks (Pipeline.pin (pcfgs (F := F)) a) (cellOf_inj a))))
          ∗ bigSep Finset.univ fun _ : Dev nD => (iprop(emp) : sProp 𝕄)) := by
  iintro Hu; imodintro
  isplitl [Hu]
  · iapply (show (ownU (initOf (Pipeline.cells (Pipeline.pin (pcfgs (F := F)) a) (cellOf_inj a)) (Pipeline.launchToks (Pipeline.pin (pcfgs (F := F)) a) (cellOf_inj a))) : sProp 𝕄)
        ⊢ BI.own ((emb₁ : Emb (UR sig nD τ) 𝕄) (initOf (Pipeline.cells (Pipeline.pin (pcfgs (F := F)) a) (cellOf_inj a)) (Pipeline.launchToks (Pipeline.pin (pcfgs (F := F)) a) (cellOf_inj a)))) from .rfl)
    iexact Hu
  iapply (show (BI.emp : sProp 𝕄) ⊢ bigSep Finset.univ (fun _ : Dev nD => (BI.emp : sProp 𝕄)) from by rw [BI.bigSep_emp_const])
  iempintro

theorem launch_hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem launch_hE3 (c : Dev nD) :
    (R c : sProp 𝕄) ⊢ (iprop(∃ W, owes (c : Thread nD τ) (0 : CellTallies nD τ sig Unit) W) : sProp 𝕄) := by
  iintro ⟨-, HO⟩; iexact HO

set_option backward.isDefEq.respectTransparency.types false in

theorem frame_of_regions (ρ : Dev nD → PrngReg) (outs : Outs (F := F)) (a : (p : Fin 3) → (pcfgs (F := F) p).Adm)
    (pdats : (p : Fin 3) → (c : Dev nD) → Dat τ (Elt F) Unit ℕ (UR sig nD τ) ℕ (Pipeline.pin (pcfgs (F := F)) a p) c)
    (R0 : RegionSeg (pcfgs (F := F)) a pdats () defs₀ 𝒱₀ L lv 0)
    (hpre0 : ∀ c : Dev nD, iprop(StableHlo.held (c : Thread nD τ) (Pipeline.ucRefs τ sig) (V5 m c) ∗ R c) ⊢ R0.pre c)
    (hpost0 : ∀ c : Dev nD, R0.post c ⊢ iprop(StableHlo.held (c : Thread nD τ) (Pipeline.ucRefs τ sig) (V6 m outs c) ∗ R c))
    (R1 : RegionSeg (pcfgs (F := F)) a pdats () defs₀ 𝒱₀ L lv 1)
    (hpre1 : ∀ c : Dev nD, iprop(StableHlo.held (c : Thread nD τ) (Pipeline.ucRefs τ sig) (V9 m outs c) ∗ R c) ⊢ R1.pre c)
    (hpost1 : ∀ c : Dev nD, R1.post c ⊢ iprop(StableHlo.held (c : Thread nD τ) (Pipeline.ucRefs τ sig) (V10 m outs c) ∗ R c))
    (R2 : RegionSeg (pcfgs (F := F)) a pdats () defs₀ 𝒱₀ L lv 2)
    (hpre2 : ∀ c : Dev nD, iprop(StableHlo.held (c : Thread nD τ) (Pipeline.ucRefs τ sig) (V13 m outs c) ∗ R c) ⊢ R2.pre c)
    (hpost2 : ∀ c : Dev nD, R2.post c ⊢ iprop(StableHlo.held (c : Thread nD τ) (Pipeline.ucRefs τ sig) (V14 m outs c) ∗ R c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m (EP := emb₁) (ι := ()) (𝒱₀ := 𝒱₀) (L := L) (lv := lv) (hL := fun _ _ => rfl) (ρ := ρ) (outs := outs) (a := a) (pdats := pdats)
    (O₀ := 0) (G := fun _ => iprop(emp)) (u₀ := (initOf (Pipeline.cells (Pipeline.pin (pcfgs (F := F)) a) (cellOf_inj a)) (Pipeline.launchToks (Pipeline.pin (pcfgs (F := F)) a) (cellOf_inj a)))) (hu₀ := launch_hu₀ a)
    (E := fun _ c => R c) (hE0 := launch_hE0 ρ) (hE3 := launch_hE3)
    R0 hpre0 hpost0 R1 hpre1 hpost1 R2 hpre2 hpost2

end Cert.Kernel.Hand

end
-- ==== Proof.K.HostInts.lean ====
import proofs.«401711_j53747220742790_3_alg».proof.Proof.Gen.Kernel.Regions
import proofs.«401711_j53747220742790_3_alg».proof.Proof.SortWindow
import proofs.«401711_j53747220742790_3_alg».proof.Proof.K.Common
import Idealize.ShloMosaic.Lib.IdealHost
import Idealize.ShloMosaic.Lib.SortFacts
import Idealize.ShloMosaic.Lib.StableHlo.Run
import Idealize.ShloMosaic.Lib.ValueIdx
import Idealize.ShloMosaic.Lib.StableHlo.Predicate
import Idealize.ShloMosaic.Lib.WordArith
import Idealize.ShloMosaic.Lib.Pipeline.Value

set_option maxRecDepth 1288

noncomputable section

namespace Cert.Kernel.Hand

open Idealize.ShloMosaic Idealize.ShloMosaic.TcCoe
open Idealize.ShloMosaic.ValueIdx
open Cert.Kernel Cert.Kernel.Gen

variable {F : FTy → Type} [FloatOps F]

namespace HostInts

theorem ofFin_eq_ix1 {n : Nat} (k : Fin n) : (Shape.Idx.ofFin k : (⟨1, ![n]⟩ : Shape).Idx) = ValueIdx.ix1 k := by
  funext d; match d with | ⟨0, _⟩ => rfl

theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

def bef {n : Nat} (key : Fin n → BitVec 32) (k k' : Fin n) : Bool := IntOp.cmpi .slt (key k) (key k') == 1#1

theorem bef_true_iff {n : Nat} (key : Fin n → BitVec 32) (k k' : Fin n) :
    bef key k k' = true ↔ (key k).toInt < (key k').toInt := by
  unfold bef
  rw [beq_iff_eq]
  show BitVec.ofBool ((key k).slt (key k')) = 1#1 ↔ _
  rw [StableHlo.Predicate.ofBool_eq_one_iff, BitVec.slt_iff_toInt_lt]

theorem bef_false_iff {n : Nat} (key : Fin n → BitVec 32) (k k' : Fin n) :
    bef key k k' = false ↔ (key k').toInt ≤ (key k).toInt := by
  rw [← Bool.not_eq_true, bef_true_iff]; omega

def ord {n : Nat} (key : Fin n → BitVec 32) : Fin n → Fin n := sortedFrom (bef key)

theorem ord_injective {n : Nat} (key : Fin n → BitVec 32) : Function.Injective (ord key) := sortedFrom_injective _
theorem ord_surjective {n : Nat} (key : Fin n → BitVec 32) : Function.Surjective (ord key) := sortedFrom_surjective _

theorem ord_sorted {n : Nat} (key : Fin n → BitVec 32) (i j : Fin n) (hij : i ≤ j) :
    (key (ord key i)).toInt ≤ (key (ord key j)).toInt := by
  rcases lt_or_eq_of_le hij with h | h
  · have := sortedFrom_noInversion (bef key) (bef key)
      (fun a b hab => by rw [bef_true_iff] at hab; rw [bef_false_iff]; omega) (fun _ _ h => h)
      (fun a b c h₁ h₂ => by rw [bef_false_iff] at h₁ h₂ ⊢; omega) i j h
    exact (bef_false_iff key _ _).mp this
  · rw [h]

theorem argsort_rank1 {n : Nat} (x : IVec ⟨1, ![n]⟩ 32) (cmp : BitVec 32 × BitVec 32 → BitVec 32 × BitVec 32 → BitVec 1)
    (hcmp : ∀ l r, cmp l r = IntOp.cmpi .slt l.1 r.1) (j : Fin n) :
    (Host.sort2 ⟨1, ![n]⟩ 0 cmp x (iotaInDim ⟨1, ![n]⟩ 32 0)).2 (ValueIdx.ix1 j)
      = BitVec.ofNat 32 (ord (fun k => x (ValueIdx.ix1 k)) j).val := by
  rw [sort2_snd_rank1]
  have hb : (fun k k' => cmp (x (Shape.Idx.ofFin k), iotaInDim ⟨1, ![n]⟩ 32 0 (Shape.Idx.ofFin k))
      (x (Shape.Idx.ofFin k'), iotaInDim ⟨1, ![n]⟩ 32 0 (Shape.Idx.ofFin k')) == 1#1) = bef (fun k => x (ValueIdx.ix1 k)) := by
    funext k k'; rw [hcmp]; simp only [ofFin_eq_ix1]; rfl
  rw [hb]
  rfl

attribute [irreducible] ord

theorem concat1_lo {α : Type} {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n) (hj : j.val < n₁) :
    concatenate ⟨1, ![n]⟩ 0 [⟨⟨1, ![n₁]⟩, x₁⟩, ⟨⟨1, ![n₂]⟩, x₂⟩] h (ValueIdx.ix1 j) = x₁ (ValueIdx.ix1 ⟨j.val, hj⟩) :=
  concatenate_pair_apply_left (0 : Fin 1) x₁ x₂ h (ValueIdx.ix1 j) rfl (ValueIdx.ix1 ⟨j.val, hj⟩)
    (fun b => by match b with | ⟨0, _⟩ => rfl)

theorem concat1_hi {α : Type} {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n) (hj : n₁ ≤ j.val)
    (hj2 : j.val - n₁ < n₂) :
    concatenate ⟨1, ![n]⟩ 0 [⟨⟨1, ![n₁]⟩, x₁⟩, ⟨⟨1, ![n₂]⟩, x₂⟩] h (ValueIdx.ix1 j) = x₂ (ValueIdx.ix1 ⟨j.val - n₁, hj2⟩) :=
  concatenate_pair_apply_right (0 : Fin 1) x₁ x₂ h (ValueIdx.ix1 j) rfl rfl (ValueIdx.ix1 ⟨j.val - n₁, hj2⟩)
    (fun b hb => absurd (Subsingleton.elim _ _) hb)
    (by show j.val - n₁ + n₁ = j.val; omega)

theorem wrap_nonneg (w c : BitVec 32) (hw : w.toNat < 2 ^ 31) :
    Scalar.select (IntOp.cmpi .slt w 0#32) (IntOp.addi w c) w = w := by
  have h : IntOp.cmpi .slt w 0#32 = 0#1 := by
    apply ValueIdx.eq_zero_of_ne_one
    intro h1
    have := (StableHlo.Predicate.slt_iff_toNat (a := w) (b := 0#32) hw (by decide)).mp h1
    simp at this
  rw [h]; exact ValueIdx.select_zero _ _

theorem take_wrapped {α : Type} {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (h₁ : (⟨1, ![n]⟩ : Shape).BroadcastsInDim ⟨2, ![n, 1]⟩ ![0])
    (x : (⟨1, ![N]⟩ : Shape).Idx → α) (v z cc : IVec ⟨1, ![n]⟩ 32) (hz : ∀ i, z i = 0#32) (hN : N ≤ 2 ^ 31)
    (p : Fin n) (q : Fin N) (hq : v (ValueIdx.ix1 p) = BitVec.ofNat 32 q.val) :
    Host.gather d x (broadcastInDim ⟨2, ![n, 1]⟩ ![0] h₁ (select (cmpi .slt v z) (addi v cc) v)) (ValueIdx.ix1 p)
      = x (ValueIdx.ix1 q) := by
  have hqv : (v (ValueIdx.ix1 p)).toNat = q.val := by
    rw [hq, BitVec.toNat_ofNat]; exact Nat.mod_eq_of_lt (by have := q.isLt; omega)
  have hg := StableHlo.Predicate.gather_take d hcoll hob hsim hivd x
    (broadcastInDim ⟨2, ![n, 1]⟩ ![0] h₁ (select (cmpi .slt v z) (addi v cc) v)) p (by have := q.isLt; omega)
  simp only [ofFin_eq_ix1] at hg
  have hw : (v (ValueIdx.ix1 p)).toNat < 2 ^ 31 := by have := q.isLt; omega
  have e : select (cmpi .slt v z) (addi v cc) v (ValueIdx.ix1 p) = v (ValueIdx.ix1 p) := by
    show Scalar.select (IntOp.cmpi .slt (v (ValueIdx.ix1 p)) (z (ValueIdx.ix1 p))) (IntOp.addi (v (ValueIdx.ix1 p)) (cc (ValueIdx.ix1 p))) (v (ValueIdx.ix1 p)) = _
    rw [hz]; exact wrap_nonneg _ _ hw
  refine hg.trans (congrArg x (congrArg ValueIdx.ix1 (Fin.ext ?_)))
  show min (broadcastInDim ⟨2, ![n, 1]⟩ ![0] h₁ (select (cmpi .slt v z) (addi v cc) v) (StableHlo.Predicate.ixP p)).toInt.toNat (N - 1)
    = q.val
  rw [StableHlo.Predicate.bcast_col1, ofFin_eq_ix1, e, StableHlo.Predicate.toInt_eq_toNat_of_lt hw]
  simp only [Int.toNat_natCast]
  have := q.isLt
  omega

def sgnw (x : BitVec 32) : BitVec 32 := if x = 0 then 0 else if x.msb then -1 else 1

def fdw (w d : BitVec 32) : BitVec 32 :=
  Scalar.select (IntOp.andi (IntOp.cmpi .ne (sgnw w) (sgnw d)) (IntOp.cmpi .ne (IntOp.remsi .host w d) 0#32))
    (IntOp.subi (IntOp.divsi .host w d) 1#32) (IntOp.divsi .host w d)

theorem toNat_fdw_128 (w : BitVec 32) (hw : w.toNat < 2 ^ 31) : (fdw w 128#32).toNat = w.toNat / 128 := by
  have hcorner : ¬ IntOp.SDivCorner w 128#32 := by
    intro hc; rcases hc with hc | ⟨_, hc⟩ <;> exact absurd hc (by decide)
  have hm : w.msb = false := BitVec.msb_eq_false_iff_two_mul_lt.mpr (by omega)
  have hq : (IntOp.divsi .host w 128#32).toNat = w.toNat / 128 := by
    simp only [IntOp.divsi, if_neg hcorner, BitVec.sdiv_eq, hm, show (128#32 : BitVec 32).msb = false from by decide,
      BitVec.udiv_eq, BitVec.toNat_udiv, BitVec.toNat_ofNat]
  by_cases h0 : w = 0
  · subst h0; decide
  · have hs : IntOp.cmpi .ne (sgnw w) (sgnw 128#32) = 0#1 := by
      have e1 : sgnw w = 1 := by unfold sgnw; rw [if_neg h0, hm]; rfl
      rw [e1]; decide
    unfold fdw
    rw [hs, show IntOp.andi 0#1 (IntOp.cmpi .ne (IntOp.remsi .host w 128#32) 0#32) = 0#1 from BitVec.zero_and,
      ValueIdx.select_zero, hq]

theorem toNat_muli_128 (x : BitVec 32) (hx : x.toNat * 128 < 2 ^ 32) : (IntOp.muli x 128#32).toNat = x.toNat * 128 := by
  show (x * 128#32).toNat = _
  rw [BitVec.toNat_mul]
  exact Nat.mod_eq_of_lt hx

theorem row_head {α : Type} {n R B : Nat} (y : (⟨1, ![n]⟩ : Shape).Idx → α)
    (h₁ : (⟨1, ![n]⟩ : Shape).ShapeCasts ⟨2, ![R, B]⟩) (h₂ : (⟨2, ![R, B]⟩ : Shape).Slices ![0, 0] ⟨2, ![R, 1]⟩)
    (h₃ : (⟨2, ![R, 1]⟩ : Shape).ShapeCasts ⟨1, ![R]⟩) (hB : 0 < B) (k : Fin R) (hk : k.val * B < n) :
    shapeCast ⟨1, ![R]⟩ (extractStridedSlice ⟨2, ![R, 1]⟩ ![0, 0] (shapeCast ⟨2, ![R, B]⟩ y h₁) h₂) h₃ (ValueIdx.ix1 k)
      = y (ValueIdx.ix1 ⟨k.val * B, hk⟩) := by
  refine (shapeCast_apply _ h₃ (ValueIdx.ix1 k) (ValueIdx.ix2 k (0 : Fin 1)) ?_).trans ?_
  · rw [Shape.rowMajor_val_two, Shape.rowMajor_val_one]; show k.val * 1 + 0 = k.val; omega
  refine (extractStridedSlice_apply ![0, 0] _ h₂ (ValueIdx.ix2 k (0 : Fin 1)) (ValueIdx.ix2 k (⟨0, hB⟩ : Fin B)) ?_).trans ?_
  · intro a; match a with
    | ⟨0, _⟩ => show k.val = 0 + k.val; omega
    | ⟨1, _⟩ => rfl
  refine shapeCast_apply _ h₁ (ValueIdx.ix2 k (⟨0, hB⟩ : Fin B)) (ValueIdx.ix1 ⟨k.val * B, hk⟩) ?_
  rw [Shape.rowMajor_val_two, Shape.rowMajor_val_one]; show k.val * B = k.val * B + 0; omega

section Stages
variable (W : Valuation τ sig (Elt F))

theorem st0_v5 : (StableHlo.after hostOps0 W (Proc.devRef .tc main_v5) : IVec S3300000 32)
    = concatenate S3300000 0 [⟨S3200000, shapeCast S3200000 (extractStridedSlice S1x3200000 ![0, 0]
        (W (Proc.devRef .tc main_arg1) : IVec S2x3200000 32) slices_S2x3200000_S1x3200000_0_0) shapeCasts_S1x3200000_S3200000⟩,
      ⟨S100000, iotaInDim S100000 32 0⟩] concatenates_S3200000_S100000_S3300000_d0 := by
  after_results_simp
  try rfl

theorem st0_v6 : (StableHlo.after hostOps0 W (Proc.devRef .tc main_v6) : IVec S3300000 32)
    = concatenate S3300000 0 [⟨S3200000, shapeCast S3200000 (extractStridedSlice S1x3200000 ![1, 0]
        (W (Proc.devRef .tc main_arg1) : IVec S2x3200000 32) slices_S2x3200000_S1x3200000_1_0) shapeCasts_S1x3200000_S3200000⟩,
      ⟨S100000, iotaInDim S100000 32 0⟩] concatenates_S3200000_S100000_S3300000_d0 := by
  after_results_simp
  try rfl

theorem st0_v8 : (StableHlo.after hostOps0 W (Proc.devRef .tc main_v8) : Vec F S3300000 .f32)
    = concatenate S3300000 0 [⟨S3200000, (W (Proc.devRef .tc main_arg2) : Vec F S3200000 .f32)⟩,
      ⟨S100000, broadcastInDim S100000 ![] bcast_S_S100000 (constant (F := F) S_ .f32 0x3F800000#32)⟩]
        concatenates_S3200000_S100000_S3300000_d0 := by
  after_results_simp
  try rfl

theorem st1_v9 : (StableHlo.after hostOps0_1 W (Proc.devRef .tc main_v9) : IVec S3300000 32)
    = (Host.sort2 S3300000 0 comparator_i32_i32_d0 (W (Proc.devRef .tc main_v6) : IVec S3300000 32)
        (iotaInDim S3300000 32 0)).2 := by
  after_results_simp
  try rfl

abbrev wrapped (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 3300000#32))) v)

theorem st2_v16 : (StableHlo.after hostOps0_2 W (Proc.devRef .tc main_v16) : IVec S3300000 32)
    = Host.gather gather_S3300000_S3300000x1_S3300000_n_0_n_n_0_1_1 (W (Proc.devRef .tc main_v5) : IVec S3300000 32)
        (wrapped (W (Proc.devRef .tc main_v9))) := by
  after_results_simp
  try rfl

theorem st2_v23 : (StableHlo.after hostOps0_2 W (Proc.devRef .tc main_v23) : IVec S3300000 32)
    = Host.gather gather_S3300000_S3300000x1_S3300000_n_0_n_n_0_1_1 (W (Proc.devRef .tc main_v6) : IVec S3300000 32)
        (wrapped (W (Proc.devRef .tc main_v9))) := by
  after_results_simp
  try rfl

theorem st2_v30 : (StableHlo.after hostOps0_2 W (Proc.devRef .tc main_v30) : Vec F S3300000 .f32)
    = Host.gather gather_S3300000_S3300000x1_S3300000_n_0_n_n_0_1_1 (W (Proc.devRef .tc main_v8) : Vec F S3300000 .f32)
        (wrapped (W (Proc.devRef .tc main_v9))) := by
  after_results_simp
  try rfl

theorem st2_v32 : (StableHlo.after hostOps0_2 W (Proc.devRef .tc main_v32) : IVec S3301376 32)
    = concatenate S3301376 0 [⟨S3300000, (StableHlo.after hostOps0_2 W (Proc.devRef .tc main_v16) : IVec S3300000 32)⟩,
      ⟨S1376, broadcastInDim S1376 ![] bcast_S_S1376 (constantI S_ 32 0#32)⟩] concatenates_S3300000_S1376_S3301376_d0 := by
  after_results_simp
  try rfl

theorem st2_v34 : (StableHlo.after hostOps0_2 W (Proc.devRef .tc main_v34) : IVec S3301376 32)
    = concatenate S3301376 0 [⟨S3300000, (StableHlo.after hostOps0_2 W (Proc.devRef .tc main_v23) : IVec S3300000 32)⟩,
      ⟨S1376, broadcastInDim S1376 ![] bcast_S_S1376 (constantI S_ 32 99999#32)⟩] concatenates_S3300000_S1376_S3301376_d0 := by
  after_results_simp
  try rfl

theorem st2_v36 : (StableHlo.after hostOps0_2 W (Proc.devRef .tc main_v36) : Vec F S3301376 .f32)
    = concatenate S3301376 0 [⟨S3300000, (StableHlo.after hostOps0_2 W (Proc.devRef .tc main_v30) : Vec F S3300000 .f32)⟩,
      ⟨S1376, broadcastInDim S1376 ![] bcast_S_S1376 (constant (F := F) S_ .f32 0x00000000#32)⟩]
        concatenates_S3300000_S1376_S3301376_d0 := by
  after_results_simp
  try rfl

theorem st2_v41 : (StableHlo.after hostOps0_2 W (Proc.devRef .tc main_v41) : IVec S25792 32)
    = minsi (shapeCast S25792 (extractStridedSlice S25792x1 ![0, 0] (shapeCast S25792x128
        (StableHlo.after hostOps0_2 W (Proc.devRef .tc main_v34) : IVec S3301376 32) shapeCasts_S3301376_S25792x128)
        slices_S25792x128_S25792x1_0_0) shapeCasts_S25792x1_S25792)
      (broadcastInDim S25792 ![] bcast_S_S25792 (constantI S_ 32 99840#32)) := by
  after_results_simp
  try rfl

theorem st2_c9 : (StableHlo.after hostOps0_2 W (Proc.devRef .tc main_c_9) : IVec S_ 32) = constantI S_ 32 128#32 := by
  after_results_simp
  try rfl

theorem st3_v42 : (StableHlo.after hostOps0_3 W (Proc.devRef .tc main_v42) : IVec S25792 32)
    = select (andi (cmpi .ne (signi (W (Proc.devRef .tc main_v41) : IVec S25792 32))
          (broadcastInDim S25792 ![] bcast_S_S25792 (signi (W (Proc.devRef .tc main_c_9) : IVec S_ 32))))
        (cmpi .ne (Host.remsi (W (Proc.devRef .tc main_v41) : IVec S25792 32)
            (broadcastInDim S25792 ![] bcast_S_S25792 (W (Proc.devRef .tc main_c_9) : IVec S_ 32)))
          (broadcastInDim S25792 ![] bcast_S_S25792 (constantI S_ 32 0#32))))
      (subi (Host.divsi (W (Proc.devRef .tc main_v41) : IVec S25792 32)
          (broadcastInDim S25792 ![] bcast_S_S25792 (W (Proc.devRef .tc main_c_9) : IVec S_ 32)))
        (broadcastInDim S25792 ![] bcast_S_S25792 (constantI S_ 32 1#32)))
      (Host.divsi (W (Proc.devRef .tc main_v41) : IVec S25792 32)
        (broadcastInDim S25792 ![] bcast_S_S25792 (W (Proc.devRef .tc main_c_9) : IVec S_ 32))) := by
  after_results_simp
  try rfl

theorem st4_v44 : (StableHlo.after hostOps0_4 W (Proc.devRef .tc main_v44) : IVec S25792 32)
    = muli (W (Proc.devRef .tc main_v42) : IVec S25792 32)
        (broadcastInDim S25792 ![] bcast_S_S25792 (constantI S_ 32 128#32)) := by
  after_results_simp
  try rfl

end Stages

section StagesAt
variable (W : Valuation τ sig (Elt F))

theorem row_at (r : Fin 2) (off : Fin 2 → Nat) (hoff : off = ![r.val, 0]) (hs : S2x3200000.Slices off S1x3200000)
    (x : IVec S2x3200000 32) (e : Fin 3200000) :
    shapeCast S3200000 (extractStridedSlice S1x3200000 off x hs) shapeCasts_S1x3200000_S3200000 (ValueIdx.ix1 e) = x (ValueIdx.ix2 r e) := by
  subst hoff
  refine (shapeCast_apply _ shapeCasts_S1x3200000_S3200000 (ValueIdx.ix1 e) (ValueIdx.ix2 (0 : Fin 1) e) ?_).trans ?_
  · rw [Shape.rowMajor_val_two, Shape.rowMajor_val_one]; show 0 * 3200000 + e.val = e.val; omega
  refine extractStridedSlice_apply _ _ hs _ _ ?_
  intro a; match a with
  | ⟨0, _⟩ => show r.val = r.val + 0; omega
  | ⟨1, _⟩ => show e.val = 0 + e.val; omega

theorem v5_lo (e : Fin 3300000) (he : e.val < 3200000) :
    (StableHlo.after hostOps0 W (Proc.devRef .tc main_v5) : IVec S3300000 32) (ValueIdx.ix1 e)
      = (W (Proc.devRef .tc main_arg1) : IVec S2x3200000 32) (ValueIdx.ix2 (0 : Fin 2) (⟨e.val, he⟩ : Fin 3200000)) := by
  rw [st0_v5]
  exact (concat1_lo _ _ _ e he).trans (row_at 0 _ rfl _ _ _)

theorem v5_hi (e : Fin 3300000) (he : 3200000 ≤ e.val) :
    (StableHlo.after hostOps0 W (Proc.devRef .tc main_v5) : IVec S3300000 32) (ValueIdx.ix1 e) = BitVec.ofNat 32 (e.val - 3200000) := by
  rw [st0_v5]
  refine (concat1_hi _ _ _ e he (by have := e.isLt; omega)).trans ?_
  rfl

theorem v6_lo (e : Fin 3300000) (he : e.val < 3200000) :
    (StableHlo.after hostOps0 W (Proc.devRef .tc main_v6) : IVec S3300000 32) (ValueIdx.ix1 e)
      = (W (Proc.devRef .tc main_arg1) : IVec S2x3200000 32) (ValueIdx.ix2 (1 : Fin 2) (⟨e.val, he⟩ : Fin 3200000)) := by
  rw [st0_v6]
  exact (concat1_lo _ _ _ e he).trans (row_at 1 _ rfl _ _ _)

theorem v6_hi (e : Fin 3300000) (he : 3200000 ≤ e.val) :
    (StableHlo.after hostOps0 W (Proc.devRef .tc main_v6) : IVec S3300000 32) (ValueIdx.ix1 e) = BitVec.ofNat 32 (e.val - 3200000) := by
  rw [st0_v6]
  refine (concat1_hi _ _ _ e he (by have := e.isLt; omega)).trans ?_
  rfl

theorem v8_lo (e : Fin 3300000) (he : e.val < 3200000) :
    (StableHlo.after hostOps0 W (Proc.devRef .tc main_v8) : Vec F S3300000 .f32) (ValueIdx.ix1 e)
      = (W (Proc.devRef .tc main_arg2) : Vec F S3200000 .f32) (ValueIdx.ix1 (⟨e.val, he⟩ : Fin 3200000)) := by
  rw [st0_v8]
  exact concat1_lo _ _ _ e he

theorem v8_hi (e : Fin 3300000) (he : 3200000 ≤ e.val) :
    (StableHlo.after hostOps0 W (Proc.devRef .tc main_v8) : Vec F S3300000 .f32) (ValueIdx.ix1 e)
      = (constant (F := F) S_ .f32 0x3F800000#32) ValueIdx.ix0 := by
  rw [st0_v8]
  exact (concat1_hi _ _ _ e he (by have := e.isLt; omega)).trans (broadcastInDim_scalar_apply _ _ _)

theorem v9_at (j : Fin 3300000) :
    (StableHlo.after hostOps0_1 W (Proc.devRef .tc main_v9) : IVec S3300000 32) (ValueIdx.ix1 j)
      = BitVec.ofNat 32 (ord (fun k : Fin 3300000 => (W (Proc.devRef .tc main_v6) : IVec S3300000 32) (ValueIdx.ix1 k)) j).val := by
  rw [st1_v9]
  exact argsort_rank1 _ comparator_i32_i32_d0 (fun _ _ => rfl) j

theorem gather_at {α : Type} (x : S3300000.Idx → α) (v : IVec S3300000 32) (j q : Fin 3300000)
    (hq : v (ValueIdx.ix1 j) = BitVec.ofNat 32 q.val) :
    Host.gather gather_S3300000_S3300000x1_S3300000_n_0_n_n_0_1_1 x (wrapped v) (ValueIdx.ix1 j) = x (ValueIdx.ix1 q) :=
  take_wrapped gather_S3300000_S3300000x1_S3300000_n_0_n_n_0_1_1 rfl rfl rfl rfl bcast_S3300000_S3300000x1_0 x v
    (broadcastInDim S3300000 ![] bcast_S_S3300000 (constantI S_ 32 0#32))
    (broadcastInDim S3300000 ![] bcast_S_S3300000 (constantI S_ 32 3300000#32))
    (fun i => broadcastInDim_scalar_apply _ _ i) (by norm_num) j q hq

theorem v32_lo (j : Fin 3301376) (hj : j.val < 3300000) (q : Fin 3300000)
    (hq : (W (Proc.devRef .tc main_v9) : IVec S3300000 32) (ValueIdx.ix1 (⟨j.val, hj⟩ : Fin 3300000)) = BitVec.ofNat 32 q.val) :
    (StableHlo.after hostOps0_2 W (Proc.devRef .tc main_v32) : IVec S3301376 32) (ValueIdx.ix1 j)
      = (W (Proc.devRef .tc main_v5) : IVec S3300000 32) (ValueIdx.ix1 q) := by
  rw [st2_v32]
  refine (concat1_lo _ _ _ j hj).trans ?_
  rw [st2_v16]
  exact gather_at _ _ _ q hq

theorem v32_hi (j : Fin 3301376) (hj : 3300000 ≤ j.val) :
    (StableHlo.after hostOps0_2 W (Proc.devRef .tc main_v32) : IVec S3301376 32) (ValueIdx.ix1 j) = 0#32 := by
  rw [st2_v32]
  exact (concat1_hi _ _ _ j hj (by have := j.isLt; omega)).trans (broadcastInDim_scalar_apply _ _ _)

theorem v34_lo (j : Fin 3301376) (hj : j.val < 3300000) (q : Fin 3300000)
    (hq : (W (Proc.devRef .tc main_v9) : IVec S3300000 32) (ValueIdx.ix1 (⟨j.val, hj⟩ : Fin 3300000)) = BitVec.ofNat 32 q.val) :
    (StableHlo.after hostOps0_2 W (Proc.devRef .tc main_v34) : IVec S3301376 32) (ValueIdx.ix1 j)
      = (W (Proc.devRef .tc main_v6) : IVec S3300000 32) (ValueIdx.ix1 q) := by
  rw [st2_v34]
  refine (concat1_lo _ _ _ j hj).trans ?_
  rw [st2_v23]
  exact gather_at _ _ _ q hq

theorem v34_hi (j : Fin 3301376) (hj : 3300000 ≤ j.val) :
    (StableHlo.after hostOps0_2 W (Proc.devRef .tc main_v34) : IVec S3301376 32) (ValueIdx.ix1 j) = 99999#32 := by
  rw [st2_v34]
  exact (concat1_hi _ _ _ j hj (by have := j.isLt; omega)).trans (broadcastInDim_scalar_apply _ _ _)

theorem v36_lo (j : Fin 3301376) (hj : j.val < 3300000) (q : Fin 3300000)
    (hq : (W (Proc.devRef .tc main_v9) : IVec S3300000 32) (ValueIdx.ix1 (⟨j.val, hj⟩ : Fin 3300000)) = BitVec.ofNat 32 q.val) :
    (StableHlo.after hostOps0_2 W (Proc.devRef .tc main_v36) : Vec F S3301376 .f32) (ValueIdx.ix1 j)
      = (W (Proc.devRef .tc main_v8) : Vec F S3300000 .f32) (ValueIdx.ix1 q) := by
  rw [st2_v36]
  refine (concat1_lo _ _ _ j hj).trans ?_
  rw [st2_v30]
  exact gather_at _ _ _ q hq

theorem v36_hi (j : Fin 3301376) (hj : 3300000 ≤ j.val) :
    (StableHlo.after hostOps0_2 W (Proc.devRef .tc main_v36) : Vec F S3301376 .f32) (ValueIdx.ix1 j)
      = (constant (F := F) S_ .f32 0x00000000#32) ValueIdx.ix0 := by
  rw [st2_v36]
  exact (concat1_hi _ _ _ j hj (by have := j.isLt; omega)).trans (broadcastInDim_scalar_apply _ _ _)

theorem v41_at (k : Fin 25792) :
    (StableHlo.after hostOps0_2 W (Proc.devRef .tc main_v41) : IVec S25792 32) (ValueIdx.ix1 k)
      = IntOp.minsi ((StableHlo.after hostOps0_2 W (Proc.devRef .tc main_v34) : IVec S3301376 32)
          (ValueIdx.ix1 (⟨k.val * 128, by have := k.isLt; omega⟩ : Fin 3301376))) 99840#32 := by
  rw [st2_v41]
  exact congrArg₂ IntOp.minsi
    (row_head _ shapeCasts_S3301376_S25792x128 slices_S25792x128_S25792x1_0_0 shapeCasts_S25792x1_S25792 (by norm_num) k
      (by have := k.isLt; omega))
    (broadcastInDim_scalar_apply _ _ _)

theorem v42_at (k : Fin 25792) (hc : (W (Proc.devRef .tc main_c_9) : IVec S_ 32) ValueIdx.ix0 = 128#32) :
    (StableHlo.after hostOps0_3 W (Proc.devRef .tc main_v42) : IVec S25792 32) (ValueIdx.ix1 k)
      = fdw ((W (Proc.devRef .tc main_v41) : IVec S25792 32) (ValueIdx.ix1 k)) 128#32 := by
  rw [st3_v42]
  have e1 := broadcastInDim_scalar_apply bcast_S_S25792 (signi (W (Proc.devRef .tc main_c_9) : IVec S_ 32)) (ValueIdx.ix1 k)
  have e2 := broadcastInDim_scalar_apply bcast_S_S25792 (W (Proc.devRef .tc main_c_9) : IVec S_ 32) (ValueIdx.ix1 k)
  have e3 := broadcastInDim_scalar_apply bcast_S_S25792 (constantI S_ 32 0#32) (ValueIdx.ix1 k)
  have e4 := broadcastInDim_scalar_apply bcast_S_S25792 (constantI S_ 32 1#32) (ValueIdx.ix1 k)
  show Scalar.select (IntOp.andi (IntOp.cmpi .ne (sgnw ((W (Proc.devRef .tc main_v41) : IVec S25792 32) (ValueIdx.ix1 k)))
        (broadcastInDim S25792 ![] bcast_S_S25792 (signi (W (Proc.devRef .tc main_c_9) : IVec S_ 32)) (ValueIdx.ix1 k)))
      (IntOp.cmpi .ne (IntOp.remsi .host ((W (Proc.devRef .tc main_v41) : IVec S25792 32) (ValueIdx.ix1 k))
          (broadcastInDim S25792 ![] bcast_S_S25792 (W (Proc.devRef .tc main_c_9) : IVec S_ 32) (ValueIdx.ix1 k)))
        (broadcastInDim S25792 ![] bcast_S_S25792 (constantI S_ 32 0#32) (ValueIdx.ix1 k))))
    (IntOp.subi (IntOp.divsi .host ((W (Proc.devRef .tc main_v41) : IVec S25792 32) (ValueIdx.ix1 k))
        (broadcastInDim S25792 ![] bcast_S_S25792 (W (Proc.devRef .tc main_c_9) : IVec S_ 32) (ValueIdx.ix1 k)))
      (broadcastInDim S25792 ![] bcast_S_S25792 (constantI S_ 32 1#32) (ValueIdx.ix1 k)))
    (IntOp.divsi .host ((W (Proc.devRef .tc main_v41) : IVec S25792 32) (ValueIdx.ix1 k))
      (broadcastInDim S25792 ![] bcast_S_S25792 (W (Proc.devRef .tc main_c_9) : IVec S_ 32) (ValueIdx.ix1 k))) = _
  rw [e1, e2, e3, e4]
  show Scalar.select (IntOp.andi (IntOp.cmpi .ne (sgnw ((W (Proc.devRef .tc main_v41) : IVec S25792 32) (ValueIdx.ix1 k)))
        (sgnw ((W (Proc.devRef .tc main_c_9) : IVec S_ 32) ValueIdx.ix0)))
      (IntOp.cmpi .ne (IntOp.remsi .host ((W (Proc.devRef .tc main_v41) : IVec S25792 32) (ValueIdx.ix1 k))
          ((W (Proc.devRef .tc main_c_9) : IVec S_ 32) ValueIdx.ix0)) 0#32))
    (IntOp.subi (IntOp.divsi .host ((W (Proc.devRef .tc main_v41) : IVec S25792 32) (ValueIdx.ix1 k))
        ((W (Proc.devRef .tc main_c_9) : IVec S_ 32) ValueIdx.ix0)) 1#32)
    (IntOp.divsi .host ((W (Proc.devRef .tc main_v41) : IVec S25792 32) (ValueIdx.ix1 k))
      ((W (Proc.devRef .tc main_c_9) : IVec S_ 32) ValueIdx.ix0)) = _
  rw [hc]
  rfl

theorem v44_at (k : Fin 25792) :
    (StableHlo.after hostOps0_4 W (Proc.devRef .tc main_v44) : IVec S25792 32) (ValueIdx.ix1 k)
      = IntOp.muli ((W (Proc.devRef .tc main_v42) : IVec S25792 32) (ValueIdx.ix1 k)) 128#32 := by
  rw [st4_v44]
  exact congrArg (IntOp.muli ((W (Proc.devRef .tc main_v42) : IVec S25792 32) (ValueIdx.ix1 k))) (broadcastInDim_scalar_apply _ _ _)

end StagesAt

end HostInts

open HostInts

variable (m : (ℓ : Loc nD τ sig) → Buf (Elt F) ℓ)

def IdxOk : Prop :=
  ∀ (c : Dev nD) (i : S2x3200000.Idx), 0 ≤ ((V0 m c (Proc.devRef .tc main_arg1) : IVec S2x3200000 32) i).toInt
    ∧ ((V0 m c (Proc.devRef .tc main_arg1) : IVec S2x3200000 32) i).toInt < 100000

section Named
variable (c : Dev nD)

theorem HostInts.V5_v5 : V5 m c (Proc.devRef .tc main_v5) = V1 m c (Proc.devRef .tc main_v5) :=
  (V5_of m c main_v5 (by decide)).trans <| (V4_of m c main_v5 (by decide)).trans <|
    (V3_of m c main_v5 (by decide)).trans (V2_of m c main_v5 (by decide))
theorem HostInts.V5_v6 : V5 m c (Proc.devRef .tc main_v6) = V1 m c (Proc.devRef .tc main_v6) :=
  (V5_of m c main_v6 (by decide)).trans <| (V4_of m c main_v6 (by decide)).trans <|
    (V3_of m c main_v6 (by decide)).trans (V2_of m c main_v6 (by decide))
theorem HostInts.V5_v8 : V5 m c (Proc.devRef .tc main_v8) = V1 m c (Proc.devRef .tc main_v8) :=
  (V5_of m c main_v8 (by decide)).trans <| (V4_of m c main_v8 (by decide)).trans <|
    (V3_of m c main_v8 (by decide)).trans (V2_of m c main_v8 (by decide))
theorem HostInts.V2_v5 : V2 m c (Proc.devRef .tc main_v5) = V1 m c (Proc.devRef .tc main_v5) := V2_of m c main_v5 (by decide)
theorem HostInts.V2_v6 : V2 m c (Proc.devRef .tc main_v6) = V1 m c (Proc.devRef .tc main_v6) := V2_of m c main_v6 (by decide)
theorem HostInts.V2_v8 : V2 m c (Proc.devRef .tc main_v8) = V1 m c (Proc.devRef .tc main_v8) := V2_of m c main_v8 (by decide)
theorem HostInts.V5_v9 : V5 m c (Proc.devRef .tc main_v9) = V2 m c (Proc.devRef .tc main_v9) :=
  (V5_of m c main_v9 (by decide)).trans <| (V4_of m c main_v9 (by decide)).trans (V3_of m c main_v9 (by decide))
theorem HostInts.V5_v32 : V5 m c (Proc.devRef .tc main_v32) = V3 m c (Proc.devRef .tc main_v32) :=
  (V5_of m c main_v32 (by decide)).trans (V4_of m c main_v32 (by decide))
theorem HostInts.V5_v34 : V5 m c (Proc.devRef .tc main_v34) = V3 m c (Proc.devRef .tc main_v34) :=
  (V5_of m c main_v34 (by decide)).trans (V4_of m c main_v34 (by decide))
theorem HostInts.V5_v36 : V5 m c (Proc.devRef .tc main_v36) = V3 m c (Proc.devRef .tc main_v36) :=
  (V5_of m c main_v36 (by decide)).trans (V4_of m c main_v36 (by decide))

def dstf (e : Fin 3300000) : BitVec 32 := (V5 m c (Proc.devRef .tc main_v6) : IVec S3300000 32) (ValueIdx.ix1 e)

def srcf (e : Fin 3300000) : BitVec 32 := (V5 m c (Proc.devRef .tc main_v5) : IVec S3300000 32) (ValueIdx.ix1 e)

def wf (e : Fin 3300000) : Elt F .f32 := (V5 m c (Proc.devRef .tc main_v8) : Vec F S3300000 .f32) (ValueIdx.ix1 e)

def sdst (j : Fin 3301376) : BitVec 32 := (V5 m c (Proc.devRef .tc main_v34) : IVec S3301376 32) (ValueIdx.ix1 j)

def ssrc (j : Fin 3301376) : BitVec 32 := (V5 m c (Proc.devRef .tc main_v32) : IVec S3301376 32) (ValueIdx.ix1 j)

def sw (j : Fin 3301376) : Elt F .f32 := (V5 m c (Proc.devRef .tc main_v36) : Vec F S3301376 .f32) (ValueIdx.ix1 j)

def tbl (k : Fin 25792) : BitVec 32 := (V5 m c (Proc.devRef .tc main_v44) : IVec S25792 32) (ValueIdx.ix1 k)

def order : Fin 3300000 → Fin 3300000 := ord (dstf m c)

theorem order_injective : Function.Injective (order m c) := ord_injective _
theorem order_surjective : Function.Surjective (order m c) := ord_surjective _

def orderEquiv : Equiv.Perm (Fin 3300000) := Equiv.ofBijective (order m c) ⟨order_injective m c, order_surjective m c⟩

theorem dstf_lo (e : Fin 3300000) (he : e.val < 3200000) :
    dstf m c e = (V0 m c (Proc.devRef .tc main_arg1) : IVec S2x3200000 32) (ValueIdx.ix2 (1 : Fin 2) (⟨e.val, he⟩ : Fin 3200000)) := by
  unfold dstf; rw [V5_v6]; exact v6_lo (V0 m c) e he
theorem dstf_hi (e : Fin 3300000) (he : 3200000 ≤ e.val) : dstf m c e = BitVec.ofNat 32 (e.val - 3200000) := by
  unfold dstf; rw [V5_v6]; exact v6_hi (V0 m c) e he
theorem srcf_lo (e : Fin 3300000) (he : e.val < 3200000) :
    srcf m c e = (V0 m c (Proc.devRef .tc main_arg1) : IVec S2x3200000 32) (ValueIdx.ix2 (0 : Fin 2) (⟨e.val, he⟩ : Fin 3200000)) := by
  unfold srcf; rw [V5_v5]; exact v5_lo (V0 m c) e he
theorem srcf_hi (e : Fin 3300000) (he : 3200000 ≤ e.val) : srcf m c e = BitVec.ofNat 32 (e.val - 3200000) := by
  unfold srcf; rw [V5_v5]; exact v5_hi (V0 m c) e he
theorem wf_lo (e : Fin 3300000) (he : e.val < 3200000) :
    wf m c e = (V0 m c (Proc.devRef .tc main_arg2) : Vec F S3200000 .f32) (ValueIdx.ix1 (⟨e.val, he⟩ : Fin 3200000)) := by
  unfold wf; rw [V5_v8]; exact v8_lo (V0 m c) e he
theorem wf_hi (e : Fin 3300000) (he : 3200000 ≤ e.val) :
    wf m c e = (constant (F := F) S_ .f32 0x3F800000#32) ValueIdx.ix0 := by
  unfold wf; rw [V5_v8]; exact v8_hi (V0 m c) e he

theorem HostInts.toNat_lt_of_toInt (x : BitVec 32) (h0 : 0 ≤ x.toInt) (h1 : x.toInt < 100000) : x.toNat < 100000 := by
  have hc := BitVec.toInt_eq_toNat_cond x
  have hlt := x.isLt
  split at hc <;> omega

theorem dstf_lt (h : IdxOk m) (c : Dev nD) (e : Fin 3300000) : (dstf m c e).toNat < 100000 := by
  by_cases he : e.val < 3200000
  · rw [dstf_lo m c e he]; exact toNat_lt_of_toInt _ (h c _).1 (h c _).2
  · rw [dstf_hi m c e (by omega), BitVec.toNat_ofNat]; have := e.isLt; omega
theorem srcf_lt (h : IdxOk m) (c : Dev nD) (e : Fin 3300000) : (srcf m c e).toNat < 100000 := by
  by_cases he : e.val < 3200000
  · rw [srcf_lo m c e he]; exact toNat_lt_of_toInt _ (h c _).1 (h c _).2
  · rw [srcf_hi m c e (by omega), BitVec.toNat_ofNat]; have := e.isLt; omega

theorem v9_val (j : Fin 3300000) :
    (V5 m c (Proc.devRef .tc main_v9) : IVec S3300000 32) (ValueIdx.ix1 j) = BitVec.ofNat 32 (order m c j).val := by
  rw [V5_v9]
  have h := v9_at (V1 m c) j
  have hk : (fun k : Fin 3300000 => (V1 m c (Proc.devRef .tc main_v6) : IVec S3300000 32) (ValueIdx.ix1 k)) = dstf m c := by
    funext k; unfold dstf; rw [V5_v6]
  rw [hk] at h
  exact h

theorem sdst_lo (j : Fin 3301376) (hj : j.val < 3300000) : sdst m c j = dstf m c (order m c ⟨j.val, hj⟩) := by
  unfold sdst dstf
  rw [V5_v34, V5_v6, ← V2_v6]
  exact v34_lo (V2 m c) j hj (order m c ⟨j.val, hj⟩) (by rw [← V5_v9]; exact v9_val m c ⟨j.val, hj⟩)
theorem sdst_hi (j : Fin 3301376) (hj : 3300000 ≤ j.val) : sdst m c j = 99999#32 := by
  unfold sdst; rw [V5_v34]; exact v34_hi (V2 m c) j hj
theorem ssrc_lo (j : Fin 3301376) (hj : j.val < 3300000) : ssrc m c j = srcf m c (order m c ⟨j.val, hj⟩) := by
  unfold ssrc srcf
  rw [V5_v32, V5_v5, ← V2_v5]
  exact v32_lo (V2 m c) j hj (order m c ⟨j.val, hj⟩) (by rw [← V5_v9]; exact v9_val m c ⟨j.val, hj⟩)
theorem ssrc_hi (j : Fin 3301376) (hj : 3300000 ≤ j.val) : ssrc m c j = 0#32 := by
  unfold ssrc; rw [V5_v32]; exact v32_hi (V2 m c) j hj
theorem sw_lo (j : Fin 3301376) (hj : j.val < 3300000) : sw m c j = wf m c (order m c ⟨j.val, hj⟩) := by
  unfold sw wf
  rw [V5_v36, V5_v8, ← V2_v8]
  exact v36_lo (V2 m c) j hj (order m c ⟨j.val, hj⟩) (by rw [← V5_v9]; exact v9_val m c ⟨j.val, hj⟩)
theorem sw_hi (j : Fin 3301376) (hj : 3300000 ≤ j.val) :
    sw m c j = (constant (F := F) S_ .f32 0x00000000#32) ValueIdx.ix0 := by
  unfold sw; rw [V5_v36]; exact v36_hi (V2 m c) j hj

theorem sdst_lt (h : IdxOk m) (c : Dev nD) (j : Fin 3301376) : (sdst m c j).toNat < 100000 := by
  by_cases hj : j.val < 3300000
  · rw [sdst_lo m c j hj]; exact dstf_lt m h c _
  · rw [sdst_hi m c j (by omega)]; decide
theorem ssrc_lt (h : IdxOk m) (c : Dev nD) (j : Fin 3301376) : (ssrc m c j).toNat < 100000 := by
  by_cases hj : j.val < 3300000
  · rw [ssrc_lo m c j hj]; exact srcf_lt m h c _
  · rw [ssrc_hi m c j (by omega)]; decide

theorem sdst_mono (h : IdxOk m) (c : Dev nD) (j j' : Fin 3301376) (hjj : j ≤ j') : (sdst m c j).toNat ≤ (sdst m c j').toNat := by
  have hjj' : j.val ≤ j'.val := hjj
  by_cases hj' : j'.val < 3300000
  · have hj : j.val < 3300000 := by omega
    rw [sdst_lo m c j hj, sdst_lo m c j' hj']
    have hs := ord_sorted (dstf m c) ⟨j.val, hj⟩ ⟨j'.val, hj'⟩ (by rw [Fin.le_def]; exact hjj')
    have h1 := dstf_lt m h c (order m c ⟨j.val, hj⟩)
    have h2 := dstf_lt m h c (order m c ⟨j'.val, hj'⟩)
    have e1 := StableHlo.Predicate.toInt_eq_toNat_of_lt (a := dstf m c (order m c ⟨j.val, hj⟩)) (by omega)
    have e2 := StableHlo.Predicate.toInt_eq_toNat_of_lt (a := dstf m c (order m c ⟨j'.val, hj'⟩)) (by omega)
    unfold order
    unfold order at e1 e2
    omega
  · rw [sdst_hi m c j' (by omega)]
    have := sdst_lt m h c j
    show (sdst m c j).toNat ≤ 99999
    omega

theorem sdst_cover (v : ℕ) (hv : v < 100000) : ∃ j : Fin 3301376, (sdst m c j).toNat = v := by
  obtain ⟨q, hq⟩ := order_surjective m c (⟨3200000 + v, by omega⟩ : Fin 3300000)
  refine ⟨⟨q.val, by have := q.isLt; omega⟩, ?_⟩
  rw [sdst_lo m c _ q.isLt, show (⟨q.val, q.isLt⟩ : Fin 3300000) = q from rfl, hq, dstf_hi m c _ (by show 3200000 ≤ 3200000 + v; omega),
    BitVec.toNat_ofNat]
  show (3200000 + v - 3200000) % 2 ^ 32 = v
  omega

theorem tbl_eq (k : Fin 25792) :
    tbl m c k = IntOp.muli (fdw (IntOp.minsi (sdst m c ⟨128 * k.val, by have := k.isLt; omega⟩) 99840#32) 128#32) 128#32 := by
  unfold tbl sdst
  rw [V5_v34, show (⟨128 * k.val, by have := k.isLt; omega⟩ : Fin 3301376) = ⟨k.val * 128, by have := k.isLt; omega⟩ from
    Fin.ext (Nat.mul_comm _ _)]
  exact (v44_at (V4 m c) k).trans (congrArg (fun w => IntOp.muli w 128#32)
    ((v42_at (V3 m c) k (congrFun (st2_c9 (V2 m c)) ValueIdx.ix0)).trans (congrArg (fun w => fdw w 128#32) (v41_at (V2 m c) k))))

theorem tbl_word (h : IdxOk m) (c : Dev nD) (k : Fin 25792) :
    (tbl m c k).toNat = (min (sdst m c ⟨128 * k.val, by have := k.isLt; omega⟩).toNat 99840 / 128) * 128 := by
  have hs := sdst_lt m h c ⟨128 * k.val, by have := k.isLt; omega⟩
  have hw : (IntOp.minsi (sdst m c ⟨128 * k.val, by have := k.isLt; omega⟩) 99840#32).toNat
      = min (sdst m c ⟨128 * k.val, by have := k.isLt; omega⟩).toNat 99840 :=
    WordArith.toNat_minsi_of_lt _ _ (by omega) (by decide)
  have hq := toNat_fdw_128 (IntOp.minsi (sdst m c ⟨128 * k.val, by have := k.isLt; omega⟩) 99840#32) (by rw [hw]; omega)
  rw [tbl_eq, toNat_muli_128 _ (by rw [hq, hw]; omega), hq, hw]

theorem sdst_nat_mono (h : IdxOk m) (c : Dev nD) : Monotone fun j : Fin 3301376 => (sdst m c j).toNat :=
  fun j j' hjj => sdst_mono m h c j j' hjj

theorem tbl_ok (h : IdxOk m) (c : Dev nD) : TblOk (V5 m c (Proc.devRef .tc main_v44) : Vec F S25792 .i32) := by
  intro x
  obtain ⟨k, rfl⟩ : ∃ k : Fin 25792, x = ValueIdx.ix1 k := ⟨x 0, eq_ix1 x⟩
  show 128 ∣ (tbl m c k).toNat ∧ (tbl m c k).toNat + 256 ≤ 100096
  rw [tbl_word m h c k]
  have hs := sdst_lt m h c ⟨128 * k.val, by have := k.isLt; omega⟩
  have hb := Cert.Gcn.SortWindow.base_facts _ _ (le_refl _) (by omega) hs
  exact ⟨hb.1, hb.2.1⟩

theorem win_ok (h : IdxOk m) (c : Dev nD) (k : Fin 25792) (l : Fin 128) :
    ((V5 m c (Proc.devRef .tc main_v44) : IVec S25792 32) (ValueIdx.ix1 k)).toNat
        ≤ ((V5 m c (Proc.devRef .tc main_v34) : IVec S3301376 32) (ValueIdx.ix1 ⟨128 * k.val + l.val, by have := k.isLt; have := l.isLt; omega⟩)).toNat
      ∧ ((V5 m c (Proc.devRef .tc main_v34) : IVec S3301376 32) (ValueIdx.ix1 ⟨128 * k.val + l.val, by have := k.isLt; have := l.isLt; omega⟩)).toNat
        < ((V5 m c (Proc.devRef .tc main_v44) : IVec S25792 32) (ValueIdx.ix1 k)).toNat + 256 := by
  show (tbl m c k).toNat ≤ (sdst m c ⟨128 * k.val + l.val, _⟩).toNat
    ∧ (sdst m c ⟨128 * k.val + l.val, _⟩).toNat < (tbl m c k).toNat + 256
  rw [tbl_word m h c k]
  have hk := k.isLt
  have hl := l.isLt
  have hlt := sdst_lt m h c ⟨128 * k.val + l.val, by omega⟩
  have hmono := sdst_mono m h c ⟨128 * k.val, by omega⟩ ⟨128 * k.val + l.val, by omega⟩ (by rw [Fin.le_def]; show 128 * k.val ≤ 128 * k.val + l.val; omega)
  have hspan := Cert.Gcn.SortWindow.window_span (N := 100000) (fun j : Fin 3301376 => (sdst m c j).toNat) (sdst_nat_mono m h c)
    (fun v hv => sdst_cover m c v hv) (fun j => sdst_lt m h c j) ⟨128 * k.val, by omega⟩ ⟨128 * k.val + l.val, by omega⟩
    (by rw [Fin.le_def]; show 128 * k.val ≤ 128 * k.val + l.val; omega) (by show 128 * k.val + l.val < 128 * k.val + 128; omega)
  have hb := Cert.Gcn.SortWindow.base_facts _ _ hmono hspan hlt
  exact ⟨hb.2.2.1, hb.2.2.2⟩

end Named

section Later
variable (outs : Outs (F := F)) (c : Dev nD)

theorem V8_v32 : V8 m outs c (Proc.devRef .tc main_v32) = V5 m c (Proc.devRef .tc main_v32) :=
  (V8_of m outs c main_v32 (by decide)).trans <| (V7_of m outs c main_v32 (by decide)).trans (V6_of m outs c main_v32 (by decide))
theorem V8_v36 : V8 m outs c (Proc.devRef .tc main_v36) = V5 m c (Proc.devRef .tc main_v36) :=
  (V8_of m outs c main_v36 (by decide)).trans <| (V7_of m outs c main_v36 (by decide)).trans (V6_of m outs c main_v36 (by decide))
theorem V9_v34 : V9 m outs c (Proc.devRef .tc main_v34) = V5 m c (Proc.devRef .tc main_v34) :=
  (V9_of m outs c main_v34 (by decide)).trans <| (V8_of m outs c main_v34 (by decide)).trans <|
    (V7_of m outs c main_v34 (by decide)).trans (V6_of m outs c main_v34 (by decide))
theorem V9_v44 : V9 m outs c (Proc.devRef .tc main_v44) = V5 m c (Proc.devRef .tc main_v44) :=
  (V9_of m outs c main_v44 (by decide)).trans <| (V8_of m outs c main_v44 (by decide)).trans <|
    (V7_of m outs c main_v44 (by decide)).trans (V6_of m outs c main_v44 (by decide))
theorem V12_v32 : V12 m outs c (Proc.devRef .tc main_v32) = V5 m c (Proc.devRef .tc main_v32) :=
  (V12_of m outs c main_v32 (by decide)).trans <| (V11_of m outs c main_v32 (by decide)).trans <|
    (V10_of m outs c main_v32 (by decide)).trans <| (V9_of m outs c main_v32 (by decide)).trans (V8_v32 m outs c)
theorem V12_v36 : V12 m outs c (Proc.devRef .tc main_v36) = V5 m c (Proc.devRef .tc main_v36) :=
  (V12_of m outs c main_v36 (by decide)).trans <| (V11_of m outs c main_v36 (by decide)).trans <|
    (V10_of m outs c main_v36 (by decide)).trans <| (V9_of m outs c main_v36 (by decide)).trans (V8_v36 m outs c)
theorem V13_v34 : V13 m outs c (Proc.devRef .tc main_v34) = V5 m c (Proc.devRef .tc main_v34) :=
  (V13_of m outs c main_v34 (by decide)).trans <| (V12_of m outs c main_v34 (by decide)).trans <|
    (V11_of m outs c main_v34 (by decide)).trans <| (V10_of m outs c main_v34 (by decide)).trans (V9_v34 m outs c)

end Later

end Cert.Kernel.Hand

end
-- ==== Proof.K.Body0.lean ====
import proofs.«401711_j53747220742790_3_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

abbrev cond0_0 (i : grid0.Coords) : Prop := (Scalar.cmpi .ne (Scalar.extui (Scalar.cmpi .eq (BitVec.ofNat 32 (i 1).val) 0#32)) 0#32) = 1#1

abbrev cond0_1 (i : grid0.Coords) : Prop := k0_cond2 i = 1#1

theorem hcond0_0 : ∀ t : Fin grid0.N, cond0_0 (grid0.coords t) ↔ t.val % 403 = 0 := by decide +kernel

theorem hcond0_1 : ∀ t : Fin grid0.N, cond0_1 (grid0.coords t) ↔ t.val % 403 = 402 := by decide +kernel

noncomputable def winUpd (base : BitVec 32) (msgc : Vec F S1x128 .f32) (dstc : Vec F S128 .i32) (cur : Vec F S1x256 .f32) : FVec F S1x256 .f32 :=
  have iota0 : IVec S256x128 32 := iota .tc S256x128 32 [0] iota_S256x128_d0_w32
  have msg : FVec F S1x128 .f32 := shapeCast S1x128 msgc shapeCasts_S1x128_S1x128
  have dst : IVec S128 32 := shapeCast S128 dstc shapeCasts_S128_S128
  have loc : IVec S128 32 := subi dst (broadcast S128 base)
  have locRow : IVec S1x128 32 := shapeCast S1x128 loc shapeCasts_S128_S1x128
  have hit : IVec S256x128 1 := cmpi .eq iota0 (broadcastTo S256x128 locRow broadcasts_S1x128_S256x128)
  have onehot : FVec F S256x128 .f32 := sitofp .f32 (extui 32 hit natLt_1_32)
  have zero : FVec F S1x256 .f32 := constant S1x256 .f32 0x00000000#32
  have acc : FVec F S1x256 .f32 := matmul dot_S1x128_S256x128_S1x256_1_1_0_0_n_n none msg onehot zero
  shapeCast S1x256 (addf cur acc) shapeCasts_S1x256_S1x256

abbrev iota0 : IVec S256x128 32 := iota .tc S256x128 32 [0] iota_S256x128_d0_w32

-- Each of the 32 window base words read at point i is a multiple of 128 whose 256 lanes lie inside the accumulator's.
structure Hw0 (i : grid0.Coords) (arg2 : Memref sig .tc .smem S25792 .i32) (harg2 : arg2.IsWhole) (x2 : Vec F S25792 .i32) : Prop where
  h1 : k0_chk1 (arg2.view.readAt (Elt F) (Rect.unit (s := S25792) (k0_off1 i) S1.size (k0_off1_inb i)).toLoadRect (harg2.unread x2) (Shape.Idx.first (numel1_S1.symm ▸ Nat.one_pos)))
  h2 : k0_chk2 (arg2.view.readAt (Elt F) (Rect.unit (s := S25792) (k0_off3 i) S1.size (k0_off3_inb i)).toLoadRect (harg2.unread x2) (Shape.Idx.first (numel1_S1.symm ▸ Nat.one_pos)))
  h3 : k0_chk3 (arg2.view.readAt (Elt F) (Rect.unit (s := S25792) (k0_off5 i) S1.size (k0_off5_inb i)).toLoadRect (harg2.unread x2) (Shape.Idx.first (numel1_S1.symm ▸ Nat.one_pos)))
  h4 : k0_chk4 (arg2.view.readAt (Elt F) (Rect.unit (s := S25792) (k0_off7 i) S1.size (k0_off7_inb i)).toLoadRect (harg2.unread x2) (Shape.Idx.first (numel1_S1.symm ▸ Nat.one_pos)))
  h5 : k0_chk5 (arg2.view.readAt (Elt F) (Rect.unit (s := S25792) (k0_off9 i) S1.size (k0_off9_inb i)).toLoadRect (harg2.unread x2) (Shape.Idx.first (numel1_S1.symm ▸ Nat.one_pos)))
  h6 : k0_chk6 (arg2.view.readAt (Elt F) (Rect.unit (s := S25792) (k0_off11 i) S1.size (k0_off11_inb i)).toLoadRect (harg2.unread x2) (Shape.Idx.first (numel1_S1.symm ▸ Nat.one_pos)))
  h7 : k0_chk7 (arg2.view.readAt (Elt F) (Rect.unit (s := S25792) (k0_off13 i) S1.size (k0_off13_inb i)).toLoadRect (harg2.unread x2) (Shape.Idx.first (numel1_S1.symm ▸ Nat.one_pos)))
  h8 : k0_chk8 (arg2.view.readAt (Elt F) (Rect.unit (s := S25792) (k0_off15 i) S1.size (k0_off15_inb i)).toLoadRect (harg2.unread x2) (Shape.Idx.first (numel1_S1.symm ▸ Nat.one_pos)))
  h9 : k0_chk9 (arg2.view.readAt (Elt F) (Rect.unit (s := S25792) (k0_off17 i) S1.size (k0_off17_inb i)).toLoadRect (harg2.unread x2) (Shape.Idx.first (numel1_S1.symm ▸ Nat.one_pos)))
  h10 : k0_chk10 (arg2.view.readAt (Elt F) (Rect.unit (s := S25792) (k0_off19 i) S1.size (k0_off19_inb i)).toLoadRect (harg2.unread x2) (Shape.Idx.first (numel1_S1.symm ▸ Nat.one_pos)))
  h11 : k0_chk11 (arg2.view.readAt (Elt F) (Rect.unit (s := S25792) (k0_off21 i) S1.size (k0_off21_inb i)).toLoadRect (harg2.unread x2) (Shape.Idx.first (numel1_S1.symm ▸ Nat.one_pos)))
  h12 : k0_chk12 (arg2.view.readAt (Elt F) (Rect.unit (s := S25792) (k0_off23 i) S1.size (k0_off23_inb i)).toLoadRect (harg2.unread x2) (Shape.Idx.first (numel1_S1.symm ▸ Nat.one_pos)))
  h13 : k0_chk13 (arg2.view.readAt (Elt F) (Rect.unit (s := S25792) (k0_off25 i) S1.size (k0_off25_inb i)).toLoadRect (harg2.unread x2) (Shape.Idx.first (numel1_S1.symm ▸ Nat.one_pos)))
  h14 : k0_chk14 (arg2.view.readAt (Elt F) (Rect.unit (s := S25792) (k0_off27 i) S1.size (k0_off27_inb i)).toLoadRect (harg2.unread x2) (Shape.Idx.first (numel1_S1.symm ▸ Nat.one_pos)))
  h15 : k0_chk15 (arg2.view.readAt (Elt F) (Rect.unit (s := S25792) (k0_off29 i) S1.size (k0_off29_inb i)).toLoadRect (harg2.unread x2) (Shape.Idx.first (numel1_S1.symm ▸ Nat.one_pos)))
  h16 : k0_chk16 (arg2.view.readAt (Elt F) (Rect.unit (s := S25792) (k0_off31 i) S1.size (k0_off31_inb i)).toLoadRect (harg2.unread x2) (Shape.Idx.first (numel1_S1.symm ▸ Nat.one_pos)))
  h17 : k0_chk17 (arg2.view.readAt (Elt F) (Rect.unit (s := S25792) (k0_off33 i) S1.size (k0_off33_inb i)).toLoadRect (harg2.unread x2) (Shape.Idx.first (numel1_S1.symm ▸ Nat.one_pos)))
  h18 : k0_chk18 (arg2.view.readAt (Elt F) (Rect.unit (s := S25792) (k0_off35 i) S1.size (k0_off35_inb i)).toLoadRect (harg2.unread x2) (Shape.Idx.first (numel1_S1.symm ▸ Nat.one_pos)))
  h19 : k0_chk19 (arg2.view.readAt (Elt F) (Rect.unit (s := S25792) (k0_off37 i) S1.size (k0_off37_inb i)).toLoadRect (harg2.unread x2) (Shape.Idx.first (numel1_S1.symm ▸ Nat.one_pos)))
  h20 : k0_chk20 (arg2.view.readAt (Elt F) (Rect.unit (s := S25792) (k0_off39 i) S1.size (k0_off39_inb i)).toLoadRect (harg2.unread x2) (Shape.Idx.first (numel1_S1.symm ▸ Nat.one_pos)))
  h21 : k0_chk21 (arg2.view.readAt (Elt F) (Rect.unit (s := S25792) (k0_off41 i) S1.size (k0_off41_inb i)).toLoadRect (harg2.unread x2) (Shape.Idx.first (numel1_S1.symm ▸ Nat.one_pos)))
  h22 : k0_chk22 (arg2.view.readAt (Elt F) (Rect.unit (s := S25792) (k0_off43 i) S1.size (k0_off43_inb i)).toLoadRect (harg2.unread x2) (Shape.Idx.first (numel1_S1.symm ▸ Nat.one_pos)))
  h23 : k0_chk23 (arg2.view.readAt (Elt F) (Rect.unit (s := S25792) (k0_off45 i) S1.size (k0_off45_inb i)).toLoadRect (harg2.unread x2) (Shape.Idx.first (numel1_S1.symm ▸ Nat.one_pos)))
  h24 : k0_chk24 (arg2.view.readAt (Elt F) (Rect.unit (s := S25792) (k0_off47 i) S1.size (k0_off47_inb i)).toLoadRect (harg2.unread x2) (Shape.Idx.first (numel1_S1.symm ▸ Nat.one_pos)))
  h25 : k0_chk25 (arg2.view.readAt (Elt F) (Rect.unit (s := S25792) (k0_off49 i) S1.size (k0_off49_inb i)).toLoadRect (harg2.unread x2) (Shape.Idx.first (numel1_S1.symm ▸ Nat.one_pos)))
  h26 : k0_chk26 (arg2.view.readAt (Elt F) (Rect.unit (s := S25792) (k0_off51 i) S1.size (k0_off51_inb i)).toLoadRect (harg2.unread x2) (Shape.Idx.first (numel1_S1.symm ▸ Nat.one_pos)))
  h27 : k0_chk27 (arg2.view.readAt (Elt F) (Rect.unit (s := S25792) (k0_off53 i) S1.size (k0_off53_inb i)).toLoadRect (harg2.unread x2) (Shape.Idx.first (numel1_S1.symm ▸ Nat.one_pos)))
  h28 : k0_chk28 (arg2.view.readAt (Elt F) (Rect.unit (s := S25792) (k0_off55 i) S1.size (k0_off55_inb i)).toLoadRect (harg2.unread x2) (Shape.Idx.first (numel1_S1.symm ▸ Nat.one_pos)))
  h29 : k0_chk29 (arg2.view.readAt (Elt F) (Rect.unit (s := S25792) (k0_off57 i) S1.size (k0_off57_inb i)).toLoadRect (harg2.unread x2) (Shape.Idx.first (numel1_S1.symm ▸ Nat.one_pos)))
  h30 : k0_chk30 (arg2.view.readAt (Elt F) (Rect.unit (s := S25792) (k0_off59 i) S1.size (k0_off59_inb i)).toLoadRect (harg2.unread x2) (Shape.Idx.first (numel1_S1.symm ▸ Nat.one_pos)))
  h31 : k0_chk31 (arg2.view.readAt (Elt F) (Rect.unit (s := S25792) (k0_off61 i) S1.size (k0_off61_inb i)).toLoadRect (harg2.unread x2) (Shape.Idx.first (numel1_S1.symm ▸ Nat.one_pos)))
  h32 : k0_chk32 (arg2.view.readAt (Elt F) (Rect.unit (s := S25792) (k0_off63 i) S1.size (k0_off63_inb i)).toLoadRect (harg2.unread x2) (Shape.Idx.first (numel1_S1.symm ▸ Nat.one_pos)))

set_option maxHeartbeats 1000000 in

noncomputable def kernelRun0_A (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : cond0_0 i) (hc1 : ¬cond0_1 i)
    (x2 : Vec F S25792 .i32) (x3 : Vec F S1x4096 .f32) (x4 : Vec F S4096 .i32)
    (hks : Hw0 i arg2 harg2 x2) :
    { LS : List (View.Piece (Elt F) S1x100096 .f32) //
      ∀ (xi5 : Vec F S1x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ (∃ d, owns (c : Thread nD τ) arg6 fullShare d)
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (∃ f, arg6.view.loc (c : Thread nD τ) ↦[arg6.view.set]{fullShare} arg6.view.writes (Elt F) f LS)) -∗ K ⟨⟩))
          ⊢ wp frame (wpE (defs₀ (F := F)) 𝒱₀ c none) E (cc0__scatter_kernel i arg2 harg2 arg3 harg3 arg4 harg4 arg5 harg5 arg6 harg6) K } := by
  have k0_hw1 := hks.h1
  have k0_hw2 := hks.h2
  have k0_hw3 := hks.h3
  have k0_hw4 := hks.h4
  have k0_hw5 := hks.h5
  have k0_hw6 := hks.h6
  have k0_hw7 := hks.h7
  have k0_hw8 := hks.h8
  have k0_hw9 := hks.h9
  have k0_hw10 := hks.h10
  have k0_hw11 := hks.h11
  have k0_hw12 := hks.h12
  have k0_hw13 := hks.h13
  have k0_hw14 := hks.h14
  have k0_hw15 := hks.h15
  have k0_hw16 := hks.h16
  have k0_hw17 := hks.h17
  have k0_hw18 := hks.h18
  have k0_hw19 := hks.h19
  have k0_hw20 := hks.h20
  have k0_hw21 := hks.h21
  have k0_hw22 := hks.h22
  have k0_hw23 := hks.h23
  have k0_hw24 := hks.h24
  have k0_hw25 := hks.h25
  have k0_hw26 := hks.h26
  have k0_hw27 := hks.h27
  have k0_hw28 := hks.h28
  have k0_hw29 := hks.h29
  have k0_hw30 := hks.h30
  have k0_hw31 := hks.h31
  have k0_hw32 := hks.h32
  refine ⟨?_, fun xi5 E K => ?run⟩
  case run =>
    simp only [cc0__scatter_kernel_eq_skeleton]; unfold cc0__scatter_kernel_skel
    unfold owns
    iintro ⟨⟨%f2, %hf2, H2⟩, ⟨%f3, %hf3, H3⟩, ⟨%f4, %hf4, H4⟩, ⟨%f5, %hf5, H5⟩, ⟨%ds, %fs, -, HS⟩, Hk⟩
    obtain rfl := harg2.eq_unread hf2; obtain rfl := harg3.eq_unread hf3; obtain rfl := harg4.eq_unread hf4; obtain rfl := harg5.eq_unread hf5
    sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact HS

set_option maxHeartbeats 1000000 in

noncomputable def kernelRun0_B (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond0_0 i) (hc1 : ¬cond0_1 i)
    (x2 : Vec F S25792 .i32) (x3 : Vec F S1x4096 .f32) (x4 : Vec F S4096 .i32) (xs : Vec F S1x100096 .f32)
    (hks : Hw0 i arg2 harg2 x2) :
    { LS : List (View.Piece (Elt F) S1x100096 .f32) //
      ∀ (xi5 : Vec F S1x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xs
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc0__scatter_kernel i arg2 harg2 arg3 harg3 arg4 harg4 arg5 harg5 arg6 harg6) K } := by
  have k0_hw1 := hks.h1
  have k0_hw2 := hks.h2
  have k0_hw3 := hks.h3
  have k0_hw4 := hks.h4
  have k0_hw5 := hks.h5
  have k0_hw6 := hks.h6
  have k0_hw7 := hks.h7
  have k0_hw8 := hks.h8
  have k0_hw9 := hks.h9
  have k0_hw10 := hks.h10
  have k0_hw11 := hks.h11
  have k0_hw12 := hks.h12
  have k0_hw13 := hks.h13
  have k0_hw14 := hks.h14
  have k0_hw15 := hks.h15
  have k0_hw16 := hks.h16
  have k0_hw17 := hks.h17
  have k0_hw18 := hks.h18
  have k0_hw19 := hks.h19
  have k0_hw20 := hks.h20
  have k0_hw21 := hks.h21
  have k0_hw22 := hks.h22
  have k0_hw23 := hks.h23
  have k0_hw24 := hks.h24
  have k0_hw25 := hks.h25
  have k0_hw26 := hks.h26
  have k0_hw27 := hks.h27
  have k0_hw28 := hks.h28
  have k0_hw29 := hks.h29
  have k0_hw30 := hks.h30
  have k0_hw31 := hks.h31
  have k0_hw32 := hks.h32
  refine ⟨?_, fun xi5 E K => ?run⟩
  case run =>
    simp only [cc0__scatter_kernel_eq_skeleton]; unfold cc0__scatter_kernel_skel
    unfold owns
    iintro ⟨⟨%f2, %hf2, H2⟩, ⟨%f3, %hf3, H3⟩, ⟨%f4, %hf4, H4⟩, ⟨%f5, %hf5, H5⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hfs
    sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexact HS

set_option maxHeartbeats 1000000 in

noncomputable def kernelRun0_C (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond0_0 i) (hc1 : cond0_1 i)
    (x2 : Vec F S25792 .i32) (x3 : Vec F S1x4096 .f32) (x4 : Vec F S4096 .i32) (xs : Vec F S1x100096 .f32)
    (hks : Hw0 i arg2 harg2 x2) :
    Σ' (L5 : List (View.Piece (Elt F) S1x100096 .f32)), { LS : List (View.Piece (Elt F) S1x100096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare xs
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc0__scatter_kernel i arg2 harg2 arg3 harg3 arg4 harg4 arg5 harg5 arg6 harg6) K } := by
  have k0_hw1 := hks.h1
  have k0_hw2 := hks.h2
  have k0_hw3 := hks.h3
  have k0_hw4 := hks.h4
  have k0_hw5 := hks.h5
  have k0_hw6 := hks.h6
  have k0_hw7 := hks.h7
  have k0_hw8 := hks.h8
  have k0_hw9 := hks.h9
  have k0_hw10 := hks.h10
  have k0_hw11 := hks.h11
  have k0_hw12 := hks.h12
  have k0_hw13 := hks.h13
  have k0_hw14 := hks.h14
  have k0_hw15 := hks.h15
  have k0_hw16 := hks.h16
  have k0_hw17 := hks.h17
  have k0_hw18 := hks.h18
  have k0_hw19 := hks.h19
  have k0_hw20 := hks.h20
  have k0_hw21 := hks.h21
  have k0_hw22 := hks.h22
  have k0_hw23 := hks.h23
  have k0_hw24 := hks.h24
  have k0_hw25 := hks.h25
  have k0_hw26 := hks.h26
  have k0_hw27 := hks.h27
  have k0_hw28 := hks.h28
  have k0_hw29 := hks.h29
  have k0_hw30 := hks.h30
  have k0_hw31 := hks.h31
  have k0_hw32 := hks.h32
  refine ⟨?_, ?_, fun E K => ?run⟩
  case run =>
    simp only [cc0__scatter_kernel_eq_skeleton]; unfold cc0__scatter_kernel_skel
    unfold owns
    iintro ⟨⟨%f2, %hf2, H2⟩, ⟨%f3, %hf3, H3⟩, ⟨%f4, %hf4, H4⟩, ⟨%d5, %f5, -, H5⟩, ⟨%fs, %hfs, HS⟩, Hk⟩
    obtain rfl := harg2.eq_unread hf2; obtain rfl := harg3.eq_unread hf3; obtain rfl := harg4.eq_unread hf4; obtain rfl := harg6.eq_unread hfs
    sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexact HS

end Cert.Kernel.Hand

end
-- ==== Proof.K.Body0Cover.lean ====
import proofs.«401711_j53747220742790_3_alg».proof.Proof.K.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

theorem mem_whole_S1x100096 (y : S1x100096.Idx) :
    y ∈ (Rect.unit (s := S1x100096) ![0, 0] S1x100096.size inb_S1x100096_S1x100096_0_0).set := by
  rw [Rect.mem_set_unit]
  intro a
  have h0 : (![0, 0] : Fin 2 → ℕ) a = 0 := by fin_cases a <;> rfl
  rw [h0, Nat.zero_add]
  exact ⟨Nat.zero_le _, (y a).isLt⟩

theorem scover0_A (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : cond0_0 i) (hc1 : ¬cond0_1 i)
    (x2 : Vec F S25792 .i32) (x3 : Vec F S1x4096 .f32) (x4 : Vec F S4096 .i32)
    (hks : Hw0 i arg2 harg2 x2) (y : S1x100096.Idx) :
    ∃ pc ∈ (kernelRun0_A (Ix := Ix) (U := U) (Lvl := Lvl) 𝒱₀ c i arg2 harg2 arg3 harg3 arg4 harg4 arg5 harg5 arg6 harg6 hc0 hc1 x2 x3 x4 hks).1, y ∈ pc.1.set := by
  refine ⟨⟨Rect.unit (s := S1x100096) ![0, 0] S1x100096.size inb_S1x100096_S1x100096_0_0, k0_pay2 (F := F)⟩, ?_, mem_whole_S1x100096 y⟩
  apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem
  exact List.mem_cons_self

theorem cover0_C (𝒱₀ : Variants) (c : Dev nD) (i : grid0.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond0_0 i) (hc1 : cond0_1 i)
    (x2 : Vec F S25792 .i32) (x3 : Vec F S1x4096 .f32) (x4 : Vec F S4096 .i32) (xs : Vec F S1x100096 .f32)
    (hks : Hw0 i arg2 harg2 x2) (y : S1x100096.Idx) :
    ∃ pc ∈ (kernelRun0_C (Ix := Ix) (U := U) (Lvl := Lvl) 𝒱₀ c i arg2 harg2 arg3 harg3 arg4 harg4 arg5 harg5 arg6 harg6 hc0 hc1 x2 x3 x4 xs hks).1, y ∈ pc.1.set :=
  ⟨_, List.mem_cons_self, mem_whole_S1x100096 y⟩

end Cert.Kernel.Hand

end
-- ==== Proof.K.Region0.lean ====
import proofs.«401711_j53747220742790_3_alg».proof.Proof.K.Common
import proofs.«401711_j53747220742790_3_alg».proof.Proof.K.Body0Cover
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem word_ok0 {arg2 : Memref sig .tc .smem S25792 .i32} (harg2 : arg2.IsWhole) (x2 : Vec F S25792 .i32) (h : TblOk x2)
    (r : LoadRect S25792) (j : r.shape.Idx) :
    128 ∣ (arg2.view.readAt (Elt F) r (harg2.unread x2) j).toNat ∧ (arg2.view.readAt (Elt F) r (harg2.unread x2) j).toNat + 256 ≤ 100096 := by
  rw [View.readAt_apply, harg2.read_unread]; exact h _

-- A base word that is a multiple of 128 with its 256 lanes inside the accumulator's satisfies every window's bound.
theorem chk0_ok {w : BitVec 32} (h : 128 ∣ w.toNat ∧ w.toNat + 256 ≤ 100096) :
    128 ∣ w.toNat ∧ ∀ a : Fin 2, (![0, w.toNat] : Fin 2 → ℕ) a + S1x256.size a ≤ S1x100096.size a :=
  ⟨h.1, fun a => by fin_cases a <;> first | exact h.2 | exact Nat.le_refl _⟩

theorem hks0 {arg2 : Memref sig .tc .smem S25792 .i32} (harg2 : arg2.IsWhole) (x2 : Vec F S25792 .i32) (h : TblOk x2)
    (i : grid0.Coords) : Hw0 i arg2 harg2 x2 :=
  ⟨chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _), chk0_ok (word_ok0 harg2 x2 h _ _)⟩

theorem idleB0_0 : ∀ t : Fin grid0.N, idle0 0 (grid0.coords t) = false := by decide +kernel
theorem idleB0_1 : ∀ t : Fin grid0.N, idle0 1 (grid0.coords t) = false := by decide +kernel
theorem idleB0_2 : ∀ t : Fin grid0.N, idle0 2 (grid0.coords t) = !decide (t.val % 403 = 402) := by decide +kernel
theorem noFlushB0_2 : ∀ t : Fin grid0.N, ¬ t.val % 403 = 402 → (t.val + 1 = grid0.N || decide (∃ h : t.val + 1 < grid0.N, cc0_transform_2 (grid0.coords ⟨t.val + 1, h⟩) ≠ cc0_transform_2 (grid0.coords t))) = false := by decide +kernel

section Layout
variable (a : (pcfg0 (F := F)).Adm)

theorem noFlush0_2 (t : Fin (cfg0 a).N) (h : ¬ t.val % 403 = 402) : ((cfg0 a).win 2).flush t = false := noFlushB0_2 t h

theorem liveAt0_0 (t : Fin (cfg0 a).N) : (cfg0 a).idle 0 ((cfg0 a).grid.coords t) = false := idleB0_0 t
theorem liveAt0_1 (t : Fin (cfg0 a).N) : (cfg0 a).idle 1 ((cfg0 a).grid.coords t) = false := idleB0_1 t

theorem idleAt0_2 (t : Fin (cfg0 a).N) (h : ¬ t.val % 403 = 402) : (cfg0 a).idle 2 ((cfg0 a).grid.coords t) = true := by
  rw [show (cfg0 a).idle 2 ((cfg0 a).grid.coords t) = idle0 2 (grid0.coords t) from rfl, idleB0_2 t, decide_eq_false h]; rfl
theorem liveAt0_2 (t : Fin (cfg0 a).N) (h : t.val % 403 = 402) : (cfg0 a).idle 2 ((cfg0 a).grid.coords t) = false := by
  rw [show (cfg0 a).idle 2 ((cfg0 a).grid.coords t) = idle0 2 (grid0.coords t) from rfl, idleB0_2 t, decide_eq_true h]; rfl

abbrev ms0_0 (t : Fin (cfg0 a).N) : Memref sig .tc .vmem S1x4096 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S4096 .i32 := spec0_1.stage ((cfg0 a).slots t 1)
abbrev hs0_1 (t : Fin (cfg0 a).N) : (ms0_1 a t).IsWhole := hstage0_1 (((cfg0 a).slots t 1).cast nbuf0_1)
abbrev ms0_2 (t : Fin (cfg0 a).N) : Memref sig .tc .vmem S1x100096 .f32 := spec0_2.stage ((cfg0 a).slots t 2)
abbrev hs0_2 (t : Fin (cfg0 a).N) : (ms0_2 a t).IsWhole := hstage0_2 (((cfg0 a).slots t 2).cast nbuf0_2)

abbrev tbM0 : Memref sig .tc .smem S25792 .i32 := Memref.whole main_v44
abbrev scM0 : Memref sig .tc .vmem S1x100096 .f32 := Memref.whole cc0_scratch0

abbrev VS0 : View sig .tc .vmem S1x100096 .f32 := scM0.view

abbrev VO0 : View sig .tc .vmem S1x100096 .f32 := (Memref.whole cc0_stg2_0 : Memref sig .tc .vmem S1x100096 .f32).view

abbrev bodyAt0 (t : Fin (cfg0 a).N) : Prog (TpuEff nD τ sig (Elt F) Λ₀ .tc) PUnit :=
  cc0__scatter_kernel (grid0.coords t) tbM0 (Memref.isWhole_whole _) (ms0_0 a t) (hs0_0 a t) (ms0_1 a t) (hs0_1 a t) (ms0_2 a t) (hs0_2 a t) scM0 (Memref.isWhole_whole _)

end Layout

section Region
variable (V : Dev nD → Valuation τ sig (Elt F)) (a : (pcfg0 (F := F)).Adm) (htbl : TblOk (a.1 0))

abbrev VR0 (c : Dev nD) (b : Ref sig .tc) : Buf (Elt F) ((c : Thread nD τ).loc b) := V c (Proc.devRef .tc b)

def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (VR0 V c (Pipeline.arrRef spec0 w))

abbrev run0_A (c : Dev nD) (t : Fin (cfg0 a).N) (h0 : t.val % 403 = 0) :=
  kernelRun0_A (Ix := Unit) (U := UR sig nD τ) (Lvl := ℕ) 𝒱₀ c (grid0.coords t) tbM0 (Memref.isWhole_whole _) (ms0_0 a t) (hs0_0 a t) (ms0_1 a t) (hs0_1 a t) (ms0_2 a t) (hs0_2 a t) scM0 (Memref.isWhole_whole _)
    ((hcond0_0 t).mpr h0) (fun h => by have := (hcond0_1 t).mp h; omega) (a.1 0) (iblk0 V a c 0 t) (iblk0 V a c 1 t)
    (hks0 _ (a.1 0) htbl _)

abbrev run0_B (c : Dev nD) (t : Fin (cfg0 a).N) (h0 : ¬t.val % 403 = 0) (h1 : ¬t.val % 403 = 402) (xs : Vec F S1x100096 .f32) :=
  kernelRun0_B (Ix := Unit) (U := UR sig nD τ) (Lvl := ℕ) 𝒱₀ c (grid0.coords t) tbM0 (Memref.isWhole_whole _) (ms0_0 a t) (hs0_0 a t) (ms0_1 a t) (hs0_1 a t) (ms0_2 a t) (hs0_2 a t) scM0 (Memref.isWhole_whole _)
    (fun h => h0 ((hcond0_0 t).mp h)) (fun h => h1 ((hcond0_1 t).mp h)) (a.1 0) (iblk0 V a c 0 t) (iblk0 V a c 1 t) xs
    (hks0 _ (a.1 0) htbl _)

abbrev run0_C (c : Dev nD) (t : Fin (cfg0 a).N) (h1 : t.val % 403 = 402) (xs : Vec F S1x100096 .f32) :=
  kernelRun0_C (Ix := Unit) (U := UR sig nD τ) (Lvl := ℕ) 𝒱₀ c (grid0.coords t) tbM0 (Memref.isWhole_whole _) (ms0_0 a t) (hs0_0 a t) (ms0_1 a t) (hs0_1 a t) (ms0_2 a t) (hs0_2 a t) scM0 (Memref.isWhole_whole _)
    (fun h => by have := (hcond0_0 t).mp h; omega) ((hcond0_1 t).mpr h1) (a.1 0) (iblk0 V a c 0 t) (iblk0 V a c 1 t) xs
    (hks0 _ (a.1 0) htbl _)

def sout0_A (c : Dev nD) (t : Fin (cfg0 a).N) (h0 : t.val % 403 = 0) : Vec F S1x100096 .f32 :=
  VS0.read (Elt F) (VS0.writes (Elt F) VS0.junk (run0_A V a htbl c t h0).1)

def sout0_B (c : Dev nD) (t : Fin (cfg0 a).N) (h0 : ¬t.val % 403 = 0) (h1 : ¬t.val % 403 = 402) (xs : Vec F S1x100096 .f32) : Vec F S1x100096 .f32 :=
  VS0.read (Elt F) (VS0.writes (Elt F) ((Memref.isWhole_whole cc0_scratch0).unread xs) (run0_B V a htbl c t h0 h1 xs).1)

def sout0_C (c : Dev nD) (t : Fin (cfg0 a).N) (h1 : t.val % 403 = 402) (xs : Vec F S1x100096 .f32) : Vec F S1x100096 .f32 :=
  VS0.read (Elt F) (VS0.writes (Elt F) ((Memref.isWhole_whole cc0_scratch0).unread xs) (run0_C V a htbl c t h1 xs).2.1)

def out0_C (c : Dev nD) (t : Fin (cfg0 a).N) (h1 : t.val % 403 = 402) (xs : Vec F S1x100096 .f32) : Vec F S1x100096 .f32 :=
  VO0.read (Elt F) (VO0.writes (Elt F) VO0.junk (run0_C V a htbl c t h1 xs).1)

def scrAt0 (c : Dev nD) : (n : ℕ) → n < (cfg0 a).N → Vec F S1x100096 .f32
  | 0, hn => sout0_A V a htbl c ⟨0, hn⟩ (Nat.zero_mod _)
  | n + 1, hn =>
    if h0 : (n + 1) % 403 = 0 then sout0_A V a htbl c ⟨n + 1, hn⟩ h0
    else if h1 : (n + 1) % 403 = 402 then sout0_C V a htbl c ⟨n + 1, hn⟩ h1 (scrAt0 c n (Nat.lt_of_succ_lt hn))
    else sout0_B V a htbl c ⟨n + 1, hn⟩ h0 h1 (scrAt0 c n (Nat.lt_of_succ_lt hn))

abbrev prev0 (c : Dev nD) (t : Fin (cfg0 a).N) : Vec F S1x100096 .f32 :=
  scrAt0 V a htbl c (t.val - 1) (Nat.lt_of_le_of_lt (Nat.sub_le _ _) t.isLt)

theorem scrAt0_A (c : Dev nD) (t : Fin (cfg0 a).N) (h0 : t.val % 403 = 0) :
    scrAt0 V a htbl c t.val t.isLt = sout0_A V a htbl c t h0 := by
  obtain ⟨n, hn⟩ := t
  cases n with
  | zero => rfl
  | succ n => exact dif_pos h0

theorem scrAt0_B (c : Dev nD) (t : Fin (cfg0 a).N) (h0 : ¬t.val % 403 = 0) (h1 : ¬t.val % 403 = 402) :
    scrAt0 V a htbl c t.val t.isLt = sout0_B V a htbl c t h0 h1 (prev0 V a htbl c t) := by
  obtain ⟨n, hn⟩ := t
  cases n with
  | zero => exact absurd (Nat.zero_mod _) h0
  | succ n => exact (dif_neg h0).trans (dif_neg h1)

theorem scrAt0_C (c : Dev nD) (t : Fin (cfg0 a).N) (h1 : t.val % 403 = 402) :
    scrAt0 V a htbl c t.val t.isLt = sout0_C V a htbl c t h1 (prev0 V a htbl c t) := by
  obtain ⟨n, hn⟩ := t
  cases n with
  | zero => exact absurd ((Nat.zero_mod 403).symm.trans h1) (by decide)
  | succ n =>
    have h1' : (n + 1) % 403 = 402 := h1
    exact (dif_neg (by omega)).trans (dif_pos h1)

def outAt0 (c : Dev nD) (t : Fin (cfg0 a).N) : Vec F S1x100096 .f32 :=
  if h1 : t.val % 403 = 402 then out0_C V a htbl c t h1 (prev0 V a htbl c t) else scrAt0 V a htbl c t.val t.isLt

theorem outAt0_C (c : Dev nD) (t : Fin (cfg0 a).N) (h1 : t.val % 403 = 402) :
    outAt0 V a htbl c t = out0_C V a htbl c t h1 (prev0 V a htbl c t) := dif_pos h1

def restS0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ restS0 c) := by
  unfold Pipeline.scopedRest restS0
  rw [BI.bigSep_erase (i := cc0_scratch0) (by decide)]
  simp only [scM0, owns_whole]; try rfl

def PhiS0 (c : Dev nD) : (n : ℕ) → n ≤ (cfg0 a).N → sProp 𝕄
  | 0, _ => iprop(owns (c : Thread nD τ) tbM0 fullShare (a.1 0) ∗ (∃ d, owns (c : Thread nD τ) scM0 fullShare d) ∗ restS0 c ∗ ∃ r, prngReg c r)
  | n + 1, hn => iprop(owns (c : Thread nD τ) tbM0 fullShare (a.1 0) ∗ owns (c : Thread nD τ) scM0 fullShare (scrAt0 V a htbl c n hn) ∗ restS0 c ∗ ∃ r, prngReg c r)

theorem PhiS0_zero (c : Dev nD) (n : ℕ) (h : n ≤ (cfg0 a).N) (hz : n = 0) :
    PhiS0 V a htbl c n h = iprop(owns (c : Thread nD τ) tbM0 fullShare (a.1 0) ∗ (∃ d, owns (c : Thread nD τ) scM0 fullShare d) ∗ restS0 c ∗ ∃ r, prngReg c r) := by
  subst hz; rfl

theorem PhiS0_succ (c : Dev nD) (n : ℕ) (hn : n < (cfg0 a).N) :
    PhiS0 V a htbl c (n + 1) hn = iprop(owns (c : Thread nD τ) tbM0 fullShare (a.1 0) ∗ owns (c : Thread nD τ) scM0 fullShare (scrAt0 V a htbl c n hn) ∗ restS0 c ∗ ∃ r, prngReg c r) := rfl

theorem PhiS0_pos (c : Dev nD) (n : ℕ) (h : n ≤ (cfg0 a).N) (hz : n ≠ 0) :
    PhiS0 V a htbl c n h = iprop(owns (c : Thread nD τ) tbM0 fullShare (a.1 0) ∗ owns (c : Thread nD τ) scM0 fullShare (scrAt0 V a htbl c (n - 1) (by omega)) ∗ restS0 c ∗ ∃ r, prngReg c r) := by
  cases n with
  | zero => exact absurd rfl hz
  | succ n => rfl

def dat0 (c : Dev nD) : Dat τ (Elt F) Unit ℕ (UR sig nD τ) ℕ (cfg0 a) c where
  A w := VR0 V c (Pipeline.arrRef spec0 w)
  after w t := match w with
    | 0 => iblk0 V a c 0 t
    | 1 => iblk0 V a c 1 t
    | 2 => outAt0 V a htbl c t
    | ⟨_ + 3, h⟩ => absurd h (Nat.not_lt.2 (Nat.le_add_left _ _))
  Φ t := PhiS0 V a htbl c t.val (Nat.le_of_lt_succ t.isLt)
  q _ := fullShare
  owed _ := 0

theorem A_eq0 (c : Dev nD) (w : Fin (cfg0 a).W) : (dat0 V a htbl c).A w = VR0 V c (Pipeline.arrRef spec0 w) := by
  dsimp only [dat0]

theorem PhiS0_castSucc (c : Dev nD) (t : Fin (cfg0 a).N) :
    (dat0 V a htbl c).Φ t.castSucc = PhiS0 V a htbl c t.val (Nat.le_of_lt t.isLt) := by
  dsimp only [dat0]; simp only [Fin.coe_castSucc]

theorem after0_0 (c : Dev nD) (t : Fin (cfg0 a).N) : (dat0 V a htbl c).after 0 t = iblk0 V a c 0 t := by dsimp only [dat0]; rfl
theorem after0_1 (c : Dev nD) (t : Fin (cfg0 a).N) : (dat0 V a htbl c).after 1 t = iblk0 V a c 1 t := by dsimp only [dat0]; rfl
theorem after0_2 (c : Dev nD) (t : Fin (cfg0 a).N) : (dat0 V a htbl c).after 2 t = outAt0 V a htbl c t := by dsimp only [dat0]; rfl

theorem before0_0 (c : Dev nD) (t : Fin (cfg0 a).N) (d) : (dat0 V a htbl c).before 0 t d = iblk0 V a c 0 t :=
  ((dat0 V a htbl c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin (cfg0 a).N) (d) : (dat0 V a htbl c).before 1 t d = iblk0 V a c 1 t :=
  ((dat0 V a htbl c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

def bodyPre0 (c : Dev nD) (t : Fin (cfg0 a).N) : sProp 𝕄 :=
  iprop((dat0 V a htbl c).Φ t.castSucc ∗ (dat0 V a htbl c).owesAt () t.castSucc
    ∗ (∃ d, owns (c : Thread nD τ) (ms0_0 a t) fullShare ((dat0 V a htbl c).before 0 t d))
    ∗ (∃ d, owns (c : Thread nD τ) (ms0_1 a t) fullShare ((dat0 V a htbl c).before 1 t d))
    ∗ (∃ d, owns (c : Thread nD τ) (ms0_2 a t) fullShare ((dat0 V a htbl c).before 2 t d)))

def bodyPost0 (c : Dev nD) (t : Fin (cfg0 a).N) : sProp 𝕄 :=
  iprop((dat0 V a htbl c).Φ t.succ ∗ (dat0 V a htbl c).owesAt () t.succ
    ∗ (dat0 V a htbl c).leavesExact 0 t
    ∗ (dat0 V a htbl c).leavesExact 1 t
    ∗ (dat0 V a htbl c).leavesExact 2 t)

set_option maxHeartbeats 4000000 in

theorem sound_body0 (c : Dev nD) (t : Fin (cfg0 a).N) :
    bodyPre0 V a htbl c t ⊢ wp frame (wpE (defs₀ (F := F)) 𝒱₀ c none) Set.univ (bodyAt0 a t) (fun _ => bodyPost0 V a htbl c t) := by
  unfold bodyPre0 bodyPost0 bodyAt0
  simp only [before0_0, before0_1]
  rw [show (dat0 V a htbl c).owesAt () t.succ = (dat0 V a htbl c).owesAt () t.castSucc from rfl]
  rw [show (dat0 V a htbl c).Φ t.succ = PhiS0 V a htbl c (t.val + 1) t.isLt from rfl, PhiS0_succ]
  rw [show (dat0 V a htbl c).leavesExact 0 t = owns (c : Thread nD τ) (ms0_0 a t) fullShare ((dat0 V a htbl c).after 0 t) from by
    unfold Dat.leavesExact; rw [liveAt0_0 a t]; rfl, after0_0]
  rw [show (dat0 V a htbl c).leavesExact 1 t = owns (c : Thread nD τ) (ms0_1 a t) fullShare ((dat0 V a htbl c).after 1 t) from by
    unfold Dat.leavesExact; rw [liveAt0_1 a t]; rfl, after0_1]
  by_cases h0 : t.val % 403 = 0
  · have h1 : ¬t.val % 403 = 402 := by omega
    rw [Dat.leavesExact_idle (dat0 V a htbl c) 2 t (idleAt0_2 a t h1) (noFlush0_2 a t h1)]
    rw [scrAt0_A V a htbl c t h0]
    unfold sout0_A
    by_cases hz : t.val = 0
    · rw [PhiS0_castSucc V a htbl c t, PhiS0_zero V a htbl c _ _ hz]
      iintro ⟨⟨Htb, HS, Hrest, Hg⟩, Ho, ⟨%d0, H0⟩, ⟨%d1, H1⟩, ⟨%d2, H2⟩⟩
      iapply ((run0_A V a htbl c t h0).2 _ Set.univ _)
      isplitl [Htb]; · iexact Htb
      isplitl [H0]; · iexact H0
      isplitl [H1]; · iexact H1
      isplitl [H2]; · iexact H2
      isplitl [HS]; · iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover0_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
    · rw [PhiS0_castSucc V a htbl c t, PhiS0_pos V a htbl c _ _ hz]
      iintro ⟨⟨Htb, HS, Hrest, Hg⟩, Ho, ⟨%d0, H0⟩, ⟨%d1, H1⟩, ⟨%d2, H2⟩⟩
      iapply ((run0_A V a htbl c t h0).2 _ Set.univ _)
      isplitl [Htb]; · iexact Htb
      isplitl [H0]; · iexact H0
      isplitl [H1]; · iexact H1
      isplitl [H2]; · iexact H2
      isplitl [HS]; · iexists _; iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover0_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
  · have hz : t.val ≠ 0 := fun hz => h0 (by rw [hz])
    rw [PhiS0_castSucc V a htbl c t, PhiS0_pos V a htbl c _ _ hz]
    by_cases h1 : t.val % 403 = 402
    · rw [show (dat0 V a htbl c).leavesExact 2 t = owns (c : Thread nD τ) (ms0_2 a t) fullShare ((dat0 V a htbl c).after 2 t) from by
        unfold Dat.leavesExact; rw [liveAt0_2 a t h1]; rfl, after0_2, outAt0_C V a htbl c t h1]
      rw [scrAt0_C V a htbl c t h1]
      unfold sout0_C out0_C
      iintro ⟨⟨Htb, HS, Hrest, Hg⟩, Ho, ⟨%d0, H0⟩, ⟨%d1, H1⟩, ⟨%d2, H2⟩⟩
      iapply ((run0_C V a htbl c t h1 (prev0 V a htbl c t)).2.2 Set.univ _)
      isplitl [Htb]; · iexact Htb
      isplitl [H0]; · iexact H0
      isplitl [H1]; · iexact H1
      isplitl [H2]; · iexists _; iexact H2
      isplitl [HS]; · iexact HS
      iintro ⟨Htb, H0, H1, ⟨%e5, H2⟩, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (fun y => cover0_C (Ix := Unit) (U := UR sig nD τ) (Lvl := ℕ) ..)
    · rw [Dat.leavesExact_idle (dat0 V a htbl c) 2 t (idleAt0_2 a t h1) (noFlush0_2 a t h1)]
      rw [scrAt0_B V a htbl c t h0 h1]
      unfold sout0_B
      iintro ⟨⟨Htb, HS, Hrest, Hg⟩, Ho, ⟨%d0, H0⟩, ⟨%d1, H1⟩, ⟨%d2, H2⟩⟩
      iapply ((run0_B V a htbl c t h0 h1 (prev0 V a htbl c t)).2 _ Set.univ _)
      isplitl [Htb]; · iexact Htb
      isplitl [H0]; · iexact H0
      isplitl [H1]; · iexact H1
      isplitl [H2]; · iexact H2
      isplitl [HS]; · iexact HS
      iintro ⟨Htb, H0, H1, H2, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      iexists _; iexact H2

theorem body_obligation0 (c : Dev nD) : BodyObligation (dat0 V a htbl c) (defs₀ (F := F)) 𝒱₀ () Set.univ := fun t => by
  rw [bigSep_W0, bigSep_W0]
  exact sound_body0 V a htbl c t

end Region

section Seg

theorem prefHeld0_eq_owns (c : Dev nD) (T : pre0.Contents (Elt F)) :
    (Pipeline.prefHeld (Ix := Unit) (Name := ℕ) (U := UR sig nD τ) (Lvl := ℕ) pre0 c (fun _ => fullShare) T : sProp 𝕄)
      = owns (c : Thread nD τ) tbM0 fullShare (T 0) := by
  unfold Pipeline.prefHeld
  rw [show (Finset.univ : Finset (Fin pre0.K)) = {0} from rfl, BI.bigSep_singleton]
  exact (owns_whole (c : Thread nD τ) main_v44 fullShare (T 0)).symm

theorem arrRef0_0_ne : (Proc.devRef .tc (Pipeline.arrRef spec0 (0 : Fin 3)) : DevRef τ sig) ≠ Proc.devRef .tc main_v47 :=
  StableHlo.devRef_ne_of_ne (by decide)
theorem arrRef0_1_ne : (Proc.devRef .tc (Pipeline.arrRef spec0 (1 : Fin 3)) : DevRef τ sig) ≠ Proc.devRef .tc main_v47 :=
  StableHlo.devRef_ne_of_ne (by decide)

theorem update0_arr (Vc : Valuation τ sig (Elt F)) (X : (Proc.devRef (τ := τ) .tc main_v47).ty.Contents (Elt F)) :
    Function.update Vc (Proc.devRef .tc main_v47) X (Proc.devRef .tc (Pipeline.arrRef spec0 (2 : Fin 3))) = X :=
  Function.update_self ..

variable (V : Dev nD → Valuation τ sig (Elt F)) (a : (p : Fin 3) → (pcfgs (F := F) p).Adm)
  (htbl : TblOk ((a 0).1 0))

abbrev Vout0 (c : Dev nD) : Valuation τ sig (Elt F) :=
  Function.update (V c) main_v47 ((dat0 V (a 0) htbl c).arrAt 2 grid0.N)

theorem hF0 (c : Dev nD) : ∀ w : Fin 3,
    (dat0 V (a 0) htbl c).arrAt w grid0.N = Vout0 V a htbl c (Proc.devRef .tc (Pipeline.arrRef spec0 w))
  | 0 => ((dat0 V (a 0) htbl c).arrAt_in 0 rfl _).trans ((A_eq0 V (a 0) htbl c 0).trans (Function.update_of_ne arrRef0_0_ne _ _).symm)
  | 1 => ((dat0 V (a 0) htbl c).arrAt_in 1 rfl _).trans ((A_eq0 V (a 0) htbl c 1).trans (Function.update_of_ne arrRef0_1_ne _ _).symm)
  | 2 => (update0_arr (V c) _).symm
  | ⟨_ + 3, h⟩ => absurd h (Nat.not_lt.2 (Nat.le_add_left _ _))

theorem hrest0 (c : Dev nD) : ∀ b : Ref sig .tc, b ∉ Finset.univ.image (Pipeline.arrRef spec0) →
    Vout0 V a htbl c (Proc.devRef .tc b) = V c (Proc.devRef .tc b) := fun b hb =>
  Function.update_of_ne (StableHlo.devRef_ne_of_ne fun e => hb (Finset.mem_image.mpr ⟨2, Finset.mem_univ _, e.symm⟩)) _ _

set_option backward.isDefEq.respectTransparency.types false in

def reg0 (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 0).1 0))
    (hV : ∀ (c : Dev nD) (k : Fin 1), (a 0).1 k = V c (Proc.devRef .tc (pre0.ref k)))
    (hd : ∀ c : Dev nD, pdats 0 c = dat0 V (a 0) htbl c) :
    Pipeline.RegionSeg (pcfgs (F := F)) a pdats () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := by rw [hd c]; exact (body_obligation0 V (a 0) htbl c).loose
  hwaits := Pipeline.hwaits_of_owed_zero _ _ _ _ L lv 0 fun c t => by rw [hd c]; rfl
  pre c := iprop(StableHlo.held (c : Thread nD τ) (Pipeline.ucRefs τ sig) (V c) ∗ R c)
  post c := iprop(StableHlo.held (c : Thread nD τ) (Pipeline.ucRefs τ sig) (Vout0 V a htbl c) ∗ R c)
  X c := iprop(∃ r, prngReg c r)
  Y c := iprop(owns (c : Thread nD τ) tbM0 fullShare ((a 0).1 0) ∗ ∃ r, prngReg c r)
  Z c := Pipeline.unscopedRestP (Ix := Unit) (Name := ℕ) (U := UR sig nD τ) (Lvl := ℕ) pre0 spec0 c (VR0 V c)
  hentry c := by
    have hsplit : (StableHlo.held (c : Thread nD τ) (Pipeline.ucRefs τ sig) (V c) : sProp 𝕄)
        ⊢ iprop((dat0 V (a 0) htbl c).arrays ((dat0 V (a 0) htbl c).arrAt · 0)
            ∗ Pipeline.prefHeld pre0 c (fun _ => fullShare) (a 0).1 ∗ Pipeline.unscopedRestP pre0 spec0 c (VR0 V c)) := by
      have h := Pipeline.arrays_of_unscopedBufs (p := 0) (pcfgs (F := F)) a pdats (launch0 (F := F)).win (launch0 (F := F)).arr_whole c
        (by rw [hd c]; exact (dat0 V (a 0) htbl c).share_full fun _ => rfl) (VR0 V c) (fun w => by rw [hd c]; rfl)
      rw [Pipeline.unscopedBufs_held, Pipeline.unscopedRest_split (launch0 (F := F)).pre c (VR0 V c), hd c] at h
      rw [show (a 0).1 = fun k => VR0 V c (pre0.ref k) from funext (hV c)]
      exact h
    rw [Pipeline.ownSems0_none, hd c]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd c]
    show iprop((∃ r, prngReg c r) ∗ Pipeline.prefHeld pre0 c (fun _ => fullShare) (a 0).1 ∗ Pipeline.scopedRest spec0 c)
      ⊢ PhiS0 V (a 0) htbl c 0 (Nat.zero_le _)
    rw [PhiS0_zero V (a 0) htbl c 0 _ rfl, scopedRest0_split, prefHeld0_eq_owns]
    iintro ⟨Hg, Hpf, HS, Hrest⟩
    isplitl [Hpf]; · iexact Hpf
    isplitl [HS]; · iexact HS
    isplitl [Hrest]; · iexact Hrest
    iexact Hg
  hout c := by
    rw [Pipeline.ownSems0_none, hd c]
    show PhiS0 V (a 0) htbl c (cfg0 (a 0)).N (Nat.le_refl _)
      ⊢ iprop((owns (c : Thread nD τ) tbM0 fullShare ((a 0).1 0) ∗ ∃ r, prngReg c r) ∗ BI.emp ∗ Pipeline.scopedRest spec0 c)
    rw [PhiS0_pos V (a 0) htbl c _ _ (show grid0.N ≠ 0 by decide), scopedRest0_split]
    iintro ⟨Htb, HS, Hrest, Hg⟩
    isplitl [Htb Hg]
    · isplitl [Htb]; · iexact Htb
      iexact Hg
    isplitr; · iempintro
    isplitl [HS]; · iexists _; iexact HS
    iexact Hrest
  hexit c := by
    have hjoin : iprop((dat0 V (a 0) htbl c).arrays ((dat0 V (a 0) htbl c).arrAt · grid0.N)
          ∗ owns (c : Thread nD τ) tbM0 fullShare ((a 0).1 0) ∗ Pipeline.unscopedRestP pre0 spec0 c (VR0 V c))
        ⊢ (StableHlo.held (c : Thread nD τ) (Pipeline.ucRefs τ sig) (Vout0 V a htbl c) : sProp 𝕄) := by
      have h := Pipeline.unscopedBufs_of_arrays (p := 0) (pcfgs (F := F)) a (Ix := Unit) (Name := ℕ) (U := UR sig nD τ) (Lvl := ℕ)
        (launch0 (F := F)).win (launch0 (F := F)).arr_whole c pdats (by rw [hd c]; exact (dat0 V (a 0) htbl c).share_full fun _ => rfl)
        (VR0 V c) (fun b => Vout0 V a htbl c (Proc.devRef .tc b)) ((dat0 V (a 0) htbl c).arrAt · grid0.N)
        (hF0 V a htbl c) (hrest0 V a htbl c)
      rw [Pipeline.unscopedBufs_held, Pipeline.unscopedRest_split (launch0 (F := F)).pre c (VR0 V c), hd c] at h
      rw [← prefHeld0_eq_owns, show (a 0).1 = fun k => VR0 V c (pre0.ref k) from funext (hV c)]
      exact h
    rw [hd c]
    iintro ⟨Ha, HO, ⟨Hpf, Hg⟩, Hrest⟩
    imodintro
    isplitl [Ha Hpf Hrest]
    · iapply hjoin
      isplitl [Ha]; · iexact Ha
      isplitl [Hpf]; · iexact Hpf
      iexact Hrest
    isplitl [Hg]; · iexact Hg
    unfold Pipeline.Dat.owesAt Pipeline.owesWithin
    icases HO with ⟨%W, -, HO⟩; iexists W; iexact HO

theorem reg0_pre (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 0).1 0))
    (hV : ∀ (c : Dev nD) (k : Fin 1), (a 0).1 k = V c (Proc.devRef .tc (pre0.ref k)))
    (hd : ∀ c : Dev nD, pdats 0 c = dat0 V (a 0) htbl c) (c : Dev nD) :
    (reg0 V a pdats htbl hV hd).pre c = iprop(StableHlo.held (c : Thread nD τ) (Pipeline.ucRefs τ sig) (V c) ∗ R c) := rfl
theorem reg0_post (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 0).1 0))
    (hV : ∀ (c : Dev nD) (k : Fin 1), (a 0).1 k = V c (Proc.devRef .tc (pre0.ref k)))
    (hd : ∀ c : Dev nD, pdats 0 c = dat0 V (a 0) htbl c) (c : Dev nD) :
    (reg0 V a pdats htbl hV hd).post c = iprop(StableHlo.held (c : Thread nD τ) (Pipeline.ucRefs τ sig) (Function.update (V c) main_v47 ((dat0 V (a 0) htbl c).arrAt 2 grid0.N)) ∗ R c) := rfl

end Seg

end Cert.Kernel.Hand

end
-- ==== Proof.K.Body1.lean ====
import proofs.«401711_j53747220742790_3_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1

theorem hcond1_0 : ∀ t : Fin grid1.N, cond1_0 (grid1.coords t) ↔ t.val % 403 = 0 := by decide +kernel

theorem hcond1_1 : ∀ t : Fin grid1.N, cond1_1 (grid1.coords t) ↔ t.val % 403 = 402 := by decide +kernel

noncomputable def winUpd1 (base : BitVec 32) (msgc : Vec F S1x128 .f32) (dstc : Vec F S128 .i32) (cur : Vec F S1x256 .f32) : FVec F S1x256 .f32 :=
  have iota0r1 : IVec S256x128 32 := iota .tc S256x128 32 [0] iota_S256x128_d0_w32
  have msg : FVec F S1x128 .f32 := shapeCast S1x128 msgc shapeCasts_S1x128_S1x128
  have dst : IVec S128 32 := shapeCast S128 dstc shapeCasts_S128_S128
  have loc : IVec S128 32 := subi dst (broadcast S128 base)
  have locRow : IVec S1x128 32 := shapeCast S1x128 loc shapeCasts_S128_S1x128
  have hit : IVec S256x128 1 := cmpi .eq iota0r1 (broadcastTo S256x128 locRow broadcasts_S1x128_S256x128)
  have onehot : FVec F S256x128 .f32 := sitofp .f32 (extui 32 hit natLt_1_32)
  have zero : FVec F S1x256 .f32 := constant S1x256 .f32 0x00000000#32
  have acc : FVec F S1x256 .f32 := matmul dot_S1x128_S256x128_S1x256_1_1_0_0_n_n none msg onehot zero
  shapeCast S1x256 (addf cur acc) shapeCasts_S1x256_S1x256

abbrev iota0r1 : IVec S256x128 32 := iota .tc S256x128 32 [0] iota_S256x128_d0_w32

-- Each of the 32 window base words read at point i is a multiple of 128 whose 256 lanes lie inside the accumulator's.
structure Hw1 (i : grid1.Coords) (arg2 : Memref sig .tc .smem S25792 .i32) (harg2 : arg2.IsWhole) (x2 : Vec F S25792 .i32) : Prop where
  h1 : k1_chk1 (arg2.view.readAt (Elt F) (Rect.unit (s := S25792) (k1_off1 i) S1.size (k1_off1_inb i)).toLoadRect (harg2.unread x2) (Shape.Idx.first (numel1_S1.symm ▸ Nat.one_pos)))
  h2 : k1_chk2 (arg2.view.readAt (Elt F) (Rect.unit (s := S25792) (k1_off3 i) S1.size (k1_off3_inb i)).toLoadRect (harg2.unread x2) (Shape.Idx.first (numel1_S1.symm ▸ Nat.one_pos)))
  h3 : k1_chk3 (arg2.view.readAt (Elt F) (Rect.unit (s := S25792) (k1_off5 i) S1.size (k1_off5_inb i)).toLoadRect (harg2.unread x2) (Shape.Idx.first (numel1_S1.symm ▸ Nat.one_pos)))
  h4 : k1_chk4 (arg2.view.readAt (Elt F) (Rect.unit (s := S25792) (k1_off7 i) S1.size (k1_off7_inb i)).toLoadRect (harg2.unread x2) (Shape.Idx.first (numel1_S1.symm ▸ Nat.one_pos)))
  h5 : k1_chk5 (arg2.view.readAt (Elt F) (Rect.unit (s := S25792) (k1_off9 i) S1.size (k1_off9_inb i)).toLoadRect (harg2.unread x2) (Shape.Idx.first (numel1_S1.symm ▸ Nat.one_pos)))
  h6 : k1_chk6 (arg2.view.readAt (Elt F) (Rect.unit (s := S25792) (k1_off11 i) S1.size (k1_off11_inb i)).toLoadRect (harg2.unread x2) (Shape.Idx.first (numel1_S1.symm ▸ Nat.one_pos)))
  h7 : k1_chk7 (arg2.view.readAt (Elt F) (Rect.unit (s := S25792) (k1_off13 i) S1.size (k1_off13_inb i)).toLoadRect (harg2.unread x2) (Shape.Idx.first (numel1_S1.symm ▸ Nat.one_pos)))
  h8 : k1_chk8 (arg2.view.readAt (Elt F) (Rect.unit (s := S25792) (k1_off15 i) S1.size (k1_off15_inb i)).toLoadRect (harg2.unread x2) (Shape.Idx.first (numel1_S1.symm ▸ Nat.one_pos)))
  h9 : k1_chk9 (arg2.view.readAt (Elt F) (Rect.unit (s := S25792) (k1_off17 i) S1.size (k1_off17_inb i)).toLoadRect (harg2.unread x2) (Shape.Idx.first (numel1_S1.symm ▸ Nat.one_pos)))
  h10 : k1_chk10 (arg2.view.readAt (Elt F) (Rect.unit (s := S25792) (k1_off19 i) S1.size (k1_off19_inb i)).toLoadRect (harg2.unread x2) (Shape.Idx.first (numel1_S1.symm ▸ Nat.one_pos)))
  h11 : k1_chk11 (arg2.view.readAt (Elt F) (Rect.unit (s := S25792) (k1_off21 i) S1.size (k1_off21_inb i)).toLoadRect (harg2.unread x2) (Shape.Idx.first (numel1_S1.symm ▸ Nat.one_pos)))
  h12 : k1_chk12 (arg2.view.readAt (Elt F) (Rect.unit (s := S25792) (k1_off23 i) S1.size (k1_off23_inb i)).toLoadRect (harg2.unread x2) (Shape.Idx.first (numel1_S1.symm ▸ Nat.one_pos)))
  h13 : k1_chk13 (arg2.view.readAt (Elt F) (Rect.unit (s := S25792) (k1_off25 i) S1.size (k1_off25_inb i)).toLoadRect (harg2.unread x2) (Shape.Idx.first (numel1_S1.symm ▸ Nat.one_pos)))
  h14 : k1_chk14 (arg2.view.readAt (Elt F) (Rect.unit (s := S25792) (k1_off27 i) S1.size (k1_off27_inb i)).toLoadRect (harg2.unread x2) (Shape.Idx.first (numel1_S1.symm ▸ Nat.one_pos)))
  h15 : k1_chk15 (arg2.view.readAt (Elt F) (Rect.unit (s := S25792) (k1_off29 i) S1.size (k1_off29_inb i)).toLoadRect (harg2.unread x2) (Shape.Idx.first (numel1_S1.symm ▸ Nat.one_pos)))
  h16 : k1_chk16 (arg2.view.readAt (Elt F) (Rect.unit (s := S25792) (k1_off31 i) S1.size (k1_off31_inb i)).toLoadRect (harg2.unread x2) (Shape.Idx.first (numel1_S1.symm ▸ Nat.one_pos)))
  h17 : k1_chk17 (arg2.view.readAt (Elt F) (Rect.unit (s := S25792) (k1_off33 i) S1.size (k1_off33_inb i)).toLoadRect (harg2.unread x2) (Shape.Idx.first (numel1_S1.symm ▸ Nat.one_pos)))
  h18 : k1_chk18 (arg2.view.readAt (Elt F) (Rect.unit (s := S25792) (k1_off35 i) S1.size (k1_off35_inb i)).toLoadRect (harg2.unread x2) (Shape.Idx.first (numel1_S1.symm ▸ Nat.one_pos)))
  h19 : k1_chk19 (arg2.view.readAt (Elt F) (Rect.unit (s := S25792) (k1_off37 i) S1.size (k1_off37_inb i)).toLoadRect (harg2.unread x2) (Shape.Idx.first (numel1_S1.symm ▸ Nat.one_pos)))
  h20 : k1_chk20 (arg2.view.readAt (Elt F) (Rect.unit (s := S25792) (k1_off39 i) S1.size (k1_off39_inb i)).toLoadRect (harg2.unread x2) (Shape.Idx.first (numel1_S1.symm ▸ Nat.one_pos)))
  h21 : k1_chk21 (arg2.view.readAt (Elt F) (Rect.unit (s := S25792) (k1_off41 i) S1.size (k1_off41_inb i)).toLoadRect (harg2.unread x2) (Shape.Idx.first (numel1_S1.symm ▸ Nat.one_pos)))
  h22 : k1_chk22 (arg2.view.readAt (Elt F) (Rect.unit (s := S25792) (k1_off43 i) S1.size (k1_off43_inb i)).toLoadRect (harg2.unread x2) (Shape.Idx.first (numel1_S1.symm ▸ Nat.one_pos)))
  h23 : k1_chk23 (arg2.view.readAt (Elt F) (Rect.unit (s := S25792) (k1_off45 i) S1.size (k1_off45_inb i)).toLoadRect (harg2.unread x2) (Shape.Idx.first (numel1_S1.symm ▸ Nat.one_pos)))
  h24 : k1_chk24 (arg2.view.readAt (Elt F) (Rect.unit (s := S25792) (k1_off47 i) S1.size (k1_off47_inb i)).toLoadRect (harg2.unread x2) (Shape.Idx.first (numel1_S1.symm ▸ Nat.one_pos)))
  h25 : k1_chk25 (arg2.view.readAt (Elt F) (Rect.unit (s := S25792) (k1_off49 i) S1.size (k1_off49_inb i)).toLoadRect (harg2.unread x2) (Shape.Idx.first (numel1_S1.symm ▸ Nat.one_pos)))
  h26 : k1_chk26 (arg2.view.readAt (Elt F) (Rect.unit (s := S25792) (k1_off51 i) S1.size (k1_off51_inb i)).toLoadRect (harg2.unread x2) (Shape.Idx.first (numel1_S1.symm ▸ Nat.one_pos)))
  h27 : k1_chk27 (arg2.view.readAt (Elt F) (Rect.unit (s := S25792) (k1_off53 i) S1.size (k1_off53_inb i)).toLoadRect (harg2.unread x2) (Shape.Idx.first (numel1_S1.symm ▸ Nat.one_pos)))
  h28 : k1_chk28 (arg2.view.readAt (Elt F) (Rect.unit (s := S25792) (k1_off55 i) S1.size (k1_off55_inb i)).toLoadRect (harg2.unread x2) (Shape.Idx.first (numel1_S1.symm ▸ Nat.one_pos)))
  h29 : k1_chk29 (arg2.view.readAt (Elt F) (Rect.unit (s := S25792) (k1_off57 i) S1.size (k1_off57_inb i)).toLoadRect (harg2.unread x2) (Shape.Idx.first (numel1_S1.symm ▸ Nat.one_pos)))
  h30 : k1_chk30 (arg2.view.readAt (Elt F) (Rect.unit (s := S25792) (k1_off59 i) S1.size (k1_off59_inb i)).toLoadRect (harg2.unread x2) (Shape.Idx.first (numel1_S1.symm ▸ Nat.one_pos)))
  h31 : k1_chk31 (arg2.view.readAt (Elt F) (Rect.unit (s := S25792) (k1_off61 i) S1.size (k1_off61_inb i)).toLoadRect (harg2.unread x2) (Shape.Idx.first (numel1_S1.symm ▸ Nat.one_pos)))
  h32 : k1_chk32 (arg2.view.readAt (Elt F) (Rect.unit (s := S25792) (k1_off63 i) S1.size (k1_off63_inb i)).toLoadRect (harg2.unread x2) (Shape.Idx.first (numel1_S1.symm ▸ Nat.one_pos)))

set_option maxHeartbeats 1000000 in

noncomputable def kernelRun1_A (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : cond1_0 i) (hc1 : ¬cond1_1 i)
    (x2 : Vec F S25792 .i32) (x3 : Vec F S1x4096 .f32) (x4 : Vec F S4096 .i32)
    (hks : Hw1 i arg2 harg2 x2) :
    { LS : List (View.Piece (Elt F) S1x100096 .f32) //
      ∀ (xi5 : Vec F S1x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ (∃ d, owns (c : Thread nD τ) arg6 fullShare d)
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (∃ f, arg6.view.loc (c : Thread nD τ) ↦[arg6.view.set]{fullShare} arg6.view.writes (Elt F) f LS)) -∗ K ⟨⟩))
          ⊢ wp frame (wpE (defs₀ (F := F)) 𝒱₀ c none) E (cc1__scatter_kernel i arg2 harg2 arg3 harg3 arg4 harg4 arg5 harg5 arg6 harg6) K } := by
  have k1_hw1 := hks.h1
  have k1_hw2 := hks.h2
  have k1_hw3 := hks.h3
  have k1_hw4 := hks.h4
  have k1_hw5 := hks.h5
  have k1_hw6 := hks.h6
  have k1_hw7 := hks.h7
  have k1_hw8 := hks.h8
  have k1_hw9 := hks.h9
  have k1_hw10 := hks.h10
  have k1_hw11 := hks.h11
  have k1_hw12 := hks.h12
  have k1_hw13 := hks.h13
  have k1_hw14 := hks.h14
  have k1_hw15 := hks.h15
  have k1_hw16 := hks.h16
  have k1_hw17 := hks.h17
  have k1_hw18 := hks.h18
  have k1_hw19 := hks.h19
  have k1_hw20 := hks.h20
  have k1_hw21 := hks.h21
  have k1_hw22 := hks.h22
  have k1_hw23 := hks.h23
  have k1_hw24 := hks.h24
  have k1_hw25 := hks.h25
  have k1_hw26 := hks.h26
  have k1_hw27 := hks.h27
  have k1_hw28 := hks.h28
  have k1_hw29 := hks.h29
  have k1_hw30 := hks.h30
  have k1_hw31 := hks.h31
  have k1_hw32 := hks.h32
  refine ⟨?_, fun xi5 E K => ?run⟩
  case run =>
    simp only [cc1__scatter_kernel_eq_skeleton]; unfold cc1__scatter_kernel_skel
    unfold owns
    iintro ⟨⟨%f2, %hf2, H2⟩, ⟨%f3, %hf3, H3⟩, ⟨%f4, %hf4, H4⟩, ⟨%f5, %hf5, H5⟩, ⟨%ds, %fs, -, HS⟩, Hk⟩
    obtain rfl := harg2.eq_unread hf2; obtain rfl := harg3.eq_unread hf3; obtain rfl := harg4.eq_unread hf4; obtain rfl := harg5.eq_unread hf5
    sl_exec (disch := first | sl_exact hc0 | sl_exact hc1 | sl_exact k1_hw1 | sl_exact k1_hw2 | sl_exact k1_hw3 | sl_exact k1_hw4 | sl_exact k1_hw5 | sl_exact k1_hw6 | sl_exact k1_hw7 | sl_exact k1_hw8 | sl_exact k1_hw9 | sl_exact k1_hw10 | sl_exact k1_hw11 | sl_exact k1_hw12 | sl_exact k1_hw13 | sl_exact k1_hw14 | sl_exact k1_hw15 | sl_exact k1_hw16 | sl_exact k1_hw17 | sl_exact k1_hw18 | sl_exact k1_hw19 | sl_exact k1_hw20 | sl_exact k1_hw21 | sl_exact k1_hw22 | sl_exact k1_hw23 | sl_exact k1_hw24 | sl_exact k1_hw25 | sl_exact k1_hw26 | sl_exact k1_hw27 | sl_exact k1_hw28 | sl_exact k1_hw29 | sl_exact k1_hw30 | sl_exact k1_hw31 | sl_exact k1_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact HS

set_option maxHeartbeats 1000000 in

noncomputable def kernelRun1_B (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond1_0 i) (hc1 : ¬cond1_1 i)
    (x2 : Vec F S25792 .i32) (x3 : Vec F S1x4096 .f32) (x4 : Vec F S4096 .i32) (xs : Vec F S1x100096 .f32)
    (hks : Hw1 i arg2 harg2 x2) :
    { LS : List (View.Piece (Elt F) S1x100096 .f32) //
      ∀ (xi5 : Vec F S1x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xs
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc1__scatter_kernel i arg2 harg2 arg3 harg3 arg4 harg4 arg5 harg5 arg6 harg6) K } := by
  have k1_hw1 := hks.h1
  have k1_hw2 := hks.h2
  have k1_hw3 := hks.h3
  have k1_hw4 := hks.h4
  have k1_hw5 := hks.h5
  have k1_hw6 := hks.h6
  have k1_hw7 := hks.h7
  have k1_hw8 := hks.h8
  have k1_hw9 := hks.h9
  have k1_hw10 := hks.h10
  have k1_hw11 := hks.h11
  have k1_hw12 := hks.h12
  have k1_hw13 := hks.h13
  have k1_hw14 := hks.h14
  have k1_hw15 := hks.h15
  have k1_hw16 := hks.h16
  have k1_hw17 := hks.h17
  have k1_hw18 := hks.h18
  have k1_hw19 := hks.h19
  have k1_hw20 := hks.h20
  have k1_hw21 := hks.h21
  have k1_hw22 := hks.h22
  have k1_hw23 := hks.h23
  have k1_hw24 := hks.h24
  have k1_hw25 := hks.h25
  have k1_hw26 := hks.h26
  have k1_hw27 := hks.h27
  have k1_hw28 := hks.h28
  have k1_hw29 := hks.h29
  have k1_hw30 := hks.h30
  have k1_hw31 := hks.h31
  have k1_hw32 := hks.h32
  refine ⟨?_, fun xi5 E K => ?run⟩
  case run =>
    simp only [cc1__scatter_kernel_eq_skeleton]; unfold cc1__scatter_kernel_skel
    unfold owns
    iintro ⟨⟨%f2, %hf2, H2⟩, ⟨%f3, %hf3, H3⟩, ⟨%f4, %hf4, H4⟩, ⟨%f5, %hf5, H5⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hfs
    sl_exec (disch := first | sl_exact hc0 | sl_exact hc1 | sl_exact k1_hw1 | sl_exact k1_hw2 | sl_exact k1_hw3 | sl_exact k1_hw4 | sl_exact k1_hw5 | sl_exact k1_hw6 | sl_exact k1_hw7 | sl_exact k1_hw8 | sl_exact k1_hw9 | sl_exact k1_hw10 | sl_exact k1_hw11 | sl_exact k1_hw12 | sl_exact k1_hw13 | sl_exact k1_hw14 | sl_exact k1_hw15 | sl_exact k1_hw16 | sl_exact k1_hw17 | sl_exact k1_hw18 | sl_exact k1_hw19 | sl_exact k1_hw20 | sl_exact k1_hw21 | sl_exact k1_hw22 | sl_exact k1_hw23 | sl_exact k1_hw24 | sl_exact k1_hw25 | sl_exact k1_hw26 | sl_exact k1_hw27 | sl_exact k1_hw28 | sl_exact k1_hw29 | sl_exact k1_hw30 | sl_exact k1_hw31 | sl_exact k1_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexact HS

set_option maxHeartbeats 1000000 in

noncomputable def kernelRun1_C (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond1_0 i) (hc1 : cond1_1 i)
    (x2 : Vec F S25792 .i32) (x3 : Vec F S1x4096 .f32) (x4 : Vec F S4096 .i32) (xs : Vec F S1x100096 .f32)
    (hks : Hw1 i arg2 harg2 x2) :
    Σ' (L5 : List (View.Piece (Elt F) S1x100096 .f32)), { LS : List (View.Piece (Elt F) S1x100096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare xs
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc1__scatter_kernel i arg2 harg2 arg3 harg3 arg4 harg4 arg5 harg5 arg6 harg6) K } := by
  have k1_hw1 := hks.h1
  have k1_hw2 := hks.h2
  have k1_hw3 := hks.h3
  have k1_hw4 := hks.h4
  have k1_hw5 := hks.h5
  have k1_hw6 := hks.h6
  have k1_hw7 := hks.h7
  have k1_hw8 := hks.h8
  have k1_hw9 := hks.h9
  have k1_hw10 := hks.h10
  have k1_hw11 := hks.h11
  have k1_hw12 := hks.h12
  have k1_hw13 := hks.h13
  have k1_hw14 := hks.h14
  have k1_hw15 := hks.h15
  have k1_hw16 := hks.h16
  have k1_hw17 := hks.h17
  have k1_hw18 := hks.h18
  have k1_hw19 := hks.h19
  have k1_hw20 := hks.h20
  have k1_hw21 := hks.h21
  have k1_hw22 := hks.h22
  have k1_hw23 := hks.h23
  have k1_hw24 := hks.h24
  have k1_hw25 := hks.h25
  have k1_hw26 := hks.h26
  have k1_hw27 := hks.h27
  have k1_hw28 := hks.h28
  have k1_hw29 := hks.h29
  have k1_hw30 := hks.h30
  have k1_hw31 := hks.h31
  have k1_hw32 := hks.h32
  refine ⟨?_, ?_, fun E K => ?run⟩
  case run =>
    simp only [cc1__scatter_kernel_eq_skeleton]; unfold cc1__scatter_kernel_skel
    unfold owns
    iintro ⟨⟨%f2, %hf2, H2⟩, ⟨%f3, %hf3, H3⟩, ⟨%f4, %hf4, H4⟩, ⟨%d5, %f5, -, H5⟩, ⟨%fs, %hfs, HS⟩, Hk⟩
    obtain rfl := harg2.eq_unread hf2; obtain rfl := harg3.eq_unread hf3; obtain rfl := harg4.eq_unread hf4; obtain rfl := harg6.eq_unread hfs
    sl_exec (disch := first | sl_exact hc0 | sl_exact hc1 | sl_exact k1_hw1 | sl_exact k1_hw2 | sl_exact k1_hw3 | sl_exact k1_hw4 | sl_exact k1_hw5 | sl_exact k1_hw6 | sl_exact k1_hw7 | sl_exact k1_hw8 | sl_exact k1_hw9 | sl_exact k1_hw10 | sl_exact k1_hw11 | sl_exact k1_hw12 | sl_exact k1_hw13 | sl_exact k1_hw14 | sl_exact k1_hw15 | sl_exact k1_hw16 | sl_exact k1_hw17 | sl_exact k1_hw18 | sl_exact k1_hw19 | sl_exact k1_hw20 | sl_exact k1_hw21 | sl_exact k1_hw22 | sl_exact k1_hw23 | sl_exact k1_hw24 | sl_exact k1_hw25 | sl_exact k1_hw26 | sl_exact k1_hw27 | sl_exact k1_hw28 | sl_exact k1_hw29 | sl_exact k1_hw30 | sl_exact k1_hw31 | sl_exact k1_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexact HS

end Cert.Kernel.Hand

end
-- ==== Proof.K.Body1Cover.lean ====
import proofs.«401711_j53747220742790_3_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

theorem mem_whole1_S1x100096 (y : S1x100096.Idx) :
    y ∈ (Rect.unit (s := S1x100096) ![0, 0] S1x100096.size inb_S1x100096_S1x100096_0_0).set := by
  rw [Rect.mem_set_unit]
  intro a
  have h0 : (![0, 0] : Fin 2 → ℕ) a = 0 := by fin_cases a <;> rfl
  rw [h0, Nat.zero_add]
  exact ⟨Nat.zero_le _, (y a).isLt⟩

theorem scover1_A (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : cond1_0 i) (hc1 : ¬cond1_1 i)
    (x2 : Vec F S25792 .i32) (x3 : Vec F S1x4096 .f32) (x4 : Vec F S4096 .i32)
    (hks : Hw1 i arg2 harg2 x2) (y : S1x100096.Idx) :
    ∃ pc ∈ (kernelRun1_A (Ix := Ix) (U := U) (Lvl := Lvl) 𝒱₀ c i arg2 harg2 arg3 harg3 arg4 harg4 arg5 harg5 arg6 harg6 hc0 hc1 x2 x3 x4 hks).1, y ∈ pc.1.set := by
  refine ⟨⟨Rect.unit (s := S1x100096) ![0, 0] S1x100096.size inb_S1x100096_S1x100096_0_0, k1_pay2 (F := F)⟩, ?_, mem_whole1_S1x100096 y⟩
  apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem
  exact List.mem_cons_self

theorem cover1_C (𝒱₀ : Variants) (c : Dev nD) (i : grid1.Coords) (arg2 : Memref sig .tc .smem S25792 .i32) (harg2 : arg2.IsWhole) (arg3 : Memref sig .tc .vmem S1x4096 .f32) (harg3 : arg3.IsWhole) (arg4 : Memref sig .tc .vmem S4096 .i32) (harg4 : arg4.IsWhole) (arg5 : Memref sig .tc .vmem S1x100096 .f32) (harg5 : arg5.IsWhole) (arg6 : Memref sig .tc .vmem S1x100096 .f32) (harg6 : arg6.IsWhole) (hc0 : ¬cond1_0 i) (hc1 : cond1_1 i)
    (x2 : Vec F S25792 .i32) (x3 : Vec F S1x4096 .f32) (x4 : Vec F S4096 .i32) (xs : Vec F S1x100096 .f32)
    (hks : Hw1 i arg2 harg2 x2) (y : S1x100096.Idx) :
    ∃ pc ∈ (kernelRun1_C (Ix := Ix) (U := U) (Lvl := Lvl) 𝒱₀ c i arg2 harg2 arg3 harg3 arg4 harg4 arg5 harg5 arg6 harg6 hc0 hc1 x2 x3 x4 xs hks).1, y ∈ pc.1.set :=
  ⟨_, List.mem_cons_self, mem_whole1_S1x100096 y⟩

end Cert.Kernel.Hand

end
-- ==== Proof.K.Region1.lean ====
import proofs.«401711_j53747220742790_3_alg».proof.Proof.K.Common
import proofs.«401711_j53747220742790_3_alg».proof.Proof.K.Body1Cover
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem word_ok1 {arg2 : Memref sig .tc .smem S25792 .i32} (harg2 : arg2.IsWhole) (x2 : Vec F S25792 .i32) (h : TblOk x2)
    (r : LoadRect S25792) (j : r.shape.Idx) :
    128 ∣ (arg2.view.readAt (Elt F) r (harg2.unread x2) j).toNat ∧ (arg2.view.readAt (Elt F) r (harg2.unread x2) j).toNat + 256 ≤ 100096 := by
  rw [View.readAt_apply, harg2.read_unread]; exact h _

-- A base word that is a multiple of 128 with its 256 lanes inside the accumulator's satisfies every window's bound.
theorem chk1_ok {w : BitVec 32} (h : 128 ∣ w.toNat ∧ w.toNat + 256 ≤ 100096) :
    128 ∣ w.toNat ∧ ∀ a : Fin 2, (![0, w.toNat] : Fin 2 → ℕ) a + S1x256.size a ≤ S1x100096.size a :=
  ⟨h.1, fun a => by fin_cases a <;> first | exact h.2 | exact Nat.le_refl _⟩

theorem hks1 {arg2 : Memref sig .tc .smem S25792 .i32} (harg2 : arg2.IsWhole) (x2 : Vec F S25792 .i32) (h : TblOk x2)
    (i : grid1.Coords) : Hw1 i arg2 harg2 x2 :=
  ⟨chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _), chk1_ok (word_ok1 harg2 x2 h _ _)⟩

theorem idleB1_0 : ∀ t : Fin grid1.N, idle1 0 (grid1.coords t) = false := by decide +kernel
theorem idleB1_1 : ∀ t : Fin grid1.N, idle1 1 (grid1.coords t) = false := by decide +kernel
theorem idleB1_2 : ∀ t : Fin grid1.N, idle1 2 (grid1.coords t) = !decide (t.val % 403 = 402) := by decide +kernel
theorem noFlushB1_2 : ∀ t : Fin grid1.N, ¬ t.val % 403 = 402 → (t.val + 1 = grid1.N || decide (∃ h : t.val + 1 < grid1.N, cc1_transform_2 (grid1.coords ⟨t.val + 1, h⟩) ≠ cc1_transform_2 (grid1.coords t))) = false := by decide +kernel

section Layout
variable (a : (pcfg1 (F := F)).Adm)

theorem noFlush1_2 (t : Fin (cfg1 a).N) (h : ¬ t.val % 403 = 402) : ((cfg1 a).win 2).flush t = false := noFlushB1_2 t h

theorem liveAt1_0 (t : Fin (cfg1 a).N) : (cfg1 a).idle 0 ((cfg1 a).grid.coords t) = false := idleB1_0 t
theorem liveAt1_1 (t : Fin (cfg1 a).N) : (cfg1 a).idle 1 ((cfg1 a).grid.coords t) = false := idleB1_1 t

theorem idleAt1_2 (t : Fin (cfg1 a).N) (h : ¬ t.val % 403 = 402) : (cfg1 a).idle 2 ((cfg1 a).grid.coords t) = true := by
  rw [show (cfg1 a).idle 2 ((cfg1 a).grid.coords t) = idle1 2 (grid1.coords t) from rfl, idleB1_2 t, decide_eq_false h]; rfl
theorem liveAt1_2 (t : Fin (cfg1 a).N) (h : t.val % 403 = 402) : (cfg1 a).idle 2 ((cfg1 a).grid.coords t) = false := by
  rw [show (cfg1 a).idle 2 ((cfg1 a).grid.coords t) = idle1 2 (grid1.coords t) from rfl, idleB1_2 t, decide_eq_true h]; rfl

abbrev ms1_0 (t : Fin (cfg1 a).N) : Memref sig .tc .vmem S1x4096 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S4096 .i32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S1x100096 .f32 := spec1_2.stage ((cfg1 a).slots t 2)
abbrev hs1_2 (t : Fin (cfg1 a).N) : (ms1_2 a t).IsWhole := hstage1_2 (((cfg1 a).slots t 2).cast nbuf1_2)

abbrev tbM1 : Memref sig .tc .smem S25792 .i32 := Memref.whole main_v44
abbrev scM1 : Memref sig .tc .vmem S1x100096 .f32 := Memref.whole cc1_scratch0

abbrev VS1 : View sig .tc .vmem S1x100096 .f32 := scM1.view

abbrev VO1 : View sig .tc .vmem S1x100096 .f32 := (Memref.whole cc1_stg2_0 : Memref sig .tc .vmem S1x100096 .f32).view

abbrev bodyAt1 (t : Fin (cfg1 a).N) : Prog (TpuEff nD τ sig (Elt F) Λ₀ .tc) PUnit :=
  cc1__scatter_kernel (grid1.coords t) tbM1 (Memref.isWhole_whole _) (ms1_0 a t) (hs1_0 a t) (ms1_1 a t) (hs1_1 a t) (ms1_2 a t) (hs1_2 a t) scM1 (Memref.isWhole_whole _)

end Layout

section Region
variable (V : Dev nD → Valuation τ sig (Elt F)) (a : (pcfg1 (F := F)).Adm) (htbl : TblOk (a.1 0))

abbrev VR1 (c : Dev nD) (b : Ref sig .tc) : Buf (Elt F) ((c : Thread nD τ).loc b) := V c (Proc.devRef .tc b)

def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (VR1 V c (Pipeline.arrRef spec1 w))

abbrev run1_A (c : Dev nD) (t : Fin (cfg1 a).N) (h0 : t.val % 403 = 0) :=
  kernelRun1_A (Ix := Unit) (U := UR sig nD τ) (Lvl := ℕ) 𝒱₀ c (grid1.coords t) tbM1 (Memref.isWhole_whole _) (ms1_0 a t) (hs1_0 a t) (ms1_1 a t) (hs1_1 a t) (ms1_2 a t) (hs1_2 a t) scM1 (Memref.isWhole_whole _)
    ((hcond1_0 t).mpr h0) (fun h => by have := (hcond1_1 t).mp h; omega) (a.1 0) (iblk1 V a c 0 t) (iblk1 V a c 1 t)
    (hks1 _ (a.1 0) htbl _)

abbrev run1_B (c : Dev nD) (t : Fin (cfg1 a).N) (h0 : ¬t.val % 403 = 0) (h1 : ¬t.val % 403 = 402) (xs : Vec F S1x100096 .f32) :=
  kernelRun1_B (Ix := Unit) (U := UR sig nD τ) (Lvl := ℕ) 𝒱₀ c (grid1.coords t) tbM1 (Memref.isWhole_whole _) (ms1_0 a t) (hs1_0 a t) (ms1_1 a t) (hs1_1 a t) (ms1_2 a t) (hs1_2 a t) scM1 (Memref.isWhole_whole _)
    (fun h => h0 ((hcond1_0 t).mp h)) (fun h => h1 ((hcond1_1 t).mp h)) (a.1 0) (iblk1 V a c 0 t) (iblk1 V a c 1 t) xs
    (hks1 _ (a.1 0) htbl _)

abbrev run1_C (c : Dev nD) (t : Fin (cfg1 a).N) (h1 : t.val % 403 = 402) (xs : Vec F S1x100096 .f32) :=
  kernelRun1_C (Ix := Unit) (U := UR sig nD τ) (Lvl := ℕ) 𝒱₀ c (grid1.coords t) tbM1 (Memref.isWhole_whole _) (ms1_0 a t) (hs1_0 a t) (ms1_1 a t) (hs1_1 a t) (ms1_2 a t) (hs1_2 a t) scM1 (Memref.isWhole_whole _)
    (fun h => by have := (hcond1_0 t).mp h; omega) ((hcond1_1 t).mpr h1) (a.1 0) (iblk1 V a c 0 t) (iblk1 V a c 1 t) xs
    (hks1 _ (a.1 0) htbl _)

def sout1_A (c : Dev nD) (t : Fin (cfg1 a).N) (h0 : t.val % 403 = 0) : Vec F S1x100096 .f32 :=
  VS1.read (Elt F) (VS1.writes (Elt F) VS1.junk (run1_A V a htbl c t h0).1)

def sout1_B (c : Dev nD) (t : Fin (cfg1 a).N) (h0 : ¬t.val % 403 = 0) (h1 : ¬t.val % 403 = 402) (xs : Vec F S1x100096 .f32) : Vec F S1x100096 .f32 :=
  VS1.read (Elt F) (VS1.writes (Elt F) ((Memref.isWhole_whole cc1_scratch0).unread xs) (run1_B V a htbl c t h0 h1 xs).1)

def sout1_C (c : Dev nD) (t : Fin (cfg1 a).N) (h1 : t.val % 403 = 402) (xs : Vec F S1x100096 .f32) : Vec F S1x100096 .f32 :=
  VS1.read (Elt F) (VS1.writes (Elt F) ((Memref.isWhole_whole cc1_scratch0).unread xs) (run1_C V a htbl c t h1 xs).2.1)

def out1_C (c : Dev nD) (t : Fin (cfg1 a).N) (h1 : t.val % 403 = 402) (xs : Vec F S1x100096 .f32) : Vec F S1x100096 .f32 :=
  VO1.read (Elt F) (VO1.writes (Elt F) VO1.junk (run1_C V a htbl c t h1 xs).1)

def scrAt1 (c : Dev nD) : (n : ℕ) → n < (cfg1 a).N → Vec F S1x100096 .f32
  | 0, hn => sout1_A V a htbl c ⟨0, hn⟩ (Nat.zero_mod _)
  | n + 1, hn =>
    if h0 : (n + 1) % 403 = 0 then sout1_A V a htbl c ⟨n + 1, hn⟩ h0
    else if h1 : (n + 1) % 403 = 402 then sout1_C V a htbl c ⟨n + 1, hn⟩ h1 (scrAt1 c n (Nat.lt_of_succ_lt hn))
    else sout1_B V a htbl c ⟨n + 1, hn⟩ h0 h1 (scrAt1 c n (Nat.lt_of_succ_lt hn))

abbrev prev1 (c : Dev nD) (t : Fin (cfg1 a).N) : Vec F S1x100096 .f32 :=
  scrAt1 V a htbl c (t.val - 1) (Nat.lt_of_le_of_lt (Nat.sub_le _ _) t.isLt)

theorem scrAt1_A (c : Dev nD) (t : Fin (cfg1 a).N) (h0 : t.val % 403 = 0) :
    scrAt1 V a htbl c t.val t.isLt = sout1_A V a htbl c t h0 := by
  obtain ⟨n, hn⟩ := t
  cases n with
  | zero => rfl
  | succ n => exact dif_pos h0

theorem scrAt1_B (c : Dev nD) (t : Fin (cfg1 a).N) (h0 : ¬t.val % 403 = 0) (h1 : ¬t.val % 403 = 402) :
    scrAt1 V a htbl c t.val t.isLt = sout1_B V a htbl c t h0 h1 (prev1 V a htbl c t) := by
  obtain ⟨n, hn⟩ := t
  cases n with
  | zero => exact absurd (Nat.zero_mod _) h0
  | succ n => exact (dif_neg h0).trans (dif_neg h1)

theorem scrAt1_C (c : Dev nD) (t : Fin (cfg1 a).N) (h1 : t.val % 403 = 402) :
    scrAt1 V a htbl c t.val t.isLt = sout1_C V a htbl c t h1 (prev1 V a htbl c t) := by
  obtain ⟨n, hn⟩ := t
  cases n with
  | zero => exact absurd ((Nat.zero_mod 403).symm.trans h1) (by decide)
  | succ n =>
    have h1' : (n + 1) % 403 = 402 := h1
    exact (dif_neg (by omega)).trans (dif_pos h1)

def outAt1 (c : Dev nD) (t : Fin (cfg1 a).N) : Vec F S1x100096 .f32 :=
  if h1 : t.val % 403 = 402 then out1_C V a htbl c t h1 (prev1 V a htbl c t) else scrAt1 V a htbl c t.val t.isLt

theorem outAt1_C (c : Dev nD) (t : Fin (cfg1 a).N) (h1 : t.val % 403 = 402) :
    outAt1 V a htbl c t = out1_C V a htbl c t h1 (prev1 V a htbl c t) := dif_pos h1

def restS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ restS1 c) := by
  unfold Pipeline.scopedRest restS1
  rw [BI.bigSep_erase (i := cc1_scratch0) (by decide)]
  simp only [scM1, owns_whole]; try rfl

def PhiS1 (c : Dev nD) : (n : ℕ) → n ≤ (cfg1 a).N → sProp 𝕄
  | 0, _ => iprop(owns (c : Thread nD τ) tbM1 fullShare (a.1 0) ∗ (∃ d, owns (c : Thread nD τ) scM1 fullShare d) ∗ restS1 c ∗ ∃ r, prngReg c r)
  | n + 1, hn => iprop(owns (c : Thread nD τ) tbM1 fullShare (a.1 0) ∗ owns (c : Thread nD τ) scM1 fullShare (scrAt1 V a htbl c n hn) ∗ restS1 c ∗ ∃ r, prngReg c r)

theorem PhiS1_zero (c : Dev nD) (n : ℕ) (h : n ≤ (cfg1 a).N) (hz : n = 0) :
    PhiS1 V a htbl c n h = iprop(owns (c : Thread nD τ) tbM1 fullShare (a.1 0) ∗ (∃ d, owns (c : Thread nD τ) scM1 fullShare d) ∗ restS1 c ∗ ∃ r, prngReg c r) := by
  subst hz; rfl

theorem PhiS1_succ (c : Dev nD) (n : ℕ) (hn : n < (cfg1 a).N) :
    PhiS1 V a htbl c (n + 1) hn = iprop(owns (c : Thread nD τ) tbM1 fullShare (a.1 0) ∗ owns (c : Thread nD τ) scM1 fullShare (scrAt1 V a htbl c n hn) ∗ restS1 c ∗ ∃ r, prngReg c r) := rfl

theorem PhiS1_pos (c : Dev nD) (n : ℕ) (h : n ≤ (cfg1 a).N) (hz : n ≠ 0) :
    PhiS1 V a htbl c n h = iprop(owns (c : Thread nD τ) tbM1 fullShare (a.1 0) ∗ owns (c : Thread nD τ) scM1 fullShare (scrAt1 V a htbl c (n - 1) (by omega)) ∗ restS1 c ∗ ∃ r, prngReg c r) := by
  cases n with
  | zero => exact absurd rfl hz
  | succ n => rfl

def dat1 (c : Dev nD) : Dat τ (Elt F) Unit ℕ (UR sig nD τ) ℕ (cfg1 a) c where
  A w := VR1 V c (Pipeline.arrRef spec1 w)
  after w t := match w with
    | 0 => iblk1 V a c 0 t
    | 1 => iblk1 V a c 1 t
    | 2 => outAt1 V a htbl c t
    | ⟨_ + 3, h⟩ => absurd h (Nat.not_lt.2 (Nat.le_add_left _ _))
  Φ t := PhiS1 V a htbl c t.val (Nat.le_of_lt_succ t.isLt)
  q _ := fullShare
  owed _ := 0

theorem A_eq1 (c : Dev nD) (w : Fin (cfg1 a).W) : (dat1 V a htbl c).A w = VR1 V c (Pipeline.arrRef spec1 w) := by
  dsimp only [dat1]

theorem PhiS1_castSucc (c : Dev nD) (t : Fin (cfg1 a).N) :
    (dat1 V a htbl c).Φ t.castSucc = PhiS1 V a htbl c t.val (Nat.le_of_lt t.isLt) := by
  dsimp only [dat1]; simp only [Fin.coe_castSucc]

theorem after1_0 (c : Dev nD) (t : Fin (cfg1 a).N) : (dat1 V a htbl c).after 0 t = iblk1 V a c 0 t := by dsimp only [dat1]; rfl
theorem after1_1 (c : Dev nD) (t : Fin (cfg1 a).N) : (dat1 V a htbl c).after 1 t = iblk1 V a c 1 t := by dsimp only [dat1]; rfl
theorem after1_2 (c : Dev nD) (t : Fin (cfg1 a).N) : (dat1 V a htbl c).after 2 t = outAt1 V a htbl c t := by dsimp only [dat1]; rfl

theorem before1_0 (c : Dev nD) (t : Fin (cfg1 a).N) (d) : (dat1 V a htbl c).before 0 t d = iblk1 V a c 0 t :=
  ((dat1 V a htbl c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a htbl c).before 1 t d = iblk1 V a c 1 t :=
  ((dat1 V a htbl c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

def bodyPre1 (c : Dev nD) (t : Fin (cfg1 a).N) : sProp 𝕄 :=
  iprop((dat1 V a htbl c).Φ t.castSucc ∗ (dat1 V a htbl c).owesAt () t.castSucc
    ∗ (∃ d, owns (c : Thread nD τ) (ms1_0 a t) fullShare ((dat1 V a htbl c).before 0 t d))
    ∗ (∃ d, owns (c : Thread nD τ) (ms1_1 a t) fullShare ((dat1 V a htbl c).before 1 t d))
    ∗ (∃ d, owns (c : Thread nD τ) (ms1_2 a t) fullShare ((dat1 V a htbl c).before 2 t d)))

def bodyPost1 (c : Dev nD) (t : Fin (cfg1 a).N) : sProp 𝕄 :=
  iprop((dat1 V a htbl c).Φ t.succ ∗ (dat1 V a htbl c).owesAt () t.succ
    ∗ (dat1 V a htbl c).leavesExact 0 t
    ∗ (dat1 V a htbl c).leavesExact 1 t
    ∗ (dat1 V a htbl c).leavesExact 2 t)

set_option maxHeartbeats 4000000 in

theorem sound_body1 (c : Dev nD) (t : Fin (cfg1 a).N) :
    bodyPre1 V a htbl c t ⊢ wp frame (wpE (defs₀ (F := F)) 𝒱₀ c none) Set.univ (bodyAt1 a t) (fun _ => bodyPost1 V a htbl c t) := by
  unfold bodyPre1 bodyPost1 bodyAt1
  simp only [before1_0, before1_1]
  rw [show (dat1 V a htbl c).owesAt () t.succ = (dat1 V a htbl c).owesAt () t.castSucc from rfl]
  rw [show (dat1 V a htbl c).Φ t.succ = PhiS1 V a htbl c (t.val + 1) t.isLt from rfl, PhiS1_succ]
  rw [show (dat1 V a htbl c).leavesExact 0 t = owns (c : Thread nD τ) (ms1_0 a t) fullShare ((dat1 V a htbl c).after 0 t) from by
    unfold Dat.leavesExact; rw [liveAt1_0 a t]; rfl, after1_0]
  rw [show (dat1 V a htbl c).leavesExact 1 t = owns (c : Thread nD τ) (ms1_1 a t) fullShare ((dat1 V a htbl c).after 1 t) from by
    unfold Dat.leavesExact; rw [liveAt1_1 a t]; rfl, after1_1]
  by_cases h0 : t.val % 403 = 0
  · have h1 : ¬t.val % 403 = 402 := by omega
    rw [Dat.leavesExact_idle (dat1 V a htbl c) 2 t (idleAt1_2 a t h1) (noFlush1_2 a t h1)]
    rw [scrAt1_A V a htbl c t h0]
    unfold sout1_A
    by_cases hz : t.val = 0
    · rw [PhiS1_castSucc V a htbl c t, PhiS1_zero V a htbl c _ _ hz]
      iintro ⟨⟨Htb, HS, Hrest, Hg⟩, Ho, ⟨%d0, H0⟩, ⟨%d1, H1⟩, ⟨%d2, H2⟩⟩
      iapply ((run1_A V a htbl c t h0).2 _ Set.univ _)
      isplitl [Htb]; · iexact Htb
      isplitl [H0]; · iexact H0
      isplitl [H1]; · iexact H1
      isplitl [H2]; · iexact H2
      isplitl [HS]; · iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover1_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
    · rw [PhiS1_castSucc V a htbl c t, PhiS1_pos V a htbl c _ _ hz]
      iintro ⟨⟨Htb, HS, Hrest, Hg⟩, Ho, ⟨%d0, H0⟩, ⟨%d1, H1⟩, ⟨%d2, H2⟩⟩
      iapply ((run1_A V a htbl c t h0).2 _ Set.univ _)
      isplitl [Htb]; · iexact Htb
      isplitl [H0]; · iexact H0
      isplitl [H1]; · iexact H1
      isplitl [H2]; · iexact H2
      isplitl [HS]; · iexists _; iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover1_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
  · have hz : t.val ≠ 0 := fun hz => h0 (by rw [hz])
    rw [PhiS1_castSucc V a htbl c t, PhiS1_pos V a htbl c _ _ hz]
    by_cases h1 : t.val % 403 = 402
    · rw [show (dat1 V a htbl c).leavesExact 2 t = owns (c : Thread nD τ) (ms1_2 a t) fullShare ((dat1 V a htbl c).after 2 t) from by
        unfold Dat.leavesExact; rw [liveAt1_2 a t h1]; rfl, after1_2, outAt1_C V a htbl c t h1]
      rw [scrAt1_C V a htbl c t h1]
      unfold sout1_C out1_C
      iintro ⟨⟨Htb, HS, Hrest, Hg⟩, Ho, ⟨%d0, H0⟩, ⟨%d1, H1⟩, ⟨%d2, H2⟩⟩
      iapply ((run1_C V a htbl c t h1 (prev1 V a htbl c t)).2.2 Set.univ _)
      isplitl [Htb]; · iexact Htb
      isplitl [H0]; · iexact H0
      isplitl [H1]; · iexact H1
      isplitl [H2]; · iexists _; iexact H2
      isplitl [HS]; · iexact HS
      iintro ⟨Htb, H0, H1, ⟨%e5, H2⟩, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (fun y => cover1_C (Ix := Unit) (U := UR sig nD τ) (Lvl := ℕ) ..)
    · rw [Dat.leavesExact_idle (dat1 V a htbl c) 2 t (idleAt1_2 a t h1) (noFlush1_2 a t h1)]
      rw [scrAt1_B V a htbl c t h0 h1]
      unfold sout1_B
      iintro ⟨⟨Htb, HS, Hrest, Hg⟩, Ho, ⟨%d0, H0⟩, ⟨%d1, H1⟩, ⟨%d2, H2⟩⟩
      iapply ((run1_B V a htbl c t h0 h1 (prev1 V a htbl c t)).2 _ Set.univ _)
      isplitl [Htb]; · iexact Htb
      isplitl [H0]; · iexact H0
      isplitl [H1]; · iexact H1
      isplitl [H2]; · iexact H2
      isplitl [HS]; · iexact HS
      iintro ⟨Htb, H0, H1, H2, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      iexists _; iexact H2

theorem body_obligation1 (c : Dev nD) : BodyObligation (dat1 V a htbl c) (defs₀ (F := F)) 𝒱₀ () Set.univ := fun t => by
  rw [bigSep_W1, bigSep_W1]
  exact sound_body1 V a htbl c t

end Region

section Seg

theorem prefHeld1_eq_owns (c : Dev nD) (T : pre1.Contents (Elt F)) :
    (Pipeline.prefHeld (Ix := Unit) (Name := ℕ) (U := UR sig nD τ) (Lvl := ℕ) pre1 c (fun _ => fullShare) T : sProp 𝕄)
      = owns (c : Thread nD τ) tbM1 fullShare (T 0) := by
  unfold Pipeline.prefHeld
  rw [show (Finset.univ : Finset (Fin pre1.K)) = {0} from rfl, BI.bigSep_singleton]
  exact (owns_whole (c : Thread nD τ) main_v44 fullShare (T 0)).symm

theorem arrRef1_0_ne : (Proc.devRef .tc (Pipeline.arrRef spec1 (0 : Fin 3)) : DevRef τ sig) ≠ Proc.devRef .tc main_v70 :=
  StableHlo.devRef_ne_of_ne (by decide)
theorem arrRef1_1_ne : (Proc.devRef .tc (Pipeline.arrRef spec1 (1 : Fin 3)) : DevRef τ sig) ≠ Proc.devRef .tc main_v70 :=
  StableHlo.devRef_ne_of_ne (by decide)

theorem update1_arr (Vc : Valuation τ sig (Elt F)) (X : (Proc.devRef (τ := τ) .tc main_v70).ty.Contents (Elt F)) :
    Function.update Vc (Proc.devRef .tc main_v70) X (Proc.devRef .tc (Pipeline.arrRef spec1 (2 : Fin 3))) = X :=
  Function.update_self ..

variable (V : Dev nD → Valuation τ sig (Elt F)) (a : (p : Fin 3) → (pcfgs (F := F) p).Adm)
  (htbl : TblOk ((a 1).1 0))

abbrev Vout1 (c : Dev nD) : Valuation τ sig (Elt F) :=
  Function.update (V c) main_v70 ((dat1 V (a 1) htbl c).arrAt 2 grid1.N)

theorem hF1 (c : Dev nD) : ∀ w : Fin 3,
    (dat1 V (a 1) htbl c).arrAt w grid1.N = Vout1 V a htbl c (Proc.devRef .tc (Pipeline.arrRef spec1 w))
  | 0 => ((dat1 V (a 1) htbl c).arrAt_in 0 rfl _).trans ((A_eq1 V (a 1) htbl c 0).trans (Function.update_of_ne arrRef1_0_ne _ _).symm)
  | 1 => ((dat1 V (a 1) htbl c).arrAt_in 1 rfl _).trans ((A_eq1 V (a 1) htbl c 1).trans (Function.update_of_ne arrRef1_1_ne _ _).symm)
  | 2 => (update1_arr (V c) _).symm
  | ⟨_ + 3, h⟩ => absurd h (Nat.not_lt.2 (Nat.le_add_left _ _))

theorem hrest1 (c : Dev nD) : ∀ b : Ref sig .tc, b ∉ Finset.univ.image (Pipeline.arrRef spec1) →
    Vout1 V a htbl c (Proc.devRef .tc b) = V c (Proc.devRef .tc b) := fun b hb =>
  Function.update_of_ne (StableHlo.devRef_ne_of_ne fun e => hb (Finset.mem_image.mpr ⟨2, Finset.mem_univ _, e.symm⟩)) _ _

set_option backward.isDefEq.respectTransparency.types false in

def reg1 (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 1).1 0))
    (hV : ∀ (c : Dev nD) (k : Fin 1), (a 1).1 k = V c (Proc.devRef .tc (pre1.ref k)))
    (hd : ∀ c : Dev nD, pdats 1 c = dat1 V (a 1) htbl c) :
    Pipeline.RegionSeg (pcfgs (F := F)) a pdats () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := by rw [hd c]; exact (body_obligation1 V (a 1) htbl c).loose
  hwaits := Pipeline.hwaits_of_owed_zero _ _ _ _ L lv 1 fun c t => by rw [hd c]; rfl
  pre c := iprop(StableHlo.held (c : Thread nD τ) (Pipeline.ucRefs τ sig) (V c) ∗ R c)
  post c := iprop(StableHlo.held (c : Thread nD τ) (Pipeline.ucRefs τ sig) (Vout1 V a htbl c) ∗ R c)
  X c := iprop(∃ r, prngReg c r)
  Y c := iprop(owns (c : Thread nD τ) tbM1 fullShare ((a 1).1 0) ∗ ∃ r, prngReg c r)
  Z c := Pipeline.unscopedRestP (Ix := Unit) (Name := ℕ) (U := UR sig nD τ) (Lvl := ℕ) pre1 spec1 c (VR1 V c)
  hentry c := by
    have hsplit : (StableHlo.held (c : Thread nD τ) (Pipeline.ucRefs τ sig) (V c) : sProp 𝕄)
        ⊢ iprop((dat1 V (a 1) htbl c).arrays ((dat1 V (a 1) htbl c).arrAt · 0)
            ∗ Pipeline.prefHeld pre1 c (fun _ => fullShare) (a 1).1 ∗ Pipeline.unscopedRestP pre1 spec1 c (VR1 V c)) := by
      have h := Pipeline.arrays_of_unscopedBufs (p := 1) (pcfgs (F := F)) a pdats (launch1 (F := F)).win (launch1 (F := F)).arr_whole c
        (by rw [hd c]; exact (dat1 V (a 1) htbl c).share_full fun _ => rfl) (VR1 V c) (fun w => by rw [hd c]; rfl)
      rw [Pipeline.unscopedBufs_held, Pipeline.unscopedRest_split (launch1 (F := F)).pre c (VR1 V c), hd c] at h
      rw [show (a 1).1 = fun k => VR1 V c (pre1.ref k) from funext (hV c)]
      exact h
    rw [Pipeline.ownSems0_none, hd c]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd c]
    show iprop((∃ r, prngReg c r) ∗ Pipeline.prefHeld pre1 c (fun _ => fullShare) (a 1).1 ∗ Pipeline.scopedRest spec1 c)
      ⊢ PhiS1 V (a 1) htbl c 0 (Nat.zero_le _)
    rw [PhiS1_zero V (a 1) htbl c 0 _ rfl, scopedRest1_split, prefHeld1_eq_owns]
    iintro ⟨Hg, Hpf, HS, Hrest⟩
    isplitl [Hpf]; · iexact Hpf
    isplitl [HS]; · iexact HS
    isplitl [Hrest]; · iexact Hrest
    iexact Hg
  hout c := by
    rw [Pipeline.ownSems0_none, hd c]
    show PhiS1 V (a 1) htbl c (cfg1 (a 1)).N (Nat.le_refl _)
      ⊢ iprop((owns (c : Thread nD τ) tbM1 fullShare ((a 1).1 0) ∗ ∃ r, prngReg c r) ∗ BI.emp ∗ Pipeline.scopedRest spec1 c)
    rw [PhiS1_pos V (a 1) htbl c _ _ (show grid1.N ≠ 0 by decide), scopedRest1_split]
    iintro ⟨Htb, HS, Hrest, Hg⟩
    isplitl [Htb Hg]
    · isplitl [Htb]; · iexact Htb
      iexact Hg
    isplitr; · iempintro
    isplitl [HS]; · iexists _; iexact HS
    iexact Hrest
  hexit c := by
    have hjoin : iprop((dat1 V (a 1) htbl c).arrays ((dat1 V (a 1) htbl c).arrAt · grid1.N)
          ∗ owns (c : Thread nD τ) tbM1 fullShare ((a 1).1 0) ∗ Pipeline.unscopedRestP pre1 spec1 c (VR1 V c))
        ⊢ (StableHlo.held (c : Thread nD τ) (Pipeline.ucRefs τ sig) (Vout1 V a htbl c) : sProp 𝕄) := by
      have h := Pipeline.unscopedBufs_of_arrays (p := 1) (pcfgs (F := F)) a (Ix := Unit) (Name := ℕ) (U := UR sig nD τ) (Lvl := ℕ)
        (launch1 (F := F)).win (launch1 (F := F)).arr_whole c pdats (by rw [hd c]; exact (dat1 V (a 1) htbl c).share_full fun _ => rfl)
        (VR1 V c) (fun b => Vout1 V a htbl c (Proc.devRef .tc b)) ((dat1 V (a 1) htbl c).arrAt · grid1.N)
        (hF1 V a htbl c) (hrest1 V a htbl c)
      rw [Pipeline.unscopedBufs_held, Pipeline.unscopedRest_split (launch1 (F := F)).pre c (VR1 V c), hd c] at h
      rw [← prefHeld1_eq_owns, show (a 1).1 = fun k => VR1 V c (pre1.ref k) from funext (hV c)]
      exact h
    rw [hd c]
    iintro ⟨Ha, HO, ⟨Hpf, Hg⟩, Hrest⟩
    imodintro
    isplitl [Ha Hpf Hrest]
    · iapply hjoin
      isplitl [Ha]; · iexact Ha
      isplitl [Hpf]; · iexact Hpf
      iexact Hrest
    isplitl [Hg]; · iexact Hg
    unfold Pipeline.Dat.owesAt Pipeline.owesWithin
    icases HO with ⟨%W, -, HO⟩; iexists W; iexact HO

theorem reg1_pre (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 1).1 0))
    (hV : ∀ (c : Dev nD) (k : Fin 1), (a 1).1 k = V c (Proc.devRef .tc (pre1.ref k)))
    (hd : ∀ c : Dev nD, pdats 1 c = dat1 V (a 1) htbl c) (c : Dev nD) :
    (reg1 V a pdats htbl hV hd).pre c = iprop(StableHlo.held (c : Thread nD τ) (Pipeline.ucRefs τ sig) (V c) ∗ R c) := rfl
theorem reg1_post (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 1).1 0))
    (hV : ∀ (c : Dev nD) (k : Fin 1), (a 1).1 k = V c (Proc.devRef .tc (pre1.ref k)))
    (hd : ∀ c : Dev nD, pdats 1 c = dat1 V (a 1) htbl c) (c : Dev nD) :
    (reg1 V a pdats htbl hV hd).post c = iprop(StableHlo.held (c : Thread nD τ) (Pipeline.ucRefs τ sig) (Function.update (V c) main_v70 ((dat1 V (a 1) htbl c).arrAt 2 grid1.N)) ∗ R c) := rfl

end Seg

end Cert.Kernel.Hand

end
-- ==== Proof.K.Body2.lean ====
import proofs.«401711_j53747220742790_3_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

abbrev cond2_0 (i : grid2.Coords) : Prop := (Scalar.cmpi .ne (Scalar.extui (Scalar.cmpi .eq (BitVec.ofNat 32 (i 1).val) 0#32)) 0#32) = 1#1

abbrev cond2_1 (i : grid2.Coords) : Prop := k2_cond2 i = 1#1

theorem hcond2_0 : ∀ t : Fin grid2.N, cond2_0 (grid2.coords t) ↔ t.val % 403 = 0 := by decide +kernel

theorem hcond2_1 : ∀ t : Fin grid2.N, cond2_1 (grid2.coords t) ↔ t.val % 403 = 402 := by decide +kernel

noncomputable def winUpd2 (base : BitVec 32) (msgc : Vec F S2x128 .f32) (dstc : Vec F S128 .i32) (cur : Vec F S2x256 .f32) : FVec F S2x256 .f32 :=
  have iota0r2 : IVec S256x128 32 := iota .tc S256x128 32 [0] iota_S256x128_d0_w32
  have msg : FVec F S2x128 .f32 := shapeCast S2x128 msgc shapeCasts_S2x128_S2x128
  have dst : IVec S128 32 := shapeCast S128 dstc shapeCasts_S128_S128
  have loc : IVec S128 32 := subi dst (broadcast S128 base)
  have locRow : IVec S1x128 32 := shapeCast S1x128 loc shapeCasts_S128_S1x128
  have hit : IVec S256x128 1 := cmpi .eq iota0r2 (broadcastTo S256x128 locRow broadcasts_S1x128_S256x128)
  have onehot : FVec F S256x128 .f32 := sitofp .f32 (extui 32 hit natLt_1_32)
  have zero : FVec F S2x256 .f32 := constant S2x256 .f32 0x00000000#32
  have acc : FVec F S2x256 .f32 := matmul dot_S2x128_S256x128_S2x256_1_1_0_0_n_n none msg onehot zero
  shapeCast S2x256 (addf cur acc) shapeCasts_S2x256_S2x256

abbrev iota0r2 : IVec S256x128 32 := iota .tc S256x128 32 [0] iota_S256x128_d0_w32

-- Each of the 32 window base words read at point i is a multiple of 128 whose 256 lanes lie inside the accumulator's.
structure Hw2 (i : grid2.Coords) (arg2 : Memref sig .tc .smem S25792 .i32) (harg2 : arg2.IsWhole) (x2 : Vec F S25792 .i32) : Prop where
  h1 : k2_chk1 (arg2.view.readAt (Elt F) (Rect.unit (s := S25792) (k2_off1 i) S1.size (k2_off1_inb i)).toLoadRect (harg2.unread x2) (Shape.Idx.first (numel1_S1.symm ▸ Nat.one_pos)))
  h2 : k2_chk2 (arg2.view.readAt (Elt F) (Rect.unit (s := S25792) (k2_off3 i) S1.size (k2_off3_inb i)).toLoadRect (harg2.unread x2) (Shape.Idx.first (numel1_S1.symm ▸ Nat.one_pos)))
  h3 : k2_chk3 (arg2.view.readAt (Elt F) (Rect.unit (s := S25792) (k2_off5 i) S1.size (k2_off5_inb i)).toLoadRect (harg2.unread x2) (Shape.Idx.first (numel1_S1.symm ▸ Nat.one_pos)))
  h4 : k2_chk4 (arg2.view.readAt (Elt F) (Rect.unit (s := S25792) (k2_off7 i) S1.size (k2_off7_inb i)).toLoadRect (harg2.unread x2) (Shape.Idx.first (numel1_S1.symm ▸ Nat.one_pos)))
  h5 : k2_chk5 (arg2.view.readAt (Elt F) (Rect.unit (s := S25792) (k2_off9 i) S1.size (k2_off9_inb i)).toLoadRect (harg2.unread x2) (Shape.Idx.first (numel1_S1.symm ▸ Nat.one_pos)))
  h6 : k2_chk6 (arg2.view.readAt (Elt F) (Rect.unit (s := S25792) (k2_off11 i) S1.size (k2_off11_inb i)).toLoadRect (harg2.unread x2) (Shape.Idx.first (numel1_S1.symm ▸ Nat.one_pos)))
  h7 : k2_chk7 (arg2.view.readAt (Elt F) (Rect.unit (s := S25792) (k2_off13 i) S1.size (k2_off13_inb i)).toLoadRect (harg2.unread x2) (Shape.Idx.first (numel1_S1.symm ▸ Nat.one_pos)))
  h8 : k2_chk8 (arg2.view.readAt (Elt F) (Rect.unit (s := S25792) (k2_off15 i) S1.size (k2_off15_inb i)).toLoadRect (harg2.unread x2) (Shape.Idx.first (numel1_S1.symm ▸ Nat.one_pos)))
  h9 : k2_chk9 (arg2.view.readAt (Elt F) (Rect.unit (s := S25792) (k2_off17 i) S1.size (k2_off17_inb i)).toLoadRect (harg2.unread x2) (Shape.Idx.first (numel1_S1.symm ▸ Nat.one_pos)))
  h10 : k2_chk10 (arg2.view.readAt (Elt F) (Rect.unit (s := S25792) (k2_off19 i) S1.size (k2_off19_inb i)).toLoadRect (harg2.unread x2) (Shape.Idx.first (numel1_S1.symm ▸ Nat.one_pos)))
  h11 : k2_chk11 (arg2.view.readAt (Elt F) (Rect.unit (s := S25792) (k2_off21 i) S1.size (k2_off21_inb i)).toLoadRect (harg2.unread x2) (Shape.Idx.first (numel1_S1.symm ▸ Nat.one_pos)))
  h12 : k2_chk12 (arg2.view.readAt (Elt F) (Rect.unit (s := S25792) (k2_off23 i) S1.size (k2_off23_inb i)).toLoadRect (harg2.unread x2) (Shape.Idx.first (numel1_S1.symm ▸ Nat.one_pos)))
  h13 : k2_chk13 (arg2.view.readAt (Elt F) (Rect.unit (s := S25792) (k2_off25 i) S1.size (k2_off25_inb i)).toLoadRect (harg2.unread x2) (Shape.Idx.first (numel1_S1.symm ▸ Nat.one_pos)))
  h14 : k2_chk14 (arg2.view.readAt (Elt F) (Rect.unit (s := S25792) (k2_off27 i) S1.size (k2_off27_inb i)).toLoadRect (harg2.unread x2) (Shape.Idx.first (numel1_S1.symm ▸ Nat.one_pos)))
  h15 : k2_chk15 (arg2.view.readAt (Elt F) (Rect.unit (s := S25792) (k2_off29 i) S1.size (k2_off29_inb i)).toLoadRect (harg2.unread x2) (Shape.Idx.first (numel1_S1.symm ▸ Nat.one_pos)))
  h16 : k2_chk16 (arg2.view.readAt (Elt F) (Rect.unit (s := S25792) (k2_off31 i) S1.size (k2_off31_inb i)).toLoadRect (harg2.unread x2) (Shape.Idx.first (numel1_S1.symm ▸ Nat.one_pos)))
  h17 : k2_chk17 (arg2.view.readAt (Elt F) (Rect.unit (s := S25792) (k2_off33 i) S1.size (k2_off33_inb i)).toLoadRect (harg2.unread x2) (Shape.Idx.first (numel1_S1.symm ▸ Nat.one_pos)))
  h18 : k2_chk18 (arg2.view.readAt (Elt F) (Rect.unit (s := S25792) (k2_off35 i) S1.size (k2_off35_inb i)).toLoadRect (harg2.unread x2) (Shape.Idx.first (numel1_S1.symm ▸ Nat.one_pos)))
  h19 : k2_chk19 (arg2.view.readAt (Elt F) (Rect.unit (s := S25792) (k2_off37 i) S1.size (k2_off37_inb i)).toLoadRect (harg2.unread x2) (Shape.Idx.first (numel1_S1.symm ▸ Nat.one_pos)))
  h20 : k2_chk20 (arg2.view.readAt (Elt F) (Rect.unit (s := S25792) (k2_off39 i) S1.size (k2_off39_inb i)).toLoadRect (harg2.unread x2) (Shape.Idx.first (numel1_S1.symm ▸ Nat.one_pos)))
  h21 : k2_chk21 (arg2.view.readAt (Elt F) (Rect.unit (s := S25792) (k2_off41 i) S1.size (k2_off41_inb i)).toLoadRect (harg2.unread x2) (Shape.Idx.first (numel1_S1.symm ▸ Nat.one_pos)))
  h22 : k2_chk22 (arg2.view.readAt (Elt F) (Rect.unit (s := S25792) (k2_off43 i) S1.size (k2_off43_inb i)).toLoadRect (harg2.unread x2) (Shape.Idx.first (numel1_S1.symm ▸ Nat.one_pos)))
  h23 : k2_chk23 (arg2.view.readAt (Elt F) (Rect.unit (s := S25792) (k2_off45 i) S1.size (k2_off45_inb i)).toLoadRect (harg2.unread x2) (Shape.Idx.first (numel1_S1.symm ▸ Nat.one_pos)))
  h24 : k2_chk24 (arg2.view.readAt (Elt F) (Rect.unit (s := S25792) (k2_off47 i) S1.size (k2_off47_inb i)).toLoadRect (harg2.unread x2) (Shape.Idx.first (numel1_S1.symm ▸ Nat.one_pos)))
  h25 : k2_chk25 (arg2.view.readAt (Elt F) (Rect.unit (s := S25792) (k2_off49 i) S1.size (k2_off49_inb i)).toLoadRect (harg2.unread x2) (Shape.Idx.first (numel1_S1.symm ▸ Nat.one_pos)))
  h26 : k2_chk26 (arg2.view.readAt (Elt F) (Rect.unit (s := S25792) (k2_off51 i) S1.size (k2_off51_inb i)).toLoadRect (harg2.unread x2) (Shape.Idx.first (numel1_S1.symm ▸ Nat.one_pos)))
  h27 : k2_chk27 (arg2.view.readAt (Elt F) (Rect.unit (s := S25792) (k2_off53 i) S1.size (k2_off53_inb i)).toLoadRect (harg2.unread x2) (Shape.Idx.first (numel1_S1.symm ▸ Nat.one_pos)))
  h28 : k2_chk28 (arg2.view.readAt (Elt F) (Rect.unit (s := S25792) (k2_off55 i) S1.size (k2_off55_inb i)).toLoadRect (harg2.unread x2) (Shape.Idx.first (numel1_S1.symm ▸ Nat.one_pos)))
  h29 : k2_chk29 (arg2.view.readAt (Elt F) (Rect.unit (s := S25792) (k2_off57 i) S1.size (k2_off57_inb i)).toLoadRect (harg2.unread x2) (Shape.Idx.first (numel1_S1.symm ▸ Nat.one_pos)))
  h30 : k2_chk30 (arg2.view.readAt (Elt F) (Rect.unit (s := S25792) (k2_off59 i) S1.size (k2_off59_inb i)).toLoadRect (harg2.unread x2) (Shape.Idx.first (numel1_S1.symm ▸ Nat.one_pos)))
  h31 : k2_chk31 (arg2.view.readAt (Elt F) (Rect.unit (s := S25792) (k2_off61 i) S1.size (k2_off61_inb i)).toLoadRect (harg2.unread x2) (Shape.Idx.first (numel1_S1.symm ▸ Nat.one_pos)))
  h32 : k2_chk32 (arg2.view.readAt (Elt F) (Rect.unit (s := S25792) (k2_off63 i) S1.size (k2_off63_inb i)).toLoadRect (harg2.unread x2) (Shape.Idx.first (numel1_S1.symm ▸ Nat.one_pos)))

set_option maxHeartbeats 1000000 in

noncomputable def kernelRun2_A (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : cond2_0 i) (hc1 : ¬cond2_1 i)
    (x2 : Vec F S25792 .i32) (x3 : Vec F S2x4096 .f32) (x4 : Vec F S4096 .i32)
    (hks : Hw2 i arg2 harg2 x2) :
    { LS : List (View.Piece (Elt F) S2x100096 .f32) //
      ∀ (xi5 : Vec F S2x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ (∃ d, owns (c : Thread nD τ) arg6 fullShare d)
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (∃ f, arg6.view.loc (c : Thread nD τ) ↦[arg6.view.set]{fullShare} arg6.view.writes (Elt F) f LS)) -∗ K ⟨⟩))
          ⊢ wp frame (wpE (defs₀ (F := F)) 𝒱₀ c none) E (cc2__scatter_kernel i arg2 harg2 arg3 harg3 arg4 harg4 arg5 harg5 arg6 harg6) K } := by
  have k2_hw1 := hks.h1
  have k2_hw2 := hks.h2
  have k2_hw3 := hks.h3
  have k2_hw4 := hks.h4
  have k2_hw5 := hks.h5
  have k2_hw6 := hks.h6
  have k2_hw7 := hks.h7
  have k2_hw8 := hks.h8
  have k2_hw9 := hks.h9
  have k2_hw10 := hks.h10
  have k2_hw11 := hks.h11
  have k2_hw12 := hks.h12
  have k2_hw13 := hks.h13
  have k2_hw14 := hks.h14
  have k2_hw15 := hks.h15
  have k2_hw16 := hks.h16
  have k2_hw17 := hks.h17
  have k2_hw18 := hks.h18
  have k2_hw19 := hks.h19
  have k2_hw20 := hks.h20
  have k2_hw21 := hks.h21
  have k2_hw22 := hks.h22
  have k2_hw23 := hks.h23
  have k2_hw24 := hks.h24
  have k2_hw25 := hks.h25
  have k2_hw26 := hks.h26
  have k2_hw27 := hks.h27
  have k2_hw28 := hks.h28
  have k2_hw29 := hks.h29
  have k2_hw30 := hks.h30
  have k2_hw31 := hks.h31
  have k2_hw32 := hks.h32
  refine ⟨?_, fun xi5 E K => ?run⟩
  case run =>
    simp only [cc2__scatter_kernel_eq_skeleton]; unfold cc2__scatter_kernel_skel
    unfold owns
    iintro ⟨⟨%f2, %hf2, H2⟩, ⟨%f3, %hf3, H3⟩, ⟨%f4, %hf4, H4⟩, ⟨%f5, %hf5, H5⟩, ⟨%ds, %fs, -, HS⟩, Hk⟩
    obtain rfl := harg2.eq_unread hf2; obtain rfl := harg3.eq_unread hf3; obtain rfl := harg4.eq_unread hf4; obtain rfl := harg5.eq_unread hf5
    sl_exec (disch := first | sl_exact hc0 | sl_exact hc1 | sl_exact k2_hw1 | sl_exact k2_hw2 | sl_exact k2_hw3 | sl_exact k2_hw4 | sl_exact k2_hw5 | sl_exact k2_hw6 | sl_exact k2_hw7 | sl_exact k2_hw8 | sl_exact k2_hw9 | sl_exact k2_hw10 | sl_exact k2_hw11 | sl_exact k2_hw12 | sl_exact k2_hw13 | sl_exact k2_hw14 | sl_exact k2_hw15 | sl_exact k2_hw16 | sl_exact k2_hw17 | sl_exact k2_hw18 | sl_exact k2_hw19 | sl_exact k2_hw20 | sl_exact k2_hw21 | sl_exact k2_hw22 | sl_exact k2_hw23 | sl_exact k2_hw24 | sl_exact k2_hw25 | sl_exact k2_hw26 | sl_exact k2_hw27 | sl_exact k2_hw28 | sl_exact k2_hw29 | sl_exact k2_hw30 | sl_exact k2_hw31 | sl_exact k2_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact HS

set_option maxHeartbeats 1000000 in

noncomputable def kernelRun2_B (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : ¬cond2_0 i) (hc1 : ¬cond2_1 i)
    (x2 : Vec F S25792 .i32) (x3 : Vec F S2x4096 .f32) (x4 : Vec F S4096 .i32) (xs : Vec F S2x100096 .f32)
    (hks : Hw2 i arg2 harg2 x2) :
    { LS : List (View.Piece (Elt F) S2x100096 .f32) //
      ∀ (xi5 : Vec F S2x100096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xs
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc2__scatter_kernel i arg2 harg2 arg3 harg3 arg4 harg4 arg5 harg5 arg6 harg6) K } := by
  have k2_hw1 := hks.h1
  have k2_hw2 := hks.h2
  have k2_hw3 := hks.h3
  have k2_hw4 := hks.h4
  have k2_hw5 := hks.h5
  have k2_hw6 := hks.h6
  have k2_hw7 := hks.h7
  have k2_hw8 := hks.h8
  have k2_hw9 := hks.h9
  have k2_hw10 := hks.h10
  have k2_hw11 := hks.h11
  have k2_hw12 := hks.h12
  have k2_hw13 := hks.h13
  have k2_hw14 := hks.h14
  have k2_hw15 := hks.h15
  have k2_hw16 := hks.h16
  have k2_hw17 := hks.h17
  have k2_hw18 := hks.h18
  have k2_hw19 := hks.h19
  have k2_hw20 := hks.h20
  have k2_hw21 := hks.h21
  have k2_hw22 := hks.h22
  have k2_hw23 := hks.h23
  have k2_hw24 := hks.h24
  have k2_hw25 := hks.h25
  have k2_hw26 := hks.h26
  have k2_hw27 := hks.h27
  have k2_hw28 := hks.h28
  have k2_hw29 := hks.h29
  have k2_hw30 := hks.h30
  have k2_hw31 := hks.h31
  have k2_hw32 := hks.h32
  refine ⟨?_, fun xi5 E K => ?run⟩
  case run =>
    simp only [cc2__scatter_kernel_eq_skeleton]; unfold cc2__scatter_kernel_skel
    unfold owns
    iintro ⟨⟨%f2, %hf2, H2⟩, ⟨%f3, %hf3, H3⟩, ⟨%f4, %hf4, H4⟩, ⟨%f5, %hf5, H5⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hfs
    sl_exec (disch := first | sl_exact hc0 | sl_exact hc1 | sl_exact k2_hw1 | sl_exact k2_hw2 | sl_exact k2_hw3 | sl_exact k2_hw4 | sl_exact k2_hw5 | sl_exact k2_hw6 | sl_exact k2_hw7 | sl_exact k2_hw8 | sl_exact k2_hw9 | sl_exact k2_hw10 | sl_exact k2_hw11 | sl_exact k2_hw12 | sl_exact k2_hw13 | sl_exact k2_hw14 | sl_exact k2_hw15 | sl_exact k2_hw16 | sl_exact k2_hw17 | sl_exact k2_hw18 | sl_exact k2_hw19 | sl_exact k2_hw20 | sl_exact k2_hw21 | sl_exact k2_hw22 | sl_exact k2_hw23 | sl_exact k2_hw24 | sl_exact k2_hw25 | sl_exact k2_hw26 | sl_exact k2_hw27 | sl_exact k2_hw28 | sl_exact k2_hw29 | sl_exact k2_hw30 | sl_exact k2_hw31 | sl_exact k2_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexact HS

set_option maxHeartbeats 1000000 in

noncomputable def kernelRun2_C (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : ¬cond2_0 i) (hc1 : cond2_1 i)
    (x2 : Vec F S25792 .i32) (x3 : Vec F S2x4096 .f32) (x4 : Vec F S4096 .i32) (xs : Vec F S2x100096 .f32)
    (hks : Hw2 i arg2 harg2 x2) :
    Σ' (L5 : List (View.Piece (Elt F) S2x100096 .f32)), { LS : List (View.Piece (Elt F) S2x100096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare xs
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (arg6.view.loc (c : Thread nD τ) ↦[arg6.view.set]{fullShare} arg6.view.writes (Elt F) (harg6.unread xs) LS)) -∗ K ⟨⟩))
          ⊢ wp frame (wpE (defs₀ (F := F)) 𝒱₀ c none) E (cc2__scatter_kernel i arg2 harg2 arg3 harg3 arg4 harg4 arg5 harg5 arg6 harg6) K } := by
  have k2_hw1 := hks.h1
  have k2_hw2 := hks.h2
  have k2_hw3 := hks.h3
  have k2_hw4 := hks.h4
  have k2_hw5 := hks.h5
  have k2_hw6 := hks.h6
  have k2_hw7 := hks.h7
  have k2_hw8 := hks.h8
  have k2_hw9 := hks.h9
  have k2_hw10 := hks.h10
  have k2_hw11 := hks.h11
  have k2_hw12 := hks.h12
  have k2_hw13 := hks.h13
  have k2_hw14 := hks.h14
  have k2_hw15 := hks.h15
  have k2_hw16 := hks.h16
  have k2_hw17 := hks.h17
  have k2_hw18 := hks.h18
  have k2_hw19 := hks.h19
  have k2_hw20 := hks.h20
  have k2_hw21 := hks.h21
  have k2_hw22 := hks.h22
  have k2_hw23 := hks.h23
  have k2_hw24 := hks.h24
  have k2_hw25 := hks.h25
  have k2_hw26 := hks.h26
  have k2_hw27 := hks.h27
  have k2_hw28 := hks.h28
  have k2_hw29 := hks.h29
  have k2_hw30 := hks.h30
  have k2_hw31 := hks.h31
  have k2_hw32 := hks.h32
  refine ⟨?_, ?_, fun E K => ?run⟩
  case run =>
    simp only [cc2__scatter_kernel_eq_skeleton]; unfold cc2__scatter_kernel_skel
    unfold owns
    iintro ⟨⟨%f2, %hf2, H2⟩, ⟨%f3, %hf3, H3⟩, ⟨%f4, %hf4, H4⟩, ⟨%d5, %f5, -, H5⟩, ⟨%fs, %hfs, HS⟩, Hk⟩
    obtain rfl := harg2.eq_unread hf2; obtain rfl := harg3.eq_unread hf3; obtain rfl := harg4.eq_unread hf4; obtain rfl := harg6.eq_unread hfs
    sl_exec (disch := first | sl_exact hc0 | sl_exact hc1 | sl_exact k2_hw1 | sl_exact k2_hw2 | sl_exact k2_hw3 | sl_exact k2_hw4 | sl_exact k2_hw5 | sl_exact k2_hw6 | sl_exact k2_hw7 | sl_exact k2_hw8 | sl_exact k2_hw9 | sl_exact k2_hw10 | sl_exact k2_hw11 | sl_exact k2_hw12 | sl_exact k2_hw13 | sl_exact k2_hw14 | sl_exact k2_hw15 | sl_exact k2_hw16 | sl_exact k2_hw17 | sl_exact k2_hw18 | sl_exact k2_hw19 | sl_exact k2_hw20 | sl_exact k2_hw21 | sl_exact k2_hw22 | sl_exact k2_hw23 | sl_exact k2_hw24 | sl_exact k2_hw25 | sl_exact k2_hw26 | sl_exact k2_hw27 | sl_exact k2_hw28 | sl_exact k2_hw29 | sl_exact k2_hw30 | sl_exact k2_hw31 | sl_exact k2_hw32)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexact HS

end Cert.Kernel.Hand

end
-- ==== Proof.K.Body2Cover.lean ====
import proofs.«401711_j53747220742790_3_alg».proof.Proof.K.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

theorem mem_whole_S2x100096 (y : S2x100096.Idx) :
    y ∈ (Rect.unit (s := S2x100096) ![0, 0] S2x100096.size inb_S2x100096_S2x100096_0_0).set := by
  rw [Rect.mem_set_unit]
  intro a
  have h0 : (![0, 0] : Fin 2 → ℕ) a = 0 := by fin_cases a <;> rfl
  rw [h0, Nat.zero_add]
  exact ⟨Nat.zero_le _, (y a).isLt⟩

theorem scover2_A (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : cond2_0 i) (hc1 : ¬cond2_1 i)
    (x2 : Vec F S25792 .i32) (x3 : Vec F S2x4096 .f32) (x4 : Vec F S4096 .i32)
    (hks : Hw2 i arg2 harg2 x2) (y : S2x100096.Idx) :
    ∃ pc ∈ (kernelRun2_A (Ix := Ix) (U := U) (Lvl := Lvl) 𝒱₀ c i arg2 harg2 arg3 harg3 arg4 harg4 arg5 harg5 arg6 harg6 hc0 hc1 x2 x3 x4 hks).1, y ∈ pc.1.set := by
  refine ⟨⟨Rect.unit (s := S2x100096) ![0, 0] S2x100096.size inb_S2x100096_S2x100096_0_0, k2_pay2 (F := F)⟩, ?_, mem_whole_S2x100096 y⟩
  apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem; apply List.mem_cons_of_mem
  exact List.mem_cons_self

theorem cover2_C (𝒱₀ : Variants) (c : Dev nD) (i : grid2.Coords) (arg2 : Memref sig .tc .smem S25792 .i32) (harg2 : arg2.IsWhole) (arg3 : Memref sig .tc .vmem S2x4096 .f32) (harg3 : arg3.IsWhole) (arg4 : Memref sig .tc .vmem S4096 .i32) (harg4 : arg4.IsWhole) (arg5 : Memref sig .tc .vmem S2x100096 .f32) (harg5 : arg5.IsWhole) (arg6 : Memref sig .tc .vmem S2x100096 .f32) (harg6 : arg6.IsWhole) (hc0 : ¬cond2_0 i) (hc1 : cond2_1 i)
    (x2 : Vec F S25792 .i32) (x3 : Vec F S2x4096 .f32) (x4 : Vec F S4096 .i32) (xs : Vec F S2x100096 .f32)
    (hks : Hw2 i arg2 harg2 x2) (y : S2x100096.Idx) :
    ∃ pc ∈ (kernelRun2_C (Ix := Ix) (U := U) (Lvl := Lvl) 𝒱₀ c i arg2 harg2 arg3 harg3 arg4 harg4 arg5 harg5 arg6 harg6 hc0 hc1 x2 x3 x4 xs hks).1, y ∈ pc.1.set :=
  ⟨_, List.mem_cons_self, mem_whole_S2x100096 y⟩

end Cert.Kernel.Hand

end
-- ==== Proof.K.Region2.lean ====
import proofs.«401711_j53747220742790_3_alg».proof.Proof.K.Common
import proofs.«401711_j53747220742790_3_alg».proof.Proof.K.Body2Cover
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem word_ok2 {arg2 : Memref sig .tc .smem S25792 .i32} (harg2 : arg2.IsWhole) (x2 : Vec F S25792 .i32) (h : TblOk x2)
    (r : LoadRect S25792) (j : r.shape.Idx) :
    128 ∣ (arg2.view.readAt (Elt F) r (harg2.unread x2) j).toNat ∧ (arg2.view.readAt (Elt F) r (harg2.unread x2) j).toNat + 256 ≤ 100096 := by
  rw [View.readAt_apply, harg2.read_unread]; exact h _

-- A base word that is a multiple of 128 with its 256 lanes inside the accumulator's satisfies every window's bound.
theorem chk2_ok {w : BitVec 32} (h : 128 ∣ w.toNat ∧ w.toNat + 256 ≤ 100096) :
    128 ∣ w.toNat ∧ ∀ a : Fin 2, (![0, w.toNat] : Fin 2 → ℕ) a + S2x256.size a ≤ S2x100096.size a :=
  ⟨h.1, fun a => by fin_cases a <;> first | exact h.2 | exact Nat.le_refl _⟩

theorem hks2 {arg2 : Memref sig .tc .smem S25792 .i32} (harg2 : arg2.IsWhole) (x2 : Vec F S25792 .i32) (h : TblOk x2)
    (i : grid2.Coords) : Hw2 i arg2 harg2 x2 :=
  ⟨chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _), chk2_ok (word_ok2 harg2 x2 h _ _)⟩

theorem idleB2_0 : ∀ t : Fin grid2.N, idle2 0 (grid2.coords t) = false := by decide +kernel
theorem idleB2_1 : ∀ t : Fin grid2.N, idle2 1 (grid2.coords t) = false := by decide +kernel
theorem idleB2_2 : ∀ t : Fin grid2.N, idle2 2 (grid2.coords t) = !decide (t.val % 403 = 402) := by decide +kernel
theorem noFlushB2_2 : ∀ t : Fin grid2.N, ¬ t.val % 403 = 402 → (t.val + 1 = grid2.N || decide (∃ h : t.val + 1 < grid2.N, cc2_transform_2 (grid2.coords ⟨t.val + 1, h⟩) ≠ cc2_transform_2 (grid2.coords t))) = false := by decide +kernel

section Layout
variable (a : (pcfg2 (F := F)).Adm)

theorem noFlush2_2 (t : Fin (cfg2 a).N) (h : ¬ t.val % 403 = 402) : ((cfg2 a).win 2).flush t = false := noFlushB2_2 t h

theorem liveAt2_0 (t : Fin (cfg2 a).N) : (cfg2 a).idle 0 ((cfg2 a).grid.coords t) = false := idleB2_0 t
theorem liveAt2_1 (t : Fin (cfg2 a).N) : (cfg2 a).idle 1 ((cfg2 a).grid.coords t) = false := idleB2_1 t

theorem idleAt2_2 (t : Fin (cfg2 a).N) (h : ¬ t.val % 403 = 402) : (cfg2 a).idle 2 ((cfg2 a).grid.coords t) = true := by
  rw [show (cfg2 a).idle 2 ((cfg2 a).grid.coords t) = idle2 2 (grid2.coords t) from rfl, idleB2_2 t, decide_eq_false h]; rfl
theorem liveAt2_2 (t : Fin (cfg2 a).N) (h : t.val % 403 = 402) : (cfg2 a).idle 2 ((cfg2 a).grid.coords t) = false := by
  rw [show (cfg2 a).idle 2 ((cfg2 a).grid.coords t) = idle2 2 (grid2.coords t) from rfl, idleB2_2 t, decide_eq_true h]; rfl

abbrev ms2_0 (t : Fin (cfg2 a).N) : Memref sig .tc .vmem S2x4096 .f32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S4096 .i32 := spec2_1.stage ((cfg2 a).slots t 1)
abbrev hs2_1 (t : Fin (cfg2 a).N) : (ms2_1 a t).IsWhole := hstage2_1 (((cfg2 a).slots t 1).cast nbuf2_1)
abbrev ms2_2 (t : Fin (cfg2 a).N) : Memref sig .tc .vmem S2x100096 .f32 := spec2_2.stage ((cfg2 a).slots t 2)
abbrev hs2_2 (t : Fin (cfg2 a).N) : (ms2_2 a t).IsWhole := hstage2_2 (((cfg2 a).slots t 2).cast nbuf2_2)

abbrev tbM2 : Memref sig .tc .smem S25792 .i32 := Memref.whole main_v44
abbrev scM2 : Memref sig .tc .vmem S2x100096 .f32 := Memref.whole cc2_scratch0

abbrev VS2 : View sig .tc .vmem S2x100096 .f32 := scM2.view

abbrev VO2 : View sig .tc .vmem S2x100096 .f32 := (Memref.whole cc2_stg2_0 : Memref sig .tc .vmem S2x100096 .f32).view

abbrev bodyAt2 (t : Fin (cfg2 a).N) : Prog (TpuEff nD τ sig (Elt F) Λ₀ .tc) PUnit :=
  cc2__scatter_kernel (grid2.coords t) tbM2 (Memref.isWhole_whole _) (ms2_0 a t) (hs2_0 a t) (ms2_1 a t) (hs2_1 a t) (ms2_2 a t) (hs2_2 a t) scM2 (Memref.isWhole_whole _)

end Layout

section Region
variable (V : Dev nD → Valuation τ sig (Elt F)) (a : (pcfg2 (F := F)).Adm) (htbl : TblOk (a.1 0))

abbrev VR2 (c : Dev nD) (b : Ref sig .tc) : Buf (Elt F) ((c : Thread nD τ).loc b) := V c (Proc.devRef .tc b)

def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (VR2 V c (Pipeline.arrRef spec2 w))

abbrev run2_A (c : Dev nD) (t : Fin (cfg2 a).N) (h0 : t.val % 403 = 0) :=
  kernelRun2_A (Ix := Unit) (U := UR sig nD τ) (Lvl := ℕ) 𝒱₀ c (grid2.coords t) tbM2 (Memref.isWhole_whole _) (ms2_0 a t) (hs2_0 a t) (ms2_1 a t) (hs2_1 a t) (ms2_2 a t) (hs2_2 a t) scM2 (Memref.isWhole_whole _)
    ((hcond2_0 t).mpr h0) (fun h => by have := (hcond2_1 t).mp h; omega) (a.1 0) (iblk2 V a c 0 t) (iblk2 V a c 1 t)
    (hks2 _ (a.1 0) htbl _)

abbrev run2_B (c : Dev nD) (t : Fin (cfg2 a).N) (h0 : ¬t.val % 403 = 0) (h1 : ¬t.val % 403 = 402) (xs : Vec F S2x100096 .f32) :=
  kernelRun2_B (Ix := Unit) (U := UR sig nD τ) (Lvl := ℕ) 𝒱₀ c (grid2.coords t) tbM2 (Memref.isWhole_whole _) (ms2_0 a t) (hs2_0 a t) (ms2_1 a t) (hs2_1 a t) (ms2_2 a t) (hs2_2 a t) scM2 (Memref.isWhole_whole _)
    (fun h => h0 ((hcond2_0 t).mp h)) (fun h => h1 ((hcond2_1 t).mp h)) (a.1 0) (iblk2 V a c 0 t) (iblk2 V a c 1 t) xs
    (hks2 _ (a.1 0) htbl _)

abbrev run2_C (c : Dev nD) (t : Fin (cfg2 a).N) (h1 : t.val % 403 = 402) (xs : Vec F S2x100096 .f32) :=
  kernelRun2_C (Ix := Unit) (U := UR sig nD τ) (Lvl := ℕ) 𝒱₀ c (grid2.coords t) tbM2 (Memref.isWhole_whole _) (ms2_0 a t) (hs2_0 a t) (ms2_1 a t) (hs2_1 a t) (ms2_2 a t) (hs2_2 a t) scM2 (Memref.isWhole_whole _)
    (fun h => by have := (hcond2_0 t).mp h; omega) ((hcond2_1 t).mpr h1) (a.1 0) (iblk2 V a c 0 t) (iblk2 V a c 1 t) xs
    (hks2 _ (a.1 0) htbl _)

def sout2_A (c : Dev nD) (t : Fin (cfg2 a).N) (h0 : t.val % 403 = 0) : Vec F S2x100096 .f32 :=
  VS2.read (Elt F) (VS2.writes (Elt F) VS2.junk (run2_A V a htbl c t h0).1)

def sout2_B (c : Dev nD) (t : Fin (cfg2 a).N) (h0 : ¬t.val % 403 = 0) (h1 : ¬t.val % 403 = 402) (xs : Vec F S2x100096 .f32) : Vec F S2x100096 .f32 :=
  VS2.read (Elt F) (VS2.writes (Elt F) ((Memref.isWhole_whole cc2_scratch0).unread xs) (run2_B V a htbl c t h0 h1 xs).1)

def sout2_C (c : Dev nD) (t : Fin (cfg2 a).N) (h1 : t.val % 403 = 402) (xs : Vec F S2x100096 .f32) : Vec F S2x100096 .f32 :=
  VS2.read (Elt F) (VS2.writes (Elt F) ((Memref.isWhole_whole cc2_scratch0).unread xs) (run2_C V a htbl c t h1 xs).2.1)

def out2_C (c : Dev nD) (t : Fin (cfg2 a).N) (h1 : t.val % 403 = 402) (xs : Vec F S2x100096 .f32) : Vec F S2x100096 .f32 :=
  VO2.read (Elt F) (VO2.writes (Elt F) VO2.junk (run2_C V a htbl c t h1 xs).1)

def scrAt2 (c : Dev nD) : (n : ℕ) → n < (cfg2 a).N → Vec F S2x100096 .f32
  | 0, hn => sout2_A V a htbl c ⟨0, hn⟩ (Nat.zero_mod _)
  | n + 1, hn =>
    if h0 : (n + 1) % 403 = 0 then sout2_A V a htbl c ⟨n + 1, hn⟩ h0
    else if h1 : (n + 1) % 403 = 402 then sout2_C V a htbl c ⟨n + 1, hn⟩ h1 (scrAt2 c n (Nat.lt_of_succ_lt hn))
    else sout2_B V a htbl c ⟨n + 1, hn⟩ h0 h1 (scrAt2 c n (Nat.lt_of_succ_lt hn))

abbrev prev2 (c : Dev nD) (t : Fin (cfg2 a).N) : Vec F S2x100096 .f32 :=
  scrAt2 V a htbl c (t.val - 1) (Nat.lt_of_le_of_lt (Nat.sub_le _ _) t.isLt)

theorem scrAt2_A (c : Dev nD) (t : Fin (cfg2 a).N) (h0 : t.val % 403 = 0) :
    scrAt2 V a htbl c t.val t.isLt = sout2_A V a htbl c t h0 := by
  obtain ⟨n, hn⟩ := t
  cases n with
  | zero => rfl
  | succ n => exact dif_pos h0

theorem scrAt2_B (c : Dev nD) (t : Fin (cfg2 a).N) (h0 : ¬t.val % 403 = 0) (h1 : ¬t.val % 403 = 402) :
    scrAt2 V a htbl c t.val t.isLt = sout2_B V a htbl c t h0 h1 (prev2 V a htbl c t) := by
  obtain ⟨n, hn⟩ := t
  cases n with
  | zero => exact absurd (Nat.zero_mod _) h0
  | succ n => exact (dif_neg h0).trans (dif_neg h1)

theorem scrAt2_C (c : Dev nD) (t : Fin (cfg2 a).N) (h1 : t.val % 403 = 402) :
    scrAt2 V a htbl c t.val t.isLt = sout2_C V a htbl c t h1 (prev2 V a htbl c t) := by
  obtain ⟨n, hn⟩ := t
  cases n with
  | zero => exact absurd ((Nat.zero_mod 403).symm.trans h1) (by decide)
  | succ n =>
    have h1' : (n + 1) % 403 = 402 := h1
    exact (dif_neg (by omega)).trans (dif_pos h1)

def outAt2 (c : Dev nD) (t : Fin (cfg2 a).N) : Vec F S2x100096 .f32 :=
  if h1 : t.val % 403 = 402 then out2_C V a htbl c t h1 (prev2 V a htbl c t) else scrAt2 V a htbl c t.val t.isLt

theorem outAt2_C (c : Dev nD) (t : Fin (cfg2 a).N) (h1 : t.val % 403 = 402) :
    outAt2 V a htbl c t = out2_C V a htbl c t h1 (prev2 V a htbl c t) := dif_pos h1

def restS2 (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ restS2 c) := by
  unfold Pipeline.scopedRest restS2
  rw [BI.bigSep_erase (i := cc2_scratch0) (by decide)]
  simp only [scM2, owns_whole]; try rfl

def PhiS2 (c : Dev nD) : (n : ℕ) → n ≤ (cfg2 a).N → sProp 𝕄
  | 0, _ => iprop(owns (c : Thread nD τ) tbM2 fullShare (a.1 0) ∗ (∃ d, owns (c : Thread nD τ) scM2 fullShare d) ∗ restS2 c ∗ ∃ r, prngReg c r)
  | n + 1, hn => iprop(owns (c : Thread nD τ) tbM2 fullShare (a.1 0) ∗ owns (c : Thread nD τ) scM2 fullShare (scrAt2 V a htbl c n hn) ∗ restS2 c ∗ ∃ r, prngReg c r)

theorem PhiS2_zero (c : Dev nD) (n : ℕ) (h : n ≤ (cfg2 a).N) (hz : n = 0) :
    PhiS2 V a htbl c n h = iprop(owns (c : Thread nD τ) tbM2 fullShare (a.1 0) ∗ (∃ d, owns (c : Thread nD τ) scM2 fullShare d) ∗ restS2 c ∗ ∃ r, prngReg c r) := by
  subst hz; rfl

theorem PhiS2_succ (c : Dev nD) (n : ℕ) (hn : n < (cfg2 a).N) :
    PhiS2 V a htbl c (n + 1) hn = iprop(owns (c : Thread nD τ) tbM2 fullShare (a.1 0) ∗ owns (c : Thread nD τ) scM2 fullShare (scrAt2 V a htbl c n hn) ∗ restS2 c ∗ ∃ r, prngReg c r) := rfl

theorem PhiS2_pos (c : Dev nD) (n : ℕ) (h : n ≤ (cfg2 a).N) (hz : n ≠ 0) :
    PhiS2 V a htbl c n h = iprop(owns (c : Thread nD τ) tbM2 fullShare (a.1 0) ∗ owns (c : Thread nD τ) scM2 fullShare (scrAt2 V a htbl c (n - 1) (by omega)) ∗ restS2 c ∗ ∃ r, prngReg c r) := by
  cases n with
  | zero => exact absurd rfl hz
  | succ n => rfl

def dat2 (c : Dev nD) : Dat τ (Elt F) Unit ℕ (UR sig nD τ) ℕ (cfg2 a) c where
  A w := VR2 V c (Pipeline.arrRef spec2 w)
  after w t := match w with
    | 0 => iblk2 V a c 0 t
    | 1 => iblk2 V a c 1 t
    | 2 => outAt2 V a htbl c t
    | ⟨_ + 3, h⟩ => absurd h (Nat.not_lt.2 (Nat.le_add_left _ _))
  Φ t := PhiS2 V a htbl c t.val (Nat.le_of_lt_succ t.isLt)
  q _ := fullShare
  owed _ := 0

theorem A_eq2 (c : Dev nD) (w : Fin (cfg2 a).W) : (dat2 V a htbl c).A w = VR2 V c (Pipeline.arrRef spec2 w) := by
  dsimp only [dat2]

theorem PhiS2_castSucc (c : Dev nD) (t : Fin (cfg2 a).N) :
    (dat2 V a htbl c).Φ t.castSucc = PhiS2 V a htbl c t.val (Nat.le_of_lt t.isLt) := by
  dsimp only [dat2]; simp only [Fin.coe_castSucc]

theorem after2_0 (c : Dev nD) (t : Fin (cfg2 a).N) : (dat2 V a htbl c).after 0 t = iblk2 V a c 0 t := by dsimp only [dat2]; rfl
theorem after2_1 (c : Dev nD) (t : Fin (cfg2 a).N) : (dat2 V a htbl c).after 1 t = iblk2 V a c 1 t := by dsimp only [dat2]; rfl
theorem after2_2 (c : Dev nD) (t : Fin (cfg2 a).N) : (dat2 V a htbl c).after 2 t = outAt2 V a htbl c t := by dsimp only [dat2]; rfl

theorem before2_0 (c : Dev nD) (t : Fin (cfg2 a).N) (d) : (dat2 V a htbl c).before 0 t d = iblk2 V a c 0 t :=
  ((dat2 V a htbl c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin (cfg2 a).N) (d) : (dat2 V a htbl c).before 1 t d = iblk2 V a c 1 t :=
  ((dat2 V a htbl c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

def bodyPre2 (c : Dev nD) (t : Fin (cfg2 a).N) : sProp 𝕄 :=
  iprop((dat2 V a htbl c).Φ t.castSucc ∗ (dat2 V a htbl c).owesAt () t.castSucc
    ∗ (∃ d, owns (c : Thread nD τ) (ms2_0 a t) fullShare ((dat2 V a htbl c).before 0 t d))
    ∗ (∃ d, owns (c : Thread nD τ) (ms2_1 a t) fullShare ((dat2 V a htbl c).before 1 t d))
    ∗ (∃ d, owns (c : Thread nD τ) (ms2_2 a t) fullShare ((dat2 V a htbl c).before 2 t d)))

def bodyPost2 (c : Dev nD) (t : Fin (cfg2 a).N) : sProp 𝕄 :=
  iprop((dat2 V a htbl c).Φ t.succ ∗ (dat2 V a htbl c).owesAt () t.succ
    ∗ (dat2 V a htbl c).leavesExact 0 t
    ∗ (dat2 V a htbl c).leavesExact 1 t
    ∗ (dat2 V a htbl c).leavesExact 2 t)

set_option maxHeartbeats 4000000 in

theorem sound_body2 (c : Dev nD) (t : Fin (cfg2 a).N) :
    bodyPre2 V a htbl c t ⊢ wp frame (wpE (defs₀ (F := F)) 𝒱₀ c none) Set.univ (bodyAt2 a t) (fun _ => bodyPost2 V a htbl c t) := by
  unfold bodyPre2 bodyPost2 bodyAt2
  simp only [before2_0, before2_1]
  rw [show (dat2 V a htbl c).owesAt () t.succ = (dat2 V a htbl c).owesAt () t.castSucc from rfl]
  rw [show (dat2 V a htbl c).Φ t.succ = PhiS2 V a htbl c (t.val + 1) t.isLt from rfl, PhiS2_succ]
  rw [show (dat2 V a htbl c).leavesExact 0 t = owns (c : Thread nD τ) (ms2_0 a t) fullShare ((dat2 V a htbl c).after 0 t) from by
    unfold Dat.leavesExact; rw [liveAt2_0 a t]; rfl, after2_0]
  rw [show (dat2 V a htbl c).leavesExact 1 t = owns (c : Thread nD τ) (ms2_1 a t) fullShare ((dat2 V a htbl c).after 1 t) from by
    unfold Dat.leavesExact; rw [liveAt2_1 a t]; rfl, after2_1]
  by_cases h0 : t.val % 403 = 0
  · have h1 : ¬t.val % 403 = 402 := by omega
    rw [Dat.leavesExact_idle (dat2 V a htbl c) 2 t (idleAt2_2 a t h1) (noFlush2_2 a t h1)]
    rw [scrAt2_A V a htbl c t h0]
    unfold sout2_A
    by_cases hz : t.val = 0
    · rw [PhiS2_castSucc V a htbl c t, PhiS2_zero V a htbl c _ _ hz]
      iintro ⟨⟨Htb, HS, Hrest, Hg⟩, Ho, ⟨%d0, H0⟩, ⟨%d1, H1⟩, ⟨%d2, H2⟩⟩
      iapply ((run2_A V a htbl c t h0).2 _ Set.univ _)
      isplitl [Htb]; · iexact Htb
      isplitl [H0]; · iexact H0
      isplitl [H1]; · iexact H1
      isplitl [H2]; · iexact H2
      isplitl [HS]; · iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover2_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
    · rw [PhiS2_castSucc V a htbl c t, PhiS2_pos V a htbl c _ _ hz]
      iintro ⟨⟨Htb, HS, Hrest, Hg⟩, Ho, ⟨%d0, H0⟩, ⟨%d1, H1⟩, ⟨%d2, H2⟩⟩
      iapply ((run2_A V a htbl c t h0).2 _ Set.univ _)
      isplitl [Htb]; · iexact Htb
      isplitl [H0]; · iexact H0
      isplitl [H1]; · iexact H1
      isplitl [H2]; · iexact H2
      isplitl [HS]; · iexists _; iexact HS
      iintro ⟨Htb, H0, H1, H2, ⟨%es, HS⟩⟩
      isplitl [Htb HS Hrest Hg]
      · isplitl [Htb]; · iexact Htb
        isplitl [HS]
        · unfold owns; iexists _; isplitr
          swap; · iexact HS
          ipureintro; exact View.read_writes_of_cover _ _ _ _ _ (fun y => scover2_A (Ix := Unit) (U := UR sig nD τ) (Lvl := ℕ) ..)
        isplitl [Hrest]; · iexact Hrest
        iexact Hg
      isplitl [Ho]; · iexact Ho
      isplitl [H0]; · iexact H0
      isplitl [H1]; · iexact H1
      iexists _; iexact H2
  · have hz : t.val ≠ 0 := fun hz => h0 (by rw [hz])
    rw [PhiS2_castSucc V a htbl c t, PhiS2_pos V a htbl c _ _ hz]
    by_cases h1 : t.val % 403 = 402
    · rw [show (dat2 V a htbl c).leavesExact 2 t = owns (c : Thread nD τ) (ms2_2 a t) fullShare ((dat2 V a htbl c).after 2 t) from by
        unfold Dat.leavesExact; rw [liveAt2_2 a t h1]; rfl, after2_2, outAt2_C V a htbl c t h1]
      rw [scrAt2_C V a htbl c t h1]
      unfold sout2_C out2_C
      iintro ⟨⟨Htb, HS, Hrest, Hg⟩, Ho, ⟨%d0, H0⟩, ⟨%d1, H1⟩, ⟨%d2, H2⟩⟩
      iapply ((run2_C V a htbl c t h1 (prev2 V a htbl c t)).2.2 Set.univ _)
      isplitl [Htb]; · iexact Htb
      isplitl [H0]; · iexact H0
      isplitl [H1]; · iexact H1
      isplitl [H2]; · iexists _; iexact H2
      isplitl [HS]; · iexact HS
      iintro ⟨Htb, H0, H1, ⟨%e5, H2⟩, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (fun y => cover2_C (Ix := Unit) (U := UR sig nD τ) (Lvl := ℕ) ..)
    · rw [Dat.leavesExact_idle (dat2 V a htbl c) 2 t (idleAt2_2 a t h1) (noFlush2_2 a t h1)]
      rw [scrAt2_B V a htbl c t h0 h1]
      unfold sout2_B
      iintro ⟨⟨Htb, HS, Hrest, Hg⟩, Ho, ⟨%d0, H0⟩, ⟨%d1, H1⟩, ⟨%d2, H2⟩⟩
      iapply ((run2_B V a htbl c t h0 h1 (prev2 V a htbl c t)).2 _ Set.univ _)
      isplitl [Htb]; · iexact Htb
      isplitl [H0]; · iexact H0
      isplitl [H1]; · iexact H1
      isplitl [H2]; · iexact H2
      isplitl [HS]; · iexact HS
      iintro ⟨Htb, H0, H1, H2, HS⟩
      isplitl [Htb HS Hrest Hg]
      · isplitl [Htb]; · iexact Htb
        isplitl [HS]
        · unfold owns; iexists _; isplitr
          swap; · iexact HS
          ipureintro; rfl
        isplitl [Hrest]; · iexact Hrest
        iexact Hg
      isplitl [Ho]; · iexact Ho
      isplitl [H0]; · iexact H0
      isplitl [H1]; · iexact H1
      iexists _; iexact H2

theorem body_obligation2 (c : Dev nD) : BodyObligation (dat2 V a htbl c) (defs₀ (F := F)) 𝒱₀ () Set.univ := fun t => by
  rw [bigSep_W2, bigSep_W2]
  exact sound_body2 V a htbl c t

end Region

section Seg

theorem prefHeld2_eq_owns (c : Dev nD) (T : pre2.Contents (Elt F)) :
    (Pipeline.prefHeld (Ix := Unit) (Name := ℕ) (U := UR sig nD τ) (Lvl := ℕ) pre2 c (fun _ => fullShare) T : sProp 𝕄)
      = owns (c : Thread nD τ) tbM2 fullShare (T 0) := by
  unfold Pipeline.prefHeld
  rw [show (Finset.univ : Finset (Fin pre2.K)) = {0} from rfl, BI.bigSep_singleton]
  exact (owns_whole (c : Thread nD τ) main_v44 fullShare (T 0)).symm

theorem arrRef2_0_ne : (Proc.devRef .tc (Pipeline.arrRef spec2 (0 : Fin 3)) : DevRef τ sig) ≠ Proc.devRef .tc main_v98 :=
  StableHlo.devRef_ne_of_ne (by decide)
theorem arrRef2_1_ne : (Proc.devRef .tc (Pipeline.arrRef spec2 (1 : Fin 3)) : DevRef τ sig) ≠ Proc.devRef .tc main_v98 :=
  StableHlo.devRef_ne_of_ne (by decide)

theorem update2_arr (Vc : Valuation τ sig (Elt F)) (X : (Proc.devRef (τ := τ) .tc main_v98).ty.Contents (Elt F)) :
    Function.update Vc (Proc.devRef .tc main_v98) X (Proc.devRef .tc (Pipeline.arrRef spec2 (2 : Fin 3))) = X :=
  Function.update_self ..

variable (V : Dev nD → Valuation τ sig (Elt F)) (a : (p : Fin 3) → (pcfgs (F := F) p).Adm)
  (htbl : TblOk ((a 2).1 0))

abbrev Vout2 (c : Dev nD) : Valuation τ sig (Elt F) :=
  Function.update (V c) main_v98 ((dat2 V (a 2) htbl c).arrAt 2 grid2.N)

theorem hF2 (c : Dev nD) : ∀ w : Fin 3,
    (dat2 V (a 2) htbl c).arrAt w grid2.N = Vout2 V a htbl c (Proc.devRef .tc (Pipeline.arrRef spec2 w))
  | 0 => ((dat2 V (a 2) htbl c).arrAt_in 0 rfl _).trans ((A_eq2 V (a 2) htbl c 0).trans (Function.update_of_ne arrRef2_0_ne _ _).symm)
  | 1 => ((dat2 V (a 2) htbl c).arrAt_in 1 rfl _).trans ((A_eq2 V (a 2) htbl c 1).trans (Function.update_of_ne arrRef2_1_ne _ _).symm)
  | 2 => (update2_arr (V c) _).symm
  | ⟨_ + 3, h⟩ => absurd h (Nat.not_lt.2 (Nat.le_add_left _ _))

theorem hrest2 (c : Dev nD) : ∀ b : Ref sig .tc, b ∉ Finset.univ.image (Pipeline.arrRef spec2) →
    Vout2 V a htbl c (Proc.devRef .tc b) = V c (Proc.devRef .tc b) := fun b hb =>
  Function.update_of_ne (StableHlo.devRef_ne_of_ne fun e => hb (Finset.mem_image.mpr ⟨2, Finset.mem_univ _, e.symm⟩)) _ _

set_option backward.isDefEq.respectTransparency.types false in

def reg2 (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 2).1 0))
    (hV : ∀ (c : Dev nD) (k : Fin 1), (a 2).1 k = V c (Proc.devRef .tc (pre2.ref k)))
    (hd : ∀ c : Dev nD, pdats 2 c = dat2 V (a 2) htbl c) :
    Pipeline.RegionSeg (pcfgs (F := F)) a pdats () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := by rw [hd c]; exact (body_obligation2 V (a 2) htbl c).loose
  hwaits := Pipeline.hwaits_of_owed_zero _ _ _ _ L lv 2 fun c t => by rw [hd c]; rfl
  pre c := iprop(StableHlo.held (c : Thread nD τ) (Pipeline.ucRefs τ sig) (V c) ∗ R c)
  post c := iprop(StableHlo.held (c : Thread nD τ) (Pipeline.ucRefs τ sig) (Vout2 V a htbl c) ∗ R c)
  X c := iprop(∃ r, prngReg c r)
  Y c := iprop(owns (c : Thread nD τ) tbM2 fullShare ((a 2).1 0) ∗ ∃ r, prngReg c r)
  Z c := Pipeline.unscopedRestP (Ix := Unit) (Name := ℕ) (U := UR sig nD τ) (Lvl := ℕ) pre2 spec2 c (VR2 V c)
  hentry c := by
    have hsplit : (StableHlo.held (c : Thread nD τ) (Pipeline.ucRefs τ sig) (V c) : sProp 𝕄)
        ⊢ iprop((dat2 V (a 2) htbl c).arrays ((dat2 V (a 2) htbl c).arrAt · 0)
            ∗ Pipeline.prefHeld pre2 c (fun _ => fullShare) (a 2).1 ∗ Pipeline.unscopedRestP pre2 spec2 c (VR2 V c)) := by
      have h := Pipeline.arrays_of_unscopedBufs (p := 2) (pcfgs (F := F)) a pdats (launch2 (F := F)).win (launch2 (F := F)).arr_whole c
        (by rw [hd c]; exact (dat2 V (a 2) htbl c).share_full fun _ => rfl) (VR2 V c) (fun w => by rw [hd c]; rfl)
      rw [Pipeline.unscopedBufs_held, Pipeline.unscopedRest_split (launch2 (F := F)).pre c (VR2 V c), hd c] at h
      rw [show (a 2).1 = fun k => VR2 V c (pre2.ref k) from funext (hV c)]
      exact h
    rw [Pipeline.ownSems0_none, hd c]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd c]
    show iprop((∃ r, prngReg c r) ∗ Pipeline.prefHeld pre2 c (fun _ => fullShare) (a 2).1 ∗ Pipeline.scopedRest spec2 c)
      ⊢ PhiS2 V (a 2) htbl c 0 (Nat.zero_le _)
    rw [PhiS2_zero V (a 2) htbl c 0 _ rfl, scopedRest2_split, prefHeld2_eq_owns]
    iintro ⟨Hg, Hpf, HS, Hrest⟩
    isplitl [Hpf]; · iexact Hpf
    isplitl [HS]; · iexact HS
    isplitl [Hrest]; · iexact Hrest
    iexact Hg
  hout c := by
    rw [Pipeline.ownSems0_none, hd c]
    show PhiS2 V (a 2) htbl c (cfg2 (a 2)).N (Nat.le_refl _)
      ⊢ iprop((owns (c : Thread nD τ) tbM2 fullShare ((a 2).1 0) ∗ ∃ r, prngReg c r) ∗ BI.emp ∗ Pipeline.scopedRest spec2 c)
    rw [PhiS2_pos V (a 2) htbl c _ _ (show grid2.N ≠ 0 by decide), scopedRest2_split]
    iintro ⟨Htb, HS, Hrest, Hg⟩
    isplitl [Htb Hg]
    · isplitl [Htb]; · iexact Htb
      iexact Hg
    isplitr; · iempintro
    isplitl [HS]; · iexists _; iexact HS
    iexact Hrest
  hexit c := by
    have hjoin : iprop((dat2 V (a 2) htbl c).arrays ((dat2 V (a 2) htbl c).arrAt · grid2.N)
          ∗ owns (c : Thread nD τ) tbM2 fullShare ((a 2).1 0) ∗ Pipeline.unscopedRestP pre2 spec2 c (VR2 V c))
        ⊢ (StableHlo.held (c : Thread nD τ) (Pipeline.ucRefs τ sig) (Vout2 V a htbl c) : sProp 𝕄) := by
      have h := Pipeline.unscopedBufs_of_arrays (p := 2) (pcfgs (F := F)) a (Ix := Unit) (Name := ℕ) (U := UR sig nD τ) (Lvl := ℕ)
        (launch2 (F := F)).win (launch2 (F := F)).arr_whole c pdats (by rw [hd c]; exact (dat2 V (a 2) htbl c).share_full fun _ => rfl)
        (VR2 V c) (fun b => Vout2 V a htbl c (Proc.devRef .tc b)) ((dat2 V (a 2) htbl c).arrAt · grid2.N)
        (hF2 V a htbl c) (hrest2 V a htbl c)
      rw [Pipeline.unscopedBufs_held, Pipeline.unscopedRest_split (launch2 (F := F)).pre c (VR2 V c), hd c] at h
      rw [← prefHeld2_eq_owns, show (a 2).1 = fun k => VR2 V c (pre2.ref k) from funext (hV c)]
      exact h
    rw [hd c]
    iintro ⟨Ha, HO, ⟨Hpf, Hg⟩, Hrest⟩
    imodintro
    isplitl [Ha Hpf Hrest]
    · iapply hjoin
      isplitl [Ha]; · iexact Ha
      isplitl [Hpf]; · iexact Hpf
      iexact Hrest
    isplitl [Hg]; · iexact Hg
    unfold Pipeline.Dat.owesAt Pipeline.owesWithin
    icases HO with ⟨%W, -, HO⟩; iexists W; iexact HO

theorem reg2_pre (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 2).1 0))
    (hV : ∀ (c : Dev nD) (k : Fin 1), (a 2).1 k = V c (Proc.devRef .tc (pre2.ref k)))
    (hd : ∀ c : Dev nD, pdats 2 c = dat2 V (a 2) htbl c) (c : Dev nD) :
    (reg2 V a pdats htbl hV hd).pre c = iprop(StableHlo.held (c : Thread nD τ) (Pipeline.ucRefs τ sig) (V c) ∗ R c) := rfl
theorem reg2_post (V : Dev nD → Valuation τ sig (Elt F)) (a : (p : Fin 3) → (pcfgs (F := F) p).Adm)
    (pdats : (p : Fin 3) → (c : Dev nD) → Dat τ (Elt F) Unit ℕ (UR sig nD τ) ℕ (Pipeline.pin (pcfgs (F := F)) a p) c)
    (htbl : TblOk ((a 2).1 0))
    (hV : ∀ (c : Dev nD) (k : Fin 1), (a 2).1 k = V c (Proc.devRef .tc (pre2.ref k)))
    (hd : ∀ c : Dev nD, pdats 2 c = dat2 V (a 2) htbl c) (c : Dev nD) :
    (reg2 V a pdats htbl hV hd).post c = iprop(StableHlo.held (c : Thread nD τ) (Pipeline.ucRefs τ sig) (Function.update (V c) main_v98 ((dat2 V (a 2) htbl c).arrAt 2 grid2.N)) ∗ R c) := rfl

end Seg

end Cert.Kernel.Hand

end
-- ==== Proof.K.Family.lean ====
import proofs.«401711_j53747220742790_3_alg».proof.Proof.K.Common
import proofs.«401711_j53747220742790_3_alg».proof.Proof.K.Outs
import proofs.«401711_j53747220742790_3_alg».proof.Proof.K.LaunchFrame
import proofs.«401711_j53747220742790_3_alg».proof.Proof.K.HostInts
import proofs.«401711_j53747220742790_3_alg».proof.Proof.K.Region0
import proofs.«401711_j53747220742790_3_alg».proof.Proof.K.Region1
import proofs.«401711_j53747220742790_3_alg».proof.Proof.K.Region2

set_option maxRecDepth 1288

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

def adm : (p : Fin 3) → (pcfgs (F := F) p).Adm
  | ⟨0, _⟩ => ⟨fun k => V5 m 0 (Proc.devRef .tc (pre0.ref k)), trivial⟩
  | ⟨1, _⟩ => ⟨fun k => V5 m 0 (Proc.devRef .tc (pre1.ref k)), trivial⟩
  | ⟨2, _⟩ => ⟨fun k => V5 m 0 (Proc.devRef .tc (pre2.ref k)), trivial⟩

variable {m}
variable (h : IdxOk m)

theorem htbl0 (h : IdxOk m) : TblOk ((adm m 0).1 0) := tbl_ok m h 0
theorem htbl1 (h : IdxOk m) : TblOk ((adm m 1).1 0) := tbl_ok m h 0
theorem htbl2 (h : IdxOk m) : TblOk ((adm m 2).1 0) := tbl_ok m h 0

def o6 (c : Dev nD) : Buf (Elt F) ((c : Thread nD τ).loc main_v47) := (dat0 (V5 m) (adm m 0) (htbl0 h) c).arrAt 2 grid0.N

def o10 (W : Dev nD → Valuation τ sig (Elt F)) (c : Dev nD) : Buf (Elt F) ((c : Thread nD τ).loc main_v70) :=
  (dat1 W (adm m 1) (htbl1 h) c).arrAt 2 grid1.N

def o14 (W : Dev nD → Valuation τ sig (Elt F)) (c : Dev nD) : Buf (Elt F) ((c : Thread nD τ).loc main_v98) :=
  (dat2 W (adm m 2) (htbl2 h) c).arrAt 2 grid2.N

abbrev E9 : Dev nD → Valuation τ sig (Elt F) := W9 m (o6 h)

abbrev E13 : Dev nD → Valuation τ sig (Elt F) := W13 m (o6 h) (o10 h)

abbrev outsOf : Outs (F := F) := outs m (o6 h) (o10 h) (o14 h)

def pdats : (p : Fin 3) → (c : Dev nD) → Dat τ (Elt F) Unit ℕ (UR sig nD τ) ℕ (Pipeline.pin (pcfgs (F := F)) (adm m) p) c
  | ⟨0, _⟩ => fun c => dat0 (V5 m) (adm m 0) (htbl0 h) c
  | ⟨1, _⟩ => fun c => dat1 (E9 h) (adm m 1) (htbl1 h) c
  | ⟨2, _⟩ => fun c => dat2 (E13 h) (adm m 2) (htbl2 h) c

theorem hd0 (c : Dev nD) : pdats h 0 c = dat0 (V5 m) (adm m 0) (htbl0 h) c := rfl
theorem hd1 (c : Dev nD) : pdats h 1 c = dat1 (E9 h) (adm m 1) (htbl1 h) c := rfl
theorem hd2 (c : Dev nD) : pdats h 2 c = dat2 (E13 h) (adm m 2) (htbl2 h) c := rfl

theorem hV0 (c : Dev nD) (k : Fin 1) : (adm m 0).1 k = V5 m c (Proc.devRef .tc (pre0.ref k)) := by
  rw [Subsingleton.elim c 0]; rfl
theorem hV1 (c : Dev nD) (k : Fin 1) : (adm m 1).1 k = E9 h c (Proc.devRef .tc (pre1.ref k)) := by
  rw [Subsingleton.elim c 0]
  match k with
  | 0 => exact (W9_main_v44 m (o6 h) 0).symm
theorem hV2 (c : Dev nD) (k : Fin 1) : (adm m 2).1 k = E13 h c (Proc.devRef .tc (pre2.ref k)) := by
  rw [Subsingleton.elim c 0]
  match k with
  | 0 => exact (W13_main_v44 m (o6 h) (o10 h) 0).symm

def R0 : RegionSeg (pcfgs (F := F)) (adm m) (pdats h) () defs₀ 𝒱₀ L lv 0 :=
  reg0 (V5 m) (adm m) (pdats h) (htbl0 h) hV0 (hd0 h)

def R1 : RegionSeg (pcfgs (F := F)) (adm m) (pdats h) () defs₀ 𝒱₀ L lv 1 :=
  reg1 (E9 h) (adm m) (pdats h) (htbl1 h) (hV1 h) (hd1 h)

def R2 : RegionSeg (pcfgs (F := F)) (adm m) (pdats h) () defs₀ 𝒱₀ L lv 2 :=
  reg2 (E13 h) (adm m) (pdats h) (htbl2 h) (hV2 h) (hd2 h)

theorem hpre0 (c : Dev nD) : iprop(StableHlo.held (c : Thread nD τ) (Pipeline.ucRefs τ sig) (V5 m c) ∗ R c) ⊢ (R0 h).pre c := by
  unfold R0; rw [reg0_pre]
theorem hpost0 (c : Dev nD) : (R0 h).post c ⊢ iprop(StableHlo.held (c : Thread nD τ) (Pipeline.ucRefs τ sig) (V6 m (outsOf h) c) ∗ R c) := by
  unfold R0; rw [reg0_post, V6_eq]; exact .rfl
theorem hpre1 (c : Dev nD) : iprop(StableHlo.held (c : Thread nD τ) (Pipeline.ucRefs τ sig) (V9 m (outsOf h) c) ∗ R c) ⊢ (R1 h).pre c := by
  unfold R1; rw [reg1_pre, V9_eq]
theorem hpost1 (c : Dev nD) : (R1 h).post c ⊢ iprop(StableHlo.held (c : Thread nD τ) (Pipeline.ucRefs τ sig) (V10 m (outsOf h) c) ∗ R c) := by
  unfold R1; rw [reg1_post, V10_eq]; exact .rfl
theorem hpre2 (c : Dev nD) : iprop(StableHlo.held (c : Thread nD τ) (Pipeline.ucRefs τ sig) (V13 m (outsOf h) c) ∗ R c) ⊢ (R2 h).pre c := by
  unfold R2; rw [reg2_pre, V13_eq]
theorem hpost2 (c : Dev nD) : (R2 h).post c ⊢ iprop(StableHlo.held (c : Thread nD τ) (Pipeline.ucRefs τ sig) (V14 m (outsOf h) c) ∗ R c) := by
  unfold R2; rw [reg2_post, V14_eq]; exact .rfl

theorem frame (m : (ℓ : Loc nD τ sig) → Buf (Elt F) ℓ) (ρ : Dev nD → PrngReg) (h : IdxOk m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_regions m ρ (outsOf h) (adm m) (pdats h) (R0 h) (hpre0 h) (hpost0 h) (R1 h) (hpre1 h) (hpost1 h) (R2 h) (hpre2 h) (hpost2 h)

end Cert.Kernel.Hand

end
-- ==== Proof.Claims.lean ====
import proofs.«401711_j53747220742790_3_alg».proof.Defs
import proofs.«401711_j53747220742790_3_alg».proof.Proof.Gen.Kernel
import proofs.«401711_j53747220742790_3_alg».proof.Proof.Gen.KernelIdeal
import proofs.«401711_j53747220742790_3_alg».proof.Proof.Gen.ReferenceIdeal
import proofs.«401711_j53747220742790_3_alg».proof.Proof.Gen.Pre_finite_inputs
import proofs.«401711_j53747220742790_3_alg».proof.Proof.PreDecode
import proofs.«401711_j53747220742790_3_alg».proof.Proof.Spec
import proofs.«401711_j53747220742790_3_alg».proof.Proof.Lsm
import proofs.«401711_j53747220742790_3_alg».proof.Proof.KerSpec
import proofs.«401711_j53747220742790_3_alg».proof.Proof.KerSpecEq
import proofs.«401711_j53747220742790_3_alg».proof.Proof.RefRun
import proofs.«401711_j53747220742790_3_alg».proof.Proof.RefValue
import proofs.«401711_j53747220742790_3_alg».proof.Proof.KI.Family
import proofs.«401711_j53747220742790_3_alg».proof.Proof.KI.FamilyValue
import proofs.«401711_j53747220742790_3_alg».proof.Proof.KI.KerHostDefs
import proofs.«401711_j53747220742790_3_alg».proof.Proof.KI.KerResult
import proofs.«401711_j53747220742790_3_alg».proof.Proof.KI.Bridge
import proofs.«401711_j53747220742790_3_alg».proof.Proof.KI.ScatterOkAll
import proofs.«401711_j53747220742790_3_alg».proof.Proof.K.Family

noncomputable section

namespace Cert.Proof.GcnClaims

open Idealize.ShloMosaic Idealize.SL.Sem

theorem idxOk_ki (m : (ℓ : Loc Cert.KernelIdeal.nD Cert.KernelIdeal.τ Cert.KernelIdeal.sig) → Buf (Elt Ideal) ℓ) (hpre : Cert.Pre_KernelIdeal m) :
    Cert.KernelIdeal.Hand.IdxOk m :=
  fun c i => Cert.Gcn.PreDecode.idx_of_pre _ _ _ _ _ _ _ (hpre c) i

theorem idxOk_k (m : (ℓ : Loc Cert.Kernel.nD Cert.Kernel.τ Cert.Kernel.sig) → Buf (Elt Bits) ℓ) (hpre : Cert.Pre_Kernel m) :
    Cert.Kernel.Hand.IdxOk m :=
  fun c i => Cert.Gcn.PreDecode.idx_of_pre _ _ _ _ _ _ _ (hpre c) i

theorem frame_k : Cert.frame_Kernel := fun m ρ hpre => Cert.Kernel.Hand.frame m ρ (idxOk_k m hpre)

theorem frame_ki : Cert.frame_KernelIdeal := fun m ρ hpre => Cert.KernelIdeal.Hand.frame m ρ (idxOk_ki m hpre)

theorem frame_ri : Cert.frame_ReferenceIdeal :=
  fun m ρ _ => (θ_run Cert.ReferenceIdeal.defs _ _).mono (fun _ h c => (h c).2)
    (Cert.ReferenceIdeal.Value.run (F := Ideal) m ρ)

theorem ref_value (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v67)
          = Cert.Gcn.lsm (Cert.Gcn.Spec.outArr
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6)))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) := by
  refine (θ_run Cert.ReferenceIdeal.defs _ _).mono (fun r h c => ?_) (Cert.ReferenceIdeal.Value.run (F := Ideal) m' ρ')
  obtain ⟨hv, hargs⟩ := h c
  refine ⟨hv.trans ?_, hargs⟩
  exact Cert.Gcn.RefValue.ref_run_result_eq m' c (Cert.Gcn.PreDecode.idx_of_pre _ _ _ _ _ _ _ (hpre c))

theorem wtOf_real (ew : Fin 3200000 → EReal) (h : ∀ e, ∃ r : ℝ, ew e = (r : EReal)) (e : Fin 3300000) :
    ∃ r : ℝ, Cert.Gcn.Spec.wtOf ew e = (r : EReal) := by
  unfold Cert.Gcn.Spec.wtOf
  by_cases he : e.val < 3200000
  · rw [dif_pos he]; exact h _
  · rw [dif_neg he]; exact ⟨1, EReal.coe_one.symm⟩

open Cert.KernelIdeal.HandValue in

theorem ker_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v110)
          = Cert.Gcn.lsm (Cert.Gcn.Spec.outArr
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  have hI := idxOk_ki m hpre
  refine (θ_run Cert.KernelIdeal.defs _ _).mono (fun r h c => ?_) (Cert.KernelIdeal.Hand.run_value m ρ hI)
  obtain ⟨hv, hargs⟩ := h c
  refine ⟨hv.trans ?_, hargs⟩
  rw [← Cert.KernelIdeal.Hand.V16_eq' m (Cert.KernelIdeal.Hand.o6 hI) (Cert.KernelIdeal.Hand.o10 hI) (Cert.KernelIdeal.Hand.o14 hI) c,
    ker_result_eq m (Cert.KernelIdeal.Hand.outsOf hI) (scatterOk0 m hI) (scatterOk1 m hI) (scatterOk2 m hI) (sortedIdxOk m hI) c]
  refine congrArg Cert.Gcn.lsm (funext fun idx => ?_)
  obtain ⟨σ, hs, hd, hw, hpad⟩ := bridge m hI c
  obtain ⟨f0, f2, f3, f4, f5, f6⟩ := Cert.Gcn.PreDecode.finite_of_pre _ _ _ _ _ _ _ (hpre c)
  exact Cert.Gcn.KerSpec.kout_eq_out (ssN m c) (sdN m c) (swt m c) _ _ _ (xE m c) (w1E m c) (b1E m c) (w2E m c) (b2E m c)
    σ hs hd hw hpad (fun n => f0 _) (wtOf_real _ (fun e => f2 _)) (fun k => f3 _) (fun k => f4 _) (fun k f => f5 _)
    (fun f => f6 _) (idx 0) (idx 1)

theorem algebraic : Cert.algebraic_KernelIdeal_ReferenceIdeal := by
  intro m ρ m' ρ' hpre hagree
  have hpre' : Cert.Pre_ReferenceIdeal m' := fun c => by
    obtain ⟨a0, a1, a2, a3, a4, a5, a6⟩ := hagree c
    rw [a0, a1, a2, a3, a4, a5, a6]
    exact hpre c
  refine ⟨fun c => Cert.Gcn.lsm (Cert.Gcn.Spec.outArr
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))), ker_value m ρ hpre, ?_⟩
  refine (θ_run Cert.ReferenceIdeal.defs _ _).mono (fun r h c => ?_) (ref_value m' ρ' hpre')
  obtain ⟨hv, hargs⟩ := h c
  obtain ⟨a0, a1, a2, a3, a4, a5, a6⟩ := hagree c
  refine ⟨?_, hargs⟩
  rw [hv, a0, a1, a2, a3, a4, a5, a6]

end Cert.Proof.GcnClaims

end
-- ==== Proof.lean ====
import proofs.«401711_j53747220742790_3_alg».proof.Defs
import proofs.«401711_j53747220742790_3_alg».proof.Proof.Gen.Kernel
import proofs.«401711_j53747220742790_3_alg».proof.Proof.Gen.Kernel.Skeleton
import proofs.«401711_j53747220742790_3_alg».proof.Proof.Gen.Kernel.Launch
import proofs.«401711_j53747220742790_3_alg».proof.Proof.Gen.Kernel.Regions
import proofs.«401711_j53747220742790_3_alg».proof.Proof.Gen.KernelIdeal
import proofs.«401711_j53747220742790_3_alg».proof.Proof.Gen.KernelIdeal.Skeleton
import proofs.«401711_j53747220742790_3_alg».proof.Proof.Gen.KernelIdeal.Launch
import proofs.«401711_j53747220742790_3_alg».proof.Proof.Gen.KernelIdeal.Regions
import proofs.«401711_j53747220742790_3_alg».proof.Proof.Gen.ReferenceIdeal
import proofs.«401711_j53747220742790_3_alg».proof.Proof.Gen.Pre_finite_inputs
import proofs.«401711_j53747220742790_3_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, trivial, GcnClaims.algebraic⟩

end Cert.Proof

end
